-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)) (v3 : (c : Dev Cert.KernelIdeal.nD) → Buf (Elt Ideal) ((c.tc : Thread Cert.KernelIdeal.nD Cert.KernelIdeal.τ).loc Cert.KernelIdeal.main_v64_3)) (v4 : (c : Dev Cert.KernelIdeal.nD) → Buf (Elt Ideal) ((c.tc : Thread Cert.KernelIdeal.nD Cert.KernelIdeal.τ).loc Cert.KernelIdeal.main_v64_4)) (v5 : (c : Dev Cert.KernelIdeal.nD) → Buf (Elt Ideal) ((c.tc : Thread Cert.KernelIdeal.nD Cert.KernelIdeal.τ).loc Cert.KernelIdeal.main_v64_5)) (v6 : (c : Dev Cert.KernelIdeal.nD) → Buf (Elt Ideal) ((c.tc : Thread Cert.KernelIdeal.nD Cert.KernelIdeal.τ).loc Cert.KernelIdeal.main_v64_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_v64_3) = v3 c
          ∧ r.2.mem ((c.tc : Thread Cert.KernelIdeal.nD Cert.KernelIdeal.τ).loc Cert.KernelIdeal.main_v64_4) = v4 c
          ∧ r.2.mem ((c.tc : Thread Cert.KernelIdeal.nD Cert.KernelIdeal.τ).loc Cert.KernelIdeal.main_v64_5) = v5 c
          ∧ r.2.mem ((c.tc : Thread Cert.KernelIdeal.nD Cert.KernelIdeal.τ).loc Cert.KernelIdeal.main_v64_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_v227) = v1 c
          ∧ r.2.mem ((c.tc : Thread Cert.ReferenceIdeal.nD Cert.ReferenceIdeal.τ).loc Cert.ReferenceIdeal.main_v229) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_v150) = v4 c
          ∧ r.2.mem ((c.tc : Thread Cert.ReferenceIdeal.nD Cert.ReferenceIdeal.τ).loc Cert.ReferenceIdeal.main_v195) = v5 c
          ∧ r.2.mem ((c.tc : Thread Cert.ReferenceIdeal.nD Cert.ReferenceIdeal.τ).loc Cert.ReferenceIdeal.main_v44) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x80 : Shape := ⟨2, ![65536, 80]⟩
abbrev S65536x256 : Shape := ⟨2, ![65536, 256]⟩
abbrev S65536x160 : Shape := ⟨2, ![65536, 160]⟩
abbrev S65536x128 : Shape := ⟨2, ![65536, 128]⟩
abbrev S65536x164 : Shape := ⟨2, ![65536, 164]⟩
abbrev S65536 : Shape := ⟨1, ![65536]⟩
abbrev S1x80 : Shape := ⟨2, ![1, 80]⟩
abbrev S1 : Shape := ⟨1, ![1]⟩
abbrev S192x328 : Shape := ⟨2, ![192, 328]⟩
abbrev S192x192 : Shape := ⟨2, ![192, 192]⟩
abbrev S4x192 : Shape := ⟨2, ![4, 192]⟩
abbrev S4 : Shape := ⟨1, ![4]⟩
abbrev S480x272 : Shape := ⟨2, ![480, 272]⟩
abbrev S480x160 : Shape := ⟨2, ![480, 160]⟩
abbrev S160x160 : Shape := ⟨2, ![160, 160]⟩
abbrev S384x240 : Shape := ⟨2, ![384, 240]⟩
abbrev S384x128 : Shape := ⟨2, ![384, 128]⟩
abbrev S128x128 : Shape := ⟨2, ![128, 128]⟩
abbrev S384x208 : Shape := ⟨2, ![384, 208]⟩
abbrev S128x688 : Shape := ⟨2, ![128, 688]⟩
abbrev S40x128 : Shape := ⟨2, ![40, 128]⟩
abbrev S_ : Shape := ⟨0, ![]⟩

class Facts : Prop where
  bcast_S_S65536x80 : S_.BroadcastsInDim S65536x80 (![] : Fin 0 → Fin S65536x80.rank)
  reducesTo_S65536x80_S_d0_1 : S65536x80.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S65536x160 : S_.BroadcastsInDim S65536x160 (![] : Fin 0 → Fin S65536x160.rank)
  reducesTo_S65536x160_S_d0_1 : S65536x160.ReducesTo [0, 1] S_
  bcast_S_S65536x128 : S_.BroadcastsInDim S65536x128 (![] : Fin 0 → Fin S65536x128.rank)
  reducesTo_S65536x128_S_d0_1 : S65536x128.ReducesTo [0, 1] S_
  bcast_S_S65536x164 : S_.BroadcastsInDim S65536x164 (![] : Fin 0 → Fin S65536x164.rank)
  reducesTo_S65536x164_S_d0_1 : S65536x164.ReducesTo [0, 1] S_
  bcast_S_S1x80 : S_.BroadcastsInDim S1x80 (![] : Fin 0 → Fin S1x80.rank)
  reducesTo_S1x80_S_d0_1 : S1x80.ReducesTo [0, 1] S_
  bcast_S_S1 : S_.BroadcastsInDim S1 (![] : Fin 0 → Fin S1.rank)
  reducesTo_S1_S_d0 : S1.ReducesTo [0] S_
  bcast_S_S192x328 : S_.BroadcastsInDim S192x328 (![] : Fin 0 → Fin S192x328.rank)
  reducesTo_S192x328_S_d0_1 : S192x328.ReducesTo [0, 1] S_
  bcast_S_S192x192 : S_.BroadcastsInDim S192x192 (![] : Fin 0 → Fin S192x192.rank)
  reducesTo_S192x192_S_d0_1 : S192x192.ReducesTo [0, 1] S_
  bcast_S_S4x192 : S_.BroadcastsInDim S4x192 (![] : Fin 0 → Fin S4x192.rank)
  reducesTo_S4x192_S_d0_1 : S4x192.ReducesTo [0, 1] S_
  bcast_S_S4 : S_.BroadcastsInDim S4 (![] : Fin 0 → Fin S4.rank)
  reducesTo_S4_S_d0 : S4.ReducesTo [0] S_
  bcast_S_S480x272 : S_.BroadcastsInDim S480x272 (![] : Fin 0 → Fin S480x272.rank)
  reducesTo_S480x272_S_d0_1 : S480x272.ReducesTo [0, 1] S_
  bcast_S_S480x160 : S_.BroadcastsInDim S480x160 (![] : Fin 0 → Fin S480x160.rank)
  reducesTo_S480x160_S_d0_1 : S480x160.ReducesTo [0, 1] S_
  bcast_S_S160x160 : S_.BroadcastsInDim S160x160 (![] : Fin 0 → Fin S160x160.rank)
  reducesTo_S160x160_S_d0_1 : S160x160.ReducesTo [0, 1] S_
  bcast_S_S384x240 : S_.BroadcastsInDim S384x240 (![] : Fin 0 → Fin S384x240.rank)
  reducesTo_S384x240_S_d0_1 : S384x240.ReducesTo [0, 1] S_
  bcast_S_S384x128 : S_.BroadcastsInDim S384x128 (![] : Fin 0 → Fin S384x128.rank)
  reducesTo_S384x128_S_d0_1 : S384x128.ReducesTo [0, 1] S_
  bcast_S_S128x128 : S_.BroadcastsInDim S128x128 (![] : Fin 0 → Fin S128x128.rank)
  reducesTo_S128x128_S_d0_1 : S128x128.ReducesTo [0, 1] S_
  bcast_S_S384x208 : S_.BroadcastsInDim S384x208 (![] : Fin 0 → Fin S384x208.rank)
  reducesTo_S384x208_S_d0_1 : S384x208.ReducesTo [0, 1] S_
  bcast_S_S128x688 : S_.BroadcastsInDim S128x688 (![] : Fin 0 → Fin S128x688.rank)
  reducesTo_S128x688_S_d0_1 : S128x688.ReducesTo [0, 1] S_
  bcast_S_S40x128 : S_.BroadcastsInDim S40x128 (![] : Fin 0 → Fin S40x128.rank)
  reducesTo_S40x128_S_d0_1 : S40x128.ReducesTo [0, 1] S_

variable [Facts]

def fn_part7 {F : FTy → Type} [FloatOps F] (main_v118 : IVec S_ 1) (main_v119 : FVec F S40x128 .f32) : IVec S_ 1 :=
  let main_cst_46 : FVec F S_ .f32 := constant S_ .f32 0x7F800000#32
  let main_v120 : FVec F S40x128 .f32 := broadcastInDim S40x128 ![] bcast_S_S40x128 main_cst_46
  let main_v121 : IVec S40x128 1 := cmpf .olt main_v119 main_v120
  let main_c_47 : IVec S_ 1 := constantI S_ 1 1#1
  let main_v122 : IVec S_ 1 := (fun x v => Host.reduce IntOp.andi x v reducesTo_S40x128_S_d0_1 h_S_) main_v121 main_c_47
  let main_v123 : IVec S_ 1 := andi main_v118 main_v122
  main_v123

def fn_part6 {F : FTy → Type} [FloatOps F] (main_arg22 : FVec F S128x128 .f32) (main_arg23 : FVec F S128x688 .f32) (main_arg24 : FVec F S128x128 .f32) (main_arg25 : FVec F S40x128 .f32) (main_v98 : IVec S_ 1) (main_v101 : IVec S384x128 1) (main_c_39 : IVec S_ 1) : IVec S_ 1 :=
  let main_v102 : IVec S_ 1 := (fun x v => Host.reduce IntOp.andi x v reducesTo_S384x128_S_d0_1 h_S_) main_v101 main_c_39
  let main_v103 : IVec S_ 1 := andi main_v98 main_v102
  let main_v104 : FVec F S128x128 .f32 := Host.absf main_arg22
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128x688 .f32 := Host.absf main_arg23
  let main_cst_42 : FVec F S_ .f32 := constant S_ .f32 0x7F800000#32
  let main_v110 : FVec F S128x688 .f32 := broadcastInDim S128x688 ![] bcast_S_S128x688 main_cst_42
  let main_v111 : IVec S128x688 1 := cmpf .olt main_v109 main_v110
  let main_c_43 : IVec S_ 1 := constantI S_ 1 1#1
  let main_v112 : IVec S_ 1 := (fun x v => Host.reduce IntOp.andi x v reducesTo_S128x688_S_d0_1 h_S_) main_v111 main_c_43
  let main_v113 : IVec S_ 1 := andi main_v108 main_v112
  let main_v114 : FVec F S128x128 .f32 := Host.absf main_arg24
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S40x128 .f32 := Host.absf main_arg25
  fn_part7 (F := F) main_v118 main_v119

def fn_part5 {F : FTy → Type} [FloatOps F] (main_arg19 : FVec F S128x128 .f32) (main_arg20 : FVec F S384x208 .f32) (main_arg21 : FVec F S384x128 .f32) (main_arg22 : FVec F S128x128 .f32) (main_arg23 : FVec F S128x688 .f32) (main_arg24 : FVec F S128x128 .f32) (main_arg25 : FVec F S40x128 .f32) (main_v83 : IVec S_ 1) (main_v84 : FVec F S384x128 .f32) (main_cst_32 : FVec F S_ .f32) : IVec S_ 1 :=
  let main_v85 : FVec F S384x128 .f32 := broadcastInDim S384x128 ![] bcast_S_S384x128 main_cst_32
  let main_v86 : IVec S384x128 1 := cmpf .olt main_v84 main_v85
  let main_c_33 : IVec S_ 1 := constantI S_ 1 1#1
  let main_v87 : IVec S_ 1 := (fun x v => Host.reduce IntOp.andi x v reducesTo_S384x128_S_d0_1 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S384x208 .f32 := Host.absf main_arg20
  let main_cst_36 : FVec F S_ .f32 := constant S_ .f32 0x7F800000#32
  let main_v95 : FVec F S384x208 .f32 := broadcastInDim S384x208 ![] bcast_S_S384x208 main_cst_36
  let main_v96 : IVec S384x208 1 := cmpf .olt main_v94 main_v95
  let main_c_37 : IVec S_ 1 := constantI S_ 1 1#1
  let main_v97 : IVec S_ 1 := (fun x v => Host.reduce IntOp.andi x v reducesTo_S384x208_S_d0_1 h_S_) main_v96 main_c_37
  let main_v98 : IVec S_ 1 := andi main_v93 main_v97
  let main_v99 : FVec F S384x128 .f32 := Host.absf main_arg21
  let main_cst_38 : FVec F S_ .f32 := constant S_ .f32 0x7F800000#32
  let main_v100 : FVec F S384x128 .f32 := broadcastInDim S384x128 ![] bcast_S_S384x128 main_cst_38
  let main_v101 : IVec S384x128 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S480x160 .f32) (main_arg16 : FVec F S160x160 .f32) (main_arg17 : FVec F S384x240 .f32) (main_arg18 : FVec F S384x128 .f32) (main_arg19 : FVec F S128x128 .f32) (main_arg20 : FVec F S384x208 .f32) (main_arg21 : FVec F S384x128 .f32) (main_arg22 : FVec F S128x128 .f32) (main_arg23 : FVec F S128x688 .f32) (main_arg24 : FVec F S128x128 .f32) (main_arg25 : FVec F S40x128 .f32) (main_v63 : IVec S_ 1) (main_v67 : IVec S_ 1) : IVec S_ 1 :=
  let main_v68 : IVec S_ 1 := andi main_v63 main_v67
  let main_v69 : FVec F S480x160 .f32 := Host.absf main_arg15
  let main_cst_26 : FVec F S_ .f32 := constant S_ .f32 0x7F800000#32
  let main_v70 : FVec F S480x160 .f32 := broadcastInDim S480x160 ![] bcast_S_S480x160 main_cst_26
  let main_v71 : IVec S480x160 1 := cmpf .olt main_v69 main_v70
  let main_c_27 : IVec S_ 1 := constantI S_ 1 1#1
  let main_v72 : IVec S_ 1 := (fun x v => Host.reduce IntOp.andi x v reducesTo_S480x160_S_d0_1 h_S_) main_v71 main_c_27
  let main_v73 : IVec S_ 1 := andi main_v68 main_v72
  let main_v74 : FVec F S160x160 .f32 := Host.absf main_arg16
  let main_cst_28 : FVec F S_ .f32 := constant S_ .f32 0x7F800000#32
  let main_v75 : FVec F S160x160 .f32 := broadcastInDim S160x160 ![] bcast_S_S160x160 main_cst_28
  let main_v76 : IVec S160x160 1 := cmpf .olt main_v74 main_v75
  let main_c_29 : IVec S_ 1 := constantI S_ 1 1#1
  let main_v77 : IVec S_ 1 := (fun x v => Host.reduce IntOp.andi x v reducesTo_S160x160_S_d0_1 h_S_) main_v76 main_c_29
  let main_v78 : IVec S_ 1 := andi main_v73 main_v77
  let main_v79 : FVec F S384x240 .f32 := Host.absf main_arg17
  let main_cst_30 : FVec F S_ .f32 := constant S_ .f32 0x7F800000#32
  let main_v80 : FVec F S384x240 .f32 := broadcastInDim S384x240 ![] bcast_S_S384x240 main_cst_30
  let main_v81 : IVec S384x240 1 := cmpf .olt main_v79 main_v80
  let main_c_31 : IVec S_ 1 := constantI S_ 1 1#1
  let main_v82 : IVec S_ 1 := (fun x v => Host.reduce IntOp.andi x v reducesTo_S384x240_S_d0_1 h_S_) main_v81 main_c_31
  let main_v83 : IVec S_ 1 := andi main_v78 main_v82
  let main_v84 : FVec F S384x128 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S4x192 .f32) (main_arg13 : FVec F S4 .f32) (main_arg14 : FVec F S480x272 .f32) (main_arg15 : FVec F S480x160 .f32) (main_arg16 : FVec F S160x160 .f32) (main_arg17 : FVec F S384x240 .f32) (main_arg18 : FVec F S384x128 .f32) (main_arg19 : FVec F S128x128 .f32) (main_arg20 : FVec F S384x208 .f32) (main_arg21 : FVec F S384x128 .f32) (main_arg22 : FVec F S128x128 .f32) (main_arg23 : FVec F S128x688 .f32) (main_arg24 : FVec F S128x128 .f32) (main_arg25 : FVec F S40x128 .f32) (main_v48 : IVec S_ 1) (main_v49 : FVec F S192x192 .f32) (main_v50 : FVec F S192x192 .f32) : IVec S_ 1 :=
  let main_v51 : IVec S192x192 1 := cmpf .olt main_v49 main_v50
  let main_c_19 : IVec S_ 1 := constantI S_ 1 1#1
  let main_v52 : IVec S_ 1 := (fun x v => Host.reduce IntOp.andi x v reducesTo_S192x192_S_d0_1 h_S_) main_v51 main_c_19
  let main_v53 : IVec S_ 1 := andi main_v48 main_v52
  let main_v54 : FVec F S4x192 .f32 := Host.absf main_arg12
  let main_cst_20 : FVec F S_ .f32 := constant S_ .f32 0x7F800000#32
  let main_v55 : FVec F S4x192 .f32 := broadcastInDim S4x192 ![] bcast_S_S4x192 main_cst_20
  let main_v56 : IVec S4x192 1 := cmpf .olt main_v54 main_v55
  let main_c_21 : IVec S_ 1 := constantI S_ 1 1#1
  let main_v57 : IVec S_ 1 := (fun x v => Host.reduce IntOp.andi x v reducesTo_S4x192_S_d0_1 h_S_) main_v56 main_c_21
  let main_v58 : IVec S_ 1 := andi main_v53 main_v57
  let main_v59 : FVec F S4 .f32 := Host.absf main_arg13
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S480x272 .f32 := Host.absf main_arg14
  let main_cst_24 : FVec F S_ .f32 := constant S_ .f32 0x7F800000#32
  let main_v65 : FVec F S480x272 .f32 := broadcastInDim S480x272 ![] bcast_S_S480x272 main_cst_24
  let main_v66 : IVec S480x272 1 := cmpf .olt main_v64 main_v65
  let main_c_25 : IVec S_ 1 := constantI S_ 1 1#1
  let main_v67 : IVec S_ 1 := (fun x v => Host.reduce IntOp.andi x v reducesTo_S480x272_S_d0_1 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S1x80 .f32) (main_arg9 : FVec F S1 .f32) (main_arg10 : FVec F S192x328 .f32) (main_arg11 : FVec F S192x192 .f32) (main_arg12 : FVec F S4x192 .f32) (main_arg13 : FVec F S4 .f32) (main_arg14 : FVec F S480x272 .f32) (main_arg15 : FVec F S480x160 .f32) (main_arg16 : FVec F S160x160 .f32) (main_arg17 : FVec F S384x240 .f32) (main_arg18 : FVec F S384x128 .f32) (main_arg19 : FVec F S128x128 .f32) (main_arg20 : FVec F S384x208 .f32) (main_arg21 : FVec F S384x128 .f32) (main_arg22 : FVec F S128x128 .f32) (main_arg23 : FVec F S128x688 .f32) (main_arg24 : FVec F S128x128 .f32) (main_arg25 : FVec F S40x128 .f32) (main_v33 : IVec S_ 1) : IVec S_ 1 :=
  let main_v34 : FVec F S1x80 .f32 := Host.absf main_arg8
  let main_cst_12 : FVec F S_ .f32 := constant S_ .f32 0x7F800000#32
  let main_v35 : FVec F S1x80 .f32 := broadcastInDim S1x80 ![] bcast_S_S1x80 main_cst_12
  let main_v36 : IVec S1x80 1 := cmpf .olt main_v34 main_v35
  let main_c_13 : IVec S_ 1 := constantI S_ 1 1#1
  let main_v37 : IVec S_ 1 := (fun x v => Host.reduce IntOp.andi x v reducesTo_S1x80_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S192x328 .f32 := Host.absf main_arg10
  let main_cst_16 : FVec F S_ .f32 := constant S_ .f32 0x7F800000#32
  let main_v45 : FVec F S192x328 .f32 := broadcastInDim S192x328 ![] bcast_S_S192x328 main_cst_16
  let main_v46 : IVec S192x328 1 := cmpf .olt main_v44 main_v45
  let main_c_17 : IVec S_ 1 := constantI S_ 1 1#1
  let main_v47 : IVec S_ 1 := (fun x v => Host.reduce IntOp.andi x v reducesTo_S192x328_S_d0_1 h_S_) main_v46 main_c_17
  let main_v48 : IVec S_ 1 := andi main_v43 main_v47
  let main_v49 : FVec F S192x192 .f32 := Host.absf main_arg11
  let main_cst_18 : FVec F S_ .f32 := constant S_ .f32 0x7F800000#32
  let main_v50 : FVec F S192x192 .f32 := broadcastInDim S192x192 ![] bcast_S_S192x192 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S65536x128 .f32) (main_arg5 : FVec F S65536x128 .f32) (main_arg6 : FVec F S65536x164 .f32) (main_arg8 : FVec F S1x80 .f32) (main_arg9 : FVec F S1 .f32) (main_arg10 : FVec F S192x328 .f32) (main_arg11 : FVec F S192x192 .f32) (main_arg12 : FVec F S4x192 .f32) (main_arg13 : FVec F S4 .f32) (main_arg14 : FVec F S480x272 .f32) (main_arg15 : FVec F S480x160 .f32) (main_arg16 : FVec F S160x160 .f32) (main_arg17 : FVec F S384x240 .f32) (main_arg18 : FVec F S384x128 .f32) (main_arg19 : FVec F S128x128 .f32) (main_arg20 : FVec F S384x208 .f32) (main_arg21 : FVec F S384x128 .f32) (main_arg22 : FVec F S128x128 .f32) (main_arg23 : FVec F S128x688 .f32) (main_arg24 : FVec F S128x128 .f32) (main_arg25 : FVec F S40x128 .f32) (main_v13 : IVec S_ 1) (main_v16 : IVec S65536x160 1) : IVec S_ 1 :=
  let main_c_5 : IVec S_ 1 := constantI S_ 1 1#1
  let main_v17 : IVec S_ 1 := (fun x v => Host.reduce IntOp.andi x v reducesTo_S65536x160_S_d0_1 h_S_) main_v16 main_c_5
  let main_v18 : IVec S_ 1 := andi main_v13 main_v17
  let main_v19 : FVec F S65536x128 .f32 := Host.absf main_arg4
  let main_cst_6 : FVec F S_ .f32 := constant S_ .f32 0x7F800000#32
  let main_v20 : FVec F S65536x128 .f32 := broadcastInDim S65536x128 ![] bcast_S_S65536x128 main_cst_6
  let main_v21 : IVec S65536x128 1 := cmpf .olt main_v19 main_v20
  let main_c_7 : IVec S_ 1 := constantI S_ 1 1#1
  let main_v22 : IVec S_ 1 := (fun x v => Host.reduce IntOp.andi x v reducesTo_S65536x128_S_d0_1 h_S_) main_v21 main_c_7
  let main_v23 : IVec S_ 1 := andi main_v18 main_v22
  let main_v24 : FVec F S65536x128 .f32 := Host.absf main_arg5
  let main_cst_8 : FVec F S_ .f32 := constant S_ .f32 0x7F800000#32
  let main_v25 : FVec F S65536x128 .f32 := broadcastInDim S65536x128 ![] bcast_S_S65536x128 main_cst_8
  let main_v26 : IVec S65536x128 1 := cmpf .olt main_v24 main_v25
  let main_c_9 : IVec S_ 1 := constantI S_ 1 1#1
  let main_v27 : IVec S_ 1 := (fun x v => Host.reduce IntOp.andi x v reducesTo_S65536x128_S_d0_1 h_S_) main_v26 main_c_9
  let main_v28 : IVec S_ 1 := andi main_v23 main_v27
  let main_v29 : FVec F S65536x164 .f32 := Host.absf main_arg6
  let main_cst_10 : FVec F S_ .f32 := constant S_ .f32 0x7F800000#32
  let main_v30 : FVec F S65536x164 .f32 := broadcastInDim S65536x164 ![] bcast_S_S65536x164 main_cst_10
  let main_v31 : IVec S65536x164 1 := cmpf .olt main_v29 main_v30
  let main_c_11 : IVec S_ 1 := constantI S_ 1 1#1
  let main_v32 : IVec S_ 1 := (fun x v => Host.reduce IntOp.andi x v reducesTo_S65536x164_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S65536x80 .f32) (main_arg1 : FVec F S65536x256 .f32) (main_arg2 : FVec F S65536x256 .f32) (main_arg3 : FVec F S65536x160 .f32) (main_arg4 : FVec F S65536x128 .f32) (main_arg5 : FVec F S65536x128 .f32) (main_arg6 : FVec F S65536x164 .f32) (main_arg7 : IVec S65536 32) (main_arg8 : FVec F S1x80 .f32) (main_arg9 : FVec F S1 .f32) (main_arg10 : FVec F S192x328 .f32) (main_arg11 : FVec F S192x192 .f32) (main_arg12 : FVec F S4x192 .f32) (main_arg13 : FVec F S4 .f32) (main_arg14 : FVec F S480x272 .f32) (main_arg15 : FVec F S480x160 .f32) (main_arg16 : FVec F S160x160 .f32) (main_arg17 : FVec F S384x240 .f32) (main_arg18 : FVec F S384x128 .f32) (main_arg19 : FVec F S128x128 .f32) (main_arg20 : FVec F S384x208 .f32) (main_arg21 : FVec F S384x128 .f32) (main_arg22 : FVec F S128x128 .f32) (main_arg23 : FVec F S128x688 .f32) (main_arg24 : FVec F S128x128 .f32) (main_arg25 : FVec F S40x128 .f32) : IVec S_ 1 :=
  let main_v0 : FVec F S65536x80 .f32 := Host.absf main_arg0
  let main_cst : FVec F S_ .f32 := constant S_ .f32 0x7F800000#32
  let main_v1 : FVec F S65536x80 .f32 := broadcastInDim S65536x80 ![] bcast_S_S65536x80 main_cst
  let main_v2 : IVec S65536x80 1 := cmpf .olt main_v0 main_v1
  let main_c : IVec S_ 1 := constantI S_ 1 1#1
  let main_v3 : IVec S_ 1 := (fun x v => Host.reduce IntOp.andi x v reducesTo_S65536x80_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x160 .f32 := Host.absf main_arg3
  let main_cst_4 : FVec F S_ .f32 := constant S_ .f32 0x7F800000#32
  let main_v15 : FVec F S65536x160 .f32 := broadcastInDim S65536x160 ![] bcast_S_S65536x160 main_cst_4
  let main_v16 : IVec S65536x160 1 := cmpf .olt main_v14 main_v15
  fn_part1 (F := F) main_arg4 main_arg5 main_arg6 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S65536x80 : Shape := ⟨2, ![65536, 80]⟩
abbrev S65536x256 : Shape := ⟨2, ![65536, 256]⟩
abbrev S65536x160 : Shape := ⟨2, ![65536, 160]⟩
abbrev S65536x128 : Shape := ⟨2, ![65536, 128]⟩
abbrev S65536x164 : Shape := ⟨2, ![65536, 164]⟩
abbrev S65536 : Shape := ⟨1, ![65536]⟩
abbrev S1x80 : Shape := ⟨2, ![1, 80]⟩
abbrev S1 : Shape := ⟨1, ![1]⟩
abbrev S192x328 : Shape := ⟨2, ![192, 328]⟩
abbrev S192x192 : Shape := ⟨2, ![192, 192]⟩
abbrev S4x192 : Shape := ⟨2, ![4, 192]⟩
abbrev S4 : Shape := ⟨1, ![4]⟩
abbrev S480x272 : Shape := ⟨2, ![480, 272]⟩
abbrev S480x160 : Shape := ⟨2, ![480, 160]⟩
abbrev S160x160 : Shape := ⟨2, ![160, 160]⟩
abbrev S384x240 : Shape := ⟨2, ![384, 240]⟩
abbrev S384x128 : Shape := ⟨2, ![384, 128]⟩
abbrev S128x128 : Shape := ⟨2, ![128, 128]⟩
abbrev S384x208 : Shape := ⟨2, ![384, 208]⟩
abbrev S128x688 : Shape := ⟨2, ![128, 688]⟩
abbrev S40x128 : Shape := ⟨2, ![40, 128]⟩
abbrev S65536x1 : Shape := ⟨2, ![65536, 1]⟩
abbrev S1x1 : Shape := ⟨2, ![1, 1]⟩
abbrev S1x4 : Shape := ⟨2, ![1, 4]⟩
abbrev S192x164 : Shape := ⟨2, ![192, 164]⟩
abbrev S480x192 : Shape := ⟨2, ![480, 192]⟩
abbrev S480x40 : Shape := ⟨2, ![480, 40]⟩
abbrev S384x160 : Shape := ⟨2, ![384, 160]⟩
abbrev S384x40 : Shape := ⟨2, ![384, 40]⟩
abbrev S128x160 : Shape := ⟨2, ![128, 160]⟩
abbrev S128x192 : Shape := ⟨2, ![128, 192]⟩
abbrev S128x40 : Shape := ⟨2, ![128, 40]⟩
abbrev S1376x40 : Shape := ⟨2, ![1376, 40]⟩
abbrev S164x192 : Shape := ⟨2, ![164, 192]⟩
abbrev S192x4 : Shape := ⟨2, ![192, 4]⟩
abbrev S192x480 : Shape := ⟨2, ![192, 480]⟩
abbrev S160x480 : Shape := ⟨2, ![160, 480]⟩
abbrev S160x384 : Shape := ⟨2, ![160, 384]⟩
abbrev S128x384 : Shape := ⟨2, ![128, 384]⟩
abbrev S160x128 : Shape := ⟨2, ![160, 128]⟩
abbrev S192x128 : Shape := ⟨2, ![192, 128]⟩
abbrev S40x1376 : Shape := ⟨2, ![40, 1376]⟩
abbrev S65536x40 : Shape := ⟨2, ![65536, 40]⟩
abbrev S1024x80 : Shape := ⟨2, ![1024, 80]⟩
abbrev S1024x256 : Shape := ⟨2, ![1024, 256]⟩
abbrev S1024x160 : Shape := ⟨2, ![1024, 160]⟩
abbrev S1024x128 : Shape := ⟨2, ![1024, 128]⟩
abbrev S1024x164 : Shape := ⟨2, ![1024, 164]⟩
abbrev S1024x1 : Shape := ⟨2, ![1024, 1]⟩
abbrev S1024x40 : Shape := ⟨2, ![1024, 40]⟩
abbrev S1024 : Shape := ⟨1, ![1024]⟩
abbrev S1x44 : Shape := ⟨2, ![1, 44]⟩
abbrev S1024x44 : Shape := ⟨2, ![1024, 44]⟩
abbrev S1024x192 : Shape := ⟨2, ![1024, 192]⟩
abbrev S1024x4 : Shape := ⟨2, ![1024, 4]⟩
abbrev S1024x1376 : Shape := ⟨2, ![1024, 1376]⟩
abbrev S1024x480 : Shape := ⟨2, ![1024, 480]⟩
abbrev S1024x384 : Shape := ⟨2, ![1024, 384]⟩
abbrev S1024x216 : Shape := ⟨2, ![1024, 216]⟩

abbrev nBuf : Space → Nat
  | .hbm => 97
  | .vmem => 54
  | .smem => 0
  | _ => 0

abbrev bufTy : (tb : Table) → Fin (tcTables nBuf tb) → BufTy
  | .hbm, ⟨0, _⟩ => ⟨S65536x80, .f32⟩
  | .hbm, ⟨1, _⟩ => ⟨S65536x256, .f32⟩
  | .hbm, ⟨2, _⟩ => ⟨S65536x256, .f32⟩
  | .hbm, ⟨3, _⟩ => ⟨S65536x160, .f32⟩
  | .hbm, ⟨4, _⟩ => ⟨S65536x128, .f32⟩
  | .hbm, ⟨5, _⟩ => ⟨S65536x128, .f32⟩
  | .hbm, ⟨6, _⟩ => ⟨S65536x164, .f32⟩
  | .hbm, ⟨7, _⟩ => ⟨S65536, .i32⟩
  | .hbm, ⟨8, _⟩ => ⟨S1x80, .f32⟩
  | .hbm, ⟨9, _⟩ => ⟨S1, .f32⟩
  | .hbm, ⟨10, _⟩ => ⟨S192x328, .f32⟩
  | .hbm, ⟨11, _⟩ => ⟨S192x192, .f32⟩
  | .hbm, ⟨12, _⟩ => ⟨S4x192, .f32⟩
  | .hbm, ⟨13, _⟩ => ⟨S4, .f32⟩
  | .hbm, ⟨14, _⟩ => ⟨S480x272, .f32⟩
  | .hbm, ⟨15, _⟩ => ⟨S480x160, .f32⟩
  | .hbm, ⟨16, _⟩ => ⟨S160x160, .f32⟩
  | .hbm, ⟨17, _⟩ => ⟨S384x240, .f32⟩
  | .hbm, ⟨18, _⟩ => ⟨S384x128, .f32⟩
  | .hbm, ⟨19, _⟩ => ⟨S128x128, .f32⟩
  | .hbm, ⟨20, _⟩ => ⟨S384x208, .f32⟩
  | .hbm, ⟨21, _⟩ => ⟨S384x128, .f32⟩
  | .hbm, ⟨22, _⟩ => ⟨S128x128, .f32⟩
  | .hbm, ⟨23, _⟩ => ⟨S128x688, .f32⟩
  | .hbm, ⟨24, _⟩ => ⟨S128x128, .f32⟩
  | .hbm, ⟨25, _⟩ => ⟨S40x128, .f32⟩
  | .hbm, ⟨26, _⟩ => ⟨S65536x1, .i32⟩
  | .hbm, ⟨27, _⟩ => ⟨S1x1, .f32⟩
  | .hbm, ⟨28, _⟩ => ⟨S1x4, .f32⟩
  | .hbm, ⟨29, _⟩ => ⟨S192x164, .f32⟩
  | .hbm, ⟨30, _⟩ => ⟨S192x164, .f32⟩
  | .hbm, ⟨31, _⟩ => ⟨S480x192, .f32⟩
  | .hbm, ⟨32, _⟩ => ⟨S480x40, .f32⟩
  | .hbm, ⟨33, _⟩ => ⟨S480x40, .f32⟩
  | .hbm, ⟨34, _⟩ => ⟨S384x160, .f32⟩
  | .hbm, ⟨35, _⟩ => ⟨S384x40, .f32⟩
  | .hbm, ⟨36, _⟩ => ⟨S384x40, .f32⟩
  | .hbm, ⟨37, _⟩ => ⟨S384x128, .f32⟩
  | .hbm, ⟨38, _⟩ => ⟨S384x40, .f32⟩
  | .hbm, ⟨39, _⟩ => ⟨S384x40, .f32⟩
  | .hbm, ⟨40, _⟩ => ⟨S128x160, .f32⟩
  | .hbm, ⟨41, _⟩ => ⟨S128x128, .f32⟩
  | .hbm, ⟨42, _⟩ => ⟨S128x128, .f32⟩
  | .hbm, ⟨43, _⟩ => ⟨S128x192, .f32⟩
  | .hbm, ⟨44, _⟩ => ⟨S128x40, .f32⟩
  | .hbm, ⟨45, _⟩ => ⟨S128x40, .f32⟩
  | .hbm, ⟨46, _⟩ => ⟨S1376x40, .f32⟩
  | .hbm, ⟨47, _⟩ => ⟨S1376x40, .f32⟩
  | .hbm, ⟨48, _⟩ => ⟨S164x192, .f32⟩
  | .hbm, ⟨49, _⟩ => ⟨S164x192, .bf16⟩
  | .hbm, ⟨50, _⟩ => ⟨S164x192, .f32⟩
  | .hbm, ⟨51, _⟩ => ⟨S164x192, .bf16⟩
  | .hbm, ⟨52, _⟩ => ⟨S192x192, .f32⟩
  | .hbm, ⟨53, _⟩ => ⟨S192x192, .bf16⟩
  | .hbm, ⟨54, _⟩ => ⟨S192x4, .f32⟩
  | .hbm, ⟨55, _⟩ => ⟨S192x4, .bf16⟩
  | .hbm, ⟨56, _⟩ => ⟨S192x480, .f32⟩
  | .hbm, ⟨57, _⟩ => ⟨S192x480, .bf16⟩
  | .hbm, ⟨58, _⟩ => ⟨S160x480, .f32⟩
  | .hbm, ⟨59, _⟩ => ⟨S160x480, .bf16⟩
  | .hbm, ⟨60, _⟩ => ⟨S160x160, .f32⟩
  | .hbm, ⟨61, _⟩ => ⟨S160x160, .bf16⟩
  | .hbm, ⟨62, _⟩ => ⟨S160x384, .f32⟩
  | .hbm, ⟨63, _⟩ => ⟨S160x384, .bf16⟩
  | .hbm, ⟨64, _⟩ => ⟨S128x384, .f32⟩
  | .hbm, ⟨65, _⟩ => ⟨S128x384, .bf16⟩
  | .hbm, ⟨66, _⟩ => ⟨S128x128, .f32⟩
  | .hbm, ⟨67, _⟩ => ⟨S128x128, .bf16⟩
  | .hbm, ⟨68, _⟩ => ⟨S128x384, .f32⟩
  | .hbm, ⟨69, _⟩ => ⟨S128x384, .bf16⟩
  | .hbm, ⟨70, _⟩ => ⟨S128x384, .f32⟩
  | .hbm, ⟨71, _⟩ => ⟨S128x384, .bf16⟩
  | .hbm, ⟨72, _⟩ => ⟨S128x128, .f32⟩
  | .hbm, ⟨73, _⟩ => ⟨S128x128, .bf16⟩
  | .hbm, ⟨74, _⟩ => ⟨S160x128, .f32⟩
  | .hbm, ⟨75, _⟩ => ⟨S160x128, .bf16⟩
  | .hbm, ⟨76, _⟩ => ⟨S128x128, .f32⟩
  | .hbm, ⟨77, _⟩ => ⟨S128x128, .bf16⟩
  | .hbm, ⟨78, _⟩ => ⟨S128x128, .f32⟩
  | .hbm, ⟨79, _⟩ => ⟨S128x128, .bf16⟩
  | .hbm, ⟨80, _⟩ => ⟨S192x128, .f32⟩
  | .hbm, ⟨81, _⟩ => ⟨S192x128, .bf16⟩
  | .hbm, ⟨82, _⟩ => ⟨S128x128, .f32⟩
  | .hbm, ⟨83, _⟩ => ⟨S128x128, .bf16⟩
  | .hbm, ⟨84, _⟩ => ⟨S128x40, .f32⟩
  | .hbm, ⟨85, _⟩ => ⟨S128x40, .bf16⟩
  | .hbm, ⟨86, _⟩ => ⟨S40x1376, .f32⟩
  | .hbm, ⟨87, _⟩ => ⟨S40x1376, .bf16⟩
  | .hbm, ⟨88, _⟩ => ⟨S40x1376, .f32⟩
  | .hbm, ⟨89, _⟩ => ⟨S40x1376, .bf16⟩
  | .hbm, ⟨90, _⟩ => ⟨S65536x40, .f32⟩
  | .hbm, ⟨91, _⟩ => ⟨S65536x256, .f32⟩
  | .hbm, ⟨92, _⟩ => ⟨S65536x256, .f32⟩
  | .hbm, ⟨93, _⟩ => ⟨S65536x160, .f32⟩
  | .hbm, ⟨94, _⟩ => ⟨S65536x128, .f32⟩
  | .hbm, ⟨95, _⟩ => ⟨S65536x128, .f32⟩
  | .hbm, ⟨96, _⟩ => ⟨S65536x164, .f32⟩
  | .local _ .vmem, ⟨0, _⟩ => ⟨S1024x80, .f32⟩
  | .local _ .vmem, ⟨1, _⟩ => ⟨S1024x80, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x160, .f32⟩
  | .local _ .vmem, ⟨7, _⟩ => ⟨S1024x160, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x164, .f32⟩
  | .local _ .vmem, ⟨13, _⟩ => ⟨S1024x164, .f32⟩
  | .local _ .vmem, ⟨14, _⟩ => ⟨S1024x1, .i32⟩
  | .local _ .vmem, ⟨15, _⟩ => ⟨S1024x1, .i32⟩
  | .local _ .vmem, ⟨16, _⟩ => ⟨S1x80, .f32⟩
  | .local _ .vmem, ⟨17, _⟩ => ⟨S1x1, .f32⟩
  | .local _ .vmem, ⟨18, _⟩ => ⟨S164x192, .bf16⟩
  | .local _ .vmem, ⟨19, _⟩ => ⟨S164x192, .bf16⟩
  | .local _ .vmem, ⟨20, _⟩ => ⟨S192x192, .bf16⟩
  | .local _ .vmem, ⟨21, _⟩ => ⟨S192x4, .bf16⟩
  | .local _ .vmem, ⟨22, _⟩ => ⟨S1x4, .f32⟩
  | .local _ .vmem, ⟨23, _⟩ => ⟨S192x480, .bf16⟩
  | .local _ .vmem, ⟨24, _⟩ => ⟨S160x480, .bf16⟩
  | .local _ .vmem, ⟨25, _⟩ => ⟨S160x160, .bf16⟩
  | .local _ .vmem, ⟨26, _⟩ => ⟨S160x384, .bf16⟩
  | .local _ .vmem, ⟨27, _⟩ => ⟨S128x384, .bf16⟩
  | .local _ .vmem, ⟨28, _⟩ => ⟨S128x128, .bf16⟩
  | .local _ .vmem, ⟨29, _⟩ => ⟨S128x384, .bf16⟩
  | .local _ .vmem, ⟨30, _⟩ => ⟨S128x384, .bf16⟩
  | .local _ .vmem, ⟨31, _⟩ => ⟨S128x128, .bf16⟩
  | .local _ .vmem, ⟨32, _⟩ => ⟨S160x128, .bf16⟩
  | .local _ .vmem, ⟨33, _⟩ => ⟨S128x128, .bf16⟩
  | .local _ .vmem, ⟨34, _⟩ => ⟨S128x128, .bf16⟩
  | .local _ .vmem, ⟨35, _⟩ => ⟨S192x128, .bf16⟩
  | .local _ .vmem, ⟨36, _⟩ => ⟨S128x128, .bf16⟩
  | .local _ .vmem, ⟨37, _⟩ => ⟨S128x40, .bf16⟩
  | .local _ .vmem, ⟨38, _⟩ => ⟨S40x1376, .bf16⟩
  | .local _ .vmem, ⟨39, _⟩ => ⟨S40x1376, .bf16⟩
  | .local _ .vmem, ⟨40, _⟩ => ⟨S1024x40, .f32⟩
  | .local _ .vmem, ⟨41, _⟩ => ⟨S1024x40, .f32⟩
  | .local _ .vmem, ⟨42, _⟩ => ⟨S1024x256, .f32⟩
  | .local _ .vmem, ⟨43, _⟩ => ⟨S1024x256, .f32⟩
  | .local _ .vmem, ⟨44, _⟩ => ⟨S1024x256, .f32⟩
  | .local _ .vmem, ⟨45, _⟩ => ⟨S1024x256, .f32⟩
  | .local _ .vmem, ⟨46, _⟩ => ⟨S1024x160, .f32⟩
  | .local _ .vmem, ⟨47, _⟩ => ⟨S1024x160, .f32⟩
  | .local _ .vmem, ⟨48, _⟩ => ⟨S1024x128, .f32⟩
  | .local _ .vmem, ⟨49, _⟩ => ⟨S1024x128, .f32⟩
  | .local _ .vmem, ⟨50, _⟩ => ⟨S1024x128, .f32⟩
  | .local _ .vmem, ⟨51, _⟩ => ⟨S1024x128, .f32⟩
  | .local _ .vmem, ⟨52, _⟩ => ⟨S1024x164, .f32⟩
  | .local _ .vmem, ⟨53, _⟩ => ⟨S1024x164, .f32⟩
  | _, _ => ⟨S65536x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64_0 : Ref sig .tc := ⟨.hbm, 90, rfl⟩
abbrev main_v64_1 : Ref sig .tc := ⟨.hbm, 91, rfl⟩
abbrev main_v64_2 : Ref sig .tc := ⟨.hbm, 92, rfl⟩
abbrev main_v64_3 : Ref sig .tc := ⟨.hbm, 93, rfl⟩
abbrev main_v64_4 : Ref sig .tc := ⟨.hbm, 94, rfl⟩
abbrev main_v64_5 : Ref sig .tc := ⟨.hbm, 95, rfl⟩
abbrev main_v64_6 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_stg26_0 : Ref sig .tc := ⟨.vmem, 34, rfl⟩
abbrev cc0_stg27_0 : Ref sig .tc := ⟨.vmem, 35, rfl⟩
abbrev cc0_stg28_0 : Ref sig .tc := ⟨.vmem, 36, rfl⟩
abbrev cc0_stg29_0 : Ref sig .tc := ⟨.vmem, 37, rfl⟩
abbrev cc0_stg30_0 : Ref sig .tc := ⟨.vmem, 38, rfl⟩
abbrev cc0_stg31_0 : Ref sig .tc := ⟨.vmem, 39, rfl⟩
abbrev cc0_stg32_0 : Ref sig .tc := ⟨.vmem, 40, rfl⟩
abbrev cc0_stg32_1 : Ref sig .tc := ⟨.vmem, 41, rfl⟩
abbrev cc0_stg33_0 : Ref sig .tc := ⟨.vmem, 42, rfl⟩
abbrev cc0_stg33_1 : Ref sig .tc := ⟨.vmem, 43, rfl⟩
abbrev cc0_stg34_0 : Ref sig .tc := ⟨.vmem, 44, rfl⟩
abbrev cc0_stg34_1 : Ref sig .tc := ⟨.vmem, 45, rfl⟩
abbrev cc0_stg35_0 : Ref sig .tc := ⟨.vmem, 46, rfl⟩
abbrev cc0_stg35_1 : Ref sig .tc := ⟨.vmem, 47, rfl⟩
abbrev cc0_stg36_0 : Ref sig .tc := ⟨.vmem, 48, rfl⟩
abbrev cc0_stg36_1 : Ref sig .tc := ⟨.vmem, 49, rfl⟩
abbrev cc0_stg37_0 : Ref sig .tc := ⟨.vmem, 50, rfl⟩
abbrev cc0_stg37_1 : Ref sig .tc := ⟨.vmem, 51, rfl⟩
abbrev cc0_stg38_0 : Ref sig .tc := ⟨.vmem, 52, rfl⟩
abbrev cc0_stg38_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33
abbrev cc0_sem26_0 : DmaSem sig := 34
abbrev cc0_sem27_0 : DmaSem sig := 35
abbrev cc0_sem28_0 : DmaSem sig := 36
abbrev cc0_sem29_0 : DmaSem sig := 37
abbrev cc0_sem30_0 : DmaSem sig := 38
abbrev cc0_sem31_0 : DmaSem sig := 39
abbrev cc0_sem32_0 : DmaSem sig := 40
abbrev cc0_sem32_1 : DmaSem sig := 41
abbrev cc0_sem33_0 : DmaSem sig := 42
abbrev cc0_sem33_1 : DmaSem sig := 43
abbrev cc0_sem34_0 : DmaSem sig := 44
abbrev cc0_sem34_1 : DmaSem sig := 45
abbrev cc0_sem35_0 : DmaSem sig := 46
abbrev cc0_sem35_1 : DmaSem sig := 47
abbrev cc0_sem36_0 : DmaSem sig := 48
abbrev cc0_sem36_1 : DmaSem sig := 49
abbrev cc0_sem37_0 : DmaSem sig := 50
abbrev cc0_sem37_1 : DmaSem sig := 51
abbrev cc0_sem38_0 : DmaSem sig := 52
abbrev cc0_sem38_1 : DmaSem sig := 53

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x164 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S164x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S164x192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S192x192 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S192x4 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S192x480 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S160x480 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S160x160 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S160x384 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x384 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x384 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x384 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S160x128 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x128 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x128 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S192x128 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S128x128 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x40 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S40x1376 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S40x1376 .bf16 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 2 → Memref sig .tc .vmem S1024x40 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1024x256 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1024x256 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1024x160 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1024x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1024x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1024x164 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

class Facts₀ : Prop where
  shapeCasts_S65536_S65536x1 : S65536.ShapeCasts S65536x1
  shapeCasts_S1_S1x1 : S1.ShapeCasts S1x1
  shapeCasts_S4_S1x4 : S4.ShapeCasts S1x4
  slices_S192x328_S192x164_0_0 : S192x328.Slices ![0, 0] S192x164
  slices_S192x328_S192x164_0_164 : S192x328.Slices ![0, 164] S192x164
  slices_S480x272_S480x192_0_0 : S480x272.Slices ![0, 0] S480x192
  slices_S480x272_S480x40_0_192 : S480x272.Slices ![0, 192] S480x40
  slices_S480x272_S480x40_0_232 : S480x272.Slices ![0, 232] S480x40
  slices_S384x240_S384x160_0_0 : S384x240.Slices ![0, 0] S384x160
  slices_S384x240_S384x40_0_160 : S384x240.Slices ![0, 160] S384x40
  slices_S384x240_S384x40_0_200 : S384x240.Slices ![0, 200] S384x40
  slices_S384x208_S384x128_0_0 : S384x208.Slices ![0, 0] S384x128
  slices_S384x208_S384x40_0_128 : S384x208.Slices ![0, 128] S384x40
  slices_S384x208_S384x40_0_168 : S384x208.Slices ![0, 168] S384x40
  slices_S128x688_S128x160_0_0 : S128x688.Slices ![0, 0] S128x160
  slices_S128x688_S128x128_0_160 : S128x688.Slices ![0, 160] S128x128
  slices_S128x688_S128x128_0_288 : S128x688.Slices ![0, 288] S128x128
  slices_S128x688_S128x192_0_416 : S128x688.Slices ![0, 416] S128x192
  slices_S128x688_S128x40_0_608 : S128x688.Slices ![0, 608] S128x40
  slices_S128x688_S128x40_0_648 : S128x688.Slices ![0, 648] S128x40
  concatenates_S480x40_S384x40_S384x40_S128x40_S1376x40_d0 : Shape.Concatenates [S480x40, S384x40, S384x40, S128x40] S1376x40 0
  transposes_S192x164_S164x192_1_0 : S192x164.Transposes [1, 0] S164x192
  bitsLt_bf16_f32 : FTy.bits .bf16 < FTy.bits .f32
  transposes_S192x192_S192x192_1_0 : S192x192.Transposes [1, 0] S192x192
  transposes_S4x192_S192x4_1_0 : S4x192.Transposes [1, 0] S192x4
  transposes_S480x192_S192x480_1_0 : S480x192.Transposes [1, 0] S192x480
  transposes_S480x160_S160x480_1_0 : S480x160.Transposes [1, 0] S160x480
  transposes_S160x160_S160x160_1_0 : S160x160.Transposes [1, 0] S160x160
  transposes_S384x160_S160x384_1_0 : S384x160.Transposes [1, 0] S160x384
  transposes_S384x128_S128x384_1_0 : S384x128.Transposes [1, 0] S128x384
  transposes_S128x128_S128x128_1_0 : S128x128.Transposes [1, 0] S128x128
  transposes_S128x160_S160x128_1_0 : S128x160.Transposes [1, 0] S160x128
  transposes_S128x192_S192x128_1_0 : S128x192.Transposes [1, 0] S192x128
  transposes_S40x128_S128x40_1_0 : S40x128.Transposes [1, 0] S128x40
  transposes_S1376x40_S40x1376_1_0 : S1376x40.Transposes [1, 0] S40x1376
  inb_S1024x80_S1024x80_0_0 : ∀ a, (![0, 0] : Fin 2 → Nat) a + S1024x80.size a ≤ S1024x80.size a
  h_S1024x80 : 0 < S1024x80.numel
  inb_S1024x256_S1024x256_0_0 : ∀ a, (![0, 0] : Fin 2 → Nat) a + S1024x256.size a ≤ S1024x256.size a
  h_S1024x256 : 0 < S1024x256.numel
  inb_S1024x160_S1024x160_0_0 : ∀ a, (![0, 0] : Fin 2 → Nat) a + S1024x160.size a ≤ S1024x160.size a
  h_S1024x160 : 0 < S1024x160.numel
  inb_S1024x128_S1024x128_0_0 : ∀ a, (![0, 0] : Fin 2 → Nat) a + S1024x128.size a ≤ S1024x128.size a
  h_S1024x128 : 0 < S1024x128.numel
  inb_S1024x164_S1024x164_0_0 : ∀ a, (![0, 0] : Fin 2 → Nat) a + S1024x164.size a ≤ S1024x164.size a
  h_S1024x164 : 0 < S1024x164.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x80_S1x80_0_0 : ∀ a, (![0, 0] : Fin 2 → Nat) a + S1x80.size a ≤ S1x80.size a
  h_S1x80 : 0 < S1x80.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S164x192_S164x192_0_0 : ∀ a, (![0, 0] : Fin 2 → Nat) a + S164x192.size a ≤ S164x192.size a
  h_S164x192 : 0 < S164x192.numel
  shapeCasts_S164x192_S164x192 : S164x192.ShapeCasts S164x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S192x4_S192x4_0_0 : ∀ a, (![0, 0] : Fin 2 → Nat) a + S192x4.size a ≤ S192x4.size a
  h_S192x4 : 0 < S192x4.numel
  shapeCasts_S192x4_S192x4 : S192x4.ShapeCasts S192x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S192x480_S192x480_0_0 : ∀ a, (![0, 0] : Fin 2 → Nat) a + S192x480.size a ≤ S192x480.size a
  h_S192x480 : 0 < S192x480.numel
  shapeCasts_S192x480_S192x480 : S192x480.ShapeCasts S192x480
  inb_S160x480_S160x480_0_0 : ∀ a, (![0, 0] : Fin 2 → Nat) a + S160x480.size a ≤ S160x480.size a
  h_S160x480 : 0 < S160x480.numel
  shapeCasts_S160x480_S160x480 : S160x480.ShapeCasts S160x480
  inb_S160x160_S160x160_0_0 : ∀ a, (![0, 0] : Fin 2 → Nat) a + S160x160.size a ≤ S160x160.size a
  h_S160x160 : 0 < S160x160.numel
  shapeCasts_S160x160_S160x160 : S160x160.ShapeCasts S160x160
  inb_S160x384_S160x384_0_0 : ∀ a, (![0, 0] : Fin 2 → Nat) a + S160x384.size a ≤ S160x384.size a
  h_S160x384 : 0 < S160x384.numel
  shapeCasts_S160x384_S160x384 : S160x384.ShapeCasts S160x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S160x128_S160x128_0_0 : ∀ a, (![0, 0] : Fin 2 → Nat) a + S160x128.size a ≤ S160x128.size a
  h_S160x128 : 0 < S160x128.numel
  shapeCasts_S160x128_S160x128 : S160x128.ShapeCasts S160x128
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S40x1376_S40x1376_0_0 : ∀ a, (![0, 0] : Fin 2 → Nat) a + S40x1376.size a ≤ S40x1376.size a
  h_S40x1376 : 0 < S40x1376.numel
  shapeCasts_S40x1376_S40x1376 : S40x1376.ShapeCasts S40x1376
  broadcasts_S1x80_S1024x80 : S1x80.Broadcasts S1024x80
  reduces_S1024x80_S1024 : S1024x80.Reduces [1] S1024
  shapeCasts_S1024_S1024x1 : S1024.ShapeCasts S1024x1
  broadcasts_S1x1_S1024x1 : S1x1.Broadcasts S1024x1
  iota_S1x44_d1_w32 : S1x44.Iotas .tc 32 [1]
  broadcasts_S1024x1_S1024x44 : S1024x1.Broadcasts S1024x44
  broadcasts_S1x44_S1024x44 : S1x44.Broadcasts S1024x44
  natLt_1_32 : 1 < 32
  iota_S1024x256_d1_w32 : S1024x256.Iotas .tc 32 [1]
  slices_S1024x44_o0_0_S1024x1 : S1024x44.Slices ![0, 0] S1024x1
  broadcasts_S1024x1_S1024x256 : S1024x1.Broadcasts S1024x256
  reduces_S1024x256_S1024 : S1024x256.Reduces [1] S1024
  slices_S1024x44_o0_1_S1024x1 : S1024x44.Slices ![0, 1] S1024x1
  slices_S1024x44_o0_2_S1024x1 : S1024x44.Slices ![0, 2] S1024x1
  slices_S1024x44_o0_3_S1024x1 : S1024x44.Slices ![0, 3] S1024x1
  slices_S1024x44_o0_4_S1024x1 : S1024x44.Slices ![0, 4] S1024x1
  slices_S1024x44_o0_5_S1024x1 : S1024x44.Slices ![0, 5] S1024x1
  slices_S1024x44_o0_6_S1024x1 : S1024x44.Slices ![0, 6] S1024x1
  slices_S1024x44_o0_7_S1024x1 : S1024x44.Slices ![0, 7] S1024x1
  slices_S1024x44_o0_8_S1024x1 : S1024x44.Slices ![0, 8] S1024x1
  slices_S1024x44_o0_9_S1024x1 : S1024x44.Slices ![0, 9] S1024x1
  slices_S1024x44_o0_10_S1024x1 : S1024x44.Slices ![0, 10] S1024x1
  slices_S1024x44_o0_11_S1024x1 : S1024x44.Slices ![0, 11] S1024x1
  slices_S1024x44_o0_12_S1024x1 : S1024x44.Slices ![0, 12] S1024x1
  slices_S1024x44_o0_13_S1024x1 : S1024x44.Slices ![0, 13] S1024x1
  slices_S1024x44_o0_14_S1024x1 : S1024x44.Slices ![0, 14] S1024x1
  slices_S1024x44_o0_15_S1024x1 : S1024x44.Slices ![0, 15] S1024x1
  slices_S1024x44_o0_16_S1024x1 : S1024x44.Slices ![0, 16] S1024x1
  slices_S1024x44_o0_17_S1024x1 : S1024x44.Slices ![0, 17] S1024x1
  slices_S1024x44_o0_18_S1024x1 : S1024x44.Slices ![0, 18] S1024x1
  slices_S1024x44_o0_19_S1024x1 : S1024x44.Slices ![0, 19] S1024x1
  slices_S1024x44_o0_20_S1024x1 : S1024x44.Slices ![0, 20] S1024x1
  slices_S1024x44_o0_21_S1024x1 : S1024x44.Slices ![0, 21] S1024x1
  slices_S1024x44_o0_22_S1024x1 : S1024x44.Slices ![0, 22] S1024x1
  slices_S1024x44_o0_23_S1024x1 : S1024x44.Slices ![0, 23] S1024x1
  slices_S1024x44_o0_24_S1024x1 : S1024x44.Slices ![0, 24] S1024x1
  slices_S1024x44_o0_25_S1024x1 : S1024x44.Slices ![0, 25] S1024x1
  slices_S1024x44_o0_26_S1024x1 : S1024x44.Slices ![0, 26] S1024x1
  slices_S1024x44_o0_27_S1024x1 : S1024x44.Slices ![0, 27] S1024x1
  slices_S1024x44_o0_28_S1024x1 : S1024x44.Slices ![0, 28] S1024x1
  slices_S1024x44_o0_29_S1024x1 : S1024x44.Slices ![0, 29] S1024x1
  slices_S1024x44_o0_30_S1024x1 : S1024x44.Slices ![0, 30] S1024x1
  slices_S1024x44_o0_31_S1024x1 : S1024x44.Slices ![0, 31] S1024x1
  slices_S1024x44_o0_32_S1024x1 : S1024x44.Slices ![0, 32] S1024x1
  slices_S1024x44_o0_33_S1024x1 : S1024x44.Slices ![0, 33] S1024x1
  slices_S1024x44_o0_34_S1024x1 : S1024x44.Slices ![0, 34] S1024x1
  slices_S1024x44_o0_35_S1024x1 : S1024x44.Slices ![0, 35] S1024x1
  slices_S1024x44_o0_36_S1024x1 : S1024x44.Slices ![0, 36] S1024x1
  slices_S1024x44_o0_37_S1024x1 : S1024x44.Slices ![0, 37] S1024x1
  slices_S1024x44_o0_38_S1024x1 : S1024x44.Slices ![0, 38] S1024x1
  slices_S1024x44_o0_39_S1024x1 : S1024x44.Slices ![0, 39] S1024x1
  slices_S1024x44_o0_40_S1024x1 : S1024x44.Slices ![0, 40] S1024x1
  slices_S1024x44_o0_41_S1024x1 : S1024x44.Slices ![0, 41] S1024x1
  slices_S1024x44_o0_42_S1024x1 : S1024x44.Slices ![0, 42] S1024x1
  slices_S1024x44_o0_43_S1024x1 : S1024x44.Slices ![0, 43] S1024x1
  concatenates_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x44_d1 : Shape.Concatenates (S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: []) S1024x44 1
  slices_S1024x256_o0_216_S1024x40 : S1024x256.Slices ![0, 216] S1024x40
  broadcasts_S1024x1_S1024x40 : S1024x1.Broadcasts S1024x40
  concatenates_S1024x80_S1024x44_S1024x40_S1024x164_d1 : Shape.Concatenates [S1024x80, S1024x44, S1024x40] S1024x164 1
  slices_S1024x44_o0_2_S1024x40 : S1024x44.Slices ![0, 2] S1024x40
  broadcasts_S1x4_S1024x4 : S1x4.Broadcasts S1024x4
  slices_S1024x4_o0_0_S1024x1 : S1024x4.Slices ![0, 0] S1024x1
  slices_S1024x1376_o0_0_S1024x480 : S1024x1376.Slices ![0, 0] S1024x480
  broadcasts_S1024x1_S1024x480 : S1024x1.Broadcasts S1024x480
  slices_S1024x4_o0_1_S1024x1 : S1024x4.Slices ![0, 1] S1024x1
  slices_S1024x1376_o0_480_S1024x384 : S1024x1376.Slices ![0, 480] S1024x384
  broadcasts_S1024x1_S1024x384 : S1024x1.Broadcasts S1024x384
  slices_S1024x4_o0_2_S1024x1 : S1024x4.Slices ![0, 2] S1024x1
  slices_S1024x1376_o0_864_S1024x384 : S1024x1376.Slices ![0, 864] S1024x384
  slices_S1024x4_o0_3_S1024x1 : S1024x4.Slices ![0, 3] S1024x1
  slices_S1024x1376_o0_1248_S1024x128 : S1024x1376.Slices ![0, 1248] S1024x128
  broadcasts_S1024x1_S1024x128 : S1024x1.Broadcasts S1024x128
  slices_S1024x480_o0_0_S1024x160 : S1024x480.Slices ![0, 0] S1024x160
  slices_S1024x480_o0_160_S1024x160 : S1024x480.Slices ![0, 160] S1024x160
  slices_S1024x480_o0_320_S1024x160 : S1024x480.Slices ![0, 320] S1024x160
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  slices_S1024x256_o0_40_S1024x216 : S1024x256.Slices ![0, 40] S1024x216
  concatenates_S1024x216_S1024x40_S1024x256_d1 : Shape.Concatenates [S1024x216, S1024x40] S1024x256 1
  inb_S1024x40_S1024x40_0_0 : ∀ a, (![0, 0] : Fin 2 → Nat) a + S1024x40.size a ≤ S1024x40.size a
  h_S1024x40 : 0 < S1024x40.numel
  dot_S1024x164_S164x192_S1024x192_1_0_0_1_n_n_wf : DotDims.WF S1024x164 S164x192 S1024x192 [1] [0] [0] [1] [] []
  dot_S1024x192_S192x192_S1024x192_1_0_0_1_n_n_wf : DotDims.WF S1024x192 S192x192 S1024x192 [1] [0] [0] [1] [] []
  dot_S1024x192_S192x4_S1024x4_1_0_0_1_n_n_wf : DotDims.WF S1024x192 S192x4 S1024x4 [1] [0] [0] [1] [] []
  dot_S1024x40_S40x1376_S1024x1376_1_0_0_1_n_n_wf : DotDims.WF S1024x40 S40x1376 S1024x1376 [1] [0] [0] [1] [] []
  dot_S1024x192_S192x480_S1024x480_1_0_0_1_n_n_wf : DotDims.WF S1024x192 S192x480 S1024x480 [1] [0] [0] [1] [] []
  dot_S1024x160_S160x480_S1024x480_1_0_0_1_n_n_wf : DotDims.WF S1024x160 S160x480 S1024x480 [1] [0] [0] [1] [] []
  dot_S1024x160_S160x160_S1024x160_1_0_0_1_n_n_wf : DotDims.WF S1024x160 S160x160 S1024x160 [1] [0] [0] [1] [] []
  dot_S1024x160_S160x384_S1024x384_1_0_0_1_n_n_wf : DotDims.WF S1024x160 S160x384 S1024x384 [1] [0] [0] [1] [] []
  dot_S1024x128_S128x384_S1024x384_1_0_0_1_n_n_wf : DotDims.WF S1024x128 S128x384 S1024x384 [1] [0] [0] [1] [] []
  dot_S1024x128_S128x128_S1024x128_1_0_0_1_n_n_wf : DotDims.WF S1024x128 S128x128 S1024x128 [1] [0] [0] [1] [] []
  dot_S1024x160_S160x128_S1024x128_1_0_0_1_n_n_wf : DotDims.WF S1024x160 S160x128 S1024x128 [1] [0] [0] [1] [] []
  dot_S1024x192_S192x128_S1024x128_1_0_0_1_n_n_wf : DotDims.WF S1024x192 S192x128 S1024x128 [1] [0] [0] [1] [] []
  dot_S1024x128_S128x40_S1024x40_1_0_0_1_n_n_wf : DotDims.WF S1024x128 S128x40 S1024x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x80.size a ≤ S65536x80.size a
  hwx0_0 : ∀ i : grid0.Coords, EltTy.bits .f32 = 32 ∨ (Rect.block (s := S65536x80) S1024x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x160.size a ≤ S65536x160.size a
  hwx0_3 : ∀ i : grid0.Coords, EltTy.bits .f32 = 32 ∨ (Rect.block (s := S65536x160) S1024x160.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S65536x128.size a
  hwx0_4 : ∀ i : grid0.Coords, EltTy.bits .f32 = 32 ∨ (Rect.block (s := S65536x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S65536x128.size a
  hwx0_5 : ∀ i : grid0.Coords, EltTy.bits .f32 = 32 ∨ (Rect.block (s := S65536x128) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x164.size a ≤ S65536x164.size a
  hwx0_6 : ∀ i : grid0.Coords, EltTy.bits .f32 = 32 ∨ (Rect.block (s := S65536x164) S1024x164.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S65536x1.size a
  hwx0_7 : ∀ i : grid0.Coords, EltTy.bits .i32 = 32 ∨ (Rect.block (s := S65536x1) S1024x1.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x80.size a ≤ S1x80.size a
  hwx0_8 : ∀ i : grid0.Coords, EltTy.bits .f32 = 32 ∨ (Rect.block (s := S1x80) S1x80.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S164x192.size a ≤ S164x192.size a
  hwx0_10 : ∀ i : grid0.Coords, EltTy.bits .bf16 = 32 ∨ (Rect.block (s := S164x192) S164x192.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S164x192.size a ≤ S164x192.size a
  hwx0_11 : ∀ i : grid0.Coords, EltTy.bits .bf16 = 32 ∨ (Rect.block (s := S164x192) S164x192.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S192x192.size a ≤ S192x192.size a
  hwx0_12 : ∀ i : grid0.Coords, EltTy.bits .bf16 = 32 ∨ (Rect.block (s := S192x192) S192x192.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S192x4.size a ≤ S192x4.size a
  hwx0_13 : ∀ i : grid0.Coords, EltTy.bits .bf16 = 32 ∨ (Rect.block (s := S192x4) S192x4.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x4.size a ≤ S1x4.size a
  hwx0_14 : ∀ i : grid0.Coords, EltTy.bits .f32 = 32 ∨ (Rect.block (s := S1x4) S1x4.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S192x480.size a ≤ S192x480.size a
  hwx0_15 : ∀ i : grid0.Coords, EltTy.bits .bf16 = 32 ∨ (Rect.block (s := S192x480) S192x480.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S160x480.size a ≤ S160x480.size a
  hwx0_16 : ∀ i : grid0.Coords, EltTy.bits .bf16 = 32 ∨ (Rect.block (s := S160x480) S160x480.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S160x160.size a ≤ S160x160.size a
  hwx0_17 : ∀ i : grid0.Coords, EltTy.bits .bf16 = 32 ∨ (Rect.block (s := S160x160) S160x160.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S160x384.size a ≤ S160x384.size a
  hwx0_18 : ∀ i : grid0.Coords, EltTy.bits .bf16 = 32 ∨ (Rect.block (s := S160x384) S160x384.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x384.size a ≤ S128x384.size a
  hwx0_19 : ∀ i : grid0.Coords, EltTy.bits .bf16 = 32 ∨ (Rect.block (s := S128x384) S128x384.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .bf16 = 32 ∨ (Rect.block (s := S128x128) S128x128.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x384.size a ≤ S128x384.size a
  hwx0_21 : ∀ i : grid0.Coords, EltTy.bits .bf16 = 32 ∨ (Rect.block (s := S128x384) S128x384.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128x384.size a ≤ S128x384.size a
  hwx0_22 : ∀ i : grid0.Coords, EltTy.bits .bf16 = 32 ∨ (Rect.block (s := S128x384) S128x384.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x128.size a ≤ S128x128.size a
  hwx0_23 : ∀ i : grid0.Coords, EltTy.bits .bf16 = 32 ∨ (Rect.block (s := S128x128) S128x128.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S160x128.size a ≤ S160x128.size a
  hwx0_24 : ∀ i : grid0.Coords, EltTy.bits .bf16 = 32 ∨ (Rect.block (s := S160x128) S160x128.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128x128.size a ≤ S128x128.size a
  hwx0_25 : ∀ i : grid0.Coords, EltTy.bits .bf16 = 32 ∨ (Rect.block (s := S128x128) S128x128.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S128x128.size a ≤ S128x128.size a
  hwx0_26 : ∀ i : grid0.Coords, EltTy.bits .bf16 = 32 ∨ (Rect.block (s := S128x128) S128x128.size (cc0_transform_26 i) (hinb0_26 i)).WholeWords (EltTy.packing .bf16)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S192x128.size a ≤ S192x128.size a
  hwx0_27 : ∀ i : grid0.Coords, EltTy.bits .bf16 = 32 ∨ (Rect.block (s := S192x128) S192x128.size (cc0_transform_27 i) (hinb0_27 i)).WholeWords (EltTy.packing .bf16)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S128x128.size a ≤ S128x128.size a
  hwx0_28 : ∀ i : grid0.Coords, EltTy.bits .bf16 = 32 ∨ (Rect.block (s := S128x128) S128x128.size (cc0_transform_28 i) (hinb0_28 i)).WholeWords (EltTy.packing .bf16)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S128x40.size a ≤ S128x40.size a
  hwx0_29 : ∀ i : grid0.Coords, EltTy.bits .bf16 = 32 ∨ (Rect.block (s := S128x40) S128x40.size (cc0_transform_29 i) (hinb0_29 i)).WholeWords (EltTy.packing .bf16)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S40x1376.size a ≤ S40x1376.size a
  hwx0_30 : ∀ i : grid0.Coords, EltTy.bits .bf16 = 32 ∨ (Rect.block (s := S40x1376) S40x1376.size (cc0_transform_30 i) (hinb0_30 i)).WholeWords (EltTy.packing .bf16)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S40x1376.size a ≤ S40x1376.size a
  hwx0_31 : ∀ i : grid0.Coords, EltTy.bits .bf16 = 32 ∨ (Rect.block (s := S40x1376) S40x1376.size (cc0_transform_31 i) (hinb0_31 i)).WholeWords (EltTy.packing .bf16)
  hstage0_32 : ∀ j, (stage0_32 j).IsWhole
  nbuf0_32 : grid0.bufCount reads0_32 false = 2
  hreads0_32 : ∀ i i' : grid0.Coords, (∀ a, reads0_32 a = true → i a = i' a) → cc0_transform_32 i = cc0_transform_32 i'
  hinb0_32 : ∀ (i : grid0.Coords) a, (cc0_transform_32 i a + 1) * S1024x40.size a ≤ S65536x40.size a
  hwx0_32 : ∀ i : grid0.Coords, EltTy.bits .f32 = 32 ∨ (Rect.block (s := S65536x40) S1024x40.size (cc0_transform_32 i) (hinb0_32 i)).WholeWords (EltTy.packing .f32)
  hstage0_33 : ∀ j, (stage0_33 j).IsWhole
  nbuf0_33 : grid0.bufCount reads0_33 false = 2
  hreads0_33 : ∀ i i' : grid0.Coords, (∀ a, reads0_33 a = true → i a = i' a) → cc0_transform_33 i = cc0_transform_33 i'
  hinb0_33 : ∀ (i : grid0.Coords) a, (cc0_transform_33 i a + 1) * S1024x256.size a ≤ S65536x256.size a
  hwx0_33 : ∀ i : grid0.Coords, EltTy.bits .f32 = 32 ∨ (Rect.block (s := S65536x256) S1024x256.size (cc0_transform_33 i) (hinb0_33 i)).WholeWords (EltTy.packing .f32)
  hstage0_34 : ∀ j, (stage0_34 j).IsWhole
  nbuf0_34 : grid0.bufCount reads0_34 false = 2
  hreads0_34 : ∀ i i' : grid0.Coords, (∀ a, reads0_34 a = true → i a = i' a) → cc0_transform_34 i = cc0_transform_34 i'
  hinb0_34 : ∀ (i : grid0.Coords) a, (cc0_transform_34 i a + 1) * S1024x256.size a ≤ S65536x256.size a
  hwx0_34 : ∀ i : grid0.Coords, EltTy.bits .f32 = 32 ∨ (Rect.block (s := S65536x256) S1024x256.size (cc0_transform_34 i) (hinb0_34 i)).WholeWords (EltTy.packing .f32)
  hstage0_35 : ∀ j, (stage0_35 j).IsWhole
  nbuf0_35 : grid0.bufCount reads0_35 false = 2
  hreads0_35 : ∀ i i' : grid0.Coords, (∀ a, reads0_35 a = true → i a = i' a) → cc0_transform_35 i = cc0_transform_35 i'
  hinb0_35 : ∀ (i : grid0.Coords) a, (cc0_transform_35 i a + 1) * S1024x160.size a ≤ S65536x160.size a
  hwx0_35 : ∀ i : grid0.Coords, EltTy.bits .f32 = 32 ∨ (Rect.block (s := S65536x160) S1024x160.size (cc0_transform_35 i) (hinb0_35 i)).WholeWords (EltTy.packing .f32)
  hstage0_36 : ∀ j, (stage0_36 j).IsWhole
  nbuf0_36 : grid0.bufCount reads0_36 false = 2
  hreads0_36 : ∀ i i' : grid0.Coords, (∀ a, reads0_36 a = true → i a = i' a) → cc0_transform_36 i = cc0_transform_36 i'
  hinb0_36 : ∀ (i : grid0.Coords) a, (cc0_transform_36 i a + 1) * S1024x128.size a ≤ S65536x128.size a
  hwx0_36 : ∀ i : grid0.Coords, EltTy.bits .f32 = 32 ∨ (Rect.block (s := S65536x128) S1024x128.size (cc0_transform_36 i) (hinb0_36 i)).WholeWords (EltTy.packing .f32)
  hstage0_37 : ∀ j, (stage0_37 j).IsWhole
  nbuf0_37 : grid0.bufCount reads0_37 false = 2
  hreads0_37 : ∀ i i' : grid0.Coords, (∀ a, reads0_37 a = true → i a = i' a) → cc0_transform_37 i = cc0_transform_37 i'
  hinb0_37 : ∀ (i : grid0.Coords) a, (cc0_transform_37 i a + 1) * S1024x128.size a ≤ S65536x128.size a
  hwx0_37 : ∀ i : grid0.Coords, EltTy.bits .f32 = 32 ∨ (Rect.block (s := S65536x128) S1024x128.size (cc0_transform_37 i) (hinb0_37 i)).WholeWords (EltTy.packing .f32)
  hstage0_38 : ∀ j, (stage0_38 j).IsWhole
  nbuf0_38 : grid0.bufCount reads0_38 false = 2
  hreads0_38 : ∀ i i' : grid0.Coords, (∀ a, reads0_38 a = true → i a = i' a) → cc0_transform_38 i = cc0_transform_38 i'
  hinb0_38 : ∀ (i : grid0.Coords) a, (cc0_transform_38 i a + 1) * S1024x164.size a ≤ S65536x164.size a
  hwx0_38 : ∀ i : grid0.Coords, EltTy.bits .f32 = 32 ∨ (Rect.block (s := S65536x164) S1024x164.size (cc0_transform_38 i) (hinb0_38 i)).WholeWords (EltTy.packing .f32)

variable [Facts₀]

def dot_S1024x164_S164x192_S1024x192_1_0_0_1_n_n : DotDims S1024x164 S164x192 S1024x192 where
  lhsContracting := [1]
  rhsContracting := [0]
  lhsNonContracting := [0]
  rhsNonContracting := [1]
  lhsBatch := []
  rhsBatch := []
  wf := dot_S1024x164_S164x192_S1024x192_1_0_0_1_n_n_wf
def dot_S1024x192_S192x192_S1024x192_1_0_0_1_n_n : DotDims S1024x192 S192x192 S1024x192 where
  lhsContracting := [1]
  rhsContracting := [0]
  lhsNonContracting := [0]
  rhsNonContracting := [1]
  lhsBatch := []
  rhsBatch := []
  wf := dot_S1024x192_S192x192_S1024x192_1_0_0_1_n_n_wf
def dot_S1024x192_S192x4_S1024x4_1_0_0_1_n_n : DotDims S1024x192 S192x4 S1024x4 where
  lhsContracting := [1]
  rhsContracting := [0]
  lhsNonContracting := [0]
  rhsNonContracting := [1]
  lhsBatch := []
  rhsBatch := []
  wf := dot_S1024x192_S192x4_S1024x4_1_0_0_1_n_n_wf
def dot_S1024x40_S40x1376_S1024x1376_1_0_0_1_n_n : DotDims S1024x40 S40x1376 S1024x1376 where
  lhsContracting := [1]
  rhsContracting := [0]
  lhsNonContracting := [0]
  rhsNonContracting := [1]
  lhsBatch := []
  rhsBatch := []
  wf := dot_S1024x40_S40x1376_S1024x1376_1_0_0_1_n_n_wf
def dot_S1024x192_S192x480_S1024x480_1_0_0_1_n_n : DotDims S1024x192 S192x480 S1024x480 where
  lhsContracting := [1]
  rhsContracting := [0]
  lhsNonContracting := [0]
  rhsNonContracting := [1]
  lhsBatch := []
  rhsBatch := []
  wf := dot_S1024x192_S192x480_S1024x480_1_0_0_1_n_n_wf
def dot_S1024x160_S160x480_S1024x480_1_0_0_1_n_n : DotDims S1024x160 S160x480 S1024x480 where
  lhsContracting := [1]
  rhsContracting := [0]
  lhsNonContracting := [0]
  rhsNonContracting := [1]
  lhsBatch := []
  rhsBatch := []
  wf := dot_S1024x160_S160x480_S1024x480_1_0_0_1_n_n_wf
def dot_S1024x160_S160x160_S1024x160_1_0_0_1_n_n : DotDims S1024x160 S160x160 S1024x160 where
  lhsContracting := [1]
  rhsContracting := [0]
  lhsNonContracting := [0]
  rhsNonContracting := [1]
  lhsBatch := []
  rhsBatch := []
  wf := dot_S1024x160_S160x160_S1024x160_1_0_0_1_n_n_wf
def dot_S1024x160_S160x384_S1024x384_1_0_0_1_n_n : DotDims S1024x160 S160x384 S1024x384 where
  lhsContracting := [1]
  rhsContracting := [0]
  lhsNonContracting := [0]
  rhsNonContracting := [1]
  lhsBatch := []
  rhsBatch := []
  wf := dot_S1024x160_S160x384_S1024x384_1_0_0_1_n_n_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x160_S160x128_S1024x128_1_0_0_1_n_n : DotDims S1024x160 S160x128 S1024x128 where
  lhsContracting := [1]
  rhsContracting := [0]
  lhsNonContracting := [0]
  rhsNonContracting := [1]
  lhsBatch := []
  rhsBatch := []
  wf := dot_S1024x160_S160x128_S1024x128_1_0_0_1_n_n_wf
def dot_S1024x192_S192x128_S1024x128_1_0_0_1_n_n : DotDims S1024x192 S192x128 S1024x128 where
  lhsContracting := [1]
  rhsContracting := [0]
  lhsNonContracting := [0]
  rhsNonContracting := [1]
  lhsBatch := []
  rhsBatch := []
  wf := dot_S1024x192_S192x128_S1024x128_1_0_0_1_n_n_wf
def dot_S1024x128_S128x40_S1024x40_1_0_0_1_n_n : DotDims S1024x128 S128x40 S1024x40 where
  lhsContracting := [1]
  rhsContracting := [0]
  lhsNonContracting := [0]
  rhsNonContracting := [1]
  lhsBatch := []
  rhsBatch := []
  wf := dot_S1024x128_S128x40_S1024x40_1_0_0_1_n_n_wf

abbrev win0_0 : Pipeline.Window sig grid0 :=
  Pipeline.Window.ofSpec (Memref.whole main_arg0) S1024x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x160.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x164.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x80.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S164x192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S164x192.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S192x192.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v29) S192x4.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v2) S1x4.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v31) S192x480.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v33) S160x480.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35) S160x160.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v37) S160x384.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v39) S128x384.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v41) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v43) S128x384.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v45) S128x384.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v47) S128x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v49) S160x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v51) S128x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v53) S128x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v55) S192x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v57) S128x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v59) S128x40.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v61) S40x1376.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v63) S40x1376.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v64_0) S1024x40.size cc0_transform_32 reads0_32 true false 2 stage0_32 sem0_32
    hrank0 hreads0_32 hinb0_32 nbuf0_32 (Memref.isWhole_whole _) hwx0_32 hstage0_32

abbrev win0_33 : Pipeline.Window sig grid0 :=
  Pipeline.Window.ofSpec (Memref.whole main_v64_1) S1024x256.size cc0_transform_33 reads0_33 true false 2 stage0_33 sem0_33
    hrank0 hreads0_33 hinb0_33 nbuf0_33 (Memref.isWhole_whole _) hwx0_33 hstage0_33

abbrev win0_34 : Pipeline.Window sig grid0 :=
  Pipeline.Window.ofSpec (Memref.whole main_v64_2) S1024x256.size cc0_transform_34 reads0_34 true false 2 stage0_34 sem0_34
    hrank0 hreads0_34 hinb0_34 nbuf0_34 (Memref.isWhole_whole _) hwx0_34 hstage0_34

abbrev win0_35 : Pipeline.Window sig grid0 :=
  Pipeline.Window.ofSpec (Memref.whole main_v64_3) S1024x160.size cc0_transform_35 reads0_35 true false 2 stage0_35 sem0_35
    hrank0 hreads0_35 hinb0_35 nbuf0_35 (Memref.isWhole_whole _) hwx0_35 hstage0_35

abbrev win0_36 : Pipeline.Window sig grid0 :=
  Pipeline.Window.ofSpec (Memref.whole main_v64_4) S1024x128.size cc0_transform_36 reads0_36 true false 2 stage0_36 sem0_36
    hrank0 hreads0_36 hinb0_36 nbuf0_36 (Memref.isWhole_whole _) hwx0_36 hstage0_36

abbrev win0_37 : Pipeline.Window sig grid0 :=
  Pipeline.Window.ofSpec (Memref.whole main_v64_5) S1024x128.size cc0_transform_37 reads0_37 true false 2 stage0_37 sem0_37
    hrank0 hreads0_37 hinb0_37 nbuf0_37 (Memref.isWhole_whole _) hwx0_37 hstage0_37

abbrev win0_38 : Pipeline.Window sig grid0 :=
  Pipeline.Window.ofSpec (Memref.whole main_v64_6) S1024x164.size cc0_transform_38 reads0_38 true false 2 stage0_38 sem0_38
    hrank0 hreads0_38 hinb0_38 nbuf0_38 (Memref.isWhole_whole _) hwx0_38 hstage0_38

abbrev win0 : Fin 39 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | 38 => win0_38 | ⟨_ + 39, h⟩ => absurd h (Nat.not_lt.2 (Nat.le_add_left _ _))
abbrev spec0 : Fin 39 → Pipeline.WinSpec sig grid0.rank := fun w => (win0 w).toWinSpec

class Facts : Prop extends Facts₀ where

variable [Facts]
-- ==== ReferenceIdeal.lean ====
abbrev S65536x80 : Shape := ⟨2, ![65536, 80]⟩
abbrev S65536x256 : Shape := ⟨2, ![65536, 256]⟩
abbrev S65536x160 : Shape := ⟨2, ![65536, 160]⟩
abbrev S65536x128 : Shape := ⟨2, ![65536, 128]⟩
abbrev S65536x164 : Shape := ⟨2, ![65536, 164]⟩
abbrev S65536 : Shape := ⟨1, ![65536]⟩
abbrev S1x80 : Shape := ⟨2, ![1, 80]⟩
abbrev S1 : Shape := ⟨1, ![1]⟩
abbrev S192x328 : Shape := ⟨2, ![192, 328]⟩
abbrev S192x192 : Shape := ⟨2, ![192, 192]⟩
abbrev S4x192 : Shape := ⟨2, ![4, 192]⟩
abbrev S4 : Shape := ⟨1, ![4]⟩
abbrev S480x272 : Shape := ⟨2, ![480, 272]⟩
abbrev S480x160 : Shape := ⟨2, ![480, 160]⟩
abbrev S160x160 : Shape := ⟨2, ![160, 160]⟩
abbrev S384x240 : Shape := ⟨2, ![384, 240]⟩
abbrev S384x128 : Shape := ⟨2, ![384, 128]⟩
abbrev S128x128 : Shape := ⟨2, ![128, 128]⟩
abbrev S384x208 : Shape := ⟨2, ![384, 208]⟩
abbrev S128x688 : Shape := ⟨2, ![128, 688]⟩
abbrev S40x128 : Shape := ⟨2, ![40, 128]⟩
abbrev S80x1 : Shape := ⟨2, ![80, 1]⟩
abbrev S65536x1 : Shape := ⟨2, ![65536, 1]⟩
abbrev S1x1 : Shape := ⟨2, ![1, 1]⟩
abbrev S_ : Shape := ⟨0, ![]⟩
abbrev S44 : Shape := ⟨1, ![44]⟩
abbrev S1x44 : Shape := ⟨2, ![1, 44]⟩
abbrev S65536x44 : Shape := ⟨2, ![65536, 44]⟩
abbrev S65536x44x1 : Shape := ⟨3, ![65536, 44, 1]⟩
abbrev S1x1x1 : Shape := ⟨3, ![1, 1, 1]⟩
abbrev S65536x40 : Shape := ⟨2, ![65536, 40]⟩
abbrev S65536x328 : Shape := ⟨2, ![65536, 328]⟩
abbrev S328x192 : Shape := ⟨2, ![328, 192]⟩
abbrev S65536x192 : Shape := ⟨2, ![65536, 192]⟩
abbrev S192x4 : Shape := ⟨2, ![192, 4]⟩
abbrev S65536x4 : Shape := ⟨2, ![65536, 4]⟩
abbrev S1x4 : Shape := ⟨2, ![1, 4]⟩
abbrev S65536x272 : Shape := ⟨2, ![65536, 272]⟩
abbrev S272x480 : Shape := ⟨2, ![272, 480]⟩
abbrev S65536x480 : Shape := ⟨2, ![65536, 480]⟩
abbrev S160x480 : Shape := ⟨2, ![160, 480]⟩
abbrev S65536x240 : Shape := ⟨2, ![65536, 240]⟩
abbrev S240x384 : Shape := ⟨2, ![240, 384]⟩
abbrev S65536x384 : Shape := ⟨2, ![65536, 384]⟩
abbrev S128x384 : Shape := ⟨2, ![128, 384]⟩
abbrev S65536x208 : Shape := ⟨2, ![65536, 208]⟩
abbrev S208x384 : Shape := ⟨2, ![208, 384]⟩
abbrev S65536x688 : Shape := ⟨2, ![65536, 688]⟩
abbrev S688x128 : Shape := ⟨2, ![688, 128]⟩
abbrev S128x40 : Shape := ⟨2, ![128, 40]⟩
abbrev S65536x216 : Shape := ⟨2, ![65536, 216]⟩

abbrev nBuf : Space → Nat
  | .hbm => 327
  | .vmem => 0
  | .smem => 0
  | _ => 0

abbrev hbmTy0_0 (i : Nat) : BufTy := match i % 128 with
  | 0 => ⟨S65536x80, .f32⟩
  | 1 => ⟨S65536x256, .f32⟩
  | 2 => ⟨S65536x256, .f32⟩
  | 3 => ⟨S65536x160, .f32⟩
  | 4 => ⟨S65536x128, .f32⟩
  | 5 => ⟨S65536x128, .f32⟩
  | 6 => ⟨S65536x164, .f32⟩
  | 7 => ⟨S65536, .i32⟩
  | 8 => ⟨S1x80, .f32⟩
  | 9 => ⟨S1, .f32⟩
  | 10 => ⟨S192x328, .f32⟩
  | 11 => ⟨S192x192, .f32⟩
  | 12 => ⟨S4x192, .f32⟩
  | 13 => ⟨S4, .f32⟩
  | 14 => ⟨S480x272, .f32⟩
  | 15 => ⟨S480x160, .f32⟩
  | 16 => ⟨S160x160, .f32⟩
  | 17 => ⟨S384x240, .f32⟩
  | 18 => ⟨S384x128, .f32⟩
  | 19 => ⟨S128x128, .f32⟩
  | 20 => ⟨S384x208, .f32⟩
  | 21 => ⟨S384x128, .f32⟩
  | 22 => ⟨S128x128, .f32⟩
  | 23 => ⟨S128x688, .f32⟩
  | 24 => ⟨S128x128, .f32⟩
  | 25 => ⟨S40x128, .f32⟩
  | 26 => ⟨S80x1, .f32⟩
  | 27 => ⟨S65536x1, .f32⟩
  | 28 => ⟨S1x1, .f32⟩
  | 29 => ⟨S65536x1, .f32⟩
  | 30 => ⟨S65536x1, .f32⟩
  | 31 => ⟨S65536x1, .f32⟩
  | 32 => ⟨S65536x1, .f32⟩
  | 33 => ⟨S_, .f32⟩
  | 34 => ⟨S65536x1, .f32⟩
  | 35 => ⟨S65536x1, .f32⟩
  | 36 => ⟨S_, .f32⟩
  | 37 => ⟨S65536x1, .f32⟩
  | 38 => ⟨S65536x1, .f32⟩
  | 39 => ⟨S_, .f32⟩
  | 40 => ⟨S65536x1, .f32⟩
  | 41 => ⟨S65536x1, .f32⟩
  | 42 => ⟨S_, .f32⟩
  | 43 => ⟨S65536x1, .f32⟩
  | 44 => ⟨S65536x1, .f32⟩
  | 45 => ⟨S_, .f32⟩
  | 46 => ⟨S_, .f32⟩
  | 47 => ⟨S_, .f32⟩
  | 48 => ⟨S65536x1, .f32⟩
  | 49 => ⟨S65536x1, .f32⟩
  | 50 => ⟨S_, .f32⟩
  | 51 => ⟨S65536x1, .f32⟩
  | 52 => ⟨S65536x1, .f32⟩
  | 53 => ⟨S44, .i32⟩
  | 54 => ⟨S65536x1, .i32⟩
  | 55 => ⟨S_, .i32⟩
  | 56 => ⟨S65536x1, .i32⟩
  | 57 => ⟨S65536x1, .i32⟩
  | 58 => ⟨S1x44, .i32⟩
  | 59 => ⟨S65536x44, .i32⟩
  | 60 => ⟨S65536x44, .i32⟩
  | 61 => ⟨S65536x44, .i32⟩
  | 62 => ⟨S_, .i32⟩
  | 63 => ⟨S65536x44, .i32⟩
  | 64 => ⟨S65536x44, .i32⟩
  | 65 => ⟨S_, .i32⟩
  | 66 => ⟨S65536x44, .i32⟩
  | 67 => ⟨S65536x44, .i1⟩
  | 68 => ⟨S65536x1, .i32⟩
  | 69 => ⟨S65536x44, .i32⟩
  | 70 => ⟨S65536x44, .i32⟩
  | 71 => ⟨S65536x44, .i32⟩
  | 72 => ⟨S65536x44, .i32⟩
  | 73 => ⟨S_, .i32⟩
  | 74 => ⟨S_, .i32⟩
  | 75 => ⟨S_, .i32⟩
  | 76 => ⟨S65536x44, .i32⟩
  | 77 => ⟨S65536x44, .i32⟩
  | 78 => ⟨S_, .i32⟩
  | 79 => ⟨S65536x44, .i32⟩
  | 80 => ⟨S65536x44, .i32⟩
  | 81 => ⟨S_, .i32⟩
  | 82 => ⟨S65536x44, .i32⟩
  | 83 => ⟨S65536x44, .i1⟩
  | 84 => ⟨S_, .i32⟩
  | 85 => ⟨S65536x44, .i32⟩
  | 86 => ⟨S65536x44, .i32⟩
  | 87 => ⟨S65536x44, .i32⟩
  | 88 => ⟨S65536x44x1, .i32⟩
  | 89 => ⟨S1, .i32⟩
  | 90 => ⟨S_, .i32⟩
  | 91 => ⟨S65536x44x1, .i32⟩
  | 92 => ⟨S65536x44x1, .i1⟩
  | 93 => ⟨S1x1x1, .i32⟩
  | 94 => ⟨S65536x44x1, .i32⟩
  | 95 => ⟨S65536x44x1, .i1⟩
  | 96 => ⟨S65536x44x1, .i1⟩
  | 97 => ⟨S_, .i1⟩
  | 98 => ⟨S65536x44, .i1⟩
  | 99 => ⟨S65536x44, .f32⟩
  | 100 => ⟨S_, .f32⟩
  | 101 => ⟨S65536x44, .f32⟩
  | 102 => ⟨S65536x44, .f32⟩
  | 103 => ⟨S_, .f32⟩
  | 104 => ⟨S65536x1, .f32⟩
  | 105 => ⟨S65536x1, .f32⟩
  | 106 => ⟨S65536x44, .f32⟩
  | 107 => ⟨S65536x44, .f32⟩
  | 108 => ⟨S65536x40, .f32⟩
  | 109 => ⟨S_, .f32⟩
  | 110 => ⟨S65536x1, .f32⟩
  | 111 => ⟨S65536x1, .f32⟩
  | 112 => ⟨S65536x40, .f32⟩
  | 113 => ⟨S65536x40, .f32⟩
  | 114 => ⟨S65536x164, .f32⟩
  | 115 => ⟨S65536x40, .f32⟩
  | 116 => ⟨S65536x328, .f32⟩
  | 117 => ⟨S328x192, .f32⟩
  | 118 => ⟨S65536x192, .f32⟩
  | 119 => ⟨S65536x192, .f32⟩
  | 120 => ⟨S192x192, .f32⟩
  | 121 => ⟨S65536x192, .f32⟩
  | 122 => ⟨S65536x192, .f32⟩
  | 123 => ⟨S65536x192, .f32⟩
  | 124 => ⟨S_, .f32⟩
  | 125 => ⟨S65536x192, .f32⟩
  | 126 => ⟨S65536x192, .f32⟩
  | 127 => ⟨S_, .f32⟩
  | _ => ⟨S65536x80, .f32⟩

abbrev hbmTy0_1 (i : Nat) : BufTy := match i % 128 with
  | 0 => ⟨S65536x192, .f32⟩
  | 1 => ⟨S65536x192, .f32⟩
  | 2 => ⟨S65536x192, .f32⟩
  | 3 => ⟨S192x4, .f32⟩
  | 4 => ⟨S65536x4, .f32⟩
  | 5 => ⟨S1x4, .f32⟩
  | 6 => ⟨S65536x4, .f32⟩
  | 7 => ⟨S65536x4, .f32⟩
  | 8 => ⟨S65536x4, .f32⟩
  | 9 => ⟨S65536x4, .f32⟩
  | 10 => ⟨S_, .f32⟩
  | 11 => ⟨S65536x4, .f32⟩
  | 12 => ⟨S65536x4, .f32⟩
  | 13 => ⟨S_, .f32⟩
  | 14 => ⟨S65536x4, .f32⟩
  | 15 => ⟨S65536x4, .f32⟩
  | 16 => ⟨S65536x1, .f32⟩
  | 17 => ⟨S65536x40, .f32⟩
  | 18 => ⟨S65536x40, .f32⟩
  | 19 => ⟨S65536x272, .f32⟩
  | 20 => ⟨S272x480, .f32⟩
  | 21 => ⟨S65536x480, .f32⟩
  | 22 => ⟨S160x480, .f32⟩
  | 23 => ⟨S65536x480, .f32⟩
  | 24 => ⟨S65536x160, .f32⟩
  | 25 => ⟨S65536x160, .f32⟩
  | 26 => ⟨S65536x160, .f32⟩
  | 27 => ⟨S65536x160, .f32⟩
  | 28 => ⟨S65536x160, .f32⟩
  | 29 => ⟨S65536x160, .f32⟩
  | 30 => ⟨S65536x160, .f32⟩
  | 31 => ⟨S65536x160, .f32⟩
  | 32 => ⟨S65536x160, .f32⟩
  | 33 => ⟨S_, .f32⟩
  | 34 => ⟨S65536x160, .f32⟩
  | 35 => ⟨S65536x160, .f32⟩
  | 36 => ⟨S_, .f32⟩
  | 37 => ⟨S65536x160, .f32⟩
  | 38 => ⟨S65536x160, .f32⟩
  | 39 => ⟨S65536x160, .f32⟩
  | 40 => ⟨S65536x160, .f32⟩
  | 41 => ⟨S65536x160, .f32⟩
  | 42 => ⟨S_, .f32⟩
  | 43 => ⟨S65536x160, .f32⟩
  | 44 => ⟨S65536x160, .f32⟩
  | 45 => ⟨S_, .f32⟩
  | 46 => ⟨S65536x160, .f32⟩
  | 47 => ⟨S65536x160, .f32⟩
  | 48 => ⟨S65536x160, .f32⟩
  | 49 => ⟨S65536x160, .f32⟩
  | 50 => ⟨S65536x160, .f32⟩
  | 51 => ⟨S_, .f32⟩
  | 52 => ⟨S65536x160, .f32⟩
  | 53 => ⟨S65536x160, .f32⟩
  | 54 => ⟨S65536x160, .f32⟩
  | 55 => ⟨S65536x160, .f32⟩
  | 56 => ⟨S65536x160, .f32⟩
  | 57 => ⟨S160x160, .f32⟩
  | 58 => ⟨S65536x160, .f32⟩
  | 59 => ⟨S65536x160, .f32⟩
  | 60 => ⟨S65536x160, .f32⟩
  | 61 => ⟨S_, .f32⟩
  | 62 => ⟨S65536x160, .f32⟩
  | 63 => ⟨S65536x160, .f32⟩
  | 64 => ⟨S_, .f32⟩
  | 65 => ⟨S65536x160, .f32⟩
  | 66 => ⟨S65536x160, .f32⟩
  | 67 => ⟨S65536x160, .f32⟩
  | 68 => ⟨S65536x1, .f32⟩
  | 69 => ⟨S65536x40, .f32⟩
  | 70 => ⟨S65536x40, .f32⟩
  | 71 => ⟨S65536x240, .f32⟩
  | 72 => ⟨S240x384, .f32⟩
  | 73 => ⟨S65536x384, .f32⟩
  | 74 => ⟨S128x384, .f32⟩
  | 75 => ⟨S65536x384, .f32⟩
  | 76 => ⟨S65536x128, .f32⟩
  | 77 => ⟨S65536x128, .f32⟩
  | 78 => ⟨S65536x128, .f32⟩
  | 79 => ⟨S65536x128, .f32⟩
  | 80 => ⟨S65536x128, .f32⟩
  | 81 => ⟨S65536x128, .f32⟩
  | 82 => ⟨S65536x128, .f32⟩
  | 83 => ⟨S65536x128, .f32⟩
  | 84 => ⟨S65536x128, .f32⟩
  | 85 => ⟨S_, .f32⟩
  | 86 => ⟨S65536x128, .f32⟩
  | 87 => ⟨S65536x128, .f32⟩
  | 88 => ⟨S_, .f32⟩
  | 89 => ⟨S65536x128, .f32⟩
  | 90 => ⟨S65536x128, .f32⟩
  | 91 => ⟨S65536x128, .f32⟩
  | 92 => ⟨S65536x128, .f32⟩
  | 93 => ⟨S65536x128, .f32⟩
  | 94 => ⟨S_, .f32⟩
  | 95 => ⟨S65536x128, .f32⟩
  | 96 => ⟨S65536x128, .f32⟩
  | 97 => ⟨S_, .f32⟩
  | 98 => ⟨S65536x128, .f32⟩
  | 99 => ⟨S65536x128, .f32⟩
  | 100 => ⟨S65536x128, .f32⟩
  | 101 => ⟨S65536x128, .f32⟩
  | 102 => ⟨S65536x128, .f32⟩
  | 103 => ⟨S_, .f32⟩
  | 104 => ⟨S65536x128, .f32⟩
  | 105 => ⟨S65536x128, .f32⟩
  | 106 => ⟨S65536x128, .f32⟩
  | 107 => ⟨S65536x128, .f32⟩
  | 108 => ⟨S65536x128, .f32⟩
  | 109 => ⟨S128x128, .f32⟩
  | 110 => ⟨S65536x128, .f32⟩
  | 111 => ⟨S65536x128, .f32⟩
  | 112 => ⟨S65536x128, .f32⟩
  | 113 => ⟨S_, .f32⟩
  | 114 => ⟨S65536x128, .f32⟩
  | 115 => ⟨S65536x128, .f32⟩
  | 116 => ⟨S_, .f32⟩
  | 117 => ⟨S65536x128, .f32⟩
  | 118 => ⟨S65536x128, .f32⟩
  | 119 => ⟨S65536x128, .f32⟩
  | 120 => ⟨S65536x1, .f32⟩
  | 121 => ⟨S65536x40, .f32⟩
  | 122 => ⟨S65536x40, .f32⟩
  | 123 => ⟨S65536x208, .f32⟩
  | 124 => ⟨S208x384, .f32⟩
  | 125 => ⟨S65536x384, .f32⟩
  | 126 => ⟨S128x384, .f32⟩
  | 127 => ⟨S65536x384, .f32⟩
  | _ => ⟨S65536x80, .f32⟩

abbrev hbmTy0_2 (i : Nat) : BufTy := match i % 128 with
  | 0 => ⟨S65536x128, .f32⟩
  | 1 => ⟨S65536x128, .f32⟩
  | 2 => ⟨S65536x128, .f32⟩
  | 3 => ⟨S65536x128, .f32⟩
  | 4 => ⟨S65536x128, .f32⟩
  | 5 => ⟨S65536x128, .f32⟩
  | 6 => ⟨S65536x128, .f32⟩
  | 7 => ⟨S65536x128, .f32⟩
  | 8 => ⟨S65536x128, .f32⟩
  | 9 => ⟨S_, .f32⟩
  | 10 => ⟨S65536x128, .f32⟩
  | 11 => ⟨S65536x128, .f32⟩
  | 12 => ⟨S_, .f32⟩
  | 13 => ⟨S65536x128, .f32⟩
  | 14 => ⟨S65536x128, .f32⟩
  | 15 => ⟨S65536x128, .f32⟩
  | 16 => ⟨S65536x128, .f32⟩
  | 17 => ⟨S65536x128, .f32⟩
  | 18 => ⟨S_, .f32⟩
  | 19 => ⟨S65536x128, .f32⟩
  | 20 => ⟨S65536x128, .f32⟩
  | 21 => ⟨S_, .f32⟩
  | 22 => ⟨S65536x128, .f32⟩
  | 23 => ⟨S65536x128, .f32⟩
  | 24 => ⟨S65536x128, .f32⟩
  | 25 => ⟨S65536x128, .f32⟩
  | 26 => ⟨S65536x128, .f32⟩
  | 27 => ⟨S_, .f32⟩
  | 28 => ⟨S65536x128, .f32⟩
  | 29 => ⟨S65536x128, .f32⟩
  | 30 => ⟨S65536x128, .f32⟩
  | 31 => ⟨S65536x128, .f32⟩
  | 32 => ⟨S65536x128, .f32⟩
  | 33 => ⟨S128x128, .f32⟩
  | 34 => ⟨S65536x128, .f32⟩
  | 35 => ⟨S65536x128, .f32⟩
  | 36 => ⟨S65536x128, .f32⟩
  | 37 => ⟨S_, .f32⟩
  | 38 => ⟨S65536x128, .f32⟩
  | 39 => ⟨S65536x128, .f32⟩
  | 40 => ⟨S_, .f32⟩
  | 41 => ⟨S65536x128, .f32⟩
  | 42 => ⟨S65536x128, .f32⟩
  | 43 => ⟨S65536x128, .f32⟩
  | 44 => ⟨S65536x1, .f32⟩
  | 45 => ⟨S65536x40, .f32⟩
  | 46 => ⟨S65536x40, .f32⟩
  | 47 => ⟨S65536x688, .f32⟩
  | 48 => ⟨S688x128, .f32⟩
  | 49 => ⟨S65536x128, .f32⟩
  | 50 => ⟨S65536x128, .f32⟩
  | 51 => ⟨S128x128, .f32⟩
  | 52 => ⟨S65536x128, .f32⟩
  | 53 => ⟨S65536x128, .f32⟩
  | 54 => ⟨S65536x128, .f32⟩
  | 55 => ⟨S_, .f32⟩
  | 56 => ⟨S65536x128, .f32⟩
  | 57 => ⟨S65536x128, .f32⟩
  | 58 => ⟨S_, .f32⟩
  | 59 => ⟨S65536x128, .f32⟩
  | 60 => ⟨S65536x128, .f32⟩
  | 61 => ⟨S65536x128, .f32⟩
  | 62 => ⟨S128x40, .f32⟩
  | 63 => ⟨S65536x40, .f32⟩
  | 64 => ⟨S65536x40, .f32⟩
  | 65 => ⟨S65536x40, .f32⟩
  | 66 => ⟨S65536x40, .f32⟩
  | 67 => ⟨S65536x216, .f32⟩
  | 68 => ⟨S65536x256, .f32⟩
  | 69 => ⟨S65536x216, .f32⟩
  | 70 => ⟨S65536x256, .f32⟩
  | _ => ⟨S65536x80, .f32⟩

abbrev hbmTy (i : Nat) : BufTy := match i / 128 with
  | 0 => hbmTy0_0 i
  | 1 => hbmTy0_1 i
  | 2 => hbmTy0_2 i
  | _ => ⟨S65536x80, .f32⟩

abbrev bufTy : (tb : Table) → Fin (tcTables nBuf tb) → BufTy
  | .hbm, ⟨i, _⟩ => hbmTy i
  | _, _ => ⟨S65536x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_c : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_c_5 : Ref sig .tc := ⟨.hbm, 62, rfl⟩
abbrev main_v24 : Ref sig .tc := ⟨.hbm, 63, rfl⟩
abbrev main_v25 : Ref sig .tc := ⟨.hbm, 64, rfl⟩
abbrev main_c_6 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c_7 : Ref sig .tc := ⟨.hbm, 73, rfl⟩
abbrev main_c_8 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v33 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_cst : Ref sig .tc := ⟨.hbm, 100, rfl⟩
abbrev main_call2_v14 : Ref sig .tc := ⟨.hbm, 101, rfl⟩
abbrev main_v34 : Ref sig .tc := ⟨.hbm, 102, rfl⟩
abbrev main_cst_9 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_cst_10 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_cst_11 : Ref sig .tc := ⟨.hbm, 124, rfl⟩
abbrev main_v54 : Ref sig .tc := ⟨.hbm, 125, rfl⟩
abbrev main_v55 : Ref sig .tc := ⟨.hbm, 126, rfl⟩
abbrev main_cst_12 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_13 : Ref sig .tc := ⟨.hbm, 138, rfl⟩
abbrev main_v66 : Ref sig .tc := ⟨.hbm, 139, rfl⟩
abbrev main_v67 : Ref sig .tc := ⟨.hbm, 140, rfl⟩
abbrev main_cst_14 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_cst_15 : Ref sig .tc := ⟨.hbm, 161, rfl⟩
abbrev main_v87 : Ref sig .tc := ⟨.hbm, 162, rfl⟩
abbrev main_v88 : Ref sig .tc := ⟨.hbm, 163, rfl⟩
abbrev main_cst_16 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_cst_17 : Ref sig .tc := ⟨.hbm, 170, rfl⟩
abbrev main_v94 : Ref sig .tc := ⟨.hbm, 171, rfl⟩
abbrev main_v95 : Ref sig .tc := ⟨.hbm, 172, rfl⟩
abbrev main_cst_18 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_19 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_cst_20 : Ref sig .tc := ⟨.hbm, 189, rfl⟩
abbrev main_v110 : Ref sig .tc := ⟨.hbm, 190, rfl⟩
abbrev main_v111 : Ref sig .tc := ⟨.hbm, 191, rfl⟩
abbrev main_cst_21 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_cst_22 : Ref sig .tc := ⟨.hbm, 213, rfl⟩
abbrev main_v132 : Ref sig .tc := ⟨.hbm, 214, rfl⟩
abbrev main_v133 : Ref sig .tc := ⟨.hbm, 215, rfl⟩
abbrev main_cst_23 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_cst_24 : Ref sig .tc := ⟨.hbm, 222, rfl⟩
abbrev main_v139 : Ref sig .tc := ⟨.hbm, 223, rfl⟩
abbrev main_v140 : Ref sig .tc := ⟨.hbm, 224, rfl⟩
abbrev main_cst_25 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_cst_26 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_27 : Ref sig .tc := ⟨.hbm, 241, rfl⟩
abbrev main_v155 : Ref sig .tc := ⟨.hbm, 242, rfl⟩
abbrev main_v156 : Ref sig .tc := ⟨.hbm, 243, rfl⟩
abbrev main_cst_28 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_cst_29 : Ref sig .tc := ⟨.hbm, 265, rfl⟩
abbrev main_v177 : Ref sig .tc := ⟨.hbm, 266, rfl⟩
abbrev main_v178 : Ref sig .tc := ⟨.hbm, 267, rfl⟩
abbrev main_cst_30 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_cst_31 : Ref sig .tc := ⟨.hbm, 274, rfl⟩
abbrev main_v184 : Ref sig .tc := ⟨.hbm, 275, rfl⟩
abbrev main_v185 : Ref sig .tc := ⟨.hbm, 276, rfl⟩
abbrev main_cst_32 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_cst_33 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_cst_34 : Ref sig .tc := ⟨.hbm, 293, rfl⟩
abbrev main_v200 : Ref sig .tc := ⟨.hbm, 294, rfl⟩
abbrev main_v201 : Ref sig .tc := ⟨.hbm, 295, rfl⟩
abbrev main_cst_35 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩
abbrev main_cst_36 : Ref sig .tc := ⟨.hbm, 311, rfl⟩
abbrev main_v216 : Ref sig .tc := ⟨.hbm, 312, rfl⟩
abbrev main_v217 : Ref sig .tc := ⟨.hbm, 313, rfl⟩
abbrev main_cst_37 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩

abbrev nD : Nat := 1
abbrev τ : Topo := Topo.v7x

variable {F : FTy → Type} [FloatOps F]

class Facts₀ : Prop where
  transposes_S1x80_S80x1_1_0 : S1x80.Transposes [1, 0] S80x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  bcast_S65536_S65536x1_0 : S65536.BroadcastsInDim S65536x1 (![0] : Fin 1 → Fin S65536x1.rank)
  bcast_S44_S1x44_1 : S44.BroadcastsInDim S1x44 (![1] : Fin 1 → Fin S1x44.rank)
  bcast_S65536x1_S65536x44_0_1 : S65536x1.BroadcastsInDim S65536x44 (![0, 1] : Fin 2 → Fin S65536x44.rank)
  bcast_S1x44_S65536x44_0_1 : S1x44.BroadcastsInDim S65536x44 (![0, 1] : Fin 2 → Fin S65536x44.rank)
  bcast_S_S65536x44 : S_.BroadcastsInDim S65536x44 (![] : Fin 0 → Fin S65536x44.rank)
  natLt_1_32 : 1 < 32
  shapeCasts_S65536x44_S65536x44x1 : S65536x44.ShapeCasts S65536x44x1
  bcast_S_S65536x44x1 : S_.BroadcastsInDim S65536x44x1 (![] : Fin 0 → Fin S65536x44x1.rank)
  bcast_S1_S1x1x1_2 : S1.BroadcastsInDim S1x1x1 (![2] : Fin 1 → Fin S1x1x1.rank)
  bcast_S1x1x1_S65536x44x1_0_1_2 : S1x1x1.BroadcastsInDim S65536x44x1 (![0, 1, 2] : Fin 3 → Fin S65536x44x1.rank)
  reducesTo_S65536x44x1_S65536x44_d2 : S65536x44x1.ReducesTo [2] S65536x44
  h_S_ : 0 < S_.numel
  slices_S65536x256_S65536x40_0_216 : S65536x256.Slices ![0, 216] S65536x40
  bcast_S65536x1_S65536x40_0_1 : S65536x1.BroadcastsInDim S65536x40 (![0, 1] : Fin 2 → Fin S65536x40.rank)
  concatenates_S65536x80_S65536x44_S65536x40_S65536x164_d1 : Shape.Concatenates [S65536x80, S65536x44, S65536x40] S65536x164 1
  slices_S65536x44_S65536x40_0_2 : S65536x44.Slices ![0, 2] S65536x40
  concatenates_S65536x164_S65536x164_S65536x328_d1 : Shape.Concatenates [S65536x164, S65536x164] S65536x328 1
  transposes_S192x328_S328x192_1_0 : S192x328.Transposes [1, 0] S328x192
  transposes_S192x192_S192x192_1_0 : S192x192.Transposes [1, 0] S192x192
  bcast_S_S65536x192 : S_.BroadcastsInDim S65536x192 (![] : Fin 0 → Fin S65536x192.rank)
  transposes_S4x192_S192x4_1_0 : S4x192.Transposes [1, 0] S192x4
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  bcast_S_S65536x4 : S_.BroadcastsInDim S65536x4 (![] : Fin 0 → Fin S65536x4.rank)
  slices_S65536x4_S65536x1_0_0 : S65536x4.Slices ![0, 0] S65536x1
  concatenates_S65536x192_S65536x40_S65536x40_S65536x272_d1 : Shape.Concatenates [S65536x192, S65536x40, S65536x40] S65536x272 1
  transposes_S480x272_S272x480_1_0 : S480x272.Transposes [1, 0] S272x480
  transposes_S480x160_S160x480_1_0 : S480x160.Transposes [1, 0] S160x480
  slices_S65536x480_S65536x160_0_0 : S65536x480.Slices ![0, 0] S65536x160
  slices_S65536x480_S65536x160_0_160 : S65536x480.Slices ![0, 160] S65536x160
  slices_S65536x480_S65536x160_0_320 : S65536x480.Slices ![0, 320] S65536x160
  bcast_S_S65536x160 : S_.BroadcastsInDim S65536x160 (![] : Fin 0 → Fin S65536x160.rank)
  transposes_S160x160_S160x160_1_0 : S160x160.Transposes [1, 0] S160x160
  slices_S65536x4_S65536x1_0_1 : S65536x4.Slices ![0, 1] S65536x1
  concatenates_S65536x160_S65536x40_S65536x40_S65536x240_d1 : Shape.Concatenates [S65536x160, S65536x40, S65536x40] S65536x240 1
  transposes_S384x240_S240x384_1_0 : S384x240.Transposes [1, 0] S240x384
  transposes_S384x128_S128x384_1_0 : S384x128.Transposes [1, 0] S128x384
  slices_S65536x384_S65536x128_0_0 : S65536x384.Slices ![0, 0] S65536x128
  slices_S65536x384_S65536x128_0_128 : S65536x384.Slices ![0, 128] S65536x128
  slices_S65536x384_S65536x128_0_256 : S65536x384.Slices ![0, 256] S65536x128
  bcast_S_S65536x128 : S_.BroadcastsInDim S65536x128 (![] : Fin 0 → Fin S65536x128.rank)
  transposes_S128x128_S128x128_1_0 : S128x128.Transposes [1, 0] S128x128
  slices_S65536x4_S65536x1_0_2 : S65536x4.Slices ![0, 2] S65536x1
  concatenates_S65536x128_S65536x40_S65536x40_S65536x208_d1 : Shape.Concatenates [S65536x128, S65536x40, S65536x40] S65536x208 1
  transposes_S384x208_S208x384_1_0 : S384x208.Transposes [1, 0] S208x384
  slices_S65536x4_S65536x1_0_3 : S65536x4.Slices ![0, 3] S65536x1
  concatenates_S65536x160_S65536x128_S65536x128_S65536x192_S65536x40_S65536x40_S65536x688_d1 : Shape.Concatenates [S65536x160, S65536x128, S65536x128, S65536x192, S65536x40, S65536x40] S65536x688 1
  transposes_S128x688_S688x128_1_0 : S128x688.Transposes [1, 0] S688x128
  transposes_S40x128_S128x40_1_0 : S40x128.Transposes [1, 0] S128x40
  slices_S65536x256_S65536x216_0_40 : S65536x256.Slices ![0, 40] S65536x216
  concatenates_S65536x216_S65536x40_S65536x256_d1 : Shape.Concatenates [S65536x216, S65536x40] S65536x256 1
  dot_S65536x80_S80x1_S65536x1_1_0_0_1_n_n_wf : DotDims.WF S65536x80 S80x1 S65536x1 [1] [0] [0] [1] [] []
  gather_S65536x256_S65536x44x1_S65536x44_n_1_0_0_1_2_11_wf : GatherDims.WF S65536x256 S65536x44x1 S65536x44 [] [1] [0] [1] [0] 2 ![1, 1]
  dot_S65536x328_S328x192_S65536x192_1_0_0_1_n_n_wf : DotDims.WF S65536x328 S328x192 S65536x192 [1] [0] [0] [1] [] []
  dot_S65536x192_S192x192_S65536x192_1_0_0_1_n_n_wf : DotDims.WF S65536x192 S192x192 S65536x192 [1] [0] [0] [1] [] []
  dot_S65536x192_S192x4_S65536x4_1_0_0_1_n_n_wf : DotDims.WF S65536x192 S192x4 S65536x4 [1] [0] [0] [1] [] []
  dot_S65536x272_S272x480_S65536x480_1_0_0_1_n_n_wf : DotDims.WF S65536x272 S272x480 S65536x480 [1] [0] [0] [1] [] []
  dot_S65536x160_S160x480_S65536x480_1_0_0_1_n_n_wf : DotDims.WF S65536x160 S160x480 S65536x480 [1] [0] [0] [1] [] []
  dot_S65536x160_S160x160_S65536x160_1_0_0_1_n_n_wf : DotDims.WF S65536x160 S160x160 S65536x160 [1] [0] [0] [1] [] []
  dot_S65536x240_S240x384_S65536x384_1_0_0_1_n_n_wf : DotDims.WF S65536x240 S240x384 S65536x384 [1] [0] [0] [1] [] []
  dot_S65536x128_S128x384_S65536x384_1_0_0_1_n_n_wf : DotDims.WF S65536x128 S128x384 S65536x384 [1] [0] [0] [1] [] []
  dot_S65536x128_S128x128_S65536x128_1_0_0_1_n_n_wf : DotDims.WF S65536x128 S128x128 S65536x128 [1] [0] [0] [1] [] []
  dot_S65536x208_S208x384_S65536x384_1_0_0_1_n_n_wf : DotDims.WF S65536x208 S208x384 S65536x384 [1] [0] [0] [1] [] []
  dot_S65536x688_S688x128_S65536x128_1_0_0_1_n_n_wf : DotDims.WF S65536x688 S688x128 S65536x128 [1] [0] [0] [1] [] []
  dot_S65536x128_S128x40_S65536x40_1_0_0_1_n_n_wf : DotDims.WF S65536x128 S128x40 S65536x40 [1] [0] [0] [1] [] []

variable [Facts₀]

def dot_S65536x80_S80x1_S65536x1_1_0_0_1_n_n : DotDims S65536x80 S80x1 S65536x1 where
  lhsContracting := [1]
  rhsContracting := [0]
  lhsNonContracting := [0]
  rhsNonContracting := [1]
  lhsBatch := []
  rhsBatch := []
  wf := dot_S65536x80_S80x1_S65536x1_1_0_0_1_n_n_wf
def gather_S65536x256_S65536x44x1_S65536x44_n_1_0_0_1_2_11 : GatherDims S65536x256 S65536x44x1 S65536x44 where
  offsetDims := []
  collapsedSliceDims := [1]
  operandBatchingDims := [0]
  startIndicesBatchingDims := [0]
  startIndexMap := [1]
  indexVectorDim := 2
  sliceSizes := ![1, 1]
  wf := gather_S65536x256_S65536x44x1_S65536x44_n_1_0_0_1_2_11_wf
def dot_S65536x328_S328x192_S65536x192_1_0_0_1_n_n : DotDims S65536x328 S328x192 S65536x192 where
  lhsContracting := [1]
  rhsContracting := [0]
  lhsNonContracting := [0]
  rhsNonContracting := [1]
  lhsBatch := []
  rhsBatch := []
  wf := dot_S65536x328_S328x192_S65536x192_1_0_0_1_n_n_wf
def dot_S65536x192_S192x192_S65536x192_1_0_0_1_n_n : DotDims S65536x192 S192x192 S65536x192 where
  lhsContracting := [1]
  rhsContracting := [0]
  lhsNonContracting := [0]
  rhsNonContracting := [1]
  lhsBatch := []
  rhsBatch := []
  wf := dot_S65536x192_S192x192_S65536x192_1_0_0_1_n_n_wf
def dot_S65536x192_S192x4_S65536x4_1_0_0_1_n_n : DotDims S65536x192 S192x4 S65536x4 where
  lhsContracting := [1]
  rhsContracting := [0]
  lhsNonContracting := [0]
  rhsNonContracting := [1]
  lhsBatch := []
  rhsBatch := []
  wf := dot_S65536x192_S192x4_S65536x4_1_0_0_1_n_n_wf
def dot_S65536x272_S272x480_S65536x480_1_0_0_1_n_n : DotDims S65536x272 S272x480 S65536x480 where
  lhsContracting := [1]
  rhsContracting := [0]
  lhsNonContracting := [0]
  rhsNonContracting := [1]
  lhsBatch := []
  rhsBatch := []
  wf := dot_S65536x272_S272x480_S65536x480_1_0_0_1_n_n_wf
def dot_S65536x160_S160x480_S65536x480_1_0_0_1_n_n : DotDims S65536x160 S160x480 S65536x480 where
  lhsContracting := [1]
  rhsContracting := [0]
  lhsNonContracting := [0]
  rhsNonContracting := [1]
  lhsBatch := []
  rhsBatch := []
  wf := dot_S65536x160_S160x480_S65536x480_1_0_0_1_n_n_wf
def dot_S65536x160_S160x160_S65536x160_1_0_0_1_n_n : DotDims S65536x160 S160x160 S65536x160 where
  lhsContracting := [1]
  rhsContracting := [0]
  lhsNonContracting := [0]
  rhsNonContracting := [1]
  lhsBatch := []
  rhsBatch := []
  wf := dot_S65536x160_S160x160_S65536x160_1_0_0_1_n_n_wf
def dot_S65536x240_S240x384_S65536x384_1_0_0_1_n_n : DotDims S65536x240 S240x384 S65536x384 where
  lhsContracting := [1]
  rhsContracting := [0]
  lhsNonContracting := [0]
  rhsNonContracting := [1]
  lhsBatch := []
  rhsBatch := []
  wf := dot_S65536x240_S240x384_S65536x384_1_0_0_1_n_n_wf
def dot_S65536x128_S128x384_S65536x384_1_0_0_1_n_n : DotDims S65536x128 S128x384 S65536x384 where
  lhsContracting := [1]
  rhsContracting := [0]
  lhsNonContracting := [0]
  rhsNonContracting := [1]
  lhsBatch := []
  rhsBatch := []
  wf := dot_S65536x128_S128x384_S65536x384_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x208_S208x384_S65536x384_1_0_0_1_n_n : DotDims S65536x208 S208x384 S65536x384 where
  lhsContracting := [1]
  rhsContracting := [0]
  lhsNonContracting := [0]
  rhsNonContracting := [1]
  lhsBatch := []
  rhsBatch := []
  wf := dot_S65536x208_S208x384_S65536x384_1_0_0_1_n_n_wf
def dot_S65536x688_S688x128_S65536x128_1_0_0_1_n_n : DotDims S65536x688 S688x128 S65536x128 where
  lhsContracting := [1]
  rhsContracting := [0]
  lhsNonContracting := [0]
  rhsNonContracting := [1]
  lhsBatch := []
  rhsBatch := []
  wf := dot_S65536x688_S688x128_S65536x128_1_0_0_1_n_n_wf
def dot_S65536x128_S128x40_S65536x40_1_0_0_1_n_n : DotDims S65536x128 S128x40 S65536x40 where
  lhsContracting := [1]
  rhsContracting := [0]
  lhsNonContracting := [0]
  rhsNonContracting := [1]
  lhsBatch := []
  rhsBatch := []
  wf := dot_S65536x128_S128x40_S65536x40_1_0_0_1_n_n_wf

class Facts : Prop extends Facts₀ where

variable [Facts]
-- ==== Proof.FrameDefsBits.lean ====
import proofs.«401269_j23398981829052_3_alg».proof.Proof.LaunchBits
import proofs.«401269_j23398981829052_3_alg».proof.Proof.Gen.Kernel.Skeleton
import proofs.«401269_j23398981829052_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel.Gen Cert.Kernel.GenL

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

set_option maxHeartbeats 1000000 in
/-- No host operation before the kernel call writes an argument array: at the call each is as it was launched. -/
theorem V_arg (c : Dev nD) (r : Ref sig .tc) (hr : r.idx.val < 26 := by decide) :
    V m c r = m ((c : Thread nD τ).loc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne fun e => absurd (e ▸ hr) (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)

theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)

theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)

theorem before0_30_of {c : Dev nD} (dat : Dat τ (Elt F) Unit ℕ (UR sig nD τ) ℕ cfg0 c) (hA : dat.A 30 = V m c (Pipeline.arrRef spec0 30))
    (hafter : ∀ t, dat.after 30 t = iblk m c 30 t) (t : Fin cfg0.N) (d) : dat.before 30 t d = iblk m c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)

theorem before0_31_of {c : Dev nD} (dat : Dat τ (Elt F) Unit ℕ (UR sig nD τ) ℕ cfg0 c) (hA : dat.A 31 = V m c (Pipeline.arrRef spec0 31))
    (hafter : ∀ t, dat.after 31 t = iblk m c 31 t) (t : Fin cfg0.N) (d) : dat.before 31 t d = iblk m c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)

abbrev rS1024x80 : Rect S1024x80 := Rect.unit (s := S1024x80) ![0, 0] S1024x80.size inb_S1024x80_S1024x80_0_0
abbrev rS1024x256 : Rect S1024x256 := Rect.unit (s := S1024x256) ![0, 0] S1024x256.size inb_S1024x256_S1024x256_0_0
abbrev rS1024x160 : Rect S1024x160 := Rect.unit (s := S1024x160) ![0, 0] S1024x160.size inb_S1024x160_S1024x160_0_0
abbrev rS1024x128 : Rect S1024x128 := Rect.unit (s := S1024x128) ![0, 0] S1024x128.size inb_S1024x128_S1024x128_0_0
abbrev rS1024x164 : Rect S1024x164 := Rect.unit (s := S1024x164) ![0, 0] S1024x164.size inb_S1024x164_S1024x164_0_0
abbrev rS1024x1 : Rect S1024x1 := Rect.unit (s := S1024x1) ![0, 0] S1024x1.size inb_S1024x1_S1024x1_0_0
abbrev rS1x80 : Rect S1x80 := Rect.unit (s := S1x80) ![0, 0] S1x80.size inb_S1x80_S1x80_0_0
abbrev rS1x1 : Rect S1x1 := Rect.unit (s := S1x1) ![0, 0] S1x1.size inb_S1x1_S1x1_0_0
abbrev rS164x192 : Rect S164x192 := Rect.unit (s := S164x192) ![0, 0] S164x192.size inb_S164x192_S164x192_0_0
abbrev rS192x192 : Rect S192x192 := Rect.unit (s := S192x192) ![0, 0] S192x192.size inb_S192x192_S192x192_0_0
abbrev rS192x4 : Rect S192x4 := Rect.unit (s := S192x4) ![0, 0] S192x4.size inb_S192x4_S192x4_0_0
abbrev rS1x4 : Rect S1x4 := Rect.unit (s := S1x4) ![0, 0] S1x4.size inb_S1x4_S1x4_0_0
abbrev rS192x480 : Rect S192x480 := Rect.unit (s := S192x480) ![0, 0] S192x480.size inb_S192x480_S192x480_0_0
abbrev rS160x480 : Rect S160x480 := Rect.unit (s := S160x480) ![0, 0] S160x480.size inb_S160x480_S160x480_0_0
abbrev rS160x160 : Rect S160x160 := Rect.unit (s := S160x160) ![0, 0] S160x160.size inb_S160x160_S160x160_0_0
abbrev rS160x384 : Rect S160x384 := Rect.unit (s := S160x384) ![0, 0] S160x384.size inb_S160x384_S160x384_0_0
abbrev rS128x384 : Rect S128x384 := Rect.unit (s := S128x384) ![0, 0] S128x384.size inb_S128x384_S128x384_0_0
abbrev rS128x128 : Rect S128x128 := Rect.unit (s := S128x128) ![0, 0] S128x128.size inb_S128x128_S128x128_0_0
abbrev rS160x128 : Rect S160x128 := Rect.unit (s := S160x128) ![0, 0] S160x128.size inb_S160x128_S160x128_0_0
abbrev rS192x128 : Rect S192x128 := Rect.unit (s := S192x128) ![0, 0] S192x128.size inb_S192x128_S192x128_0_0
abbrev rS128x40 : Rect S128x40 := Rect.unit (s := S128x40) ![0, 0] S128x40.size inb_S128x40_S128x40_0_0
abbrev rS40x1376 : Rect S40x1376 := Rect.unit (s := S40x1376) ![0, 0] S40x1376.size inb_S40x1376_S40x1376_0_0
abbrev rS1024x40 : Rect S1024x40 := Rect.unit (s := S1024x40) ![0, 0] S1024x40.size inb_S1024x40_S1024x40_0_0

structure Blocks (F : FTy → Type) where
  x0 : Vec F S1024x80 .f32
  x1 : Vec F S1024x256 .f32
  x2 : Vec F S1024x256 .f32
  x3 : Vec F S1024x160 .f32
  x4 : Vec F S1024x128 .f32
  x5 : Vec F S1024x128 .f32
  x6 : Vec F S1024x164 .f32
  x7 : Vec F S1024x1 .i32
  x8 : Vec F S1x80 .f32
  x9 : Vec F S1x1 .f32
  x10 : Vec F S164x192 .bf16
  x11 : Vec F S164x192 .bf16
  x12 : Vec F S192x192 .bf16
  x13 : Vec F S192x4 .bf16
  x14 : Vec F S1x4 .f32
  x15 : Vec F S192x480 .bf16
  x16 : Vec F S160x480 .bf16
  x17 : Vec F S160x160 .bf16
  x18 : Vec F S160x384 .bf16
  x19 : Vec F S128x384 .bf16
  x20 : Vec F S128x128 .bf16
  x21 : Vec F S128x384 .bf16
  x22 : Vec F S128x384 .bf16
  x23 : Vec F S128x128 .bf16
  x24 : Vec F S160x128 .bf16
  x25 : Vec F S128x128 .bf16
  x26 : Vec F S128x128 .bf16
  x27 : Vec F S192x128 .bf16
  x28 : Vec F S128x128 .bf16
  x29 : Vec F S128x40 .bf16
  x30 : Vec F S40x1376 .bf16
  x31 : Vec F S40x1376 .bf16

variable (b : Blocks F)

def val0 : Vec F S1024x80 .f32 := View.ld b.x0 rS1024x80

def val1 : Vec F S1024x256 .f32 := View.ld b.x1 rS1024x256

def val2 : Vec F S1024x256 .f32 := View.ld b.x2 rS1024x256

def val3 : Vec F S1024x160 .f32 := View.ld b.x3 rS1024x160

def val4 : Vec F S1024x128 .f32 := View.ld b.x4 rS1024x128

def val5 : Vec F S1024x128 .f32 := View.ld b.x5 rS1024x128

def val6 : Vec F S1024x164 .f32 := View.ld b.x6 rS1024x164

def val7 : Vec F S1024x1 .i32 := View.ld b.x7 rS1024x1

def val9 : Vec F S1x80 .f32 := View.ld b.x8 rS1x80

def val10 : Vec F S1x1 .f32 := View.ld b.x9 rS1x1

def val12 : Vec F S164x192 .bf16 := View.ld b.x10 rS164x192

def val14 : Vec F S164x192 .bf16 := View.ld b.x11 rS164x192

def val16 : Vec F S192x192 .bf16 := View.ld b.x12 rS192x192

def val18 : Vec F S192x4 .bf16 := View.ld b.x13 rS192x4

def val20 : Vec F S1x4 .f32 := View.ld b.x14 rS1x4

def val22 : Vec F S192x480 .bf16 := View.ld b.x15 rS192x480

def val24 : Vec F S160x480 .bf16 := View.ld b.x16 rS160x480

def val8 : IVec S1024x1 32 := k0_pay1 (val7 b)

def val11 : FVec F S1x1 .f32 := k0_pay2 (val10 b)

def val13 : FVec F S164x192 .bf16 := k0_pay3 (val12 b)

def val15 : FVec F S164x192 .bf16 := k0_pay4 (val14 b)

def val17 : FVec F S192x192 .bf16 := k0_pay5 (val16 b)

def val19 : FVec F S192x4 .bf16 := k0_pay6 (val18 b)

def val21 : FVec F S1x4 .f32 := k0_pay7 (val20 b)

def val23 : FVec F S192x480 .bf16 := k0_pay8 (val22 b)

def val26 : Vec F S160x160 .bf16 := View.ld b.x17 rS160x160

def val28 : Vec F S160x384 .bf16 := View.ld b.x18 rS160x384

def val30 : Vec F S128x384 .bf16 := View.ld b.x19 rS128x384

def val32 : Vec F S128x128 .bf16 := View.ld b.x20 rS128x128

def val34 : Vec F S128x384 .bf16 := View.ld b.x21 rS128x384

def val36 : Vec F S128x384 .bf16 := View.ld b.x22 rS128x384

def val38 : Vec F S128x128 .bf16 := View.ld b.x23 rS128x128

def val40 : Vec F S160x128 .bf16 := View.ld b.x24 rS160x128

def val42 : Vec F S128x128 .bf16 := View.ld b.x25 rS128x128

def val44 : Vec F S128x128 .bf16 := View.ld b.x26 rS128x128

def val46 : Vec F S192x128 .bf16 := View.ld b.x27 rS192x128

def val48 : Vec F S128x128 .bf16 := View.ld b.x28 rS128x128

def val50 : Vec F S128x40 .bf16 := View.ld b.x29 rS128x40

def val52 : Vec F S40x1376 .bf16 := View.ld b.x30 rS40x1376

def val54 : Vec F S40x1376 .bf16 := View.ld b.x31 rS40x1376

def val25 : FVec F S160x480 .bf16 := k0_pay9 (val24 b)

def val27 : FVec F S160x160 .bf16 := k0_pay10 (val26 b)

def val29 : FVec F S160x384 .bf16 := k0_pay11 (val28 b)

def val31 : FVec F S128x384 .bf16 := k0_pay12 (val30 b)

def val33 : FVec F S128x128 .bf16 := k0_pay13 (val32 b)

def val35 : FVec F S128x384 .bf16 := k0_pay14 (val34 b)

def val37 : FVec F S128x384 .bf16 := k0_pay15 (val36 b)

def val39 : FVec F S128x128 .bf16 := k0_pay16 (val38 b)

def val41 : FVec F S160x128 .bf16 := k0_pay17 (val40 b)

def val43 : FVec F S128x128 .bf16 := k0_pay18 (val42 b)

def val45 : FVec F S128x128 .bf16 := k0_pay19 (val44 b)

def val47 : FVec F S192x128 .bf16 := k0_pay20 (val46 b)

def val49 : FVec F S128x128 .bf16 := k0_pay21 (val48 b)

def val51 : FVec F S128x40 .bf16 := k0_pay22 (val50 b)

def val53 : FVec F S40x1376 .bf16 := k0_pay23 (val52 b)

def val89 : IVec S1024x256 32 := iota .tc S1024x256 32 [1] iota_S1024x256_d1_w32

def val55 : FVec F S40x1376 .bf16 := k0_pay24 (val54 b)

def val70 : FVec F S1024x1 .f32 := k0_pay25 (val0 b) (val9 b) (val11 b)

def val88 : IVec S1024x44 32 := k0_pay26 (val8 b)

def val96 : FVec F S1024x1 .f32 := k0_pay27 (val2 b) (val8 b)

def val101 : Vec F S1024x256 .f32 := k0_pay28 (val2 b) (val8 b)

def val103 : FVec F S1024x1 .f32 := k0_pay29 (val101 b)

def val110 : FVec F S1024x1 .f32 := k0_pay30 (val2 b) (val88 b) val89

def val117 : FVec F S1024x1 .f32 := k0_pay31 (val2 b) (val88 b) val89

def val124 : FVec F S1024x1 .f32 := k0_pay32 (val2 b) (val88 b) val89

def val131 : FVec F S1024x1 .f32 := k0_pay33 (val2 b) (val88 b) val89

def val138 : FVec F S1024x1 .f32 := k0_pay34 (val2 b) (val88 b) val89

def val145 : FVec F S1024x1 .f32 := k0_pay35 (val2 b) (val88 b) val89

def val148 : IVec S1024x256 1 := k0_pay36 (val88 b) val89

def val152 : FVec F S1024x1 .f32 := k0_pay37 (val2 b) (val148 b)

def val159 : FVec F S1024x1 .f32 := k0_pay38 (val2 b) (val88 b) val89

def val166 : FVec F S1024x1 .f32 := k0_pay39 (val2 b) (val88 b) val89

def val173 : FVec F S1024x1 .f32 := k0_pay40 (val2 b) (val88 b) val89

def val180 : FVec F S1024x1 .f32 := k0_pay41 (val2 b) (val88 b) val89

def val187 : FVec F S1024x1 .f32 := k0_pay42 (val2 b) (val88 b) val89

def val194 : FVec F S1024x1 .f32 := k0_pay43 (val2 b) (val88 b) val89

def val201 : FVec F S1024x1 .f32 := k0_pay44 (val2 b) (val88 b) val89

def val208 : FVec F S1024x1 .f32 := k0_pay45 (val2 b) (val88 b) val89

def val215 : FVec F S1024x1 .f32 := k0_pay46 (val2 b) (val88 b) val89

def val222 : FVec F S1024x1 .f32 := k0_pay47 (val2 b) (val88 b) val89

def val229 : FVec F S1024x1 .f32 := k0_pay48 (val2 b) (val88 b) val89

def val236 : FVec F S1024x1 .f32 := k0_pay49 (val2 b) (val88 b) val89

def val241 : Vec F S1024x256 .f32 := k0_pay50 (val2 b) (val88 b) val89

def val243 : FVec F S1024x1 .f32 := k0_pay51 (val241 b)

def val250 : FVec F S1024x1 .f32 := k0_pay52 (val2 b) (val88 b) val89

def val257 : FVec F S1024x1 .f32 := k0_pay53 (val2 b) (val88 b) val89

def val264 : FVec F S1024x1 .f32 := k0_pay54 (val2 b) (val88 b) val89

def val271 : FVec F S1024x1 .f32 := k0_pay55 (val2 b) (val88 b) val89

def val278 : FVec F S1024x1 .f32 := k0_pay56 (val2 b) (val88 b) val89

def val285 : FVec F S1024x1 .f32 := k0_pay57 (val2 b) (val88 b) val89

def val288 : IVec S1024x256 1 := k0_pay58 (val88 b) val89

def val292 : FVec F S1024x1 .f32 := k0_pay59 (val2 b) (val288 b)

def val299 : FVec F S1024x1 .f32 := k0_pay60 (val2 b) (val88 b) val89

def val306 : FVec F S1024x1 .f32 := k0_pay61 (val2 b) (val88 b) val89

def val313 : FVec F S1024x1 .f32 := k0_pay62 (val2 b) (val88 b) val89

def val320 : FVec F S1024x1 .f32 := k0_pay63 (val2 b) (val88 b) val89

def val327 : FVec F S1024x1 .f32 := k0_pay64 (val2 b) (val88 b) val89

def val334 : FVec F S1024x1 .f32 := k0_pay65 (val2 b) (val88 b) val89

def val341 : FVec F S1024x1 .f32 := k0_pay66 (val2 b) (val88 b) val89

def val348 : FVec F S1024x1 .f32 := k0_pay67 (val2 b) (val88 b) val89

def val355 : FVec F S1024x1 .f32 := k0_pay68 (val2 b) (val88 b) val89

def val362 : FVec F S1024x1 .f32 := k0_pay69 (val2 b) (val88 b) val89

def val369 : FVec F S1024x1 .f32 := k0_pay70 (val2 b) (val88 b) val89

def val376 : FVec F S1024x1 .f32 := k0_pay71 (val2 b) (val88 b) val89

def val381 : Vec F S1024x256 .f32 := k0_pay72 (val2 b) (val88 b) val89

def val407 : FVec F S1024x40 .f32 := k0_pay75 (val2 b) (val70 b)

def val408 : FVec F S1024x164 .f32 := k0_pay76 (val0 b) (val2 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val409 : FVec F S1024x40 .f32 := k0_pay77 (val2 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val420 : FVec F S1024x192 .bf16 := k0_pay78 (val0 b) (val2 b) (val6 b) (val13 b) (val15 b) (val17 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val424 : FVec F S1024x4 .f32 := k0_pay79 (val0 b) (val2 b) (val6 b) (val13 b) (val15 b) (val17 b) (val19 b) (val21 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val426 : FVec F S1024x1376 .f32 := k0_pay80 (val2 b) (val53 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val428 : FVec F S1024x480 .f32 := k0_pay81 (val2 b) (val53 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val429 : FVec F S1024x480 .f32 := k0_pay82 (val0 b) (val2 b) (val6 b) (val13 b) (val15 b) (val17 b) (val19 b) (val21 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val438 : FVec F S1024x384 .f32 := k0_pay83 (val424 b) (val426 b)

def val442 : FVec F S1024x128 .f32 := k0_pay84 (val424 b) (val426 b)

def val447 : FVec F S1024x384 .f32 := k0_pay86 (val55 b) (val407 b)

def val448 : FVec F S1024x128 .f32 := k0_pay87 (val55 b) (val407 b)

def val471 : FVec F S1024x160 .f32 := k0_pay88 (val3 b) (val23 b) (val25 b) (val55 b) (val407 b) (val420 b) (val428 b) (val429 b)

def val476 : FVec F S1024x160 .bf16 := k0_pay89 (val3 b) (val23 b) (val25 b) (val27 b) (val55 b) (val407 b) (val420 b) (val428 b) (val429 b)

def val479 : FVec F S1024x384 .f32 := k0_pay90 (val3 b) (val23 b) (val25 b) (val27 b) (val29 b) (val55 b) (val407 b) (val420 b) (val424 b) (val426 b) (val428 b) (val429 b)

def val481 : FVec F S1024x384 .f32 := k0_pay91 (val4 b) (val31 b)

def val482 : FVec F S1024x128 .f32 := k0_pay92 (val3 b) (val23 b) (val25 b) (val27 b) (val29 b) (val55 b) (val407 b) (val420 b) (val424 b) (val426 b) (val428 b) (val429 b)

def val499 : FVec F S1024x128 .f32 := k0_pay93 (val4 b) (val479 b) (val481 b) (val482 b)

def val527 : FVec F S1024x128 .f32 := k0_pay95 (val4 b) (val5 b) (val33 b) (val35 b) (val37 b) (val438 b) (val447 b) (val479 b) (val481 b) (val482 b)

def val532 : FVec F S1024x128 .bf16 := k0_pay96 (val4 b) (val5 b) (val33 b) (val35 b) (val37 b) (val39 b) (val438 b) (val447 b) (val479 b) (val481 b) (val482 b)

def val533 : FVec F S1024x128 .f32 := k0_pay97 (val41 b) (val476 b)

def val534 : FVec F S1024x128 .f32 := k0_pay98 (val4 b) (val33 b) (val43 b) (val479 b) (val481 b) (val482 b)

def out0_32 : Vec F S1024x40 .f32 :=
  View.canon [⟨rS1024x40, k0_pay99 (val45 b) (val47 b) (val49 b) (val51 b) (val70 b) (val420 b) (val442 b) (val448 b) (val532 b) (val533 b) (val534 b)⟩]

theorem cover0_32 (p0 : Vec F S1024x40 .f32) (y : S1024x40.Idx) :
    ∃ pc ∈ ([⟨rS1024x40, p0⟩] : List (View.Piece (Elt F) S1024x40 .f32)), y ∈ pc.1.set :=
  View.cover_of_tiled [⟨rS1024x40, p0⟩] S1024x40.size (by rfl) y

def out0_33 : Vec F S1024x256 .f32 :=
  View.canon [⟨rS1024x256, k0_pay100 (val2 b) (val45 b) (val47 b) (val49 b) (val51 b) (val70 b) (val420 b) (val442 b) (val448 b) (val532 b) (val533 b) (val534 b)⟩]

theorem cover0_33 (p0 : Vec F S1024x256 .f32) (y : S1024x256.Idx) :
    ∃ pc ∈ ([⟨rS1024x256, p0⟩] : List (View.Piece (Elt F) S1024x256 .f32)), y ∈ pc.1.set :=
  View.cover_of_tiled [⟨rS1024x256, p0⟩] S1024x256.size (by rfl) y

def out0_34 : Vec F S1024x256 .f32 :=
  View.canon [⟨rS1024x256, k0_pay101 (val1 b) (val409 b)⟩]

theorem cover0_34 (p0 : Vec F S1024x256 .f32) (y : S1024x256.Idx) :
    ∃ pc ∈ ([⟨rS1024x256, p0⟩] : List (View.Piece (Elt F) S1024x256 .f32)), y ∈ pc.1.set :=
  View.cover_of_tiled [⟨rS1024x256, p0⟩] S1024x256.size (by rfl) y

def out0_35 : Vec F S1024x160 .f32 :=
  View.canon [⟨rS1024x160, (val471 b)⟩]

theorem cover0_35 (p0 : Vec F S1024x160 .f32) (y : S1024x160.Idx) :
    ∃ pc ∈ ([⟨rS1024x160, p0⟩] : List (View.Piece (Elt F) S1024x160 .f32)), y ∈ pc.1.set :=
  View.cover_of_tiled [⟨rS1024x160, p0⟩] S1024x160.size (by rfl) y

def out0_36 : Vec F S1024x128 .f32 :=
  View.canon [⟨rS1024x128, (val499 b)⟩]

theorem cover0_36 (p0 : Vec F S1024x128 .f32) (y : S1024x128.Idx) :
    ∃ pc ∈ ([⟨rS1024x128, p0⟩] : List (View.Piece (Elt F) S1024x128 .f32)), y ∈ pc.1.set :=
  View.cover_of_tiled [⟨rS1024x128, p0⟩] S1024x128.size (by rfl) y

def out0_37 : Vec F S1024x128 .f32 :=
  View.canon [⟨rS1024x128, (val527 b)⟩]

theorem cover0_37 (p0 : Vec F S1024x128 .f32) (y : S1024x128.Idx) :
    ∃ pc ∈ ([⟨rS1024x128, p0⟩] : List (View.Piece (Elt F) S1024x128 .f32)), y ∈ pc.1.set :=
  View.cover_of_tiled [⟨rS1024x128, p0⟩] S1024x128.size (by rfl) y

def out0_38 : Vec F S1024x164 .f32 :=
  View.canon [⟨rS1024x164, (val408 b)⟩]

theorem cover0_38 (p0 : Vec F S1024x164 .f32) (y : S1024x164.Idx) :
    ∃ pc ∈ ([⟨rS1024x164, p0⟩] : List (View.Piece (Elt F) S1024x164 .f32)), y ∈ pc.1.set :=
  View.cover_of_tiled [⟨rS1024x164, p0⟩] S1024x164.size (by rfl) y

abbrev blocksAt (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t, iblk m c 25 t, iblk m c 26 t, iblk m c 27 t, iblk m c 28 t, iblk m c 29 t, iblk m c 30 t, iblk m c 31 t⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => out0_32 (blocksAt m c t)
    | ⟨33, _⟩ => out0_33 (blocksAt m c t)
    | ⟨34, _⟩ => out0_34 (blocksAt m c t)
    | ⟨35, _⟩ => out0_35 (blocksAt m c t)
    | ⟨36, _⟩ => out0_36 (blocksAt m c t)
    | ⟨37, _⟩ => out0_37 (blocksAt m c t)
    | ⟨38, _⟩ => out0_38 (blocksAt m c t)
    | ⟨_ + 39, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = out0_32 (blocksAt m c t) := by dsimp only [dats]
theorem after0_33 (c : Dev nD) (t : Fin cfg0.N) : (dats m 0 c).after 33 t = out0_33 (blocksAt m c t) := by dsimp only [dats]
theorem after0_34 (c : Dev nD) (t : Fin cfg0.N) : (dats m 0 c).after 34 t = out0_34 (blocksAt m c t) := by dsimp only [dats]
theorem after0_35 (c : Dev nD) (t : Fin cfg0.N) : (dats m 0 c).after 35 t = out0_35 (blocksAt m c t) := by dsimp only [dats]
theorem after0_36 (c : Dev nD) (t : Fin cfg0.N) : (dats m 0 c).after 36 t = out0_36 (blocksAt m c t) := by dsimp only [dats]
theorem after0_37 (c : Dev nD) (t : Fin cfg0.N) : (dats m 0 c).after 37 t = out0_37 (blocksAt m c t) := by dsimp only [dats]
theorem after0_38 (c : Dev nD) (t : Fin cfg0.N) : (dats m 0 c).after 38 t = out0_38 (blocksAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d

end Cert.Kernel.Fr

end
-- ==== Proof.FrameBodyBits.lean ====
import proofs.«401269_j23398981829052_3_alg».proof.Proof.FrameDefsBits

set_option maxRecDepth 16384

noncomputable section

namespace Cert.Kernel.Fr

open Cert.Kernel.Gen Cert.Kernel.GenL

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

local macro "open_values" : tactic =>
  `(tactic| simp only [View.readAt_eq_ld, rS1024x80, rS1024x256, rS1024x160, rS1024x128, rS1024x164, rS1024x1, rS1x80, rS1x1, rS164x192, rS192x192, rS192x4, rS1x4, rS192x480, rS160x480, rS160x160, rS160x384, rS128x384, rS128x128, rS160x128, rS192x128, rS128x40, rS40x1376, rS1024x40, val0, val1, val2, val3, val4, val5, val6, val7, val9, val10, val12, val14, val16, val18, val20, val22, val24, val8, val11, val13, val15, val17, val19, val21, val23, val26, val28, val30, val32, val34, val36, val38, val40, val42, val44, val46, val48, val50, val52, val54, val25, val27, val29, val31, val33, val35, val37, val39, val41, val43, val45, val47, val49, val51, val53, val89, val55, val70, val88, val96, val101, val103, val110, val117, val124, val131, val138, val145, val148, val152, val159, val166, val173, val180, val187, val194, val201, val208, val215, val222, val229, val236, val241, val243, val250, val257, val264, val271, val278, val285, val288, val292, val299, val306, val313, val320, val327, val334, val341, val348, val355, val362, val369, val376, val381, val407, val408, val409, val420, val424, val426, val428, val429, val438, val442, val447, val448, val471, val476, val479, val481, val482, val499, val527, val532, val533, val534, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

set_option maxHeartbeats 4000000 in

theorem sound_kernel (c : Dev nD) (E : Set ℕ) (i : grid0.Coords) (arg1 : Memref sig .tc .vmem S1024x80 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x160 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x164 .f32) (harg7 : arg7.IsWhole) (arg8 : Memref sig .tc .vmem S1024x1 .i32) (harg8 : arg8.IsWhole) (arg9 : Memref sig .tc .vmem S1x80 .f32) (harg9 : arg9.IsWhole) (arg10 : Memref sig .tc .vmem S1x1 .f32) (harg10 : arg10.IsWhole) (arg11 : Memref sig .tc .vmem S164x192 .bf16) (harg11 : arg11.IsWhole) (arg12 : Memref sig .tc .vmem S164x192 .bf16) (harg12 : arg12.IsWhole) (arg13 : Memref sig .tc .vmem S192x192 .bf16) (harg13 : arg13.IsWhole) (arg14 : Memref sig .tc .vmem S192x4 .bf16) (harg14 : arg14.IsWhole) (arg15 : Memref sig .tc .vmem S1x4 .f32) (harg15 : arg15.IsWhole) (arg16 : Memref sig .tc .vmem S192x480 .bf16) (harg16 : arg16.IsWhole) (arg17 : Memref sig .tc .vmem S160x480 .bf16) (harg17 : arg17.IsWhole) (arg18 : Memref sig .tc .vmem S160x160 .bf16) (harg18 : arg18.IsWhole) (arg19 : Memref sig .tc .vmem S160x384 .bf16) (harg19 : arg19.IsWhole) (arg20 : Memref sig .tc .vmem S128x384 .bf16) (harg20 : arg20.IsWhole) (arg21 : Memref sig .tc .vmem S128x128 .bf16) (harg21 : arg21.IsWhole) (arg22 : Memref sig .tc .vmem S128x384 .bf16) (harg22 : arg22.IsWhole) (arg23 : Memref sig .tc .vmem S128x384 .bf16) (harg23 : arg23.IsWhole) (arg24 : Memref sig .tc .vmem S128x128 .bf16) (harg24 : arg24.IsWhole) (arg25 : Memref sig .tc .vmem S160x128 .bf16) (harg25 : arg25.IsWhole) (arg26 : Memref sig .tc .vmem S128x128 .bf16) (harg26 : arg26.IsWhole) (arg27 : Memref sig .tc .vmem S128x128 .bf16) (harg27 : arg27.IsWhole) (arg28 : Memref sig .tc .vmem S192x128 .bf16) (harg28 : arg28.IsWhole) (arg29 : Memref sig .tc .vmem S128x128 .bf16) (harg29 : arg29.IsWhole) (arg30 : Memref sig .tc .vmem S128x40 .bf16) (harg30 : arg30.IsWhole) (arg31 : Memref sig .tc .vmem S40x1376 .bf16) (harg31 : arg31.IsWhole) (arg32 : Memref sig .tc .vmem S40x1376 .bf16) (harg32 : arg32.IsWhole) (arg33 : Memref sig .tc .vmem S1024x40 .f32) (harg33 : arg33.IsWhole) (arg34 : Memref sig .tc .vmem S1024x256 .f32) (harg34 : arg34.IsWhole) (arg35 : Memref sig .tc .vmem S1024x256 .f32) (harg35 : arg35.IsWhole) (arg36 : Memref sig .tc .vmem S1024x160 .f32) (harg36 : arg36.IsWhole) (arg37 : Memref sig .tc .vmem S1024x128 .f32) (harg37 : arg37.IsWhole) (arg38 : Memref sig .tc .vmem S1024x128 .f32) (harg38 : arg38.IsWhole) (arg39 : Memref sig .tc .vmem S1024x164 .f32) (harg39 : arg39.IsWhole)
    (x0 : Vec F S1024x80 .f32) (x1 : Vec F S1024x256 .f32) (x2 : Vec F S1024x256 .f32) (x3 : Vec F S1024x160 .f32) (x4 : Vec F S1024x128 .f32) (x5 : Vec F S1024x128 .f32) (x6 : Vec F S1024x164 .f32) (x7 : Vec F S1024x1 .i32) (x8 : Vec F S1x80 .f32) (x9 : Vec F S1x1 .f32) (x10 : Vec F S164x192 .bf16) (x11 : Vec F S164x192 .bf16) (x12 : Vec F S192x192 .bf16) (x13 : Vec F S192x4 .bf16) (x14 : Vec F S1x4 .f32) (x15 : Vec F S192x480 .bf16) (x16 : Vec F S160x480 .bf16) (x17 : Vec F S160x160 .bf16) (x18 : Vec F S160x384 .bf16) (x19 : Vec F S128x384 .bf16) (x20 : Vec F S128x128 .bf16) (x21 : Vec F S128x384 .bf16) (x22 : Vec F S128x384 .bf16) (x23 : Vec F S128x128 .bf16) (x24 : Vec F S160x128 .bf16) (x25 : Vec F S128x128 .bf16) (x26 : Vec F S128x128 .bf16) (x27 : Vec F S192x128 .bf16) (x28 : Vec F S128x128 .bf16) (x29 : Vec F S128x40 .bf16) (x30 : Vec F S40x1376 .bf16) (x31 : Vec F S40x1376 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31
        ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31
            ∗ owns (c : Thread nD τ) arg33 fullShare (out0_32 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg34 fullShare (out0_33 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg35 fullShare (out0_34 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg36 fullShare (out0_35 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg37 fullShare (out0_36 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg38 fullShare (out0_37 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg39 fullShare (out0_38 (Blocks.mk x0 x1 x2 x3 x4 x5 x6 x7 x8 x9 x10 x11 x12 x13 x14 x15 x16 x17 x18 x19 x20 x21 x22 x23 x24 x25 x26 x27 x28 x29 x30 x31))) -∗ K ⟨⟩))
      ⊢ wp frame (wpE (defs₀ (F := F)) Variants.none c none) E (cc0__fargan_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  simp only [cc0__fargan_kernel_eq_skeleton]; unfold cc0__fargan_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists _; isplitr
    swap; · iexact H32
    ipureintro
    refine (View.read_writes_eq_canon _ _ _ (cover0_32 _)).trans ?_
    unfold out0_32
    sl_unfold_run_names
    open_values
    try rfl
  isplitl [H33]
  · iexists _; isplitr
    swap; · iexact H33
    ipureintro
    refine (View.read_writes_eq_canon _ _ _ (cover0_33 _)).trans ?_
    unfold out0_33
    sl_unfold_run_names
    open_values
    try rfl
  isplitl [H34]
  · iexists _; isplitr
    swap; · iexact H34
    ipureintro
    refine (View.read_writes_eq_canon _ _ _ (cover0_34 _)).trans ?_
    unfold out0_34
    sl_unfold_run_names
    open_values
    try rfl
  isplitl [H35]
  · iexists _; isplitr
    swap; · iexact H35
    ipureintro
    refine (View.read_writes_eq_canon _ _ _ (cover0_35 _)).trans ?_
    unfold out0_35
    sl_unfold_run_names
    open_values
    try rfl
  isplitl [H36]
  · iexists _; isplitr
    swap; · iexact H36
    ipureintro
    refine (View.read_writes_eq_canon _ _ _ (cover0_36 _)).trans ?_
    unfold out0_36
    sl_unfold_run_names
    open_values
    try rfl
  isplitl [H37]
  · iexists _; isplitr
    swap; · iexact H37
    ipureintro
    refine (View.read_writes_eq_canon _ _ _ (cover0_37 _)).trans ?_
    unfold out0_37
    sl_unfold_run_names
    open_values
    try rfl
  iexists _; isplitr
  swap; · iexact H38
  ipureintro
  refine (View.read_writes_eq_canon _ _ _ (cover0_38 _)).trans ?_
  unfold out0_38
  sl_unfold_run_names
  open_values
  try rfl

end Cert.Kernel.Fr

end
-- ==== Proof.FrameBits.lean ====
import proofs.«401269_j23398981829052_3_alg».proof.Proof.FrameBodyBits

set_option maxRecDepth 16384

noncomputable section

namespace Cert.Kernel.Fr

open Cert.Kernel.Gen Cert.Kernel.GenL

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t))

set_option maxHeartbeats 4000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  iexact H38

set_option maxHeartbeats 4000000 in

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem post32 (r : PUnit × MemSt nD τ sig (Elt F)) (h : Pipeline.FramePost cfgs (dats m) 0 (V m) r) (c : Dev nD) :
    r.2.mem ((c : Thread nD τ).loc main_v64_0) = (dats m 0 c).arrAt 32 cfg0.N :=
  (h c).1 32

theorem post33 (r : PUnit × MemSt nD τ sig (Elt F)) (h : Pipeline.FramePost cfgs (dats m) 0 (V m) r) (c : Dev nD) :
    r.2.mem ((c : Thread nD τ).loc main_v64_1) = (dats m 0 c).arrAt 33 cfg0.N :=
  (h c).1 33

theorem post34 (r : PUnit × MemSt nD τ sig (Elt F)) (h : Pipeline.FramePost cfgs (dats m) 0 (V m) r) (c : Dev nD) :
    r.2.mem ((c : Thread nD τ).loc main_v64_2) = (dats m 0 c).arrAt 34 cfg0.N :=
  (h c).1 34

theorem post35 (r : PUnit × MemSt nD τ sig (Elt F)) (h : Pipeline.FramePost cfgs (dats m) 0 (V m) r) (c : Dev nD) :
    r.2.mem ((c : Thread nD τ).loc main_v64_3) = (dats m 0 c).arrAt 35 cfg0.N :=
  (h c).1 35

theorem post36 (r : PUnit × MemSt nD τ sig (Elt F)) (h : Pipeline.FramePost cfgs (dats m) 0 (V m) r) (c : Dev nD) :
    r.2.mem ((c : Thread nD τ).loc main_v64_4) = (dats m 0 c).arrAt 36 cfg0.N :=
  (h c).1 36

theorem post37 (r : PUnit × MemSt nD τ sig (Elt F)) (h : Pipeline.FramePost cfgs (dats m) 0 (V m) r) (c : Dev nD) :
    r.2.mem ((c : Thread nD τ).loc main_v64_5) = (dats m 0 c).arrAt 37 cfg0.N :=
  (h c).1 37

theorem post38 (r : PUnit × MemSt nD τ sig (Elt F)) (h : Pipeline.FramePost cfgs (dats m) 0 (V m) r) (c : Dev nD) :
    r.2.mem ((c : Thread nD τ).loc main_v64_6) = (dats m 0 c).arrAt 38 cfg0.N :=
  (h c).1 38

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_arg m c main_arg0)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_arg m c main_arg1)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_arg m c main_arg2)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_arg m c main_arg3)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_arg m c main_arg4)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_arg m c main_arg5)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_arg m c main_arg6)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_arg m c main_arg7)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_arg m c main_arg8)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_arg m c main_arg9)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_arg m c main_arg10)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_arg m c main_arg11)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_arg m c main_arg12)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_arg m c main_arg13)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_arg m c main_arg14)

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_arg m c main_arg15)

theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_arg m c main_arg16)

theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_arg m c main_arg17)

theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_arg m c main_arg18)

theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_arg m c main_arg19)

theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_arg m c main_arg20)

theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_arg m c main_arg21)

theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_arg m c main_arg22)

theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_arg m c main_arg23)

theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_arg m c main_arg24)

theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_arg m c main_arg25)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c⟩)
    (run_main m ρ)

end Cert.Kernel.Fr

end
-- ==== Proof.FrameDefsIdeal.lean ====
import proofs.«401269_j23398981829052_3_alg».proof.Proof.LaunchIdeal
import proofs.«401269_j23398981829052_3_alg».proof.Proof.Gen.KernelIdeal.Skeleton
import proofs.«401269_j23398981829052_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal.Gen Cert.KernelIdeal.GenL

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

set_option maxHeartbeats 1000000 in
/-- No host operation before the kernel call writes an argument array: at the call each is as it was launched. -/
theorem V_arg (c : Dev nD) (r : Ref sig .tc) (hr : r.idx.val < 26 := by decide) :
    V m c r = m ((c : Thread nD τ).loc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne fun e => absurd (e ▸ hr) (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)

theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)

theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)

theorem before0_30_of {c : Dev nD} (dat : Dat τ (Elt F) Unit ℕ (UR sig nD τ) ℕ cfg0 c) (hA : dat.A 30 = V m c (Pipeline.arrRef spec0 30))
    (hafter : ∀ t, dat.after 30 t = iblk m c 30 t) (t : Fin cfg0.N) (d) : dat.before 30 t d = iblk m c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)

theorem before0_31_of {c : Dev nD} (dat : Dat τ (Elt F) Unit ℕ (UR sig nD τ) ℕ cfg0 c) (hA : dat.A 31 = V m c (Pipeline.arrRef spec0 31))
    (hafter : ∀ t, dat.after 31 t = iblk m c 31 t) (t : Fin cfg0.N) (d) : dat.before 31 t d = iblk m c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)

abbrev rS1024x80 : Rect S1024x80 := Rect.unit (s := S1024x80) ![0, 0] S1024x80.size inb_S1024x80_S1024x80_0_0
abbrev rS1024x256 : Rect S1024x256 := Rect.unit (s := S1024x256) ![0, 0] S1024x256.size inb_S1024x256_S1024x256_0_0
abbrev rS1024x160 : Rect S1024x160 := Rect.unit (s := S1024x160) ![0, 0] S1024x160.size inb_S1024x160_S1024x160_0_0
abbrev rS1024x128 : Rect S1024x128 := Rect.unit (s := S1024x128) ![0, 0] S1024x128.size inb_S1024x128_S1024x128_0_0
abbrev rS1024x164 : Rect S1024x164 := Rect.unit (s := S1024x164) ![0, 0] S1024x164.size inb_S1024x164_S1024x164_0_0
abbrev rS1024x1 : Rect S1024x1 := Rect.unit (s := S1024x1) ![0, 0] S1024x1.size inb_S1024x1_S1024x1_0_0
abbrev rS1x80 : Rect S1x80 := Rect.unit (s := S1x80) ![0, 0] S1x80.size inb_S1x80_S1x80_0_0
abbrev rS1x1 : Rect S1x1 := Rect.unit (s := S1x1) ![0, 0] S1x1.size inb_S1x1_S1x1_0_0
abbrev rS164x192 : Rect S164x192 := Rect.unit (s := S164x192) ![0, 0] S164x192.size inb_S164x192_S164x192_0_0
abbrev rS192x192 : Rect S192x192 := Rect.unit (s := S192x192) ![0, 0] S192x192.size inb_S192x192_S192x192_0_0
abbrev rS192x4 : Rect S192x4 := Rect.unit (s := S192x4) ![0, 0] S192x4.size inb_S192x4_S192x4_0_0
abbrev rS1x4 : Rect S1x4 := Rect.unit (s := S1x4) ![0, 0] S1x4.size inb_S1x4_S1x4_0_0
abbrev rS192x480 : Rect S192x480 := Rect.unit (s := S192x480) ![0, 0] S192x480.size inb_S192x480_S192x480_0_0
abbrev rS160x480 : Rect S160x480 := Rect.unit (s := S160x480) ![0, 0] S160x480.size inb_S160x480_S160x480_0_0
abbrev rS160x160 : Rect S160x160 := Rect.unit (s := S160x160) ![0, 0] S160x160.size inb_S160x160_S160x160_0_0
abbrev rS160x384 : Rect S160x384 := Rect.unit (s := S160x384) ![0, 0] S160x384.size inb_S160x384_S160x384_0_0
abbrev rS128x384 : Rect S128x384 := Rect.unit (s := S128x384) ![0, 0] S128x384.size inb_S128x384_S128x384_0_0
abbrev rS128x128 : Rect S128x128 := Rect.unit (s := S128x128) ![0, 0] S128x128.size inb_S128x128_S128x128_0_0
abbrev rS160x128 : Rect S160x128 := Rect.unit (s := S160x128) ![0, 0] S160x128.size inb_S160x128_S160x128_0_0
abbrev rS192x128 : Rect S192x128 := Rect.unit (s := S192x128) ![0, 0] S192x128.size inb_S192x128_S192x128_0_0
abbrev rS128x40 : Rect S128x40 := Rect.unit (s := S128x40) ![0, 0] S128x40.size inb_S128x40_S128x40_0_0
abbrev rS40x1376 : Rect S40x1376 := Rect.unit (s := S40x1376) ![0, 0] S40x1376.size inb_S40x1376_S40x1376_0_0
abbrev rS1024x40 : Rect S1024x40 := Rect.unit (s := S1024x40) ![0, 0] S1024x40.size inb_S1024x40_S1024x40_0_0

structure Blocks (F : FTy → Type) where
  x0 : Vec F S1024x80 .f32
  x1 : Vec F S1024x256 .f32
  x2 : Vec F S1024x256 .f32
  x3 : Vec F S1024x160 .f32
  x4 : Vec F S1024x128 .f32
  x5 : Vec F S1024x128 .f32
  x6 : Vec F S1024x164 .f32
  x7 : Vec F S1024x1 .i32
  x8 : Vec F S1x80 .f32
  x9 : Vec F S1x1 .f32
  x10 : Vec F S164x192 .bf16
  x11 : Vec F S164x192 .bf16
  x12 : Vec F S192x192 .bf16
  x13 : Vec F S192x4 .bf16
  x14 : Vec F S1x4 .f32
  x15 : Vec F S192x480 .bf16
  x16 : Vec F S160x480 .bf16
  x17 : Vec F S160x160 .bf16
  x18 : Vec F S160x384 .bf16
  x19 : Vec F S128x384 .bf16
  x20 : Vec F S128x128 .bf16
  x21 : Vec F S128x384 .bf16
  x22 : Vec F S128x384 .bf16
  x23 : Vec F S128x128 .bf16
  x24 : Vec F S160x128 .bf16
  x25 : Vec F S128x128 .bf16
  x26 : Vec F S128x128 .bf16
  x27 : Vec F S192x128 .bf16
  x28 : Vec F S128x128 .bf16
  x29 : Vec F S128x40 .bf16
  x30 : Vec F S40x1376 .bf16
  x31 : Vec F S40x1376 .bf16

variable (b : Blocks F)

def val0 : Vec F S1024x80 .f32 := View.ld b.x0 rS1024x80

def val1 : Vec F S1024x256 .f32 := View.ld b.x1 rS1024x256

def val2 : Vec F S1024x256 .f32 := View.ld b.x2 rS1024x256

def val3 : Vec F S1024x160 .f32 := View.ld b.x3 rS1024x160

def val4 : Vec F S1024x128 .f32 := View.ld b.x4 rS1024x128

def val5 : Vec F S1024x128 .f32 := View.ld b.x5 rS1024x128

def val6 : Vec F S1024x164 .f32 := View.ld b.x6 rS1024x164

def val7 : Vec F S1024x1 .i32 := View.ld b.x7 rS1024x1

def val9 : Vec F S1x80 .f32 := View.ld b.x8 rS1x80

def val10 : Vec F S1x1 .f32 := View.ld b.x9 rS1x1

def val12 : Vec F S164x192 .bf16 := View.ld b.x10 rS164x192

def val14 : Vec F S164x192 .bf16 := View.ld b.x11 rS164x192

def val16 : Vec F S192x192 .bf16 := View.ld b.x12 rS192x192

def val18 : Vec F S192x4 .bf16 := View.ld b.x13 rS192x4

def val20 : Vec F S1x4 .f32 := View.ld b.x14 rS1x4

def val22 : Vec F S192x480 .bf16 := View.ld b.x15 rS192x480

def val24 : Vec F S160x480 .bf16 := View.ld b.x16 rS160x480

def val8 : IVec S1024x1 32 := k0_pay1 (val7 b)

def val11 : FVec F S1x1 .f32 := k0_pay2 (val10 b)

def val13 : FVec F S164x192 .bf16 := k0_pay3 (val12 b)

def val15 : FVec F S164x192 .bf16 := k0_pay4 (val14 b)

def val17 : FVec F S192x192 .bf16 := k0_pay5 (val16 b)

def val19 : FVec F S192x4 .bf16 := k0_pay6 (val18 b)

def val21 : FVec F S1x4 .f32 := k0_pay7 (val20 b)

def val23 : FVec F S192x480 .bf16 := k0_pay8 (val22 b)

def val26 : Vec F S160x160 .bf16 := View.ld b.x17 rS160x160

def val28 : Vec F S160x384 .bf16 := View.ld b.x18 rS160x384

def val30 : Vec F S128x384 .bf16 := View.ld b.x19 rS128x384

def val32 : Vec F S128x128 .bf16 := View.ld b.x20 rS128x128

def val34 : Vec F S128x384 .bf16 := View.ld b.x21 rS128x384

def val36 : Vec F S128x384 .bf16 := View.ld b.x22 rS128x384

def val38 : Vec F S128x128 .bf16 := View.ld b.x23 rS128x128

def val40 : Vec F S160x128 .bf16 := View.ld b.x24 rS160x128

def val42 : Vec F S128x128 .bf16 := View.ld b.x25 rS128x128

def val44 : Vec F S128x128 .bf16 := View.ld b.x26 rS128x128

def val46 : Vec F S192x128 .bf16 := View.ld b.x27 rS192x128

def val48 : Vec F S128x128 .bf16 := View.ld b.x28 rS128x128

def val50 : Vec F S128x40 .bf16 := View.ld b.x29 rS128x40

def val52 : Vec F S40x1376 .bf16 := View.ld b.x30 rS40x1376

def val54 : Vec F S40x1376 .bf16 := View.ld b.x31 rS40x1376

def val25 : FVec F S160x480 .bf16 := k0_pay9 (val24 b)

def val27 : FVec F S160x160 .bf16 := k0_pay10 (val26 b)

def val29 : FVec F S160x384 .bf16 := k0_pay11 (val28 b)

def val31 : FVec F S128x384 .bf16 := k0_pay12 (val30 b)

def val33 : FVec F S128x128 .bf16 := k0_pay13 (val32 b)

def val35 : FVec F S128x384 .bf16 := k0_pay14 (val34 b)

def val37 : FVec F S128x384 .bf16 := k0_pay15 (val36 b)

def val39 : FVec F S128x128 .bf16 := k0_pay16 (val38 b)

def val41 : FVec F S160x128 .bf16 := k0_pay17 (val40 b)

def val43 : FVec F S128x128 .bf16 := k0_pay18 (val42 b)

def val45 : FVec F S128x128 .bf16 := k0_pay19 (val44 b)

def val47 : FVec F S192x128 .bf16 := k0_pay20 (val46 b)

def val49 : FVec F S128x128 .bf16 := k0_pay21 (val48 b)

def val51 : FVec F S128x40 .bf16 := k0_pay22 (val50 b)

def val53 : FVec F S40x1376 .bf16 := k0_pay23 (val52 b)

def val89 : IVec S1024x256 32 := iota .tc S1024x256 32 [1] iota_S1024x256_d1_w32

def val55 : FVec F S40x1376 .bf16 := k0_pay24 (val54 b)

def val70 : FVec F S1024x1 .f32 := k0_pay25 (val0 b) (val9 b) (val11 b)

def val88 : IVec S1024x44 32 := k0_pay26 (val8 b)

def val96 : FVec F S1024x1 .f32 := k0_pay27 (val2 b) (val8 b)

def val101 : Vec F S1024x256 .f32 := k0_pay28 (val2 b) (val8 b)

def val103 : FVec F S1024x1 .f32 := k0_pay29 (val101 b)

def val110 : FVec F S1024x1 .f32 := k0_pay30 (val2 b) (val88 b) val89

def val117 : FVec F S1024x1 .f32 := k0_pay31 (val2 b) (val88 b) val89

def val124 : FVec F S1024x1 .f32 := k0_pay32 (val2 b) (val88 b) val89

def val131 : FVec F S1024x1 .f32 := k0_pay33 (val2 b) (val88 b) val89

def val138 : FVec F S1024x1 .f32 := k0_pay34 (val2 b) (val88 b) val89

def val145 : FVec F S1024x1 .f32 := k0_pay35 (val2 b) (val88 b) val89

def val148 : IVec S1024x256 1 := k0_pay36 (val88 b) val89

def val152 : FVec F S1024x1 .f32 := k0_pay37 (val2 b) (val148 b)

def val159 : FVec F S1024x1 .f32 := k0_pay38 (val2 b) (val88 b) val89

def val166 : FVec F S1024x1 .f32 := k0_pay39 (val2 b) (val88 b) val89

def val173 : FVec F S1024x1 .f32 := k0_pay40 (val2 b) (val88 b) val89

def val180 : FVec F S1024x1 .f32 := k0_pay41 (val2 b) (val88 b) val89

def val187 : FVec F S1024x1 .f32 := k0_pay42 (val2 b) (val88 b) val89

def val194 : FVec F S1024x1 .f32 := k0_pay43 (val2 b) (val88 b) val89

def val201 : FVec F S1024x1 .f32 := k0_pay44 (val2 b) (val88 b) val89

def val208 : FVec F S1024x1 .f32 := k0_pay45 (val2 b) (val88 b) val89

def val215 : FVec F S1024x1 .f32 := k0_pay46 (val2 b) (val88 b) val89

def val222 : FVec F S1024x1 .f32 := k0_pay47 (val2 b) (val88 b) val89

def val229 : FVec F S1024x1 .f32 := k0_pay48 (val2 b) (val88 b) val89

def val236 : FVec F S1024x1 .f32 := k0_pay49 (val2 b) (val88 b) val89

def val241 : Vec F S1024x256 .f32 := k0_pay50 (val2 b) (val88 b) val89

def val243 : FVec F S1024x1 .f32 := k0_pay51 (val241 b)

def val250 : FVec F S1024x1 .f32 := k0_pay52 (val2 b) (val88 b) val89

def val257 : FVec F S1024x1 .f32 := k0_pay53 (val2 b) (val88 b) val89

def val264 : FVec F S1024x1 .f32 := k0_pay54 (val2 b) (val88 b) val89

def val271 : FVec F S1024x1 .f32 := k0_pay55 (val2 b) (val88 b) val89

def val278 : FVec F S1024x1 .f32 := k0_pay56 (val2 b) (val88 b) val89

def val285 : FVec F S1024x1 .f32 := k0_pay57 (val2 b) (val88 b) val89

def val288 : IVec S1024x256 1 := k0_pay58 (val88 b) val89

def val292 : FVec F S1024x1 .f32 := k0_pay59 (val2 b) (val288 b)

def val299 : FVec F S1024x1 .f32 := k0_pay60 (val2 b) (val88 b) val89

def val306 : FVec F S1024x1 .f32 := k0_pay61 (val2 b) (val88 b) val89

def val313 : FVec F S1024x1 .f32 := k0_pay62 (val2 b) (val88 b) val89

def val320 : FVec F S1024x1 .f32 := k0_pay63 (val2 b) (val88 b) val89

def val327 : FVec F S1024x1 .f32 := k0_pay64 (val2 b) (val88 b) val89

def val334 : FVec F S1024x1 .f32 := k0_pay65 (val2 b) (val88 b) val89

def val341 : FVec F S1024x1 .f32 := k0_pay66 (val2 b) (val88 b) val89

def val348 : FVec F S1024x1 .f32 := k0_pay67 (val2 b) (val88 b) val89

def val355 : FVec F S1024x1 .f32 := k0_pay68 (val2 b) (val88 b) val89

def val362 : FVec F S1024x1 .f32 := k0_pay69 (val2 b) (val88 b) val89

def val369 : FVec F S1024x1 .f32 := k0_pay70 (val2 b) (val88 b) val89

def val376 : FVec F S1024x1 .f32 := k0_pay71 (val2 b) (val88 b) val89

def val381 : Vec F S1024x256 .f32 := k0_pay72 (val2 b) (val88 b) val89

def val407 : FVec F S1024x40 .f32 := k0_pay75 (val2 b) (val70 b)

def val408 : FVec F S1024x164 .f32 := k0_pay76 (val0 b) (val2 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val409 : FVec F S1024x40 .f32 := k0_pay77 (val2 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val420 : FVec F S1024x192 .bf16 := k0_pay78 (val0 b) (val2 b) (val6 b) (val13 b) (val15 b) (val17 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val424 : FVec F S1024x4 .f32 := k0_pay79 (val0 b) (val2 b) (val6 b) (val13 b) (val15 b) (val17 b) (val19 b) (val21 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val426 : FVec F S1024x1376 .f32 := k0_pay80 (val2 b) (val53 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val428 : FVec F S1024x480 .f32 := k0_pay81 (val2 b) (val53 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val429 : FVec F S1024x480 .f32 := k0_pay82 (val0 b) (val2 b) (val6 b) (val13 b) (val15 b) (val17 b) (val19 b) (val21 b) (val70 b) (val88 b) val89 (val96 b) (val103 b) (val110 b) (val117 b) (val124 b) (val131 b) (val138 b) (val145 b) (val152 b) (val159 b) (val166 b) (val173 b) (val180 b) (val187 b) (val194 b) (val201 b) (val208 b) (val215 b) (val222 b) (val229 b) (val236 b) (val243 b) (val250 b) (val257 b) (val264 b) (val271 b) (val278 b) (val285 b) (val292 b) (val299 b) (val306 b) (val313 b) (val320 b) (val327 b) (val334 b) (val341 b) (val348 b) (val355 b) (val362 b) (val369 b) (val376 b) (val381 b)

def val438 : FVec F S1024x384 .f32 := k0_pay83 (val424 b) (val426 b)

def val442 : FVec F S1024x128 .f32 := k0_pay84 (val424 b) (val426 b)

def val447 : FVec F S1024x384 .f32 := k0_pay86 (val55 b) (val407 b)

def val448 : FVec F S1024x128 .f32 := k0_pay87 (val55 b) (val407 b)

def val471 : FVec F S1024x160 .f32 := k0_pay88 (val3 b) (val23 b) (val25 b) (val55 b) (val407 b) (val420 b) (val428 b) (val429 b)

def val476 : FVec F S1024x160 .bf16 := k0_pay89 (val3 b) (val23 b) (val25 b) (val27 b) (val55 b) (val407 b) (val420 b) (val428 b) (val429 b)

def val479 : FVec F S1024x384 .f32 := k0_pay90 (val3 b) (val23 b) (val25 b) (val27 b) (val29 b) (val55 b) (val407 b) (val420 b) (val424 b) (val426 b) (val428 b) (val429 b)

def val481 : FVec F S1024x384 .f32 := k0_pay91 (val4 b) (val31 b)

def val482 : FVec F S1024x128 .f32 := k0_pay92 (val3 b) (val23 b) (val25 b) (val27 b) (val29 b) (val55 b) (val407 b) (val420 b) (val424 b) (val426 b) (val428 b) (val429 b)

def val499 : FVec F S1024x128 .f32 := k0_pay93 (val4 b) (val479 b) (val481 b) (val482 b)

def val527 : FVec F S1024x128 .f32 := k0_pay95 (val4 b) (val5 b) (val33 b) (val35 b) (val37 b) (val438 b) (val447 b) (val479 b) (val481 b) (val482 b)

def val532 : FVec F S1024x128 .bf16 := k0_pay96 (val4 b) (val5 b) (val33 b) (val35 b) (val37 b) (val39 b) (val438 b) (val447 b) (val479 b) (val481 b) (val482 b)

def val533 : FVec F S1024x128 .f32 := k0_pay97 (val41 b) (val476 b)

def val534 : FVec F S1024x128 .f32 := k0_pay98 (val4 b) (val33 b) (val43 b) (val479 b) (val481 b) (val482 b)

def out0_32 : Vec F S1024x40 .f32 :=
  View.canon [⟨rS1024x40, k0_pay99 (val45 b) (val47 b) (val49 b) (val51 b) (val70 b) (val420 b) (val442 b) (val448 b) (val532 b) (val533 b) (val534 b)⟩]

theorem cover0_32 (p0 : Vec F S1024x40 .f32) (y : S1024x40.Idx) :
    ∃ pc ∈ ([⟨rS1024x40, p0⟩] : List (View.Piece (Elt F) S1024x40 .f32)), y ∈ pc.1.set :=
  View.cover_of_tiled [⟨rS1024x40, p0⟩] S1024x40.size (by rfl) y

def out0_33 : Vec F S1024x256 .f32 :=
  View.canon [⟨rS1024x256, k0_pay100 (val2 b) (val45 b) (val47 b) (val49 b) (val51 b) (val70 b) (val420 b) (val442 b) (val448 b) (val532 b) (val533 b) (val534 b)⟩]

theorem cover0_33 (p0 : Vec F S1024x256 .f32) (y : S1024x256.Idx) :
    ∃ pc ∈ ([⟨rS1024x256, p0⟩] : List (View.Piece (Elt F) S1024x256 .f32)), y ∈ pc.1.set :=
  View.cover_of_tiled [⟨rS1024x256, p0⟩] S1024x256.size (by rfl) y

def out0_34 : Vec F S1024x256 .f32 :=
  View.canon [⟨rS1024x256, k0_pay101 (val1 b) (val409 b)⟩]

theorem cover0_34 (p0 : Vec F S1024x256 .f32) (y : S1024x256.Idx) :
    ∃ pc ∈ ([⟨rS1024x256, p0⟩] : List (View.Piece (Elt F) S1024x256 .f32)), y ∈ pc.1.set :=
  View.cover_of_tiled [⟨rS1024x256, p0⟩] S1024x256.size (by rfl) y

def out0_35 : Vec F S1024x160 .f32 :=
  View.canon [⟨rS1024x160, (val471 b)⟩]

theorem cover0_35 (p0 : Vec F S1024x160 .f32) (y : S1024x160.Idx) :
    ∃ pc ∈ ([⟨rS1024x160, p0⟩] : List (View.Piece (Elt F) S1024x160 .f32)), y ∈ pc.1.set :=
  View.cover_of_tiled [⟨rS1024x160, p0⟩] S1024x160.size (by rfl) y

def out0_36 : Vec F S1024x128 .f32 :=
  View.canon [⟨rS1024x128, (val499 b)⟩]

theorem cover0_36 (p0 : Vec F S1024x128 .f32) (y : S1024x128.Idx) :
    ∃ pc ∈ ([⟨rS1024x128, p0⟩] : List (View.Piece (Elt F) S1024x128 .f32)), y ∈ pc.1.set :=
  View.cover_of_tiled [⟨rS1024x128, p0⟩] S1024x128.size (by rfl) y

def out0_37 : Vec F S1024x128 .f32 :=
  View.canon [⟨rS1024x128, (val527 b)⟩]

theorem cover0_37 (p0 : Vec F S1024x128 .f32) (y : S1024x128.Idx) :
    ∃ pc ∈ ([⟨rS1024x128, p0⟩] : List (View.Piece (Elt F) S1024x128 .f32)), y ∈ pc.1.set :=
  View.cover_of_tiled [⟨rS1024x128, p0⟩] S1024x128.size (by rfl) y

def out0_38 : Vec F S1024x164 .f32 :=
  View.canon [⟨rS1024x164, (val408 b)⟩]

theorem cover0_38 (p0 : Vec F S1024x164 .f32) (y : S1024x164.Idx) :
    ∃ pc ∈ ([⟨rS1024x164, p0⟩] : List (View.Piece (Elt F) S1024x164 .f32)), y ∈ pc.1.set :=
  View.cover_of_tiled [⟨rS1024x164, p0⟩] S1024x164.size (by rfl) y

abbrev blocksAt (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t, iblk m c 25 t, iblk m c 26 t, iblk m c 27 t, iblk m c 28 t, iblk m c 29 t, iblk m c 30 t, iblk m c 31 t⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => out0_32 (blocksAt m c t)
    | ⟨33, _⟩ => out0_33 (blocksAt m c t)
    | ⟨34, _⟩ => out0_34 (blocksAt m c t)
    | ⟨35, _⟩ => out0_35 (blocksAt m c t)
    | ⟨36, _⟩ => out0_36 (blocksAt m c t)
    | ⟨37, _⟩ => out0_37 (blocksAt m c t)
    | ⟨38, _⟩ => out0_38 (blocksAt m c t)
    | ⟨_ + 39, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = out0_32 (blocksAt m c t) := by dsimp only [dats]
theorem after0_33 (c : Dev nD) (t : Fin cfg0.N) : (dats m 0 c).after 33 t = out0_33 (blocksAt m c t) := by dsimp only [dats]
theorem after0_34 (c : Dev nD) (t : Fin cfg0.N) : (dats m 0 c).after 34 t = out0_34 (blocksAt m c t) := by dsimp only [dats]
theorem after0_35 (c : Dev nD) (t : Fin cfg0.N) : (dats m 0 c).after 35 t = out0_35 (blocksAt m c t) := by dsimp only [dats]
theorem after0_36 (c : Dev nD) (t : Fin cfg0.N) : (dats m 0 c).after 36 t = out0_36 (blocksAt m c t) := by dsimp only [dats]
theorem after0_37 (c : Dev nD) (t : Fin cfg0.N) : (dats m 0 c).after 37 t = out0_37 (blocksAt m c t) := by dsimp only [dats]
theorem after0_38 (c : Dev nD) (t : Fin cfg0.N) : (dats m 0 c).after 38 t = out0_38 (blocksAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d

end Cert.KernelIdeal.Fr

end
-- ==== Proof.FrameBodyIdeal.lean ====
import proofs.«401269_j23398981829052_3_alg».proof.Proof.FrameDefsIdeal

set_option maxRecDepth 16384

noncomputable section

namespace Cert.KernelIdeal.Fr

open Cert.KernelIdeal.Gen Cert.KernelIdeal.GenL

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

local macro "open_values" : tactic =>
  `(tactic| simp only [View.readAt_eq_ld, rS1024x80, rS1024x256, rS1024x160, rS1024x128, rS1024x164, rS1024x1, rS1x80, rS1x1, rS164x192, rS192x192, rS192x4, rS1x4, rS192x480, rS160x480, rS160x160, rS160x384, rS128x384, rS128x128, rS160x128, rS192x128, rS128x40, rS40x1376, rS1024x40, val0, val1, val2, val3, val4, val5, val6, val7, val9, val10, val12, val14, val16, val18, val20, val22, val24, val8, val11, val13, val15, val17, val19, val21, val23, val26, val28, val30, val32, val34, val36, val38, val40, val42, val44, val46, val48, val50, val52, val54, val25, val27, val29, val31, val33, val35, val37, val39, val41, val43, val45, val47, val49, val51, val53, val89, val55, val70, val88, val96, val101, val103, val110, val117, val124, val131, val138, val145, val148, val152, val159, val166, val173, val180, val187, val194, val201, val208, val215, val222, val229, val236, val241, val243, val250, val257, val264, val271, val278, val285, val288, val292, val299, val306, val313, val320, val327, val334, val341, val348, val355, val362, val369, val376, val381, val407, val408, val409, val420, val424, val426, val428, val429, val438, val442, val447, val448, val471, val476, val479, val481, val482, val499, val527, val532, val533, val534, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

set_option maxHeartbeats 4000000 in

theorem sound_kernel (c : Dev nD) (E : Set ℕ) (i : grid0.Coords) (arg1 : Memref sig .tc .vmem S1024x80 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x160 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x164 .f32) (harg7 : arg7.IsWhole) (arg8 : Memref sig .tc .vmem S1024x1 .i32) (harg8 : arg8.IsWhole) (arg9 : Memref sig .tc .vmem S1x80 .f32) (harg9 : arg9.IsWhole) (arg10 : Memref sig .tc .vmem S1x1 .f32) (harg10 : arg10.IsWhole) (arg11 : Memref sig .tc .vmem S164x192 .bf16) (harg11 : arg11.IsWhole) (arg12 : Memref sig .tc .vmem S164x192 .bf16) (harg12 : arg12.IsWhole) (arg13 : Memref sig .tc .vmem S192x192 .bf16) (harg13 : arg13.IsWhole) (arg14 : Memref sig .tc .vmem S192x4 .bf16) (harg14 : arg14.IsWhole) (arg15 : Memref sig .tc .vmem S1x4 .f32) (harg15 : arg15.IsWhole) (arg16 : Memref sig .tc .vmem S192x480 .bf16) (harg16 : arg16.IsWhole) (arg17 : Memref sig .tc .vmem S160x480 .bf16) (harg17 : arg17.IsWhole) (arg18 : Memref sig .tc .vmem S160x160 .bf16) (harg18 : arg18.IsWhole) (arg19 : Memref sig .tc .vmem S160x384 .bf16) (harg19 : arg19.IsWhole) (arg20 : Memref sig .tc .vmem S128x384 .bf16) (harg20 : arg20.IsWhole) (arg21 : Memref sig .tc .vmem S128x128 .bf16) (harg21 : arg21.IsWhole) (arg22 : Memref sig .tc .vmem S128x384 .bf16) (harg22 : arg22.IsWhole) (arg23 : Memref sig .tc .vmem S128x384 .bf16) (harg23 : arg23.IsWhole) (arg24 : Memref sig .tc .vmem S128x128 .bf16) (harg24 : arg24.IsWhole) (arg25 : Memref sig .tc .vmem S160x128 .bf16) (harg25 : arg25.IsWhole) (arg26 : Memref sig .tc .vmem S128x128 .bf16) (harg26 : arg26.IsWhole) (arg27 : Memref sig .tc .vmem S128x128 .bf16) (harg27 : arg27.IsWhole) (arg28 : Memref sig .tc .vmem S192x128 .bf16) (harg28 : arg28.IsWhole) (arg29 : Memref sig .tc .vmem S128x128 .bf16) (harg29 : arg29.IsWhole) (arg30 : Memref sig .tc .vmem S128x40 .bf16) (harg30 : arg30.IsWhole) (arg31 : Memref sig .tc .vmem S40x1376 .bf16) (harg31 : arg31.IsWhole) (arg32 : Memref sig .tc .vmem S40x1376 .bf16) (harg32 : arg32.IsWhole) (arg33 : Memref sig .tc .vmem S1024x40 .f32) (harg33 : arg33.IsWhole) (arg34 : Memref sig .tc .vmem S1024x256 .f32) (harg34 : arg34.IsWhole) (arg35 : Memref sig .tc .vmem S1024x256 .f32) (harg35 : arg35.IsWhole) (arg36 : Memref sig .tc .vmem S1024x160 .f32) (harg36 : arg36.IsWhole) (arg37 : Memref sig .tc .vmem S1024x128 .f32) (harg37 : arg37.IsWhole) (arg38 : Memref sig .tc .vmem S1024x128 .f32) (harg38 : arg38.IsWhole) (arg39 : Memref sig .tc .vmem S1024x164 .f32) (harg39 : arg39.IsWhole)
    (x0 : Vec F S1024x80 .f32) (x1 : Vec F S1024x256 .f32) (x2 : Vec F S1024x256 .f32) (x3 : Vec F S1024x160 .f32) (x4 : Vec F S1024x128 .f32) (x5 : Vec F S1024x128 .f32) (x6 : Vec F S1024x164 .f32) (x7 : Vec F S1024x1 .i32) (x8 : Vec F S1x80 .f32) (x9 : Vec F S1x1 .f32) (x10 : Vec F S164x192 .bf16) (x11 : Vec F S164x192 .bf16) (x12 : Vec F S192x192 .bf16) (x13 : Vec F S192x4 .bf16) (x14 : Vec F S1x4 .f32) (x15 : Vec F S192x480 .bf16) (x16 : Vec F S160x480 .bf16) (x17 : Vec F S160x160 .bf16) (x18 : Vec F S160x384 .bf16) (x19 : Vec F S128x384 .bf16) (x20 : Vec F S128x128 .bf16) (x21 : Vec F S128x384 .bf16) (x22 : Vec F S128x384 .bf16) (x23 : Vec F S128x128 .bf16) (x24 : Vec F S160x128 .bf16) (x25 : Vec F S128x128 .bf16) (x26 : Vec F S128x128 .bf16) (x27 : Vec F S192x128 .bf16) (x28 : Vec F S128x128 .bf16) (x29 : Vec F S128x40 .bf16) (x30 : Vec F S40x1376 .bf16) (x31 : Vec F S40x1376 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31
        ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31
            ∗ owns (c : Thread nD τ) arg33 fullShare (out0_32 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg34 fullShare (out0_33 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg35 fullShare (out0_34 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg36 fullShare (out0_35 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg37 fullShare (out0_36 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg38 fullShare (out0_37 (Blocks.mk x0 x1 x2 x3 x4 x5 x6 x7 x8 x9 x10 x11 x12 x13 x14 x15 x16 x17 x18 x19 x20 x21 x22 x23 x24 x25 x26 x27 x28 x29 x30 x31)) ∗ owns (c : Thread nD τ) arg39 fullShare (out0_38 (Blocks.mk x0 x1 x2 x3 x4 x5 x6 x7 x8 x9 x10 x11 x12 x13 x14 x15 x16 x17 x18 x19 x20 x21 x22 x23 x24 x25 x26 x27 x28 x29 x30 x31))) -∗ K ⟨⟩))
      ⊢ wp frame (wpE (defs₀ (F := F)) Variants.none c none) E (cc0__fargan_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  simp only [cc0__fargan_kernel_eq_skeleton]; unfold cc0__fargan_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists _; isplitr
    swap; · iexact H32
    ipureintro
    refine (View.read_writes_eq_canon _ _ _ (cover0_32 _)).trans ?_
    unfold out0_32
    sl_unfold_run_names
    open_values
    try rfl
  isplitl [H33]
  · iexists _; isplitr
    swap; · iexact H33
    ipureintro
    refine (View.read_writes_eq_canon _ _ _ (cover0_33 _)).trans ?_
    unfold out0_33
    sl_unfold_run_names
    open_values
    try rfl
  isplitl [H34]
  · iexists _; isplitr
    swap; · iexact H34
    ipureintro
    refine (View.read_writes_eq_canon _ _ _ (cover0_34 _)).trans ?_
    unfold out0_34
    sl_unfold_run_names
    open_values
    try rfl
  isplitl [H35]
  · iexists _; isplitr
    swap; · iexact H35
    ipureintro
    refine (View.read_writes_eq_canon _ _ _ (cover0_35 _)).trans ?_
    unfold out0_35
    sl_unfold_run_names
    open_values
    try rfl
  isplitl [H36]
  · iexists _; isplitr
    swap; · iexact H36
    ipureintro
    refine (View.read_writes_eq_canon _ _ _ (cover0_36 _)).trans ?_
    unfold out0_36
    sl_unfold_run_names
    open_values
    try rfl
  isplitl [H37]
  · iexists _; isplitr
    swap; · iexact H37
    ipureintro
    refine (View.read_writes_eq_canon _ _ _ (cover0_37 _)).trans ?_
    unfold out0_37
    sl_unfold_run_names
    open_values
    try rfl
  iexists _; isplitr
  swap; · iexact H38
  ipureintro
  refine (View.read_writes_eq_canon _ _ _ (cover0_38 _)).trans ?_
  unfold out0_38
  sl_unfold_run_names
  open_values
  try rfl

end Cert.KernelIdeal.Fr

end
-- ==== Proof.FrameIdeal.lean ====
import proofs.«401269_j23398981829052_3_alg».proof.Proof.FrameBodyIdeal

set_option maxRecDepth 16384

noncomputable section

namespace Cert.KernelIdeal.Fr

open Cert.KernelIdeal.Gen Cert.KernelIdeal.GenL

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t))

set_option maxHeartbeats 4000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  iexact H38

set_option maxHeartbeats 4000000 in

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem post32 (r : PUnit × MemSt nD τ sig (Elt F)) (h : Pipeline.FramePost cfgs (dats m) 0 (V m) r) (c : Dev nD) :
    r.2.mem ((c : Thread nD τ).loc main_v64_0) = (dats m 0 c).arrAt 32 cfg0.N :=
  (h c).1 32

theorem post33 (r : PUnit × MemSt nD τ sig (Elt F)) (h : Pipeline.FramePost cfgs (dats m) 0 (V m) r) (c : Dev nD) :
    r.2.mem ((c : Thread nD τ).loc main_v64_1) = (dats m 0 c).arrAt 33 cfg0.N :=
  (h c).1 33

theorem post34 (r : PUnit × MemSt nD τ sig (Elt F)) (h : Pipeline.FramePost cfgs (dats m) 0 (V m) r) (c : Dev nD) :
    r.2.mem ((c : Thread nD τ).loc main_v64_2) = (dats m 0 c).arrAt 34 cfg0.N :=
  (h c).1 34

theorem post35 (r : PUnit × MemSt nD τ sig (Elt F)) (h : Pipeline.FramePost cfgs (dats m) 0 (V m) r) (c : Dev nD) :
    r.2.mem ((c : Thread nD τ).loc main_v64_3) = (dats m 0 c).arrAt 35 cfg0.N :=
  (h c).1 35

theorem post36 (r : PUnit × MemSt nD τ sig (Elt F)) (h : Pipeline.FramePost cfgs (dats m) 0 (V m) r) (c : Dev nD) :
    r.2.mem ((c : Thread nD τ).loc main_v64_4) = (dats m 0 c).arrAt 36 cfg0.N :=
  (h c).1 36

theorem post37 (r : PUnit × MemSt nD τ sig (Elt F)) (h : Pipeline.FramePost cfgs (dats m) 0 (V m) r) (c : Dev nD) :
    r.2.mem ((c : Thread nD τ).loc main_v64_5) = (dats m 0 c).arrAt 37 cfg0.N :=
  (h c).1 37

theorem post38 (r : PUnit × MemSt nD τ sig (Elt F)) (h : Pipeline.FramePost cfgs (dats m) 0 (V m) r) (c : Dev nD) :
    r.2.mem ((c : Thread nD τ).loc main_v64_6) = (dats m 0 c).arrAt 38 cfg0.N :=
  (h c).1 38

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_arg m c main_arg0)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_arg m c main_arg1)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_arg m c main_arg2)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_arg m c main_arg3)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_arg m c main_arg4)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_arg m c main_arg5)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_arg m c main_arg6)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_arg m c main_arg7)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_arg m c main_arg8)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_arg m c main_arg9)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_arg m c main_arg10)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_arg m c main_arg11)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_arg m c main_arg12)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_arg m c main_arg13)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_arg m c main_arg14)

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_arg m c main_arg15)

theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_arg m c main_arg16)

theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_arg m c main_arg17)

theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_arg m c main_arg18)

theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_arg m c main_arg19)

theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_arg m c main_arg20)

theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_arg m c main_arg21)

theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_arg m c main_arg22)

theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_arg m c main_arg23)

theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_arg m c main_arg24)

theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_arg m c main_arg25)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c⟩)
    (run_main m ρ)

end Cert.KernelIdeal.Fr

end
-- ==== Proof.Chain0.lean ====
import proofs.«401269_j23398981829052_3_alg».proof.Proof.FrameDefsIdeal
import proofs.«401269_j23398981829052_3_alg».proof.Proof.RefRead
import Idealize.ShloMosaic.Lib.ValueIdx

noncomputable section

namespace Cert.Bridge.Chain

open Idealize.ShloMosaic Idealize.ShloMosaic.TcCoe Idealize.ShloMosaic.ValueIdx
open Cert.KernelIdeal Cert.KernelIdeal.Gen Cert.ReferenceIdeal.Read

variable (t : Fin 64)
variable (x0 : (⟨Cert.ReferenceIdeal.S65536x80, .f32⟩ : BufTy).Contents (Elt Ideal))
variable (x1 : (⟨Cert.ReferenceIdeal.S65536x256, .f32⟩ : BufTy).Contents (Elt Ideal))
variable (x2 : (⟨Cert.ReferenceIdeal.S65536x256, .f32⟩ : BufTy).Contents (Elt Ideal))
variable (x3 : (⟨Cert.ReferenceIdeal.S65536x160, .f32⟩ : BufTy).Contents (Elt Ideal))
variable (x4 : (⟨Cert.ReferenceIdeal.S65536x128, .f32⟩ : BufTy).Contents (Elt Ideal))
variable (x5 : (⟨Cert.ReferenceIdeal.S65536x128, .f32⟩ : BufTy).Contents (Elt Ideal))
variable (x6 : (⟨Cert.ReferenceIdeal.S65536x164, .f32⟩ : BufTy).Contents (Elt Ideal))
variable (x7 : (⟨Cert.ReferenceIdeal.S65536, .i32⟩ : BufTy).Contents (Elt Ideal))
variable (x8 : (⟨Cert.ReferenceIdeal.S1x80, .f32⟩ : BufTy).Contents (Elt Ideal))
variable (x9 : (⟨Cert.ReferenceIdeal.S1, .f32⟩ : BufTy).Contents (Elt Ideal))
variable (x10 : (⟨Cert.ReferenceIdeal.S192x328, .f32⟩ : BufTy).Contents (Elt Ideal))
variable (x11 : (⟨Cert.ReferenceIdeal.S192x192, .f32⟩ : BufTy).Contents (Elt Ideal))
variable (x12 : (⟨Cert.ReferenceIdeal.S4x192, .f32⟩ : BufTy).Contents (Elt Ideal))
variable (x13 : (⟨Cert.ReferenceIdeal.S4, .f32⟩ : BufTy).Contents (Elt Ideal))
variable (x14 : (⟨Cert.ReferenceIdeal.S480x272, .f32⟩ : BufTy).Contents (Elt Ideal))
variable (x15 : (⟨Cert.ReferenceIdeal.S480x160, .f32⟩ : BufTy).Contents (Elt Ideal))
variable (x16 : (⟨Cert.ReferenceIdeal.S160x160, .f32⟩ : BufTy).Contents (Elt Ideal))
variable (x17 : (⟨Cert.ReferenceIdeal.S384x240, .f32⟩ : BufTy).Contents (Elt Ideal))
variable (x18 : (⟨Cert.ReferenceIdeal.S384x128, .f32⟩ : BufTy).Contents (Elt Ideal))
variable (x19 : (⟨Cert.ReferenceIdeal.S128x128, .f32⟩ : BufTy).Contents (Elt Ideal))
variable (x20 : (⟨Cert.ReferenceIdeal.S384x208, .f32⟩ : BufTy).Contents (Elt Ideal))
variable (x21 : (⟨Cert.ReferenceIdeal.S384x128, .f32⟩ : BufTy).Contents (Elt Ideal))
variable (x22 : (⟨Cert.ReferenceIdeal.S128x128, .f32⟩ : BufTy).Contents (Elt Ideal))
variable (x23 : (⟨Cert.ReferenceIdeal.S128x688, .f32⟩ : BufTy).Contents (Elt Ideal))
variable (x24 : (⟨Cert.ReferenceIdeal.S128x128, .f32⟩ : BufTy).Contents (Elt Ideal))
variable (x25 : (⟨Cert.ReferenceIdeal.S40x128, .f32⟩ : BufTy).Contents (Elt Ideal))
variable (b : Cert.KernelIdeal.Fr.Blocks Ideal)

structure Inputs : Prop where
  in0 : ∀ (r : Fin 1024) (i : Fin 65536) (k : Fin 80), i.val = 1024 * t.val + r.val → Fr.val0 b (ix2 r k) = x0 (ix2 i k)
  in1 : ∀ (r : Fin 1024) (i : Fin 65536) (k : Fin 256), i.val = 1024 * t.val + r.val → Fr.val1 b (ix2 r k) = x1 (ix2 i k)
  in2 : ∀ (r : Fin 1024) (i : Fin 65536) (k : Fin 256), i.val = 1024 * t.val + r.val → Fr.val2 b (ix2 r k) = x2 (ix2 i k)
  in3 : ∀ (r : Fin 1024) (i : Fin 65536) (k : Fin 160), i.val = 1024 * t.val + r.val → Fr.val3 b (ix2 r k) = x3 (ix2 i k)
  in4 : ∀ (r : Fin 1024) (i : Fin 65536) (k : Fin 128), i.val = 1024 * t.val + r.val → Fr.val4 b (ix2 r k) = x4 (ix2 i k)
  in5 : ∀ (r : Fin 1024) (i : Fin 65536) (k : Fin 128), i.val = 1024 * t.val + r.val → Fr.val5 b (ix2 r k) = x5 (ix2 i k)
  in6 : ∀ (r : Fin 1024) (i : Fin 65536) (k : Fin 164), i.val = 1024 * t.val + r.val → Fr.val6 b (ix2 r k) = x6 (ix2 i k)
  in8 : ∀ (r : Fin 1024) (i : Fin 65536), i.val = 1024 * t.val + r.val → Fr.val8 b (ix2 r (0 : Fin 1)) = x7 (ix1 i)
  in9 : ∀ (k : Fin 80), Fr.val9 b (ix2 (0 : Fin 1) k) = x8 (ix2 (0 : Fin 1) k)
  in11 : Fr.val11 b (ix2 (0 : Fin 1) (0 : Fin 1)) = x9 (ix1 (0 : Fin 1))
  in21 : ∀ (q : Fin 4), Fr.val21 b (ix2 (0 : Fin 1) q) = x13 (ix1 q)
  in13 : ∀ (k : Fin 164) (n : Fin 192) (j : Fin 328), j.val = k.val → Fr.val13 b (ix2 k n) = x10 (ix2 n j)
  in15 : ∀ (k : Fin 164) (n : Fin 192) (j : Fin 328), j.val = 164 + k.val → Fr.val15 b (ix2 k n) = x10 (ix2 n j)
  in17 : ∀ (k : Fin 192) (n : Fin 192), Fr.val17 b (ix2 k n) = x11 (ix2 n k)
  in19 : ∀ (k : Fin 192) (n : Fin 4), Fr.val19 b (ix2 k n) = x12 (ix2 n k)
  in23 : ∀ (k : Fin 192) (n : Fin 480) (j : Fin 272), j.val = k.val → Fr.val23 b (ix2 k n) = x14 (ix2 n j)
  in25 : ∀ (k : Fin 160) (n : Fin 480), Fr.val25 b (ix2 k n) = x15 (ix2 n k)
  in27 : ∀ (k : Fin 160) (n : Fin 160), Fr.val27 b (ix2 k n) = x16 (ix2 n k)
  in29 : ∀ (k : Fin 160) (n : Fin 384) (j : Fin 240), j.val = k.val → Fr.val29 b (ix2 k n) = x17 (ix2 n j)
  in31 : ∀ (k : Fin 128) (n : Fin 384), Fr.val31 b (ix2 k n) = x18 (ix2 n k)
  in33 : ∀ (k : Fin 128) (n : Fin 128), Fr.val33 b (ix2 k n) = x19 (ix2 n k)
  in35 : ∀ (k : Fin 128) (n : Fin 384) (j : Fin 208), j.val = k.val → Fr.val35 b (ix2 k n) = x20 (ix2 n j)
  in37 : ∀ (k : Fin 128) (n : Fin 384), Fr.val37 b (ix2 k n) = x21 (ix2 n k)
  in39 : ∀ (k : Fin 128) (n : Fin 128), Fr.val39 b (ix2 k n) = x22 (ix2 n k)
  in41 : ∀ (k : Fin 160) (n : Fin 128) (j : Fin 688), j.val = k.val → Fr.val41 b (ix2 k n) = x23 (ix2 n j)
  in43 : ∀ (k : Fin 128) (n : Fin 128) (j : Fin 688), j.val = 160 + k.val → Fr.val43 b (ix2 k n) = x23 (ix2 n j)
  in45 : ∀ (k : Fin 128) (n : Fin 128) (j : Fin 688), j.val = 288 + k.val → Fr.val45 b (ix2 k n) = x23 (ix2 n j)
  in47 : ∀ (k : Fin 192) (n : Fin 128) (j : Fin 688), j.val = 416 + k.val → Fr.val47 b (ix2 k n) = x23 (ix2 n j)
  in49 : ∀ (k : Fin 128) (n : Fin 128), Fr.val49 b (ix2 k n) = x24 (ix2 n k)
  in51 : ∀ (k : Fin 128) (n : Fin 40), Fr.val51 b (ix2 k n) = x25 (ix2 n k)
  in53a : ∀ (k : Fin 40) (n : Fin 1376) (p : Fin 480) (j : Fin 272), 0 ≤ n.val → n.val < 480 → p.val = n.val - 0 → j.val = 192 + k.val → Fr.val53 b (ix2 k n) = x14 (ix2 p j)
  in53b : ∀ (k : Fin 40) (n : Fin 1376) (p : Fin 384) (j : Fin 240), 480 ≤ n.val → n.val < 864 → p.val = n.val - 480 → j.val = 160 + k.val → Fr.val53 b (ix2 k n) = x17 (ix2 p j)
  in53c : ∀ (k : Fin 40) (n : Fin 1376) (p : Fin 384) (j : Fin 208), 864 ≤ n.val → n.val < 1248 → p.val = n.val - 864 → j.val = 128 + k.val → Fr.val53 b (ix2 k n) = x20 (ix2 p j)
  in53d : ∀ (k : Fin 40) (n : Fin 1376) (p : Fin 128) (j : Fin 688), 1248 ≤ n.val → n.val < 1376 → p.val = n.val - 1248 → j.val = 608 + k.val → Fr.val53 b (ix2 k n) = x23 (ix2 p j)
  in55a : ∀ (k : Fin 40) (n : Fin 1376) (p : Fin 480) (j : Fin 272), 0 ≤ n.val → n.val < 480 → p.val = n.val - 0 → j.val = 232 + k.val → Fr.val55 b (ix2 k n) = x14 (ix2 p j)
  in55b : ∀ (k : Fin 40) (n : Fin 1376) (p : Fin 384) (j : Fin 240), 480 ≤ n.val → n.val < 864 → p.val = n.val - 480 → j.val = 200 + k.val → Fr.val55 b (ix2 k n) = x17 (ix2 p j)
  in55c : ∀ (k : Fin 40) (n : Fin 1376) (p : Fin 384) (j : Fin 208), 864 ≤ n.val → n.val < 1248 → p.val = n.val - 864 → j.val = 168 + k.val → Fr.val55 b (ix2 k n) = x20 (ix2 p j)
  in55d : ∀ (k : Fin 40) (n : Fin 1376) (p : Fin 128) (j : Fin 688), 1248 ≤ n.val → n.val < 1376 → p.val = n.val - 1248 → j.val = 648 + k.val → Fr.val55 b (ix2 k n) = x23 (ix2 p j)

def SGain : Prop :=
  ∀ (r : Fin 1024) (i : Fin 65536) (n : Fin 1), i.val = 1024 * t.val + r.val → Fr.val70 b (ix2 r n) = val_main_v15 (F := Ideal) x0 x8 x9 (ix2 i n)

def SIdx : Prop :=
  ∀ (r : Fin 1024) (i : Fin 65536) (n : Fin 44), i.val = 1024 * t.val + r.val → Fr.val88 b (ix2 r n) = val_main_v33 (F := Ideal) x7 (ix2 i n)

def SPrev : Prop :=
  ∀ (r : Fin 1024) (i : Fin 65536) (n : Fin 40), i.val = 1024 * t.val + r.val → Fr.val407 b (ix2 r n) = val_main_v43 (F := Ideal) x0 x2 x8 x9 (ix2 i n)

def STmp : Prop :=
  ∀ (r : Fin 1024) (i : Fin 65536) (n : Fin 164), i.val = 1024 * t.val + r.val → Fr.val408 b (ix2 r n) = val_main_v44 (F := Ideal) x0 x2 x7 x8 x9 (ix2 i n)

def SFp : Prop :=
  ∀ (r : Fin 1024) (i : Fin 65536) (n : Fin 40), i.val = 1024 * t.val + r.val → Fr.val409 b (ix2 r n) = val_main_v45 (F := Ideal) x0 x2 x7 x8 x9 (ix2 i n)

def SFwc : Prop :=
  ∀ (r : Fin 1024) (i : Fin 65536) (n : Fin 192), i.val = 1024 * t.val + r.val → Fr.val420 b (ix2 r n) = val_main_v58 (F := Ideal) x0 x2 x6 x7 x8 x9 x10 x11 (ix2 i n)

def SPg : Prop :=
  ∀ (r : Fin 1024) (i : Fin 65536) (n : Fin 4), i.val = 1024 * t.val + r.val → Fr.val424 b (ix2 r n) = val_main_v69 (F := Ideal) x0 x2 x6 x7 x8 x9 x10 x11 x12 x13 (ix2 i n)

def SG1 : Prop :=
  ∀ (r : Fin 1024) (i : Fin 65536) (n : Fin 160), i.val = 1024 * t.val + r.val → Fr.val471 b (ix2 r n) = val_main_v105 (F := Ideal) x0 x2 x3 x6 x7 x8 x9 x10 x11 x12 x13 x14 x15 (ix2 i n)

def SO1 : Prop :=
  ∀ (r : Fin 1024) (i : Fin 65536) (n : Fin 160), i.val = 1024 * t.val + r.val → Fr.val476 b (ix2 r n) = val_main_v114 (F := Ideal) x0 x2 x3 x6 x7 x8 x9 x10 x11 x12 x13 x14 x15 x16 (ix2 i n)

def SGi2 : Prop :=
  ∀ (r : Fin 1024) (i : Fin 65536) (n : Fin 384), i.val = 1024 * t.val + r.val → Fr.val479 b (ix2 r n) = val_main_v120 (F := Ideal) x0 x2 x3 x6 x7 x8 x9 x10 x11 x12 x13 x14 x15 x16 x17 (ix2 i n)

def SGh2 : Prop :=
  ∀ (r : Fin 1024) (i : Fin 65536) (n : Fin 384), i.val = 1024 * t.val + r.val → Fr.val481 b (ix2 r n) = val_main_v122 (F := Ideal) x4 x18 (ix2 i n)

def SG2 : Prop :=
  ∀ (r : Fin 1024) (i : Fin 65536) (n : Fin 128), i.val = 1024 * t.val + r.val → Fr.val499 b (ix2 r n) = val_main_v150 (F := Ideal) x0 x2 x3 x4 x6 x7 x8 x9 x10 x11 x12 x13 x14 x15 x16 x17 x18 (ix2 i n)

def SO2 : Prop :=
  ∀ (r : Fin 1024) (i : Fin 65536) (n : Fin 128), i.val = 1024 * t.val + r.val → k0_pay94 (Fr.val4 b) (Fr.val33 b) (Fr.val479 b) (Fr.val481 b) (Fr.val482 b) (ix2 r n) = val_main_v159 (F := Ideal) x0 x2 x3 x4 x6 x7 x8 x9 x10 x11 x12 x13 x14 x15 x16 x17 x18 x19 (ix2 i n)

def SG3 : Prop :=
  ∀ (r : Fin 1024) (i : Fin 65536) (n : Fin 128), i.val = 1024 * t.val + r.val → Fr.val527 b (ix2 r n) = val_main_v195 (F := Ideal) x0 x2 x3 x4 x5 x6 x7 x8 x9 x10 x11 x12 x13 x14 x15 x16 x17 x18 x19 x20 x21 (ix2 i n)

def SO3 : Prop :=
  ∀ (r : Fin 1024) (i : Fin 65536) (n : Fin 128), i.val = 1024 * t.val + r.val → Fr.val532 b (ix2 r n) = val_main_v204 (F := Ideal) x0 x2 x3 x4 x5 x6 x7 x8 x9 x10 x11 x12 x13 x14 x15 x16 x17 x18 x19 x20 x21 x22 (ix2 i n)

def SSig : Prop :=
  ∀ (r : Fin 1024) (i : Fin 65536) (n : Fin 40), i.val = 1024 * t.val + r.val → k0_pay99 (Fr.val45 b) (Fr.val47 b) (Fr.val49 b) (Fr.val51 b) (Fr.val70 b) (Fr.val420 b) (Fr.val442 b) (Fr.val448 b) (Fr.val532 b) (Fr.val533 b) (Fr.val534 b) (ix2 r n) = val_main_v225 (F := Ideal) x0 x2 x3 x4 x5 x6 x7 x8 x9 x10 x11 x12 x13 x14 x15 x16 x17 x18 x19 x20 x21 x22 x23 x24 x25 (ix2 i n)

def SExc : Prop :=
  ∀ (r : Fin 1024) (i : Fin 65536) (n : Fin 256), i.val = 1024 * t.val + r.val → k0_pay100 (Fr.val2 b) (Fr.val45 b) (Fr.val47 b) (Fr.val49 b) (Fr.val51 b) (Fr.val70 b) (Fr.val420 b) (Fr.val442 b) (Fr.val448 b) (Fr.val532 b) (Fr.val533 b) (Fr.val534 b) (ix2 r n) = val_main_v227 (F := Ideal) x0 x2 x3 x4 x5 x6 x7 x8 x9 x10 x11 x12 x13 x14 x15 x16 x17 x18 x19 x20 x21 x22 x23 x24 x25 (ix2 i n)

def SPp : Prop :=
  ∀ (r : Fin 1024) (i : Fin 65536) (n : Fin 256), i.val = 1024 * t.val + r.val → k0_pay101 (Fr.val1 b) (Fr.val409 b) (ix2 r n) = val_main_v229 (F := Ideal) x0 x1 x2 x7 x8 x9 (ix2 i n)

def SGi2Reset : Prop :=
  ∀ (r : Fin 1024) (i : Fin 65536) (n : Fin 128) (p : Fin 384), p.val = n.val → i.val = 1024 * t.val + r.val → Fr.val482 b (ix2 r n) = val_main_v120 (F := Ideal) x0 x2 x3 x6 x7 x8 x9 x10 x11 x12 x13 x14 x15 x16 x17 (ix2 i p)

def SPgRange : Prop :=
  ∀ (i : Fin 65536) (q : Fin 4), (0 : EReal) ≤ val_main_v69 (F := Ideal) x0 x2 x6 x7 x8 x9 x10 x11 x12 x13 (ix2 i q) ∧ val_main_v69 (F := Ideal) x0 x2 x6 x7 x8 x9 x10 x11 x12 x13 (ix2 i q) ≠ (⊤ : EReal)

end Cert.Bridge.Chain

end
-- ==== Proof.WindowReads.lean ====
import proofs.«401269_j23398981829052_3_alg».proof.Proof.LaunchIdeal
import proofs.«401269_j23398981829052_3_alg».proof.Proof.Gen.KernelIdeal.Points
import Idealize.ShloMosaic.Lib.ValueIdx
import Idealize.ShloMosaic.Lib.Pipeline.Value

noncomputable section

namespace Cert.Bridge.WindowReads

open Idealize.ShloMosaic Idealize.ShloMosaic.TcCoe Idealize.SL.Sem
open Idealize.ShloMosaic.ValueIdx
open Cert.KernelIdeal Cert.KernelIdeal.Gen Cert.KernelIdeal.GenL

variable {F : FTy → Type} [FloatOps F]

theorem row_lt (t : Fin cfg0.N) (r : Fin 1024) : 1024 * t.val + r.val < 65536 := by
  have hN : grid0.N = 64 := N_0
  have ht : t.val < grid0.N := t.isLt
  have hr : r.val < 1024 := r.isLt
  omega

theorem point_of_row (i : Fin 65536) : ∃ t : Fin cfg0.N, t.val = i.val / 1024 := by
  have hN : grid0.N = 64 := N_0
  have hi : i.val < 65536 := i.isLt
  exact ⟨⟨i.val / 1024, by show _ < grid0.N; omega⟩, rfl⟩

theorem idx0 : ∀ t : Fin cfg0.N, win0_0.index t (0 : Fin 2) = t.val ∧ win0_0.index t (1 : Fin 2) = 0 :=
  (by decide +kernel : ∀ t : Fin grid0.N, _)

theorem read0 (A : (⟨S65536x80, .f32⟩ : BufTy).Contents (Elt F)) (t : Fin cfg0.N) (r : Fin 1024) (k : Fin 80)
    (i : Fin 65536) (hi : i.val = 1024 * t.val + r.val) :
    ((cfg0.win 0).blk t).view.read (Elt F) A (ix2 r k) = A (ix2 i k) := by
  obtain ⟨e0, e1⟩ := idx0 t
  rw [View.read_apply]
  show A _ = A _
  refine congrArg A (funext fun a => Fin.ext ?_)
  match a with
  | ⟨0, _⟩ => show win0_0.index t (0 : Fin 2) * 1024 + 1 * r.val = i.val; omega
  | ⟨1, _⟩ => show win0_0.index t (1 : Fin 2) * 80 + 1 * k.val = k.val; omega

theorem idx1 : ∀ t : Fin cfg0.N, win0_1.index t (0 : Fin 2) = t.val ∧ win0_1.index t (1 : Fin 2) = 0 :=
  (by decide +kernel : ∀ t : Fin grid0.N, _)

theorem read1 (A : (⟨S65536x256, .f32⟩ : BufTy).Contents (Elt F)) (t : Fin cfg0.N) (r : Fin 1024) (k : Fin 256)
    (i : Fin 65536) (hi : i.val = 1024 * t.val + r.val) :
    ((cfg0.win 1).blk t).view.read (Elt F) A (ix2 r k) = A (ix2 i k) := by
  obtain ⟨e0, e1⟩ := idx1 t
  rw [View.read_apply]
  show A _ = A _
  refine congrArg A (funext fun a => Fin.ext ?_)
  match a with
  | ⟨0, _⟩ => show win0_1.index t (0 : Fin 2) * 1024 + 1 * r.val = i.val; omega
  | ⟨1, _⟩ => show win0_1.index t (1 : Fin 2) * 256 + 1 * k.val = k.val; omega

theorem idx2 : ∀ t : Fin cfg0.N, win0_2.index t (0 : Fin 2) = t.val ∧ win0_2.index t (1 : Fin 2) = 0 :=
  (by decide +kernel : ∀ t : Fin grid0.N, _)

theorem read2 (A : (⟨S65536x256, .f32⟩ : BufTy).Contents (Elt F)) (t : Fin cfg0.N) (r : Fin 1024) (k : Fin 256)
    (i : Fin 65536) (hi : i.val = 1024 * t.val + r.val) :
    ((cfg0.win 2).blk t).view.read (Elt F) A (ix2 r k) = A (ix2 i k) := by
  obtain ⟨e0, e1⟩ := idx2 t
  rw [View.read_apply]
  show A _ = A _
  refine congrArg A (funext fun a => Fin.ext ?_)
  match a with
  | ⟨0, _⟩ => show win0_2.index t (0 : Fin 2) * 1024 + 1 * r.val = i.val; omega
  | ⟨1, _⟩ => show win0_2.index t (1 : Fin 2) * 256 + 1 * k.val = k.val; omega

theorem idx3 : ∀ t : Fin cfg0.N, win0_3.index t (0 : Fin 2) = t.val ∧ win0_3.index t (1 : Fin 2) = 0 :=
  (by decide +kernel : ∀ t : Fin grid0.N, _)

theorem read3 (A : (⟨S65536x160, .f32⟩ : BufTy).Contents (Elt F)) (t : Fin cfg0.N) (r : Fin 1024) (k : Fin 160)
    (i : Fin 65536) (hi : i.val = 1024 * t.val + r.val) :
    ((cfg0.win 3).blk t).view.read (Elt F) A (ix2 r k) = A (ix2 i k) := by
  obtain ⟨e0, e1⟩ := idx3 t
  rw [View.read_apply]
  show A _ = A _
  refine congrArg A (funext fun a => Fin.ext ?_)
  match a with
  | ⟨0, _⟩ => show win0_3.index t (0 : Fin 2) * 1024 + 1 * r.val = i.val; omega
  | ⟨1, _⟩ => show win0_3.index t (1 : Fin 2) * 160 + 1 * k.val = k.val; omega

theorem idx4 : ∀ t : Fin cfg0.N, win0_4.index t (0 : Fin 2) = t.val ∧ win0_4.index t (1 : Fin 2) = 0 :=
  (by decide +kernel : ∀ t : Fin grid0.N, _)

theorem read4 (A : (⟨S65536x128, .f32⟩ : BufTy).Contents (Elt F)) (t : Fin cfg0.N) (r : Fin 1024) (k : Fin 128)
    (i : Fin 65536) (hi : i.val = 1024 * t.val + r.val) :
    ((cfg0.win 4).blk t).view.read (Elt F) A (ix2 r k) = A (ix2 i k) := by
  obtain ⟨e0, e1⟩ := idx4 t
  rw [View.read_apply]
  show A _ = A _
  refine congrArg A (funext fun a => Fin.ext ?_)
  match a with
  | ⟨0, _⟩ => show win0_4.index t (0 : Fin 2) * 1024 + 1 * r.val = i.val; omega
  | ⟨1, _⟩ => show win0_4.index t (1 : Fin 2) * 128 + 1 * k.val = k.val; omega

theorem idx5 : ∀ t : Fin cfg0.N, win0_5.index t (0 : Fin 2) = t.val ∧ win0_5.index t (1 : Fin 2) = 0 :=
  (by decide +kernel : ∀ t : Fin grid0.N, _)

theorem read5 (A : (⟨S65536x128, .f32⟩ : BufTy).Contents (Elt F)) (t : Fin cfg0.N) (r : Fin 1024) (k : Fin 128)
    (i : Fin 65536) (hi : i.val = 1024 * t.val + r.val) :
    ((cfg0.win 5).blk t).view.read (Elt F) A (ix2 r k) = A (ix2 i k) := by
  obtain ⟨e0, e1⟩ := idx5 t
  rw [View.read_apply]
  show A _ = A _
  refine congrArg A (funext fun a => Fin.ext ?_)
  match a with
  | ⟨0, _⟩ => show win0_5.index t (0 : Fin 2) * 1024 + 1 * r.val = i.val; omega
  | ⟨1, _⟩ => show win0_5.index t (1 : Fin 2) * 128 + 1 * k.val = k.val; omega

theorem idx6 : ∀ t : Fin cfg0.N, win0_6.index t (0 : Fin 2) = t.val ∧ win0_6.index t (1 : Fin 2) = 0 :=
  (by decide +kernel : ∀ t : Fin grid0.N, _)

theorem read6 (A : (⟨S65536x164, .f32⟩ : BufTy).Contents (Elt F)) (t : Fin cfg0.N) (r : Fin 1024) (k : Fin 164)
    (i : Fin 65536) (hi : i.val = 1024 * t.val + r.val) :
    ((cfg0.win 6).blk t).view.read (Elt F) A (ix2 r k) = A (ix2 i k) := by
  obtain ⟨e0, e1⟩ := idx6 t
  rw [View.read_apply]
  show A _ = A _
  refine congrArg A (funext fun a => Fin.ext ?_)
  match a with
  | ⟨0, _⟩ => show win0_6.index t (0 : Fin 2) * 1024 + 1 * r.val = i.val; omega
  | ⟨1, _⟩ => show win0_6.index t (1 : Fin 2) * 164 + 1 * k.val = k.val; omega

theorem idx7 : ∀ t : Fin cfg0.N, win0_7.index t (0 : Fin 2) = t.val ∧ win0_7.index t (1 : Fin 2) = 0 :=
  (by decide +kernel : ∀ t : Fin grid0.N, _)

theorem read7 (A : (⟨S65536x1, .i32⟩ : BufTy).Contents (Elt F)) (t : Fin cfg0.N) (r : Fin 1024) (k : Fin 1)
    (i : Fin 65536) (hi : i.val = 1024 * t.val + r.val) :
    ((cfg0.win 7).blk t).view.read (Elt F) A (ix2 r k) = A (ix2 i k) := by
  obtain ⟨e0, e1⟩ := idx7 t
  rw [View.read_apply]
  show A _ = A _
  refine congrArg A (funext fun a => Fin.ext ?_)
  match a with
  | ⟨0, _⟩ => show win0_7.index t (0 : Fin 2) * 1024 + 1 * r.val = i.val; omega
  | ⟨1, _⟩ => show win0_7.index t (1 : Fin 2) * 1 + 1 * k.val = k.val; omega

theorem idx8 : ∀ t : Fin cfg0.N, win0_8.index t (0 : Fin 2) = 0 ∧ win0_8.index t (1 : Fin 2) = 0 :=
  (by decide +kernel : ∀ t : Fin grid0.N, _)

theorem read8 (A : (⟨S1x80, .f32⟩ : BufTy).Contents (Elt F)) (t : Fin cfg0.N) (y : S1x80.Idx) :
    ((cfg0.win 8).blk t).view.read (Elt F) A y = A y := by
  obtain ⟨e0, e1⟩ := idx8 t
  rw [View.read_apply]
  show A _ = A _
  refine congrArg A (funext fun a => Fin.ext ?_)
  match a with
  | ⟨0, _⟩ => show win0_8.index t (0 : Fin 2) * 1 + 1 * (y 0).val = (y 0).val; omega
  | ⟨1, _⟩ => show win0_8.index t (1 : Fin 2) * 80 + 1 * (y 1).val = (y 1).val; omega

theorem idx9 : ∀ t : Fin cfg0.N, win0_9.index t (0 : Fin 2) = 0 ∧ win0_9.index t (1 : Fin 2) = 0 :=
  (by decide +kernel : ∀ t : Fin grid0.N, _)

theorem read9 (A : (⟨S1x1, .f32⟩ : BufTy).Contents (Elt F)) (t : Fin cfg0.N) (y : S1x1.Idx) :
    ((cfg0.win 9).blk t).view.read (Elt F) A y = A y := by
  obtain ⟨e0, e1⟩ := idx9 t
  rw [View.read_apply]
  show A _ = A _
  refine congrArg A (funext fun a => Fin.ext ?_)
  match a with
  | ⟨0, _⟩ => show win0_9.index t (0 : Fin 2) * 1 + 1 * (y 0).val = (y 0).val; omega
  | ⟨1, _⟩ => show win0_9.index t (1 : Fin 2) * 1 + 1 * (y 1).val = (y 1).val; omega

theorem idx10 : ∀ t : Fin cfg0.N, win0_10.index t (0 : Fin 2) = 0 ∧ win0_10.index t (1 : Fin 2) = 0 :=
  (by decide +kernel : ∀ t : Fin grid0.N, _)

theorem read10 (A : (⟨S164x192, .bf16⟩ : BufTy).Contents (Elt F)) (t : Fin cfg0.N) (y : S164x192.Idx) :
    ((cfg0.win 10).blk t).view.read (Elt F) A y = A y := by
  obtain ⟨e0, e1⟩ := idx10 t
  rw [View.read_apply]
  show A _ = A _
  refine congrArg A (funext fun a => Fin.ext ?_)
  match a with
  | ⟨0, _⟩ => show win0_10.index t (0 : Fin 2) * 164 + 1 * (y 0).val = (y 0).val; omega
  | ⟨1, _⟩ => show win0_10.index t (1 : Fin 2) * 192 + 1 * (y 1).val = (y 1).val; omega

theorem idx11 : ∀ t : Fin cfg0.N, win0_11.index t (0 : Fin 2) = 0 ∧ win0_11.index t (1 : Fin 2) = 0 :=
  (by decide +kernel : ∀ t : Fin grid0.N, _)

theorem read11 (A : (⟨S164x192, .bf16⟩ : BufTy).Contents (Elt F)) (t : Fin cfg0.N) (y : S164x192.Idx) :
    ((cfg0.win 11).blk t).view.read (Elt F) A y = A y := by
  obtain ⟨e0, e1⟩ := idx11 t
  rw [View.read_apply]
  show A _ = A _
  refine congrArg A (funext fun a => Fin.ext ?_)
  match a with
  | ⟨0, _⟩ => show win0_11.index t (0 : Fin 2) * 164 + 1 * (y 0).val = (y 0).val; omega
  | ⟨1, _⟩ => show win0_11.index t (1 : Fin 2) * 192 + 1 * (y 1).val = (y 1).val; omega

theorem idx12 : ∀ t : Fin cfg0.N, win0_12.index t (0 : Fin 2) = 0 ∧ win0_12.index t (1 : Fin 2) = 0 :=
  (by decide +kernel : ∀ t : Fin grid0.N, _)

theorem read12 (A : (⟨S192x192, .bf16⟩ : BufTy).Contents (Elt F)) (t : Fin cfg0.N) (y : S192x192.Idx) :
    ((cfg0.win 12).blk t).view.read (Elt F) A y = A y := by
  obtain ⟨e0, e1⟩ := idx12 t
  rw [View.read_apply]
  show A _ = A _
  refine congrArg A (funext fun a => Fin.ext ?_)
  match a with
  | ⟨0, _⟩ => show win0_12.index t (0 : Fin 2) * 192 + 1 * (y 0).val = (y 0).val; omega
  | ⟨1, _⟩ => show win0_12.index t (1 : Fin 2) * 192 + 1 * (y 1).val = (y 1).val; omega

theorem idx13 : ∀ t : Fin cfg0.N, win0_13.index t (0 : Fin 2) = 0 ∧ win0_13.index t (1 : Fin 2) = 0 :=
  (by decide +kernel : ∀ t : Fin grid0.N, _)

theorem read13 (A : (⟨S192x4, .bf16⟩ : BufTy).Contents (Elt F)) (t : Fin cfg0.N) (y : S192x4.Idx) :
    ((cfg0.win 13).blk t).view.read (Elt F) A y = A y := by
  obtain ⟨e0, e1⟩ := idx13 t
  rw [View.read_apply]
  show A _ = A _
  refine congrArg A (funext fun a => Fin.ext ?_)
  match a with
  | ⟨0, _⟩ => show win0_13.index t (0 : Fin 2) * 192 + 1 * (y 0).val = (y 0).val; omega
  | ⟨1, _⟩ => show win0_13.index t (1 : Fin 2) * 4 + 1 * (y 1).val = (y 1).val; omega

theorem idx14 : ∀ t : Fin cfg0.N, win0_14.index t (0 : Fin 2) = 0 ∧ win0_14.index t (1 : Fin 2) = 0 :=
  (by decide +kernel : ∀ t : Fin grid0.N, _)

theorem read14 (A : (⟨S1x4, .f32⟩ : BufTy).Contents (Elt F)) (t : Fin cfg0.N) (y : S1x4.Idx) :
    ((cfg0.win 14).blk t).view.read (Elt F) A y = A y := by
  obtain ⟨e0, e1⟩ := idx14 t
  rw [View.read_apply]
  show A _ = A _
  refine congrArg A (funext fun a => Fin.ext ?_)
  match a with
  | ⟨0, _⟩ => show win0_14.index t (0 : Fin 2) * 1 + 1 * (y 0).val = (y 0).val; omega
  | ⟨1, _⟩ => show win0_14.index t (1 : Fin 2) * 4 + 1 * (y 1).val = (y 1).val; omega

theorem idx15 : ∀ t : Fin cfg0.N, win0_15.index t (0 : Fin 2) = 0 ∧ win0_15.index t (1 : Fin 2) = 0 :=
  (by decide +kernel : ∀ t : Fin grid0.N, _)

theorem read15 (A : (⟨S192x480, .bf16⟩ : BufTy).Contents (Elt F)) (t : Fin cfg0.N) (y : S192x480.Idx) :
    ((cfg0.win 15).blk t).view.read (Elt F) A y = A y := by
  obtain ⟨e0, e1⟩ := idx15 t
  rw [View.read_apply]
  show A _ = A _
  refine congrArg A (funext fun a => Fin.ext ?_)
  match a with
  | ⟨0, _⟩ => show win0_15.index t (0 : Fin 2) * 192 + 1 * (y 0).val = (y 0).val; omega
  | ⟨1, _⟩ => show win0_15.index t (1 : Fin 2) * 480 + 1 * (y 1).val = (y 1).val; omega

theorem idx16 : ∀ t : Fin cfg0.N, win0_16.index t (0 : Fin 2) = 0 ∧ win0_16.index t (1 : Fin 2) = 0 :=
  (by decide +kernel : ∀ t : Fin grid0.N, _)

theorem read16 (A : (⟨S160x480, .bf16⟩ : BufTy).Contents (Elt F)) (t : Fin cfg0.N) (y : S160x480.Idx) :
    ((cfg0.win 16).blk t).view.read (Elt F) A y = A y := by
  obtain ⟨e0, e1⟩ := idx16 t
  rw [View.read_apply]
  show A _ = A _
  refine congrArg A (funext fun a => Fin.ext ?_)
  match a with
  | ⟨0, _⟩ => show win0_16.index t (0 : Fin 2) * 160 + 1 * (y 0).val = (y 0).val; omega
  | ⟨1, _⟩ => show win0_16.index t (1 : Fin 2) * 480 + 1 * (y 1).val = (y 1).val; omega

theorem idx17 : ∀ t : Fin cfg0.N, win0_17.index t (0 : Fin 2) = 0 ∧ win0_17.index t (1 : Fin 2) = 0 :=
  (by decide +kernel : ∀ t : Fin grid0.N, _)

theorem read17 (A : (⟨S160x160, .bf16⟩ : BufTy).Contents (Elt F)) (t : Fin cfg0.N) (y : S160x160.Idx) :
    ((cfg0.win 17).blk t).view.read (Elt F) A y = A y := by
  obtain ⟨e0, e1⟩ := idx17 t
  rw [View.read_apply]
  show A _ = A _
  refine congrArg A (funext fun a => Fin.ext ?_)
  match a with
  | ⟨0, _⟩ => show win0_17.index t (0 : Fin 2) * 160 + 1 * (y 0).val = (y 0).val; omega
  | ⟨1, _⟩ => show win0_17.index t (1 : Fin 2) * 160 + 1 * (y 1).val = (y 1).val; omega

theorem idx18 : ∀ t : Fin cfg0.N, win0_18.index t (0 : Fin 2) = 0 ∧ win0_18.index t (1 : Fin 2) = 0 :=
  (by decide +kernel : ∀ t : Fin grid0.N, _)

theorem read18 (A : (⟨S160x384, .bf16⟩ : BufTy).Contents (Elt F)) (t : Fin cfg0.N) (y : S160x384.Idx) :
    ((cfg0.win 18).blk t).view.read (Elt F) A y = A y := by
  obtain ⟨e0, e1⟩ := idx18 t
  rw [View.read_apply]
  show A _ = A _
  refine congrArg A (funext fun a => Fin.ext ?_)
  match a with
  | ⟨0, _⟩ => show win0_18.index t (0 : Fin 2) * 160 + 1 * (y 0).val = (y 0).val; omega
  | ⟨1, _⟩ => show win0_18.index t (1 : Fin 2) * 384 + 1 * (y 1).val = (y 1).val; omega

theorem idx19 : ∀ t : Fin cfg0.N, win0_19.index t (0 : Fin 2) = 0 ∧ win0_19.index t (1 : Fin 2) = 0 :=
  (by decide +kernel : ∀ t : Fin grid0.N, _)

theorem read19 (A : (⟨S128x384, .bf16⟩ : BufTy).Contents (Elt F)) (t : Fin cfg0.N) (y : S128x384.Idx) :
    ((cfg0.win 19).blk t).view.read (Elt F) A y = A y := by
  obtain ⟨e0, e1⟩ := idx19 t
  rw [View.read_apply]
  show A _ = A _
  refine congrArg A (funext fun a => Fin.ext ?_)
  match a with
  | ⟨0, _⟩ => show win0_19.index t (0 : Fin 2) * 128 + 1 * (y 0).val = (y 0).val; omega
  | ⟨1, _⟩ => show win0_19.index t (1 : Fin 2) * 384 + 1 * (y 1).val = (y 1).val; omega

theorem idx20 : ∀ t : Fin cfg0.N, win0_20.index t (0 : Fin 2) = 0 ∧ win0_20.index t (1 : Fin 2) = 0 :=
  (by decide +kernel : ∀ t : Fin grid0.N, _)

theorem read20 (A : (⟨S128x128, .bf16⟩ : BufTy).Contents (Elt F)) (t : Fin cfg0.N) (y : S128x128.Idx) :
    ((cfg0.win 20).blk t).view.read (Elt F) A y = A y := by
  obtain ⟨e0, e1⟩ := idx20 t
  rw [View.read_apply]
  show A _ = A _
  refine congrArg A (funext fun a => Fin.ext ?_)
  match a with
  | ⟨0, _⟩ => show win0_20.index t (0 : Fin 2) * 128 + 1 * (y 0).val = (y 0).val; omega
  | ⟨1, _⟩ => show win0_20.index t (1 : Fin 2) * 128 + 1 * (y 1).val = (y 1).val; omega

theorem idx21 : ∀ t : Fin cfg0.N, win0_21.index t (0 : Fin 2) = 0 ∧ win0_21.index t (1 : Fin 2) = 0 :=
  (by decide +kernel : ∀ t : Fin grid0.N, _)

theorem read21 (A : (⟨S128x384, .bf16⟩ : BufTy).Contents (Elt F)) (t : Fin cfg0.N) (y : S128x384.Idx) :
    ((cfg0.win 21).blk t).view.read (Elt F) A y = A y := by
  obtain ⟨e0, e1⟩ := idx21 t
  rw [View.read_apply]
  show A _ = A _
  refine congrArg A (funext fun a => Fin.ext ?_)
  match a with
  | ⟨0, _⟩ => show win0_21.index t (0 : Fin 2) * 128 + 1 * (y 0).val = (y 0).val; omega
  | ⟨1, _⟩ => show win0_21.index t (1 : Fin 2) * 384 + 1 * (y 1).val = (y 1).val; omega

theorem idx22 : ∀ t : Fin cfg0.N, win0_22.index t (0 : Fin 2) = 0 ∧ win0_22.index t (1 : Fin 2) = 0 :=
  (by decide +kernel : ∀ t : Fin grid0.N, _)

theorem read22 (A : (⟨S128x384, .bf16⟩ : BufTy).Contents (Elt F)) (t : Fin cfg0.N) (y : S128x384.Idx) :
    ((cfg0.win 22).blk t).view.read (Elt F) A y = A y := by
  obtain ⟨e0, e1⟩ := idx22 t
  rw [View.read_apply]
  show A _ = A _
  refine congrArg A (funext fun a => Fin.ext ?_)
  match a with
  | ⟨0, _⟩ => show win0_22.index t (0 : Fin 2) * 128 + 1 * (y 0).val = (y 0).val; omega
  | ⟨1, _⟩ => show win0_22.index t (1 : Fin 2) * 384 + 1 * (y 1).val = (y 1).val; omega

theorem idx23 : ∀ t : Fin cfg0.N, win0_23.index t (0 : Fin 2) = 0 ∧ win0_23.index t (1 : Fin 2) = 0 :=
  (by decide +kernel : ∀ t : Fin grid0.N, _)

theorem read23 (A : (⟨S128x128, .bf16⟩ : BufTy).Contents (Elt F)) (t : Fin cfg0.N) (y : S128x128.Idx) :
    ((cfg0.win 23).blk t).view.read (Elt F) A y = A y := by
  obtain ⟨e0, e1⟩ := idx23 t
  rw [View.read_apply]
  show A _ = A _
  refine congrArg A (funext fun a => Fin.ext ?_)
  match a with
  | ⟨0, _⟩ => show win0_23.index t (0 : Fin 2) * 128 + 1 * (y 0).val = (y 0).val; omega
  | ⟨1, _⟩ => show win0_23.index t (1 : Fin 2) * 128 + 1 * (y 1).val = (y 1).val; omega

theorem idx24 : ∀ t : Fin cfg0.N, win0_24.index t (0 : Fin 2) = 0 ∧ win0_24.index t (1 : Fin 2) = 0 :=
  (by decide +kernel : ∀ t : Fin grid0.N, _)

theorem read24 (A : (⟨S160x128, .bf16⟩ : BufTy).Contents (Elt F)) (t : Fin cfg0.N) (y : S160x128.Idx) :
    ((cfg0.win 24).blk t).view.read (Elt F) A y = A y := by
  obtain ⟨e0, e1⟩ := idx24 t
  rw [View.read_apply]
  show A _ = A _
  refine congrArg A (funext fun a => Fin.ext ?_)
  match a with
  | ⟨0, _⟩ => show win0_24.index t (0 : Fin 2) * 160 + 1 * (y 0).val = (y 0).val; omega
  | ⟨1, _⟩ => show win0_24.index t (1 : Fin 2) * 128 + 1 * (y 1).val = (y 1).val; omega

theorem idx25 : ∀ t : Fin cfg0.N, win0_25.index t (0 : Fin 2) = 0 ∧ win0_25.index t (1 : Fin 2) = 0 :=
  (by decide +kernel : ∀ t : Fin grid0.N, _)

theorem read25 (A : (⟨S128x128, .bf16⟩ : BufTy).Contents (Elt F)) (t : Fin cfg0.N) (y : S128x128.Idx) :
    ((cfg0.win 25).blk t).view.read (Elt F) A y = A y := by
  obtain ⟨e0, e1⟩ := idx25 t
  rw [View.read_apply]
  show A _ = A _
  refine congrArg A (funext fun a => Fin.ext ?_)
  match a with
  | ⟨0, _⟩ => show win0_25.index t (0 : Fin 2) * 128 + 1 * (y 0).val = (y 0).val; omega
  | ⟨1, _⟩ => show win0_25.index t (1 : Fin 2) * 128 + 1 * (y 1).val = (y 1).val; omega

theorem idx26 : ∀ t : Fin cfg0.N, win0_26.index t (0 : Fin 2) = 0 ∧ win0_26.index t (1 : Fin 2) = 0 :=
  (by decide +kernel : ∀ t : Fin grid0.N, _)

theorem read26 (A : (⟨S128x128, .bf16⟩ : BufTy).Contents (Elt F)) (t : Fin cfg0.N) (y : S128x128.Idx) :
    ((cfg0.win 26).blk t).view.read (Elt F) A y = A y := by
  obtain ⟨e0, e1⟩ := idx26 t
  rw [View.read_apply]
  show A _ = A _
  refine congrArg A (funext fun a => Fin.ext ?_)
  match a with
  | ⟨0, _⟩ => show win0_26.index t (0 : Fin 2) * 128 + 1 * (y 0).val = (y 0).val; omega
  | ⟨1, _⟩ => show win0_26.index t (1 : Fin 2) * 128 + 1 * (y 1).val = (y 1).val; omega

theorem idx27 : ∀ t : Fin cfg0.N, win0_27.index t (0 : Fin 2) = 0 ∧ win0_27.index t (1 : Fin 2) = 0 :=
  (by decide +kernel : ∀ t : Fin grid0.N, _)

theorem read27 (A : (⟨S192x128, .bf16⟩ : BufTy).Contents (Elt F)) (t : Fin cfg0.N) (y : S192x128.Idx) :
    ((cfg0.win 27).blk t).view.read (Elt F) A y = A y := by
  obtain ⟨e0, e1⟩ := idx27 t
  rw [View.read_apply]
  show A _ = A _
  refine congrArg A (funext fun a => Fin.ext ?_)
  match a with
  | ⟨0, _⟩ => show win0_27.index t (0 : Fin 2) * 192 + 1 * (y 0).val = (y 0).val; omega
  | ⟨1, _⟩ => show win0_27.index t (1 : Fin 2) * 128 + 1 * (y 1).val = (y 1).val; omega

theorem idx28 : ∀ t : Fin cfg0.N, win0_28.index t (0 : Fin 2) = 0 ∧ win0_28.index t (1 : Fin 2) = 0 :=
  (by decide +kernel : ∀ t : Fin grid0.N, _)

theorem read28 (A : (⟨S128x128, .bf16⟩ : BufTy).Contents (Elt F)) (t : Fin cfg0.N) (y : S128x128.Idx) :
    ((cfg0.win 28).blk t).view.read (Elt F) A y = A y := by
  obtain ⟨e0, e1⟩ := idx28 t
  rw [View.read_apply]
  show A _ = A _
  refine congrArg A (funext fun a => Fin.ext ?_)
  match a with
  | ⟨0, _⟩ => show win0_28.index t (0 : Fin 2) * 128 + 1 * (y 0).val = (y 0).val; omega
  | ⟨1, _⟩ => show win0_28.index t (1 : Fin 2) * 128 + 1 * (y 1).val = (y 1).val; omega

theorem idx29 : ∀ t : Fin cfg0.N, win0_29.index t (0 : Fin 2) = 0 ∧ win0_29.index t (1 : Fin 2) = 0 :=
  (by decide +kernel : ∀ t : Fin grid0.N, _)

theorem read29 (A : (⟨S128x40, .bf16⟩ : BufTy).Contents (Elt F)) (t : Fin cfg0.N) (y : S128x40.Idx) :
    ((cfg0.win 29).blk t).view.read (Elt F) A y = A y := by
  obtain ⟨e0, e1⟩ := idx29 t
  rw [View.read_apply]
  show A _ = A _
  refine congrArg A (funext fun a => Fin.ext ?_)
  match a with
  | ⟨0, _⟩ => show win0_29.index t (0 : Fin 2) * 128 + 1 * (y 0).val = (y 0).val; omega
  | ⟨1, _⟩ => show win0_29.index t (1 : Fin 2) * 40 + 1 * (y 1).val = (y 1).val; omega

theorem idx30 : ∀ t : Fin cfg0.N, win0_30.index t (0 : Fin 2) = 0 ∧ win0_30.index t (1 : Fin 2) = 0 :=
  (by decide +kernel : ∀ t : Fin grid0.N, _)

theorem read30 (A : (⟨S40x1376, .bf16⟩ : BufTy).Contents (Elt F)) (t : Fin cfg0.N) (y : S40x1376.Idx) :
    ((cfg0.win 30).blk t).view.read (Elt F) A y = A y := by
  obtain ⟨e0, e1⟩ := idx30 t
  rw [View.read_apply]
  show A _ = A _
  refine congrArg A (funext fun a => Fin.ext ?_)
  match a with
  | ⟨0, _⟩ => show win0_30.index t (0 : Fin 2) * 40 + 1 * (y 0).val = (y 0).val; omega
  | ⟨1, _⟩ => show win0_30.index t (1 : Fin 2) * 1376 + 1 * (y 1).val = (y 1).val; omega

theorem idx31 : ∀ t : Fin cfg0.N, win0_31.index t (0 : Fin 2) = 0 ∧ win0_31.index t (1 : Fin 2) = 0 :=
  (by decide +kernel : ∀ t : Fin grid0.N, _)

theorem read31 (A : (⟨S40x1376, .bf16⟩ : BufTy).Contents (Elt F)) (t : Fin cfg0.N) (y : S40x1376.Idx) :
    ((cfg0.win 31).blk t).view.read (Elt F) A y = A y := by
  obtain ⟨e0, e1⟩ := idx31 t
  rw [View.read_apply]
  show A _ = A _
  refine congrArg A (funext fun a => Fin.ext ?_)
  match a with
  | ⟨0, _⟩ => show win0_31.index t (0 : Fin 2) * 40 + 1 * (y 0).val = (y 0).val; omega
  | ⟨1, _⟩ => show win0_31.index t (1 : Fin 2) * 1376 + 1 * (y 1).val = (y 1).val; omega

theorem idx32 : ∀ t : Fin cfg0.N, win0_32.index t (0 : Fin 2) = t.val ∧ win0_32.index t (1 : Fin 2) = 0 :=
  (by decide +kernel : ∀ t : Fin grid0.N, _)

theorem read32 (A : (⟨S65536x40, .f32⟩ : BufTy).Contents (Elt F)) (t : Fin cfg0.N) (r : Fin 1024) (k : Fin 40)
    (i : Fin 65536) (hi : i.val = 1024 * t.val + r.val) :
    ((cfg0.win 32).blk t).view.read (Elt F) A (ix2 r k) = A (ix2 i k) := by
  obtain ⟨e0, e1⟩ := idx32 t
  rw [View.read_apply]
  show A _ = A _
  refine congrArg A (funext fun a => Fin.ext ?_)
  match a with
  | ⟨0, _⟩ => show win0_32.index t (0 : Fin 2) * 1024 + 1 * r.val = i.val; omega
  | ⟨1, _⟩ => show win0_32.index t (1 : Fin 2) * 40 + 1 * k.val = k.val; omega

theorem read32_at (A : (⟨S65536x40, .f32⟩ : BufTy).Contents (Elt F)) (t : Fin cfg0.N) (r : Fin 1024) (k : Fin 40) :
    ((cfg0.win 32).blk t).view.read (Elt F) A (ix2 r k) = A (ix2 (⟨1024 * t.val + r.val, row_lt t r⟩ : Fin 65536) k) :=
  read32 A t r k _ rfl

theorem mem32 (t : Fin cfg0.N) (i : S65536x40.Idx) :
    i ∈ ((cfg0.win 32).blk t).view.set ↔ ∀ a : Fin 2, win0_32.index t a * S1024x40.size a ≤ (i a).val ∧ (i a).val < win0_32.index t a * S1024x40.size a + S1024x40.size a := by
  show i ∈ ((View.whole main_v64_0).slice (win0_32.rect t)).set ↔ _
  rw [View.set_slice_whole, Rect.mem_set_unit]
  exact Iff.rfl

theorem mem32_rows (t : Fin cfg0.N) (i : S65536x40.Idx) :
    i ∈ ((cfg0.win 32).blk t).view.set ↔ 1024 * t.val ≤ (i 0).val ∧ (i 0).val < 1024 * t.val + 1024 := by
  obtain ⟨e0, e1⟩ := idx32 t
  have hi1 : (i 1).val < 40 := (i 1).isLt
  rw [mem32]
  constructor
  · intro h
    have b0 : win0_32.index t (0 : Fin 2) * 1024 ≤ (i 0).val ∧ (i 0).val < win0_32.index t (0 : Fin 2) * 1024 + 1024 := h 0
    omega
  · intro h a
    match a with
    | ⟨0, _⟩ => show win0_32.index t (0 : Fin 2) * 1024 ≤ (i 0).val ∧ (i 0).val < win0_32.index t (0 : Fin 2) * 1024 + 1024; omega
    | ⟨1, _⟩ => show win0_32.index t (1 : Fin 2) * 40 ≤ (i 1).val ∧ (i 1).val < win0_32.index t (1 : Fin 2) * 40 + 40; omega

theorem cover32 (i : S65536x40.Idx) :
    ∃ t : Fin cfg0.N, (cfg0.win 32).flush t = true ∧ i ∈ ((cfg0.win 32).blk t).view.set := by
  obtain ⟨t, ht⟩ := point_of_row (i 0)
  refine ⟨t, flush0_32 t, ?_⟩
  rw [mem32_rows]
  omega

theorem idx33 : ∀ t : Fin cfg0.N, win0_33.index t (0 : Fin 2) = t.val ∧ win0_33.index t (1 : Fin 2) = 0 :=
  (by decide +kernel : ∀ t : Fin grid0.N, _)

theorem read33 (A : (⟨S65536x256, .f32⟩ : BufTy).Contents (Elt F)) (t : Fin cfg0.N) (r : Fin 1024) (k : Fin 256)
    (i : Fin 65536) (hi : i.val = 1024 * t.val + r.val) :
    ((cfg0.win 33).blk t).view.read (Elt F) A (ix2 r k) = A (ix2 i k) := by
  obtain ⟨e0, e1⟩ := idx33 t
  rw [View.read_apply]
  show A _ = A _
  refine congrArg A (funext fun a => Fin.ext ?_)
  match a with
  | ⟨0, _⟩ => show win0_33.index t (0 : Fin 2) * 1024 + 1 * r.val = i.val; omega
  | ⟨1, _⟩ => show win0_33.index t (1 : Fin 2) * 256 + 1 * k.val = k.val; omega

theorem read33_at (A : (⟨S65536x256, .f32⟩ : BufTy).Contents (Elt F)) (t : Fin cfg0.N) (r : Fin 1024) (k : Fin 256) :
    ((cfg0.win 33).blk t).view.read (Elt F) A (ix2 r k) = A (ix2 (⟨1024 * t.val + r.val, row_lt t r⟩ : Fin 65536) k) :=
  read33 A t r k _ rfl

theorem mem33 (t : Fin cfg0.N) (i : S65536x256.Idx) :
    i ∈ ((cfg0.win 33).blk t).view.set ↔ ∀ a : Fin 2, win0_33.index t a * S1024x256.size a ≤ (i a).val ∧ (i a).val < win0_33.index t a * S1024x256.size a + S1024x256.size a := by
  show i ∈ ((View.whole main_v64_1).slice (win0_33.rect t)).set ↔ _
  rw [View.set_slice_whole, Rect.mem_set_unit]
  exact Iff.rfl

theorem mem33_rows (t : Fin cfg0.N) (i : S65536x256.Idx) :
    i ∈ ((cfg0.win 33).blk t).view.set ↔ 1024 * t.val ≤ (i 0).val ∧ (i 0).val < 1024 * t.val + 1024 := by
  obtain ⟨e0, e1⟩ := idx33 t
  have hi1 : (i 1).val < 256 := (i 1).isLt
  rw [mem33]
  constructor
  · intro h
    have b0 : win0_33.index t (0 : Fin 2) * 1024 ≤ (i 0).val ∧ (i 0).val < win0_33.index t (0 : Fin 2) * 1024 + 1024 := h 0
    omega
  · intro h a
    match a with
    | ⟨0, _⟩ => show win0_33.index t (0 : Fin 2) * 1024 ≤ (i 0).val ∧ (i 0).val < win0_33.index t (0 : Fin 2) * 1024 + 1024; omega
    | ⟨1, _⟩ => show win0_33.index t (1 : Fin 2) * 256 ≤ (i 1).val ∧ (i 1).val < win0_33.index t (1 : Fin 2) * 256 + 256; omega

theorem cover33 (i : S65536x256.Idx) :
    ∃ t : Fin cfg0.N, (cfg0.win 33).flush t = true ∧ i ∈ ((cfg0.win 33).blk t).view.set := by
  obtain ⟨t, ht⟩ := point_of_row (i 0)
  refine ⟨t, flush0_33 t, ?_⟩
  rw [mem33_rows]
  omega

theorem idx34 : ∀ t : Fin cfg0.N, win0_34.index t (0 : Fin 2) = t.val ∧ win0_34.index t (1 : Fin 2) = 0 :=
  (by decide +kernel : ∀ t : Fin grid0.N, _)

theorem read34 (A : (⟨S65536x256, .f32⟩ : BufTy).Contents (Elt F)) (t : Fin cfg0.N) (r : Fin 1024) (k : Fin 256)
    (i : Fin 65536) (hi : i.val = 1024 * t.val + r.val) :
    ((cfg0.win 34).blk t).view.read (Elt F) A (ix2 r k) = A (ix2 i k) := by
  obtain ⟨e0, e1⟩ := idx34 t
  rw [View.read_apply]
  show A _ = A _
  refine congrArg A (funext fun a => Fin.ext ?_)
  match a with
  | ⟨0, _⟩ => show win0_34.index t (0 : Fin 2) * 1024 + 1 * r.val = i.val; omega
  | ⟨1, _⟩ => show win0_34.index t (1 : Fin 2) * 256 + 1 * k.val = k.val; omega

theorem read34_at (A : (⟨S65536x256, .f32⟩ : BufTy).Contents (Elt F)) (t : Fin cfg0.N) (r : Fin 1024) (k : Fin 256) :
    ((cfg0.win 34).blk t).view.read (Elt F) A (ix2 r k) = A (ix2 (⟨1024 * t.val + r.val, row_lt t r⟩ : Fin 65536) k) :=
  read34 A t r k _ rfl

theorem mem34 (t : Fin cfg0.N) (i : S65536x256.Idx) :
    i ∈ ((cfg0.win 34).blk t).view.set ↔ ∀ a : Fin 2, win0_34.index t a * S1024x256.size a ≤ (i a).val ∧ (i a).val < win0_34.index t a * S1024x256.size a + S1024x256.size a := by
  show i ∈ ((View.whole main_v64_2).slice (win0_34.rect t)).set ↔ _
  rw [View.set_slice_whole, Rect.mem_set_unit]
  exact Iff.rfl

theorem mem34_rows (t : Fin cfg0.N) (i : S65536x256.Idx) :
    i ∈ ((cfg0.win 34).blk t).view.set ↔ 1024 * t.val ≤ (i 0).val ∧ (i 0).val < 1024 * t.val + 1024 := by
  obtain ⟨e0, e1⟩ := idx34 t
  have hi1 : (i 1).val < 256 := (i 1).isLt
  rw [mem34]
  constructor
  · intro h
    have b0 : win0_34.index t (0 : Fin 2) * 1024 ≤ (i 0).val ∧ (i 0).val < win0_34.index t (0 : Fin 2) * 1024 + 1024 := h 0
    omega
  · intro h a
    match a with
    | ⟨0, _⟩ => show win0_34.index t (0 : Fin 2) * 1024 ≤ (i 0).val ∧ (i 0).val < win0_34.index t (0 : Fin 2) * 1024 + 1024; omega
    | ⟨1, _⟩ => show win0_34.index t (1 : Fin 2) * 256 ≤ (i 1).val ∧ (i 1).val < win0_34.index t (1 : Fin 2) * 256 + 256; omega

theorem cover34 (i : S65536x256.Idx) :
    ∃ t : Fin cfg0.N, (cfg0.win 34).flush t = true ∧ i ∈ ((cfg0.win 34).blk t).view.set := by
  obtain ⟨t, ht⟩ := point_of_row (i 0)
  refine ⟨t, flush0_34 t, ?_⟩
  rw [mem34_rows]
  omega

theorem idx35 : ∀ t : Fin cfg0.N, win0_35.index t (0 : Fin 2) = t.val ∧ win0_35.index t (1 : Fin 2) = 0 :=
  (by decide +kernel : ∀ t : Fin grid0.N, _)

theorem read35 (A : (⟨S65536x160, .f32⟩ : BufTy).Contents (Elt F)) (t : Fin cfg0.N) (r : Fin 1024) (k : Fin 160)
    (i : Fin 65536) (hi : i.val = 1024 * t.val + r.val) :
    ((cfg0.win 35).blk t).view.read (Elt F) A (ix2 r k) = A (ix2 i k) := by
  obtain ⟨e0, e1⟩ := idx35 t
  rw [View.read_apply]
  show A _ = A _
  refine congrArg A (funext fun a => Fin.ext ?_)
  match a with
  | ⟨0, _⟩ => show win0_35.index t (0 : Fin 2) * 1024 + 1 * r.val = i.val; omega
  | ⟨1, _⟩ => show win0_35.index t (1 : Fin 2) * 160 + 1 * k.val = k.val; omega

theorem read35_at (A : (⟨S65536x160, .f32⟩ : BufTy).Contents (Elt F)) (t : Fin cfg0.N) (r : Fin 1024) (k : Fin 160) :
    ((cfg0.win 35).blk t).view.read (Elt F) A (ix2 r k) = A (ix2 (⟨1024 * t.val + r.val, row_lt t r⟩ : Fin 65536) k) :=
  read35 A t r k _ rfl

theorem mem35 (t : Fin cfg0.N) (i : S65536x160.Idx) :
    i ∈ ((cfg0.win 35).blk t).view.set ↔ ∀ a : Fin 2, win0_35.index t a * S1024x160.size a ≤ (i a).val ∧ (i a).val < win0_35.index t a * S1024x160.size a + S1024x160.size a := by
  show i ∈ ((View.whole main_v64_3).slice (win0_35.rect t)).set ↔ _
  rw [View.set_slice_whole, Rect.mem_set_unit]
  exact Iff.rfl

theorem mem35_rows (t : Fin cfg0.N) (i : S65536x160.Idx) :
    i ∈ ((cfg0.win 35).blk t).view.set ↔ 1024 * t.val ≤ (i 0).val ∧ (i 0).val < 1024 * t.val + 1024 := by
  obtain ⟨e0, e1⟩ := idx35 t
  have hi1 : (i 1).val < 160 := (i 1).isLt
  rw [mem35]
  constructor
  · intro h
    have b0 : win0_35.index t (0 : Fin 2) * 1024 ≤ (i 0).val ∧ (i 0).val < win0_35.index t (0 : Fin 2) * 1024 + 1024 := h 0
    omega
  · intro h a
    match a with
    | ⟨0, _⟩ => show win0_35.index t (0 : Fin 2) * 1024 ≤ (i 0).val ∧ (i 0).val < win0_35.index t (0 : Fin 2) * 1024 + 1024; omega
    | ⟨1, _⟩ => show win0_35.index t (1 : Fin 2) * 160 ≤ (i 1).val ∧ (i 1).val < win0_35.index t (1 : Fin 2) * 160 + 160; omega

theorem cover35 (i : S65536x160.Idx) :
    ∃ t : Fin cfg0.N, (cfg0.win 35).flush t = true ∧ i ∈ ((cfg0.win 35).blk t).view.set := by
  obtain ⟨t, ht⟩ := point_of_row (i 0)
  refine ⟨t, flush0_35 t, ?_⟩
  rw [mem35_rows]
  omega

theorem idx36 : ∀ t : Fin cfg0.N, win0_36.index t (0 : Fin 2) = t.val ∧ win0_36.index t (1 : Fin 2) = 0 :=
  (by decide +kernel : ∀ t : Fin grid0.N, _)

theorem read36 (A : (⟨S65536x128, .f32⟩ : BufTy).Contents (Elt F)) (t : Fin cfg0.N) (r : Fin 1024) (k : Fin 128)
    (i : Fin 65536) (hi : i.val = 1024 * t.val + r.val) :
    ((cfg0.win 36).blk t).view.read (Elt F) A (ix2 r k) = A (ix2 i k) := by
  obtain ⟨e0, e1⟩ := idx36 t
  rw [View.read_apply]
  show A _ = A _
  refine congrArg A (funext fun a => Fin.ext ?_)
  match a with
  | ⟨0, _⟩ => show win0_36.index t (0 : Fin 2) * 1024 + 1 * r.val = i.val; omega
  | ⟨1, _⟩ => show win0_36.index t (1 : Fin 2) * 128 + 1 * k.val = k.val; omega

theorem read36_at (A : (⟨S65536x128, .f32⟩ : BufTy).Contents (Elt F)) (t : Fin cfg0.N) (r : Fin 1024) (k : Fin 128) :
    ((cfg0.win 36).blk t).view.read (Elt F) A (ix2 r k) = A (ix2 (⟨1024 * t.val + r.val, row_lt t r⟩ : Fin 65536) k) :=
  read36 A t r k _ rfl

theorem mem36 (t : Fin cfg0.N) (i : S65536x128.Idx) :
    i ∈ ((cfg0.win 36).blk t).view.set ↔ ∀ a : Fin 2, win0_36.index t a * S1024x128.size a ≤ (i a).val ∧ (i a).val < win0_36.index t a * S1024x128.size a + S1024x128.size a := by
  show i ∈ ((View.whole main_v64_4).slice (win0_36.rect t)).set ↔ _
  rw [View.set_slice_whole, Rect.mem_set_unit]
  exact Iff.rfl

theorem mem36_rows (t : Fin cfg0.N) (i : S65536x128.Idx) :
    i ∈ ((cfg0.win 36).blk t).view.set ↔ 1024 * t.val ≤ (i 0).val ∧ (i 0).val < 1024 * t.val + 1024 := by
  obtain ⟨e0, e1⟩ := idx36 t
  have hi1 : (i 1).val < 128 := (i 1).isLt
  rw [mem36]
  constructor
  · intro h
    have b0 : win0_36.index t (0 : Fin 2) * 1024 ≤ (i 0).val ∧ (i 0).val < win0_36.index t (0 : Fin 2) * 1024 + 1024 := h 0
    omega
  · intro h a
    match a with
    | ⟨0, _⟩ => show win0_36.index t (0 : Fin 2) * 1024 ≤ (i 0).val ∧ (i 0).val < win0_36.index t (0 : Fin 2) * 1024 + 1024; omega
    | ⟨1, _⟩ => show win0_36.index t (1 : Fin 2) * 128 ≤ (i 1).val ∧ (i 1).val < win0_36.index t (1 : Fin 2) * 128 + 128; omega

theorem cover36 (i : S65536x128.Idx) :
    ∃ t : Fin cfg0.N, (cfg0.win 36).flush t = true ∧ i ∈ ((cfg0.win 36).blk t).view.set := by
  obtain ⟨t, ht⟩ := point_of_row (i 0)
  refine ⟨t, flush0_36 t, ?_⟩
  rw [mem36_rows]
  omega

theorem idx37 : ∀ t : Fin cfg0.N, win0_37.index t (0 : Fin 2) = t.val ∧ win0_37.index t (1 : Fin 2) = 0 :=
  (by decide +kernel : ∀ t : Fin grid0.N, _)

theorem read37 (A : (⟨S65536x128, .f32⟩ : BufTy).Contents (Elt F)) (t : Fin cfg0.N) (r : Fin 1024) (k : Fin 128)
    (i : Fin 65536) (hi : i.val = 1024 * t.val + r.val) :
    ((cfg0.win 37).blk t).view.read (Elt F) A (ix2 r k) = A (ix2 i k) := by
  obtain ⟨e0, e1⟩ := idx37 t
  rw [View.read_apply]
  show A _ = A _
  refine congrArg A (funext fun a => Fin.ext ?_)
  match a with
  | ⟨0, _⟩ => show win0_37.index t (0 : Fin 2) * 1024 + 1 * r.val = i.val; omega
  | ⟨1, _⟩ => show win0_37.index t (1 : Fin 2) * 128 + 1 * k.val = k.val; omega

theorem read37_at (A : (⟨S65536x128, .f32⟩ : BufTy).Contents (Elt F)) (t : Fin cfg0.N) (r : Fin 1024) (k : Fin 128) :
    ((cfg0.win 37).blk t).view.read (Elt F) A (ix2 r k) = A (ix2 (⟨1024 * t.val + r.val, row_lt t r⟩ : Fin 65536) k) :=
  read37 A t r k _ rfl

theorem mem37 (t : Fin cfg0.N) (i : S65536x128.Idx) :
    i ∈ ((cfg0.win 37).blk t).view.set ↔ ∀ a : Fin 2, win0_37.index t a * S1024x128.size a ≤ (i a).val ∧ (i a).val < win0_37.index t a * S1024x128.size a + S1024x128.size a := by
  show i ∈ ((View.whole main_v64_5).slice (win0_37.rect t)).set ↔ _
  rw [View.set_slice_whole, Rect.mem_set_unit]
  exact Iff.rfl

theorem mem37_rows (t : Fin cfg0.N) (i : S65536x128.Idx) :
    i ∈ ((cfg0.win 37).blk t).view.set ↔ 1024 * t.val ≤ (i 0).val ∧ (i 0).val < 1024 * t.val + 1024 := by
  obtain ⟨e0, e1⟩ := idx37 t
  have hi1 : (i 1).val < 128 := (i 1).isLt
  rw [mem37]
  constructor
  · intro h
    have b0 : win0_37.index t (0 : Fin 2) * 1024 ≤ (i 0).val ∧ (i 0).val < win0_37.index t (0 : Fin 2) * 1024 + 1024 := h 0
    omega
  · intro h a
    match a with
    | ⟨0, _⟩ => show win0_37.index t (0 : Fin 2) * 1024 ≤ (i 0).val ∧ (i 0).val < win0_37.index t (0 : Fin 2) * 1024 + 1024; omega
    | ⟨1, _⟩ => show win0_37.index t (1 : Fin 2) * 128 ≤ (i 1).val ∧ (i 1).val < win0_37.index t (1 : Fin 2) * 128 + 128; omega

theorem cover37 (i : S65536x128.Idx) :
    ∃ t : Fin cfg0.N, (cfg0.win 37).flush t = true ∧ i ∈ ((cfg0.win 37).blk t).view.set := by
  obtain ⟨t, ht⟩ := point_of_row (i 0)
  refine ⟨t, flush0_37 t, ?_⟩
  rw [mem37_rows]
  omega

theorem idx38 : ∀ t : Fin cfg0.N, win0_38.index t (0 : Fin 2) = t.val ∧ win0_38.index t (1 : Fin 2) = 0 :=
  (by decide +kernel : ∀ t : Fin grid0.N, _)

theorem read38 (A : (⟨S65536x164, .f32⟩ : BufTy).Contents (Elt F)) (t : Fin cfg0.N) (r : Fin 1024) (k : Fin 164)
    (i : Fin 65536) (hi : i.val = 1024 * t.val + r.val) :
    ((cfg0.win 38).blk t).view.read (Elt F) A (ix2 r k) = A (ix2 i k) := by
  obtain ⟨e0, e1⟩ := idx38 t
  rw [View.read_apply]
  show A _ = A _
  refine congrArg A (funext fun a => Fin.ext ?_)
  match a with
  | ⟨0, _⟩ => show win0_38.index t (0 : Fin 2) * 1024 + 1 * r.val = i.val; omega
  | ⟨1, _⟩ => show win0_38.index t (1 : Fin 2) * 164 + 1 * k.val = k.val; omega

theorem read38_at (A : (⟨S65536x164, .f32⟩ : BufTy).Contents (Elt F)) (t : Fin cfg0.N) (r : Fin 1024) (k : Fin 164) :
    ((cfg0.win 38).blk t).view.read (Elt F) A (ix2 r k) = A (ix2 (⟨1024 * t.val + r.val, row_lt t r⟩ : Fin 65536) k) :=
  read38 A t r k _ rfl

theorem mem38 (t : Fin cfg0.N) (i : S65536x164.Idx) :
    i ∈ ((cfg0.win 38).blk t).view.set ↔ ∀ a : Fin 2, win0_38.index t a * S1024x164.size a ≤ (i a).val ∧ (i a).val < win0_38.index t a * S1024x164.size a + S1024x164.size a := by
  show i ∈ ((View.whole main_v64_6).slice (win0_38.rect t)).set ↔ _
  rw [View.set_slice_whole, Rect.mem_set_unit]
  exact Iff.rfl

theorem mem38_rows (t : Fin cfg0.N) (i : S65536x164.Idx) :
    i ∈ ((cfg0.win 38).blk t).view.set ↔ 1024 * t.val ≤ (i 0).val ∧ (i 0).val < 1024 * t.val + 1024 := by
  obtain ⟨e0, e1⟩ := idx38 t
  have hi1 : (i 1).val < 164 := (i 1).isLt
  rw [mem38]
  constructor
  · intro h
    have b0 : win0_38.index t (0 : Fin 2) * 1024 ≤ (i 0).val ∧ (i 0).val < win0_38.index t (0 : Fin 2) * 1024 + 1024 := h 0
    omega
  · intro h a
    match a with
    | ⟨0, _⟩ => show win0_38.index t (0 : Fin 2) * 1024 ≤ (i 0).val ∧ (i 0).val < win0_38.index t (0 : Fin 2) * 1024 + 1024; omega
    | ⟨1, _⟩ => show win0_38.index t (1 : Fin 2) * 164 ≤ (i 1).val ∧ (i 1).val < win0_38.index t (1 : Fin 2) * 164 + 164; omega

theorem cover38 (i : S65536x164.Idx) :
    ∃ t : Fin cfg0.N, (cfg0.win 38).flush t = true ∧ i ∈ ((cfg0.win 38).blk t).view.set := by
  obtain ⟨t, ht⟩ := point_of_row (i 0)
  refine ⟨t, flush0_38 t, ?_⟩
  rw [mem38_rows]
  omega

end Cert.Bridge.WindowReads
-- ==== Proof.HostWeights.lean ====
import proofs.«401269_j23398981829052_3_alg».proof.Proof.LaunchIdeal
import Idealize.ShloMosaic.Lib.ValueIdx
import Idealize.ShloMosaic.Lib.Pipeline.Value
import Idealize.ShloMosaic.Lib.StableHlo.Run

noncomputable section

namespace Cert.Bridge.HostWeights

open Idealize.ShloMosaic Idealize.ShloMosaic.TcCoe Idealize.SL.Sem
open Idealize.ShloMosaic.ValueIdx
open Cert.KernelIdeal Cert.KernelIdeal.Gen Cert.KernelIdeal.GenL

variable {F : FTy → Type} [FloatOps F]

theorem v0_fold (W : Valuation τ sig (Elt F)) :
    (StableHlo.after hostOps0 W (Proc.devRef .tc main_v0) : (⟨S65536x1, .i32⟩ : BufTy).Contents (Elt F))
      = shapeCast S65536x1 (W (Proc.devRef .tc main_arg7) : (⟨S65536, .i32⟩ : BufTy).Contents (Elt F)) shapeCasts_S65536_S65536x1 := by
  show StableHlo.after hostOps0 W (Proc.devRef .tc main_v0) = _
  after_results_simp
  rfl

theorem v0_read (W : Valuation τ sig (Elt F)) (i : Fin 65536) :
    (StableHlo.after hostOps0 W (Proc.devRef .tc main_v0) : (⟨S65536x1, .i32⟩ : BufTy).Contents (Elt F)) (ix2 i (0 : Fin 1))
      = (W (Proc.devRef .tc main_arg7) : (⟨S65536, .i32⟩ : BufTy).Contents (Elt F)) (ix1 i) := by
  rw [v0_fold]
  refine shapeCast_apply (s := S65536) (t := S65536x1) _ _ (ix2 i (0 : Fin 1)) (ix1 i) ?_
  rw [Shape.rowMajor_val_one, Shape.rowMajor_val_two]
  show i.val = i.val * 1 + 0
  omega

theorem v1_fold (W : Valuation τ sig (Elt F)) :
    (StableHlo.after hostOps0 W (Proc.devRef .tc main_v1) : (⟨S1x1, .f32⟩ : BufTy).Contents (Elt F))
      = shapeCast S1x1 (W (Proc.devRef .tc main_arg9) : (⟨S1, .f32⟩ : BufTy).Contents (Elt F)) shapeCasts_S1_S1x1 := by
  show StableHlo.after hostOps0 W (Proc.devRef .tc main_v1) = _
  after_results_simp
  rfl

theorem v1_read (W : Valuation τ sig (Elt F)) (q : Fin 1) :
    (StableHlo.after hostOps0 W (Proc.devRef .tc main_v1) : (⟨S1x1, .f32⟩ : BufTy).Contents (Elt F)) (ix2 (0 : Fin 1) q)
      = (W (Proc.devRef .tc main_arg9) : (⟨S1, .f32⟩ : BufTy).Contents (Elt F)) (ix1 q) := by
  rw [v1_fold]
  refine shapeCast_apply (s := S1) (t := S1x1) _ _ (ix2 (0 : Fin 1) q) (ix1 q) ?_
  rw [Shape.rowMajor_val_one, Shape.rowMajor_val_two]
  show q.val = 0 * 1 + q.val
  omega

theorem v2_fold (W : Valuation τ sig (Elt F)) :
    (StableHlo.after hostOps0 W (Proc.devRef .tc main_v2) : (⟨S1x4, .f32⟩ : BufTy).Contents (Elt F))
      = shapeCast S1x4 (W (Proc.devRef .tc main_arg13) : (⟨S4, .f32⟩ : BufTy).Contents (Elt F)) shapeCasts_S4_S1x4 := by
  show StableHlo.after hostOps0 W (Proc.devRef .tc main_v2) = _
  after_results_simp
  rfl

theorem v2_read (W : Valuation τ sig (Elt F)) (q : Fin 4) :
    (StableHlo.after hostOps0 W (Proc.devRef .tc main_v2) : (⟨S1x4, .f32⟩ : BufTy).Contents (Elt F)) (ix2 (0 : Fin 1) q)
      = (W (Proc.devRef .tc main_arg13) : (⟨S4, .f32⟩ : BufTy).Contents (Elt F)) (ix1 q) := by
  rw [v2_fold]
  refine shapeCast_apply (s := S4) (t := S1x4) _ _ (ix2 (0 : Fin 1) q) (ix1 q) ?_
  rw [Shape.rowMajor_val_one, Shape.rowMajor_val_two]
  show q.val = 0 * 4 + q.val
  omega

theorem v23_fold (W : Valuation τ sig (Elt F)) :
    (StableHlo.after hostOps0 W (Proc.devRef .tc main_v23) : (⟨S164x192, .bf16⟩ : BufTy).Contents (Elt F))
      = truncf .bf16 (transpose S164x192 [1, 0] (extractStridedSlice S192x164 ![0, 0] (W (Proc.devRef .tc main_arg10) : (⟨S192x328, .f32⟩ : BufTy).Contents (Elt F)) slices_S192x328_S192x164_0_0) transposes_S192x164_S164x192_1_0) bitsLt_bf16_f32 := by
  show StableHlo.after hostOps0 W (Proc.devRef .tc main_v23) = _
  after_results_simp

theorem v23_read (W : Valuation τ sig (Elt Ideal)) (k : Fin 164) (n : Fin 192) (j : Fin 328) (hj : j.val = k.val) :
    (StableHlo.after hostOps0 W (Proc.devRef .tc main_v23) : (⟨S164x192, .bf16⟩ : BufTy).Contents (Elt Ideal)) (ix2 k n)
      = (W (Proc.devRef .tc main_arg10) : (⟨S192x328, .f32⟩ : BufTy).Contents (Elt Ideal)) (ix2 n j) := by
  rw [v23_fold, truncf_apply]
  refine (transpose_apply _ _ _ _ (ix2 n k) ?_).trans ?_
  · intro b
    match b with
    | ⟨0, _⟩ => rfl
    | ⟨1, _⟩ => rfl
  · refine extractStridedSlice_apply _ _ _ _ (ix2 n j) ?_
    intro a
    match a with
    | ⟨0, _⟩ => show n.val = 0 + n.val; omega
    | ⟨1, _⟩ => show j.val = 0 + k.val; omega

theorem v25_fold (W : Valuation τ sig (Elt F)) :
    (StableHlo.after hostOps0 W (Proc.devRef .tc main_v25) : (⟨S164x192, .bf16⟩ : BufTy).Contents (Elt F))
      = truncf .bf16 (transpose S164x192 [1, 0] (extractStridedSlice S192x164 ![0, 164] (W (Proc.devRef .tc main_arg10) : (⟨S192x328, .f32⟩ : BufTy).Contents (Elt F)) slices_S192x328_S192x164_0_164) transposes_S192x164_S164x192_1_0) bitsLt_bf16_f32 := by
  show StableHlo.after hostOps0 W (Proc.devRef .tc main_v25) = _
  after_results_simp

theorem v25_read (W : Valuation τ sig (Elt Ideal)) (k : Fin 164) (n : Fin 192) (j : Fin 328) (hj : j.val = 164 + k.val) :
    (StableHlo.after hostOps0 W (Proc.devRef .tc main_v25) : (⟨S164x192, .bf16⟩ : BufTy).Contents (Elt Ideal)) (ix2 k n)
      = (W (Proc.devRef .tc main_arg10) : (⟨S192x328, .f32⟩ : BufTy).Contents (Elt Ideal)) (ix2 n j) := by
  rw [v25_fold, truncf_apply]
  refine (transpose_apply _ _ _ _ (ix2 n k) ?_).trans ?_
  · intro b
    match b with
    | ⟨0, _⟩ => rfl
    | ⟨1, _⟩ => rfl
  · refine extractStridedSlice_apply _ _ _ _ (ix2 n j) ?_
    intro a
    match a with
    | ⟨0, _⟩ => show n.val = 0 + n.val; omega
    | ⟨1, _⟩ => show j.val = 164 + k.val; exact hj

theorem v27_fold (W : Valuation τ sig (Elt F)) :
    (StableHlo.after hostOps0 W (Proc.devRef .tc main_v27) : (⟨S192x192, .bf16⟩ : BufTy).Contents (Elt F))
      = truncf .bf16 (transpose S192x192 [1, 0] (W (Proc.devRef .tc main_arg11) : (⟨S192x192, .f32⟩ : BufTy).Contents (Elt F)) transposes_S192x192_S192x192_1_0) bitsLt_bf16_f32 := by
  show StableHlo.after hostOps0 W (Proc.devRef .tc main_v27) = _
  after_results_simp

theorem v27_read (W : Valuation τ sig (Elt Ideal)) (k : Fin 192) (n : Fin 192) :
    (StableHlo.after hostOps0 W (Proc.devRef .tc main_v27) : (⟨S192x192, .bf16⟩ : BufTy).Contents (Elt Ideal)) (ix2 k n)
      = (W (Proc.devRef .tc main_arg11) : (⟨S192x192, .f32⟩ : BufTy).Contents (Elt Ideal)) (ix2 n k) := by
  rw [v27_fold, truncf_apply]
  refine transpose_apply _ _ _ _ (ix2 n k) ?_
  intro b
  match b with
  | ⟨0, _⟩ => rfl
  | ⟨1, _⟩ => rfl

theorem v29_fold (W : Valuation τ sig (Elt F)) :
    (StableHlo.after hostOps0 W (Proc.devRef .tc main_v29) : (⟨S192x4, .bf16⟩ : BufTy).Contents (Elt F))
      = truncf .bf16 (transpose S192x4 [1, 0] (W (Proc.devRef .tc main_arg12) : (⟨S4x192, .f32⟩ : BufTy).Contents (Elt F)) transposes_S4x192_S192x4_1_0) bitsLt_bf16_f32 := by
  show StableHlo.after hostOps0 W (Proc.devRef .tc main_v29) = _
  after_results_simp

theorem v29_read (W : Valuation τ sig (Elt Ideal)) (k : Fin 192) (q : Fin 4) :
    (StableHlo.after hostOps0 W (Proc.devRef .tc main_v29) : (⟨S192x4, .bf16⟩ : BufTy).Contents (Elt Ideal)) (ix2 k q)
      = (W (Proc.devRef .tc main_arg12) : (⟨S4x192, .f32⟩ : BufTy).Contents (Elt Ideal)) (ix2 q k) := by
  rw [v29_fold, truncf_apply]
  refine transpose_apply _ _ _ _ (ix2 q k) ?_
  intro b
  match b with
  | ⟨0, _⟩ => rfl
  | ⟨1, _⟩ => rfl

theorem v31_fold (W : Valuation τ sig (Elt F)) :
    (StableHlo.after hostOps0 W (Proc.devRef .tc main_v31) : (⟨S192x480, .bf16⟩ : BufTy).Contents (Elt F))
      = truncf .bf16 (transpose S192x480 [1, 0] (extractStridedSlice S480x192 ![0, 0] (W (Proc.devRef .tc main_arg14) : (⟨S480x272, .f32⟩ : BufTy).Contents (Elt F)) slices_S480x272_S480x192_0_0) transposes_S480x192_S192x480_1_0) bitsLt_bf16_f32 := by
  show StableHlo.after hostOps0 W (Proc.devRef .tc main_v31) = _
  after_results_simp

theorem v31_read (W : Valuation τ sig (Elt Ideal)) (k : Fin 192) (n : Fin 480) (j : Fin 272) (hj : j.val = k.val) :
    (StableHlo.after hostOps0 W (Proc.devRef .tc main_v31) : (⟨S192x480, .bf16⟩ : BufTy).Contents (Elt Ideal)) (ix2 k n)
      = (W (Proc.devRef .tc main_arg14) : (⟨S480x272, .f32⟩ : BufTy).Contents (Elt Ideal)) (ix2 n j) := by
  rw [v31_fold, truncf_apply]
  refine (transpose_apply _ _ _ _ (ix2 n k) ?_).trans ?_
  · intro b
    match b with
    | ⟨0, _⟩ => rfl
    | ⟨1, _⟩ => rfl
  · refine extractStridedSlice_apply _ _ _ _ (ix2 n j) ?_
    intro a
    match a with
    | ⟨0, _⟩ => show n.val = 0 + n.val; omega
    | ⟨1, _⟩ => show j.val = 0 + k.val; omega

theorem v33_fold (W : Valuation τ sig (Elt F)) :
    (StableHlo.after hostOps0 W (Proc.devRef .tc main_v33) : (⟨S160x480, .bf16⟩ : BufTy).Contents (Elt F))
      = truncf .bf16 (transpose S160x480 [1, 0] (W (Proc.devRef .tc main_arg15) : (⟨S480x160, .f32⟩ : BufTy).Contents (Elt F)) transposes_S480x160_S160x480_1_0) bitsLt_bf16_f32 := by
  show StableHlo.after hostOps0 W (Proc.devRef .tc main_v33) = _
  after_results_simp

theorem v33_read (W : Valuation τ sig (Elt Ideal)) (k : Fin 160) (n : Fin 480) :
    (StableHlo.after hostOps0 W (Proc.devRef .tc main_v33) : (⟨S160x480, .bf16⟩ : BufTy).Contents (Elt Ideal)) (ix2 k n)
      = (W (Proc.devRef .tc main_arg15) : (⟨S480x160, .f32⟩ : BufTy).Contents (Elt Ideal)) (ix2 n k) := by
  rw [v33_fold, truncf_apply]
  refine transpose_apply _ _ _ _ (ix2 n k) ?_
  intro b
  match b with
  | ⟨0, _⟩ => rfl
  | ⟨1, _⟩ => rfl

theorem v35_fold (W : Valuation τ sig (Elt F)) :
    (StableHlo.after hostOps0 W (Proc.devRef .tc main_v35) : (⟨S160x160, .bf16⟩ : BufTy).Contents (Elt F))
      = truncf .bf16 (transpose S160x160 [1, 0] (W (Proc.devRef .tc main_arg16) : (⟨S160x160, .f32⟩ : BufTy).Contents (Elt F)) transposes_S160x160_S160x160_1_0) bitsLt_bf16_f32 := by
  show StableHlo.after hostOps0 W (Proc.devRef .tc main_v35) = _
  after_results_simp

theorem v35_read (W : Valuation τ sig (Elt Ideal)) (k : Fin 160) (n : Fin 160) :
    (StableHlo.after hostOps0 W (Proc.devRef .tc main_v35) : (⟨S160x160, .bf16⟩ : BufTy).Contents (Elt Ideal)) (ix2 k n)
      = (W (Proc.devRef .tc main_arg16) : (⟨S160x160, .f32⟩ : BufTy).Contents (Elt Ideal)) (ix2 n k) := by
  rw [v35_fold, truncf_apply]
  refine transpose_apply _ _ _ _ (ix2 n k) ?_
  intro b
  match b with
  | ⟨0, _⟩ => rfl
  | ⟨1, _⟩ => rfl

theorem v37_fold (W : Valuation τ sig (Elt F)) :
    (StableHlo.after hostOps0 W (Proc.devRef .tc main_v37) : (⟨S160x384, .bf16⟩ : BufTy).Contents (Elt F))
      = truncf .bf16 (transpose S160x384 [1, 0] (extractStridedSlice S384x160 ![0, 0] (W (Proc.devRef .tc main_arg17) : (⟨S384x240, .f32⟩ : BufTy).Contents (Elt F)) slices_S384x240_S384x160_0_0) transposes_S384x160_S160x384_1_0) bitsLt_bf16_f32 := by
  show StableHlo.after hostOps0 W (Proc.devRef .tc main_v37) = _
  after_results_simp

theorem v37_read (W : Valuation τ sig (Elt Ideal)) (k : Fin 160) (n : Fin 384) (j : Fin 240) (hj : j.val = k.val) :
    (StableHlo.after hostOps0 W (Proc.devRef .tc main_v37) : (⟨S160x384, .bf16⟩ : BufTy).Contents (Elt Ideal)) (ix2 k n)
      = (W (Proc.devRef .tc main_arg17) : (⟨S384x240, .f32⟩ : BufTy).Contents (Elt Ideal)) (ix2 n j) := by
  rw [v37_fold, truncf_apply]
  refine (transpose_apply _ _ _ _ (ix2 n k) ?_).trans ?_
  · intro b
    match b with
    | ⟨0, _⟩ => rfl
    | ⟨1, _⟩ => rfl
  · refine extractStridedSlice_apply _ _ _ _ (ix2 n j) ?_
    intro a
    match a with
    | ⟨0, _⟩ => show n.val = 0 + n.val; omega
    | ⟨1, _⟩ => show j.val = 0 + k.val; omega

theorem v39_fold (W : Valuation τ sig (Elt F)) :
    (StableHlo.after hostOps0 W (Proc.devRef .tc main_v39) : (⟨S128x384, .bf16⟩ : BufTy).Contents (Elt F))
      = truncf .bf16 (transpose S128x384 [1, 0] (W (Proc.devRef .tc main_arg18) : (⟨S384x128, .f32⟩ : BufTy).Contents (Elt F)) transposes_S384x128_S128x384_1_0) bitsLt_bf16_f32 := by
  show StableHlo.after hostOps0 W (Proc.devRef .tc main_v39) = _
  after_results_simp

theorem v39_read (W : Valuation τ sig (Elt Ideal)) (k : Fin 128) (n : Fin 384) :
    (StableHlo.after hostOps0 W (Proc.devRef .tc main_v39) : (⟨S128x384, .bf16⟩ : BufTy).Contents (Elt Ideal)) (ix2 k n)
      = (W (Proc.devRef .tc main_arg18) : (⟨S384x128, .f32⟩ : BufTy).Contents (Elt Ideal)) (ix2 n k) := by
  rw [v39_fold, truncf_apply]
  refine transpose_apply _ _ _ _ (ix2 n k) ?_
  intro b
  match b with
  | ⟨0, _⟩ => rfl
  | ⟨1, _⟩ => rfl

theorem v41_fold (W : Valuation τ sig (Elt F)) :
    (StableHlo.after hostOps0 W (Proc.devRef .tc main_v41) : (⟨S128x128, .bf16⟩ : BufTy).Contents (Elt F))
      = truncf .bf16 (transpose S128x128 [1, 0] (W (Proc.devRef .tc main_arg19) : (⟨S128x128, .f32⟩ : BufTy).Contents (Elt F)) transposes_S128x128_S128x128_1_0) bitsLt_bf16_f32 := by
  show StableHlo.after hostOps0 W (Proc.devRef .tc main_v41) = _
  after_results_simp

theorem v41_read (W : Valuation τ sig (Elt Ideal)) (k : Fin 128) (n : Fin 128) :
    (StableHlo.after hostOps0 W (Proc.devRef .tc main_v41) : (⟨S128x128, .bf16⟩ : BufTy).Contents (Elt Ideal)) (ix2 k n)
      = (W (Proc.devRef .tc main_arg19) : (⟨S128x128, .f32⟩ : BufTy).Contents (Elt Ideal)) (ix2 n k) := by
  rw [v41_fold, truncf_apply]
  refine transpose_apply _ _ _ _ (ix2 n k) ?_
  intro b
  match b with
  | ⟨0, _⟩ => rfl
  | ⟨1, _⟩ => rfl

theorem v43_fold (W : Valuation τ sig (Elt F)) :
    (StableHlo.after hostOps0 W (Proc.devRef .tc main_v43) : (⟨S128x384, .bf16⟩ : BufTy).Contents (Elt F))
      = truncf .bf16 (transpose S128x384 [1, 0] (extractStridedSlice S384x128 ![0, 0] (W (Proc.devRef .tc main_arg20) : (⟨S384x208, .f32⟩ : BufTy).Contents (Elt F)) slices_S384x208_S384x128_0_0) transposes_S384x128_S128x384_1_0) bitsLt_bf16_f32 := by
  show StableHlo.after hostOps0 W (Proc.devRef .tc main_v43) = _
  after_results_simp

theorem v43_read (W : Valuation τ sig (Elt Ideal)) (k : Fin 128) (n : Fin 384) (j : Fin 208) (hj : j.val = k.val) :
    (StableHlo.after hostOps0 W (Proc.devRef .tc main_v43) : (⟨S128x384, .bf16⟩ : BufTy).Contents (Elt Ideal)) (ix2 k n)
      = (W (Proc.devRef .tc main_arg20) : (⟨S384x208, .f32⟩ : BufTy).Contents (Elt Ideal)) (ix2 n j) := by
  rw [v43_fold, truncf_apply]
  refine (transpose_apply _ _ _ _ (ix2 n k) ?_).trans ?_
  · intro b
    match b with
    | ⟨0, _⟩ => rfl
    | ⟨1, _⟩ => rfl
  · refine extractStridedSlice_apply _ _ _ _ (ix2 n j) ?_
    intro a
    match a with
    | ⟨0, _⟩ => show n.val = 0 + n.val; omega
    | ⟨1, _⟩ => show j.val = 0 + k.val; omega

theorem v45_fold (W : Valuation τ sig (Elt F)) :
    (StableHlo.after hostOps0 W (Proc.devRef .tc main_v45) : (⟨S128x384, .bf16⟩ : BufTy).Contents (Elt F))
      = truncf .bf16 (transpose S128x384 [1, 0] (W (Proc.devRef .tc main_arg21) : (⟨S384x128, .f32⟩ : BufTy).Contents (Elt F)) transposes_S384x128_S128x384_1_0) bitsLt_bf16_f32 := by
  show StableHlo.after hostOps0 W (Proc.devRef .tc main_v45) = _
  after_results_simp

theorem v45_read (W : Valuation τ sig (Elt Ideal)) (k : Fin 128) (n : Fin 384) :
    (StableHlo.after hostOps0 W (Proc.devRef .tc main_v45) : (⟨S128x384, .bf16⟩ : BufTy).Contents (Elt Ideal)) (ix2 k n)
      = (W (Proc.devRef .tc main_arg21) : (⟨S384x128, .f32⟩ : BufTy).Contents (Elt Ideal)) (ix2 n k) := by
  rw [v45_fold, truncf_apply]
  refine transpose_apply _ _ _ _ (ix2 n k) ?_
  intro b
  match b with
  | ⟨0, _⟩ => rfl
  | ⟨1, _⟩ => rfl

theorem v47_fold (W : Valuation τ sig (Elt F)) :
    (StableHlo.after hostOps0 W (Proc.devRef .tc main_v47) : (⟨S128x128, .bf16⟩ : BufTy).Contents (Elt F))
      = truncf .bf16 (transpose S128x128 [1, 0] (W (Proc.devRef .tc main_arg22) : (⟨S128x128, .f32⟩ : BufTy).Contents (Elt F)) transposes_S128x128_S128x128_1_0) bitsLt_bf16_f32 := by
  show StableHlo.after hostOps0 W (Proc.devRef .tc main_v47) = _
  after_results_simp

theorem v47_read (W : Valuation τ sig (Elt Ideal)) (k : Fin 128) (n : Fin 128) :
    (StableHlo.after hostOps0 W (Proc.devRef .tc main_v47) : (⟨S128x128, .bf16⟩ : BufTy).Contents (Elt Ideal)) (ix2 k n)
      = (W (Proc.devRef .tc main_arg22) : (⟨S128x128, .f32⟩ : BufTy).Contents (Elt Ideal)) (ix2 n k) := by
  rw [v47_fold, truncf_apply]
  refine transpose_apply _ _ _ _ (ix2 n k) ?_
  intro b
  match b with
  | ⟨0, _⟩ => rfl
  | ⟨1, _⟩ => rfl

end Cert.Bridge.HostWeights
-- ==== Proof.KInputsRows.lean ====
import proofs.«401269_j23398981829052_3_alg».proof.Proof.FrameDefsIdeal
import proofs.«401269_j23398981829052_3_alg».proof.Proof.WindowReads
import proofs.«401269_j23398981829052_3_alg».proof.Proof.HostWeights
import Idealize.ShloMosaic.Lib.ValueIdx
import Idealize.ShloMosaic.Lib.Pipeline.Value

noncomputable section

namespace Cert.Bridge.KInputsRows

open Idealize.ShloMosaic Idealize.ShloMosaic.TcCoe Idealize.SL.Sem
open Cert.KernelIdeal Cert.KernelIdeal.Gen Cert.KernelIdeal.GenL
open Idealize.ShloMosaic.ValueIdx

variable (m : (ℓ : Loc nD τ sig) → Buf (Elt Ideal) ℓ) (c : Dev nD) (t : Fin cfg0.N)

theorem hz : (![0, 0] : Fin 2 → Nat) = fun _ => 0 := by
  funext a; match a with | ⟨0, _⟩ => rfl | ⟨1, _⟩ => rfl

theorem in0 : ∀ (r : Fin 1024) (i : Fin 65536) (k : Fin 80), i.val = 1024 * t.val + r.val →
    Fr.val0 (Fr.blocksAt m c t) (ix2 r k) = (m ((c : Thread nD τ).loc main_arg0) : (⟨S65536x80, .f32⟩ : BufTy).Contents (Elt Ideal)) (ix2 i k) := by
  intro r i k hi
  unfold Fr.val0
  rw [View.ld_unit_zero hz]
  dsimp only [Fr.blocksAt]
  unfold Fr.iblk
  refine (WindowReads.read0 _ t r k i hi).trans ?_
  exact congrFun (Fr.V_arg m c main_arg0) (ix2 i k)

theorem in1 : ∀ (r : Fin 1024) (i : Fin 65536) (k : Fin 256), i.val = 1024 * t.val + r.val →
    Fr.val1 (Fr.blocksAt m c t) (ix2 r k) = (m ((c : Thread nD τ).loc main_arg1) : (⟨S65536x256, .f32⟩ : BufTy).Contents (Elt Ideal)) (ix2 i k) := by
  intro r i k hi
  unfold Fr.val1
  rw [View.ld_unit_zero hz]
  dsimp only [Fr.blocksAt]
  unfold Fr.iblk
  refine (WindowReads.read1 _ t r k i hi).trans ?_
  exact congrFun (Fr.V_arg m c main_arg1) (ix2 i k)

theorem in2 : ∀ (r : Fin 1024) (i : Fin 65536) (k : Fin 256), i.val = 1024 * t.val + r.val →
    Fr.val2 (Fr.blocksAt m c t) (ix2 r k) = (m ((c : Thread nD τ).loc main_arg2) : (⟨S65536x256, .f32⟩ : BufTy).Contents (Elt Ideal)) (ix2 i k) := by
  intro r i k hi
  unfold Fr.val2
  rw [View.ld_unit_zero hz]
  dsimp only [Fr.blocksAt]
  unfold Fr.iblk
  refine (WindowReads.read2 _ t r k i hi).trans ?_
  exact congrFun (Fr.V_arg m c main_arg2) (ix2 i k)

theorem in3 : ∀ (r : Fin 1024) (i : Fin 65536) (k : Fin 160), i.val = 1024 * t.val + r.val →
    Fr.val3 (Fr.blocksAt m c t) (ix2 r k) = (m ((c : Thread nD τ).loc main_arg3) : (⟨S65536x160, .f32⟩ : BufTy).Contents (Elt Ideal)) (ix2 i k) := by
  intro r i k hi
  unfold Fr.val3
  rw [View.ld_unit_zero hz]
  dsimp only [Fr.blocksAt]
  unfold Fr.iblk
  refine (WindowReads.read3 _ t r k i hi).trans ?_
  exact congrFun (Fr.V_arg m c main_arg3) (ix2 i k)

theorem in4 : ∀ (r : Fin 1024) (i : Fin 65536) (k : Fin 128), i.val = 1024 * t.val + r.val →
    Fr.val4 (Fr.blocksAt m c t) (ix2 r k) = (m ((c : Thread nD τ).loc main_arg4) : (⟨S65536x128, .f32⟩ : BufTy).Contents (Elt Ideal)) (ix2 i k) := by
  intro r i k hi
  unfold Fr.val4
  rw [View.ld_unit_zero hz]
  dsimp only [Fr.blocksAt]
  unfold Fr.iblk
  refine (WindowReads.read4 _ t r k i hi).trans ?_
  exact congrFun (Fr.V_arg m c main_arg4) (ix2 i k)

theorem in5 : ∀ (r : Fin 1024) (i : Fin 65536) (k : Fin 128), i.val = 1024 * t.val + r.val →
    Fr.val5 (Fr.blocksAt m c t) (ix2 r k) = (m ((c : Thread nD τ).loc main_arg5) : (⟨S65536x128, .f32⟩ : BufTy).Contents (Elt Ideal)) (ix2 i k) := by
  intro r i k hi
  unfold Fr.val5
  rw [View.ld_unit_zero hz]
  dsimp only [Fr.blocksAt]
  unfold Fr.iblk
  refine (WindowReads.read5 _ t r k i hi).trans ?_
  exact congrFun (Fr.V_arg m c main_arg5) (ix2 i k)

theorem in6 : ∀ (r : Fin 1024) (i : Fin 65536) (k : Fin 164), i.val = 1024 * t.val + r.val →
    Fr.val6 (Fr.blocksAt m c t) (ix2 r k) = (m ((c : Thread nD τ).loc main_arg6) : (⟨S65536x164, .f32⟩ : BufTy).Contents (Elt Ideal)) (ix2 i k) := by
  intro r i k hi
  unfold Fr.val6
  rw [View.ld_unit_zero hz]
  dsimp only [Fr.blocksAt]
  unfold Fr.iblk
  refine (WindowReads.read6 _ t r k i hi).trans ?_
  exact congrFun (Fr.V_arg m c main_arg6) (ix2 i k)

theorem in8 : ∀ (r : Fin 1024) (i : Fin 65536), i.val = 1024 * t.val + r.val →
    Fr.val8 (Fr.blocksAt m c t) (ix2 r (0 : Fin 1)) = (m ((c : Thread nD τ).loc main_arg7) : (⟨S65536, .i32⟩ : BufTy).Contents (Elt Ideal)) (ix1 i) := by
  intro r i hi
  unfold Fr.val8 k0_pay1 Fr.val7
  rw [shapeCast_self, View.ld_unit_zero hz]
  dsimp only [Fr.blocksAt]
  unfold Fr.iblk
  refine (WindowReads.read7 _ t r (0 : Fin 1) i hi).trans ?_
  exact HostWeights.v0_read (fun b => m (c, b)) i

theorem in9 : ∀ k : Fin 80, Fr.val9 (Fr.blocksAt m c t) (ix2 (0 : Fin 1) k) = (m ((c : Thread nD τ).loc main_arg8) : (⟨S1x80, .f32⟩ : BufTy).Contents (Elt Ideal)) (ix2 (0 : Fin 1) k) := by
  intro k
  unfold Fr.val9
  rw [View.ld_unit_zero hz]
  dsimp only [Fr.blocksAt]
  unfold Fr.iblk
  refine (WindowReads.read8 _ t (ix2 (0 : Fin 1) k)).trans ?_
  exact congrFun (Fr.V_arg m c main_arg8) (ix2 (0 : Fin 1) k)

theorem in11 : Fr.val11 (Fr.blocksAt m c t) (ix2 (0 : Fin 1) (0 : Fin 1)) = (m ((c : Thread nD τ).loc main_arg9) : (⟨S1, .f32⟩ : BufTy).Contents (Elt Ideal)) (ix1 (0 : Fin 1)) := by
  unfold Fr.val11 k0_pay2 Fr.val10
  rw [shapeCast_self, View.ld_unit_zero hz]
  dsimp only [Fr.blocksAt]
  unfold Fr.iblk
  refine (WindowReads.read9 _ t (ix2 (0 : Fin 1) (0 : Fin 1))).trans ?_
  exact HostWeights.v1_read (fun b => m (c, b)) (0 : Fin 1)

theorem in21 : ∀ q : Fin 4, Fr.val21 (Fr.blocksAt m c t) (ix2 (0 : Fin 1) q) = (m ((c : Thread nD τ).loc main_arg13) : (⟨S4, .f32⟩ : BufTy).Contents (Elt Ideal)) (ix1 q) := by
  intro q
  unfold Fr.val21 k0_pay7 Fr.val20
  rw [shapeCast_self, View.ld_unit_zero hz]
  dsimp only [Fr.blocksAt]
  unfold Fr.iblk
  refine (WindowReads.read14 _ t (ix2 (0 : Fin 1) q)).trans ?_
  exact HostWeights.v2_read (fun b => m (c, b)) q

end Cert.Bridge.KInputsRows
-- ==== Proof.HostWeightsSkip.lean ====
import proofs.«401269_j23398981829052_3_alg».proof.Proof.LaunchIdeal
import Idealize.ShloMosaic.Lib.ValueIdx
import Idealize.ShloMosaic.Lib.Pipeline.Value
import Idealize.ShloMosaic.Lib.StableHlo.Run

noncomputable section

namespace Cert.Bridge.HostWeights

open Idealize.ShloMosaic Idealize.ShloMosaic.TcCoe Idealize.SL.Sem
open Idealize.ShloMosaic.ValueIdx
open Cert.KernelIdeal Cert.KernelIdeal.Gen Cert.KernelIdeal.GenL

variable {F : FTy → Type} [FloatOps F]

theorem v49_fold (W : Valuation τ sig (Elt F)) :
    (StableHlo.after hostOps0 W (Proc.devRef .tc main_v49) : (⟨S160x128, .bf16⟩ : BufTy).Contents (Elt F))
      = truncf .bf16 (transpose S160x128 [1, 0] (extractStridedSlice S128x160 ![0, 0] (W (Proc.devRef .tc main_arg23) : (⟨S128x688, .f32⟩ : BufTy).Contents (Elt F)) slices_S128x688_S128x160_0_0) transposes_S128x160_S160x128_1_0) bitsLt_bf16_f32 := by
  show StableHlo.after hostOps0 W (Proc.devRef .tc main_v49) = _
  after_results_simp

theorem v49_read (W : Valuation τ sig (Elt Ideal)) (k : Fin 160) (n : Fin 128) (j : Fin 688) (hj : j.val = k.val) :
    (StableHlo.after hostOps0 W (Proc.devRef .tc main_v49) : (⟨S160x128, .bf16⟩ : BufTy).Contents (Elt Ideal)) (ix2 k n)
      = (W (Proc.devRef .tc main_arg23) : (⟨S128x688, .f32⟩ : BufTy).Contents (Elt Ideal)) (ix2 n j) := by
  rw [v49_fold, truncf_apply]
  refine (transpose_apply _ _ _ _ (ix2 n k) ?_).trans ?_
  · intro b
    match b with
    | ⟨0, _⟩ => rfl
    | ⟨1, _⟩ => rfl
  · refine extractStridedSlice_apply _ _ _ _ (ix2 n j) ?_
    intro a
    match a with
    | ⟨0, _⟩ => show n.val = 0 + n.val; omega
    | ⟨1, _⟩ => show j.val = 0 + k.val; omega

theorem v51_fold (W : Valuation τ sig (Elt F)) :
    (StableHlo.after hostOps0 W (Proc.devRef .tc main_v51) : (⟨S128x128, .bf16⟩ : BufTy).Contents (Elt F))
      = truncf .bf16 (transpose S128x128 [1, 0] (extractStridedSlice S128x128 ![0, 160] (W (Proc.devRef .tc main_arg23) : (⟨S128x688, .f32⟩ : BufTy).Contents (Elt F)) slices_S128x688_S128x128_0_160) transposes_S128x128_S128x128_1_0) bitsLt_bf16_f32 := by
  show StableHlo.after hostOps0 W (Proc.devRef .tc main_v51) = _
  after_results_simp

theorem v51_read (W : Valuation τ sig (Elt Ideal)) (k : Fin 128) (n : Fin 128) (j : Fin 688) (hj : j.val = 160 + k.val) :
    (StableHlo.after hostOps0 W (Proc.devRef .tc main_v51) : (⟨S128x128, .bf16⟩ : BufTy).Contents (Elt Ideal)) (ix2 k n)
      = (W (Proc.devRef .tc main_arg23) : (⟨S128x688, .f32⟩ : BufTy).Contents (Elt Ideal)) (ix2 n j) := by
  rw [v51_fold, truncf_apply]
  refine (transpose_apply _ _ _ _ (ix2 n k) ?_).trans ?_
  · intro b
    match b with
    | ⟨0, _⟩ => rfl
    | ⟨1, _⟩ => rfl
  · refine extractStridedSlice_apply _ _ _ _ (ix2 n j) ?_
    intro a
    match a with
    | ⟨0, _⟩ => show n.val = 0 + n.val; omega
    | ⟨1, _⟩ => show j.val = 160 + k.val; exact hj

theorem v53_fold (W : Valuation τ sig (Elt F)) :
    (StableHlo.after hostOps0 W (Proc.devRef .tc main_v53) : (⟨S128x128, .bf16⟩ : BufTy).Contents (Elt F))
      = truncf .bf16 (transpose S128x128 [1, 0] (extractStridedSlice S128x128 ![0, 288] (W (Proc.devRef .tc main_arg23) : (⟨S128x688, .f32⟩ : BufTy).Contents (Elt F)) slices_S128x688_S128x128_0_288) transposes_S128x128_S128x128_1_0) bitsLt_bf16_f32 := by
  show StableHlo.after hostOps0 W (Proc.devRef .tc main_v53) = _
  after_results_simp

theorem v53_read (W : Valuation τ sig (Elt Ideal)) (k : Fin 128) (n : Fin 128) (j : Fin 688) (hj : j.val = 288 + k.val) :
    (StableHlo.after hostOps0 W (Proc.devRef .tc main_v53) : (⟨S128x128, .bf16⟩ : BufTy).Contents (Elt Ideal)) (ix2 k n)
      = (W (Proc.devRef .tc main_arg23) : (⟨S128x688, .f32⟩ : BufTy).Contents (Elt Ideal)) (ix2 n j) := by
  rw [v53_fold, truncf_apply]
  refine (transpose_apply _ _ _ _ (ix2 n k) ?_).trans ?_
  · intro b
    match b with
    | ⟨0, _⟩ => rfl
    | ⟨1, _⟩ => rfl
  · refine extractStridedSlice_apply _ _ _ _ (ix2 n j) ?_
    intro a
    match a with
    | ⟨0, _⟩ => show n.val = 0 + n.val; omega
    | ⟨1, _⟩ => show j.val = 288 + k.val; exact hj

theorem v55_fold (W : Valuation τ sig (Elt F)) :
    (StableHlo.after hostOps0 W (Proc.devRef .tc main_v55) : (⟨S192x128, .bf16⟩ : BufTy).Contents (Elt F))
      = truncf .bf16 (transpose S192x128 [1, 0] (extractStridedSlice S128x192 ![0, 416] (W (Proc.devRef .tc main_arg23) : (⟨S128x688, .f32⟩ : BufTy).Contents (Elt F)) slices_S128x688_S128x192_0_416) transposes_S128x192_S192x128_1_0) bitsLt_bf16_f32 := by
  show StableHlo.after hostOps0 W (Proc.devRef .tc main_v55) = _
  after_results_simp

theorem v55_read (W : Valuation τ sig (Elt Ideal)) (k : Fin 192) (n : Fin 128) (j : Fin 688) (hj : j.val = 416 + k.val) :
    (StableHlo.after hostOps0 W (Proc.devRef .tc main_v55) : (⟨S192x128, .bf16⟩ : BufTy).Contents (Elt Ideal)) (ix2 k n)
      = (W (Proc.devRef .tc main_arg23) : (⟨S128x688, .f32⟩ : BufTy).Contents (Elt Ideal)) (ix2 n j) := by
  rw [v55_fold, truncf_apply]
  refine (transpose_apply _ _ _ _ (ix2 n k) ?_).trans ?_
  · intro b
    match b with
    | ⟨0, _⟩ => rfl
    | ⟨1, _⟩ => rfl
  · refine extractStridedSlice_apply _ _ _ _ (ix2 n j) ?_
    intro a
    match a with
    | ⟨0, _⟩ => show n.val = 0 + n.val; omega
    | ⟨1, _⟩ => show j.val = 416 + k.val; exact hj

theorem v57_fold (W : Valuation τ sig (Elt F)) :
    (StableHlo.after hostOps0 W (Proc.devRef .tc main_v57) : (⟨S128x128, .bf16⟩ : BufTy).Contents (Elt F))
      = truncf .bf16 (transpose S128x128 [1, 0] (W (Proc.devRef .tc main_arg24) : (⟨S128x128, .f32⟩ : BufTy).Contents (Elt F)) transposes_S128x128_S128x128_1_0) bitsLt_bf16_f32 := by
  show StableHlo.after hostOps0 W (Proc.devRef .tc main_v57) = _
  after_results_simp

theorem v57_read (W : Valuation τ sig (Elt Ideal)) (k : Fin 128) (n : Fin 128) :
    (StableHlo.after hostOps0 W (Proc.devRef .tc main_v57) : (⟨S128x128, .bf16⟩ : BufTy).Contents (Elt Ideal)) (ix2 k n)
      = (W (Proc.devRef .tc main_arg24) : (⟨S128x128, .f32⟩ : BufTy).Contents (Elt Ideal)) (ix2 n k) := by
  rw [v57_fold, truncf_apply]
  refine transpose_apply _ _ _ _ (ix2 n k) ?_
  intro b
  match b with
  | ⟨0, _⟩ => rfl
  | ⟨1, _⟩ => rfl

theorem v59_fold (W : Valuation τ sig (Elt F)) :
    (StableHlo.after hostOps0 W (Proc.devRef .tc main_v59) : (⟨S128x40, .bf16⟩ : BufTy).Contents (Elt F))
      = truncf .bf16 (transpose S128x40 [1, 0] (W (Proc.devRef .tc main_arg25) : (⟨S40x128, .f32⟩ : BufTy).Contents (Elt F)) transposes_S40x128_S128x40_1_0) bitsLt_bf16_f32 := by
  show StableHlo.after hostOps0 W (Proc.devRef .tc main_v59) = _
  after_results_simp

theorem v59_read (W : Valuation τ sig (Elt Ideal)) (k : Fin 128) (n : Fin 40) :
    (StableHlo.after hostOps0 W (Proc.devRef .tc main_v59) : (⟨S128x40, .bf16⟩ : BufTy).Contents (Elt Ideal)) (ix2 k n)
      = (W (Proc.devRef .tc main_arg25) : (⟨S40x128, .f32⟩ : BufTy).Contents (Elt Ideal)) (ix2 n k) := by
  rw [v59_fold, truncf_apply]
  refine transpose_apply _ _ _ _ (ix2 n k) ?_
  intro b
  match b with
  | ⟨0, _⟩ => rfl
  | ⟨1, _⟩ => rfl

end Cert.Bridge.HostWeights
-- ==== Proof.KInputsWeights.lean ====
import proofs.«401269_j23398981829052_3_alg».proof.Proof.FrameDefsIdeal
import proofs.«401269_j23398981829052_3_alg».proof.Proof.WindowReads
import proofs.«401269_j23398981829052_3_alg».proof.Proof.HostWeights
import proofs.«401269_j23398981829052_3_alg».proof.Proof.HostWeightsSkip
import Idealize.ShloMosaic.Lib.ValueIdx
import Idealize.ShloMosaic.Lib.Pipeline.Value

noncomputable section

namespace Cert.Bridge.KInputsWeights

open Idealize.ShloMosaic Idealize.ShloMosaic.TcCoe Idealize.SL.Sem
open Cert.KernelIdeal Cert.KernelIdeal.Gen Cert.KernelIdeal.GenL
open Idealize.ShloMosaic.ValueIdx

variable (m : (ℓ : Loc nD τ sig) → Buf (Elt Ideal) ℓ) (c : Dev nD) (t : Fin cfg0.N)

theorem hz : (![0, 0] : Fin 2 → Nat) = fun _ => 0 := by
  funext a; match a with | ⟨0, _⟩ => rfl | ⟨1, _⟩ => rfl

theorem in13 : ∀ (k : Fin 164) (n : Fin 192) (j : Fin 328), j.val = k.val →
    Fr.val13 (Fr.blocksAt m c t) (ix2 k n) = (m ((c : Thread nD τ).loc main_arg10) : (⟨S192x328, .f32⟩ : BufTy).Contents (Elt Ideal)) (ix2 n j) := by
  intro k n j hj
  unfold Fr.val13 k0_pay3 Fr.val12
  rw [shapeCast_self, View.ld_unit_zero hz]
  dsimp only [Fr.blocksAt]
  unfold Fr.iblk
  refine (WindowReads.read10 _ t (ix2 k n)).trans ?_
  exact HostWeights.v23_read (fun b => m (c, b)) k n j hj

theorem in15 : ∀ (k : Fin 164) (n : Fin 192) (j : Fin 328), j.val = 164 + k.val →
    Fr.val15 (Fr.blocksAt m c t) (ix2 k n) = (m ((c : Thread nD τ).loc main_arg10) : (⟨S192x328, .f32⟩ : BufTy).Contents (Elt Ideal)) (ix2 n j) := by
  intro k n j hj
  unfold Fr.val15 k0_pay4 Fr.val14
  rw [shapeCast_self, View.ld_unit_zero hz]
  dsimp only [Fr.blocksAt]
  unfold Fr.iblk
  refine (WindowReads.read11 _ t (ix2 k n)).trans ?_
  exact HostWeights.v25_read (fun b => m (c, b)) k n j hj

theorem in17 : ∀ (k : Fin 192) (n : Fin 192), Fr.val17 (Fr.blocksAt m c t) (ix2 k n) = (m ((c : Thread nD τ).loc main_arg11) : (⟨S192x192, .f32⟩ : BufTy).Contents (Elt Ideal)) (ix2 n k) := by
  intro k n
  unfold Fr.val17 k0_pay5 Fr.val16
  rw [shapeCast_self, View.ld_unit_zero hz]
  dsimp only [Fr.blocksAt]
  unfold Fr.iblk
  refine (WindowReads.read12 _ t (ix2 k n)).trans ?_
  exact HostWeights.v27_read (fun b => m (c, b)) k n

theorem in19 : ∀ (k : Fin 192) (q : Fin 4), Fr.val19 (Fr.blocksAt m c t) (ix2 k q) = (m ((c : Thread nD τ).loc main_arg12) : (⟨S4x192, .f32⟩ : BufTy).Contents (Elt Ideal)) (ix2 q k) := by
  intro k q
  unfold Fr.val19 k0_pay6 Fr.val18
  rw [shapeCast_self, View.ld_unit_zero hz]
  dsimp only [Fr.blocksAt]
  unfold Fr.iblk
  refine (WindowReads.read13 _ t (ix2 k q)).trans ?_
  exact HostWeights.v29_read (fun b => m (c, b)) k q

theorem in23 : ∀ (k : Fin 192) (n : Fin 480) (j : Fin 272), j.val = k.val →
    Fr.val23 (Fr.blocksAt m c t) (ix2 k n) = (m ((c : Thread nD τ).loc main_arg14) : (⟨S480x272, .f32⟩ : BufTy).Contents (Elt Ideal)) (ix2 n j) := by
  intro k n j hj
  unfold Fr.val23 k0_pay8 Fr.val22
  rw [shapeCast_self, View.ld_unit_zero hz]
  dsimp only [Fr.blocksAt]
  unfold Fr.iblk
  refine (WindowReads.read15 _ t (ix2 k n)).trans ?_
  exact HostWeights.v31_read (fun b => m (c, b)) k n j hj

theorem in25 : ∀ (k : Fin 160) (n : Fin 480), Fr.val25 (Fr.blocksAt m c t) (ix2 k n) = (m ((c : Thread nD τ).loc main_arg15) : (⟨S480x160, .f32⟩ : BufTy).Contents (Elt Ideal)) (ix2 n k) := by
  intro k n
  unfold Fr.val25 k0_pay9 Fr.val24
  rw [shapeCast_self, View.ld_unit_zero hz]
  dsimp only [Fr.blocksAt]
  unfold Fr.iblk
  refine (WindowReads.read16 _ t (ix2 k n)).trans ?_
  exact HostWeights.v33_read (fun b => m (c, b)) k n

theorem in27 : ∀ (k : Fin 160) (n : Fin 160), Fr.val27 (Fr.blocksAt m c t) (ix2 k n) = (m ((c : Thread nD τ).loc main_arg16) : (⟨S160x160, .f32⟩ : BufTy).Contents (Elt Ideal)) (ix2 n k) := by
  intro k n
  unfold Fr.val27 k0_pay10 Fr.val26
  rw [shapeCast_self, View.ld_unit_zero hz]
  dsimp only [Fr.blocksAt]
  unfold Fr.iblk
  refine (WindowReads.read17 _ t (ix2 k n)).trans ?_
  exact HostWeights.v35_read (fun b => m (c, b)) k n

theorem in29 : ∀ (k : Fin 160) (n : Fin 384) (j : Fin 240), j.val = k.val →
    Fr.val29 (Fr.blocksAt m c t) (ix2 k n) = (m ((c : Thread nD τ).loc main_arg17) : (⟨S384x240, .f32⟩ : BufTy).Contents (Elt Ideal)) (ix2 n j) := by
  intro k n j hj
  unfold Fr.val29 k0_pay11 Fr.val28
  rw [shapeCast_self, View.ld_unit_zero hz]
  dsimp only [Fr.blocksAt]
  unfold Fr.iblk
  refine (WindowReads.read18 _ t (ix2 k n)).trans ?_
  exact HostWeights.v37_read (fun b => m (c, b)) k n j hj

theorem in31 : ∀ (k : Fin 128) (n : Fin 384), Fr.val31 (Fr.blocksAt m c t) (ix2 k n) = (m ((c : Thread nD τ).loc main_arg18) : (⟨S384x128, .f32⟩ : BufTy).Contents (Elt Ideal)) (ix2 n k) := by
  intro k n
  unfold Fr.val31 k0_pay12 Fr.val30
  rw [shapeCast_self, View.ld_unit_zero hz]
  dsimp only [Fr.blocksAt]
  unfold Fr.iblk
  refine (WindowReads.read19 _ t (ix2 k n)).trans ?_
  exact HostWeights.v39_read (fun b => m (c, b)) k n

theorem in33 : ∀ (k : Fin 128) (n : Fin 128), Fr.val33 (Fr.blocksAt m c t) (ix2 k n) = (m ((c : Thread nD τ).loc main_arg19) : (⟨S128x128, .f32⟩ : BufTy).Contents (Elt Ideal)) (ix2 n k) := by
  intro k n
  unfold Fr.val33 k0_pay13 Fr.val32
  rw [shapeCast_self, View.ld_unit_zero hz]
  dsimp only [Fr.blocksAt]
  unfold Fr.iblk
  refine (WindowReads.read20 _ t (ix2 k n)).trans ?_
  exact HostWeights.v41_read (fun b => m (c, b)) k n

theorem in35 : ∀ (k : Fin 128) (n : Fin 384) (j : Fin 208), j.val = k.val →
    Fr.val35 (Fr.blocksAt m c t) (ix2 k n) = (m ((c : Thread nD τ).loc main_arg20) : (⟨S384x208, .f32⟩ : BufTy).Contents (Elt Ideal)) (ix2 n j) := by
  intro k n j hj
  unfold Fr.val35 k0_pay14 Fr.val34
  rw [shapeCast_self, View.ld_unit_zero hz]
  dsimp only [Fr.blocksAt]
  unfold Fr.iblk
  refine (WindowReads.read21 _ t (ix2 k n)).trans ?_
  exact HostWeights.v43_read (fun b => m (c, b)) k n j hj

theorem in37 : ∀ (k : Fin 128) (n : Fin 384), Fr.val37 (Fr.blocksAt m c t) (ix2 k n) = (m ((c : Thread nD τ).loc main_arg21) : (⟨S384x128, .f32⟩ : BufTy).Contents (Elt Ideal)) (ix2 n k) := by
  intro k n
  unfold Fr.val37 k0_pay15 Fr.val36
  rw [shapeCast_self, View.ld_unit_zero hz]
  dsimp only [Fr.blocksAt]
  unfold Fr.iblk
  refine (WindowReads.read22 _ t (ix2 k n)).trans ?_
  exact HostWeights.v45_read (fun b => m (c, b)) k n

theorem in39 : ∀ (k : Fin 128) (n : Fin 128), Fr.val39 (Fr.blocksAt m c t) (ix2 k n) = (m ((c : Thread nD τ).loc main_arg22) : (⟨S128x128, .f32⟩ : BufTy).Contents (Elt Ideal)) (ix2 n k) := by
  intro k n
  unfold Fr.val39 k0_pay16 Fr.val38
  rw [shapeCast_self, View.ld_unit_zero hz]
  dsimp only [Fr.blocksAt]
  unfold Fr.iblk
  refine (WindowReads.read23 _ t (ix2 k n)).trans ?_
  exact HostWeights.v47_read (fun b => m (c, b)) k n

theorem in41 : ∀ (k : Fin 160) (n : Fin 128) (j : Fin 688), j.val = k.val →
    Fr.val41 (Fr.blocksAt m c t) (ix2 k n) = (m ((c : Thread nD τ).loc main_arg23) : (⟨S128x688, .f32⟩ : BufTy).Contents (Elt Ideal)) (ix2 n j) := by
  intro k n j hj
  unfold Fr.val41 k0_pay17 Fr.val40
  rw [shapeCast_self, View.ld_unit_zero hz]
  dsimp only [Fr.blocksAt]
  unfold Fr.iblk
  refine (WindowReads.read24 _ t (ix2 k n)).trans ?_
  exact HostWeights.v49_read (fun b => m (c, b)) k n j hj

theorem in43 : ∀ (k : Fin 128) (n : Fin 128) (j : Fin 688), j.val = 160 + k.val →
    Fr.val43 (Fr.blocksAt m c t) (ix2 k n) = (m ((c : Thread nD τ).loc main_arg23) : (⟨S128x688, .f32⟩ : BufTy).Contents (Elt Ideal)) (ix2 n j) := by
  intro k n j hj
  unfold Fr.val43 k0_pay18 Fr.val42
  rw [shapeCast_self, View.ld_unit_zero hz]
  dsimp only [Fr.blocksAt]
  unfold Fr.iblk
  refine (WindowReads.read25 _ t (ix2 k n)).trans ?_
  exact HostWeights.v51_read (fun b => m (c, b)) k n j hj

theorem in45 : ∀ (k : Fin 128) (n : Fin 128) (j : Fin 688), j.val = 288 + k.val →
    Fr.val45 (Fr.blocksAt m c t) (ix2 k n) = (m ((c : Thread nD τ).loc main_arg23) : (⟨S128x688, .f32⟩ : BufTy).Contents (Elt Ideal)) (ix2 n j) := by
  intro k n j hj
  unfold Fr.val45 k0_pay19 Fr.val44
  rw [shapeCast_self, View.ld_unit_zero hz]
  dsimp only [Fr.blocksAt]
  unfold Fr.iblk
  refine (WindowReads.read26 _ t (ix2 k n)).trans ?_
  exact HostWeights.v53_read (fun b => m (c, b)) k n j hj

theorem in47 : ∀ (k : Fin 192) (n : Fin 128) (j : Fin 688), j.val = 416 + k.val →
    Fr.val47 (Fr.blocksAt m c t) (ix2 k n) = (m ((c : Thread nD τ).loc main_arg23) : (⟨S128x688, .f32⟩ : BufTy).Contents (Elt Ideal)) (ix2 n j) := by
  intro k n j hj
  unfold Fr.val47 k0_pay20 Fr.val46
  rw [shapeCast_self, View.ld_unit_zero hz]
  dsimp only [Fr.blocksAt]
  unfold Fr.iblk
  refine (WindowReads.read27 _ t (ix2 k n)).trans ?_
  exact HostWeights.v55_read (fun b => m (c, b)) k n j hj

theorem in49 : ∀ (k : Fin 128) (n : Fin 128), Fr.val49 (Fr.blocksAt m c t) (ix2 k n) = (m ((c : Thread nD τ).loc main_arg24) : (⟨S128x128, .f32⟩ : BufTy).Contents (Elt Ideal)) (ix2 n k) := by
  intro k n
  unfold Fr.val49 k0_pay21 Fr.val48
  rw [shapeCast_self, View.ld_unit_zero hz]
  dsimp only [Fr.blocksAt]
  unfold Fr.iblk
  refine (WindowReads.read28 _ t (ix2 k n)).trans ?_
  exact HostWeights.v57_read (fun b => m (c, b)) k n

theorem in51 : ∀ (k : Fin 128) (n : Fin 40), Fr.val51 (Fr.blocksAt m c t) (ix2 k n) = (m ((c : Thread nD τ).loc main_arg25) : (⟨S40x128, .f32⟩ : BufTy).Contents (Elt Ideal)) (ix2 n k) := by
  intro k n
  unfold Fr.val51 k0_pay22 Fr.val50
  rw [shapeCast_self, View.ld_unit_zero hz]
  dsimp only [Fr.blocksAt]
  unfold Fr.iblk
  refine (WindowReads.read29 _ t (ix2 k n)).trans ?_
  exact HostWeights.v59_read (fun b => m (c, b)) k n

end Cert.Bridge.KInputsWeights

end
-- ==== Proof.HostWeightsStacked.lean ====
import proofs.«401269_j23398981829052_3_alg».proof.Proof.LaunchIdeal
import Idealize.ShloMosaic.Lib.ValueIdx
import Idealize.ShloMosaic.Lib.Pipeline.Value
import Idealize.ShloMosaic.Lib.StableHlo.Run

noncomputable section

namespace Cert.Bridge.HostWeights

open Idealize.ShloMosaic Idealize.ShloMosaic.TcCoe Idealize.SL.Sem
open Idealize.ShloMosaic.ValueIdx
open Cert.KernelIdeal Cert.KernelIdeal.Gen Cert.KernelIdeal.GenL

variable {F : FTy → Type} [FloatOps F]

theorem v61_fold (W : Valuation τ sig (Elt F)) :
    (StableHlo.after hostOps0 W (Proc.devRef .tc main_v61) : (⟨S40x1376, .bf16⟩ : BufTy).Contents (Elt F))
      = truncf .bf16 (transpose S40x1376 [1, 0]
          (concatenate S1376x40 0
            [⟨S480x40, extractStridedSlice S480x40 ![0, 192] (W (Proc.devRef .tc main_arg14) : (⟨S480x272, .f32⟩ : BufTy).Contents (Elt F)) slices_S480x272_S480x40_0_192⟩,
             ⟨S384x40, extractStridedSlice S384x40 ![0, 160] (W (Proc.devRef .tc main_arg17) : (⟨S384x240, .f32⟩ : BufTy).Contents (Elt F)) slices_S384x240_S384x40_0_160⟩,
             ⟨S384x40, extractStridedSlice S384x40 ![0, 128] (W (Proc.devRef .tc main_arg20) : (⟨S384x208, .f32⟩ : BufTy).Contents (Elt F)) slices_S384x208_S384x40_0_128⟩,
             ⟨S128x40, extractStridedSlice S128x40 ![0, 608] (W (Proc.devRef .tc main_arg23) : (⟨S128x688, .f32⟩ : BufTy).Contents (Elt F)) slices_S128x688_S128x40_0_608⟩]
            concatenates_S480x40_S384x40_S384x40_S128x40_S1376x40_d0)
          transposes_S1376x40_S40x1376_1_0) bitsLt_bf16_f32 := by
  show StableHlo.after hostOps0 W (Proc.devRef .tc main_v61) = _
  after_results_simp
  rfl

theorem v61_read_a (W : Valuation τ sig (Elt Ideal)) (k : Fin 40) (n : Fin 1376) (p : Fin 480) (hp : n.val = p.val)
    (j : Fin 272) (hj : j.val = 192 + k.val) :
    (StableHlo.after hostOps0 W (Proc.devRef .tc main_v61) : (⟨S40x1376, .bf16⟩ : BufTy).Contents (Elt Ideal)) (ix2 k n)
      = (W (Proc.devRef .tc main_arg14) : (⟨S480x272, .f32⟩ : BufTy).Contents (Elt Ideal)) (ix2 p j) := by
  rw [v61_fold, truncf_apply]
  refine (transpose_apply _ _ _ _ (ix2 n k) ?_).trans ?_
  · intro b
    match b with
    | ⟨0, _⟩ => rfl
    | ⟨1, _⟩ => rfl
  · refine (concatenate_apply_piece (t := S1376x40) (0 : Fin 2) _ _ (ix2 n k) 0 (by show 0 < 4; omega) S480x40 _ rfl rfl 0 rfl (ix2 p k) ?_ ?_).trans ?_
    · intro b hb
      match b with
      | ⟨0, _⟩ => exact absurd rfl hb
      | ⟨1, _⟩ => rfl
    · show 0 + p.val = n.val; omega
    · refine extractStridedSlice_apply _ _ _ _ (ix2 p j) ?_
      intro a
      match a with
      | ⟨0, _⟩ => show p.val = 0 + p.val; omega
      | ⟨1, _⟩ => show j.val = 192 + k.val; exact hj

theorem v61_read_b (W : Valuation τ sig (Elt Ideal)) (k : Fin 40) (n : Fin 1376) (p : Fin 384) (hp : n.val = 480 + p.val)
    (j : Fin 240) (hj : j.val = 160 + k.val) :
    (StableHlo.after hostOps0 W (Proc.devRef .tc main_v61) : (⟨S40x1376, .bf16⟩ : BufTy).Contents (Elt Ideal)) (ix2 k n)
      = (W (Proc.devRef .tc main_arg17) : (⟨S384x240, .f32⟩ : BufTy).Contents (Elt Ideal)) (ix2 p j) := by
  rw [v61_fold, truncf_apply]
  refine (transpose_apply _ _ _ _ (ix2 n k) ?_).trans ?_
  · intro b
    match b with
    | ⟨0, _⟩ => rfl
    | ⟨1, _⟩ => rfl
  · refine (concatenate_apply_piece (t := S1376x40) (0 : Fin 2) _ _ (ix2 n k) 1 (by show 1 < 4; omega) S384x40 _ rfl rfl 480 rfl (ix2 p k) ?_ ?_).trans ?_
    · intro b hb
      match b with
      | ⟨0, _⟩ => exact absurd rfl hb
      | ⟨1, _⟩ => rfl
    · show 480 + p.val = n.val; omega
    · refine extractStridedSlice_apply _ _ _ _ (ix2 p j) ?_
      intro a
      match a with
      | ⟨0, _⟩ => show p.val = 0 + p.val; omega
      | ⟨1, _⟩ => show j.val = 160 + k.val; exact hj

theorem v61_read_c (W : Valuation τ sig (Elt Ideal)) (k : Fin 40) (n : Fin 1376) (p : Fin 384) (hp : n.val = 864 + p.val)
    (j : Fin 208) (hj : j.val = 128 + k.val) :
    (StableHlo.after hostOps0 W (Proc.devRef .tc main_v61) : (⟨S40x1376, .bf16⟩ : BufTy).Contents (Elt Ideal)) (ix2 k n)
      = (W (Proc.devRef .tc main_arg20) : (⟨S384x208, .f32⟩ : BufTy).Contents (Elt Ideal)) (ix2 p j) := by
  rw [v61_fold, truncf_apply]
  refine (transpose_apply _ _ _ _ (ix2 n k) ?_).trans ?_
  · intro b
    match b with
    | ⟨0, _⟩ => rfl
    | ⟨1, _⟩ => rfl
  · refine (concatenate_apply_piece (t := S1376x40) (0 : Fin 2) _ _ (ix2 n k) 2 (by show 2 < 4; omega) S384x40 _ rfl rfl 864 rfl (ix2 p k) ?_ ?_).trans ?_
    · intro b hb
      match b with
      | ⟨0, _⟩ => exact absurd rfl hb
      | ⟨1, _⟩ => rfl
    · show 864 + p.val = n.val; omega
    · refine extractStridedSlice_apply _ _ _ _ (ix2 p j) ?_
      intro a
      match a with
      | ⟨0, _⟩ => show p.val = 0 + p.val; omega
      | ⟨1, _⟩ => show j.val = 128 + k.val; exact hj

theorem v61_read_d (W : Valuation τ sig (Elt Ideal)) (k : Fin 40) (n : Fin 1376) (p : Fin 128) (hp : n.val = 1248 + p.val)
    (j : Fin 688) (hj : j.val = 608 + k.val) :
    (StableHlo.after hostOps0 W (Proc.devRef .tc main_v61) : (⟨S40x1376, .bf16⟩ : BufTy).Contents (Elt Ideal)) (ix2 k n)
      = (W (Proc.devRef .tc main_arg23) : (⟨S128x688, .f32⟩ : BufTy).Contents (Elt Ideal)) (ix2 p j) := by
  rw [v61_fold, truncf_apply]
  refine (transpose_apply _ _ _ _ (ix2 n k) ?_).trans ?_
  · intro b
    match b with
    | ⟨0, _⟩ => rfl
    | ⟨1, _⟩ => rfl
  · refine (concatenate_apply_piece (t := S1376x40) (0 : Fin 2) _ _ (ix2 n k) 3 (by show 3 < 4; omega) S128x40 _ rfl rfl 1248 rfl (ix2 p k) ?_ ?_).trans ?_
    · intro b hb
      match b with
      | ⟨0, _⟩ => exact absurd rfl hb
      | ⟨1, _⟩ => rfl
    · show 1248 + p.val = n.val; omega
    · refine extractStridedSlice_apply _ _ _ _ (ix2 p j) ?_
      intro a
      match a with
      | ⟨0, _⟩ => show p.val = 0 + p.val; omega
      | ⟨1, _⟩ => show j.val = 608 + k.val; exact hj

theorem v63_fold (W : Valuation τ sig (Elt F)) :
    (StableHlo.after hostOps0 W (Proc.devRef .tc main_v63) : (⟨S40x1376, .bf16⟩ : BufTy).Contents (Elt F))
      = truncf .bf16 (transpose S40x1376 [1, 0]
          (concatenate S1376x40 0
            [⟨S480x40, extractStridedSlice S480x40 ![0, 232] (W (Proc.devRef .tc main_arg14) : (⟨S480x272, .f32⟩ : BufTy).Contents (Elt F)) slices_S480x272_S480x40_0_232⟩,
             ⟨S384x40, extractStridedSlice S384x40 ![0, 200] (W (Proc.devRef .tc main_arg17) : (⟨S384x240, .f32⟩ : BufTy).Contents (Elt F)) slices_S384x240_S384x40_0_200⟩,
             ⟨S384x40, extractStridedSlice S384x40 ![0, 168] (W (Proc.devRef .tc main_arg20) : (⟨S384x208, .f32⟩ : BufTy).Contents (Elt F)) slices_S384x208_S384x40_0_168⟩,
             ⟨S128x40, extractStridedSlice S128x40 ![0, 648] (W (Proc.devRef .tc main_arg23) : (⟨S128x688, .f32⟩ : BufTy).Contents (Elt F)) slices_S128x688_S128x40_0_648⟩]
            concatenates_S480x40_S384x40_S384x40_S128x40_S1376x40_d0)
          transposes_S1376x40_S40x1376_1_0) bitsLt_bf16_f32 := by
  show StableHlo.after hostOps0 W (Proc.devRef .tc main_v63) = _
  after_results_simp
  rfl

theorem v63_read_a (W : Valuation τ sig (Elt Ideal)) (k : Fin 40) (n : Fin 1376) (p : Fin 480) (hp : n.val = p.val)
    (j : Fin 272) (hj : j.val = 232 + k.val) :
    (StableHlo.after hostOps0 W (Proc.devRef .tc main_v63) : (⟨S40x1376, .bf16⟩ : BufTy).Contents (Elt Ideal)) (ix2 k n)
      = (W (Proc.devRef .tc main_arg14) : (⟨S480x272, .f32⟩ : BufTy).Contents (Elt Ideal)) (ix2 p j) := by
  rw [v63_fold, truncf_apply]
  refine (transpose_apply _ _ _ _ (ix2 n k) ?_).trans ?_
  · intro b
    match b with
    | ⟨0, _⟩ => rfl
    | ⟨1, _⟩ => rfl
  · refine (concatenate_apply_piece (t := S1376x40) (0 : Fin 2) _ _ (ix2 n k) 0 (by show 0 < 4; omega) S480x40 _ rfl rfl 0 rfl (ix2 p k) ?_ ?_).trans ?_
    · intro b hb
      match b with
      | ⟨0, _⟩ => exact absurd rfl hb
      | ⟨1, _⟩ => rfl
    · show 0 + p.val = n.val; omega
    · refine extractStridedSlice_apply _ _ _ _ (ix2 p j) ?_
      intro a
      match a with
      | ⟨0, _⟩ => show p.val = 0 + p.val; omega
      | ⟨1, _⟩ => show j.val = 232 + k.val; exact hj

theorem v63_read_b (W : Valuation τ sig (Elt Ideal)) (k : Fin 40) (n : Fin 1376) (p : Fin 384) (hp : n.val = 480 + p.val)
    (j : Fin 240) (hj : j.val = 200 + k.val) :
    (StableHlo.after hostOps0 W (Proc.devRef .tc main_v63) : (⟨S40x1376, .bf16⟩ : BufTy).Contents (Elt Ideal)) (ix2 k n)
      = (W (Proc.devRef .tc main_arg17) : (⟨S384x240, .f32⟩ : BufTy).Contents (Elt Ideal)) (ix2 p j) := by
  rw [v63_fold, truncf_apply]
  refine (transpose_apply _ _ _ _ (ix2 n k) ?_).trans ?_
  · intro b
    match b with
    | ⟨0, _⟩ => rfl
    | ⟨1, _⟩ => rfl
  · refine (concatenate_apply_piece (t := S1376x40) (0 : Fin 2) _ _ (ix2 n k) 1 (by show 1 < 4; omega) S384x40 _ rfl rfl 480 rfl (ix2 p k) ?_ ?_).trans ?_
    · intro b hb
      match b with
      | ⟨0, _⟩ => exact absurd rfl hb
      | ⟨1, _⟩ => rfl
    · show 480 + p.val = n.val; omega
    · refine extractStridedSlice_apply _ _ _ _ (ix2 p j) ?_
      intro a
      match a with
      | ⟨0, _⟩ => show p.val = 0 + p.val; omega
      | ⟨1, _⟩ => show j.val = 200 + k.val; exact hj

theorem v63_read_c (W : Valuation τ sig (Elt Ideal)) (k : Fin 40) (n : Fin 1376) (p : Fin 384) (hp : n.val = 864 + p.val)
    (j : Fin 208) (hj : j.val = 168 + k.val) :
    (StableHlo.after hostOps0 W (Proc.devRef .tc main_v63) : (⟨S40x1376, .bf16⟩ : BufTy).Contents (Elt Ideal)) (ix2 k n)
      = (W (Proc.devRef .tc main_arg20) : (⟨S384x208, .f32⟩ : BufTy).Contents (Elt Ideal)) (ix2 p j) := by
  rw [v63_fold, truncf_apply]
  refine (transpose_apply _ _ _ _ (ix2 n k) ?_).trans ?_
  · intro b
    match b with
    | ⟨0, _⟩ => rfl
    | ⟨1, _⟩ => rfl
  · refine (concatenate_apply_piece (t := S1376x40) (0 : Fin 2) _ _ (ix2 n k) 2 (by show 2 < 4; omega) S384x40 _ rfl rfl 864 rfl (ix2 p k) ?_ ?_).trans ?_
    · intro b hb
      match b with
      | ⟨0, _⟩ => exact absurd rfl hb
      | ⟨1, _⟩ => rfl
    · show 864 + p.val = n.val; omega
    · refine extractStridedSlice_apply _ _ _ _ (ix2 p j) ?_
      intro a
      match a with
      | ⟨0, _⟩ => show p.val = 0 + p.val; omega
      | ⟨1, _⟩ => show j.val = 168 + k.val; exact hj

theorem v63_read_d (W : Valuation τ sig (Elt Ideal)) (k : Fin 40) (n : Fin 1376) (p : Fin 128) (hp : n.val = 1248 + p.val)
    (j : Fin 688) (hj : j.val = 648 + k.val) :
    (StableHlo.after hostOps0 W (Proc.devRef .tc main_v63) : (⟨S40x1376, .bf16⟩ : BufTy).Contents (Elt Ideal)) (ix2 k n)
      = (W (Proc.devRef .tc main_arg23) : (⟨S128x688, .f32⟩ : BufTy).Contents (Elt Ideal)) (ix2 p j) := by
  rw [v63_fold, truncf_apply]
  refine (transpose_apply _ _ _ _ (ix2 n k) ?_).trans ?_
  · intro b
    match b with
    | ⟨0, _⟩ => rfl
    | ⟨1, _⟩ => rfl
  · refine (concatenate_apply_piece (t := S1376x40) (0 : Fin 2) _ _ (ix2 n k) 3 (by show 3 < 4; omega) S128x40 _ rfl rfl 1248 rfl (ix2 p k) ?_ ?_).trans ?_
    · intro b hb
      match b with
      | ⟨0, _⟩ => exact absurd rfl hb
      | ⟨1, _⟩ => rfl
    · show 1248 + p.val = n.val; omega
    · refine extractStridedSlice_apply _ _ _ _ (ix2 p j) ?_
      intro a
      match a with
      | ⟨0, _⟩ => show p.val = 0 + p.val; omega
      | ⟨1, _⟩ => show j.val = 648 + k.val; exact hj

end Cert.Bridge.HostWeights
-- ==== Proof.KInputsStacked.lean ====
import proofs.«401269_j23398981829052_3_alg».proof.Proof.FrameDefsIdeal
import proofs.«401269_j23398981829052_3_alg».proof.Proof.WindowReads
import proofs.«401269_j23398981829052_3_alg».proof.Proof.HostWeightsStacked
import Idealize.ShloMosaic.Lib.ValueIdx
import Idealize.ShloMosaic.Lib.Pipeline.Value

noncomputable section

namespace Cert.Bridge.KInputsStacked

open Idealize.ShloMosaic Idealize.ShloMosaic.TcCoe Idealize.SL.Sem
open Idealize.ShloMosaic.ValueIdx
open Cert.KernelIdeal Cert.KernelIdeal.Gen Cert.KernelIdeal.GenL
open Cert.Bridge

variable (m : (ℓ : Loc nD τ sig) → Buf (Elt Ideal) ℓ) (c : Dev nD) (t : Fin cfg0.N)

theorem hz : (![0, 0] : Fin 2 → Nat) = fun _ => 0 := by
  funext a; match a with | ⟨0, _⟩ => rfl | ⟨1, _⟩ => rfl

theorem val53_at (k : Fin 40) (n : Fin 1376) :
    Fr.val53 (Fr.blocksAt m c t) (ix2 k n)
      = (StableHlo.after hostOps0 (fun b => m (c, b)) (Proc.devRef .tc main_v61) : (⟨S40x1376, .bf16⟩ : BufTy).Contents (Elt Ideal)) (ix2 k n) := by
  unfold Fr.val53 k0_pay23 Fr.val52
  rw [shapeCast_self, View.ld_unit_zero hz]
  show Fr.iblk m c 30 t (ix2 k n) = _
  unfold Fr.iblk
  exact WindowReads.read30 _ t (ix2 k n)

theorem val55_at (k : Fin 40) (n : Fin 1376) :
    Fr.val55 (Fr.blocksAt m c t) (ix2 k n)
      = (StableHlo.after hostOps0 (fun b => m (c, b)) (Proc.devRef .tc main_v63) : (⟨S40x1376, .bf16⟩ : BufTy).Contents (Elt Ideal)) (ix2 k n) := by
  unfold Fr.val55 k0_pay24 Fr.val54
  rw [shapeCast_self, View.ld_unit_zero hz]
  show Fr.iblk m c 31 t (ix2 k n) = _
  unfold Fr.iblk
  exact WindowReads.read31 _ t (ix2 k n)

theorem in53a : ∀ (k : Fin 40) (n : Fin 1376) (p : Fin 480) (j : Fin 272), 0 ≤ n.val → n.val < 480 → p.val = n.val - 0 → j.val = 192 + k.val →
    Fr.val53 (Fr.blocksAt m c t) (ix2 k n) = (m ((c : Thread nD τ).loc main_arg14) : (⟨S480x272, .f32⟩ : BufTy).Contents (Elt Ideal)) (ix2 p j) := by
  intro k n p j h0 h1 hp hj
  refine (val53_at m c t k n).trans ?_
  exact HostWeights.v61_read_a (fun b => m (c, b)) k n p (by omega) j hj

theorem in53b : ∀ (k : Fin 40) (n : Fin 1376) (p : Fin 384) (j : Fin 240), 480 ≤ n.val → n.val < 864 → p.val = n.val - 480 → j.val = 160 + k.val →
    Fr.val53 (Fr.blocksAt m c t) (ix2 k n) = (m ((c : Thread nD τ).loc main_arg17) : (⟨S384x240, .f32⟩ : BufTy).Contents (Elt Ideal)) (ix2 p j) := by
  intro k n p j h0 h1 hp hj
  refine (val53_at m c t k n).trans ?_
  exact HostWeights.v61_read_b (fun b => m (c, b)) k n p (by omega) j hj

theorem in53c : ∀ (k : Fin 40) (n : Fin 1376) (p : Fin 384) (j : Fin 208), 864 ≤ n.val → n.val < 1248 → p.val = n.val - 864 → j.val = 128 + k.val →
    Fr.val53 (Fr.blocksAt m c t) (ix2 k n) = (m ((c : Thread nD τ).loc main_arg20) : (⟨S384x208, .f32⟩ : BufTy).Contents (Elt Ideal)) (ix2 p j) := by
  intro k n p j h0 h1 hp hj
  refine (val53_at m c t k n).trans ?_
  exact HostWeights.v61_read_c (fun b => m (c, b)) k n p (by omega) j hj

theorem in53d : ∀ (k : Fin 40) (n : Fin 1376) (p : Fin 128) (j : Fin 688), 1248 ≤ n.val → n.val < 1376 → p.val = n.val - 1248 → j.val = 608 + k.val →
    Fr.val53 (Fr.blocksAt m c t) (ix2 k n) = (m ((c : Thread nD τ).loc main_arg23) : (⟨S128x688, .f32⟩ : BufTy).Contents (Elt Ideal)) (ix2 p j) := by
  intro k n p j h0 h1 hp hj
  refine (val53_at m c t k n).trans ?_
  exact HostWeights.v61_read_d (fun b => m (c, b)) k n p (by omega) j hj

theorem in55a : ∀ (k : Fin 40) (n : Fin 1376) (p : Fin 480) (j : Fin 272), 0 ≤ n.val → n.val < 480 → p.val = n.val - 0 → j.val = 232 + k.val →
    Fr.val55 (Fr.blocksAt m c t) (ix2 k n) = (m ((c : Thread nD τ).loc main_arg14) : (⟨S480x272, .f32⟩ : BufTy).Contents (Elt Ideal)) (ix2 p j) := by
  intro k n p j h0 h1 hp hj
  refine (val55_at m c t k n).trans ?_
  exact HostWeights.v63_read_a (fun b => m (c, b)) k n p (by omega) j hj

theorem in55b : ∀ (k : Fin 40) (n : Fin 1376) (p : Fin 384) (j : Fin 240), 480 ≤ n.val → n.val < 864 → p.val = n.val - 480 → j.val = 200 + k.val →
    Fr.val55 (Fr.blocksAt m c t) (ix2 k n) = (m ((c : Thread nD τ).loc main_arg17) : (⟨S384x240, .f32⟩ : BufTy).Contents (Elt Ideal)) (ix2 p j) := by
  intro k n p j h0 h1 hp hj
  refine (val55_at m c t k n).trans ?_
  exact HostWeights.v63_read_b (fun b => m (c, b)) k n p (by omega) j hj

theorem in55c : ∀ (k : Fin 40) (n : Fin 1376) (p : Fin 384) (j : Fin 208), 864 ≤ n.val → n.val < 1248 → p.val = n.val - 864 → j.val = 168 + k.val →
    Fr.val55 (Fr.blocksAt m c t) (ix2 k n) = (m ((c : Thread nD τ).loc main_arg20) : (⟨S384x208, .f32⟩ : BufTy).Contents (Elt Ideal)) (ix2 p j) := by
  intro k n p j h0 h1 hp hj
  refine (val55_at m c t k n).trans ?_
  exact HostWeights.v63_read_c (fun b => m (c, b)) k n p (by omega) j hj

theorem in55d : ∀ (k : Fin 40) (n : Fin 1376) (p : Fin 128) (j : Fin 688), 1248 ≤ n.val → n.val < 1376 → p.val = n.val - 1248 → j.val = 648 + k.val →
    Fr.val55 (Fr.blocksAt m c t) (ix2 k n) = (m ((c : Thread nD τ).loc main_arg23) : (⟨S128x688, .f32⟩ : BufTy).Contents (Elt Ideal)) (ix2 p j) := by
  intro k n p j h0 h1 hp hj
  refine (val55_at m c t k n).trans ?_
  exact HostWeights.v63_read_d (fun b => m (c, b)) k n p (by omega) j hj

end Cert.Bridge.KInputsStacked

end
-- ==== Proof.KInputs.lean ====
import proofs.«401269_j23398981829052_3_alg».proof.Proof.Chain0
import proofs.«401269_j23398981829052_3_alg».proof.Proof.KInputsRows
import proofs.«401269_j23398981829052_3_alg».proof.Proof.KInputsWeights
import proofs.«401269_j23398981829052_3_alg».proof.Proof.KInputsStacked

noncomputable section

namespace Cert.Bridge.KInputs

open Idealize.ShloMosaic Idealize.ShloMosaic.TcCoe Idealize.SL.Sem
open Cert.KernelIdeal Cert.KernelIdeal.Gen Cert.KernelIdeal.GenL
open Cert.Bridge

variable (m : (ℓ : Loc nD τ sig) → Buf (Elt Ideal) ℓ) (c : Dev nD) (t : Fin cfg0.N)

theorem inputs : Cert.Bridge.Chain.Inputs
    (⟨t.val, by have ht : t.val < grid0.N := t.isLt; have hN : grid0.N = 64 := N_0; omega⟩ : Fin 64)
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))
    (m ((c : Thread nD τ).loc main_arg21))
    (m ((c : Thread nD τ).loc main_arg22))
    (m ((c : Thread nD τ).loc main_arg23))
    (m ((c : Thread nD τ).loc main_arg24))
    (m ((c : Thread nD τ).loc main_arg25))
    (Fr.blocksAt m c t) :=
  ⟨KInputsRows.in0 m c t,
   KInputsRows.in1 m c t,
   KInputsRows.in2 m c t,
   KInputsRows.in3 m c t,
   KInputsRows.in4 m c t,
   KInputsRows.in5 m c t,
   KInputsRows.in6 m c t,
   KInputsRows.in8 m c t,
   KInputsRows.in9 m c t,
   KInputsRows.in11 m c t,
   KInputsRows.in21 m c t,
   KInputsWeights.in13 m c t,
   KInputsWeights.in15 m c t,
   KInputsWeights.in17 m c t,
   KInputsWeights.in19 m c t,
   KInputsWeights.in23 m c t,
   KInputsWeights.in25 m c t,
   KInputsWeights.in27 m c t,
   KInputsWeights.in29 m c t,
   KInputsWeights.in31 m c t,
   KInputsWeights.in33 m c t,
   KInputsWeights.in35 m c t,
   KInputsWeights.in37 m c t,
   KInputsWeights.in39 m c t,
   KInputsWeights.in41 m c t,
   KInputsWeights.in43 m c t,
   KInputsWeights.in45 m c t,
   KInputsWeights.in47 m c t,
   KInputsWeights.in49 m c t,
   KInputsWeights.in51 m c t,
   KInputsStacked.in53a m c t,
   KInputsStacked.in53b m c t,
   KInputsStacked.in53c m c t,
   KInputsStacked.in53d m c t,
   KInputsStacked.in55a m c t,
   KInputsStacked.in55b m c t,
   KInputsStacked.in55c m c t,
   KInputsStacked.in55d m c t⟩

end Cert.Bridge.KInputs
-- ==== Proof.LibExtReal.lean ====
import Mathlib.Data.EReal.Operations
import Mathlib.Data.EReal.Inv
import Mathlib.Algebra.BigOperators.Fin
import Mathlib.Algebra.BigOperators.Group.Finset.Basic
import Idealize.ShloMosaic.PureOps.Ideal

namespace LibExtReal

open Idealize.ShloMosaic
open scoped BigOperators

theorem mul_finset_sum_of_nonneg_ne_top {ι : Type*} (t : Finset ι) (s : EReal) (hs : 0 ≤ s) (hs' : s ≠ ⊤)
    (a : ι → EReal) : s * ∑ k ∈ t, a k = ∑ k ∈ t, s * a k := by
  classical
  induction t using Finset.induction_on with
  | empty => simp
  | insert i t hi ih =>
    rw [Finset.sum_insert hi, Finset.sum_insert hi, EReal.left_distrib_of_nonneg_of_ne_top hs hs', ih]

theorem mul_sum_of_nonneg_ne_top {ι : Type*} [Fintype ι] (s : EReal) (hs : 0 ≤ s) (hs' : s ≠ ⊤) (a : ι → EReal) :
    s * ∑ k, a k = ∑ k, s * a k :=
  mul_finset_sum_of_nonneg_ne_top Finset.univ s hs hs' a

theorem logistic_nonneg (x : EReal) : 0 ≤ Ideal.logistic x := by
  induction x using EReal.rec with
  | bot => rw [Ideal.logistic_bot]
  | coe r =>
    rw [Ideal.logistic_coe]
    exact EReal.coe_nonneg.mpr (inv_nonneg.mpr (by positivity))
  | top => rw [Ideal.logistic_top]; exact zero_le_one

theorem logistic_ne_top (x : EReal) : Ideal.logistic x ≠ ⊤ := by
  induction x using EReal.rec with
  | bot => rw [Ideal.logistic_bot]; exact EReal.zero_ne_top
  | coe r => rw [Ideal.logistic_coe]; exact EReal.coe_ne_top _
  | top => rw [Ideal.logistic_top, ← EReal.coe_one]; exact EReal.coe_ne_top 1

theorem logistic_nonneg_ne_top (x : EReal) : 0 ≤ Ideal.logistic x ∧ Ideal.logistic x ≠ ⊤ :=
  ⟨logistic_nonneg x, logistic_ne_top x⟩

theorem logistic_apply {s : Shape} {φ : FTy} (v : FVec Ideal s φ) (i : s.Idx) :
    logistic v i = Ideal.logistic (v i) := rfl

theorem div_one_add_exp_neg (x : EReal) : Ideal.div 1 (1 + Ideal.exp (-x)) = Ideal.logistic x := rfl

theorem host_logistic_elt {φ : FTy} (c d z : Ideal φ) (hc : c = (1 : EReal)) (hd : d = (1 : EReal)) :
    FloatOps.hostDivf c (FloatOps.addf d (FloatOps.hostUnary .exp (FloatOps.hostNegf z))) = Ideal.logistic z := by
  subst hc; subst hd; rfl

theorem host_logistic_apply {s : Shape} {φ : FTy} (c d z : FVec Ideal s φ) (i : s.Idx) (hc : c i = (1 : EReal))
    (hd : d i = (1 : EReal)) :
    Host.divf c (addf d (Host.exp (Host.negf z))) i = Ideal.logistic (z i) :=
  host_logistic_elt (c i) (d i) (z i) hc hd

theorem sum_fin_split {M : Type*} [AddCommMonoid M] (a b N : ℕ) (h : a + b = N) (f : Fin N → M) :
    ∑ k : Fin N, f k
      = ∑ k : Fin a, f ⟨k.val, lt_of_lt_of_le k.isLt (h ▸ Nat.le_add_right a b)⟩
        + ∑ k : Fin b, f ⟨a + k.val, h ▸ Nat.add_lt_add_left k.isLt a⟩ := by
  subst h
  rw [Fin.sum_univ_add]
  rfl

theorem sum_ite_eq_single {ι : Type*} [Fintype ι] [DecidableEq ι] (j : ι) (a : ι → EReal) :
    ∑ k, (if k = j then a k else 0) = a j := by
  rw [Finset.sum_ite_eq' Finset.univ j a, if_pos (Finset.mem_univ j)]

theorem mul_one_div {x y : EReal} (hy : y ≠ 0) : x * Ideal.div 1 y = Ideal.div x y := by
  unfold Ideal.div; rw [if_neg hy, if_neg hy, one_mul]

end LibExtReal
-- ==== Proof.LibLayout.lean ====
import Idealize.ShloMosaic.Lib.ValueIdx
import Idealize.ShloMosaic.Lib.ValueLayout
import Idealize.ShloMosaic.Lib.Pipeline.Value
import Idealize.ShloMosaic.PureOps.Ideal.Laws

namespace LibLayout

open Idealize.ShloMosaic Idealize.ShloMosaic.ValueIdx
open scoped BigOperators

theorem lift_cols {n0 n1 : ℕ} (h : (⟨2, ![n0, n1]⟩ : Shape).Reduces [1] ⟨1, ![n0]⟩) (r : Fin n0) (k : Fin n1) :
    h.lift (ix1 r) k = ix2 r k := by
  funext c
  apply Fin.ext
  show h.liftVal (ix1 r) k.val c = (ix2 r k c).val
  unfold Shape.Reduces.liftVal
  match c with
  | ⟨0, _⟩ => simp
  | ⟨1, _⟩ => simp

theorem rowsum_apply {n0 n1 : ℕ} (src : FVec Ideal (⟨2, ![n0, n1]⟩ : Shape) .f32)
    (h : (⟨2, ![n0, n1]⟩ : Shape).Reduces [1] ⟨1, ![n0]⟩) (hφ : FKind.Formats .f32)
    (hacc : (0x00000000#32 : BitVec 32) = 0x00000000#32) (r : Fin n0) :
    multiReduction .add [1] ⟨1, ![n0]⟩ src 0x00000000#32 h hφ hacc (ix1 r) = ∑ k : Fin n1, src (ix2 r k) := by
  refine (Ideal.multiReduction_add_single src 0x00000000#32 h hφ hacc (ix1 r)).trans ?_
  exact Finset.sum_congr rfl fun k _ => congrArg src (lift_cols h r k)

theorem shapeCast_col_apply {α : Type} {n0 : ℕ} (x : (⟨1, ![n0]⟩ : Shape).Idx → α)
    (h : (⟨1, ![n0]⟩ : Shape).ShapeCasts ⟨2, ![n0, 1]⟩) (r : Fin n0) (n : Fin 1) :
    shapeCast ⟨2, ![n0, 1]⟩ x h (ix2 r n) = x (ix1 r) := by
  refine shapeCast_apply x h (ix2 r n) (ix1 r) ?_
  rewrite [Shape.rowMajor_val_one, Shape.rowMajor_val_two]
  have hn : n.val < 1 := n.isLt
  show r.val = r.val * 1 + n.val
  omega

theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section Words
variable {s : Shape} {w : ℕ}

theorem addi_apply (a b : IVec s w) (i : s.Idx) : addi a b i = IntOp.addi (a i) (b i) := rfl

theorem subi_apply (a b : IVec s w) (i : s.Idx) : subi a b i = IntOp.subi (a i) (b i) := rfl

theorem muli_apply (a b : IVec s w) (i : s.Idx) : muli a b i = IntOp.muli (a i) (b i) := rfl

theorem maxsi_apply (a b : IVec s w) (i : s.Idx) : maxsi a b i = IntOp.maxsi (a i) (b i) := rfl

theorem minsi_apply (a b : IVec s w) (i : s.Idx) : minsi a b i = IntOp.minsi (a i) (b i) := rfl

theorem cmpi_apply (p : CmpIPredicate) (a b : IVec s w) (i : s.Idx) : cmpi p a b i = IntOp.cmpi p (a i) (b i) := rfl

end Words

end LibLayout
-- ==== Proof.StageGain.lean ====
import proofs.«401269_j23398981829052_3_alg».proof.Proof.Gen.KernelIdeal.Skeleton
import proofs.«401269_j23398981829052_3_alg».proof.Proof.RefRead
import proofs.«401269_j23398981829052_3_alg».proof.Proof.LibExtReal
import proofs.«401269_j23398981829052_3_alg».proof.Proof.LibLayout
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Bridge.StageGain

open Idealize.ShloMosaic Idealize.ShloMosaic.ValueIdx Idealize.SL.Sem Idealize.ShloMosaic.TcCoe Idealize.ShloMosaic.StableHlo
open Cert.KernelIdeal.Gen Cert.ReferenceIdeal.Read
open scoped BigOperators

theorem kernel_gain_apply (v0 : Vec Ideal Cert.KernelIdeal.S1024x80 .f32) (v9 : Vec Ideal Cert.KernelIdeal.S1x80 .f32)
    (v11 : FVec Ideal Cert.KernelIdeal.S1x1 .f32) (r : Fin 1024) (n : Fin 1) :
    k0_pay25 v0 v9 v11 (ix2 r n) =
      min (Ideal.ofBits .f32 0x41A00000#32) (max (Ideal.ofBits .f32 0x3A83126F#32)
        (Ideal.ofBits .f32 0x3E4CCCCD#32 + Ideal.ofBits .f32 0x3F4CCCCD#32 *
          Ideal.logistic ((∑ k : Fin 80, v0 (ix2 r k) * v9 (ix2 0 k)) + v11 (ix2 0 0)))) := by
  unfold k0_pay25
  simp only [minimumf_apply, maximumf_apply, addf_apply, mulf_apply, broadcast_apply, LibExtReal.logistic_apply]
  rw [LibLayout.shapeCast_col_apply, LibLayout.rowsum_apply, broadcastTo_1b_ab_apply, Fin.fin_one_eq_zero n]
  simp only [mulf_apply, broadcastTo_1b_ab_apply, Ideal.ofBits_def]

theorem ref_gain_apply
    (x0 : (⟨Cert.ReferenceIdeal.S65536x80, .f32⟩ : BufTy).Contents (Elt Ideal))
    (x8 : (⟨Cert.ReferenceIdeal.S1x80, .f32⟩ : BufTy).Contents (Elt Ideal))
    (x9 : (⟨Cert.ReferenceIdeal.S1, .f32⟩ : BufTy).Contents (Elt Ideal)) (i : Fin 65536) (n : Fin 1) :
    val_main_v15 (F := Ideal) x0 x8 x9 (ix2 i n) =
      min (Ideal.ofBits .f32 0x41A00000#32) (max (Ideal.ofBits .f32 0x3A83126F#32)
        (Ideal.ofBits .f32 0x3E4CCCCD#32 + Ideal.ofBits .f32 0x3F4CCCCD#32 *
          Ideal.logistic ((∑ k : Fin 80, x0 (ix2 i k) * x8 (ix2 0 k)) + x9 (ix1 0)))) := by
  have hl : ∀ k : Fin 80, lidx_main_v1 (ix2 i n) k = ix2 i k := fun k => funext fun a =>
    match a with
    | ⟨0, _⟩ => rfl
    | ⟨1, _⟩ => rfl
  have hr : ∀ k : Fin 80, idx_main_v0 (ridx_main_v1 (ix2 i n) k) = ix2 0 k := fun k => funext fun a =>
    match a with
    | ⟨0, _⟩ => Fin.ext (by have := n.isLt; show n.val = 0; omega)
    | ⟨1, _⟩ => rfl
  have hb : idx_main_v2 (idx_main_v3 (ix2 i n)) = ix1 0 := funext fun a =>
    match a with
    | ⟨0, _⟩ => rfl
  rw [val_main_v15_apply, val_main_call0_v4_apply, val_main_call0_v3_apply, val_main_cst_4_apply,
    val_main_call0_v2_apply, val_main_call0_v1_apply, val_main_call0_v0_apply, val_main_cst_3_apply,
    val_main_v14_apply, val_main_v13_apply, val_main_cst_2_apply, val_main_v12_apply, val_main_v11_apply,
    val_main_cst_1_apply, val_main_v10_apply, val_main_v9_apply, val_main_cst_0_apply, val_main_v8_apply,
    val_main_v7_apply, val_main_cst_apply, val_main_v6_apply, val_main_v5_apply, val_main_v4_apply,
    val_main_v1_apply, val_main_v3_apply, val_main_v2_apply]
  simp only [val_main_v0_apply, hl, hr, hb, Ideal.ofBits_def]
  rw [LibExtReal.host_logistic_elt _ _ _ Ideal.ofBits_one_f32 Ideal.ofBits_one_f32]
  rfl

theorem gain_eq (t : Fin 64)
    (x0 : (⟨Cert.ReferenceIdeal.S65536x80, .f32⟩ : BufTy).Contents (Elt Ideal))
    (x8 : (⟨Cert.ReferenceIdeal.S1x80, .f32⟩ : BufTy).Contents (Elt Ideal))
    (x9 : (⟨Cert.ReferenceIdeal.S1, .f32⟩ : BufTy).Contents (Elt Ideal))
    (v0 : Vec Ideal Cert.KernelIdeal.S1024x80 .f32) (v9 : Vec Ideal Cert.KernelIdeal.S1x80 .f32)
    (v11 : FVec Ideal Cert.KernelIdeal.S1x1 .f32)
    (h0 : ∀ (r : Fin 1024) (i : Fin 65536) (k : Fin 80), i.val = 1024 * t.val + r.val → v0 (ix2 r k) = x0 (ix2 i k))
    (h9 : ∀ k : Fin 80, v9 (ix2 0 k) = x8 (ix2 0 k))
    (h11 : v11 (ix2 0 0) = x9 (ix1 0)) :
    ∀ (r : Fin 1024) (i : Fin 65536) (n : Fin 1), i.val = 1024 * t.val + r.val →
      k0_pay25 v0 v9 v11 (ix2 r n) = val_main_v15 x0 x8 x9 (ix2 i n) := by
  intro r i n hi
  rw [kernel_gain_apply, ref_gain_apply, h11]
  have hs : ∑ k : Fin 80, v0 (ix2 r k) * v9 (ix2 0 k) = ∑ k : Fin 80, x0 (ix2 i k) * x8 (ix2 0 k) :=
    Finset.sum_congr rfl fun k _ => by rw [h0 r i k hi, h9 k]
  rw [hs]

def lagIndex (p : BitVec 32) (j : ℕ) : BitVec 32 :=
  IntOp.minsi 255#32 (IntOp.maxsi 0#32
    (IntOp.subi (IntOp.subi (IntOp.addi (IntOp.subi 256#32 p) (BitVec.ofNat 32 j)) 2#32)
      (IntOp.muli ((IntOp.cmpi .sge (IntOp.subi (IntOp.addi (IntOp.subi 256#32 p) (BitVec.ofNat 32 j)) 2#32) 256#32).setWidth 32) p)))

theorem kernel_index_apply (v8 : IVec Cert.KernelIdeal.S1024x1 32) (r : Fin 1024) (j : Fin 44) :
    k0_pay26 v8 (ix2 r j) = lagIndex (v8 (ix2 r 0)) j.val := by
  unfold k0_pay26 lagIndex
  simp only [LibLayout.minsi_apply, LibLayout.maxsi_apply, LibLayout.subi_apply, LibLayout.muli_apply, LibLayout.addi_apply,
    LibLayout.cmpi_apply, extui_apply, broadcast_apply]
  simp only [LibLayout.broadcastTo_col_apply, broadcastTo_1b_ab_apply, LibLayout.subi_apply, broadcast_apply]
  rw [iota_single_apply]

theorem ref_index_apply (x7 : (⟨Cert.ReferenceIdeal.S65536, .i32⟩ : BufTy).Contents (Elt Ideal)) (i : Fin 65536) (j : Fin 44) :
    val_main_v33 (F := Ideal) x7 (ix2 i j) = lagIndex (x7 (ix1 i)) j.val := by
  have e17 : idx_main_v17 (idx_main_v21 (ix2 i j)) = ix1 i := funext fun a =>
    match a with
    | ⟨0, _⟩ => rfl
  have e28 : idx_main_v28 (idx_main_v30 (ix2 i j)) = ix1 i := funext fun a =>
    match a with
    | ⟨0, _⟩ => rfl
  simp only [val_main_v33_apply, val_main_call1_v4_apply, val_main_call1_v3_apply, val_main_c_8_apply,
    val_main_call1_v2_apply, val_main_call1_v1_apply, val_main_call1_v0_apply, val_main_c_7_apply,
    val_main_v32_apply, val_main_v31_apply, val_main_v29_apply, val_main_v27_apply, val_main_v30_apply,
    val_main_v28_apply, val_main_v26_apply, val_main_c_6_apply, val_main_v25_apply, val_main_v24_apply,
    val_main_c_5_apply, val_main_v23_apply, val_main_v22_apply, val_main_v20_apply, val_main_v16_apply,
    val_main_v21_apply, val_main_v19_apply, val_main_v18_apply, val_main_c_apply, val_main_v17_apply, e17, e28]
  rfl

theorem index_eq (t : Fin 64)
    (x7 : (⟨Cert.ReferenceIdeal.S65536, .i32⟩ : BufTy).Contents (Elt Ideal))
    (v8 : IVec Cert.KernelIdeal.S1024x1 32)
    (h8 : ∀ (r : Fin 1024) (i : Fin 65536), i.val = 1024 * t.val + r.val → v8 (ix2 r 0) = x7 (ix1 i)) :
    ∀ (r : Fin 1024) (i : Fin 65536) (j : Fin 44), i.val = 1024 * t.val + r.val →
      k0_pay26 v8 (ix2 r j) = val_main_v33 (F := Ideal) x7 (ix2 i j) := by
  intro r i j hi
  rw [kernel_index_apply, ref_index_apply, h8 r i hi]

end Cert.Bridge.StageGain
-- ==== Proof.StagePgRange.lean ====
import proofs.«401269_j23398981829052_3_alg».proof.Proof.RefRead
import proofs.«401269_j23398981829052_3_alg».proof.Proof.LibExtReal
import Idealize.ShloMosaic.Lib.ValueIdx
import Idealize.ShloMosaic.Lib.IdealHost

noncomputable section

namespace Cert.Bridge.StagePgRange

open Idealize.ShloMosaic Idealize.ShloMosaic.ValueIdx Idealize.SL.Sem Idealize.ShloMosaic.TcCoe Idealize.ShloMosaic.StableHlo
open Cert.ReferenceIdeal.Read

theorem ref_pg_apply (x0 : (⟨Cert.ReferenceIdeal.S65536x80, .f32⟩ : BufTy).Contents (Elt Ideal)) (x2 : (⟨Cert.ReferenceIdeal.S65536x256, .f32⟩ : BufTy).Contents (Elt Ideal))
    (x6 : (⟨Cert.ReferenceIdeal.S65536x164, .f32⟩ : BufTy).Contents (Elt Ideal)) (x7 : (⟨Cert.ReferenceIdeal.S65536, .i32⟩ : BufTy).Contents (Elt Ideal))
    (x8 : (⟨Cert.ReferenceIdeal.S1x80, .f32⟩ : BufTy).Contents (Elt Ideal)) (x9 : (⟨Cert.ReferenceIdeal.S1, .f32⟩ : BufTy).Contents (Elt Ideal))
    (x10 : (⟨Cert.ReferenceIdeal.S192x328, .f32⟩ : BufTy).Contents (Elt Ideal)) (x11 : (⟨Cert.ReferenceIdeal.S192x192, .f32⟩ : BufTy).Contents (Elt Ideal))
    (x12 : (⟨Cert.ReferenceIdeal.S4x192, .f32⟩ : BufTy).Contents (Elt Ideal)) (x13 : (⟨Cert.ReferenceIdeal.S4, .f32⟩ : BufTy).Contents (Elt Ideal))
    (j : Cert.ReferenceIdeal.S65536x4.Idx) :
    val_main_v69 (F := Ideal) x0 x2 x6 x7 x8 x9 x10 x11 x12 x13 j = Ideal.logistic (val_main_v63 (F := Ideal) x0 x2 x6 x7 x8 x9 x10 x11 x12 x13 j) := by
  rw [val_main_v69_apply, val_main_v68_apply, val_main_cst_14_apply, val_main_v67_apply, val_main_v66_apply,
    val_main_cst_13_apply, val_main_v65_apply, val_main_v64_apply]
  exact LibExtReal.host_logistic_elt _ _ _ Ideal.ofBits_one_f32 Ideal.ofBits_one_f32

theorem pg_range (x0 : (⟨Cert.ReferenceIdeal.S65536x80, .f32⟩ : BufTy).Contents (Elt Ideal)) (x2 : (⟨Cert.ReferenceIdeal.S65536x256, .f32⟩ : BufTy).Contents (Elt Ideal))
    (x6 : (⟨Cert.ReferenceIdeal.S65536x164, .f32⟩ : BufTy).Contents (Elt Ideal)) (x7 : (⟨Cert.ReferenceIdeal.S65536, .i32⟩ : BufTy).Contents (Elt Ideal))
    (x8 : (⟨Cert.ReferenceIdeal.S1x80, .f32⟩ : BufTy).Contents (Elt Ideal)) (x9 : (⟨Cert.ReferenceIdeal.S1, .f32⟩ : BufTy).Contents (Elt Ideal))
    (x10 : (⟨Cert.ReferenceIdeal.S192x328, .f32⟩ : BufTy).Contents (Elt Ideal)) (x11 : (⟨Cert.ReferenceIdeal.S192x192, .f32⟩ : BufTy).Contents (Elt Ideal))
    (x12 : (⟨Cert.ReferenceIdeal.S4x192, .f32⟩ : BufTy).Contents (Elt Ideal)) (x13 : (⟨Cert.ReferenceIdeal.S4, .f32⟩ : BufTy).Contents (Elt Ideal)) :
    ∀ (i : Fin 65536) (q : Fin 4), (0 : EReal) ≤ val_main_v69 (F := Ideal) x0 x2 x6 x7 x8 x9 x10 x11 x12 x13 (ix2 i q)
      ∧ val_main_v69 (F := Ideal) x0 x2 x6 x7 x8 x9 x10 x11 x12 x13 (ix2 i q) ≠ (⊤ : EReal) := by
  intro i q
  rw [ref_pg_apply]
  exact LibExtReal.logistic_nonneg_ne_top _

end Cert.Bridge.StagePgRange
-- ==== Proof.ChainGain.lean ====
import proofs.«401269_j23398981829052_3_alg».proof.Proof.Chain0
import proofs.«401269_j23398981829052_3_alg».proof.Proof.StageGain
import proofs.«401269_j23398981829052_3_alg».proof.Proof.StagePgRange

noncomputable section

namespace Cert.Bridge.Chain

open Idealize.ShloMosaic Idealize.ShloMosaic.TcCoe Idealize.ShloMosaic.ValueIdx
open Cert.KernelIdeal Cert.KernelIdeal.Gen Cert.ReferenceIdeal.Read

variable (t : Fin 64)
variable (x0 : (⟨Cert.ReferenceIdeal.S65536x80, .f32⟩ : BufTy).Contents (Elt Ideal))
variable (x1 : (⟨Cert.ReferenceIdeal.S65536x256, .f32⟩ : BufTy).Contents (Elt Ideal))
variable (x2 : (⟨Cert.ReferenceIdeal.S65536x256, .f32⟩ : BufTy).Contents (Elt Ideal))
variable (x3 : (⟨Cert.ReferenceIdeal.S65536x160, .f32⟩ : BufTy).Contents (Elt Ideal))
variable (x4 : (⟨Cert.ReferenceIdeal.S65536x128, .f32⟩ : BufTy).Contents (Elt Ideal))
variable (x5 : (⟨Cert.ReferenceIdeal.S65536x128, .f32⟩ : BufTy).Contents (Elt Ideal))
variable (x6 : (⟨Cert.ReferenceIdeal.S65536x164, .f32⟩ : BufTy).Contents (Elt Ideal))
variable (x7 : (⟨Cert.ReferenceIdeal.S65536, .i32⟩ : BufTy).Contents (Elt Ideal))
variable (x8 : (⟨Cert.ReferenceIdeal.S1x80, .f32⟩ : BufTy).Contents (Elt Ideal))
variable (x9 : (⟨Cert.ReferenceIdeal.S1, .f32⟩ : BufTy).Contents (Elt Ideal))
variable (x10 : (⟨Cert.ReferenceIdeal.S192x328, .f32⟩ : BufTy).Contents (Elt Ideal))
variable (x11 : (⟨Cert.ReferenceIdeal.S192x192, .f32⟩ : BufTy).Contents (Elt Ideal))
variable (x12 : (⟨Cert.ReferenceIdeal.S4x192, .f32⟩ : BufTy).Contents (Elt Ideal))
variable (x13 : (⟨Cert.ReferenceIdeal.S4, .f32⟩ : BufTy).Contents (Elt Ideal))
variable (x14 : (⟨Cert.ReferenceIdeal.S480x272, .f32⟩ : BufTy).Contents (Elt Ideal))
variable (x15 : (⟨Cert.ReferenceIdeal.S480x160, .f32⟩ : BufTy).Contents (Elt Ideal))
variable (x16 : (⟨Cert.ReferenceIdeal.S160x160, .f32⟩ : BufTy).Contents (Elt Ideal))
variable (x17 : (⟨Cert.ReferenceIdeal.S384x240, .f32⟩ : BufTy).Contents (Elt Ideal))
variable (x18 : (⟨Cert.ReferenceIdeal.S384x128, .f32⟩ : BufTy).Contents (Elt Ideal))
variable (x19 : (⟨Cert.ReferenceIdeal.S128x128, .f32⟩ : BufTy).Contents (Elt Ideal))
variable (x20 : (⟨Cert.ReferenceIdeal.S384x208, .f32⟩ : BufTy).Contents (Elt Ideal))
variable (x21 : (⟨Cert.ReferenceIdeal.S384x128, .f32⟩ : BufTy).Contents (Elt Ideal))
variable (x22 : (⟨Cert.ReferenceIdeal.S128x128, .f32⟩ : BufTy).Contents (Elt Ideal))
variable (x23 : (⟨Cert.ReferenceIdeal.S128x688, .f32⟩ : BufTy).Contents (Elt Ideal))
variable (x24 : (⟨Cert.ReferenceIdeal.S128x128, .f32⟩ : BufTy).Contents (Elt Ideal))
variable (x25 : (⟨Cert.ReferenceIdeal.S40x128, .f32⟩ : BufTy).Contents (Elt Ideal))
variable (b : Cert.KernelIdeal.Fr.Blocks Ideal)

theorem sgain (H : Inputs t x0 x1 x2 x3 x4 x5 x6 x7 x8 x9 x10 x11 x12 x13 x14 x15 x16 x17 x18 x19 x20 x21 x22 x23 x24 x25 b) : SGain t x0 x8 x9 b := by
  unfold SGain
  intro r i n hi
  unfold Fr.val70
  exact Cert.Bridge.StageGain.gain_eq t x0 x8 x9 (Fr.val0 b) (Fr.val9 b) (Fr.val11 b) H.in0 H.in9 H.in11 r i n hi

theorem sidx (H : Inputs t x0 x1 x2 x3 x4 x5 x6 x7 x8 x9 x10 x11 x12 x13 x14 x15 x16 x17 x18 x19 x20 x21 x22 x23 x24 x25 b) : SIdx t x7 b := by
  unfold SIdx
  intro r i n hi
  unfold Fr.val88
  exact Cert.Bridge.StageGain.index_eq t x7 (Fr.val8 b) H.in8 r i n hi

theorem spgrange : SPgRange x0 x2 x6 x7 x8 x9 x10 x11 x12 x13 := by
  unfold SPgRange
  exact Cert.Bridge.StagePgRange.pg_range x0 x2 x6 x7 x8 x9 x10 x11 x12 x13

end Cert.Bridge.Chain

end
-- ==== Proof.StageGatherCols.lean ====
import proofs.«401269_j23398981829052_3_alg».proof.Proof.Gen.KernelIdeal.Skeleton
import proofs.«401269_j23398981829052_3_alg».proof.Proof.LibExtReal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.Bridge.Gather

open Idealize.ShloMosaic Idealize.ShloMosaic.ValueIdx Cert.KernelIdeal Cert.KernelIdeal.Gen

theorem rowsum_apply (src : FVec Ideal S1024x256 .f32) (hacc : (0x00000000#32 : BitVec 32) = 0x00000000#32) (r : Fin 1024) :
    shapeCast S1024x1 (multiReduction (F := Ideal) .add [1] S1024 src 0x00000000#32 reduces_S1024x256_S1024 (.inl rfl) hacc)
      shapeCasts_S1024_S1024x1 (ix2 r 0) = ∑ l : Fin 256, src (ix2 r l) := by
  refine (shapeCast_apply _ shapeCasts_S1024_S1024x1 (ix2 r 0) (ix1 r) ?_).trans ?_
  · rw [Shape.rowMajor_val_one, Shape.rowMajor_val_two]
    show r.val = r.val * 1 + 0
    omega
  · refine (Ideal.multiReduction_add_single src 0x00000000#32 reduces_S1024x256_S1024 (.inl rfl) hacc (ix1 r)).trans ?_
    refine Finset.sum_congr rfl (fun l _ => congrArg src ?_)
    funext c
    refine Fin.ext ?_
    rw [Shape.Reduces.lift_val]
    match c with
    | ⟨0, _⟩ => rfl
    | ⟨1, _⟩ => rfl

theorem gathered_col (v2 : Vec Ideal S1024x256 .f32) (v88 : IVec S1024x44 32) (v89 : IVec S1024x256 32)
    (h89 : ∀ (r : Fin 1024) (l : Fin 256), v89 (ix2 r l) = BitVec.ofNat 32 l.val)
    (cn : Nat) (hc : cn < 44) (hs : S1024x44.Slices ![0, cn] S1024x1)
    (hacc : (0x00000000#32 : BitVec 32) = 0x00000000#32)
    (r : Fin 1024) (k : Fin 256) (hk : (v88 (ix2 r ⟨cn, hc⟩)).toNat = k.val) :
    shapeCast S1024x1 (multiReduction (F := Ideal) .add [1] S1024
      (select (cmpi .eq v89 (broadcastTo S1024x256 (extractStridedSlice S1024x1 ![0, cn] v88 hs) broadcasts_S1024x1_S1024x256))
        v2 (broadcast S1024x256 (Scalar.ofBits (F := Ideal) .f32 0x00000000#32)))
      0x00000000#32 reduces_S1024x256_S1024 (.inl rfl) hacc) shapeCasts_S1024_S1024x1 (ix2 r 0) = v2 (ix2 r k) := by
  refine (rowsum_apply _ hacc r).trans ?_
  have hb : ∀ l : Fin 256, broadcastTo S1024x256 (extractStridedSlice S1024x1 ![0, cn] v88 hs) broadcasts_S1024x1_S1024x256 (ix2 r l)
      = v88 (ix2 r ⟨cn, hc⟩) := by
    intro l
    refine (broadcastTo_apply _ broadcasts_S1024x1_S1024x256 (ix2 r l) (ix2 r 0) ?_).trans ?_
    · intro a
      match a with
      | ⟨0, _⟩ => rfl
      | ⟨1, _⟩ => rfl
    · refine extractStridedSlice_apply ![0, cn] v88 hs (ix2 r 0) (ix2 r ⟨cn, hc⟩) ?_
      intro a
      match a with
      | ⟨0, _⟩ => show r.val = 0 + r.val; omega
      | ⟨1, _⟩ => show cn = cn + 0; omega
  have hterm : ∀ l : Fin 256, select (cmpi .eq v89 (broadcastTo S1024x256 (extractStridedSlice S1024x1 ![0, cn] v88 hs) broadcasts_S1024x1_S1024x256))
        v2 (broadcast S1024x256 (Scalar.ofBits (F := Ideal) .f32 0x00000000#32)) (ix2 r l)
      = if l = k then v2 (ix2 r l) else (0 : EReal) := by
    intro l
    show Scalar.select (IntOp.cmpi .eq (v89 (ix2 r l))
      (broadcastTo S1024x256 (extractStridedSlice S1024x1 ![0, cn] v88 hs) broadcasts_S1024x1_S1024x256 (ix2 r l)))
      (v2 (ix2 r l)) (Ideal.ofBits .f32 0x00000000#32) = _
    rw [hb l, h89 r l, Ideal.ofBits_zero_f32]
    by_cases hlk : l = k
    · subst hlk
      rw [if_pos rfl]
      have hw : BitVec.ofNat 32 l.val = v88 (ix2 r ⟨cn, hc⟩) := by rw [← hk, BitVec.ofNat_toNat, BitVec.setWidth_eq]
      rw [hw]
      simp [IntOp.cmpi, Scalar.select]
    · rw [if_neg hlk]
      have hw : BitVec.ofNat 32 l.val ≠ v88 (ix2 r ⟨cn, hc⟩) := by
        intro h
        apply hlk
        apply Fin.ext
        rw [← hk, ← h, BitVec.toNat_ofNat]
        have := l.isLt
        omega
      show (if BitVec.ofBool (BitVec.ofNat 32 l.val == v88 (ix2 r ⟨cn, hc⟩)) = 1#1 then v2 (ix2 r l) else 0) = 0
      rw [beq_eq_false_iff_ne.mpr hw]
      exact if_neg (by decide)
  rw [Finset.sum_congr rfl (fun l _ => hterm l)]
  exact LibExtReal.sum_ite_eq_single k (fun l => v2 (ix2 r l))

theorem iota_lane (r : Fin 1024) (l : Fin 256) :
    iota .tc S1024x256 32 [1] iota_S1024x256_d1_w32 (ix2 r l) = BitVec.ofNat 32 l.val :=
  iota_single_apply .tc S1024x256 32 1 iota_S1024x256_d1_w32 (ix2 r l)

section Columns

variable (v2 : Vec Ideal S1024x256 .f32) (v8 : IVec S1024x1 32)

theorem col0 (r : Fin 1024) (k : Fin 256) (hk : (k0_pay26 v8 (ix2 r 0)).toNat = k.val) :
    k0_pay27 (F := Ideal) v2 v8 (ix2 r 0) = v2 (ix2 r k) :=
  gathered_col v2 (k0_pay26 v8) _ iota_lane 0 (by decide) slices_S1024x44_o0_0_S1024x1 rfl r k hk

theorem col1 (r : Fin 1024) (k : Fin 256) (hk : (k0_pay26 v8 (ix2 r 1)).toNat = k.val) :
    k0_pay29 (F := Ideal) (k0_pay28 v2 v8) (ix2 r 0) = v2 (ix2 r k) :=
  gathered_col v2 (k0_pay26 v8) _ iota_lane 1 (by decide) slices_S1024x44_o0_1_S1024x1 rfl r k hk

variable (v88 : IVec S1024x44 32) (v89 : IVec S1024x256 32)
  (h89 : ∀ (r : Fin 1024) (l : Fin 256), v89 (ix2 r l) = BitVec.ofNat 32 l.val)
include h89

theorem col2 (r : Fin 1024) (k : Fin 256) (hk : (v88 (ix2 r 2)).toNat = k.val) :
    k0_pay30 (F := Ideal) v2 v88 v89 (ix2 r 0) = v2 (ix2 r k) :=
  gathered_col v2 v88 v89 h89 2 (by decide) slices_S1024x44_o0_2_S1024x1 rfl r k hk

theorem col3 (r : Fin 1024) (k : Fin 256) (hk : (v88 (ix2 r 3)).toNat = k.val) :
    k0_pay31 (F := Ideal) v2 v88 v89 (ix2 r 0) = v2 (ix2 r k) :=
  gathered_col v2 v88 v89 h89 3 (by decide) slices_S1024x44_o0_3_S1024x1 rfl r k hk

theorem col4 (r : Fin 1024) (k : Fin 256) (hk : (v88 (ix2 r 4)).toNat = k.val) :
    k0_pay32 (F := Ideal) v2 v88 v89 (ix2 r 0) = v2 (ix2 r k) :=
  gathered_col v2 v88 v89 h89 4 (by decide) slices_S1024x44_o0_4_S1024x1 rfl r k hk

theorem col5 (r : Fin 1024) (k : Fin 256) (hk : (v88 (ix2 r 5)).toNat = k.val) :
    k0_pay33 (F := Ideal) v2 v88 v89 (ix2 r 0) = v2 (ix2 r k) :=
  gathered_col v2 v88 v89 h89 5 (by decide) slices_S1024x44_o0_5_S1024x1 rfl r k hk

theorem col6 (r : Fin 1024) (k : Fin 256) (hk : (v88 (ix2 r 6)).toNat = k.val) :
    k0_pay34 (F := Ideal) v2 v88 v89 (ix2 r 0) = v2 (ix2 r k) :=
  gathered_col v2 v88 v89 h89 6 (by decide) slices_S1024x44_o0_6_S1024x1 rfl r k hk

theorem col7 (r : Fin 1024) (k : Fin 256) (hk : (v88 (ix2 r 7)).toNat = k.val) :
    k0_pay35 (F := Ideal) v2 v88 v89 (ix2 r 0) = v2 (ix2 r k) :=
  gathered_col v2 v88 v89 h89 7 (by decide) slices_S1024x44_o0_7_S1024x1 rfl r k hk

theorem col8 (r : Fin 1024) (k : Fin 256) (hk : (v88 (ix2 r 8)).toNat = k.val) :
    k0_pay37 (F := Ideal) v2 (k0_pay36 v88 v89) (ix2 r 0) = v2 (ix2 r k) :=
  gathered_col v2 v88 v89 h89 8 (by decide) slices_S1024x44_o0_8_S1024x1 rfl r k hk

theorem col9 (r : Fin 1024) (k : Fin 256) (hk : (v88 (ix2 r 9)).toNat = k.val) :
    k0_pay38 (F := Ideal) v2 v88 v89 (ix2 r 0) = v2 (ix2 r k) :=
  gathered_col v2 v88 v89 h89 9 (by decide) slices_S1024x44_o0_9_S1024x1 rfl r k hk

theorem col10 (r : Fin 1024) (k : Fin 256) (hk : (v88 (ix2 r 10)).toNat = k.val) :
    k0_pay39 (F := Ideal) v2 v88 v89 (ix2 r 0) = v2 (ix2 r k) :=
  gathered_col v2 v88 v89 h89 10 (by decide) slices_S1024x44_o0_10_S1024x1 rfl r k hk

theorem col11 (r : Fin 1024) (k : Fin 256) (hk : (v88 (ix2 r 11)).toNat = k.val) :
    k0_pay40 (F := Ideal) v2 v88 v89 (ix2 r 0) = v2 (ix2 r k) :=
  gathered_col v2 v88 v89 h89 11 (by decide) slices_S1024x44_o0_11_S1024x1 rfl r k hk

theorem col12 (r : Fin 1024) (k : Fin 256) (hk : (v88 (ix2 r 12)).toNat = k.val) :
    k0_pay41 (F := Ideal) v2 v88 v89 (ix2 r 0) = v2 (ix2 r k) :=
  gathered_col v2 v88 v89 h89 12 (by decide) slices_S1024x44_o0_12_S1024x1 rfl r k hk

theorem col13 (r : Fin 1024) (k : Fin 256) (hk : (v88 (ix2 r 13)).toNat = k.val) :
    k0_pay42 (F := Ideal) v2 v88 v89 (ix2 r 0) = v2 (ix2 r k) :=
  gathered_col v2 v88 v89 h89 13 (by decide) slices_S1024x44_o0_13_S1024x1 rfl r k hk

theorem col14 (r : Fin 1024) (k : Fin 256) (hk : (v88 (ix2 r 14)).toNat = k.val) :
    k0_pay43 (F := Ideal) v2 v88 v89 (ix2 r 0) = v2 (ix2 r k) :=
  gathered_col v2 v88 v89 h89 14 (by decide) slices_S1024x44_o0_14_S1024x1 rfl r k hk

theorem col15 (r : Fin 1024) (k : Fin 256) (hk : (v88 (ix2 r 15)).toNat = k.val) :
    k0_pay44 (F := Ideal) v2 v88 v89 (ix2 r 0) = v2 (ix2 r k) :=
  gathered_col v2 v88 v89 h89 15 (by decide) slices_S1024x44_o0_15_S1024x1 rfl r k hk

theorem col16 (r : Fin 1024) (k : Fin 256) (hk : (v88 (ix2 r 16)).toNat = k.val) :
    k0_pay45 (F := Ideal) v2 v88 v89 (ix2 r 0) = v2 (ix2 r k) :=
  gathered_col v2 v88 v89 h89 16 (by decide) slices_S1024x44_o0_16_S1024x1 rfl r k hk

theorem col17 (r : Fin 1024) (k : Fin 256) (hk : (v88 (ix2 r 17)).toNat = k.val) :
    k0_pay46 (F := Ideal) v2 v88 v89 (ix2 r 0) = v2 (ix2 r k) :=
  gathered_col v2 v88 v89 h89 17 (by decide) slices_S1024x44_o0_17_S1024x1 rfl r k hk

theorem col18 (r : Fin 1024) (k : Fin 256) (hk : (v88 (ix2 r 18)).toNat = k.val) :
    k0_pay47 (F := Ideal) v2 v88 v89 (ix2 r 0) = v2 (ix2 r k) :=
  gathered_col v2 v88 v89 h89 18 (by decide) slices_S1024x44_o0_18_S1024x1 rfl r k hk

theorem col19 (r : Fin 1024) (k : Fin 256) (hk : (v88 (ix2 r 19)).toNat = k.val) :
    k0_pay48 (F := Ideal) v2 v88 v89 (ix2 r 0) = v2 (ix2 r k) :=
  gathered_col v2 v88 v89 h89 19 (by decide) slices_S1024x44_o0_19_S1024x1 rfl r k hk

theorem col20 (r : Fin 1024) (k : Fin 256) (hk : (v88 (ix2 r 20)).toNat = k.val) :
    k0_pay49 (F := Ideal) v2 v88 v89 (ix2 r 0) = v2 (ix2 r k) :=
  gathered_col v2 v88 v89 h89 20 (by decide) slices_S1024x44_o0_20_S1024x1 rfl r k hk

theorem col21 (r : Fin 1024) (k : Fin 256) (hk : (v88 (ix2 r 21)).toNat = k.val) :
    k0_pay51 (F := Ideal) (k0_pay50 v2 v88 v89) (ix2 r 0) = v2 (ix2 r k) :=
  gathered_col v2 v88 v89 h89 21 (by decide) slices_S1024x44_o0_21_S1024x1 rfl r k hk

theorem col22 (r : Fin 1024) (k : Fin 256) (hk : (v88 (ix2 r 22)).toNat = k.val) :
    k0_pay52 (F := Ideal) v2 v88 v89 (ix2 r 0) = v2 (ix2 r k) :=
  gathered_col v2 v88 v89 h89 22 (by decide) slices_S1024x44_o0_22_S1024x1 rfl r k hk

theorem col23 (r : Fin 1024) (k : Fin 256) (hk : (v88 (ix2 r 23)).toNat = k.val) :
    k0_pay53 (F := Ideal) v2 v88 v89 (ix2 r 0) = v2 (ix2 r k) :=
  gathered_col v2 v88 v89 h89 23 (by decide) slices_S1024x44_o0_23_S1024x1 rfl r k hk

theorem col24 (r : Fin 1024) (k : Fin 256) (hk : (v88 (ix2 r 24)).toNat = k.val) :
    k0_pay54 (F := Ideal) v2 v88 v89 (ix2 r 0) = v2 (ix2 r k) :=
  gathered_col v2 v88 v89 h89 24 (by decide) slices_S1024x44_o0_24_S1024x1 rfl r k hk

theorem col25 (r : Fin 1024) (k : Fin 256) (hk : (v88 (ix2 r 25)).toNat = k.val) :
    k0_pay55 (F := Ideal) v2 v88 v89 (ix2 r 0) = v2 (ix2 r k) :=
  gathered_col v2 v88 v89 h89 25 (by decide) slices_S1024x44_o0_25_S1024x1 rfl r k hk

theorem col26 (r : Fin 1024) (k : Fin 256) (hk : (v88 (ix2 r 26)).toNat = k.val) :
    k0_pay56 (F := Ideal) v2 v88 v89 (ix2 r 0) = v2 (ix2 r k) :=
  gathered_col v2 v88 v89 h89 26 (by decide) slices_S1024x44_o0_26_S1024x1 rfl r k hk

theorem col27 (r : Fin 1024) (k : Fin 256) (hk : (v88 (ix2 r 27)).toNat = k.val) :
    k0_pay57 (F := Ideal) v2 v88 v89 (ix2 r 0) = v2 (ix2 r k) :=
  gathered_col v2 v88 v89 h89 27 (by decide) slices_S1024x44_o0_27_S1024x1 rfl r k hk

theorem col28 (r : Fin 1024) (k : Fin 256) (hk : (v88 (ix2 r 28)).toNat = k.val) :
    k0_pay59 (F := Ideal) v2 (k0_pay58 v88 v89) (ix2 r 0) = v2 (ix2 r k) :=
  gathered_col v2 v88 v89 h89 28 (by decide) slices_S1024x44_o0_28_S1024x1 rfl r k hk

theorem col29 (r : Fin 1024) (k : Fin 256) (hk : (v88 (ix2 r 29)).toNat = k.val) :
    k0_pay60 (F := Ideal) v2 v88 v89 (ix2 r 0) = v2 (ix2 r k) :=
  gathered_col v2 v88 v89 h89 29 (by decide) slices_S1024x44_o0_29_S1024x1 rfl r k hk

theorem col30 (r : Fin 1024) (k : Fin 256) (hk : (v88 (ix2 r 30)).toNat = k.val) :
    k0_pay61 (F := Ideal) v2 v88 v89 (ix2 r 0) = v2 (ix2 r k) :=
  gathered_col v2 v88 v89 h89 30 (by decide) slices_S1024x44_o0_30_S1024x1 rfl r k hk

theorem col31 (r : Fin 1024) (k : Fin 256) (hk : (v88 (ix2 r 31)).toNat = k.val) :
    k0_pay62 (F := Ideal) v2 v88 v89 (ix2 r 0) = v2 (ix2 r k) :=
  gathered_col v2 v88 v89 h89 31 (by decide) slices_S1024x44_o0_31_S1024x1 rfl r k hk

theorem col32 (r : Fin 1024) (k : Fin 256) (hk : (v88 (ix2 r 32)).toNat = k.val) :
    k0_pay63 (F := Ideal) v2 v88 v89 (ix2 r 0) = v2 (ix2 r k) :=
  gathered_col v2 v88 v89 h89 32 (by decide) slices_S1024x44_o0_32_S1024x1 rfl r k hk

theorem col33 (r : Fin 1024) (k : Fin 256) (hk : (v88 (ix2 r 33)).toNat = k.val) :
    k0_pay64 (F := Ideal) v2 v88 v89 (ix2 r 0) = v2 (ix2 r k) :=
  gathered_col v2 v88 v89 h89 33 (by decide) slices_S1024x44_o0_33_S1024x1 rfl r k hk

theorem col34 (r : Fin 1024) (k : Fin 256) (hk : (v88 (ix2 r 34)).toNat = k.val) :
    k0_pay65 (F := Ideal) v2 v88 v89 (ix2 r 0) = v2 (ix2 r k) :=
  gathered_col v2 v88 v89 h89 34 (by decide) slices_S1024x44_o0_34_S1024x1 rfl r k hk

theorem col35 (r : Fin 1024) (k : Fin 256) (hk : (v88 (ix2 r 35)).toNat = k.val) :
    k0_pay66 (F := Ideal) v2 v88 v89 (ix2 r 0) = v2 (ix2 r k) :=
  gathered_col v2 v88 v89 h89 35 (by decide) slices_S1024x44_o0_35_S1024x1 rfl r k hk

theorem col36 (r : Fin 1024) (k : Fin 256) (hk : (v88 (ix2 r 36)).toNat = k.val) :
    k0_pay67 (F := Ideal) v2 v88 v89 (ix2 r 0) = v2 (ix2 r k) :=
  gathered_col v2 v88 v89 h89 36 (by decide) slices_S1024x44_o0_36_S1024x1 rfl r k hk

theorem col37 (r : Fin 1024) (k : Fin 256) (hk : (v88 (ix2 r 37)).toNat = k.val) :
    k0_pay68 (F := Ideal) v2 v88 v89 (ix2 r 0) = v2 (ix2 r k) :=
  gathered_col v2 v88 v89 h89 37 (by decide) slices_S1024x44_o0_37_S1024x1 rfl r k hk

theorem col38 (r : Fin 1024) (k : Fin 256) (hk : (v88 (ix2 r 38)).toNat = k.val) :
    k0_pay69 (F := Ideal) v2 v88 v89 (ix2 r 0) = v2 (ix2 r k) :=
  gathered_col v2 v88 v89 h89 38 (by decide) slices_S1024x44_o0_38_S1024x1 rfl r k hk

theorem col39 (r : Fin 1024) (k : Fin 256) (hk : (v88 (ix2 r 39)).toNat = k.val) :
    k0_pay70 (F := Ideal) v2 v88 v89 (ix2 r 0) = v2 (ix2 r k) :=
  gathered_col v2 v88 v89 h89 39 (by decide) slices_S1024x44_o0_39_S1024x1 rfl r k hk

theorem col40 (r : Fin 1024) (k : Fin 256) (hk : (v88 (ix2 r 40)).toNat = k.val) :
    k0_pay71 (F := Ideal) v2 v88 v89 (ix2 r 0) = v2 (ix2 r k) :=
  gathered_col v2 v88 v89 h89 40 (by decide) slices_S1024x44_o0_40_S1024x1 rfl r k hk

end Columns

end Cert.Bridge.Gather
-- ==== Proof.StageGatherRef.lean ====
import proofs.«401269_j23398981829052_3_alg».proof.Proof.RefRead
import proofs.«401269_j23398981829052_3_alg».proof.Proof.LibExtReal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.Bridge.GatherRef

open Idealize.ShloMosaic Idealize.ShloMosaic.ValueIdx Cert.ReferenceIdeal Cert.ReferenceIdeal.Gen Cert.ReferenceIdeal.Read

theorem clamp_bounds (y : BitVec 32) :
    0 ≤ (IntOp.minsi 255#32 (IntOp.maxsi 0#32 y)).toInt ∧ (IntOp.minsi 255#32 (IntOp.maxsi 0#32 y)).toInt ≤ 255 := by
  have h0 : (0#32 : BitVec 32).toInt = 0 := by decide
  have h255 : (255#32 : BitVec 32).toInt = 255 := by decide
  unfold IntOp.minsi IntOp.maxsi
  simp only [BitVec.slt, decide_eq_true_eq, h0, h255]
  split_ifs <;> omega

theorem gather_row_apply {α : Type} (x : S65536x256.Idx → α) (idx : IVec S65536x44x1 32) (i : Fin 65536) (j : Fin 44) :
    Host.gather gather_S65536x256_S65536x44x1_S65536x44_n_1_0_0_1_2_11 x idx (ix2 i j)
      = x (ix2 i ⟨min (idx (ix3 i j 0)).toInt.toNat 255, by omega⟩) := by
  unfold Host.gather
  congr 1
  funext a
  refine Fin.ext ?_
  match a with
  | ⟨0, _⟩ =>
    show gather_S65536x256_S65536x44x1_S65536x44_n_1_0_0_1_2_11.start (ix2 i j) idx 0
      + gather_S65536x256_S65536x44x1_S65536x44_n_1_0_0_1_2_11.batchCoord (ix2 i j) 0
      + gather_S65536x256_S65536x44x1_S65536x44_n_1_0_0_1_2_11.offCoord (ix2 i j) 0 = i.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S65536x256_S65536x44x1_S65536x44_n_1_0_0_1_2_11.operandBatchingDims from
      List.mem_singleton.mpr rfl)]
    simp only [Nat.zero_add, Nat.add_zero]
    rfl
  | ⟨1, _⟩ =>
    show gather_S65536x256_S65536x44x1_S65536x44_n_1_0_0_1_2_11.start (ix2 i j) idx 1
      + gather_S65536x256_S65536x44x1_S65536x44_n_1_0_0_1_2_11.batchCoord (ix2 i j) 1
      + gather_S65536x256_S65536x44x1_S65536x44_n_1_0_0_1_2_11.offCoord (ix2 i j) 1 = min (idx (ix3 i j 0)).toInt.toNat 255
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S65536x256_S65536x44x1_S65536x44_n_1_0_0_1_2_11.startIndexMap from List.mem_singleton.mpr rfl)]
    have hsi : gather_S65536x256_S65536x44x1_S65536x44_n_1_0_0_1_2_11.siIdx (ix2 i j)
        ⟨List.idxOf (1 : Fin 2) gather_S65536x256_S65536x44x1_S65536x44_n_1_0_0_1_2_11.startIndexMap,
          List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl

theorem gather_row_apply_of {α : Type} (x : S65536x256.Idx → α) (idx : IVec S65536x44x1 32) (i : Fin 65536) (j : Fin 44)
    (k : Fin 256) (hk : min (idx (ix3 i j 0)).toInt.toNat 255 = k.val) :
    Host.gather gather_S65536x256_S65536x44x1_S65536x44_n_1_0_0_1_2_11 x idx (ix2 i j) = x (ix2 i k) :=
  (gather_row_apply x idx i j).trans (congrArg (fun c => x (ix2 i c)) (Fin.ext hk))

theorem reduces_mask : Cert.ReferenceIdeal.S65536x44x1.Reduces [2] Cert.ReferenceIdeal.S65536x44 := by decide

theorem fold_fin_one {β : Type} (op : β → β → β) [Std.Commutative op] [Std.Associative op] (b : β) (f : Fin 1 → β) :
    (Finset.univ : Finset (Fin 1)).fold op b f = op (f 0) b := by
  rw [Finset.univ_unique, Finset.fold_singleton]
  rfl

theorem toNat_of_bounds (w : BitVec 32) (h0 : 0 ≤ w.toInt) (h1 : w.toInt ≤ 255) :
    w.toInt.toNat = w.toNat ∧ w.toNat ≤ 255 := by
  have hlt := w.isLt
  rw [BitVec.toInt_eq_toNat_cond] at h0 h1 ⊢
  split_ifs at h0 h1 ⊢ <;> omega

section Take

variable (x2 : (⟨Cert.ReferenceIdeal.S65536x256, .f32⟩ : BufTy).Contents (Elt Ideal))
  (x7 : (⟨Cert.ReferenceIdeal.S65536, .i32⟩ : BufTy).Contents (Elt Ideal))

theorem idx_clamp (i : Cert.ReferenceIdeal.S65536x44.Idx) :
    val_main_v33 (F := Ideal) x7 i = IntOp.minsi 255#32 (IntOp.maxsi 0#32 (val_main_v32 (F := Ideal) x7 i)) := by
  rw [val_main_v33_apply, val_main_call1_v4_apply, val_main_call1_v3_apply, val_main_c_8_apply, val_main_call1_v2_apply,
    val_main_call1_v1_apply, val_main_call1_v0_apply, val_main_c_7_apply]

theorem idx_bounds (i : Cert.ReferenceIdeal.S65536x44.Idx) :
    0 ≤ (val_main_v33 (F := Ideal) x7 i).toInt ∧ (val_main_v33 (F := Ideal) x7 i).toInt ≤ 255 := by
  rw [idx_clamp]; exact clamp_bounds _

theorem idx_toNat_lt (i : Cert.ReferenceIdeal.S65536x44.Idx) : (val_main_v33 (F := Ideal) x7 i).toNat < 256 := by
  have h := idx_bounds x7 i
  have := (toNat_of_bounds _ h.1 h.2).2
  omega

theorem take_apply (i : Fin 65536) (j : Fin 44) (k : Fin 256)
    (hk : (val_main_v33 (F := Ideal) x7 (ix2 i j)).toNat = k.val) :
    val_main_v34 (F := Ideal) x2 x7 (ix2 i j) = x2 (ix2 i k) := by
  obtain ⟨hlo, hhi⟩ := idx_bounds x7 (ix2 i j)
  obtain ⟨hnat, hle⟩ := toNat_of_bounds _ hlo hhi
  generalize hw : val_main_v33 (F := Ideal) x7 (ix2 i j) = w at hk hlo hhi hnat hle
  have h0 : (0#32 : BitVec 32).toInt = 0 := by decide
  have h255 : (255#32 : BitVec 32).toInt = 255 := by decide
  have h4 : val_main_call2_v4 (F := Ideal) x7 (ix2 i j) = w := by
    rw [val_main_call2_v4_apply, val_main_call2_v1_apply, val_main_call2_v0_apply, val_main_call2_c_apply, hw]
    have hc : IntOp.cmpi .slt w 0#32 = 0#1 := by
      show BitVec.ofBool (w.slt 0#32) = 0#1
      rw [BitVec.slt, h0, decide_eq_false (by omega)]
      rfl
    rw [hc, select_zero]
  have h5 : val_main_call2_v5 (F := Ideal) x7 (ix3 i j 0) = w := by
    rw [val_main_call2_v5_apply]
    have hidx : idx_main_call2_v5 (ix3 i j 0) = ix2 i j := by
      funext a
      refine Fin.ext ?_
      have hj := j.isLt
      match a with
      | ⟨0, _⟩ => show ((i.val * 44 + j.val) * 1 + 0) / 44 = i.val; omega
      | ⟨1, _⟩ => show ((i.val * 44 + j.val) * 1 + 0) % 44 = j.val; omega
    rw [hidx, h4]
  have h11 : val_main_call2_v11 (F := Ideal) x7 (ix3 i j 0) = 1#1 := by
    rw [val_main_call2_v11_apply, val_main_call2_v7_apply, val_main_call2_v10_apply, h5, val_main_call2_v6_apply,
      val_main_call2_c_2_apply, val_main_call2_v9_apply, val_main_call2_v8_apply, val_main_call2_c_1_apply]
    have h7 : IntOp.cmpi .sge w 0#32 = 1#1 := by
      show BitVec.ofBool ((0#32 : BitVec 32).sle w) = 1#1
      rw [BitVec.sle, h0, decide_eq_true (by omega)]
      rfl
    have h10 : IntOp.cmpi .sle w 255#32 = 1#1 := by
      show BitVec.ofBool (w.sle 255#32) = 1#1
      rw [BitVec.sle, h255, decide_eq_true (by omega)]
      rfl
    rw [h7, h10]
    rfl
  have h12 : val_main_call2_v12 (F := Ideal) x7 (ix2 i j) = 1#1 := by
    unfold val_main_call2_v12
    rw [Host.reduce_eq_fold_single IntOp.andi _ _ reducesTo_S65536x44x1_S65536x44_d2
      reduces_mask h_S_ (ix2 i j)]
    refine (fold_fin_one IntOp.andi _ _).trans ?_
    have hl : reduces_mask.lift (ix2 i j) (0 : Fin 1) = ix3 i j 0 := by
      funext a
      refine Fin.ext ?_
      match a with
      | ⟨0, _⟩ => rfl
      | ⟨1, _⟩ => rfl
      | ⟨2, _⟩ => rfl
    show IntOp.andi (val_main_call2_v11 (F := Ideal) x7 _) _ = _
    rw [hl, h11, val_main_call2_c_3_apply]
    rfl
  have h13 : val_main_call2_v13 (F := Ideal) x2 x7 (ix2 i j) = x2 (ix2 i k) := by
    unfold val_main_call2_v13
    refine gather_row_apply_of x2 _ i j k ?_
    rw [h5]
    omega
  rw [val_main_v34_apply, h12, h13, select_one]

end Take

theorem eps_pos : (0 : EReal) < Ideal.ofBits .f32 0x3727C5AC#32 := by
  simp [Ideal.ofBits, Ideal.ieee]
  norm_cast
  positivity

theorem gain_lo_pos : (0 : EReal) < Ideal.ofBits .f32 0x3A83126F#32 := by
  simp [Ideal.ofBits, Ideal.ieee]
  norm_cast
  positivity

theorem gain_hi_pos : (0 : EReal) < Ideal.ofBits .f32 0x41A00000#32 := by
  simp [Ideal.ofBits, Ideal.ieee]
  norm_cast
  positivity

section Gain

variable (x0 : (⟨Cert.ReferenceIdeal.S65536x80, .f32⟩ : BufTy).Contents (Elt Ideal))
  (x2 : (⟨Cert.ReferenceIdeal.S65536x256, .f32⟩ : BufTy).Contents (Elt Ideal))
  (x7 : (⟨Cert.ReferenceIdeal.S65536, .i32⟩ : BufTy).Contents (Elt Ideal))
  (x8 : (⟨Cert.ReferenceIdeal.S1x80, .f32⟩ : BufTy).Contents (Elt Ideal))
  (x9 : (⟨Cert.ReferenceIdeal.S1, .f32⟩ : BufTy).Contents (Elt Ideal))

theorem gain_pos (i : Cert.ReferenceIdeal.S65536x1.Idx) : (0 : EReal) < val_main_v15 (F := Ideal) x0 x8 x9 i := by
  rw [val_main_v15_apply, val_main_call0_v4_apply, val_main_call0_v3_apply, val_main_cst_4_apply, val_main_call0_v2_apply,
    val_main_call0_v1_apply, val_main_call0_v0_apply, val_main_cst_3_apply]
  show (0 : EReal) < min (Ideal.ofBits .f32 0x41A00000#32) (max (Ideal.ofBits .f32 0x3A83126F#32) _)
  exact lt_min gain_hi_pos (lt_max_of_lt_left gain_lo_pos)

theorem den_pos (i : Cert.ReferenceIdeal.S65536x1.Idx) :
    (0 : EReal) < Ideal.ofBits .f32 0x3727C5AC#32 + val_main_v15 (F := Ideal) x0 x8 x9 i :=
  EReal.add_pos eps_pos (gain_pos x0 x8 x9 i)

theorem den_ne_zero (i : Cert.ReferenceIdeal.S65536x1.Idx) :
    Ideal.ofBits .f32 0x3727C5AC#32 + val_main_v15 (F := Ideal) x0 x8 x9 i ≠ (0 : EReal) :=
  ne_of_gt (den_pos x0 x8 x9 i)

theorem den44_apply (i : Fin 65536) (n : Fin 44) :
    val_main_v37 (F := Ideal) x0 x8 x9 (ix2 i n)
      = Ideal.ofBits .f32 0x3727C5AC#32 + val_main_v15 (F := Ideal) x0 x8 x9 (ix2 i 0) := by
  rw [val_main_v37_apply]
  have hidx : idx_main_v37 (ix2 i n) = ix2 i 0 := by
    funext a
    refine Fin.ext ?_
    match a with
    | ⟨0, _⟩ => rfl
    | ⟨1, _⟩ => rfl
  rw [hidx, val_main_v36_apply, val_main_v35_apply, val_main_cst_9_apply]
  rfl

theorem den40_apply (i : Fin 65536) (n : Fin 40) :
    val_main_v42 (F := Ideal) x0 x8 x9 (ix2 i n)
      = Ideal.ofBits .f32 0x3727C5AC#32 + val_main_v15 (F := Ideal) x0 x8 x9 (ix2 i 0) := by
  rw [val_main_v42_apply]
  have hidx : idx_main_v42 (ix2 i n) = ix2 i 0 := by
    funext a
    refine Fin.ext ?_
    match a with
    | ⟨0, _⟩ => rfl
    | ⟨1, _⟩ => rfl
  rw [hidx, val_main_v41_apply, val_main_v40_apply, val_main_cst_10_apply]
  rfl

theorem pred_ref (i : Fin 65536) (n : Fin 44) (k : Fin 256)
    (hk : (val_main_v33 (F := Ideal) x7 (ix2 i n)).toNat = k.val) :
    val_main_v38 (F := Ideal) x0 x2 x7 x8 x9 (ix2 i n)
      = Ideal.div (x2 (ix2 i k)) (Ideal.ofBits .f32 0x3727C5AC#32 + val_main_v15 (F := Ideal) x0 x8 x9 (ix2 i 0)) := by
  rw [val_main_v38_apply, take_apply x2 x7 i n k hk, den44_apply]
  rfl

theorem prev_ref (i : Fin 65536) (n : Fin 40) (c : Fin 256) (hc : c.val = 216 + n.val) :
    val_main_v43 (F := Ideal) x0 x2 x8 x9 (ix2 i n)
      = Ideal.div (x2 (ix2 i c)) (Ideal.ofBits .f32 0x3727C5AC#32 + val_main_v15 (F := Ideal) x0 x8 x9 (ix2 i 0)) := by
  rw [val_main_v43_apply, val_main_v39_apply, den40_apply]
  have hidx : idx_main_v39 (ix2 i n) = ix2 i c := by
    funext a
    refine Fin.ext ?_
    match a with
    | ⟨0, _⟩ => rfl
    | ⟨1, _⟩ => show 216 + n.val = c.val; omega
  rw [hidx]
  rfl

end Gain

end Cert.Bridge.GatherRef
-- ==== Proof.StageGather.lean ====
import proofs.«401269_j23398981829052_3_alg».proof.Proof.Gen.KernelIdeal.Skeleton
import proofs.«401269_j23398981829052_3_alg».proof.Proof.RefRead
import proofs.«401269_j23398981829052_3_alg».proof.Proof.LibExtReal
import proofs.«401269_j23398981829052_3_alg».proof.Proof.StageGatherCols
import proofs.«401269_j23398981829052_3_alg».proof.Proof.StageGatherRef
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.Bridge.Gather

open Idealize.ShloMosaic Idealize.ShloMosaic.ValueIdx Cert.KernelIdeal Cert.KernelIdeal.Gen Cert.ReferenceIdeal.Read

theorem cat44_apply {α : Type} (f : Fin 44 → (S1024x1.Idx → α))
    (h : Shape.Concatenates ((List.ofFn fun m : Fin 44 => (⟨S1024x1, f m⟩ : (s : Shape) × (s.Idx → α))).map (·.1)) S1024x44 1)
    (r : Fin 1024) (n : Fin 44) :
    concatenate S1024x44 1 (List.ofFn fun m : Fin 44 => (⟨S1024x1, f m⟩ : (s : Shape) × (s.Idx → α))) h (ix2 r n)
      = f n (ix2 r 0) := by
  refine concatenate_ofFn_unit_apply (t := S1024x44) (s₁ := S1024x1) (1 : Fin 2) f h rfl rfl (ix2 r n) n rfl (ix2 r 0) ?_
  intro b hb
  match b with
  | ⟨0, _⟩ => rfl
  | ⟨1, _⟩ => exact absurd rfl hb

theorem cat3_apply {α : Type} {R : Nat} (a : (⟨2, ![R, 80]⟩ : Shape).Idx → α) (b : (⟨2, ![R, 44]⟩ : Shape).Idx → α)
    (c : (⟨2, ![R, 40]⟩ : Shape).Idx → α)
    (h : Shape.Concatenates (([⟨⟨2, ![R, 80]⟩, a⟩, ⟨⟨2, ![R, 44]⟩, b⟩, ⟨⟨2, ![R, 40]⟩, c⟩] :
      List ((s : Shape) × (s.Idx → α))).map (·.1)) ⟨2, ![R, 164]⟩ 1)
    (r : Fin R) (n : Fin 164) :
    concatenate ⟨2, ![R, 164]⟩ 1 [⟨⟨2, ![R, 80]⟩, a⟩, ⟨⟨2, ![R, 44]⟩, b⟩, ⟨⟨2, ![R, 40]⟩, c⟩] h (ix2 r n)
      = if h1 : n.val < 80 then a (ix2 r ⟨n.val, h1⟩)
        else if h2 : n.val < 124 then b (ix2 r ⟨n.val - 80, by omega⟩)
        else c (ix2 r ⟨n.val - 124, by have := n.isLt; omega⟩) := by
  have hn := n.isLt
  by_cases h1 : n.val < 80
  · rw [dif_pos h1]
    refine concatenate_apply_piece (1 : Fin 2) _ h (ix2 r n) 0 (by show (0 : Nat) < 3; omega) _ a rfl rfl 0 rfl (ix2 r ⟨n.val, h1⟩) ?_ ?_
    · intro d hd
      match d with
      | ⟨0, _⟩ => rfl
      | ⟨1, _⟩ => exact absurd rfl hd
    · show 0 + n.val = n.val
      omega
  · rw [dif_neg h1]
    by_cases h2 : n.val < 124
    · rw [dif_pos h2]
      refine concatenate_apply_piece (1 : Fin 2) _ h (ix2 r n) 1 (by show (1 : Nat) < 3; omega) _ b rfl rfl 80 rfl
        (ix2 r ⟨n.val - 80, by omega⟩) ?_ ?_
      · intro d hd
        match d with
        | ⟨0, _⟩ => rfl
        | ⟨1, _⟩ => exact absurd rfl hd
      · show 80 + (n.val - 80) = n.val
        omega
    · rw [dif_neg h2]
      refine concatenate_apply_piece (1 : Fin 2) _ h (ix2 r n) 2 (by show (2 : Nat) < 3; omega) _ c rfl rfl 124 rfl
        (ix2 r ⟨n.val - 124, by omega⟩) ?_ ?_
      · intro d hd
        match d with
        | ⟨0, _⟩ => rfl
        | ⟨1, _⟩ => exact absurd rfl hd
      · show 124 + (n.val - 124) = n.val
        omega

section Kernel

variable (v0 : Vec Ideal S1024x80 .f32) (v2 : Vec Ideal S1024x256 .f32) (v70 : FVec Ideal S1024x1 .f32)
  (v88 : IVec S1024x44 32) (v89 : IVec S1024x256 32)
  (v96 v103 v110 v117 v124 v131 v138 v145 v152 v159 v166 v173 v180 v187 v194 v201 v208 v215 v222 v229 v236 v243 v250 v257
    v264 v271 v278 v285 v292 v299 v306 v313 v320 v327 v334 v341 v348 v355 v362 v369 v376 : FVec Ideal S1024x1 .f32)
  (v381 : Vec Ideal S1024x256 .f32)

theorem recip_apply (r : Fin 1024) :
    k0_pay73 (F := Ideal) v70 (ix2 r 0) = Ideal.div 1 (Ideal.ofBits .f32 0x3727C5AC#32 + v70 (ix2 r 0)) := by
  unfold k0_pay73
  show Ideal.div (Ideal.ofBits .f32 0x3F800000#32) (Ideal.ofBits .f32 0x3727C5AC#32 + v70 (ix2 r 0)) = _
  rw [Ideal.ofBits_one_f32]

theorem recip44_apply (r : Fin 1024) (n : Fin 44) :
    broadcastTo S1024x44 (k0_pay73 (F := Ideal) v70) broadcasts_S1024x1_S1024x44 (ix2 r n)
      = Ideal.div 1 (Ideal.ofBits .f32 0x3727C5AC#32 + v70 (ix2 r 0)) := by
  refine (broadcastTo_apply _ broadcasts_S1024x1_S1024x44 (ix2 r n) (ix2 r 0) ?_).trans (recip_apply v70 r)
  intro a
  match a with
  | ⟨0, _⟩ => rfl
  | ⟨1, _⟩ => rfl

theorem recip40_apply (r : Fin 1024) (n : Fin 40) :
    broadcastTo S1024x40 (k0_pay73 (F := Ideal) v70) broadcasts_S1024x1_S1024x40 (ix2 r n)
      = Ideal.div 1 (Ideal.ofBits .f32 0x3727C5AC#32 + v70 (ix2 r 0)) := by
  refine (broadcastTo_apply _ broadcasts_S1024x1_S1024x40 (ix2 r n) (ix2 r 0) ?_).trans (recip_apply v70 r)
  intro a
  match a with
  | ⟨0, _⟩ => rfl
  | ⟨1, _⟩ => rfl

theorem prev_kernel (r : Fin 1024) (n : Fin 40) (c : Fin 256) (hc : c.val = 216 + n.val) :
    k0_pay75 (F := Ideal) v2 v70 (ix2 r n)
      = v2 (ix2 r c) * Ideal.div 1 (Ideal.ofBits .f32 0x3727C5AC#32 + v70 (ix2 r 0)) := by
  unfold k0_pay75
  show extractStridedSlice S1024x40 ![0, 216] v2 slices_S1024x256_o0_216_S1024x40 (ix2 r n)
    * broadcastTo S1024x40 (k0_pay73 (F := Ideal) v70) broadcasts_S1024x1_S1024x40 (ix2 r n) = _
  rw [recip40_apply]
  refine congrArg (· * _) ?_
  refine extractStridedSlice_apply ![0, 216] v2 slices_S1024x256_o0_216_S1024x40 (ix2 r n) (ix2 r c) ?_
  intro a
  match a with
  | ⟨0, _⟩ => show r.val = 0 + r.val; omega
  | ⟨1, _⟩ => show c.val = 216 + n.val; exact hc

end Kernel

section KernelPred

variable (v2 : Vec Ideal S1024x256 .f32) (v70 : FVec Ideal S1024x1 .f32)
  (v88 : IVec S1024x44 32) (v89 : IVec S1024x256 32)
  (v96 v103 v110 v117 v124 v131 v138 v145 v152 v159 v166 v173 v180 v187 v194 v201 v208 v215 v222 v229 v236 v243 v250 v257
    v264 v271 v278 v285 v292 v299 v306 v313 v320 v327 v334 v341 v348 v355 v362 v369 v376 : FVec Ideal S1024x1 .f32)
  (v381 : Vec Ideal S1024x256 .f32)

def cols44 : Fin 44 → FVec Ideal S1024x1 .f32 :=
  ![v96, v103, v110, v117, v124, v131, v138, v145, v152, v159, v166, v173, v180, v187, v194, v201, v208, v215, v222, v229,
    v236, v243, v250, v257, v264, v271, v278, v285, v292, v299, v306, v313, v320, v327, v334, v341, v348, v355, v362, v369,
    v376,
    shapeCast S1024x1 (multiReduction (F := Ideal) .add [1] S1024 v381 0x00000000#32 reduces_S1024x256_S1024 (.inl rfl) rfl)
      shapeCasts_S1024_S1024x1,
    shapeCast S1024x1 (multiReduction (F := Ideal) .add [1] S1024
      (select (cmpi .eq v89 (broadcastTo S1024x256 (extractStridedSlice S1024x1 ![0, 42] v88 slices_S1024x44_o0_42_S1024x1)
        broadcasts_S1024x1_S1024x256)) v2 (broadcast S1024x256 (Scalar.ofBits (F := Ideal) .f32 0x00000000#32)))
      0x00000000#32 reduces_S1024x256_S1024 (.inl rfl) rfl) shapeCasts_S1024_S1024x1,
    shapeCast S1024x1 (multiReduction (F := Ideal) .add [1] S1024
      (select (cmpi .eq v89 (broadcastTo S1024x256 (extractStridedSlice S1024x1 ![0, 43] v88 slices_S1024x44_o0_43_S1024x1)
        broadcasts_S1024x1_S1024x256)) v2 (broadcast S1024x256 (Scalar.ofBits (F := Ideal) .f32 0x00000000#32)))
      0x00000000#32 reduces_S1024x256_S1024 (.inl rfl) rfl) shapeCasts_S1024_S1024x1]

theorem pred_kernel
    (h89 : ∀ (r : Fin 1024) (l : Fin 256), v89 (ix2 r l) = BitVec.ofNat 32 l.val)
    (hc0 : ∀ (r : Fin 1024) (k : Fin 256), (v88 (ix2 r 0)).toNat = k.val → v96 (ix2 r 0) = v2 (ix2 r k))
    (hc1 : ∀ (r : Fin 1024) (k : Fin 256), (v88 (ix2 r 1)).toNat = k.val → v103 (ix2 r 0) = v2 (ix2 r k))
    (hc2 : ∀ (r : Fin 1024) (k : Fin 256), (v88 (ix2 r 2)).toNat = k.val → v110 (ix2 r 0) = v2 (ix2 r k))
    (hc3 : ∀ (r : Fin 1024) (k : Fin 256), (v88 (ix2 r 3)).toNat = k.val → v117 (ix2 r 0) = v2 (ix2 r k))
    (hc4 : ∀ (r : Fin 1024) (k : Fin 256), (v88 (ix2 r 4)).toNat = k.val → v124 (ix2 r 0) = v2 (ix2 r k))
    (hc5 : ∀ (r : Fin 1024) (k : Fin 256), (v88 (ix2 r 5)).toNat = k.val → v131 (ix2 r 0) = v2 (ix2 r k))
    (hc6 : ∀ (r : Fin 1024) (k : Fin 256), (v88 (ix2 r 6)).toNat = k.val → v138 (ix2 r 0) = v2 (ix2 r k))
    (hc7 : ∀ (r : Fin 1024) (k : Fin 256), (v88 (ix2 r 7)).toNat = k.val → v145 (ix2 r 0) = v2 (ix2 r k))
    (hc8 : ∀ (r : Fin 1024) (k : Fin 256), (v88 (ix2 r 8)).toNat = k.val → v152 (ix2 r 0) = v2 (ix2 r k))
    (hc9 : ∀ (r : Fin 1024) (k : Fin 256), (v88 (ix2 r 9)).toNat = k.val → v159 (ix2 r 0) = v2 (ix2 r k))
    (hc10 : ∀ (r : Fin 1024) (k : Fin 256), (v88 (ix2 r 10)).toNat = k.val → v166 (ix2 r 0) = v2 (ix2 r k))
    (hc11 : ∀ (r : Fin 1024) (k : Fin 256), (v88 (ix2 r 11)).toNat = k.val → v173 (ix2 r 0) = v2 (ix2 r k))
    (hc12 : ∀ (r : Fin 1024) (k : Fin 256), (v88 (ix2 r 12)).toNat = k.val → v180 (ix2 r 0) = v2 (ix2 r k))
    (hc13 : ∀ (r : Fin 1024) (k : Fin 256), (v88 (ix2 r 13)).toNat = k.val → v187 (ix2 r 0) = v2 (ix2 r k))
    (hc14 : ∀ (r : Fin 1024) (k : Fin 256), (v88 (ix2 r 14)).toNat = k.val → v194 (ix2 r 0) = v2 (ix2 r k))
    (hc15 : ∀ (r : Fin 1024) (k : Fin 256), (v88 (ix2 r 15)).toNat = k.val → v201 (ix2 r 0) = v2 (ix2 r k))
    (hc16 : ∀ (r : Fin 1024) (k : Fin 256), (v88 (ix2 r 16)).toNat = k.val → v208 (ix2 r 0) = v2 (ix2 r k))
    (hc17 : ∀ (r : Fin 1024) (k : Fin 256), (v88 (ix2 r 17)).toNat = k.val → v215 (ix2 r 0) = v2 (ix2 r k))
    (hc18 : ∀ (r : Fin 1024) (k : Fin 256), (v88 (ix2 r 18)).toNat = k.val → v222 (ix2 r 0) = v2 (ix2 r k))
    (hc19 : ∀ (r : Fin 1024) (k : Fin 256), (v88 (ix2 r 19)).toNat = k.val → v229 (ix2 r 0) = v2 (ix2 r k))
    (hc20 : ∀ (r : Fin 1024) (k : Fin 256), (v88 (ix2 r 20)).toNat = k.val → v236 (ix2 r 0) = v2 (ix2 r k))
    (hc21 : ∀ (r : Fin 1024) (k : Fin 256), (v88 (ix2 r 21)).toNat = k.val → v243 (ix2 r 0) = v2 (ix2 r k))
    (hc22 : ∀ (r : Fin 1024) (k : Fin 256), (v88 (ix2 r 22)).toNat = k.val → v250 (ix2 r 0) = v2 (ix2 r k))
    (hc23 : ∀ (r : Fin 1024) (k : Fin 256), (v88 (ix2 r 23)).toNat = k.val → v257 (ix2 r 0) = v2 (ix2 r k))
    (hc24 : ∀ (r : Fin 1024) (k : Fin 256), (v88 (ix2 r 24)).toNat = k.val → v264 (ix2 r 0) = v2 (ix2 r k))
    (hc25 : ∀ (r : Fin 1024) (k : Fin 256), (v88 (ix2 r 25)).toNat = k.val → v271 (ix2 r 0) = v2 (ix2 r k))
    (hc26 : ∀ (r : Fin 1024) (k : Fin 256), (v88 (ix2 r 26)).toNat = k.val → v278 (ix2 r 0) = v2 (ix2 r k))
    (hc27 : ∀ (r : Fin 1024) (k : Fin 256), (v88 (ix2 r 27)).toNat = k.val → v285 (ix2 r 0) = v2 (ix2 r k))
    (hc28 : ∀ (r : Fin 1024) (k : Fin 256), (v88 (ix2 r 28)).toNat = k.val → v292 (ix2 r 0) = v2 (ix2 r k))
    (hc29 : ∀ (r : Fin 1024) (k : Fin 256), (v88 (ix2 r 29)).toNat = k.val → v299 (ix2 r 0) = v2 (ix2 r k))
    (hc30 : ∀ (r : Fin 1024) (k : Fin 256), (v88 (ix2 r 30)).toNat = k.val → v306 (ix2 r 0) = v2 (ix2 r k))
    (hc31 : ∀ (r : Fin 1024) (k : Fin 256), (v88 (ix2 r 31)).toNat = k.val → v313 (ix2 r 0) = v2 (ix2 r k))
    (hc32 : ∀ (r : Fin 1024) (k : Fin 256), (v88 (ix2 r 32)).toNat = k.val → v320 (ix2 r 0) = v2 (ix2 r k))
    (hc33 : ∀ (r : Fin 1024) (k : Fin 256), (v88 (ix2 r 33)).toNat = k.val → v327 (ix2 r 0) = v2 (ix2 r k))
    (hc34 : ∀ (r : Fin 1024) (k : Fin 256), (v88 (ix2 r 34)).toNat = k.val → v334 (ix2 r 0) = v2 (ix2 r k))
    (hc35 : ∀ (r : Fin 1024) (k : Fin 256), (v88 (ix2 r 35)).toNat = k.val → v341 (ix2 r 0) = v2 (ix2 r k))
    (hc36 : ∀ (r : Fin 1024) (k : Fin 256), (v88 (ix2 r 36)).toNat = k.val → v348 (ix2 r 0) = v2 (ix2 r k))
    (hc37 : ∀ (r : Fin 1024) (k : Fin 256), (v88 (ix2 r 37)).toNat = k.val → v355 (ix2 r 0) = v2 (ix2 r k))
    (hc38 : ∀ (r : Fin 1024) (k : Fin 256), (v88 (ix2 r 38)).toNat = k.val → v362 (ix2 r 0) = v2 (ix2 r k))
    (hc39 : ∀ (r : Fin 1024) (k : Fin 256), (v88 (ix2 r 39)).toNat = k.val → v369 (ix2 r 0) = v2 (ix2 r k))
    (hc40 : ∀ (r : Fin 1024) (k : Fin 256), (v88 (ix2 r 40)).toNat = k.val → v376 (ix2 r 0) = v2 (ix2 r k))
    (h381 : v381 = k0_pay72 (F := Ideal) v2 v88 v89)
    (r : Fin 1024) (n : Fin 44) (k : Fin 256) (hk : (v88 (ix2 r n)).toNat = k.val) :
    k0_pay74 (F := Ideal) v2 v70 v88 v89 v96 v103 v110 v117 v124 v131 v138 v145 v152 v159 v166 v173 v180 v187 v194 v201 v208
        v215 v222 v229 v236 v243 v250 v257 v264 v271 v278 v285 v292 v299 v306 v313 v320 v327 v334 v341 v348 v355 v362 v369
        v376 v381 (ix2 r n)
      = v2 (ix2 r k) * Ideal.div 1 (Ideal.ofBits .f32 0x3727C5AC#32 + v70 (ix2 r 0)) := by
  subst h381
  have hcols : ∀ (m : Fin 44) (k : Fin 256), (v88 (ix2 r m)).toNat = k.val →
      cols44 v2 v88 v89 v96 v103 v110 v117 v124 v131 v138 v145 v152 v159 v166 v173 v180 v187 v194 v201 v208 v215 v222 v229
        v236 v243 v250 v257 v264 v271 v278 v285 v292 v299 v306 v313 v320 v327 v334 v341 v348 v355 v362 v369 v376
        (k0_pay72 (F := Ideal) v2 v88 v89) m (ix2 r 0) = v2 (ix2 r k) := by
    intro m
    fin_cases m
    · exact hc0 r
    · exact hc1 r
    · exact hc2 r
    · exact hc3 r
    · exact hc4 r
    · exact hc5 r
    · exact hc6 r
    · exact hc7 r
    · exact hc8 r
    · exact hc9 r
    · exact hc10 r
    · exact hc11 r
    · exact hc12 r
    · exact hc13 r
    · exact hc14 r
    · exact hc15 r
    · exact hc16 r
    · exact hc17 r
    · exact hc18 r
    · exact hc19 r
    · exact hc20 r
    · exact hc21 r
    · exact hc22 r
    · exact hc23 r
    · exact hc24 r
    · exact hc25 r
    · exact hc26 r
    · exact hc27 r
    · exact hc28 r
    · exact hc29 r
    · exact hc30 r
    · exact hc31 r
    · exact hc32 r
    · exact hc33 r
    · exact hc34 r
    · exact hc35 r
    · exact hc36 r
    · exact hc37 r
    · exact hc38 r
    · exact hc39 r
    · exact hc40 r
    · exact fun k hk => gathered_col v2 v88 v89 h89 41 (by decide) slices_S1024x44_o0_41_S1024x1 rfl r k hk
    · exact fun k hk => gathered_col v2 v88 v89 h89 42 (by decide) slices_S1024x44_o0_42_S1024x1 rfl r k hk
    · exact fun k hk => gathered_col v2 v88 v89 h89 43 (by decide) slices_S1024x44_o0_43_S1024x1 rfl r k hk
  unfold k0_pay74
  show concatenate S1024x44 1 _ _ (ix2 r n)
    * broadcastTo S1024x44 (k0_pay73 (F := Ideal) v70) broadcasts_S1024x1_S1024x44 (ix2 r n) = _
  rw [recip44_apply]
  refine congrArg (· * _) ?_
  exact (cat44_apply (cols44 v2 v88 v89 v96 v103 v110 v117 v124 v131 v138 v145 v152 v159 v166 v173 v180 v187 v194 v201 v208
    v215 v222 v229 v236 v243 v250 v257 v264 v271 v278 v285 v292 v299 v306 v313 v320 v327 v334 v341 v348 v355 v362 v369 v376
    (k0_pay72 (F := Ideal) v2 v88 v89)) _ r n).trans (hcols n k hk)

end KernelPred

section Stage

variable (t : Fin 64)
  (x0 : (⟨Cert.ReferenceIdeal.S65536x80, .f32⟩ : BufTy).Contents (Elt Ideal))
  (x2 : (⟨Cert.ReferenceIdeal.S65536x256, .f32⟩ : BufTy).Contents (Elt Ideal))
  (x7 : (⟨Cert.ReferenceIdeal.S65536, .i32⟩ : BufTy).Contents (Elt Ideal))
  (x8 : (⟨Cert.ReferenceIdeal.S1x80, .f32⟩ : BufTy).Contents (Elt Ideal))
  (x9 : (⟨Cert.ReferenceIdeal.S1, .f32⟩ : BufTy).Contents (Elt Ideal))
  (v0 : Vec Ideal S1024x80 .f32) (v2 : Vec Ideal S1024x256 .f32) (v70 : FVec Ideal S1024x1 .f32)
  (v88 : IVec S1024x44 32) (v89 : IVec S1024x256 32)
  (v96 v103 v110 v117 v124 v131 v138 v145 v152 v159 v166 v173 v180 v187 v194 v201 v208 v215 v222 v229 v236 v243 v250 v257
    v264 v271 v278 v285 v292 v299 v306 v313 v320 v327 v334 v341 v348 v355 v362 v369 v376 : FVec Ideal S1024x1 .f32)
  (v381 : Vec Ideal S1024x256 .f32)

theorem pred_stage
    (h2 : ∀ (r : Fin 1024) (i : Fin 65536) (k : Fin 256), i.val = 1024 * t.val + r.val → v2 (ix2 r k) = x2 (ix2 i k))
    (hgain : ∀ (r : Fin 1024) (i : Fin 65536) (n : Fin 1), i.val = 1024 * t.val + r.val →
      v70 (ix2 r n) = val_main_v15 (F := Ideal) x0 x8 x9 (ix2 i n))
    (hidx : ∀ (r : Fin 1024) (i : Fin 65536) (n : Fin 44), i.val = 1024 * t.val + r.val →
      v88 (ix2 r n) = val_main_v33 (F := Ideal) x7 (ix2 i n))
    (h89 : ∀ (r : Fin 1024) (l : Fin 256), v89 (ix2 r l) = BitVec.ofNat 32 l.val)
    (hc0 : ∀ (r : Fin 1024) (k : Fin 256), (v88 (ix2 r 0)).toNat = k.val → v96 (ix2 r 0) = v2 (ix2 r k))
    (hc1 : ∀ (r : Fin 1024) (k : Fin 256), (v88 (ix2 r 1)).toNat = k.val → v103 (ix2 r 0) = v2 (ix2 r k))
    (hc2 : ∀ (r : Fin 1024) (k : Fin 256), (v88 (ix2 r 2)).toNat = k.val → v110 (ix2 r 0) = v2 (ix2 r k))
    (hc3 : ∀ (r : Fin 1024) (k : Fin 256), (v88 (ix2 r 3)).toNat = k.val → v117 (ix2 r 0) = v2 (ix2 r k))
    (hc4 : ∀ (r : Fin 1024) (k : Fin 256), (v88 (ix2 r 4)).toNat = k.val → v124 (ix2 r 0) = v2 (ix2 r k))
    (hc5 : ∀ (r : Fin 1024) (k : Fin 256), (v88 (ix2 r 5)).toNat = k.val → v131 (ix2 r 0) = v2 (ix2 r k))
    (hc6 : ∀ (r : Fin 1024) (k : Fin 256), (v88 (ix2 r 6)).toNat = k.val → v138 (ix2 r 0) = v2 (ix2 r k))
    (hc7 : ∀ (r : Fin 1024) (k : Fin 256), (v88 (ix2 r 7)).toNat = k.val → v145 (ix2 r 0) = v2 (ix2 r k))
    (hc8 : ∀ (r : Fin 1024) (k : Fin 256), (v88 (ix2 r 8)).toNat = k.val → v152 (ix2 r 0) = v2 (ix2 r k))
    (hc9 : ∀ (r : Fin 1024) (k : Fin 256), (v88 (ix2 r 9)).toNat = k.val → v159 (ix2 r 0) = v2 (ix2 r k))
    (hc10 : ∀ (r : Fin 1024) (k : Fin 256), (v88 (ix2 r 10)).toNat = k.val → v166 (ix2 r 0) = v2 (ix2 r k))
    (hc11 : ∀ (r : Fin 1024) (k : Fin 256), (v88 (ix2 r 11)).toNat = k.val → v173 (ix2 r 0) = v2 (ix2 r k))
    (hc12 : ∀ (r : Fin 1024) (k : Fin 256), (v88 (ix2 r 12)).toNat = k.val → v180 (ix2 r 0) = v2 (ix2 r k))
    (hc13 : ∀ (r : Fin 1024) (k : Fin 256), (v88 (ix2 r 13)).toNat = k.val → v187 (ix2 r 0) = v2 (ix2 r k))
    (hc14 : ∀ (r : Fin 1024) (k : Fin 256), (v88 (ix2 r 14)).toNat = k.val → v194 (ix2 r 0) = v2 (ix2 r k))
    (hc15 : ∀ (r : Fin 1024) (k : Fin 256), (v88 (ix2 r 15)).toNat = k.val → v201 (ix2 r 0) = v2 (ix2 r k))
    (hc16 : ∀ (r : Fin 1024) (k : Fin 256), (v88 (ix2 r 16)).toNat = k.val → v208 (ix2 r 0) = v2 (ix2 r k))
    (hc17 : ∀ (r : Fin 1024) (k : Fin 256), (v88 (ix2 r 17)).toNat = k.val → v215 (ix2 r 0) = v2 (ix2 r k))
    (hc18 : ∀ (r : Fin 1024) (k : Fin 256), (v88 (ix2 r 18)).toNat = k.val → v222 (ix2 r 0) = v2 (ix2 r k))
    (hc19 : ∀ (r : Fin 1024) (k : Fin 256), (v88 (ix2 r 19)).toNat = k.val → v229 (ix2 r 0) = v2 (ix2 r k))
    (hc20 : ∀ (r : Fin 1024) (k : Fin 256), (v88 (ix2 r 20)).toNat = k.val → v236 (ix2 r 0) = v2 (ix2 r k))
    (hc21 : ∀ (r : Fin 1024) (k : Fin 256), (v88 (ix2 r 21)).toNat = k.val → v243 (ix2 r 0) = v2 (ix2 r k))
    (hc22 : ∀ (r : Fin 1024) (k : Fin 256), (v88 (ix2 r 22)).toNat = k.val → v250 (ix2 r 0) = v2 (ix2 r k))
    (hc23 : ∀ (r : Fin 1024) (k : Fin 256), (v88 (ix2 r 23)).toNat = k.val → v257 (ix2 r 0) = v2 (ix2 r k))
    (hc24 : ∀ (r : Fin 1024) (k : Fin 256), (v88 (ix2 r 24)).toNat = k.val → v264 (ix2 r 0) = v2 (ix2 r k))
    (hc25 : ∀ (r : Fin 1024) (k : Fin 256), (v88 (ix2 r 25)).toNat = k.val → v271 (ix2 r 0) = v2 (ix2 r k))
    (hc26 : ∀ (r : Fin 1024) (k : Fin 256), (v88 (ix2 r 26)).toNat = k.val → v278 (ix2 r 0) = v2 (ix2 r k))
    (hc27 : ∀ (r : Fin 1024) (k : Fin 256), (v88 (ix2 r 27)).toNat = k.val → v285 (ix2 r 0) = v2 (ix2 r k))
    (hc28 : ∀ (r : Fin 1024) (k : Fin 256), (v88 (ix2 r 28)).toNat = k.val → v292 (ix2 r 0) = v2 (ix2 r k))
    (hc29 : ∀ (r : Fin 1024) (k : Fin 256), (v88 (ix2 r 29)).toNat = k.val → v299 (ix2 r 0) = v2 (ix2 r k))
    (hc30 : ∀ (r : Fin 1024) (k : Fin 256), (v88 (ix2 r 30)).toNat = k.val → v306 (ix2 r 0) = v2 (ix2 r k))
    (hc31 : ∀ (r : Fin 1024) (k : Fin 256), (v88 (ix2 r 31)).toNat = k.val → v313 (ix2 r 0) = v2 (ix2 r k))
    (hc32 : ∀ (r : Fin 1024) (k : Fin 256), (v88 (ix2 r 32)).toNat = k.val → v320 (ix2 r 0) = v2 (ix2 r k))
    (hc33 : ∀ (r : Fin 1024) (k : Fin 256), (v88 (ix2 r 33)).toNat = k.val → v327 (ix2 r 0) = v2 (ix2 r k))
    (hc34 : ∀ (r : Fin 1024) (k : Fin 256), (v88 (ix2 r 34)).toNat = k.val → v334 (ix2 r 0) = v2 (ix2 r k))
    (hc35 : ∀ (r : Fin 1024) (k : Fin 256), (v88 (ix2 r 35)).toNat = k.val → v341 (ix2 r 0) = v2 (ix2 r k))
    (hc36 : ∀ (r : Fin 1024) (k : Fin 256), (v88 (ix2 r 36)).toNat = k.val → v348 (ix2 r 0) = v2 (ix2 r k))
    (hc37 : ∀ (r : Fin 1024) (k : Fin 256), (v88 (ix2 r 37)).toNat = k.val → v355 (ix2 r 0) = v2 (ix2 r k))
    (hc38 : ∀ (r : Fin 1024) (k : Fin 256), (v88 (ix2 r 38)).toNat = k.val → v362 (ix2 r 0) = v2 (ix2 r k))
    (hc39 : ∀ (r : Fin 1024) (k : Fin 256), (v88 (ix2 r 39)).toNat = k.val → v369 (ix2 r 0) = v2 (ix2 r k))
    (hc40 : ∀ (r : Fin 1024) (k : Fin 256), (v88 (ix2 r 40)).toNat = k.val → v376 (ix2 r 0) = v2 (ix2 r k))
    (h381 : v381 = k0_pay72 (F := Ideal) v2 v88 v89) :
    ∀ (r : Fin 1024) (i : Fin 65536) (n : Fin 44), i.val = 1024 * t.val + r.val →
      k0_pay74 (F := Ideal) v2 v70 v88 v89 v96 v103 v110 v117 v124 v131 v138 v145 v152 v159 v166 v173 v180 v187 v194 v201 v208
        v215 v222 v229 v236 v243 v250 v257 v264 v271 v278 v285 v292 v299 v306 v313 v320 v327 v334 v341 v348 v355 v362 v369
        v376 v381 (ix2 r n) = val_main_v38 (F := Ideal) x0 x2 x7 x8 x9 (ix2 i n) := by
  intro r i n hi
  have hlt : (v88 (ix2 r n)).toNat < 256 := by
    rw [hidx r i n hi]
    exact GatherRef.idx_toNat_lt x7 _
  obtain ⟨k, hk⟩ : ∃ k : Fin 256, (v88 (ix2 r n)).toNat = k.val := ⟨⟨_, hlt⟩, rfl⟩
  have hk' : (val_main_v33 (F := Ideal) x7 (ix2 i n)).toNat = k.val := by
    rw [← hidx r i n hi]
    exact hk
  rw [pred_kernel v2 v70 v88 v89 v96 v103 v110 v117 v124 v131 v138 v145 v152 v159 v166 v173 v180 v187 v194 v201 v208 v215
      v222 v229 v236 v243 v250 v257 v264 v271 v278 v285 v292 v299 v306 v313 v320 v327 v334 v341 v348 v355 v362 v369 v376 v381
      h89 hc0 hc1 hc2 hc3 hc4 hc5 hc6 hc7 hc8 hc9 hc10 hc11 hc12 hc13 hc14 hc15 hc16 hc17 hc18 hc19 hc20 hc21 hc22 hc23 hc24
      hc25 hc26 hc27 hc28 hc29 hc30 hc31 hc32 hc33 hc34 hc35 hc36 hc37 hc38 hc39 hc40 h381 r n k hk,
    GatherRef.pred_ref x0 x2 x7 x8 x9 i n k hk', hgain r i 0 hi, h2 r i k hi]
  exact LibExtReal.mul_one_div (GatherRef.den_ne_zero x0 x8 x9 (ix2 i 0))

theorem prev_stage
    (h2 : ∀ (r : Fin 1024) (i : Fin 65536) (k : Fin 256), i.val = 1024 * t.val + r.val → v2 (ix2 r k) = x2 (ix2 i k))
    (hgain : ∀ (r : Fin 1024) (i : Fin 65536) (n : Fin 1), i.val = 1024 * t.val + r.val →
      v70 (ix2 r n) = val_main_v15 (F := Ideal) x0 x8 x9 (ix2 i n)) :
    ∀ (r : Fin 1024) (i : Fin 65536) (n : Fin 40), i.val = 1024 * t.val + r.val →
      k0_pay75 (F := Ideal) v2 v70 (ix2 r n) = val_main_v43 (F := Ideal) x0 x2 x8 x9 (ix2 i n) := by
  intro r i n hi
  have hn := n.isLt
  obtain ⟨c, hc⟩ : ∃ c : Fin 256, c.val = 216 + n.val := ⟨⟨216 + n.val, by omega⟩, rfl⟩
  rw [prev_kernel v2 v70 r n c hc, GatherRef.prev_ref x0 x2 x8 x9 i n c hc, hgain r i 0 hi, h2 r i c hi]
  exact LibExtReal.mul_one_div (GatherRef.den_ne_zero x0 x8 x9 (ix2 i 0))

theorem tmp_stage
    (h0 : ∀ (r : Fin 1024) (i : Fin 65536) (k : Fin 80), i.val = 1024 * t.val + r.val → v0 (ix2 r k) = x0 (ix2 i k))
    (hpred : ∀ (r : Fin 1024) (i : Fin 65536) (n : Fin 44), i.val = 1024 * t.val + r.val →
      k0_pay74 (F := Ideal) v2 v70 v88 v89 v96 v103 v110 v117 v124 v131 v138 v145 v152 v159 v166 v173 v180 v187 v194 v201 v208
        v215 v222 v229 v236 v243 v250 v257 v264 v271 v278 v285 v292 v299 v306 v313 v320 v327 v334 v341 v348 v355 v362 v369
        v376 v381 (ix2 r n) = val_main_v38 (F := Ideal) x0 x2 x7 x8 x9 (ix2 i n))
    (hprev : ∀ (r : Fin 1024) (i : Fin 65536) (n : Fin 40), i.val = 1024 * t.val + r.val →
      k0_pay75 (F := Ideal) v2 v70 (ix2 r n) = val_main_v43 (F := Ideal) x0 x2 x8 x9 (ix2 i n)) :
    ∀ (r : Fin 1024) (i : Fin 65536) (n : Fin 164), i.val = 1024 * t.val + r.val →
      k0_pay76 (F := Ideal) v0 v2 v70 v88 v89 v96 v103 v110 v117 v124 v131 v138 v145 v152 v159 v166 v173 v180 v187 v194 v201
        v208 v215 v222 v229 v236 v243 v250 v257 v264 v271 v278 v285 v292 v299 v306 v313 v320 v327 v334 v341 v348 v355 v362
        v369 v376 v381 (ix2 r n) = val_main_v44 (F := Ideal) x0 x2 x7 x8 x9 (ix2 i n) := by
  intro r i n hi
  unfold k0_pay76 val_main_v44
  show concatenate S1024x164 1 _ _ (ix2 r n) = concatenate Cert.ReferenceIdeal.S65536x164 1 _ _ (ix2 i n)
  refine (cat3_apply _ _ _ _ r n).trans (Eq.trans ?_ (cat3_apply _ _ _ _ i n).symm)
  by_cases h1 : n.val < 80
  · rw [dif_pos h1, dif_pos h1]
    exact h0 r i _ hi
  · rw [dif_neg h1, dif_neg h1]
    by_cases h2 : n.val < 124
    · rw [dif_pos h2, dif_pos h2]
      exact hpred r i _ hi
    · rw [dif_neg h2, dif_neg h2]
      exact hprev r i _ hi

theorem fpitch_stage
    (hpred : ∀ (r : Fin 1024) (i : Fin 65536) (n : Fin 44), i.val = 1024 * t.val + r.val →
      k0_pay74 (F := Ideal) v2 v70 v88 v89 v96 v103 v110 v117 v124 v131 v138 v145 v152 v159 v166 v173 v180 v187 v194 v201 v208
        v215 v222 v229 v236 v243 v250 v257 v264 v271 v278 v285 v292 v299 v306 v313 v320 v327 v334 v341 v348 v355 v362 v369
        v376 v381 (ix2 r n) = val_main_v38 (F := Ideal) x0 x2 x7 x8 x9 (ix2 i n)) :
    ∀ (r : Fin 1024) (i : Fin 65536) (n : Fin 40), i.val = 1024 * t.val + r.val →
      k0_pay77 (F := Ideal) v2 v70 v88 v89 v96 v103 v110 v117 v124 v131 v138 v145 v152 v159 v166 v173 v180 v187 v194 v201 v208
        v215 v222 v229 v236 v243 v250 v257 v264 v271 v278 v285 v292 v299 v306 v313 v320 v327 v334 v341 v348 v355 v362 v369
        v376 v381 (ix2 r n) = val_main_v45 (F := Ideal) x0 x2 x7 x8 x9 (ix2 i n) := by
  intro r i n hi
  have hn := n.isLt
  obtain ⟨c, hc⟩ : ∃ c : Fin 44, c.val = 2 + n.val := ⟨⟨2 + n.val, by omega⟩, rfl⟩
  have hidx : idx_main_v45 (ix2 i n) = ix2 i c := by
    funext a
    refine Fin.ext ?_
    match a with
    | ⟨0, _⟩ => rfl
    | ⟨1, _⟩ => show 2 + n.val = c.val; omega
  rw [val_main_v45_apply, hidx, ← hpred r i c hi]
  unfold k0_pay77
  refine extractStridedSlice_apply ![0, 2] _ slices_S1024x44_o0_2_S1024x40 (ix2 r n) (ix2 r c) ?_
  intro a
  match a with
  | ⟨0, _⟩ => show r.val = 0 + r.val; omega
  | ⟨1, _⟩ => show c.val = 2 + n.val; exact hc

end Stage

end Cert.Bridge.Gather
-- ==== Proof.ChainGather.lean ====
import proofs.«401269_j23398981829052_3_alg».proof.Proof.Chain0
import proofs.«401269_j23398981829052_3_alg».proof.Proof.StageGatherCols
import proofs.«401269_j23398981829052_3_alg».proof.Proof.StageGather

noncomputable section

namespace Cert.Bridge.Chain

open Idealize.ShloMosaic Idealize.ShloMosaic.TcCoe Idealize.ShloMosaic.ValueIdx
open Cert.KernelIdeal Cert.KernelIdeal.Gen Cert.ReferenceIdeal.Read Cert.Bridge.Gather

variable (t : Fin 64)
variable (x0 : (⟨Cert.ReferenceIdeal.S65536x80, .f32⟩ : BufTy).Contents (Elt Ideal))
variable (x1 : (⟨Cert.ReferenceIdeal.S65536x256, .f32⟩ : BufTy).Contents (Elt Ideal))
variable (x2 : (⟨Cert.ReferenceIdeal.S65536x256, .f32⟩ : BufTy).Contents (Elt Ideal))
variable (x3 : (⟨Cert.ReferenceIdeal.S65536x160, .f32⟩ : BufTy).Contents (Elt Ideal))
variable (x4 : (⟨Cert.ReferenceIdeal.S65536x128, .f32⟩ : BufTy).Contents (Elt Ideal))
variable (x5 : (⟨Cert.ReferenceIdeal.S65536x128, .f32⟩ : BufTy).Contents (Elt Ideal))
variable (x6 : (⟨Cert.ReferenceIdeal.S65536x164, .f32⟩ : BufTy).Contents (Elt Ideal))
variable (x7 : (⟨Cert.ReferenceIdeal.S65536, .i32⟩ : BufTy).Contents (Elt Ideal))
variable (x8 : (⟨Cert.ReferenceIdeal.S1x80, .f32⟩ : BufTy).Contents (Elt Ideal))
variable (x9 : (⟨Cert.ReferenceIdeal.S1, .f32⟩ : BufTy).Contents (Elt Ideal))
variable (x10 : (⟨Cert.ReferenceIdeal.S192x328, .f32⟩ : BufTy).Contents (Elt Ideal))
variable (x11 : (⟨Cert.ReferenceIdeal.S192x192, .f32⟩ : BufTy).Contents (Elt Ideal))
variable (x12 : (⟨Cert.ReferenceIdeal.S4x192, .f32⟩ : BufTy).Contents (Elt Ideal))
variable (x13 : (⟨Cert.ReferenceIdeal.S4, .f32⟩ : BufTy).Contents (Elt Ideal))
variable (x14 : (⟨Cert.ReferenceIdeal.S480x272, .f32⟩ : BufTy).Contents (Elt Ideal))
variable (x15 : (⟨Cert.ReferenceIdeal.S480x160, .f32⟩ : BufTy).Contents (Elt Ideal))
variable (x16 : (⟨Cert.ReferenceIdeal.S160x160, .f32⟩ : BufTy).Contents (Elt Ideal))
variable (x17 : (⟨Cert.ReferenceIdeal.S384x240, .f32⟩ : BufTy).Contents (Elt Ideal))
variable (x18 : (⟨Cert.ReferenceIdeal.S384x128, .f32⟩ : BufTy).Contents (Elt Ideal))
variable (x19 : (⟨Cert.ReferenceIdeal.S128x128, .f32⟩ : BufTy).Contents (Elt Ideal))
variable (x20 : (⟨Cert.ReferenceIdeal.S384x208, .f32⟩ : BufTy).Contents (Elt Ideal))
variable (x21 : (⟨Cert.ReferenceIdeal.S384x128, .f32⟩ : BufTy).Contents (Elt Ideal))
variable (x22 : (⟨Cert.ReferenceIdeal.S128x128, .f32⟩ : BufTy).Contents (Elt Ideal))
variable (x23 : (⟨Cert.ReferenceIdeal.S128x688, .f32⟩ : BufTy).Contents (Elt Ideal))
variable (x24 : (⟨Cert.ReferenceIdeal.S128x128, .f32⟩ : BufTy).Contents (Elt Ideal))
variable (x25 : (⟨Cert.ReferenceIdeal.S40x128, .f32⟩ : BufTy).Contents (Elt Ideal))
variable (b : Cert.KernelIdeal.Fr.Blocks Ideal)

theorem sprev (H : Inputs t x0 x1 x2 x3 x4 x5 x6 x7 x8 x9 x10 x11 x12 x13 x14 x15 x16 x17 x18 x19 x20 x21 x22 x23 x24 x25 b) (hgain : SGain t x0 x8 x9 b) : SPrev t x0 x2 x8 x9 b :=
  prev_stage t x0 x2 x8 x9 (Fr.val2 b) (Fr.val70 b) H.in2 hgain

theorem spred (H : Inputs t x0 x1 x2 x3 x4 x5 x6 x7 x8 x9 x10 x11 x12 x13 x14 x15 x16 x17 x18 x19 x20 x21 x22 x23 x24 x25 b) (hgain : SGain t x0 x8 x9 b) (hidx : SIdx t x7 b) :
    ∀ (r : Fin 1024) (i : Fin 65536) (n : Fin 44), i.val = 1024 * t.val + r.val →
      k0_pay74 (Fr.val2 b) (Fr.val70 b) (Fr.val88 b) Fr.val89 (Fr.val96 b) (Fr.val103 b) (Fr.val110 b) (Fr.val117 b) (Fr.val124 b) (Fr.val131 b) (Fr.val138 b) (Fr.val145 b) (Fr.val152 b) (Fr.val159 b) (Fr.val166 b) (Fr.val173 b) (Fr.val180 b) (Fr.val187 b) (Fr.val194 b) (Fr.val201 b) (Fr.val208 b) (Fr.val215 b) (Fr.val222 b) (Fr.val229 b) (Fr.val236 b) (Fr.val243 b) (Fr.val250 b) (Fr.val257 b) (Fr.val264 b) (Fr.val271 b) (Fr.val278 b) (Fr.val285 b) (Fr.val292 b) (Fr.val299 b) (Fr.val306 b) (Fr.val313 b) (Fr.val320 b) (Fr.val327 b) (Fr.val334 b) (Fr.val341 b) (Fr.val348 b) (Fr.val355 b) (Fr.val362 b) (Fr.val369 b) (Fr.val376 b) (Fr.val381 b) (ix2 r n)
        = val_main_v38 (F := Ideal) x0 x2 x7 x8 x9 (ix2 i n) :=
  pred_stage t x0 x2 x7 x8 x9 (Fr.val2 b) (Fr.val70 b) (Fr.val88 b) Fr.val89 (Fr.val96 b) (Fr.val103 b) (Fr.val110 b) (Fr.val117 b) (Fr.val124 b) (Fr.val131 b) (Fr.val138 b) (Fr.val145 b) (Fr.val152 b) (Fr.val159 b) (Fr.val166 b) (Fr.val173 b) (Fr.val180 b) (Fr.val187 b) (Fr.val194 b) (Fr.val201 b) (Fr.val208 b) (Fr.val215 b) (Fr.val222 b) (Fr.val229 b) (Fr.val236 b) (Fr.val243 b) (Fr.val250 b) (Fr.val257 b) (Fr.val264 b) (Fr.val271 b) (Fr.val278 b) (Fr.val285 b) (Fr.val292 b) (Fr.val299 b) (Fr.val306 b) (Fr.val313 b) (Fr.val320 b) (Fr.val327 b) (Fr.val334 b) (Fr.val341 b) (Fr.val348 b) (Fr.val355 b) (Fr.val362 b) (Fr.val369 b) (Fr.val376 b) (Fr.val381 b)
    H.in2 hgain hidx iota_lane
    (col0 (Fr.val2 b) (Fr.val8 b)) (col1 (Fr.val2 b) (Fr.val8 b))
    (col2 (Fr.val2 b) (Fr.val88 b) Fr.val89 iota_lane) (col3 (Fr.val2 b) (Fr.val88 b) Fr.val89 iota_lane)
    (col4 (Fr.val2 b) (Fr.val88 b) Fr.val89 iota_lane) (col5 (Fr.val2 b) (Fr.val88 b) Fr.val89 iota_lane)
    (col6 (Fr.val2 b) (Fr.val88 b) Fr.val89 iota_lane) (col7 (Fr.val2 b) (Fr.val88 b) Fr.val89 iota_lane)
    (col8 (Fr.val2 b) (Fr.val88 b) Fr.val89 iota_lane) (col9 (Fr.val2 b) (Fr.val88 b) Fr.val89 iota_lane)
    (col10 (Fr.val2 b) (Fr.val88 b) Fr.val89 iota_lane) (col11 (Fr.val2 b) (Fr.val88 b) Fr.val89 iota_lane)
    (col12 (Fr.val2 b) (Fr.val88 b) Fr.val89 iota_lane) (col13 (Fr.val2 b) (Fr.val88 b) Fr.val89 iota_lane)
    (col14 (Fr.val2 b) (Fr.val88 b) Fr.val89 iota_lane) (col15 (Fr.val2 b) (Fr.val88 b) Fr.val89 iota_lane)
    (col16 (Fr.val2 b) (Fr.val88 b) Fr.val89 iota_lane) (col17 (Fr.val2 b) (Fr.val88 b) Fr.val89 iota_lane)
    (col18 (Fr.val2 b) (Fr.val88 b) Fr.val89 iota_lane) (col19 (Fr.val2 b) (Fr.val88 b) Fr.val89 iota_lane)
    (col20 (Fr.val2 b) (Fr.val88 b) Fr.val89 iota_lane) (col21 (Fr.val2 b) (Fr.val88 b) Fr.val89 iota_lane)
    (col22 (Fr.val2 b) (Fr.val88 b) Fr.val89 iota_lane) (col23 (Fr.val2 b) (Fr.val88 b) Fr.val89 iota_lane)
    (col24 (Fr.val2 b) (Fr.val88 b) Fr.val89 iota_lane) (col25 (Fr.val2 b) (Fr.val88 b) Fr.val89 iota_lane)
    (col26 (Fr.val2 b) (Fr.val88 b) Fr.val89 iota_lane) (col27 (Fr.val2 b) (Fr.val88 b) Fr.val89 iota_lane)
    (col28 (Fr.val2 b) (Fr.val88 b) Fr.val89 iota_lane) (col29 (Fr.val2 b) (Fr.val88 b) Fr.val89 iota_lane)
    (col30 (Fr.val2 b) (Fr.val88 b) Fr.val89 iota_lane) (col31 (Fr.val2 b) (Fr.val88 b) Fr.val89 iota_lane)
    (col32 (Fr.val2 b) (Fr.val88 b) Fr.val89 iota_lane) (col33 (Fr.val2 b) (Fr.val88 b) Fr.val89 iota_lane)
    (col34 (Fr.val2 b) (Fr.val88 b) Fr.val89 iota_lane) (col35 (Fr.val2 b) (Fr.val88 b) Fr.val89 iota_lane)
    (col36 (Fr.val2 b) (Fr.val88 b) Fr.val89 iota_lane) (col37 (Fr.val2 b) (Fr.val88 b) Fr.val89 iota_lane)
    (col38 (Fr.val2 b) (Fr.val88 b) Fr.val89 iota_lane) (col39 (Fr.val2 b) (Fr.val88 b) Fr.val89 iota_lane)
    (col40 (Fr.val2 b) (Fr.val88 b) Fr.val89 iota_lane)
    rfl

theorem stmp (H : Inputs t x0 x1 x2 x3 x4 x5 x6 x7 x8 x9 x10 x11 x12 x13 x14 x15 x16 x17 x18 x19 x20 x21 x22 x23 x24 x25 b) (hgain : SGain t x0 x8 x9 b) (hidx : SIdx t x7 b) : STmp t x0 x2 x7 x8 x9 b :=
  tmp_stage t x0 x2 x7 x8 x9 (Fr.val0 b) (Fr.val2 b) (Fr.val70 b) (Fr.val88 b) Fr.val89 (Fr.val96 b) (Fr.val103 b) (Fr.val110 b) (Fr.val117 b) (Fr.val124 b) (Fr.val131 b) (Fr.val138 b) (Fr.val145 b) (Fr.val152 b) (Fr.val159 b) (Fr.val166 b) (Fr.val173 b) (Fr.val180 b) (Fr.val187 b) (Fr.val194 b) (Fr.val201 b) (Fr.val208 b) (Fr.val215 b) (Fr.val222 b) (Fr.val229 b) (Fr.val236 b) (Fr.val243 b) (Fr.val250 b) (Fr.val257 b) (Fr.val264 b) (Fr.val271 b) (Fr.val278 b) (Fr.val285 b) (Fr.val292 b) (Fr.val299 b) (Fr.val306 b) (Fr.val313 b) (Fr.val320 b) (Fr.val327 b) (Fr.val334 b) (Fr.val341 b) (Fr.val348 b) (Fr.val355 b) (Fr.val362 b) (Fr.val369 b) (Fr.val376 b) (Fr.val381 b)
    H.in0 (spred t x0 x1 x2 x3 x4 x5 x6 x7 x8 x9 x10 x11 x12 x13 x14 x15 x16 x17 x18 x19 x20 x21 x22 x23 x24 x25 b H hgain hidx) (sprev t x0 x1 x2 x3 x4 x5 x6 x7 x8 x9 x10 x11 x12 x13 x14 x15 x16 x17 x18 x19 x20 x21 x22 x23 x24 x25 b H hgain)

theorem sfp (H : Inputs t x0 x1 x2 x3 x4 x5 x6 x7 x8 x9 x10 x11 x12 x13 x14 x15 x16 x17 x18 x19 x20 x21 x22 x23 x24 x25 b) (hgain : SGain t x0 x8 x9 b) (hidx : SIdx t x7 b) : SFp t x0 x2 x7 x8 x9 b :=
  fpitch_stage t x0 x2 x7 x8 x9 (Fr.val2 b) (Fr.val70 b) (Fr.val88 b) Fr.val89 (Fr.val96 b) (Fr.val103 b) (Fr.val110 b) (Fr.val117 b) (Fr.val124 b) (Fr.val131 b) (Fr.val138 b) (Fr.val145 b) (Fr.val152 b) (Fr.val159 b) (Fr.val166 b) (Fr.val173 b) (Fr.val180 b) (Fr.val187 b) (Fr.val194 b) (Fr.val201 b) (Fr.val208 b) (Fr.val215 b) (Fr.val222 b) (Fr.val229 b) (Fr.val236 b) (Fr.val243 b) (Fr.val250 b) (Fr.val257 b) (Fr.val264 b) (Fr.val271 b) (Fr.val278 b) (Fr.val285 b) (Fr.val292 b) (Fr.val299 b) (Fr.val306 b) (Fr.val313 b) (Fr.val320 b) (Fr.val327 b) (Fr.val334 b) (Fr.val341 b) (Fr.val348 b) (Fr.val355 b) (Fr.val362 b) (Fr.val369 b) (Fr.val376 b) (Fr.val381 b)
    (spred t x0 x1 x2 x3 x4 x5 x6 x7 x8 x9 x10 x11 x12 x13 x14 x15 x16 x17 x18 x19 x20 x21 x22 x23 x24 x25 b H hgain hidx)

end Cert.Bridge.Chain

end
-- ==== Proof.StageFwc.lean ====
import proofs.«401269_j23398981829052_3_alg».proof.Proof.Gen.KernelIdeal.Skeleton
import proofs.«401269_j23398981829052_3_alg».proof.Proof.RefRead
import proofs.«401269_j23398981829052_3_alg».proof.Proof.LibExtReal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Bridge.StageFwc

open Idealize.ShloMosaic Idealize.ShloMosaic.ValueIdx Cert.KernelIdeal.Gen Cert.ReferenceIdeal.Read

theorem lhs_fwc_0 (i : Cert.KernelIdeal.S1024x192.Idx) (q : Cert.KernelIdeal.dot_S1024x164_S164x192_S1024x192_1_0_0_1_n_n.contr.Idx) :
    (Cert.KernelIdeal.dot_S1024x164_S164x192_S1024x192_1_0_0_1_n_n.lhsIdx i q 0).val = (i 0).val := by
  unfold DotDims.lhsIdx
  rw [dif_neg (show ¬(0 : Fin Cert.KernelIdeal.S1024x164.rank) ∈ Cert.KernelIdeal.dot_S1024x164_S164x192_S1024x192_1_0_0_1_n_n.lhsBatch by decide), dif_pos (show (0 : Fin Cert.KernelIdeal.S1024x164.rank) ∈ Cert.KernelIdeal.dot_S1024x164_S164x192_S1024x192_1_0_0_1_n_n.lhsNonContracting by decide)]
  rfl
theorem lhs_fwc_1 (i : Cert.KernelIdeal.S1024x192.Idx) (q : Cert.KernelIdeal.dot_S1024x164_S164x192_S1024x192_1_0_0_1_n_n.contr.Idx) :
    (Cert.KernelIdeal.dot_S1024x164_S164x192_S1024x192_1_0_0_1_n_n.lhsIdx i q 1).val = (q ⟨0, by decide⟩).val :=
  Cert.KernelIdeal.dot_S1024x164_S164x192_S1024x192_1_0_0_1_n_n.lhsIdx_val_of_single rfl i q
theorem rhs_fwc_0 (i : Cert.KernelIdeal.S1024x192.Idx) (q : Cert.KernelIdeal.dot_S1024x164_S164x192_S1024x192_1_0_0_1_n_n.contr.Idx) :
    (Cert.KernelIdeal.dot_S1024x164_S164x192_S1024x192_1_0_0_1_n_n.rhsIdx i q 0).val = (q ⟨0, by decide⟩).val :=
  Cert.KernelIdeal.dot_S1024x164_S164x192_S1024x192_1_0_0_1_n_n.rhsIdx_val_of_single rfl i q
theorem rhs_fwc_1 (i : Cert.KernelIdeal.S1024x192.Idx) (q : Cert.KernelIdeal.dot_S1024x164_S164x192_S1024x192_1_0_0_1_n_n.contr.Idx) :
    (Cert.KernelIdeal.dot_S1024x164_S164x192_S1024x192_1_0_0_1_n_n.rhsIdx i q 1).val = (i 1).val := by
  unfold DotDims.rhsIdx
  rw [dif_neg (show ¬(1 : Fin Cert.KernelIdeal.S164x192.rank) ∈ Cert.KernelIdeal.dot_S1024x164_S164x192_S1024x192_1_0_0_1_n_n.rhsBatch by decide), dif_pos (show (1 : Fin Cert.KernelIdeal.S164x192.rank) ∈ Cert.KernelIdeal.dot_S1024x164_S164x192_S1024x192_1_0_0_1_n_n.rhsNonContracting by decide)]
  rfl

theorem mm_fwc_apply (a : FVec Ideal Cert.KernelIdeal.S1024x164 .bf16) (b : FVec Ideal Cert.KernelIdeal.S164x192 .bf16) (r : Fin 1024) (n : Fin 192) :
    matmul Cert.KernelIdeal.dot_S1024x164_S164x192_S1024x192_1_0_0_1_n_n none a b (constant (F := Ideal) Cert.KernelIdeal.S1024x192 .f32 0x00000000#32) (ix2 r n)
      = ∑ k : Fin 164, a (ix2 r k) * b (ix2 k n) := by
  refine (Ideal.matmul_constant_zero_apply Cert.KernelIdeal.dot_S1024x164_S164x192_S1024x192_1_0_0_1_n_n none a b (ix2 r n)).trans ?_
  rw [← Equiv.sum_comp (contrEquiv1 Cert.KernelIdeal.dot_S1024x164_S164x192_S1024x192_1_0_0_1_n_n 164 rfl rfl).symm]
  refine Finset.sum_congr rfl fun k _ => ?_
  have hk := contrEquiv1_symm_val Cert.KernelIdeal.dot_S1024x164_S164x192_S1024x192_1_0_0_1_n_n 164 rfl rfl k
  have el : Cert.KernelIdeal.dot_S1024x164_S164x192_S1024x192_1_0_0_1_n_n.lhsIdx (ix2 r n) ((contrEquiv1 Cert.KernelIdeal.dot_S1024x164_S164x192_S1024x192_1_0_0_1_n_n 164 rfl rfl).symm k) = ix2 r k := funext fun a => Fin.ext (by
    match a with
    | ⟨0, _⟩ => exact lhs_fwc_0 _ _
    | ⟨1, _⟩ => exact (lhs_fwc_1 _ _).trans hk)
  have er : Cert.KernelIdeal.dot_S1024x164_S164x192_S1024x192_1_0_0_1_n_n.rhsIdx (ix2 r n) ((contrEquiv1 Cert.KernelIdeal.dot_S1024x164_S164x192_S1024x192_1_0_0_1_n_n 164 rfl rfl).symm k) = ix2 k n := funext fun a => Fin.ext (by
    match a with
    | ⟨0, _⟩ => exact (rhs_fwc_0 _ _).trans hk
    | ⟨1, _⟩ => exact rhs_fwc_1 _ _)
  rw [el, er]

theorem lhs_glu_0 (i : Cert.KernelIdeal.S1024x192.Idx) (q : Cert.KernelIdeal.dot_S1024x192_S192x192_S1024x192_1_0_0_1_n_n.contr.Idx) :
    (Cert.KernelIdeal.dot_S1024x192_S192x192_S1024x192_1_0_0_1_n_n.lhsIdx i q 0).val = (i 0).val := by
  unfold DotDims.lhsIdx
  rw [dif_neg (show ¬(0 : Fin Cert.KernelIdeal.S1024x192.rank) ∈ Cert.KernelIdeal.dot_S1024x192_S192x192_S1024x192_1_0_0_1_n_n.lhsBatch by decide), dif_pos (show (0 : Fin Cert.KernelIdeal.S1024x192.rank) ∈ Cert.KernelIdeal.dot_S1024x192_S192x192_S1024x192_1_0_0_1_n_n.lhsNonContracting by decide)]
  rfl
theorem lhs_glu_1 (i : Cert.KernelIdeal.S1024x192.Idx) (q : Cert.KernelIdeal.dot_S1024x192_S192x192_S1024x192_1_0_0_1_n_n.contr.Idx) :
    (Cert.KernelIdeal.dot_S1024x192_S192x192_S1024x192_1_0_0_1_n_n.lhsIdx i q 1).val = (q ⟨0, by decide⟩).val :=
  Cert.KernelIdeal.dot_S1024x192_S192x192_S1024x192_1_0_0_1_n_n.lhsIdx_val_of_single rfl i q
theorem rhs_glu_0 (i : Cert.KernelIdeal.S1024x192.Idx) (q : Cert.KernelIdeal.dot_S1024x192_S192x192_S1024x192_1_0_0_1_n_n.contr.Idx) :
    (Cert.KernelIdeal.dot_S1024x192_S192x192_S1024x192_1_0_0_1_n_n.rhsIdx i q 0).val = (q ⟨0, by decide⟩).val :=
  Cert.KernelIdeal.dot_S1024x192_S192x192_S1024x192_1_0_0_1_n_n.rhsIdx_val_of_single rfl i q
theorem rhs_glu_1 (i : Cert.KernelIdeal.S1024x192.Idx) (q : Cert.KernelIdeal.dot_S1024x192_S192x192_S1024x192_1_0_0_1_n_n.contr.Idx) :
    (Cert.KernelIdeal.dot_S1024x192_S192x192_S1024x192_1_0_0_1_n_n.rhsIdx i q 1).val = (i 1).val := by
  unfold DotDims.rhsIdx
  rw [dif_neg (show ¬(1 : Fin Cert.KernelIdeal.S192x192.rank) ∈ Cert.KernelIdeal.dot_S1024x192_S192x192_S1024x192_1_0_0_1_n_n.rhsBatch by decide), dif_pos (show (1 : Fin Cert.KernelIdeal.S192x192.rank) ∈ Cert.KernelIdeal.dot_S1024x192_S192x192_S1024x192_1_0_0_1_n_n.rhsNonContracting by decide)]
  rfl

theorem mm_glu_apply (a : FVec Ideal Cert.KernelIdeal.S1024x192 .bf16) (b : FVec Ideal Cert.KernelIdeal.S192x192 .bf16) (r : Fin 1024) (n : Fin 192) :
    matmul Cert.KernelIdeal.dot_S1024x192_S192x192_S1024x192_1_0_0_1_n_n none a b (constant (F := Ideal) Cert.KernelIdeal.S1024x192 .f32 0x00000000#32) (ix2 r n)
      = ∑ k : Fin 192, a (ix2 r k) * b (ix2 k n) := by
  refine (Ideal.matmul_constant_zero_apply Cert.KernelIdeal.dot_S1024x192_S192x192_S1024x192_1_0_0_1_n_n none a b (ix2 r n)).trans ?_
  rw [← Equiv.sum_comp (contrEquiv1 Cert.KernelIdeal.dot_S1024x192_S192x192_S1024x192_1_0_0_1_n_n 192 rfl rfl).symm]
  refine Finset.sum_congr rfl fun k _ => ?_
  have hk := contrEquiv1_symm_val Cert.KernelIdeal.dot_S1024x192_S192x192_S1024x192_1_0_0_1_n_n 192 rfl rfl k
  have el : Cert.KernelIdeal.dot_S1024x192_S192x192_S1024x192_1_0_0_1_n_n.lhsIdx (ix2 r n) ((contrEquiv1 Cert.KernelIdeal.dot_S1024x192_S192x192_S1024x192_1_0_0_1_n_n 192 rfl rfl).symm k) = ix2 r k := funext fun a => Fin.ext (by
    match a with
    | ⟨0, _⟩ => exact lhs_glu_0 _ _
    | ⟨1, _⟩ => exact (lhs_glu_1 _ _).trans hk)
  have er : Cert.KernelIdeal.dot_S1024x192_S192x192_S1024x192_1_0_0_1_n_n.rhsIdx (ix2 r n) ((contrEquiv1 Cert.KernelIdeal.dot_S1024x192_S192x192_S1024x192_1_0_0_1_n_n 192 rfl rfl).symm k) = ix2 k n := funext fun a => Fin.ext (by
    match a with
    | ⟨0, _⟩ => exact (rhs_glu_0 _ _).trans hk
    | ⟨1, _⟩ => exact rhs_glu_1 _ _)
  rw [el, er]

theorem hidden_kernel (X : Vec Ideal Cert.KernelIdeal.S1024x164 .f32) (Y : FVec Ideal Cert.KernelIdeal.S1024x164 .f32)
    (v13 v15 : FVec Ideal Cert.KernelIdeal.S164x192 .bf16) (r : Fin 1024) (m : Fin 192) :
    tanh (addf (matmul Cert.KernelIdeal.dot_S1024x164_S164x192_S1024x192_1_0_0_1_n_n none (truncf .bf16 X Cert.KernelIdeal.Gen.bitsLt_bf16_f32) v13 (constant (F := Ideal) Cert.KernelIdeal.S1024x192 .f32 0x00000000#32))
        (matmul Cert.KernelIdeal.dot_S1024x164_S164x192_S1024x192_1_0_0_1_n_n none (truncf .bf16 Y Cert.KernelIdeal.Gen.bitsLt_bf16_f32) v15 (constant (F := Ideal) Cert.KernelIdeal.S1024x192 .f32 0x00000000#32))) (ix2 r m)
      = Ideal.tanh ((∑ k : Fin 164, X (ix2 r k) * v13 (ix2 k m)) + ∑ k : Fin 164, Y (ix2 r k) * v15 (ix2 k m)) := by
  show Ideal.tanh (matmul Cert.KernelIdeal.dot_S1024x164_S164x192_S1024x192_1_0_0_1_n_n none (truncf .bf16 X Cert.KernelIdeal.Gen.bitsLt_bf16_f32) v13 (constant (F := Ideal) Cert.KernelIdeal.S1024x192 .f32 0x00000000#32) (ix2 r m)
      + matmul Cert.KernelIdeal.dot_S1024x164_S164x192_S1024x192_1_0_0_1_n_n none (truncf .bf16 Y Cert.KernelIdeal.Gen.bitsLt_bf16_f32) v15 (constant (F := Ideal) Cert.KernelIdeal.S1024x192 .f32 0x00000000#32) (ix2 r m)) = _
  rw [mm_fwc_apply, mm_fwc_apply]
  rfl

theorem glu_kernel (H : FVec Ideal Cert.KernelIdeal.S1024x192 .f32) (v17 : FVec Ideal Cert.KernelIdeal.S192x192 .bf16) (r : Fin 1024) (n : Fin 192) :
    truncf .bf16 (mulf H (logistic (matmul Cert.KernelIdeal.dot_S1024x192_S192x192_S1024x192_1_0_0_1_n_n none (truncf .bf16 H Cert.KernelIdeal.Gen.bitsLt_bf16_f32) v17 (constant (F := Ideal) Cert.KernelIdeal.S1024x192 .f32 0x00000000#32)))) Cert.KernelIdeal.Gen.bitsLt_bf16_f32 (ix2 r n)
      = H (ix2 r n) * Ideal.logistic (∑ k : Fin 192, H (ix2 r k) * v17 (ix2 k n)) := by
  show H (ix2 r n) * Ideal.logistic (matmul Cert.KernelIdeal.dot_S1024x192_S192x192_S1024x192_1_0_0_1_n_n none (truncf .bf16 H Cert.KernelIdeal.Gen.bitsLt_bf16_f32) v17 (constant (F := Ideal) Cert.KernelIdeal.S1024x192 .f32 0x00000000#32) (ix2 r n)) = _
  rw [mm_glu_apply]
  rfl

theorem cat_left (x0 : (⟨Cert.ReferenceIdeal.S65536x80, .f32⟩ : BufTy).Contents (Elt Ideal)) (x2 : (⟨Cert.ReferenceIdeal.S65536x256, .f32⟩ : BufTy).Contents (Elt Ideal)) (x6 : (⟨Cert.ReferenceIdeal.S65536x164, .f32⟩ : BufTy).Contents (Elt Ideal)) (x7 : (⟨Cert.ReferenceIdeal.S65536, .i32⟩ : BufTy).Contents (Elt Ideal)) (x8 : (⟨Cert.ReferenceIdeal.S1x80, .f32⟩ : BufTy).Contents (Elt Ideal)) (x9 : (⟨Cert.ReferenceIdeal.S1, .f32⟩ : BufTy).Contents (Elt Ideal)) (i : Fin 65536) (k : Fin 164) (j : Fin 328) (hj : j.val = k.val) :
    val_main_v46 (F := Ideal) x0 x2 x6 x7 x8 x9 (ix2 i j) = x6 (ix2 i k) := by
  unfold val_main_v46
  generalize val_main_v44 (F := Ideal) x0 x2 x7 x8 x9 = y
  exact concatenate_pair_apply_left (1 : Fin Cert.ReferenceIdeal.S65536x328.rank) x6 y _ (ix2 i j) rfl (ix2 i k) (fun b => by
    match b with
    | ⟨0, _⟩ => rfl
    | ⟨1, _⟩ => exact hj.symm)

theorem cat_right (x0 : (⟨Cert.ReferenceIdeal.S65536x80, .f32⟩ : BufTy).Contents (Elt Ideal)) (x2 : (⟨Cert.ReferenceIdeal.S65536x256, .f32⟩ : BufTy).Contents (Elt Ideal)) (x6 : (⟨Cert.ReferenceIdeal.S65536x164, .f32⟩ : BufTy).Contents (Elt Ideal)) (x7 : (⟨Cert.ReferenceIdeal.S65536, .i32⟩ : BufTy).Contents (Elt Ideal)) (x8 : (⟨Cert.ReferenceIdeal.S1x80, .f32⟩ : BufTy).Contents (Elt Ideal)) (x9 : (⟨Cert.ReferenceIdeal.S1, .f32⟩ : BufTy).Contents (Elt Ideal)) (i : Fin 65536) (k : Fin 164) (j : Fin 328) (hj : j.val = 164 + k.val) :
    val_main_v46 (F := Ideal) x0 x2 x6 x7 x8 x9 (ix2 i j) = val_main_v44 (F := Ideal) x0 x2 x7 x8 x9 (ix2 i k) := by
  unfold val_main_v46
  generalize val_main_v44 (F := Ideal) x0 x2 x7 x8 x9 = y
  exact concatenate_pair_apply_right (1 : Fin Cert.ReferenceIdeal.S65536x328.rank) x6 y _ (ix2 i j) rfl rfl (ix2 i k) (fun b hb => by
    match b with
    | ⟨0, _⟩ => rfl
    | ⟨1, _⟩ => exact absurd rfl hb) (by show k.val + 164 = j.val; omega)

theorem hidden_ref (x0 : (⟨Cert.ReferenceIdeal.S65536x80, .f32⟩ : BufTy).Contents (Elt Ideal)) (x2 : (⟨Cert.ReferenceIdeal.S65536x256, .f32⟩ : BufTy).Contents (Elt Ideal)) (x6 : (⟨Cert.ReferenceIdeal.S65536x164, .f32⟩ : BufTy).Contents (Elt Ideal)) (x7 : (⟨Cert.ReferenceIdeal.S65536, .i32⟩ : BufTy).Contents (Elt Ideal)) (x8 : (⟨Cert.ReferenceIdeal.S1x80, .f32⟩ : BufTy).Contents (Elt Ideal)) (x9 : (⟨Cert.ReferenceIdeal.S1, .f32⟩ : BufTy).Contents (Elt Ideal)) (x10 : (⟨Cert.ReferenceIdeal.S192x328, .f32⟩ : BufTy).Contents (Elt Ideal)) (i : Fin 65536) (m : Fin 192) :
    val_main_v49 (F := Ideal) x0 x2 x6 x7 x8 x9 x10 (ix2 i m)
      = Ideal.tanh ((∑ k : Fin 164, x6 (ix2 i k) * x10 (ix2 m (⟨k.val, by omega⟩ : Fin 328)))
          + ∑ k : Fin 164, val_main_v44 (F := Ideal) x0 x2 x7 x8 x9 (ix2 i k) * x10 (ix2 m (⟨164 + k.val, by omega⟩ : Fin 328))) := by
  have e1 : ∀ k : Fin 328, lidx_main_v48 (ix2 i m) k = ix2 i k := fun k =>
    funext fun a => Fin.ext (by match a with | ⟨0, _⟩ => rfl | ⟨1, _⟩ => rfl)
  have e2 : ∀ k : Fin 328, idx_main_v47 (ridx_main_v48 (ix2 i m) k) = ix2 m k := fun k =>
    funext fun a => Fin.ext (by match a with | ⟨0, _⟩ => rfl | ⟨1, _⟩ => rfl)
  rw [val_main_v49_apply, val_main_v48_apply, LibExtReal.sum_fin_split 164 164 328 rfl]
  simp only [val_main_v47_apply, e1, e2]
  rw [Ideal.hostUnary_tanh_def]
  congr 2
  · exact Finset.sum_congr rfl fun k _ => by rw [cat_left x0 x2 x6 x7 x8 x9 i k _ rfl]
  · exact Finset.sum_congr rfl fun k _ => by rw [cat_right x0 x2 x6 x7 x8 x9 i k _ rfl]

theorem glu_ref (x0 : (⟨Cert.ReferenceIdeal.S65536x80, .f32⟩ : BufTy).Contents (Elt Ideal)) (x2 : (⟨Cert.ReferenceIdeal.S65536x256, .f32⟩ : BufTy).Contents (Elt Ideal)) (x6 : (⟨Cert.ReferenceIdeal.S65536x164, .f32⟩ : BufTy).Contents (Elt Ideal)) (x7 : (⟨Cert.ReferenceIdeal.S65536, .i32⟩ : BufTy).Contents (Elt Ideal)) (x8 : (⟨Cert.ReferenceIdeal.S1x80, .f32⟩ : BufTy).Contents (Elt Ideal)) (x9 : (⟨Cert.ReferenceIdeal.S1, .f32⟩ : BufTy).Contents (Elt Ideal)) (x10 : (⟨Cert.ReferenceIdeal.S192x328, .f32⟩ : BufTy).Contents (Elt Ideal)) (x11 : (⟨Cert.ReferenceIdeal.S192x192, .f32⟩ : BufTy).Contents (Elt Ideal)) (i : Fin 65536) (n : Fin 192) :
    val_main_v58 (F := Ideal) x0 x2 x6 x7 x8 x9 x10 x11 (ix2 i n)
      = val_main_v49 (F := Ideal) x0 x2 x6 x7 x8 x9 x10 (ix2 i n)
        * Ideal.logistic (∑ k : Fin 192, val_main_v49 (F := Ideal) x0 x2 x6 x7 x8 x9 x10 (ix2 i k) * x11 (ix2 n k)) := by
  have e1 : ∀ k : Fin 192, lidx_main_v51 (ix2 i n) k = ix2 i k := fun k =>
    funext fun a => Fin.ext (by match a with | ⟨0, _⟩ => rfl | ⟨1, _⟩ => rfl)
  have e2 : ∀ k : Fin 192, idx_main_v50 (ridx_main_v51 (ix2 i n) k) = ix2 n k := fun k =>
    funext fun a => Fin.ext (by match a with | ⟨0, _⟩ => rfl | ⟨1, _⟩ => rfl)
  rw [val_main_v58_apply, val_main_v57_apply, val_main_v56_apply, val_main_cst_12_apply, val_main_v55_apply,
    val_main_v54_apply, val_main_cst_11_apply, val_main_v53_apply, val_main_v52_apply, val_main_v51_apply]
  simp only [val_main_v50_apply, e1, e2]
  simp only [Ideal.mulf_def, Ideal.hostDivf_def, Ideal.addf_def, Ideal.hostUnary_exp_def, Ideal.hostNegf_def, Ideal.negf_def,
    Ideal.ofBits_def, Ideal.ofBits_one_f32]
  rfl

theorem fwc_stage (t : Fin 64)
    (x0 : (⟨Cert.ReferenceIdeal.S65536x80, .f32⟩ : BufTy).Contents (Elt Ideal)) (x2 : (⟨Cert.ReferenceIdeal.S65536x256, .f32⟩ : BufTy).Contents (Elt Ideal)) (x6 : (⟨Cert.ReferenceIdeal.S65536x164, .f32⟩ : BufTy).Contents (Elt Ideal)) (x7 : (⟨Cert.ReferenceIdeal.S65536, .i32⟩ : BufTy).Contents (Elt Ideal)) (x8 : (⟨Cert.ReferenceIdeal.S1x80, .f32⟩ : BufTy).Contents (Elt Ideal)) (x9 : (⟨Cert.ReferenceIdeal.S1, .f32⟩ : BufTy).Contents (Elt Ideal)) (x10 : (⟨Cert.ReferenceIdeal.S192x328, .f32⟩ : BufTy).Contents (Elt Ideal)) (x11 : (⟨Cert.ReferenceIdeal.S192x192, .f32⟩ : BufTy).Contents (Elt Ideal))
    (v0 : Vec Ideal Cert.KernelIdeal.S1024x80 .f32) (v2 : Vec Ideal Cert.KernelIdeal.S1024x256 .f32) (v6 : Vec Ideal Cert.KernelIdeal.S1024x164 .f32) (v13 : FVec Ideal Cert.KernelIdeal.S164x192 .bf16) (v15 : FVec Ideal Cert.KernelIdeal.S164x192 .bf16) (v17 : FVec Ideal Cert.KernelIdeal.S192x192 .bf16) (v70 : FVec Ideal Cert.KernelIdeal.S1024x1 .f32) (v88 : IVec Cert.KernelIdeal.S1024x44 32) (v89 : IVec Cert.KernelIdeal.S1024x256 32) (v96 : FVec Ideal Cert.KernelIdeal.S1024x1 .f32) (v103 : FVec Ideal Cert.KernelIdeal.S1024x1 .f32) (v110 : FVec Ideal Cert.KernelIdeal.S1024x1 .f32) (v117 : FVec Ideal Cert.KernelIdeal.S1024x1 .f32) (v124 : FVec Ideal Cert.KernelIdeal.S1024x1 .f32) (v131 : FVec Ideal Cert.KernelIdeal.S1024x1 .f32) (v138 : FVec Ideal Cert.KernelIdeal.S1024x1 .f32) (v145 : FVec Ideal Cert.KernelIdeal.S1024x1 .f32) (v152 : FVec Ideal Cert.KernelIdeal.S1024x1 .f32) (v159 : FVec Ideal Cert.KernelIdeal.S1024x1 .f32) (v166 : FVec Ideal Cert.KernelIdeal.S1024x1 .f32) (v173 : FVec Ideal Cert.KernelIdeal.S1024x1 .f32) (v180 : FVec Ideal Cert.KernelIdeal.S1024x1 .f32) (v187 : FVec Ideal Cert.KernelIdeal.S1024x1 .f32) (v194 : FVec Ideal Cert.KernelIdeal.S1024x1 .f32) (v201 : FVec Ideal Cert.KernelIdeal.S1024x1 .f32) (v208 : FVec Ideal Cert.KernelIdeal.S1024x1 .f32) (v215 : FVec Ideal Cert.KernelIdeal.S1024x1 .f32) (v222 : FVec Ideal Cert.KernelIdeal.S1024x1 .f32) (v229 : FVec Ideal Cert.KernelIdeal.S1024x1 .f32) (v236 : FVec Ideal Cert.KernelIdeal.S1024x1 .f32) (v243 : FVec Ideal Cert.KernelIdeal.S1024x1 .f32) (v250 : FVec Ideal Cert.KernelIdeal.S1024x1 .f32) (v257 : FVec Ideal Cert.KernelIdeal.S1024x1 .f32) (v264 : FVec Ideal Cert.KernelIdeal.S1024x1 .f32) (v271 : FVec Ideal Cert.KernelIdeal.S1024x1 .f32) (v278 : FVec Ideal Cert.KernelIdeal.S1024x1 .f32) (v285 : FVec Ideal Cert.KernelIdeal.S1024x1 .f32) (v292 : FVec Ideal Cert.KernelIdeal.S1024x1 .f32) (v299 : FVec Ideal Cert.KernelIdeal.S1024x1 .f32) (v306 : FVec Ideal Cert.KernelIdeal.S1024x1 .f32) (v313 : FVec Ideal Cert.KernelIdeal.S1024x1 .f32) (v320 : FVec Ideal Cert.KernelIdeal.S1024x1 .f32) (v327 : FVec Ideal Cert.KernelIdeal.S1024x1 .f32) (v334 : FVec Ideal Cert.KernelIdeal.S1024x1 .f32) (v341 : FVec Ideal Cert.KernelIdeal.S1024x1 .f32) (v348 : FVec Ideal Cert.KernelIdeal.S1024x1 .f32) (v355 : FVec Ideal Cert.KernelIdeal.S1024x1 .f32) (v362 : FVec Ideal Cert.KernelIdeal.S1024x1 .f32) (v369 : FVec Ideal Cert.KernelIdeal.S1024x1 .f32) (v376 : FVec Ideal Cert.KernelIdeal.S1024x1 .f32) (v381 : Vec Ideal Cert.KernelIdeal.S1024x256 .f32)
    (h6 : ∀ (r : Fin 1024) (i : Fin 65536) (k : Fin 164), i.val = 1024 * t.val + r.val → v6 (ix2 r k) = x6 (ix2 i k))
    (htmp : ∀ (r : Fin 1024) (i : Fin 65536) (k : Fin 164), i.val = 1024 * t.val + r.val →
      k0_pay76 v0 v2 v70 v88 v89 v96 v103 v110 v117 v124 v131 v138 v145 v152 v159 v166 v173 v180 v187 v194 v201 v208 v215 v222 v229 v236 v243 v250 v257 v264 v271 v278 v285 v292 v299 v306 v313 v320 v327 v334 v341 v348 v355 v362 v369 v376 v381 (ix2 r k) = val_main_v44 (F := Ideal) x0 x2 x7 x8 x9 (ix2 i k))
    (h13 : ∀ (k : Fin 164) (n : Fin 192) (j : Fin 328), j.val = k.val → v13 (ix2 k n) = x10 (ix2 n j))
    (h15 : ∀ (k : Fin 164) (n : Fin 192) (j : Fin 328), j.val = 164 + k.val → v15 (ix2 k n) = x10 (ix2 n j))
    (h17 : ∀ (k : Fin 192) (n : Fin 192), v17 (ix2 k n) = x11 (ix2 n k)) :
    ∀ (r : Fin 1024) (i : Fin 65536) (n : Fin 192), i.val = 1024 * t.val + r.val →
      k0_pay78 v0 v2 v6 v13 v15 v17 v70 v88 v89 v96 v103 v110 v117 v124 v131 v138 v145 v152 v159 v166 v173 v180 v187 v194 v201 v208 v215 v222 v229 v236 v243 v250 v257 v264 v271 v278 v285 v292 v299 v306 v313 v320 v327 v334 v341 v348 v355 v362 v369 v376 v381 (ix2 r n) = val_main_v58 (F := Ideal) x0 x2 x6 x7 x8 x9 x10 x11 (ix2 i n) := by
  intro r i n hi
  unfold k0_pay78
  generalize k0_pay76 v0 v2 v70 v88 v89 v96 v103 v110 v117 v124 v131 v138 v145 v152 v159 v166 v173 v180 v187 v194 v201 v208 v215 v222 v229 v236 v243 v250 v257 v264 v271 v278 v285 v292 v299 v306 v313 v320 v327 v334 v341 v348 v355 v362 v369 v376 v381 = T at htmp ⊢
  have hH : ∀ m : Fin 192,
      tanh (addf (matmul Cert.KernelIdeal.dot_S1024x164_S164x192_S1024x192_1_0_0_1_n_n none (truncf .bf16 v6 Cert.KernelIdeal.Gen.bitsLt_bf16_f32) v13 (constant (F := Ideal) Cert.KernelIdeal.S1024x192 .f32 0x00000000#32))
        (matmul Cert.KernelIdeal.dot_S1024x164_S164x192_S1024x192_1_0_0_1_n_n none (truncf .bf16 T Cert.KernelIdeal.Gen.bitsLt_bf16_f32) v15 (constant (F := Ideal) Cert.KernelIdeal.S1024x192 .f32 0x00000000#32))) (ix2 r m)
        = val_main_v49 (F := Ideal) x0 x2 x6 x7 x8 x9 x10 (ix2 i m) := fun m => by
    rw [hidden_kernel, hidden_ref]
    congr 2
    · exact Finset.sum_congr rfl fun k _ => by rw [h6 r i k hi, h13 k m ⟨k.val, by omega⟩ rfl]
    · exact Finset.sum_congr rfl fun k _ => by rw [htmp r i k hi, h15 k m ⟨164 + k.val, by omega⟩ rfl]
  refine (glu_kernel _ v17 r n).trans ?_
  rw [glu_ref, hH n]
  congr 2
  exact Finset.sum_congr rfl fun k _ => by rw [hH k, h17 k n]

theorem lhs_pg_0 (i : Cert.KernelIdeal.S1024x4.Idx) (q : Cert.KernelIdeal.dot_S1024x192_S192x4_S1024x4_1_0_0_1_n_n.contr.Idx) :
    (Cert.KernelIdeal.dot_S1024x192_S192x4_S1024x4_1_0_0_1_n_n.lhsIdx i q 0).val = (i 0).val := by
  unfold DotDims.lhsIdx
  rw [dif_neg (show ¬(0 : Fin Cert.KernelIdeal.S1024x192.rank) ∈ Cert.KernelIdeal.dot_S1024x192_S192x4_S1024x4_1_0_0_1_n_n.lhsBatch by decide), dif_pos (show (0 : Fin Cert.KernelIdeal.S1024x192.rank) ∈ Cert.KernelIdeal.dot_S1024x192_S192x4_S1024x4_1_0_0_1_n_n.lhsNonContracting by decide)]
  rfl
theorem lhs_pg_1 (i : Cert.KernelIdeal.S1024x4.Idx) (q : Cert.KernelIdeal.dot_S1024x192_S192x4_S1024x4_1_0_0_1_n_n.contr.Idx) :
    (Cert.KernelIdeal.dot_S1024x192_S192x4_S1024x4_1_0_0_1_n_n.lhsIdx i q 1).val = (q ⟨0, by decide⟩).val :=
  Cert.KernelIdeal.dot_S1024x192_S192x4_S1024x4_1_0_0_1_n_n.lhsIdx_val_of_single rfl i q
theorem rhs_pg_0 (i : Cert.KernelIdeal.S1024x4.Idx) (q : Cert.KernelIdeal.dot_S1024x192_S192x4_S1024x4_1_0_0_1_n_n.contr.Idx) :
    (Cert.KernelIdeal.dot_S1024x192_S192x4_S1024x4_1_0_0_1_n_n.rhsIdx i q 0).val = (q ⟨0, by decide⟩).val :=
  Cert.KernelIdeal.dot_S1024x192_S192x4_S1024x4_1_0_0_1_n_n.rhsIdx_val_of_single rfl i q
theorem rhs_pg_1 (i : Cert.KernelIdeal.S1024x4.Idx) (q : Cert.KernelIdeal.dot_S1024x192_S192x4_S1024x4_1_0_0_1_n_n.contr.Idx) :
    (Cert.KernelIdeal.dot_S1024x192_S192x4_S1024x4_1_0_0_1_n_n.rhsIdx i q 1).val = (i 1).val := by
  unfold DotDims.rhsIdx
  rw [dif_neg (show ¬(1 : Fin Cert.KernelIdeal.S192x4.rank) ∈ Cert.KernelIdeal.dot_S1024x192_S192x4_S1024x4_1_0_0_1_n_n.rhsBatch by decide), dif_pos (show (1 : Fin Cert.KernelIdeal.S192x4.rank) ∈ Cert.KernelIdeal.dot_S1024x192_S192x4_S1024x4_1_0_0_1_n_n.rhsNonContracting by decide)]
  rfl

theorem mm_pg_apply (a : FVec Ideal Cert.KernelIdeal.S1024x192 .bf16) (b : FVec Ideal Cert.KernelIdeal.S192x4 .bf16) (r : Fin 1024) (n : Fin 4) :
    matmul Cert.KernelIdeal.dot_S1024x192_S192x4_S1024x4_1_0_0_1_n_n none a b (constant (F := Ideal) Cert.KernelIdeal.S1024x4 .f32 0x00000000#32) (ix2 r n)
      = ∑ k : Fin 192, a (ix2 r k) * b (ix2 k n) := by
  refine (Ideal.matmul_constant_zero_apply Cert.KernelIdeal.dot_S1024x192_S192x4_S1024x4_1_0_0_1_n_n none a b (ix2 r n)).trans ?_
  rw [← Equiv.sum_comp (contrEquiv1 Cert.KernelIdeal.dot_S1024x192_S192x4_S1024x4_1_0_0_1_n_n 192 rfl rfl).symm]
  refine Finset.sum_congr rfl fun k _ => ?_
  have hk := contrEquiv1_symm_val Cert.KernelIdeal.dot_S1024x192_S192x4_S1024x4_1_0_0_1_n_n 192 rfl rfl k
  have el : Cert.KernelIdeal.dot_S1024x192_S192x4_S1024x4_1_0_0_1_n_n.lhsIdx (ix2 r n) ((contrEquiv1 Cert.KernelIdeal.dot_S1024x192_S192x4_S1024x4_1_0_0_1_n_n 192 rfl rfl).symm k) = ix2 r k := funext fun a => Fin.ext (by
    match a with
    | ⟨0, _⟩ => exact lhs_pg_0 _ _
    | ⟨1, _⟩ => exact (lhs_pg_1 _ _).trans hk)
  have er : Cert.KernelIdeal.dot_S1024x192_S192x4_S1024x4_1_0_0_1_n_n.rhsIdx (ix2 r n) ((contrEquiv1 Cert.KernelIdeal.dot_S1024x192_S192x4_S1024x4_1_0_0_1_n_n 192 rfl rfl).symm k) = ix2 k n := funext fun a => Fin.ext (by
    match a with
    | ⟨0, _⟩ => exact (rhs_pg_0 _ _).trans hk
    | ⟨1, _⟩ => exact rhs_pg_1 _ _)
  rw [el, er]

theorem pitch_gain_kernel (V : FVec Ideal Cert.KernelIdeal.S1024x192 .bf16) (v19 : FVec Ideal Cert.KernelIdeal.S192x4 .bf16)
    (v21 : FVec Ideal Cert.KernelIdeal.S1x4 .f32) (r : Fin 1024) (q : Fin 4) :
    logistic (addf (matmul Cert.KernelIdeal.dot_S1024x192_S192x4_S1024x4_1_0_0_1_n_n none V v19
        (constant (F := Ideal) Cert.KernelIdeal.S1024x4 .f32 0x00000000#32))
      (broadcastTo Cert.KernelIdeal.S1024x4 v21 Cert.KernelIdeal.Gen.broadcasts_S1x4_S1024x4)) (ix2 r q)
      = Ideal.logistic ((∑ k : Fin 192, V (ix2 r k) * v19 (ix2 k q)) + v21 (ix2 (0 : Fin 1) q)) := by
  show Ideal.logistic (matmul Cert.KernelIdeal.dot_S1024x192_S192x4_S1024x4_1_0_0_1_n_n none V v19
        (constant (F := Ideal) Cert.KernelIdeal.S1024x4 .f32 0x00000000#32) (ix2 r q)
      + broadcastTo Cert.KernelIdeal.S1024x4 v21 Cert.KernelIdeal.Gen.broadcasts_S1x4_S1024x4 (ix2 r q)) = _
  rw [mm_pg_apply, broadcastTo_1b_ab_apply]

theorem pitch_gain_ref (x0 : (⟨Cert.ReferenceIdeal.S65536x80, .f32⟩ : BufTy).Contents (Elt Ideal)) (x2 : (⟨Cert.ReferenceIdeal.S65536x256, .f32⟩ : BufTy).Contents (Elt Ideal)) (x6 : (⟨Cert.ReferenceIdeal.S65536x164, .f32⟩ : BufTy).Contents (Elt Ideal)) (x7 : (⟨Cert.ReferenceIdeal.S65536, .i32⟩ : BufTy).Contents (Elt Ideal)) (x8 : (⟨Cert.ReferenceIdeal.S1x80, .f32⟩ : BufTy).Contents (Elt Ideal)) (x9 : (⟨Cert.ReferenceIdeal.S1, .f32⟩ : BufTy).Contents (Elt Ideal)) (x10 : (⟨Cert.ReferenceIdeal.S192x328, .f32⟩ : BufTy).Contents (Elt Ideal)) (x11 : (⟨Cert.ReferenceIdeal.S192x192, .f32⟩ : BufTy).Contents (Elt Ideal)) (x12 : (⟨Cert.ReferenceIdeal.S4x192, .f32⟩ : BufTy).Contents (Elt Ideal)) (x13 : (⟨Cert.ReferenceIdeal.S4, .f32⟩ : BufTy).Contents (Elt Ideal))
    (i : Fin 65536) (q : Fin 4) :
    val_main_v69 (F := Ideal) x0 x2 x6 x7 x8 x9 x10 x11 x12 x13 (ix2 i q)
      = Ideal.logistic ((∑ k : Fin 192, val_main_v58 (F := Ideal) x0 x2 x6 x7 x8 x9 x10 x11 (ix2 i k) * x12 (ix2 q k)) + x13 (ix1 q)) := by
  have e1 : ∀ k : Fin 192, lidx_main_v60 (ix2 i q) k = ix2 i k := fun k =>
    funext fun a => Fin.ext (by match a with | ⟨0, _⟩ => rfl | ⟨1, _⟩ => rfl)
  have e2 : ∀ k : Fin 192, idx_main_v59 (ridx_main_v60 (ix2 i q) k) = ix2 q k := fun k =>
    funext fun a => Fin.ext (by match a with | ⟨0, _⟩ => rfl | ⟨1, _⟩ => rfl)
  have e3 : idx_main_v61 (idx_main_v62 (ix2 i q)) = ix1 q :=
    funext fun a => Fin.ext (by match a with | ⟨0, _⟩ => rfl)
  rw [val_main_v69_apply, val_main_v68_apply, val_main_cst_14_apply, val_main_v67_apply, val_main_v66_apply,
    val_main_cst_13_apply, val_main_v65_apply, val_main_v64_apply, val_main_v63_apply, val_main_v60_apply,
    val_main_v62_apply, val_main_v61_apply, e3]
  simp only [val_main_v59_apply, e1, e2]
  simp only [Ideal.hostDivf_def, Ideal.addf_def, Ideal.hostUnary_exp_def, Ideal.hostNegf_def, Ideal.negf_def,
    Ideal.ofBits_def, Ideal.ofBits_one_f32]
  rfl

theorem pitch_gain_stage (t : Fin 64)
    (x0 : (⟨Cert.ReferenceIdeal.S65536x80, .f32⟩ : BufTy).Contents (Elt Ideal)) (x2 : (⟨Cert.ReferenceIdeal.S65536x256, .f32⟩ : BufTy).Contents (Elt Ideal)) (x6 : (⟨Cert.ReferenceIdeal.S65536x164, .f32⟩ : BufTy).Contents (Elt Ideal)) (x7 : (⟨Cert.ReferenceIdeal.S65536, .i32⟩ : BufTy).Contents (Elt Ideal)) (x8 : (⟨Cert.ReferenceIdeal.S1x80, .f32⟩ : BufTy).Contents (Elt Ideal)) (x9 : (⟨Cert.ReferenceIdeal.S1, .f32⟩ : BufTy).Contents (Elt Ideal)) (x10 : (⟨Cert.ReferenceIdeal.S192x328, .f32⟩ : BufTy).Contents (Elt Ideal)) (x11 : (⟨Cert.ReferenceIdeal.S192x192, .f32⟩ : BufTy).Contents (Elt Ideal)) (x12 : (⟨Cert.ReferenceIdeal.S4x192, .f32⟩ : BufTy).Contents (Elt Ideal)) (x13 : (⟨Cert.ReferenceIdeal.S4, .f32⟩ : BufTy).Contents (Elt Ideal))
    (v0 : Vec Ideal Cert.KernelIdeal.S1024x80 .f32) (v2 : Vec Ideal Cert.KernelIdeal.S1024x256 .f32) (v6 : Vec Ideal Cert.KernelIdeal.S1024x164 .f32) (v13 : FVec Ideal Cert.KernelIdeal.S164x192 .bf16) (v15 : FVec Ideal Cert.KernelIdeal.S164x192 .bf16) (v17 : FVec Ideal Cert.KernelIdeal.S192x192 .bf16) (v19 : FVec Ideal Cert.KernelIdeal.S192x4 .bf16) (v21 : FVec Ideal Cert.KernelIdeal.S1x4 .f32) (v70 : FVec Ideal Cert.KernelIdeal.S1024x1 .f32) (v88 : IVec Cert.KernelIdeal.S1024x44 32) (v89 : IVec Cert.KernelIdeal.S1024x256 32) (v96 : FVec Ideal Cert.KernelIdeal.S1024x1 .f32) (v103 : FVec Ideal Cert.KernelIdeal.S1024x1 .f32) (v110 : FVec Ideal Cert.KernelIdeal.S1024x1 .f32) (v117 : FVec Ideal Cert.KernelIdeal.S1024x1 .f32) (v124 : FVec Ideal Cert.KernelIdeal.S1024x1 .f32) (v131 : FVec Ideal Cert.KernelIdeal.S1024x1 .f32) (v138 : FVec Ideal Cert.KernelIdeal.S1024x1 .f32) (v145 : FVec Ideal Cert.KernelIdeal.S1024x1 .f32) (v152 : FVec Ideal Cert.KernelIdeal.S1024x1 .f32) (v159 : FVec Ideal Cert.KernelIdeal.S1024x1 .f32) (v166 : FVec Ideal Cert.KernelIdeal.S1024x1 .f32) (v173 : FVec Ideal Cert.KernelIdeal.S1024x1 .f32) (v180 : FVec Ideal Cert.KernelIdeal.S1024x1 .f32) (v187 : FVec Ideal Cert.KernelIdeal.S1024x1 .f32) (v194 : FVec Ideal Cert.KernelIdeal.S1024x1 .f32) (v201 : FVec Ideal Cert.KernelIdeal.S1024x1 .f32) (v208 : FVec Ideal Cert.KernelIdeal.S1024x1 .f32) (v215 : FVec Ideal Cert.KernelIdeal.S1024x1 .f32) (v222 : FVec Ideal Cert.KernelIdeal.S1024x1 .f32) (v229 : FVec Ideal Cert.KernelIdeal.S1024x1 .f32) (v236 : FVec Ideal Cert.KernelIdeal.S1024x1 .f32) (v243 : FVec Ideal Cert.KernelIdeal.S1024x1 .f32) (v250 : FVec Ideal Cert.KernelIdeal.S1024x1 .f32) (v257 : FVec Ideal Cert.KernelIdeal.S1024x1 .f32) (v264 : FVec Ideal Cert.KernelIdeal.S1024x1 .f32) (v271 : FVec Ideal Cert.KernelIdeal.S1024x1 .f32) (v278 : FVec Ideal Cert.KernelIdeal.S1024x1 .f32) (v285 : FVec Ideal Cert.KernelIdeal.S1024x1 .f32) (v292 : FVec Ideal Cert.KernelIdeal.S1024x1 .f32) (v299 : FVec Ideal Cert.KernelIdeal.S1024x1 .f32) (v306 : FVec Ideal Cert.KernelIdeal.S1024x1 .f32) (v313 : FVec Ideal Cert.KernelIdeal.S1024x1 .f32) (v320 : FVec Ideal Cert.KernelIdeal.S1024x1 .f32) (v327 : FVec Ideal Cert.KernelIdeal.S1024x1 .f32) (v334 : FVec Ideal Cert.KernelIdeal.S1024x1 .f32) (v341 : FVec Ideal Cert.KernelIdeal.S1024x1 .f32) (v348 : FVec Ideal Cert.KernelIdeal.S1024x1 .f32) (v355 : FVec Ideal Cert.KernelIdeal.S1024x1 .f32) (v362 : FVec Ideal Cert.KernelIdeal.S1024x1 .f32) (v369 : FVec Ideal Cert.KernelIdeal.S1024x1 .f32) (v376 : FVec Ideal Cert.KernelIdeal.S1024x1 .f32) (v381 : Vec Ideal Cert.KernelIdeal.S1024x256 .f32)
    (hfwc : ∀ (r : Fin 1024) (i : Fin 65536) (n : Fin 192), i.val = 1024 * t.val + r.val →
      k0_pay78 v0 v2 v6 v13 v15 v17 v70 v88 v89 v96 v103 v110 v117 v124 v131 v138 v145 v152 v159 v166 v173 v180 v187 v194 v201 v208 v215 v222 v229 v236 v243 v250 v257 v264 v271 v278 v285 v292 v299 v306 v313 v320 v327 v334 v341 v348 v355 v362 v369 v376 v381 (ix2 r n) = val_main_v58 (F := Ideal) x0 x2 x6 x7 x8 x9 x10 x11 (ix2 i n))
    (h19 : ∀ (k : Fin 192) (q : Fin 4), v19 (ix2 k q) = x12 (ix2 q k))
    (h21 : ∀ (q : Fin 4), v21 (ix2 (0 : Fin 1) q) = x13 (ix1 q)) :
    ∀ (r : Fin 1024) (i : Fin 65536) (q : Fin 4), i.val = 1024 * t.val + r.val →
      k0_pay79 v0 v2 v6 v13 v15 v17 v19 v21 v70 v88 v89 v96 v103 v110 v117 v124 v131 v138 v145 v152 v159 v166 v173 v180 v187 v194 v201 v208 v215 v222 v229 v236 v243 v250 v257 v264 v271 v278 v285 v292 v299 v306 v313 v320 v327 v334 v341 v348 v355 v362 v369 v376 v381 (ix2 r q) = val_main_v69 (F := Ideal) x0 x2 x6 x7 x8 x9 x10 x11 x12 x13 (ix2 i q) := by
  intro r i q hi
  unfold k0_pay79
  generalize k0_pay78 v0 v2 v6 v13 v15 v17 v70 v88 v89 v96 v103 v110 v117 v124 v131 v138 v145 v152 v159 v166 v173 v180 v187 v194 v201 v208 v215 v222 v229 v236 v243 v250 v257 v264 v271 v278 v285 v292 v299 v306 v313 v320 v327 v334 v341 v348 v355 v362 v369 v376 v381 = V at hfwc ⊢
  refine (pitch_gain_kernel V v19 v21 r q).trans ?_
  rw [pitch_gain_ref]
  congr 2
  · exact Finset.sum_congr rfl fun k _ => by rw [hfwc r i k hi, h19 k q]
  · exact h21 q

end Cert.Bridge.StageFwc
-- ==== Proof.ChainFwc.lean ====
import proofs.«401269_j23398981829052_3_alg».proof.Proof.Chain0
import proofs.«401269_j23398981829052_3_alg».proof.Proof.StageFwc

noncomputable section

namespace Cert.Bridge.Chain

open Idealize.ShloMosaic Idealize.ShloMosaic.TcCoe Idealize.ShloMosaic.ValueIdx
open Cert.KernelIdeal Cert.KernelIdeal.Gen Cert.ReferenceIdeal.Read

variable (t : Fin 64)
variable (x0 : (⟨Cert.ReferenceIdeal.S65536x80, .f32⟩ : BufTy).Contents (Elt Ideal))
variable (x1 : (⟨Cert.ReferenceIdeal.S65536x256, .f32⟩ : BufTy).Contents (Elt Ideal))
variable (x2 : (⟨Cert.ReferenceIdeal.S65536x256, .f32⟩ : BufTy).Contents (Elt Ideal))
variable (x3 : (⟨Cert.ReferenceIdeal.S65536x160, .f32⟩ : BufTy).Contents (Elt Ideal))
variable (x4 : (⟨Cert.ReferenceIdeal.S65536x128, .f32⟩ : BufTy).Contents (Elt Ideal))
variable (x5 : (⟨Cert.ReferenceIdeal.S65536x128, .f32⟩ : BufTy).Contents (Elt Ideal))
variable (x6 : (⟨Cert.ReferenceIdeal.S65536x164, .f32⟩ : BufTy).Contents (Elt Ideal))
variable (x7 : (⟨Cert.ReferenceIdeal.S65536, .i32⟩ : BufTy).Contents (Elt Ideal))
variable (x8 : (⟨Cert.ReferenceIdeal.S1x80, .f32⟩ : BufTy).Contents (Elt Ideal))
variable (x9 : (⟨Cert.ReferenceIdeal.S1, .f32⟩ : BufTy).Contents (Elt Ideal))
variable (x10 : (⟨Cert.ReferenceIdeal.S192x328, .f32⟩ : BufTy).Contents (Elt Ideal))
variable (x11 : (⟨Cert.ReferenceIdeal.S192x192, .f32⟩ : BufTy).Contents (Elt Ideal))
variable (x12 : (⟨Cert.ReferenceIdeal.S4x192, .f32⟩ : BufTy).Contents (Elt Ideal))
variable (x13 : (⟨Cert.ReferenceIdeal.S4, .f32⟩ : BufTy).Contents (Elt Ideal))
variable (x14 : (⟨Cert.ReferenceIdeal.S480x272, .f32⟩ : BufTy).Contents (Elt Ideal))
variable (x15 : (⟨Cert.ReferenceIdeal.S480x160, .f32⟩ : BufTy).Contents (Elt Ideal))
variable (x16 : (⟨Cert.ReferenceIdeal.S160x160, .f32⟩ : BufTy).Contents (Elt Ideal))
variable (x17 : (⟨Cert.ReferenceIdeal.S384x240, .f32⟩ : BufTy).Contents (Elt Ideal))
variable (x18 : (⟨Cert.ReferenceIdeal.S384x128, .f32⟩ : BufTy).Contents (Elt Ideal))
variable (x19 : (⟨Cert.ReferenceIdeal.S128x128, .f32⟩ : BufTy).Contents (Elt Ideal))
variable (x20 : (⟨Cert.ReferenceIdeal.S384x208, .f32⟩ : BufTy).Contents (Elt Ideal))
variable (x21 : (⟨Cert.ReferenceIdeal.S384x128, .f32⟩ : BufTy).Contents (Elt Ideal))
variable (x22 : (⟨Cert.ReferenceIdeal.S128x128, .f32⟩ : BufTy).Contents (Elt Ideal))
variable (x23 : (⟨Cert.ReferenceIdeal.S128x688, .f32⟩ : BufTy).Contents (Elt Ideal))
variable (x24 : (⟨Cert.ReferenceIdeal.S128x128, .f32⟩ : BufTy).Contents (Elt Ideal))
variable (x25 : (⟨Cert.ReferenceIdeal.S40x128, .f32⟩ : BufTy).Contents (Elt Ideal))
variable (b : Cert.KernelIdeal.Fr.Blocks Ideal)

theorem sfwc (H : Inputs t x0 x1 x2 x3 x4 x5 x6 x7 x8 x9 x10 x11 x12 x13 x14 x15 x16 x17 x18 x19 x20 x21 x22 x23 x24 x25 b) (htmp : STmp t x0 x2 x7 x8 x9 b) : SFwc t x0 x2 x6 x7 x8 x9 x10 x11 b := by
  unfold SFwc
  unfold STmp at htmp
  unfold Fr.val420
  unfold Fr.val408 at htmp
  exact Cert.Bridge.StageFwc.fwc_stage t x0 x2 x6 x7 x8 x9 x10 x11
    (Fr.val0 b) (Fr.val2 b) (Fr.val6 b) (Fr.val13 b) (Fr.val15 b) (Fr.val17 b) (Fr.val70 b) (Fr.val88 b) Fr.val89 (Fr.val96 b) (Fr.val103 b) (Fr.val110 b) (Fr.val117 b) (Fr.val124 b) (Fr.val131 b) (Fr.val138 b) (Fr.val145 b) (Fr.val152 b) (Fr.val159 b) (Fr.val166 b) (Fr.val173 b) (Fr.val180 b) (Fr.val187 b) (Fr.val194 b) (Fr.val201 b) (Fr.val208 b) (Fr.val215 b) (Fr.val222 b) (Fr.val229 b) (Fr.val236 b) (Fr.val243 b) (Fr.val250 b) (Fr.val257 b) (Fr.val264 b) (Fr.val271 b) (Fr.val278 b) (Fr.val285 b) (Fr.val292 b) (Fr.val299 b) (Fr.val306 b) (Fr.val313 b) (Fr.val320 b) (Fr.val327 b) (Fr.val334 b) (Fr.val341 b) (Fr.val348 b) (Fr.val355 b) (Fr.val362 b) (Fr.val369 b) (Fr.val376 b) (Fr.val381 b)
    H.in6 htmp H.in13 H.in15 H.in17

theorem spg (H : Inputs t x0 x1 x2 x3 x4 x5 x6 x7 x8 x9 x10 x11 x12 x13 x14 x15 x16 x17 x18 x19 x20 x21 x22 x23 x24 x25 b) (hfwc : SFwc t x0 x2 x6 x7 x8 x9 x10 x11 b) :
    SPg t x0 x2 x6 x7 x8 x9 x10 x11 x12 x13 b := by
  unfold SPg
  unfold SFwc at hfwc
  unfold Fr.val424
  unfold Fr.val420 at hfwc
  exact Cert.Bridge.StageFwc.pitch_gain_stage t x0 x2 x6 x7 x8 x9 x10 x11 x12 x13
    (Fr.val0 b) (Fr.val2 b) (Fr.val6 b) (Fr.val13 b) (Fr.val15 b) (Fr.val17 b) (Fr.val19 b) (Fr.val21 b) (Fr.val70 b) (Fr.val88 b) Fr.val89 (Fr.val96 b) (Fr.val103 b) (Fr.val110 b) (Fr.val117 b) (Fr.val124 b) (Fr.val131 b) (Fr.val138 b) (Fr.val145 b) (Fr.val152 b) (Fr.val159 b) (Fr.val166 b) (Fr.val173 b) (Fr.val180 b) (Fr.val187 b) (Fr.val194 b) (Fr.val201 b) (Fr.val208 b) (Fr.val215 b) (Fr.val222 b) (Fr.val229 b) (Fr.val236 b) (Fr.val243 b) (Fr.val250 b) (Fr.val257 b) (Fr.val264 b) (Fr.val271 b) (Fr.val278 b) (Fr.val285 b) (Fr.val292 b) (Fr.val299 b) (Fr.val306 b) (Fr.val313 b) (Fr.val320 b) (Fr.val327 b) (Fr.val334 b) (Fr.val341 b) (Fr.val348 b) (Fr.val355 b) (Fr.val362 b) (Fr.val369 b) (Fr.val376 b) (Fr.val381 b)
    hfwc H.in19 H.in21

end Cert.Bridge.Chain

end
-- ==== Proof.StageK40.lean ====
import proofs.«401269_j23398981829052_3_alg».proof.Proof.Gen.KernelIdeal.Skeleton
import Idealize.ShloMosaic.Lib.ValueIdx
import Idealize.ShloMosaic.PureOps.Ideal.Laws

noncomputable section

namespace Cert.Bridge.K40

open Idealize.ShloMosaic Idealize.ShloMosaic.TcCoe Cert.KernelIdeal Cert.KernelIdeal.Gen

theorem lhs_axis0 (i : S1024x1376.Idx) (q : Cert.KernelIdeal.dot_S1024x40_S40x1376_S1024x1376_1_0_0_1_n_n.contr.Idx) :
    (Cert.KernelIdeal.dot_S1024x40_S40x1376_S1024x1376_1_0_0_1_n_n.lhsIdx i q 0).val = (i 0).val := by
  unfold DotDims.lhsIdx
  rw [dif_neg (show ¬(0 : Fin S1024x40.rank) ∈ Cert.KernelIdeal.dot_S1024x40_S40x1376_S1024x1376_1_0_0_1_n_n.lhsBatch by decide), dif_pos (show (0 : Fin S1024x40.rank) ∈ Cert.KernelIdeal.dot_S1024x40_S40x1376_S1024x1376_1_0_0_1_n_n.lhsNonContracting by decide)]
  rfl

theorem lhs_axis1 (i : S1024x1376.Idx) (q : Cert.KernelIdeal.dot_S1024x40_S40x1376_S1024x1376_1_0_0_1_n_n.contr.Idx) :
    (Cert.KernelIdeal.dot_S1024x40_S40x1376_S1024x1376_1_0_0_1_n_n.lhsIdx i q 1).val = (q ⟨0, by decide⟩).val :=
  Cert.KernelIdeal.dot_S1024x40_S40x1376_S1024x1376_1_0_0_1_n_n.lhsIdx_val_of_single rfl i q

theorem rhs_axis0 (i : S1024x1376.Idx) (q : Cert.KernelIdeal.dot_S1024x40_S40x1376_S1024x1376_1_0_0_1_n_n.contr.Idx) :
    (Cert.KernelIdeal.dot_S1024x40_S40x1376_S1024x1376_1_0_0_1_n_n.rhsIdx i q 0).val = (q ⟨0, by decide⟩).val :=
  Cert.KernelIdeal.dot_S1024x40_S40x1376_S1024x1376_1_0_0_1_n_n.rhsIdx_val_of_single rfl i q

theorem rhs_axis1 (i : S1024x1376.Idx) (q : Cert.KernelIdeal.dot_S1024x40_S40x1376_S1024x1376_1_0_0_1_n_n.contr.Idx) :
    (Cert.KernelIdeal.dot_S1024x40_S40x1376_S1024x1376_1_0_0_1_n_n.rhsIdx i q 1).val = (i 1).val := by
  unfold DotDims.rhsIdx
  rw [dif_neg (show ¬(1 : Fin S40x1376.rank) ∈ Cert.KernelIdeal.dot_S1024x40_S40x1376_S1024x1376_1_0_0_1_n_n.rhsBatch by decide), dif_pos (show (1 : Fin S40x1376.rank) ∈ Cert.KernelIdeal.dot_S1024x40_S40x1376_S1024x1376_1_0_0_1_n_n.rhsNonContracting by decide)]
  rfl

theorem matmul_apply {φ₁ φ₂ : FTy} (a : FVec Ideal S1024x40 φ₁) (w : FVec Ideal S40x1376 φ₂) (r : Fin 1024) (n : Fin 1376) :
    matmul Cert.KernelIdeal.dot_S1024x40_S40x1376_S1024x1376_1_0_0_1_n_n none a w (constant (F := Ideal) S1024x1376 .f32 0x00000000#32) (ValueIdx.ix2 r n)
      = ∑ k : Fin 40, a (ValueIdx.ix2 r k) * w (ValueIdx.ix2 k n) := by
  refine (Ideal.matmul_constant_zero_apply Cert.KernelIdeal.dot_S1024x40_S40x1376_S1024x1376_1_0_0_1_n_n none a w (ValueIdx.ix2 r n)).trans ?_
  rw [← Equiv.sum_comp (ValueIdx.contrEquiv1 Cert.KernelIdeal.dot_S1024x40_S40x1376_S1024x1376_1_0_0_1_n_n 40 rfl rfl).symm]
  refine Finset.sum_congr rfl fun k _ => ?_
  have hk := ValueIdx.contrEquiv1_symm_val Cert.KernelIdeal.dot_S1024x40_S40x1376_S1024x1376_1_0_0_1_n_n 40 rfl rfl k
  have el : Cert.KernelIdeal.dot_S1024x40_S40x1376_S1024x1376_1_0_0_1_n_n.lhsIdx (ValueIdx.ix2 r n) ((ValueIdx.contrEquiv1 Cert.KernelIdeal.dot_S1024x40_S40x1376_S1024x1376_1_0_0_1_n_n 40 rfl rfl).symm k) = ValueIdx.ix2 r k := funext fun a => Fin.ext (by
    match a with
    | ⟨0, _⟩ => exact lhs_axis0 _ _
    | ⟨1, _⟩ => exact (lhs_axis1 _ _).trans hk)
  have er : Cert.KernelIdeal.dot_S1024x40_S40x1376_S1024x1376_1_0_0_1_n_n.rhsIdx (ValueIdx.ix2 r n) ((ValueIdx.contrEquiv1 Cert.KernelIdeal.dot_S1024x40_S40x1376_S1024x1376_1_0_0_1_n_n 40 rfl rfl).symm k) = ValueIdx.ix2 k n := funext fun a => Fin.ext (by
    match a with
    | ⟨0, _⟩ => exact (rhs_axis0 _ _).trans hk
    | ⟨1, _⟩ => exact rhs_axis1 _ _)
  rw [el, er]

theorem matmul_truncf_apply (a : FVec Ideal S1024x40 .f32) (w : FVec Ideal S40x1376 .bf16) (r : Fin 1024) (n : Fin 1376) :
    matmul Cert.KernelIdeal.dot_S1024x40_S40x1376_S1024x1376_1_0_0_1_n_n none (truncf .bf16 a bitsLt_bf16_f32) w (constant (F := Ideal) S1024x1376 .f32 0x00000000#32) (ValueIdx.ix2 r n)
      = ∑ k : Fin 40, a (ValueIdx.ix2 r k) * w (ValueIdx.ix2 k n) :=
  matmul_apply (truncf .bf16 a bitsLt_bf16_f32) w r n

theorem prevAll_apply (v55 : FVec Ideal S40x1376 .bf16) (v407 : FVec Ideal S1024x40 .f32) (r : Fin 1024) (n : Fin 1376) :
    k0_pay85 v55 v407 (ValueIdx.ix2 r n) = ∑ k : Fin 40, v407 (ValueIdx.ix2 r k) * v55 (ValueIdx.ix2 k n) := by
  unfold k0_pay85
  exact matmul_truncf_apply v407 v55 r n

end Cert.Bridge.K40

end
-- ==== Proof.StageGru1.lean ====
import proofs.«401269_j23398981829052_3_alg».proof.Proof.Gen.KernelIdeal.Skeleton
import proofs.«401269_j23398981829052_3_alg».proof.Proof.RefRead
import proofs.«401269_j23398981829052_3_alg».proof.Proof.LibExtReal
import proofs.«401269_j23398981829052_3_alg».proof.Proof.StageK40
import proofs.«401269_j23398981829052_3_alg».proof.Proof.LibLayout
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Bridge.Gru1

open Idealize.ShloMosaic Idealize.ShloMosaic.ValueIdx Idealize.SL.Sem
open Cert.KernelIdeal.Gen Cert.ReferenceIdeal.Read

theorem lhs_ih_0 (i : Cert.KernelIdeal.S1024x480.Idx) (q : Cert.KernelIdeal.dot_S1024x192_S192x480_S1024x480_1_0_0_1_n_n.contr.Idx) :
    (Cert.KernelIdeal.dot_S1024x192_S192x480_S1024x480_1_0_0_1_n_n.lhsIdx i q 0).val = (i 0).val := by
  unfold DotDims.lhsIdx
  rw [dif_neg (show ¬(0 : Fin Cert.KernelIdeal.S1024x192.rank) ∈ Cert.KernelIdeal.dot_S1024x192_S192x480_S1024x480_1_0_0_1_n_n.lhsBatch by decide), dif_pos (show (0 : Fin Cert.KernelIdeal.S1024x192.rank) ∈ Cert.KernelIdeal.dot_S1024x192_S192x480_S1024x480_1_0_0_1_n_n.lhsNonContracting by decide)]
  rfl
theorem lhs_ih_1 (i : Cert.KernelIdeal.S1024x480.Idx) (q : Cert.KernelIdeal.dot_S1024x192_S192x480_S1024x480_1_0_0_1_n_n.contr.Idx) :
    (Cert.KernelIdeal.dot_S1024x192_S192x480_S1024x480_1_0_0_1_n_n.lhsIdx i q 1).val = (q ⟨0, by decide⟩).val :=
  Cert.KernelIdeal.dot_S1024x192_S192x480_S1024x480_1_0_0_1_n_n.lhsIdx_val_of_single rfl i q
theorem rhs_ih_0 (i : Cert.KernelIdeal.S1024x480.Idx) (q : Cert.KernelIdeal.dot_S1024x192_S192x480_S1024x480_1_0_0_1_n_n.contr.Idx) :
    (Cert.KernelIdeal.dot_S1024x192_S192x480_S1024x480_1_0_0_1_n_n.rhsIdx i q 0).val = (q ⟨0, by decide⟩).val :=
  Cert.KernelIdeal.dot_S1024x192_S192x480_S1024x480_1_0_0_1_n_n.rhsIdx_val_of_single rfl i q
theorem rhs_ih_1 (i : Cert.KernelIdeal.S1024x480.Idx) (q : Cert.KernelIdeal.dot_S1024x192_S192x480_S1024x480_1_0_0_1_n_n.contr.Idx) :
    (Cert.KernelIdeal.dot_S1024x192_S192x480_S1024x480_1_0_0_1_n_n.rhsIdx i q 1).val = (i 1).val := by
  unfold DotDims.rhsIdx
  rw [dif_neg (show ¬(1 : Fin Cert.KernelIdeal.S192x480.rank) ∈ Cert.KernelIdeal.dot_S1024x192_S192x480_S1024x480_1_0_0_1_n_n.rhsBatch by decide), dif_pos (show (1 : Fin Cert.KernelIdeal.S192x480.rank) ∈ Cert.KernelIdeal.dot_S1024x192_S192x480_S1024x480_1_0_0_1_n_n.rhsNonContracting by decide)]
  rfl

theorem mm_ih_apply {φ₁ φ₂ : FTy} (l : FVec Ideal Cert.KernelIdeal.S1024x192 φ₁) (w : FVec Ideal Cert.KernelIdeal.S192x480 φ₂)
    (p : Fin 1024) (n : Fin 480) :
    matmul Cert.KernelIdeal.dot_S1024x192_S192x480_S1024x480_1_0_0_1_n_n none l w (constant (F := Ideal) Cert.KernelIdeal.S1024x480 .f32 0x00000000#32) (ix2 p n)
      = ∑ k : Fin 192, l (ix2 p k) * w (ix2 k n) := by
  refine (Ideal.matmul_constant_zero_apply Cert.KernelIdeal.dot_S1024x192_S192x480_S1024x480_1_0_0_1_n_n none l w (ix2 p n)).trans ?_
  rw [← Equiv.sum_comp (contrEquiv1 Cert.KernelIdeal.dot_S1024x192_S192x480_S1024x480_1_0_0_1_n_n 192 rfl rfl).symm]
  refine Finset.sum_congr rfl fun k _ => ?_
  have hk := contrEquiv1_symm_val Cert.KernelIdeal.dot_S1024x192_S192x480_S1024x480_1_0_0_1_n_n 192 rfl rfl k
  have el : Cert.KernelIdeal.dot_S1024x192_S192x480_S1024x480_1_0_0_1_n_n.lhsIdx (ix2 p n) ((contrEquiv1 Cert.KernelIdeal.dot_S1024x192_S192x480_S1024x480_1_0_0_1_n_n 192 rfl rfl).symm k) = ix2 p k := funext fun a => Fin.ext (by
    match a with
    | ⟨0, _⟩ => exact lhs_ih_0 _ _
    | ⟨1, _⟩ => exact (lhs_ih_1 _ _).trans hk)
  have er : Cert.KernelIdeal.dot_S1024x192_S192x480_S1024x480_1_0_0_1_n_n.rhsIdx (ix2 p n) ((contrEquiv1 Cert.KernelIdeal.dot_S1024x192_S192x480_S1024x480_1_0_0_1_n_n 192 rfl rfl).symm k) = ix2 k n := funext fun a => Fin.ext (by
    match a with
    | ⟨0, _⟩ => exact (rhs_ih_0 _ _).trans hk
    | ⟨1, _⟩ => exact rhs_ih_1 _ _)
  rw [el, er]

theorem lhs_hh_0 (i : Cert.KernelIdeal.S1024x480.Idx) (q : Cert.KernelIdeal.dot_S1024x160_S160x480_S1024x480_1_0_0_1_n_n.contr.Idx) :
    (Cert.KernelIdeal.dot_S1024x160_S160x480_S1024x480_1_0_0_1_n_n.lhsIdx i q 0).val = (i 0).val := by
  unfold DotDims.lhsIdx
  rw [dif_neg (show ¬(0 : Fin Cert.KernelIdeal.S1024x160.rank) ∈ Cert.KernelIdeal.dot_S1024x160_S160x480_S1024x480_1_0_0_1_n_n.lhsBatch by decide), dif_pos (show (0 : Fin Cert.KernelIdeal.S1024x160.rank) ∈ Cert.KernelIdeal.dot_S1024x160_S160x480_S1024x480_1_0_0_1_n_n.lhsNonContracting by decide)]
  rfl
theorem lhs_hh_1 (i : Cert.KernelIdeal.S1024x480.Idx) (q : Cert.KernelIdeal.dot_S1024x160_S160x480_S1024x480_1_0_0_1_n_n.contr.Idx) :
    (Cert.KernelIdeal.dot_S1024x160_S160x480_S1024x480_1_0_0_1_n_n.lhsIdx i q 1).val = (q ⟨0, by decide⟩).val :=
  Cert.KernelIdeal.dot_S1024x160_S160x480_S1024x480_1_0_0_1_n_n.lhsIdx_val_of_single rfl i q
theorem rhs_hh_0 (i : Cert.KernelIdeal.S1024x480.Idx) (q : Cert.KernelIdeal.dot_S1024x160_S160x480_S1024x480_1_0_0_1_n_n.contr.Idx) :
    (Cert.KernelIdeal.dot_S1024x160_S160x480_S1024x480_1_0_0_1_n_n.rhsIdx i q 0).val = (q ⟨0, by decide⟩).val :=
  Cert.KernelIdeal.dot_S1024x160_S160x480_S1024x480_1_0_0_1_n_n.rhsIdx_val_of_single rfl i q
theorem rhs_hh_1 (i : Cert.KernelIdeal.S1024x480.Idx) (q : Cert.KernelIdeal.dot_S1024x160_S160x480_S1024x480_1_0_0_1_n_n.contr.Idx) :
    (Cert.KernelIdeal.dot_S1024x160_S160x480_S1024x480_1_0_0_1_n_n.rhsIdx i q 1).val = (i 1).val := by
  unfold DotDims.rhsIdx
  rw [dif_neg (show ¬(1 : Fin Cert.KernelIdeal.S160x480.rank) ∈ Cert.KernelIdeal.dot_S1024x160_S160x480_S1024x480_1_0_0_1_n_n.rhsBatch by decide), dif_pos (show (1 : Fin Cert.KernelIdeal.S160x480.rank) ∈ Cert.KernelIdeal.dot_S1024x160_S160x480_S1024x480_1_0_0_1_n_n.rhsNonContracting by decide)]
  rfl

theorem mm_hh_apply {φ₁ φ₂ : FTy} (l : FVec Ideal Cert.KernelIdeal.S1024x160 φ₁) (w : FVec Ideal Cert.KernelIdeal.S160x480 φ₂)
    (p : Fin 1024) (n : Fin 480) :
    matmul Cert.KernelIdeal.dot_S1024x160_S160x480_S1024x480_1_0_0_1_n_n none l w (constant (F := Ideal) Cert.KernelIdeal.S1024x480 .f32 0x00000000#32) (ix2 p n)
      = ∑ k : Fin 160, l (ix2 p k) * w (ix2 k n) := by
  refine (Ideal.matmul_constant_zero_apply Cert.KernelIdeal.dot_S1024x160_S160x480_S1024x480_1_0_0_1_n_n none l w (ix2 p n)).trans ?_
  rw [← Equiv.sum_comp (contrEquiv1 Cert.KernelIdeal.dot_S1024x160_S160x480_S1024x480_1_0_0_1_n_n 160 rfl rfl).symm]
  refine Finset.sum_congr rfl fun k _ => ?_
  have hk := contrEquiv1_symm_val Cert.KernelIdeal.dot_S1024x160_S160x480_S1024x480_1_0_0_1_n_n 160 rfl rfl k
  have el : Cert.KernelIdeal.dot_S1024x160_S160x480_S1024x480_1_0_0_1_n_n.lhsIdx (ix2 p n) ((contrEquiv1 Cert.KernelIdeal.dot_S1024x160_S160x480_S1024x480_1_0_0_1_n_n 160 rfl rfl).symm k) = ix2 p k := funext fun a => Fin.ext (by
    match a with
    | ⟨0, _⟩ => exact lhs_hh_0 _ _
    | ⟨1, _⟩ => exact (lhs_hh_1 _ _).trans hk)
  have er : Cert.KernelIdeal.dot_S1024x160_S160x480_S1024x480_1_0_0_1_n_n.rhsIdx (ix2 p n) ((contrEquiv1 Cert.KernelIdeal.dot_S1024x160_S160x480_S1024x480_1_0_0_1_n_n 160 rfl rfl).symm k) = ix2 k n := funext fun a => Fin.ext (by
    match a with
    | ⟨0, _⟩ => exact (rhs_hh_0 _ _).trans hk
    | ⟨1, _⟩ => exact rhs_hh_1 _ _)
  rw [el, er]

theorem lhs_gl_0 (i : Cert.KernelIdeal.S1024x160.Idx) (q : Cert.KernelIdeal.dot_S1024x160_S160x160_S1024x160_1_0_0_1_n_n.contr.Idx) :
    (Cert.KernelIdeal.dot_S1024x160_S160x160_S1024x160_1_0_0_1_n_n.lhsIdx i q 0).val = (i 0).val := by
  unfold DotDims.lhsIdx
  rw [dif_neg (show ¬(0 : Fin Cert.KernelIdeal.S1024x160.rank) ∈ Cert.KernelIdeal.dot_S1024x160_S160x160_S1024x160_1_0_0_1_n_n.lhsBatch by decide), dif_pos (show (0 : Fin Cert.KernelIdeal.S1024x160.rank) ∈ Cert.KernelIdeal.dot_S1024x160_S160x160_S1024x160_1_0_0_1_n_n.lhsNonContracting by decide)]
  rfl
theorem lhs_gl_1 (i : Cert.KernelIdeal.S1024x160.Idx) (q : Cert.KernelIdeal.dot_S1024x160_S160x160_S1024x160_1_0_0_1_n_n.contr.Idx) :
    (Cert.KernelIdeal.dot_S1024x160_S160x160_S1024x160_1_0_0_1_n_n.lhsIdx i q 1).val = (q ⟨0, by decide⟩).val :=
  Cert.KernelIdeal.dot_S1024x160_S160x160_S1024x160_1_0_0_1_n_n.lhsIdx_val_of_single rfl i q
theorem rhs_gl_0 (i : Cert.KernelIdeal.S1024x160.Idx) (q : Cert.KernelIdeal.dot_S1024x160_S160x160_S1024x160_1_0_0_1_n_n.contr.Idx) :
    (Cert.KernelIdeal.dot_S1024x160_S160x160_S1024x160_1_0_0_1_n_n.rhsIdx i q 0).val = (q ⟨0, by decide⟩).val :=
  Cert.KernelIdeal.dot_S1024x160_S160x160_S1024x160_1_0_0_1_n_n.rhsIdx_val_of_single rfl i q
theorem rhs_gl_1 (i : Cert.KernelIdeal.S1024x160.Idx) (q : Cert.KernelIdeal.dot_S1024x160_S160x160_S1024x160_1_0_0_1_n_n.contr.Idx) :
    (Cert.KernelIdeal.dot_S1024x160_S160x160_S1024x160_1_0_0_1_n_n.rhsIdx i q 1).val = (i 1).val := by
  unfold DotDims.rhsIdx
  rw [dif_neg (show ¬(1 : Fin Cert.KernelIdeal.S160x160.rank) ∈ Cert.KernelIdeal.dot_S1024x160_S160x160_S1024x160_1_0_0_1_n_n.rhsBatch by decide), dif_pos (show (1 : Fin Cert.KernelIdeal.S160x160.rank) ∈ Cert.KernelIdeal.dot_S1024x160_S160x160_S1024x160_1_0_0_1_n_n.rhsNonContracting by decide)]
  rfl

theorem mm_gl_apply {φ₁ φ₂ : FTy} (l : FVec Ideal Cert.KernelIdeal.S1024x160 φ₁) (w : FVec Ideal Cert.KernelIdeal.S160x160 φ₂)
    (p : Fin 1024) (n : Fin 160) :
    matmul Cert.KernelIdeal.dot_S1024x160_S160x160_S1024x160_1_0_0_1_n_n none l w (constant (F := Ideal) Cert.KernelIdeal.S1024x160 .f32 0x00000000#32) (ix2 p n)
      = ∑ k : Fin 160, l (ix2 p k) * w (ix2 k n) := by
  refine (Ideal.matmul_constant_zero_apply Cert.KernelIdeal.dot_S1024x160_S160x160_S1024x160_1_0_0_1_n_n none l w (ix2 p n)).trans ?_
  rw [← Equiv.sum_comp (contrEquiv1 Cert.KernelIdeal.dot_S1024x160_S160x160_S1024x160_1_0_0_1_n_n 160 rfl rfl).symm]
  refine Finset.sum_congr rfl fun k _ => ?_
  have hk := contrEquiv1_symm_val Cert.KernelIdeal.dot_S1024x160_S160x160_S1024x160_1_0_0_1_n_n 160 rfl rfl k
  have el : Cert.KernelIdeal.dot_S1024x160_S160x160_S1024x160_1_0_0_1_n_n.lhsIdx (ix2 p n) ((contrEquiv1 Cert.KernelIdeal.dot_S1024x160_S160x160_S1024x160_1_0_0_1_n_n 160 rfl rfl).symm k) = ix2 p k := funext fun a => Fin.ext (by
    match a with
    | ⟨0, _⟩ => exact lhs_gl_0 _ _
    | ⟨1, _⟩ => exact (lhs_gl_1 _ _).trans hk)
  have er : Cert.KernelIdeal.dot_S1024x160_S160x160_S1024x160_1_0_0_1_n_n.rhsIdx (ix2 p n) ((contrEquiv1 Cert.KernelIdeal.dot_S1024x160_S160x160_S1024x160_1_0_0_1_n_n 160 rfl rfl).symm k) = ix2 k n := funext fun a => Fin.ext (by
    match a with
    | ⟨0, _⟩ => exact (rhs_gl_0 _ _).trans hk
    | ⟨1, _⟩ => exact rhs_gl_1 _ _)
  rw [el, er]

theorem slice2_apply {α : Type} {a b a' b' : Nat} (off : Fin 2 → Nat) (x : (⟨2, ![a, b]⟩ : Shape).Idx → α)
    (h : (⟨2, ![a, b]⟩ : Shape).Slices off ⟨2, ![a', b']⟩) (p : Fin a') (q : Fin b') (p' : Fin a) (q' : Fin b)
    (hp : p'.val = off 0 + p.val) (hq : q'.val = off 1 + q.val) :
    extractStridedSlice ⟨2, ![a', b']⟩ off x h (ix2 p q) = x (ix2 p' q') :=
  extractStridedSlice_apply off x h (ix2 p q) (ix2 p' q') (fun c => match c with
    | ⟨0, _⟩ => hp
    | ⟨1, _⟩ => hq)

theorem tanh_apply {s : Shape} {φ : FTy} (v : FVec Ideal s φ) (i : s.Idx) :
    Idealize.ShloMosaic.tanh v i = Ideal.tanh (v i) := rfl

variable (t : Fin 64)
  (x0 : (⟨Cert.ReferenceIdeal.S65536x80, .f32⟩ : BufTy).Contents (Elt Ideal))
  (x2 : (⟨Cert.ReferenceIdeal.S65536x256, .f32⟩ : BufTy).Contents (Elt Ideal))
  (x3 : (⟨Cert.ReferenceIdeal.S65536x160, .f32⟩ : BufTy).Contents (Elt Ideal))
  (x6 : (⟨Cert.ReferenceIdeal.S65536x164, .f32⟩ : BufTy).Contents (Elt Ideal))
  (x7 : (⟨Cert.ReferenceIdeal.S65536, .i32⟩ : BufTy).Contents (Elt Ideal))
  (x8 : (⟨Cert.ReferenceIdeal.S1x80, .f32⟩ : BufTy).Contents (Elt Ideal))
  (x9 : (⟨Cert.ReferenceIdeal.S1, .f32⟩ : BufTy).Contents (Elt Ideal))
  (x10 : (⟨Cert.ReferenceIdeal.S192x328, .f32⟩ : BufTy).Contents (Elt Ideal))
  (x11 : (⟨Cert.ReferenceIdeal.S192x192, .f32⟩ : BufTy).Contents (Elt Ideal))
  (x12 : (⟨Cert.ReferenceIdeal.S4x192, .f32⟩ : BufTy).Contents (Elt Ideal))
  (x13 : (⟨Cert.ReferenceIdeal.S4, .f32⟩ : BufTy).Contents (Elt Ideal))
  (x14 : (⟨Cert.ReferenceIdeal.S480x272, .f32⟩ : BufTy).Contents (Elt Ideal))
  (x15 : (⟨Cert.ReferenceIdeal.S480x160, .f32⟩ : BufTy).Contents (Elt Ideal))
  (x16 : (⟨Cert.ReferenceIdeal.S160x160, .f32⟩ : BufTy).Contents (Elt Ideal))
  (v3 : Vec Ideal Cert.KernelIdeal.S1024x160 .f32)
  (v23 : FVec Ideal Cert.KernelIdeal.S192x480 .bf16)
  (v25 : FVec Ideal Cert.KernelIdeal.S160x480 .bf16)
  (v27 : FVec Ideal Cert.KernelIdeal.S160x160 .bf16)
  (v53 : FVec Ideal Cert.KernelIdeal.S40x1376 .bf16)
  (v55 : FVec Ideal Cert.KernelIdeal.S40x1376 .bf16)
  (v407 : FVec Ideal Cert.KernelIdeal.S1024x40 .f32)
  (v409 : FVec Ideal Cert.KernelIdeal.S1024x40 .f32)
  (v420 : FVec Ideal Cert.KernelIdeal.S1024x192 .bf16)
  (v424 : FVec Ideal Cert.KernelIdeal.S1024x4 .f32)
  (v428 : FVec Ideal Cert.KernelIdeal.S1024x480 .f32)
  (v429 : FVec Ideal Cert.KernelIdeal.S1024x480 .f32)

def cellE (a0 a1 a2 b0 b1 b2 h : EReal) : EReal :=
  (1 - Ideal.logistic (a1 + b1)) * Ideal.tanh (a2 + Ideal.logistic (a0 + b0) * b2) + Ideal.logistic (a1 + b1) * h

def cellV (GI GH : FVec Ideal Cert.KernelIdeal.S1024x480 .f32) (h : FVec Ideal Cert.KernelIdeal.S1024x160 .f32) :
    FVec Ideal Cert.KernelIdeal.S1024x160 .f32 :=
  addf
    (mulf
      (subf (broadcast Cert.KernelIdeal.S1024x160 (Scalar.ofBits (F := Ideal) .f32 0x3F800000#32))
        (logistic (addf
          (extractStridedSlice Cert.KernelIdeal.S1024x160 ![0, 160] GI Cert.KernelIdeal.Facts₀.slices_S1024x480_o0_160_S1024x160)
          (extractStridedSlice Cert.KernelIdeal.S1024x160 ![0, 160] GH Cert.KernelIdeal.Facts₀.slices_S1024x480_o0_160_S1024x160))))
      (Idealize.ShloMosaic.tanh (addf
        (extractStridedSlice Cert.KernelIdeal.S1024x160 ![0, 320] GI Cert.KernelIdeal.Facts₀.slices_S1024x480_o0_320_S1024x160)
        (mulf
          (logistic (addf
            (extractStridedSlice Cert.KernelIdeal.S1024x160 ![0, 0] GI Cert.KernelIdeal.Facts₀.slices_S1024x480_o0_0_S1024x160)
            (extractStridedSlice Cert.KernelIdeal.S1024x160 ![0, 0] GH Cert.KernelIdeal.Facts₀.slices_S1024x480_o0_0_S1024x160)))
          (extractStridedSlice Cert.KernelIdeal.S1024x160 ![0, 320] GH Cert.KernelIdeal.Facts₀.slices_S1024x480_o0_320_S1024x160)))))
    (mulf
      (logistic (addf
        (extractStridedSlice Cert.KernelIdeal.S1024x160 ![0, 160] GI Cert.KernelIdeal.Facts₀.slices_S1024x480_o0_160_S1024x160)
        (extractStridedSlice Cert.KernelIdeal.S1024x160 ![0, 160] GH Cert.KernelIdeal.Facts₀.slices_S1024x480_o0_160_S1024x160)))
      h)

def giK (v23 : FVec Ideal Cert.KernelIdeal.S192x480 .bf16) (v55 : FVec Ideal Cert.KernelIdeal.S40x1376 .bf16)
    (v407 : FVec Ideal Cert.KernelIdeal.S1024x40 .f32) (v420 : FVec Ideal Cert.KernelIdeal.S1024x192 .bf16)
    (v428 v429 : FVec Ideal Cert.KernelIdeal.S1024x480 .f32) : FVec Ideal Cert.KernelIdeal.S1024x480 .f32 :=
  addf
    (addf
      (matmul Cert.KernelIdeal.dot_S1024x192_S192x480_S1024x480_1_0_0_1_n_n none v420 v23
        (constant (F := Ideal) Cert.KernelIdeal.S1024x480 .f32 0x00000000#32))
      (mulf v429 v428))
    (extractStridedSlice Cert.KernelIdeal.S1024x480 ![0, 0] (k0_pay85 v55 v407)
      Cert.KernelIdeal.Facts₀.slices_S1024x1376_o0_0_S1024x480)

def ghK (v3 : Vec Ideal Cert.KernelIdeal.S1024x160 .f32) (v25 : FVec Ideal Cert.KernelIdeal.S160x480 .bf16) :
    FVec Ideal Cert.KernelIdeal.S1024x480 .f32 :=
  matmul Cert.KernelIdeal.dot_S1024x160_S160x480_S1024x480_1_0_0_1_n_n none
    (truncf .bf16 v3 Cert.KernelIdeal.Facts₀.bitsLt_bf16_f32) v25
    (constant (F := Ideal) Cert.KernelIdeal.S1024x480 .f32 0x00000000#32)

theorem pay88_eq : k0_pay88 v3 v23 v25 v55 v407 v420 v428 v429 = cellV (giK v23 v55 v407 v420 v428 v429) (ghK v3 v25) v3 := rfl

theorem cellV_at (GI GH : FVec Ideal Cert.KernelIdeal.S1024x480 .f32) (h : FVec Ideal Cert.KernelIdeal.S1024x160 .f32)
    (r : Fin 1024) (n : Fin 160) :
    cellV GI GH h (ix2 r n) = cellE
      (GI (ix2 r (⟨n.val, by have := n.isLt; omega⟩ : Fin 480)))
      (GI (ix2 r (⟨160 + n.val, by have := n.isLt; omega⟩ : Fin 480)))
      (GI (ix2 r (⟨320 + n.val, by have := n.isLt; omega⟩ : Fin 480)))
      (GH (ix2 r (⟨n.val, by have := n.isLt; omega⟩ : Fin 480)))
      (GH (ix2 r (⟨160 + n.val, by have := n.isLt; omega⟩ : Fin 480)))
      (GH (ix2 r (⟨320 + n.val, by have := n.isLt; omega⟩ : Fin 480)))
      (h (ix2 r n)) := by
  unfold cellV cellE
  simp only [addf_apply, mulf_apply, subf_apply, broadcast_apply, LibExtReal.logistic_apply, tanh_apply]
  rw [slice2_apply ![0, 0] GI _ r n r (⟨n.val, by have := n.isLt; omega⟩ : Fin 480) (by show r.val = 0 + r.val; omega) (by show n.val = 0 + n.val; omega),
    slice2_apply ![0, 0] GH _ r n r (⟨n.val, by have := n.isLt; omega⟩ : Fin 480) (by show r.val = 0 + r.val; omega) (by show n.val = 0 + n.val; omega),
    slice2_apply ![0, 160] GI _ r n r (⟨160 + n.val, by have := n.isLt; omega⟩ : Fin 480) (by show r.val = 0 + r.val; omega) rfl,
    slice2_apply ![0, 160] GH _ r n r (⟨160 + n.val, by have := n.isLt; omega⟩ : Fin 480) (by show r.val = 0 + r.val; omega) rfl,
    slice2_apply ![0, 320] GI _ r n r (⟨320 + n.val, by have := n.isLt; omega⟩ : Fin 480) (by show r.val = 0 + r.val; omega) rfl,
    slice2_apply ![0, 320] GH _ r n r (⟨320 + n.val, by have := n.isLt; omega⟩ : Fin 480) (by show r.val = 0 + r.val; omega) rfl]
  rw [Ideal.ofBits_def, Ideal.ofBits_one_f32]

theorem lidx77_ix2 (i : Fin 65536) (m : Fin 480) (k : Fin 160) : lidx_main_v77 (ix2 i m) k = ix2 i k := by
  funext a; match a with
  | ⟨0, _⟩ => rfl
  | ⟨1, _⟩ => rfl
theorem ridx77_ix2 (i : Fin 65536) (m : Fin 480) (k : Fin 160) : idx_main_v76 (ridx_main_v77 (ix2 i m) k) = ix2 m k := by
  funext a; match a with
  | ⟨0, _⟩ => rfl
  | ⟨1, _⟩ => rfl

theorem ref_gh_at (i : Fin 65536) (m : Fin 480) :
    val_main_v77 x3 x15 (ix2 i m) = ∑ k : Fin 160, x3 (ix2 i k) * x15 (ix2 m k) := by
  rw [val_main_v77_apply]
  refine Finset.sum_congr rfl fun k _ => ?_
  rw [val_main_v76_apply, lidx77_ix2, ridx77_ix2]

theorem gh_eq
    (h3 : ∀ (r : Fin 1024) (i : Fin 65536) (k : Fin 160), i.val = 1024 * t.val + r.val → v3 (ix2 r k) = x3 (ix2 i k))
    (h25 : ∀ (k : Fin 160) (n : Fin 480), v25 (ix2 k n) = x15 (ix2 n k))
    (r : Fin 1024) (i : Fin 65536) (m : Fin 480) (hi : i.val = 1024 * t.val + r.val) :
    ghK v3 v25 (ix2 r m) = val_main_v77 x3 x15 (ix2 i m) := by
  unfold ghK
  rw [mm_hh_apply, ref_gh_at]
  refine Finset.sum_congr rfl fun k _ => ?_
  rw [truncf_apply, h3 r i k hi, h25 k m]

theorem idx78_ix2 (i : Fin 65536) (n : Fin 160) :
    idx_main_v78 (ix2 i n) = ix2 i (⟨n.val, by have := n.isLt; omega⟩ : Fin 480) := by
  funext a; match a with
  | ⟨0, _⟩ => rfl
  | ⟨1, _⟩ => rfl
theorem idx79_ix2 (i : Fin 65536) (n : Fin 160) :
    idx_main_v79 (ix2 i n) = ix2 i (⟨160 + n.val, by have := n.isLt; omega⟩ : Fin 480) := by
  funext a; match a with
  | ⟨0, _⟩ => rfl
  | ⟨1, _⟩ => rfl
theorem idx80_ix2 (i : Fin 65536) (n : Fin 160) :
    idx_main_v80 (ix2 i n) = ix2 i (⟨320 + n.val, by have := n.isLt; omega⟩ : Fin 480) := by
  funext a; match a with
  | ⟨0, _⟩ => rfl
  | ⟨1, _⟩ => rfl
theorem idx81_ix2 (i : Fin 65536) (n : Fin 160) :
    idx_main_v81 (ix2 i n) = ix2 i (⟨n.val, by have := n.isLt; omega⟩ : Fin 480) := by
  funext a; match a with
  | ⟨0, _⟩ => rfl
  | ⟨1, _⟩ => rfl
theorem idx82_ix2 (i : Fin 65536) (n : Fin 160) :
    idx_main_v82 (ix2 i n) = ix2 i (⟨160 + n.val, by have := n.isLt; omega⟩ : Fin 480) := by
  funext a; match a with
  | ⟨0, _⟩ => rfl
  | ⟨1, _⟩ => rfl
theorem idx83_ix2 (i : Fin 65536) (n : Fin 160) :
    idx_main_v83 (ix2 i n) = ix2 i (⟨320 + n.val, by have := n.isLt; omega⟩ : Fin 480) := by
  funext a; match a with
  | ⟨0, _⟩ => rfl
  | ⟨1, _⟩ => rfl

theorem ref_cell_at (i : Fin 65536) (n : Fin 160) :
    val_main_v105 x0 x2 x3 x6 x7 x8 x9 x10 x11 x12 x13 x14 x15 (ix2 i n) = cellE
      (val_main_v75 x0 x2 x6 x7 x8 x9 x10 x11 x12 x13 x14 (ix2 i (⟨n.val, by have := n.isLt; omega⟩ : Fin 480)))
      (val_main_v75 x0 x2 x6 x7 x8 x9 x10 x11 x12 x13 x14 (ix2 i (⟨160 + n.val, by have := n.isLt; omega⟩ : Fin 480)))
      (val_main_v75 x0 x2 x6 x7 x8 x9 x10 x11 x12 x13 x14 (ix2 i (⟨320 + n.val, by have := n.isLt; omega⟩ : Fin 480)))
      (val_main_v77 x3 x15 (ix2 i (⟨n.val, by have := n.isLt; omega⟩ : Fin 480)))
      (val_main_v77 x3 x15 (ix2 i (⟨160 + n.val, by have := n.isLt; omega⟩ : Fin 480)))
      (val_main_v77 x3 x15 (ix2 i (⟨320 + n.val, by have := n.isLt; omega⟩ : Fin 480)))
      (x3 (ix2 i n)) := by
  rw [val_main_v105_apply, val_main_v103_apply, val_main_v104_apply, val_main_v102_apply, val_main_v100_apply,
    val_main_v99_apply, val_main_v98_apply, val_main_v97_apply, val_main_v95_apply, val_main_v93_apply,
    val_main_v92_apply, val_main_v91_apply, val_main_v90_apply, val_main_v88_apply, val_main_v86_apply,
    val_main_v85_apply, val_main_v84_apply,
    val_main_v101_apply, val_main_v96_apply, val_main_v94_apply, val_main_v89_apply, val_main_v87_apply,
    val_main_cst_19_apply, val_main_cst_18_apply, val_main_cst_17_apply, val_main_cst_16_apply, val_main_cst_15_apply,
    val_main_v78_apply, val_main_v79_apply, val_main_v80_apply, val_main_v81_apply, val_main_v82_apply, val_main_v83_apply,
    idx78_ix2, idx79_ix2, idx80_ix2, idx81_ix2, idx82_ix2, idx83_ix2]
  simp only [Ideal.ofBits_def, Ideal.ofBits_one_f32]
  rfl

theorem lidx75_ix2 (i : Fin 65536) (m : Fin 480) (k : Fin 272) : lidx_main_v75 (ix2 i m) k = ix2 i k := by
  funext a; match a with
  | ⟨0, _⟩ => rfl
  | ⟨1, _⟩ => rfl
theorem ridx75_ix2 (i : Fin 65536) (m : Fin 480) (k : Fin 272) : idx_main_v74 (ridx_main_v75 (ix2 i m) k) = ix2 m k := by
  funext a; match a with
  | ⟨0, _⟩ => rfl
  | ⟨1, _⟩ => rfl

theorem ref_gi_sum (i : Fin 65536) (m : Fin 480) :
    val_main_v75 x0 x2 x6 x7 x8 x9 x10 x11 x12 x13 x14 (ix2 i m)
      = ∑ k : Fin 272, val_main_v73 x0 x2 x6 x7 x8 x9 x10 x11 x12 x13 (ix2 i k) * x14 (ix2 m k) := by
  rw [val_main_v75_apply]
  refine Finset.sum_congr rfl fun k _ => ?_
  rw [val_main_v74_apply, lidx75_ix2, ridx75_ix2]

theorem v73_fwc (i : Fin 65536) (k : Fin 192) (j : Fin 272) (hj : j.val = k.val) :
    val_main_v73 x0 x2 x6 x7 x8 x9 x10 x11 x12 x13 (ix2 i j) = val_main_v58 x0 x2 x6 x7 x8 x9 x10 x11 (ix2 i k) := by
  unfold val_main_v73
  generalize val_main_v58 x0 x2 x6 x7 x8 x9 x10 x11 = y0
  generalize val_main_v72 x0 x2 x6 x7 x8 x9 x10 x11 x12 x13 = y1
  generalize val_main_v43 x0 x2 x8 x9 = y2
  refine concatenate_apply_piece 1 _ _ (ix2 i j) 0 (by show (0 : Nat) < 3; omega) Cert.ReferenceIdeal.S65536x192 y0 rfl rfl 0 rfl (ix2 i k) ?_ ?_
  · intro b hb
    match b with
    | ⟨0, _⟩ => rfl
    | ⟨1, _⟩ => exact absurd rfl hb
  · show 0 + k.val = j.val
    omega

theorem v73_pitch (i : Fin 65536) (k : Fin 40) (j : Fin 272) (hj : j.val = 192 + k.val) :
    val_main_v73 x0 x2 x6 x7 x8 x9 x10 x11 x12 x13 (ix2 i j)
      = val_main_v69 x0 x2 x6 x7 x8 x9 x10 x11 x12 x13 (ix2 i (0 : Fin 4)) * val_main_v45 x0 x2 x7 x8 x9 (ix2 i k) := by
  have e : val_main_v73 x0 x2 x6 x7 x8 x9 x10 x11 x12 x13 (ix2 i j) = val_main_v72 x0 x2 x6 x7 x8 x9 x10 x11 x12 x13 (ix2 i k) := by
    unfold val_main_v73
    generalize val_main_v58 x0 x2 x6 x7 x8 x9 x10 x11 = y0
    generalize val_main_v72 x0 x2 x6 x7 x8 x9 x10 x11 x12 x13 = y1
    generalize val_main_v43 x0 x2 x8 x9 = y2
    refine concatenate_apply_piece 1 _ _ (ix2 i j) 1 (by show (1 : Nat) < 3; omega) Cert.ReferenceIdeal.S65536x40 y1 rfl rfl 192 rfl (ix2 i k) ?_ ?_
    · intro b hb
      match b with
      | ⟨0, _⟩ => rfl
      | ⟨1, _⟩ => exact absurd rfl hb
    · show 192 + k.val = j.val
      omega
  rw [e, val_main_v72_apply, val_main_v71_apply, val_main_v70_apply]
  have e2 : idx_main_v70 (idx_main_v71 (ix2 i k)) = ix2 i (0 : Fin 4) := by
    funext a; match a with
    | ⟨0, _⟩ => rfl
    | ⟨1, _⟩ => rfl
  rw [e2]
  rfl

theorem v73_prev (i : Fin 65536) (k : Fin 40) (j : Fin 272) (hj : j.val = 232 + k.val) :
    val_main_v73 x0 x2 x6 x7 x8 x9 x10 x11 x12 x13 (ix2 i j) = val_main_v43 x0 x2 x8 x9 (ix2 i k) := by
  unfold val_main_v73
  generalize val_main_v58 x0 x2 x6 x7 x8 x9 x10 x11 = y0
  generalize val_main_v72 x0 x2 x6 x7 x8 x9 x10 x11 x12 x13 = y1
  generalize val_main_v43 x0 x2 x8 x9 = y2
  refine concatenate_apply_piece 1 _ _ (ix2 i j) 2 (by show (2 : Nat) < 3; omega) Cert.ReferenceIdeal.S65536x40 y2 rfl rfl 232 rfl (ix2 i k) ?_ ?_
  · intro b hb
    match b with
    | ⟨0, _⟩ => rfl
    | ⟨1, _⟩ => exact absurd rfl hb
  · show 232 + k.val = j.val
    omega

theorem gi_eq
    (h23 : ∀ (k : Fin 192) (n : Fin 480) (j : Fin 272), j.val = k.val → v23 (ix2 k n) = x14 (ix2 n j))
    (h55 : ∀ (k : Fin 40) (n : Fin 480) (m : Fin 1376) (j : Fin 272), m.val = n.val → j.val = 232 + k.val →
      v55 (ix2 k m) = x14 (ix2 n j))
    (hprev : ∀ (r : Fin 1024) (i : Fin 65536) (k : Fin 40), i.val = 1024 * t.val + r.val →
      v407 (ix2 r k) = val_main_v43 x0 x2 x8 x9 (ix2 i k))
    (hfwc : ∀ (r : Fin 1024) (i : Fin 65536) (n : Fin 192), i.val = 1024 * t.val + r.val →
      v420 (ix2 r n) = val_main_v58 x0 x2 x6 x7 x8 x9 x10 x11 (ix2 i n))
    (hv428 : ∀ (r : Fin 1024) (i : Fin 65536) (n : Fin 480), i.val = 1024 * t.val + r.val →
      v428 (ix2 r n) = ∑ k : Fin 40, val_main_v45 x0 x2 x7 x8 x9 (ix2 i k) * x14 (ix2 n (⟨192 + k.val, by have := k.isLt; omega⟩ : Fin 272)))
    (hv429 : ∀ (r : Fin 1024) (i : Fin 65536) (n : Fin 480), i.val = 1024 * t.val + r.val →
      v429 (ix2 r n) = val_main_v69 x0 x2 x6 x7 x8 x9 x10 x11 x12 x13 (ix2 i (0 : Fin 4)))
    (hpg : ∀ (i : Fin 65536), (0 : EReal) ≤ val_main_v69 x0 x2 x6 x7 x8 x9 x10 x11 x12 x13 (ix2 i (0 : Fin 4))
      ∧ val_main_v69 x0 x2 x6 x7 x8 x9 x10 x11 x12 x13 (ix2 i (0 : Fin 4)) ≠ (⊤ : EReal))
    (r : Fin 1024) (i : Fin 65536) (m : Fin 480) (hi : i.val = 1024 * t.val + r.val) :
    giK v23 v55 v407 v420 v428 v429 (ix2 r m) = val_main_v75 x0 x2 x6 x7 x8 x9 x10 x11 x12 x13 x14 (ix2 i m) := by
  unfold giK
  rw [addf_apply, addf_apply, mulf_apply, mm_ih_apply,
    slice2_apply ![0, 0] (k0_pay85 v55 v407) _ r m r (⟨m.val, by have := m.isLt; omega⟩ : Fin 1376)
      (by show r.val = 0 + r.val; omega) (by show m.val = 0 + m.val; omega),
    Cert.Bridge.K40.prevAll_apply, hv429 r i m hi, hv428 r i m hi,
    LibExtReal.mul_sum_of_nonneg_ne_top _ (hpg i).1 (hpg i).2, add_assoc,
    ref_gi_sum, LibExtReal.sum_fin_split 192 80 272 rfl, LibExtReal.sum_fin_split 40 40 80 rfl]
  refine congrArg₂ (· + ·) (Finset.sum_congr rfl fun k _ => ?_)
    (congrArg₂ (· + ·) (Finset.sum_congr rfl fun k _ => ?_) (Finset.sum_congr rfl fun k _ => ?_))
  · rw [v73_fwc x0 x2 x6 x7 x8 x9 x10 x11 x12 x13 i k (⟨k.val, by have := k.isLt; omega⟩ : Fin 272) rfl, hfwc r i k hi,
      h23 k m (⟨k.val, by have := k.isLt; omega⟩ : Fin 272) rfl]
  · rw [v73_pitch x0 x2 x6 x7 x8 x9 x10 x11 x12 x13 i k (⟨192 + k.val, by have := k.isLt; omega⟩ : Fin 272) rfl, mul_assoc]
  · rw [v73_prev x0 x2 x6 x7 x8 x9 x10 x11 x12 x13 i k (⟨192 + (40 + k.val), by have := k.isLt; omega⟩ : Fin 272)
        (by show 192 + (40 + k.val) = 232 + k.val; omega), hprev r i k hi,
      h55 k m (⟨m.val, by have := m.isLt; omega⟩ : Fin 1376) (⟨192 + (40 + k.val), by have := k.isLt; omega⟩ : Fin 272) rfl
        (by show 192 + (40 + k.val) = 232 + k.val; omega)]

theorem gru1_cell
    (h3 : ∀ (r : Fin 1024) (i : Fin 65536) (k : Fin 160), i.val = 1024 * t.val + r.val → v3 (ix2 r k) = x3 (ix2 i k))
    (h23 : ∀ (k : Fin 192) (n : Fin 480) (j : Fin 272), j.val = k.val → v23 (ix2 k n) = x14 (ix2 n j))
    (h25 : ∀ (k : Fin 160) (n : Fin 480), v25 (ix2 k n) = x15 (ix2 n k))
    (h55 : ∀ (k : Fin 40) (n : Fin 480) (m : Fin 1376) (j : Fin 272), m.val = n.val → j.val = 232 + k.val →
      v55 (ix2 k m) = x14 (ix2 n j))
    (hprev : ∀ (r : Fin 1024) (i : Fin 65536) (k : Fin 40), i.val = 1024 * t.val + r.val →
      v407 (ix2 r k) = val_main_v43 x0 x2 x8 x9 (ix2 i k))
    (hfwc : ∀ (r : Fin 1024) (i : Fin 65536) (n : Fin 192), i.val = 1024 * t.val + r.val →
      v420 (ix2 r n) = val_main_v58 x0 x2 x6 x7 x8 x9 x10 x11 (ix2 i n))
    (hv428 : ∀ (r : Fin 1024) (i : Fin 65536) (n : Fin 480), i.val = 1024 * t.val + r.val →
      v428 (ix2 r n) = ∑ k : Fin 40, val_main_v45 x0 x2 x7 x8 x9 (ix2 i k) * x14 (ix2 n (⟨192 + k.val, by have := k.isLt; omega⟩ : Fin 272)))
    (hv429 : ∀ (r : Fin 1024) (i : Fin 65536) (n : Fin 480), i.val = 1024 * t.val + r.val →
      v429 (ix2 r n) = val_main_v69 x0 x2 x6 x7 x8 x9 x10 x11 x12 x13 (ix2 i (0 : Fin 4)))
    (hpg : ∀ (i : Fin 65536), (0 : EReal) ≤ val_main_v69 x0 x2 x6 x7 x8 x9 x10 x11 x12 x13 (ix2 i (0 : Fin 4))
      ∧ val_main_v69 x0 x2 x6 x7 x8 x9 x10 x11 x12 x13 (ix2 i (0 : Fin 4)) ≠ (⊤ : EReal)) :
    ∀ (r : Fin 1024) (i : Fin 65536) (n : Fin 160), i.val = 1024 * t.val + r.val →
      k0_pay88 v3 v23 v25 v55 v407 v420 v428 v429 (ix2 r n)
        = val_main_v105 x0 x2 x3 x6 x7 x8 x9 x10 x11 x12 x13 x14 x15 (ix2 i n) := by
  intro r i n hi
  have GI := fun m => gi_eq t x0 x2 x6 x7 x8 x9 x10 x11 x12 x13 x14 v23 v55 v407 v420 v428 v429
    h23 h55 hprev hfwc hv428 hv429 hpg r i m hi
  have GH := fun m => gh_eq t x3 x15 v3 v25 h3 h25 r i m hi
  rw [pay88_eq, cellV_at, ref_cell_at, GI, GI, GI, GH, GH, GH, h3 r i n hi]

theorem gru1_pitch_operands
    (hfp : ∀ (r : Fin 1024) (i : Fin 65536) (k : Fin 40), i.val = 1024 * t.val + r.val →
      v409 (ix2 r k) = val_main_v45 x0 x2 x7 x8 x9 (ix2 i k))
    (hpgv : ∀ (r : Fin 1024) (i : Fin 65536) (c : Fin 4), i.val = 1024 * t.val + r.val →
      v424 (ix2 r c) = val_main_v69 x0 x2 x6 x7 x8 x9 x10 x11 x12 x13 (ix2 i c))
    (h53 : ∀ (k : Fin 40) (n : Fin 480) (m : Fin 1376) (j : Fin 272), m.val = n.val → j.val = 192 + k.val →
      v53 (ix2 k m) = x14 (ix2 n j)) :
    (∀ (r : Fin 1024) (i : Fin 65536) (n : Fin 480), i.val = 1024 * t.val + r.val →
      extractStridedSlice Cert.KernelIdeal.S1024x480 ![0, 0]
        (matmul Cert.KernelIdeal.dot_S1024x40_S40x1376_S1024x1376_1_0_0_1_n_n none
          (truncf .bf16 v409 Cert.KernelIdeal.Facts₀.bitsLt_bf16_f32) v53
          (constant (F := Ideal) Cert.KernelIdeal.S1024x1376 .f32 0x00000000#32))
        Cert.KernelIdeal.Facts₀.slices_S1024x1376_o0_0_S1024x480 (ix2 r n)
        = ∑ k : Fin 40, val_main_v45 x0 x2 x7 x8 x9 (ix2 i k) * x14 (ix2 n (⟨192 + k.val, by have := k.isLt; omega⟩ : Fin 272)))
    ∧ (∀ (r : Fin 1024) (i : Fin 65536) (n : Fin 480), i.val = 1024 * t.val + r.val →
      broadcastTo Cert.KernelIdeal.S1024x480
        (extractStridedSlice Cert.KernelIdeal.S1024x1 ![0, 0] v424 Cert.KernelIdeal.Facts₀.slices_S1024x4_o0_0_S1024x1)
        Cert.KernelIdeal.Facts₀.broadcasts_S1024x1_S1024x480 (ix2 r n)
        = val_main_v69 x0 x2 x6 x7 x8 x9 x10 x11 x12 x13 (ix2 i (0 : Fin 4))) := by
  refine ⟨fun r i n hi => ?_, fun r i n hi => ?_⟩
  · rw [slice2_apply ![0, 0] _ _ r n r (⟨n.val, by have := n.isLt; omega⟩ : Fin 1376)
        (by show r.val = 0 + r.val; omega) (by show n.val = 0 + n.val; omega),
      Cert.Bridge.K40.matmul_truncf_apply]
    refine Finset.sum_congr rfl fun k _ => ?_
    rw [hfp r i k hi, h53 k n (⟨n.val, by have := n.isLt; omega⟩ : Fin 1376)
      (⟨192 + k.val, by have := k.isLt; omega⟩ : Fin 272) rfl rfl]
  · rw [LibLayout.broadcastTo_col_apply,
      slice2_apply ![0, 0] v424 _ r (0 : Fin 1) r (0 : Fin 4) (by show r.val = 0 + r.val; omega) rfl,
      hpgv r i 0 hi]

theorem lidx107_ix2 (i : Fin 65536) (n : Fin 160) (k : Fin 160) : lidx_main_v107 (ix2 i n) k = ix2 i k := by
  funext a; match a with
  | ⟨0, _⟩ => rfl
  | ⟨1, _⟩ => rfl
theorem ridx107_ix2 (i : Fin 65536) (n : Fin 160) (k : Fin 160) :
    idx_main_v106 (ridx_main_v107 (ix2 i n) k) = ix2 n k := by
  funext a; match a with
  | ⟨0, _⟩ => rfl
  | ⟨1, _⟩ => rfl

theorem gru1_glu
    (hg1 : ∀ (r : Fin 1024) (i : Fin 65536) (n : Fin 160), i.val = 1024 * t.val + r.val →
      k0_pay88 v3 v23 v25 v55 v407 v420 v428 v429 (ix2 r n)
        = val_main_v105 x0 x2 x3 x6 x7 x8 x9 x10 x11 x12 x13 x14 x15 (ix2 i n))
    (h27 : ∀ (k : Fin 160) (n : Fin 160), v27 (ix2 k n) = x16 (ix2 n k)) :
    ∀ (r : Fin 1024) (i : Fin 65536) (n : Fin 160), i.val = 1024 * t.val + r.val →
      k0_pay89 v3 v23 v25 v27 v55 v407 v420 v428 v429 (ix2 r n)
        = val_main_v114 x0 x2 x3 x6 x7 x8 x9 x10 x11 x12 x13 x14 x15 x16 (ix2 i n) := by
  intro r i n hi
  unfold k0_pay89
  generalize k0_pay88 v3 v23 v25 v55 v407 v420 v428 v429 = G at hg1 ⊢
  simp only [truncf_apply, mulf_apply, LibExtReal.logistic_apply]
  rw [mm_gl_apply, val_main_v114_apply, val_main_v113_apply, val_main_v111_apply, val_main_v109_apply,
    val_main_v108_apply, val_main_v107_apply, val_main_v112_apply, val_main_v110_apply,
    val_main_cst_21_apply, val_main_cst_20_apply]
  simp only [Ideal.ofBits_def, Ideal.ofBits_one_f32, Ideal.mulf_def, Ideal.hostDivf_def, Ideal.addf_def,
    Ideal.hostUnary_exp_def, Ideal.hostNegf_def, Ideal.negf_def]
  rw [LibExtReal.div_one_add_exp_neg, hg1 r i n hi]
  refine congrArg₂ (· * ·) rfl (congrArg Ideal.logistic (Finset.sum_congr rfl fun k _ => ?_))
  rw [truncf_apply, hg1 r i k hi, h27 k n, val_main_v106_apply, lidx107_ix2, ridx107_ix2]

end Cert.Bridge.Gru1
-- ==== Proof.ChainGru1.lean ====
import proofs.«401269_j23398981829052_3_alg».proof.Proof.Chain0
import proofs.«401269_j23398981829052_3_alg».proof.Proof.StageGru1

noncomputable section

namespace Cert.Bridge.Chain

open Idealize.ShloMosaic Idealize.ShloMosaic.TcCoe Idealize.ShloMosaic.ValueIdx
open Cert.KernelIdeal Cert.KernelIdeal.Gen Cert.ReferenceIdeal.Read

variable (t : Fin 64)
variable (x0 : (⟨Cert.ReferenceIdeal.S65536x80, .f32⟩ : BufTy).Contents (Elt Ideal))
variable (x1 : (⟨Cert.ReferenceIdeal.S65536x256, .f32⟩ : BufTy).Contents (Elt Ideal))
variable (x2 : (⟨Cert.ReferenceIdeal.S65536x256, .f32⟩ : BufTy).Contents (Elt Ideal))
variable (x3 : (⟨Cert.ReferenceIdeal.S65536x160, .f32⟩ : BufTy).Contents (Elt Ideal))
variable (x4 : (⟨Cert.ReferenceIdeal.S65536x128, .f32⟩ : BufTy).Contents (Elt Ideal))
variable (x5 : (⟨Cert.ReferenceIdeal.S65536x128, .f32⟩ : BufTy).Contents (Elt Ideal))
variable (x6 : (⟨Cert.ReferenceIdeal.S65536x164, .f32⟩ : BufTy).Contents (Elt Ideal))
variable (x7 : (⟨Cert.ReferenceIdeal.S65536, .i32⟩ : BufTy).Contents (Elt Ideal))
variable (x8 : (⟨Cert.ReferenceIdeal.S1x80, .f32⟩ : BufTy).Contents (Elt Ideal))
variable (x9 : (⟨Cert.ReferenceIdeal.S1, .f32⟩ : BufTy).Contents (Elt Ideal))
variable (x10 : (⟨Cert.ReferenceIdeal.S192x328, .f32⟩ : BufTy).Contents (Elt Ideal))
variable (x11 : (⟨Cert.ReferenceIdeal.S192x192, .f32⟩ : BufTy).Contents (Elt Ideal))
variable (x12 : (⟨Cert.ReferenceIdeal.S4x192, .f32⟩ : BufTy).Contents (Elt Ideal))
variable (x13 : (⟨Cert.ReferenceIdeal.S4, .f32⟩ : BufTy).Contents (Elt Ideal))
variable (x14 : (⟨Cert.ReferenceIdeal.S480x272, .f32⟩ : BufTy).Contents (Elt Ideal))
variable (x15 : (⟨Cert.ReferenceIdeal.S480x160, .f32⟩ : BufTy).Contents (Elt Ideal))
variable (x16 : (⟨Cert.ReferenceIdeal.S160x160, .f32⟩ : BufTy).Contents (Elt Ideal))
variable (x17 : (⟨Cert.ReferenceIdeal.S384x240, .f32⟩ : BufTy).Contents (Elt Ideal))
variable (x18 : (⟨Cert.ReferenceIdeal.S384x128, .f32⟩ : BufTy).Contents (Elt Ideal))
variable (x19 : (⟨Cert.ReferenceIdeal.S128x128, .f32⟩ : BufTy).Contents (Elt Ideal))
variable (x20 : (⟨Cert.ReferenceIdeal.S384x208, .f32⟩ : BufTy).Contents (Elt Ideal))
variable (x21 : (⟨Cert.ReferenceIdeal.S384x128, .f32⟩ : BufTy).Contents (Elt Ideal))
variable (x22 : (⟨Cert.ReferenceIdeal.S128x128, .f32⟩ : BufTy).Contents (Elt Ideal))
variable (x23 : (⟨Cert.ReferenceIdeal.S128x688, .f32⟩ : BufTy).Contents (Elt Ideal))
variable (x24 : (⟨Cert.ReferenceIdeal.S128x128, .f32⟩ : BufTy).Contents (Elt Ideal))
variable (x25 : (⟨Cert.ReferenceIdeal.S40x128, .f32⟩ : BufTy).Contents (Elt Ideal))
variable (b : Cert.KernelIdeal.Fr.Blocks Ideal)

theorem sg1 (H : Inputs t x0 x1 x2 x3 x4 x5 x6 x7 x8 x9 x10 x11 x12 x13 x14 x15 x16 x17 x18 x19 x20 x21 x22 x23 x24 x25 b) (hprev : SPrev t x0 x2 x8 x9 b) (hfwc : SFwc t x0 x2 x6 x7 x8 x9 x10 x11 b) (hfp : SFp t x0 x2 x7 x8 x9 b)
    (hpg : SPg t x0 x2 x6 x7 x8 x9 x10 x11 x12 x13 b) (hpgr : SPgRange x0 x2 x6 x7 x8 x9 x10 x11 x12 x13) : SG1 t x0 x2 x3 x6 x7 x8 x9 x10 x11 x12 x13 x14 x15 b := by
  have hp := Cert.Bridge.Gru1.gru1_pitch_operands t x0 x2 x6 x7 x8 x9 x10 x11 x12 x13 x14
    (Fr.val53 b) (Fr.val409 b) (Fr.val424 b) hfp hpg
    (fun k n m j hm hj => H.in53a k m n j (Nat.zero_le _) (by have := n.isLt; omega) (by omega) hj)
  exact Cert.Bridge.Gru1.gru1_cell t x0 x2 x3 x6 x7 x8 x9 x10 x11 x12 x13 x14 x15
    (Fr.val3 b) (Fr.val23 b) (Fr.val25 b) (Fr.val55 b) (Fr.val407 b) (Fr.val420 b) (Fr.val428 b) (Fr.val429 b)
    H.in3 H.in23 H.in25
    (fun k n m j hm hj => H.in55a k m n j (Nat.zero_le _) (by have := n.isLt; omega) (by omega) hj)
    hprev hfwc hp.1 hp.2 (fun i => hpgr i 0)

theorem so1 (H : Inputs t x0 x1 x2 x3 x4 x5 x6 x7 x8 x9 x10 x11 x12 x13 x14 x15 x16 x17 x18 x19 x20 x21 x22 x23 x24 x25 b) (hg1 : SG1 t x0 x2 x3 x6 x7 x8 x9 x10 x11 x12 x13 x14 x15 b) : SO1 t x0 x2 x3 x6 x7 x8 x9 x10 x11 x12 x13 x14 x15 x16 b :=
  Cert.Bridge.Gru1.gru1_glu t x0 x2 x3 x6 x7 x8 x9 x10 x11 x12 x13 x14 x15 x16
    (Fr.val3 b) (Fr.val23 b) (Fr.val25 b) (Fr.val27 b) (Fr.val55 b) (Fr.val407 b) (Fr.val420 b) (Fr.val428 b) (Fr.val429 b)
    hg1 H.in27

end Cert.Bridge.Chain
-- ==== Proof.StageGru2.lean ====
import proofs.«401269_j23398981829052_3_alg».proof.Proof.Gen.KernelIdeal.Skeleton
import proofs.«401269_j23398981829052_3_alg».proof.Proof.RefRead
import proofs.«401269_j23398981829052_3_alg».proof.Proof.LibExtReal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Bridge.Gru2

open Idealize.ShloMosaic Idealize.SL.Sem Idealize.ShloMosaic.StableHlo
open Cert.KernelIdeal.Gen Cert.ReferenceIdeal.Read

variable (x0 : (⟨Cert.ReferenceIdeal.S65536x80, .f32⟩ : BufTy).Contents (Elt Ideal))
  (x2 : (⟨Cert.ReferenceIdeal.S65536x256, .f32⟩ : BufTy).Contents (Elt Ideal))
  (x3 : (⟨Cert.ReferenceIdeal.S65536x160, .f32⟩ : BufTy).Contents (Elt Ideal))
  (x4 : (⟨Cert.ReferenceIdeal.S65536x128, .f32⟩ : BufTy).Contents (Elt Ideal))
  (x6 : (⟨Cert.ReferenceIdeal.S65536x164, .f32⟩ : BufTy).Contents (Elt Ideal))
  (x7 : (⟨Cert.ReferenceIdeal.S65536, .i32⟩ : BufTy).Contents (Elt Ideal))
  (x8 : (⟨Cert.ReferenceIdeal.S1x80, .f32⟩ : BufTy).Contents (Elt Ideal))
  (x9 : (⟨Cert.ReferenceIdeal.S1, .f32⟩ : BufTy).Contents (Elt Ideal))
  (x10 : (⟨Cert.ReferenceIdeal.S192x328, .f32⟩ : BufTy).Contents (Elt Ideal))
  (x11 : (⟨Cert.ReferenceIdeal.S192x192, .f32⟩ : BufTy).Contents (Elt Ideal))
  (x12 : (⟨Cert.ReferenceIdeal.S4x192, .f32⟩ : BufTy).Contents (Elt Ideal))
  (x13 : (⟨Cert.ReferenceIdeal.S4, .f32⟩ : BufTy).Contents (Elt Ideal))
  (x14 : (⟨Cert.ReferenceIdeal.S480x272, .f32⟩ : BufTy).Contents (Elt Ideal))
  (x15 : (⟨Cert.ReferenceIdeal.S480x160, .f32⟩ : BufTy).Contents (Elt Ideal))
  (x16 : (⟨Cert.ReferenceIdeal.S160x160, .f32⟩ : BufTy).Contents (Elt Ideal))
  (x17 : (⟨Cert.ReferenceIdeal.S384x240, .f32⟩ : BufTy).Contents (Elt Ideal))
  (x18 : (⟨Cert.ReferenceIdeal.S384x128, .f32⟩ : BufTy).Contents (Elt Ideal))
  (x19 : (⟨Cert.ReferenceIdeal.S128x128, .f32⟩ : BufTy).Contents (Elt Ideal))

theorem tanh_apply {s : Shape} {φ : FTy} (v : FVec Ideal s φ) (j : s.Idx) : tanh v j = Ideal.tanh (v j) := rfl

theorem idx123 (i : Fin 65536) (n : Fin 128) (m : Fin 384) (hm : m.val = n.val) :
    idx_main_v123 (ValueIdx.ix2 i n) = ValueIdx.ix2 i m :=
  funext fun a => Fin.ext (by match a with | ⟨0, _⟩ => rfl | ⟨1, _⟩ => exact hm.symm)

theorem idx124 (i : Fin 65536) (n : Fin 128) (m : Fin 384) (hm : m.val = 128 + n.val) :
    idx_main_v124 (ValueIdx.ix2 i n) = ValueIdx.ix2 i m :=
  funext fun a => Fin.ext (by match a with | ⟨0, _⟩ => rfl | ⟨1, _⟩ => exact hm.symm)

theorem idx125 (i : Fin 65536) (n : Fin 128) (m : Fin 384) (hm : m.val = 256 + n.val) :
    idx_main_v125 (ValueIdx.ix2 i n) = ValueIdx.ix2 i m :=
  funext fun a => Fin.ext (by match a with | ⟨0, _⟩ => rfl | ⟨1, _⟩ => exact hm.symm)

theorem idx126 (i : Fin 65536) (n : Fin 128) (m : Fin 384) (hm : m.val = n.val) :
    idx_main_v126 (ValueIdx.ix2 i n) = ValueIdx.ix2 i m :=
  funext fun a => Fin.ext (by match a with | ⟨0, _⟩ => rfl | ⟨1, _⟩ => exact hm.symm)

theorem idx127 (i : Fin 65536) (n : Fin 128) (m : Fin 384) (hm : m.val = 128 + n.val) :
    idx_main_v127 (ValueIdx.ix2 i n) = ValueIdx.ix2 i m :=
  funext fun a => Fin.ext (by match a with | ⟨0, _⟩ => rfl | ⟨1, _⟩ => exact hm.symm)

theorem idx128 (i : Fin 65536) (n : Fin 128) (m : Fin 384) (hm : m.val = 256 + n.val) :
    idx_main_v128 (ValueIdx.ix2 i n) = ValueIdx.ix2 i m :=
  funext fun a => Fin.ext (by match a with | ⟨0, _⟩ => rfl | ⟨1, _⟩ => exact hm.symm)

theorem slice384_apply (o : Nat) (h : Cert.KernelIdeal.S1024x384.Slices ![0, o] Cert.KernelIdeal.S1024x128)
    (v : FVec Ideal Cert.KernelIdeal.S1024x384 .f32) (r : Fin 1024) (n : Fin 128) (m : Fin 384) (hm : m.val = o + n.val) :
    extractStridedSlice Cert.KernelIdeal.S1024x128 ![0, o] v h (ValueIdx.ix2 r n) = v (ValueIdx.ix2 r m) :=
  extractStridedSlice_apply ![0, o] v h (ValueIdx.ix2 r n) (ValueIdx.ix2 r m) (fun a => match a with
    | ⟨0, _⟩ => by show r.val = 0 + r.val; omega
    | ⟨1, _⟩ => by show m.val = o + n.val; exact hm)

theorem one132 (j : Cert.ReferenceIdeal.S65536x128.Idx) : val_main_v132 (F := Ideal) j = (1 : EReal) := by
  rw [val_main_v132_apply, val_main_cst_22_apply]; exact Ideal.ofBits_one_f32
theorem one134 (j : Cert.ReferenceIdeal.S65536x128.Idx) : val_main_v134 (F := Ideal) j = (1 : EReal) := by
  rw [val_main_v134_apply, val_main_cst_23_apply]; exact Ideal.ofBits_one_f32
theorem one139 (j : Cert.ReferenceIdeal.S65536x128.Idx) : val_main_v139 (F := Ideal) j = (1 : EReal) := by
  rw [val_main_v139_apply, val_main_cst_24_apply]; exact Ideal.ofBits_one_f32
theorem one141 (j : Cert.ReferenceIdeal.S65536x128.Idx) : val_main_v141 (F := Ideal) j = (1 : EReal) := by
  rw [val_main_v141_apply, val_main_cst_25_apply]; exact Ideal.ofBits_one_f32
theorem one146 (j : Cert.ReferenceIdeal.S65536x128.Idx) :
    val_main_v146 (F := Ideal) j = Ideal.ofBits .f32 0x3F800000#32 := by
  rw [val_main_v146_apply, val_main_cst_26_apply]; rfl
theorem one155 (j : Cert.ReferenceIdeal.S65536x128.Idx) : val_main_v155 (F := Ideal) j = (1 : EReal) := by
  rw [val_main_v155_apply, val_main_cst_27_apply]; exact Ideal.ofBits_one_f32
theorem one157 (j : Cert.ReferenceIdeal.S65536x128.Idx) : val_main_v157 (F := Ideal) j = (1 : EReal) := by
  rw [val_main_v157_apply, val_main_cst_28_apply]; exact Ideal.ofBits_one_f32

theorem lhs_hh_0 (i : Cert.KernelIdeal.S1024x384.Idx) (q : Cert.KernelIdeal.dot_S1024x128_S128x384_S1024x384_1_0_0_1_n_n.contr.Idx) :
    (Cert.KernelIdeal.dot_S1024x128_S128x384_S1024x384_1_0_0_1_n_n.lhsIdx i q 0).val = (i 0).val := by
  unfold DotDims.lhsIdx
  rw [dif_neg (show ¬(0 : Fin Cert.KernelIdeal.S1024x128.rank) ∈ Cert.KernelIdeal.dot_S1024x128_S128x384_S1024x384_1_0_0_1_n_n.lhsBatch by decide), dif_pos (show (0 : Fin Cert.KernelIdeal.S1024x128.rank) ∈ Cert.KernelIdeal.dot_S1024x128_S128x384_S1024x384_1_0_0_1_n_n.lhsNonContracting by decide)]
  rfl
theorem lhs_hh_1 (i : Cert.KernelIdeal.S1024x384.Idx) (q : Cert.KernelIdeal.dot_S1024x128_S128x384_S1024x384_1_0_0_1_n_n.contr.Idx) :
    (Cert.KernelIdeal.dot_S1024x128_S128x384_S1024x384_1_0_0_1_n_n.lhsIdx i q 1).val = (q ⟨0, by decide⟩).val :=
  Cert.KernelIdeal.dot_S1024x128_S128x384_S1024x384_1_0_0_1_n_n.lhsIdx_val_of_single rfl i q
theorem rhs_hh_0 (i : Cert.KernelIdeal.S1024x384.Idx) (q : Cert.KernelIdeal.dot_S1024x128_S128x384_S1024x384_1_0_0_1_n_n.contr.Idx) :
    (Cert.KernelIdeal.dot_S1024x128_S128x384_S1024x384_1_0_0_1_n_n.rhsIdx i q 0).val = (q ⟨0, by decide⟩).val :=
  Cert.KernelIdeal.dot_S1024x128_S128x384_S1024x384_1_0_0_1_n_n.rhsIdx_val_of_single rfl i q
theorem rhs_hh_1 (i : Cert.KernelIdeal.S1024x384.Idx) (q : Cert.KernelIdeal.dot_S1024x128_S128x384_S1024x384_1_0_0_1_n_n.contr.Idx) :
    (Cert.KernelIdeal.dot_S1024x128_S128x384_S1024x384_1_0_0_1_n_n.rhsIdx i q 1).val = (i 1).val := by
  unfold DotDims.rhsIdx
  rw [dif_neg (show ¬(1 : Fin Cert.KernelIdeal.S128x384.rank) ∈ Cert.KernelIdeal.dot_S1024x128_S128x384_S1024x384_1_0_0_1_n_n.rhsBatch by decide), dif_pos (show (1 : Fin Cert.KernelIdeal.S128x384.rank) ∈ Cert.KernelIdeal.dot_S1024x128_S128x384_S1024x384_1_0_0_1_n_n.rhsNonContracting by decide)]
  rfl

theorem matmul_hh_apply {φ₁ φ₂ : FTy} (l : FVec Ideal Cert.KernelIdeal.S1024x128 φ₁) (w : FVec Ideal Cert.KernelIdeal.S128x384 φ₂) (r : Fin 1024) (n : Fin 384) :
    matmul Cert.KernelIdeal.dot_S1024x128_S128x384_S1024x384_1_0_0_1_n_n none l w (constant Cert.KernelIdeal.S1024x384 .f32 0x00000000#32) (ValueIdx.ix2 r n)
      = ∑ k : Fin 128, l (ValueIdx.ix2 r k) * w (ValueIdx.ix2 k n) := by
  refine (Ideal.matmul_constant_zero_apply Cert.KernelIdeal.dot_S1024x128_S128x384_S1024x384_1_0_0_1_n_n none l w (ValueIdx.ix2 r n)).trans ?_
  rw [← Equiv.sum_comp (ValueIdx.contrEquiv1 Cert.KernelIdeal.dot_S1024x128_S128x384_S1024x384_1_0_0_1_n_n 128 rfl rfl).symm]
  refine Finset.sum_congr rfl fun k _ => ?_
  have hk := ValueIdx.contrEquiv1_symm_val Cert.KernelIdeal.dot_S1024x128_S128x384_S1024x384_1_0_0_1_n_n 128 rfl rfl k
  have el : Cert.KernelIdeal.dot_S1024x128_S128x384_S1024x384_1_0_0_1_n_n.lhsIdx (ValueIdx.ix2 r n) ((ValueIdx.contrEquiv1 Cert.KernelIdeal.dot_S1024x128_S128x384_S1024x384_1_0_0_1_n_n 128 rfl rfl).symm k) = ValueIdx.ix2 r k := funext fun a => Fin.ext (by
    match a with
    | ⟨0, _⟩ => exact lhs_hh_0 _ _
    | ⟨1, _⟩ => exact (lhs_hh_1 _ _).trans hk)
  have er : Cert.KernelIdeal.dot_S1024x128_S128x384_S1024x384_1_0_0_1_n_n.rhsIdx (ValueIdx.ix2 r n) ((ValueIdx.contrEquiv1 Cert.KernelIdeal.dot_S1024x128_S128x384_S1024x384_1_0_0_1_n_n 128 rfl rfl).symm k) = ValueIdx.ix2 k n := funext fun a => Fin.ext (by
    match a with
    | ⟨0, _⟩ => exact (rhs_hh_0 _ _).trans hk
    | ⟨1, _⟩ => exact rhs_hh_1 _ _)
  rw [el, er]

theorem lhs_glu_0 (i : Cert.KernelIdeal.S1024x128.Idx) (q : Cert.KernelIdeal.dot_S1024x128_S128x128_S1024x128_1_0_0_1_n_n.contr.Idx) :
    (Cert.KernelIdeal.dot_S1024x128_S128x128_S1024x128_1_0_0_1_n_n.lhsIdx i q 0).val = (i 0).val := by
  unfold DotDims.lhsIdx
  rw [dif_neg (show ¬(0 : Fin Cert.KernelIdeal.S1024x128.rank) ∈ Cert.KernelIdeal.dot_S1024x128_S128x128_S1024x128_1_0_0_1_n_n.lhsBatch by decide), dif_pos (show (0 : Fin Cert.KernelIdeal.S1024x128.rank) ∈ Cert.KernelIdeal.dot_S1024x128_S128x128_S1024x128_1_0_0_1_n_n.lhsNonContracting by decide)]
  rfl
theorem lhs_glu_1 (i : Cert.KernelIdeal.S1024x128.Idx) (q : Cert.KernelIdeal.dot_S1024x128_S128x128_S1024x128_1_0_0_1_n_n.contr.Idx) :
    (Cert.KernelIdeal.dot_S1024x128_S128x128_S1024x128_1_0_0_1_n_n.lhsIdx i q 1).val = (q ⟨0, by decide⟩).val :=
  Cert.KernelIdeal.dot_S1024x128_S128x128_S1024x128_1_0_0_1_n_n.lhsIdx_val_of_single rfl i q
theorem rhs_glu_0 (i : Cert.KernelIdeal.S1024x128.Idx) (q : Cert.KernelIdeal.dot_S1024x128_S128x128_S1024x128_1_0_0_1_n_n.contr.Idx) :
    (Cert.KernelIdeal.dot_S1024x128_S128x128_S1024x128_1_0_0_1_n_n.rhsIdx i q 0).val = (q ⟨0, by decide⟩).val :=
  Cert.KernelIdeal.dot_S1024x128_S128x128_S1024x128_1_0_0_1_n_n.rhsIdx_val_of_single rfl i q
theorem rhs_glu_1 (i : Cert.KernelIdeal.S1024x128.Idx) (q : Cert.KernelIdeal.dot_S1024x128_S128x128_S1024x128_1_0_0_1_n_n.contr.Idx) :
    (Cert.KernelIdeal.dot_S1024x128_S128x128_S1024x128_1_0_0_1_n_n.rhsIdx i q 1).val = (i 1).val := by
  unfold DotDims.rhsIdx
  rw [dif_neg (show ¬(1 : Fin Cert.KernelIdeal.S128x128.rank) ∈ Cert.KernelIdeal.dot_S1024x128_S128x128_S1024x128_1_0_0_1_n_n.rhsBatch by decide), dif_pos (show (1 : Fin Cert.KernelIdeal.S128x128.rank) ∈ Cert.KernelIdeal.dot_S1024x128_S128x128_S1024x128_1_0_0_1_n_n.rhsNonContracting by decide)]
  rfl

theorem matmul_glu_apply {φ₁ φ₂ : FTy} (l : FVec Ideal Cert.KernelIdeal.S1024x128 φ₁) (w : FVec Ideal Cert.KernelIdeal.S128x128 φ₂) (r : Fin 1024) (n : Fin 128) :
    matmul Cert.KernelIdeal.dot_S1024x128_S128x128_S1024x128_1_0_0_1_n_n none l w (constant Cert.KernelIdeal.S1024x128 .f32 0x00000000#32) (ValueIdx.ix2 r n)
      = ∑ k : Fin 128, l (ValueIdx.ix2 r k) * w (ValueIdx.ix2 k n) := by
  refine (Ideal.matmul_constant_zero_apply Cert.KernelIdeal.dot_S1024x128_S128x128_S1024x128_1_0_0_1_n_n none l w (ValueIdx.ix2 r n)).trans ?_
  rw [← Equiv.sum_comp (ValueIdx.contrEquiv1 Cert.KernelIdeal.dot_S1024x128_S128x128_S1024x128_1_0_0_1_n_n 128 rfl rfl).symm]
  refine Finset.sum_congr rfl fun k _ => ?_
  have hk := ValueIdx.contrEquiv1_symm_val Cert.KernelIdeal.dot_S1024x128_S128x128_S1024x128_1_0_0_1_n_n 128 rfl rfl k
  have el : Cert.KernelIdeal.dot_S1024x128_S128x128_S1024x128_1_0_0_1_n_n.lhsIdx (ValueIdx.ix2 r n) ((ValueIdx.contrEquiv1 Cert.KernelIdeal.dot_S1024x128_S128x128_S1024x128_1_0_0_1_n_n 128 rfl rfl).symm k) = ValueIdx.ix2 r k := funext fun a => Fin.ext (by
    match a with
    | ⟨0, _⟩ => exact lhs_glu_0 _ _
    | ⟨1, _⟩ => exact (lhs_glu_1 _ _).trans hk)
  have er : Cert.KernelIdeal.dot_S1024x128_S128x128_S1024x128_1_0_0_1_n_n.rhsIdx (ValueIdx.ix2 r n) ((ValueIdx.contrEquiv1 Cert.KernelIdeal.dot_S1024x128_S128x128_S1024x128_1_0_0_1_n_n 128 rfl rfl).symm k) = ValueIdx.ix2 k n := funext fun a => Fin.ext (by
    match a with
    | ⟨0, _⟩ => exact (rhs_glu_0 _ _).trans hk
    | ⟨1, _⟩ => exact rhs_glu_1 _ _)
  rw [el, er]

theorem lidx122 (i : Fin 65536) (n : Fin 384) (k : Fin 128) :
    lidx_main_v122 (ValueIdx.ix2 i n) k = ValueIdx.ix2 i k :=
  funext fun a => Fin.ext (by match a with | ⟨0, _⟩ => rfl | ⟨1, _⟩ => rfl)

theorem ridx122 (i : Fin 65536) (n : Fin 384) (k : Fin 128) :
    idx_main_v121 (ridx_main_v122 (ValueIdx.ix2 i n) k) = ValueIdx.ix2 n k :=
  funext fun a => Fin.ext (by match a with | ⟨0, _⟩ => rfl | ⟨1, _⟩ => rfl)

theorem gh2_apply (t : Fin 64) (v4 : Vec Ideal Cert.KernelIdeal.S1024x128 .f32) (v31 : FVec Ideal Cert.KernelIdeal.S128x384 .bf16)
    (h4 : ∀ (r : Fin 1024) (i : Fin 65536) (k : Fin 128), i.val = 1024 * t.val + r.val → v4 (ValueIdx.ix2 r k) = x4 (ValueIdx.ix2 i k))
    (h31 : ∀ (k : Fin 128) (n : Fin 384), v31 (ValueIdx.ix2 k n) = x18 (ValueIdx.ix2 n k)) :
    ∀ (r : Fin 1024) (i : Fin 65536) (n : Fin 384), i.val = 1024 * t.val + r.val →
      k0_pay91 v4 v31 (ValueIdx.ix2 r n) = val_main_v122 x4 x18 (ValueIdx.ix2 i n) := by
  intro r i n hi
  unfold k0_pay91
  refine (matmul_hh_apply _ _ r n).trans ?_
  rw [val_main_v122_apply]
  refine Finset.sum_congr rfl fun k _ => ?_
  rw [val_main_v121_apply, lidx122, ridx122, ← h4 r i k hi, ← h31 k n]
  rfl

theorem gi2_reset_apply (t : Fin 64) (v3 : Vec Ideal Cert.KernelIdeal.S1024x160 .f32) (v23 : FVec Ideal Cert.KernelIdeal.S192x480 .bf16) (v25 : FVec Ideal Cert.KernelIdeal.S160x480 .bf16) (v27 : FVec Ideal Cert.KernelIdeal.S160x160 .bf16) (v29 : FVec Ideal Cert.KernelIdeal.S160x384 .bf16) (v55 : FVec Ideal Cert.KernelIdeal.S40x1376 .bf16) (v407 : FVec Ideal Cert.KernelIdeal.S1024x40 .f32) (v420 : FVec Ideal Cert.KernelIdeal.S1024x192 .bf16) (v424 : FVec Ideal Cert.KernelIdeal.S1024x4 .f32) (v426 : FVec Ideal Cert.KernelIdeal.S1024x1376 .f32) (v428 : FVec Ideal Cert.KernelIdeal.S1024x480 .f32) (v429 : FVec Ideal Cert.KernelIdeal.S1024x480 .f32)
    (hgi : ∀ (r : Fin 1024) (i : Fin 65536) (n : Fin 384), i.val = 1024 * t.val + r.val →
      k0_pay90 v3 v23 v25 v27 v29 v55 v407 v420 v424 v426 v428 v429 (ValueIdx.ix2 r n) = val_main_v120 x0 x2 x3 x6 x7 x8 x9 x10 x11 x12 x13 x14 x15 x16 x17 (ValueIdx.ix2 i n)) :
    ∀ (r : Fin 1024) (i : Fin 65536) (n : Fin 128) (m : Fin 384), m.val = n.val → i.val = 1024 * t.val + r.val →
      k0_pay92 v3 v23 v25 v27 v29 v55 v407 v420 v424 v426 v428 v429 (ValueIdx.ix2 r n) = val_main_v120 x0 x2 x3 x6 x7 x8 x9 x10 x11 x12 x13 x14 x15 x16 x17 (ValueIdx.ix2 i m) := by
  intro r i n m hm hi
  unfold k0_pay92
  refine (slice384_apply 0 _ _ r n m (by omega)).trans ?_
  exact hgi r i m hi

theorem g2_apply (t : Fin 64) (v4 : Vec Ideal Cert.KernelIdeal.S1024x128 .f32) (v479 v481 : FVec Ideal Cert.KernelIdeal.S1024x384 .f32)
    (v482 : FVec Ideal Cert.KernelIdeal.S1024x128 .f32)
    (h4 : ∀ (r : Fin 1024) (i : Fin 65536) (k : Fin 128), i.val = 1024 * t.val + r.val → v4 (ValueIdx.ix2 r k) = x4 (ValueIdx.ix2 i k))
    (h479 : ∀ (r : Fin 1024) (i : Fin 65536) (n : Fin 384), i.val = 1024 * t.val + r.val →
      v479 (ValueIdx.ix2 r n) = val_main_v120 x0 x2 x3 x6 x7 x8 x9 x10 x11 x12 x13 x14 x15 x16 x17 (ValueIdx.ix2 i n))
    (h481 : ∀ (r : Fin 1024) (i : Fin 65536) (n : Fin 384), i.val = 1024 * t.val + r.val →
      v481 (ValueIdx.ix2 r n) = val_main_v122 x4 x18 (ValueIdx.ix2 i n))
    (h482 : ∀ (r : Fin 1024) (i : Fin 65536) (n : Fin 128) (m : Fin 384), m.val = n.val → i.val = 1024 * t.val + r.val →
      v482 (ValueIdx.ix2 r n) = val_main_v120 x0 x2 x3 x6 x7 x8 x9 x10 x11 x12 x13 x14 x15 x16 x17 (ValueIdx.ix2 i m)) :
    ∀ (r : Fin 1024) (i : Fin 65536) (n : Fin 128), i.val = 1024 * t.val + r.val →
      k0_pay93 v4 v479 v481 v482 (ValueIdx.ix2 r n) = val_main_v150 x0 x2 x3 x4 x6 x7 x8 x9 x10 x11 x12 x13 x14 x15 x16 x17 x18 (ValueIdx.ix2 i n) := by
  intro r i n hi
  have hn0 : (⟨n.val, by have := n.isLt; omega⟩ : Fin 384).val = n.val := rfl
  have hn0' : (⟨n.val, by have := n.isLt; omega⟩ : Fin 384).val = 0 + n.val := (Nat.zero_add _).symm
  have hn1 : (⟨128 + n.val, by have := n.isLt; omega⟩ : Fin 384).val = 128 + n.val := rfl
  have hn2 : (⟨256 + n.val, by have := n.isLt; omega⟩ : Fin 384).val = 256 + n.val := rfl
  rw [val_main_v150_apply, val_main_v148_apply, val_main_v149_apply, val_main_v147_apply, val_main_v145_apply,
    val_main_v144_apply, val_main_v143_apply, val_main_v142_apply, val_main_v140_apply, val_main_v138_apply,
    val_main_v137_apply, val_main_v136_apply, val_main_v135_apply, val_main_v133_apply, val_main_v131_apply,
    val_main_v130_apply, val_main_v129_apply, val_main_v123_apply, val_main_v124_apply, val_main_v125_apply,
    val_main_v126_apply, val_main_v127_apply, val_main_v128_apply,
    idx123 i n _ hn0, idx124 i n _ hn1, idx125 i n _ hn2, idx126 i n _ hn0, idx127 i n _ hn1, idx128 i n _ hn2,
    LibExtReal.host_logistic_elt _ _ _ (one141 _) (one139 _), LibExtReal.host_logistic_elt _ _ _ (one134 _) (one132 _),
    one146, ← h479 r i _ hi, ← h479 r i _ hi, ← h481 r i _ hi, ← h481 r i _ hi, ← h481 r i _ hi,
    ← h482 r i n _ hn0 hi, ← h4 r i n hi]
  unfold k0_pay93
  simp only [ValueIdx.addf_apply, ValueIdx.mulf_apply, ValueIdx.subf_apply, ValueIdx.broadcast_apply,
    LibExtReal.logistic_apply, tanh_apply,
    slice384_apply 0 _ _ r n _ hn0', slice384_apply 128 _ _ r n _ hn1, slice384_apply 256 _ _ r n _ hn2]
  rfl

theorem lidx152 (i : Fin 65536) (n : Fin 128) (k : Fin 128) :
    lidx_main_v152 (ValueIdx.ix2 i n) k = ValueIdx.ix2 i k :=
  funext fun a => Fin.ext (by match a with | ⟨0, _⟩ => rfl | ⟨1, _⟩ => rfl)

theorem ridx152 (i : Fin 65536) (n : Fin 128) (k : Fin 128) :
    idx_main_v151 (ridx_main_v152 (ValueIdx.ix2 i n) k) = ValueIdx.ix2 n k :=
  funext fun a => Fin.ext (by match a with | ⟨0, _⟩ => rfl | ⟨1, _⟩ => rfl)

theorem glu2_apply (t : Fin 64) (v4 : Vec Ideal Cert.KernelIdeal.S1024x128 .f32) (v33 : FVec Ideal Cert.KernelIdeal.S128x128 .bf16)
    (v479 v481 : FVec Ideal Cert.KernelIdeal.S1024x384 .f32) (v482 : FVec Ideal Cert.KernelIdeal.S1024x128 .f32)
    (hg2 : ∀ (r : Fin 1024) (i : Fin 65536) (n : Fin 128), i.val = 1024 * t.val + r.val →
      k0_pay93 v4 v479 v481 v482 (ValueIdx.ix2 r n) = val_main_v150 x0 x2 x3 x4 x6 x7 x8 x9 x10 x11 x12 x13 x14 x15 x16 x17 x18 (ValueIdx.ix2 i n))
    (h33 : ∀ (k : Fin 128) (n : Fin 128), v33 (ValueIdx.ix2 k n) = x19 (ValueIdx.ix2 n k)) :
    ∀ (r : Fin 1024) (i : Fin 65536) (n : Fin 128), i.val = 1024 * t.val + r.val →
      k0_pay94 v4 v33 v479 v481 v482 (ValueIdx.ix2 r n) = val_main_v159 x0 x2 x3 x4 x6 x7 x8 x9 x10 x11 x12 x13 x14 x15 x16 x17 x18 x19 (ValueIdx.ix2 i n) := by
  intro r i n hi
  rw [val_main_v159_apply, val_main_v158_apply, val_main_v156_apply, val_main_v154_apply, val_main_v153_apply,
    LibExtReal.host_logistic_elt _ _ _ (one157 _) (one155 _), val_main_v152_apply]
  unfold k0_pay94
  generalize k0_pay93 v4 v479 v481 v482 = g2 at hg2 ⊢
  simp only [ValueIdx.mulf_apply, LibExtReal.logistic_apply, ValueIdx.truncf_apply, matmul_glu_apply]
  rw [hg2 r i n hi]
  refine congrArg (fun s : EReal => (_ : EReal) * Ideal.logistic s) (Finset.sum_congr rfl fun k _ => ?_)
  rw [lidx152, val_main_v151_apply, ridx152, hg2 r i k hi, h33 k n]

end Cert.Bridge.Gru2
-- ==== Proof.StageGru2Input.lean ====
import proofs.«401269_j23398981829052_3_alg».proof.Proof.Gen.KernelIdeal.Skeleton
import proofs.«401269_j23398981829052_3_alg».proof.Proof.RefRead
import proofs.«401269_j23398981829052_3_alg».proof.Proof.LibExtReal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Bridge.Gru2

open Idealize.ShloMosaic Idealize.SL.Sem Idealize.ShloMosaic.StableHlo
open Cert.KernelIdeal.Gen Cert.ReferenceIdeal.Read

variable (x0 : (⟨Cert.ReferenceIdeal.S65536x80, .f32⟩ : BufTy).Contents (Elt Ideal))
  (x2 : (⟨Cert.ReferenceIdeal.S65536x256, .f32⟩ : BufTy).Contents (Elt Ideal))
  (x3 : (⟨Cert.ReferenceIdeal.S65536x160, .f32⟩ : BufTy).Contents (Elt Ideal))
  (x4 : (⟨Cert.ReferenceIdeal.S65536x128, .f32⟩ : BufTy).Contents (Elt Ideal))
  (x6 : (⟨Cert.ReferenceIdeal.S65536x164, .f32⟩ : BufTy).Contents (Elt Ideal))
  (x7 : (⟨Cert.ReferenceIdeal.S65536, .i32⟩ : BufTy).Contents (Elt Ideal))
  (x8 : (⟨Cert.ReferenceIdeal.S1x80, .f32⟩ : BufTy).Contents (Elt Ideal))
  (x9 : (⟨Cert.ReferenceIdeal.S1, .f32⟩ : BufTy).Contents (Elt Ideal))
  (x10 : (⟨Cert.ReferenceIdeal.S192x328, .f32⟩ : BufTy).Contents (Elt Ideal))
  (x11 : (⟨Cert.ReferenceIdeal.S192x192, .f32⟩ : BufTy).Contents (Elt Ideal))
  (x12 : (⟨Cert.ReferenceIdeal.S4x192, .f32⟩ : BufTy).Contents (Elt Ideal))
  (x13 : (⟨Cert.ReferenceIdeal.S4, .f32⟩ : BufTy).Contents (Elt Ideal))
  (x14 : (⟨Cert.ReferenceIdeal.S480x272, .f32⟩ : BufTy).Contents (Elt Ideal))
  (x15 : (⟨Cert.ReferenceIdeal.S480x160, .f32⟩ : BufTy).Contents (Elt Ideal))
  (x16 : (⟨Cert.ReferenceIdeal.S160x160, .f32⟩ : BufTy).Contents (Elt Ideal))
  (x17 : (⟨Cert.ReferenceIdeal.S384x240, .f32⟩ : BufTy).Contents (Elt Ideal))
  (x18 : (⟨Cert.ReferenceIdeal.S384x128, .f32⟩ : BufTy).Contents (Elt Ideal))
  (x19 : (⟨Cert.ReferenceIdeal.S128x128, .f32⟩ : BufTy).Contents (Elt Ideal))

theorem lhs_ih_0 (i : Cert.KernelIdeal.S1024x384.Idx) (q : Cert.KernelIdeal.dot_S1024x160_S160x384_S1024x384_1_0_0_1_n_n.contr.Idx) :
    (Cert.KernelIdeal.dot_S1024x160_S160x384_S1024x384_1_0_0_1_n_n.lhsIdx i q 0).val = (i 0).val := by
  unfold DotDims.lhsIdx
  rw [dif_neg (show ¬(0 : Fin Cert.KernelIdeal.S1024x160.rank) ∈ Cert.KernelIdeal.dot_S1024x160_S160x384_S1024x384_1_0_0_1_n_n.lhsBatch by decide), dif_pos (show (0 : Fin Cert.KernelIdeal.S1024x160.rank) ∈ Cert.KernelIdeal.dot_S1024x160_S160x384_S1024x384_1_0_0_1_n_n.lhsNonContracting by decide)]
  rfl
theorem lhs_ih_1 (i : Cert.KernelIdeal.S1024x384.Idx) (q : Cert.KernelIdeal.dot_S1024x160_S160x384_S1024x384_1_0_0_1_n_n.contr.Idx) :
    (Cert.KernelIdeal.dot_S1024x160_S160x384_S1024x384_1_0_0_1_n_n.lhsIdx i q 1).val = (q ⟨0, by decide⟩).val :=
  Cert.KernelIdeal.dot_S1024x160_S160x384_S1024x384_1_0_0_1_n_n.lhsIdx_val_of_single rfl i q
theorem rhs_ih_0 (i : Cert.KernelIdeal.S1024x384.Idx) (q : Cert.KernelIdeal.dot_S1024x160_S160x384_S1024x384_1_0_0_1_n_n.contr.Idx) :
    (Cert.KernelIdeal.dot_S1024x160_S160x384_S1024x384_1_0_0_1_n_n.rhsIdx i q 0).val = (q ⟨0, by decide⟩).val :=
  Cert.KernelIdeal.dot_S1024x160_S160x384_S1024x384_1_0_0_1_n_n.rhsIdx_val_of_single rfl i q
theorem rhs_ih_1 (i : Cert.KernelIdeal.S1024x384.Idx) (q : Cert.KernelIdeal.dot_S1024x160_S160x384_S1024x384_1_0_0_1_n_n.contr.Idx) :
    (Cert.KernelIdeal.dot_S1024x160_S160x384_S1024x384_1_0_0_1_n_n.rhsIdx i q 1).val = (i 1).val := by
  unfold DotDims.rhsIdx
  rw [dif_neg (show ¬(1 : Fin Cert.KernelIdeal.S160x384.rank) ∈ Cert.KernelIdeal.dot_S1024x160_S160x384_S1024x384_1_0_0_1_n_n.rhsBatch by decide), dif_pos (show (1 : Fin Cert.KernelIdeal.S160x384.rank) ∈ Cert.KernelIdeal.dot_S1024x160_S160x384_S1024x384_1_0_0_1_n_n.rhsNonContracting by decide)]
  rfl

theorem matmul_ih_apply {φ₁ φ₂ : FTy} (l : FVec Ideal Cert.KernelIdeal.S1024x160 φ₁) (w : FVec Ideal Cert.KernelIdeal.S160x384 φ₂) (r : Fin 1024) (n : Fin 384) :
    matmul Cert.KernelIdeal.dot_S1024x160_S160x384_S1024x384_1_0_0_1_n_n none l w (constant Cert.KernelIdeal.S1024x384 .f32 0x00000000#32) (ValueIdx.ix2 r n)
      = ∑ k : Fin 160, l (ValueIdx.ix2 r k) * w (ValueIdx.ix2 k n) := by
  refine (Ideal.matmul_constant_zero_apply Cert.KernelIdeal.dot_S1024x160_S160x384_S1024x384_1_0_0_1_n_n none l w (ValueIdx.ix2 r n)).trans ?_
  rw [← Equiv.sum_comp (ValueIdx.contrEquiv1 Cert.KernelIdeal.dot_S1024x160_S160x384_S1024x384_1_0_0_1_n_n 160 rfl rfl).symm]
  refine Finset.sum_congr rfl fun k _ => ?_
  have hk := ValueIdx.contrEquiv1_symm_val Cert.KernelIdeal.dot_S1024x160_S160x384_S1024x384_1_0_0_1_n_n 160 rfl rfl k
  have el : Cert.KernelIdeal.dot_S1024x160_S160x384_S1024x384_1_0_0_1_n_n.lhsIdx (ValueIdx.ix2 r n) ((ValueIdx.contrEquiv1 Cert.KernelIdeal.dot_S1024x160_S160x384_S1024x384_1_0_0_1_n_n 160 rfl rfl).symm k) = ValueIdx.ix2 r k := funext fun a => Fin.ext (by
    match a with
    | ⟨0, _⟩ => exact lhs_ih_0 _ _
    | ⟨1, _⟩ => exact (lhs_ih_1 _ _).trans hk)
  have er : Cert.KernelIdeal.dot_S1024x160_S160x384_S1024x384_1_0_0_1_n_n.rhsIdx (ValueIdx.ix2 r n) ((ValueIdx.contrEquiv1 Cert.KernelIdeal.dot_S1024x160_S160x384_S1024x384_1_0_0_1_n_n 160 rfl rfl).symm k) = ValueIdx.ix2 k n := funext fun a => Fin.ext (by
    match a with
    | ⟨0, _⟩ => exact (rhs_ih_0 _ _).trans hk
    | ⟨1, _⟩ => exact rhs_ih_1 _ _)
  rw [el, er]

theorem sum240 (f : Fin 240 → EReal) :
    ∑ k : Fin 240, f k
      = ∑ k : Fin 160, f ⟨k.val, by have := k.isLt; omega⟩
        + ∑ k : Fin 40, f ⟨160 + k.val, by have := k.isLt; omega⟩
        + ∑ k : Fin 40, f ⟨200 + k.val, by have := k.isLt; omega⟩ := by
  rw [LibExtReal.sum_fin_split 160 80 240 rfl f, LibExtReal.sum_fin_split 40 40 80 rfl, ← add_assoc]
  refine congrArg₂ (· + ·) rfl (Finset.sum_congr rfl fun k _ => congrArg f (Fin.ext ?_))
  show 160 + (40 + k.val) = 200 + k.val
  omega

theorem slice1376_apply (h : Cert.KernelIdeal.S1024x1376.Slices ![0, 480] Cert.KernelIdeal.S1024x384)
    (v : FVec Ideal Cert.KernelIdeal.S1024x1376 .f32) (r : Fin 1024) (n : Fin 384) (m : Fin 1376) (hm : m.val = 480 + n.val) :
    extractStridedSlice Cert.KernelIdeal.S1024x384 ![0, 480] v h (ValueIdx.ix2 r n) = v (ValueIdx.ix2 r m) :=
  extractStridedSlice_apply ![0, 480] v h (ValueIdx.ix2 r n) (ValueIdx.ix2 r m) (fun a => match a with
    | ⟨0, _⟩ => by show r.val = 0 + r.val; omega
    | ⟨1, _⟩ => by show m.val = 480 + n.val; exact hm)

theorem pgcol_apply (h1 : Cert.KernelIdeal.S1024x4.Slices ![0, 1] Cert.KernelIdeal.S1024x1) (h2 : Cert.KernelIdeal.S1024x1.Broadcasts Cert.KernelIdeal.S1024x384)
    (v : FVec Ideal Cert.KernelIdeal.S1024x4 .f32) (r : Fin 1024) (n : Fin 384) :
    broadcastTo Cert.KernelIdeal.S1024x384 (extractStridedSlice Cert.KernelIdeal.S1024x1 ![0, 1] v h1) h2 (ValueIdx.ix2 r n)
      = v (ValueIdx.ix2 r (1 : Fin 4)) := by
  refine (broadcastTo_apply _ h2 (ValueIdx.ix2 r n) (ValueIdx.ix2 r (0 : Fin 1)) (fun a => match a with
    | ⟨0, _⟩ => by show r.val = if (1024 : Nat) = 1 then 0 else r.val; rw [if_neg (by decide)]
    | ⟨1, _⟩ => by show 0 = if (1 : Nat) = 1 then 0 else n.val; rw [if_pos rfl])).trans ?_
  exact extractStridedSlice_apply ![0, 1] v h1 (ValueIdx.ix2 r (0 : Fin 1)) (ValueIdx.ix2 r (1 : Fin 4)) (fun a => match a with
    | ⟨0, _⟩ => by show r.val = 0 + r.val; omega
    | ⟨1, _⟩ => by show 1 = 1 + 0; rfl)

theorem lidx120 (i : Fin 65536) (n : Fin 384) (k : Fin 240) :
    lidx_main_v120 (ValueIdx.ix2 i n) k = ValueIdx.ix2 i k :=
  funext fun a => Fin.ext (by match a with | ⟨0, _⟩ => rfl | ⟨1, _⟩ => rfl)

theorem ridx120 (i : Fin 65536) (n : Fin 384) (k : Fin 240) :
    idx_main_v119 (ridx_main_v120 (ValueIdx.ix2 i n) k) = ValueIdx.ix2 n k :=
  funext fun a => Fin.ext (by match a with | ⟨0, _⟩ => rfl | ⟨1, _⟩ => rfl)

theorem idx115 (i : Fin 65536) (k : Fin 40) :
    idx_main_v115 (idx_main_v116 (ValueIdx.ix2 i k)) = ValueIdx.ix2 i (1 : Fin 4) :=
  funext fun a => Fin.ext (by match a with | ⟨0, _⟩ => rfl | ⟨1, _⟩ => rfl)

theorem cat118_left (i : Fin 65536) (k : Fin 160) (j : Fin 240) (hj : j.val = k.val) :
    val_main_v118 x0 x2 x3 x6 x7 x8 x9 x10 x11 x12 x13 x14 x15 x16 (ValueIdx.ix2 i j) = val_main_v114 x0 x2 x3 x6 x7 x8 x9 x10 x11 x12 x13 x14 x15 x16 (ValueIdx.ix2 i k) := by
  unfold val_main_v118
  generalize val_main_v114 x0 x2 x3 x6 x7 x8 x9 x10 x11 x12 x13 x14 x15 x16 = y0
  generalize val_main_v117 x0 x2 x6 x7 x8 x9 x10 x11 x12 x13 = y1
  generalize val_main_v43 x0 x2 x8 x9 = y2
  exact concatenate_apply_piece (1 : Fin Cert.ReferenceIdeal.S65536x240.rank)
    [⟨Cert.ReferenceIdeal.S65536x160, y0⟩, ⟨Cert.ReferenceIdeal.S65536x40, y1⟩, ⟨Cert.ReferenceIdeal.S65536x40, y2⟩]
    _ (ValueIdx.ix2 i j) 0 (show (0 : Nat) < 3 by decide)
    Cert.ReferenceIdeal.S65536x160 y0 rfl rfl 0 rfl (ValueIdx.ix2 i k)
    (fun b hb => match b, hb with | ⟨0, _⟩, _ => rfl | ⟨1, _⟩, hb => absurd rfl hb)
    (by show 0 + k.val = j.val; omega)

theorem cat118_mid (i : Fin 65536) (k : Fin 40) (j : Fin 240) (hj : j.val = 160 + k.val) :
    val_main_v118 x0 x2 x3 x6 x7 x8 x9 x10 x11 x12 x13 x14 x15 x16 (ValueIdx.ix2 i j)
      = val_main_v69 x0 x2 x6 x7 x8 x9 x10 x11 x12 x13 (ValueIdx.ix2 i (1 : Fin 4)) * val_main_v45 x0 x2 x7 x8 x9 (ValueIdx.ix2 i k) := by
  have e : val_main_v117 x0 x2 x6 x7 x8 x9 x10 x11 x12 x13 (ValueIdx.ix2 i k)
      = val_main_v69 x0 x2 x6 x7 x8 x9 x10 x11 x12 x13 (ValueIdx.ix2 i (1 : Fin 4)) * val_main_v45 x0 x2 x7 x8 x9 (ValueIdx.ix2 i k) := by
    rw [val_main_v117_apply, val_main_v116_apply, val_main_v115_apply, idx115]; rfl
  rw [← e]
  unfold val_main_v118
  generalize val_main_v114 x0 x2 x3 x6 x7 x8 x9 x10 x11 x12 x13 x14 x15 x16 = y0
  generalize val_main_v117 x0 x2 x6 x7 x8 x9 x10 x11 x12 x13 = y1
  generalize val_main_v43 x0 x2 x8 x9 = y2
  exact concatenate_apply_piece (1 : Fin Cert.ReferenceIdeal.S65536x240.rank)
    [⟨Cert.ReferenceIdeal.S65536x160, y0⟩, ⟨Cert.ReferenceIdeal.S65536x40, y1⟩, ⟨Cert.ReferenceIdeal.S65536x40, y2⟩]
    _ (ValueIdx.ix2 i j) 1 (show (1 : Nat) < 3 by decide)
    Cert.ReferenceIdeal.S65536x40 y1 rfl rfl 160 rfl (ValueIdx.ix2 i k)
    (fun b hb => match b, hb with | ⟨0, _⟩, _ => rfl | ⟨1, _⟩, hb => absurd rfl hb)
    (by show 160 + k.val = j.val; omega)

theorem cat118_right (i : Fin 65536) (k : Fin 40) (j : Fin 240) (hj : j.val = 200 + k.val) :
    val_main_v118 x0 x2 x3 x6 x7 x8 x9 x10 x11 x12 x13 x14 x15 x16 (ValueIdx.ix2 i j) = val_main_v43 x0 x2 x8 x9 (ValueIdx.ix2 i k) := by
  unfold val_main_v118
  generalize val_main_v114 x0 x2 x3 x6 x7 x8 x9 x10 x11 x12 x13 x14 x15 x16 = y0
  generalize val_main_v117 x0 x2 x6 x7 x8 x9 x10 x11 x12 x13 = y1
  generalize val_main_v43 x0 x2 x8 x9 = y2
  exact concatenate_apply_piece (1 : Fin Cert.ReferenceIdeal.S65536x240.rank)
    [⟨Cert.ReferenceIdeal.S65536x160, y0⟩, ⟨Cert.ReferenceIdeal.S65536x40, y1⟩, ⟨Cert.ReferenceIdeal.S65536x40, y2⟩]
    _ (ValueIdx.ix2 i j) 2 (show (2 : Nat) < 3 by decide)
    Cert.ReferenceIdeal.S65536x40 y2 rfl rfl 200 rfl (ValueIdx.ix2 i k)
    (fun b hb => match b, hb with | ⟨0, _⟩, _ => rfl | ⟨1, _⟩, hb => absurd rfl hb)
    (by show 200 + k.val = j.val; omega)

theorem gi2_apply (t : Fin 64) (v3 : Vec Ideal Cert.KernelIdeal.S1024x160 .f32) (v23 : FVec Ideal Cert.KernelIdeal.S192x480 .bf16) (v25 : FVec Ideal Cert.KernelIdeal.S160x480 .bf16) (v27 : FVec Ideal Cert.KernelIdeal.S160x160 .bf16) (v29 : FVec Ideal Cert.KernelIdeal.S160x384 .bf16) (v55 : FVec Ideal Cert.KernelIdeal.S40x1376 .bf16) (v407 : FVec Ideal Cert.KernelIdeal.S1024x40 .f32) (v420 : FVec Ideal Cert.KernelIdeal.S1024x192 .bf16) (v424 : FVec Ideal Cert.KernelIdeal.S1024x4 .f32) (v426 : FVec Ideal Cert.KernelIdeal.S1024x1376 .f32) (v428 : FVec Ideal Cert.KernelIdeal.S1024x480 .f32) (v429 : FVec Ideal Cert.KernelIdeal.S1024x480 .f32)
    (w53 w55 : Fin 40 → Fin 1376 → EReal)
    (ho1 : ∀ (r : Fin 1024) (i : Fin 65536) (k : Fin 160), i.val = 1024 * t.val + r.val →
      k0_pay89 v3 v23 v25 v27 v55 v407 v420 v428 v429 (ValueIdx.ix2 r k) = val_main_v114 x0 x2 x3 x6 x7 x8 x9 x10 x11 x12 x13 x14 x15 x16 (ValueIdx.ix2 i k))
    (h29 : ∀ (k : Fin 160) (n : Fin 384) (j : Fin 240), j.val = k.val → v29 (ValueIdx.ix2 k n) = x17 (ValueIdx.ix2 n j))
    (h424 : ∀ (r : Fin 1024) (i : Fin 65536) (c : Fin 4), i.val = 1024 * t.val + r.val →
      v424 (ValueIdx.ix2 r c) = val_main_v69 x0 x2 x6 x7 x8 x9 x10 x11 x12 x13 (ValueIdx.ix2 i c))
    (hpg : ∀ (i : Fin 65536), 0 ≤ val_main_v69 x0 x2 x6 x7 x8 x9 x10 x11 x12 x13 (ValueIdx.ix2 i (1 : Fin 4)) ∧
      val_main_v69 x0 x2 x6 x7 x8 x9 x10 x11 x12 x13 (ValueIdx.ix2 i (1 : Fin 4)) ≠ ⊤)
    (h426 : ∀ (r : Fin 1024) (i : Fin 65536) (n : Fin 1376), i.val = 1024 * t.val + r.val →
      v426 (ValueIdx.ix2 r n) = ∑ k : Fin 40, val_main_v45 x0 x2 x7 x8 x9 (ValueIdx.ix2 i k) * w53 k n)
    (hw53 : ∀ (k : Fin 40) (n : Fin 384) (m : Fin 1376) (j : Fin 240), m.val = 480 + n.val → j.val = 160 + k.val →
      w53 k m = x17 (ValueIdx.ix2 n j))
    (hprev : ∀ (r : Fin 1024) (i : Fin 65536) (n : Fin 1376), i.val = 1024 * t.val + r.val →
      k0_pay85 v55 v407 (ValueIdx.ix2 r n) = ∑ k : Fin 40, val_main_v43 x0 x2 x8 x9 (ValueIdx.ix2 i k) * w55 k n)
    (hw55 : ∀ (k : Fin 40) (n : Fin 384) (m : Fin 1376) (j : Fin 240), m.val = 480 + n.val → j.val = 200 + k.val →
      w55 k m = x17 (ValueIdx.ix2 n j)) :
    ∀ (r : Fin 1024) (i : Fin 65536) (n : Fin 384), i.val = 1024 * t.val + r.val →
      k0_pay90 v3 v23 v25 v27 v29 v55 v407 v420 v424 v426 v428 v429 (ValueIdx.ix2 r n) = val_main_v120 x0 x2 x3 x6 x7 x8 x9 x10 x11 x12 x13 x14 x15 x16 x17 (ValueIdx.ix2 i n) := by
  intro r i n hi
  have hm : 480 + n.val < 1376 := by have := n.isLt; omega
  unfold k0_pay90
  generalize k0_pay89 v3 v23 v25 v27 v55 v407 v420 v428 v429 = o1 at ho1 ⊢
  generalize k0_pay85 v55 v407 = p85 at hprev ⊢
  simp only [ValueIdx.addf_apply, ValueIdx.mulf_apply, matmul_ih_apply, pgcol_apply,
    slice1376_apply _ _ r n ⟨480 + n.val, hm⟩ rfl]
  rw [h424 r i 1 hi, h426 r i _ hi, hprev r i _ hi, val_main_v120_apply, sum240]
  refine congrArg₂ (· + ·) (congrArg₂ (· + ·) (Finset.sum_congr rfl fun k _ => ?_) ?_)
    (Finset.sum_congr rfl fun k _ => ?_)
  · have hk : k.val < 240 := by have := k.isLt; omega
    rw [lidx120, val_main_v119_apply, ridx120, cat118_left x0 x2 x3 x6 x7 x8 x9 x10 x11 x12 x13 x14 x15 x16 i k ⟨k.val, hk⟩ rfl, ho1 r i k hi,
      h29 k n ⟨k.val, hk⟩ rfl]
  · rw [LibExtReal.mul_sum_of_nonneg_ne_top _ (hpg i).1 (hpg i).2]
    refine Finset.sum_congr rfl fun k _ => ?_
    have hk : 160 + k.val < 240 := by have := k.isLt; omega
    rw [lidx120, val_main_v119_apply, ridx120, cat118_mid x0 x2 x3 x6 x7 x8 x9 x10 x11 x12 x13 x14 x15 x16 i k ⟨160 + k.val, hk⟩ rfl,
      hw53 k n ⟨480 + n.val, hm⟩ ⟨160 + k.val, hk⟩ rfl rfl, mul_assoc]
  · have hk : 200 + k.val < 240 := by have := k.isLt; omega
    rw [lidx120, val_main_v119_apply, ridx120, cat118_right x0 x2 x3 x6 x7 x8 x9 x10 x11 x12 x13 x14 x15 x16 i k ⟨200 + k.val, hk⟩ rfl,
      hw55 k n ⟨480 + n.val, hm⟩ ⟨200 + k.val, hk⟩ rfl rfl]

end Cert.Bridge.Gru2
-- ==== Proof.ChainGru2.lean ====
import proofs.«401269_j23398981829052_3_alg».proof.Proof.Chain0
import proofs.«401269_j23398981829052_3_alg».proof.Proof.StageGru2
import proofs.«401269_j23398981829052_3_alg».proof.Proof.StageGru2Input
import proofs.«401269_j23398981829052_3_alg».proof.Proof.StageK40

noncomputable section

namespace Cert.Bridge.Chain

open Idealize.ShloMosaic Idealize.ShloMosaic.TcCoe Idealize.ShloMosaic.ValueIdx
open Cert.KernelIdeal Cert.KernelIdeal.Gen Cert.ReferenceIdeal.Read

variable (t : Fin 64)
variable (x0 : (⟨Cert.ReferenceIdeal.S65536x80, .f32⟩ : BufTy).Contents (Elt Ideal))
variable (x1 : (⟨Cert.ReferenceIdeal.S65536x256, .f32⟩ : BufTy).Contents (Elt Ideal))
variable (x2 : (⟨Cert.ReferenceIdeal.S65536x256, .f32⟩ : BufTy).Contents (Elt Ideal))
variable (x3 : (⟨Cert.ReferenceIdeal.S65536x160, .f32⟩ : BufTy).Contents (Elt Ideal))
variable (x4 : (⟨Cert.ReferenceIdeal.S65536x128, .f32⟩ : BufTy).Contents (Elt Ideal))
variable (x5 : (⟨Cert.ReferenceIdeal.S65536x128, .f32⟩ : BufTy).Contents (Elt Ideal))
variable (x6 : (⟨Cert.ReferenceIdeal.S65536x164, .f32⟩ : BufTy).Contents (Elt Ideal))
variable (x7 : (⟨Cert.ReferenceIdeal.S65536, .i32⟩ : BufTy).Contents (Elt Ideal))
variable (x8 : (⟨Cert.ReferenceIdeal.S1x80, .f32⟩ : BufTy).Contents (Elt Ideal))
variable (x9 : (⟨Cert.ReferenceIdeal.S1, .f32⟩ : BufTy).Contents (Elt Ideal))
variable (x10 : (⟨Cert.ReferenceIdeal.S192x328, .f32⟩ : BufTy).Contents (Elt Ideal))
variable (x11 : (⟨Cert.ReferenceIdeal.S192x192, .f32⟩ : BufTy).Contents (Elt Ideal))
variable (x12 : (⟨Cert.ReferenceIdeal.S4x192, .f32⟩ : BufTy).Contents (Elt Ideal))
variable (x13 : (⟨Cert.ReferenceIdeal.S4, .f32⟩ : BufTy).Contents (Elt Ideal))
variable (x14 : (⟨Cert.ReferenceIdeal.S480x272, .f32⟩ : BufTy).Contents (Elt Ideal))
variable (x15 : (⟨Cert.ReferenceIdeal.S480x160, .f32⟩ : BufTy).Contents (Elt Ideal))
variable (x16 : (⟨Cert.ReferenceIdeal.S160x160, .f32⟩ : BufTy).Contents (Elt Ideal))
variable (x17 : (⟨Cert.ReferenceIdeal.S384x240, .f32⟩ : BufTy).Contents (Elt Ideal))
variable (x18 : (⟨Cert.ReferenceIdeal.S384x128, .f32⟩ : BufTy).Contents (Elt Ideal))
variable (x19 : (⟨Cert.ReferenceIdeal.S128x128, .f32⟩ : BufTy).Contents (Elt Ideal))
variable (x20 : (⟨Cert.ReferenceIdeal.S384x208, .f32⟩ : BufTy).Contents (Elt Ideal))
variable (x21 : (⟨Cert.ReferenceIdeal.S384x128, .f32⟩ : BufTy).Contents (Elt Ideal))
variable (x22 : (⟨Cert.ReferenceIdeal.S128x128, .f32⟩ : BufTy).Contents (Elt Ideal))
variable (x23 : (⟨Cert.ReferenceIdeal.S128x688, .f32⟩ : BufTy).Contents (Elt Ideal))
variable (x24 : (⟨Cert.ReferenceIdeal.S128x128, .f32⟩ : BufTy).Contents (Elt Ideal))
variable (x25 : (⟨Cert.ReferenceIdeal.S40x128, .f32⟩ : BufTy).Contents (Elt Ideal))
variable (b : Cert.KernelIdeal.Fr.Blocks Ideal)

private theorem fpAll_apply (r : Fin 1024) (n : Fin 1376) :
    Fr.val426 b (ix2 r n) = ∑ k : Fin 40, Fr.val409 b (ix2 r k) * Fr.val53 b (ix2 k n) := by
  unfold Fr.val426 k0_pay80
  exact Cert.Bridge.K40.matmul_truncf_apply (Fr.val409 b) (Fr.val53 b) r n

theorem sgi2 (H : Inputs t x0 x1 x2 x3 x4 x5 x6 x7 x8 x9 x10 x11 x12 x13 x14 x15 x16 x17 x18 x19 x20 x21 x22 x23 x24 x25 b) (ho1 : SO1 t x0 x2 x3 x6 x7 x8 x9 x10 x11 x12 x13 x14 x15 x16 b) (hpg : SPg t x0 x2 x6 x7 x8 x9 x10 x11 x12 x13 b) (hpgr : SPgRange x0 x2 x6 x7 x8 x9 x10 x11 x12 x13)
    (hfp : SFp t x0 x2 x7 x8 x9 b) (hprev : SPrev t x0 x2 x8 x9 b) : SGi2 t x0 x2 x3 x6 x7 x8 x9 x10 x11 x12 x13 x14 x15 x16 x17 b := by
  unfold SGi2
  refine Cert.Bridge.Gru2.gi2_apply x0 x2 x3 x6 x7 x8 x9 x10 x11 x12 x13 x14 x15 x16 x17 t (Fr.val3 b) (Fr.val23 b) (Fr.val25 b) (Fr.val27 b) (Fr.val29 b) (Fr.val55 b) (Fr.val407 b) (Fr.val420 b) (Fr.val424 b) (Fr.val426 b) (Fr.val428 b) (Fr.val429 b)
    (fun k n => Fr.val53 b (ix2 k n)) (fun k n => Fr.val55 b (ix2 k n))
    ho1 H.in29 hpg (fun i => hpgr i 1) ?_ ?_ ?_ ?_
  · intro r i n hi
    rw [fpAll_apply]
    exact Finset.sum_congr rfl fun k _ => congrArg (· * Fr.val53 b (ix2 k n)) (hfp r i k hi)
  · intro k n m j hm hj
    exact H.in53b k m n j (by omega) (by have := n.isLt; omega) (by omega) hj
  · intro r i n hi
    rw [Cert.Bridge.K40.prevAll_apply]
    exact Finset.sum_congr rfl fun k _ => congrArg (· * Fr.val55 b (ix2 k n)) (hprev r i k hi)
  · intro k n m j hm hj
    exact H.in55b k m n j (by omega) (by have := n.isLt; omega) (by omega) hj

theorem sgh2 (H : Inputs t x0 x1 x2 x3 x4 x5 x6 x7 x8 x9 x10 x11 x12 x13 x14 x15 x16 x17 x18 x19 x20 x21 x22 x23 x24 x25 b) : SGh2 t x4 x18 b := by
  unfold SGh2
  exact Cert.Bridge.Gru2.gh2_apply x4 x18 t (Fr.val4 b) (Fr.val31 b) H.in4 H.in31

theorem sgi2reset (hgi : SGi2 t x0 x2 x3 x6 x7 x8 x9 x10 x11 x12 x13 x14 x15 x16 x17 b) : SGi2Reset t x0 x2 x3 x6 x7 x8 x9 x10 x11 x12 x13 x14 x15 x16 x17 b := by
  unfold SGi2Reset
  exact Cert.Bridge.Gru2.gi2_reset_apply x0 x2 x3 x6 x7 x8 x9 x10 x11 x12 x13 x14 x15 x16 x17 t (Fr.val3 b) (Fr.val23 b) (Fr.val25 b) (Fr.val27 b) (Fr.val29 b) (Fr.val55 b) (Fr.val407 b) (Fr.val420 b) (Fr.val424 b) (Fr.val426 b) (Fr.val428 b) (Fr.val429 b) hgi

theorem sg2 (H : Inputs t x0 x1 x2 x3 x4 x5 x6 x7 x8 x9 x10 x11 x12 x13 x14 x15 x16 x17 x18 x19 x20 x21 x22 x23 x24 x25 b) (hgi : SGi2 t x0 x2 x3 x6 x7 x8 x9 x10 x11 x12 x13 x14 x15 x16 x17 b) (hgh : SGh2 t x4 x18 b) (hgr : SGi2Reset t x0 x2 x3 x6 x7 x8 x9 x10 x11 x12 x13 x14 x15 x16 x17 b) :
    SG2 t x0 x2 x3 x4 x6 x7 x8 x9 x10 x11 x12 x13 x14 x15 x16 x17 x18 b := by
  unfold SG2
  exact Cert.Bridge.Gru2.g2_apply x0 x2 x3 x4 x6 x7 x8 x9 x10 x11 x12 x13 x14 x15 x16 x17 x18 t (Fr.val4 b) (Fr.val479 b) (Fr.val481 b) (Fr.val482 b) H.in4 hgi hgh hgr

theorem so2 (H : Inputs t x0 x1 x2 x3 x4 x5 x6 x7 x8 x9 x10 x11 x12 x13 x14 x15 x16 x17 x18 x19 x20 x21 x22 x23 x24 x25 b) (hg2 : SG2 t x0 x2 x3 x4 x6 x7 x8 x9 x10 x11 x12 x13 x14 x15 x16 x17 x18 b) : SO2 t x0 x2 x3 x4 x6 x7 x8 x9 x10 x11 x12 x13 x14 x15 x16 x17 x18 x19 b := by
  unfold SO2
  exact Cert.Bridge.Gru2.glu2_apply x0 x2 x3 x4 x6 x7 x8 x9 x10 x11 x12 x13 x14 x15 x16 x17 x18 x19 t (Fr.val4 b) (Fr.val33 b) (Fr.val479 b) (Fr.val481 b) (Fr.val482 b) hg2 H.in33

end Cert.Bridge.Chain

end
-- ==== Proof.StageGru3.lean ====
import proofs.«401269_j23398981829052_3_alg».proof.Proof.Gen.KernelIdeal.Skeleton
import proofs.«401269_j23398981829052_3_alg».proof.Proof.RefRead
import proofs.«401269_j23398981829052_3_alg».proof.Proof.LibExtReal
import proofs.«401269_j23398981829052_3_alg».proof.Proof.StageK40
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Bridge.Gru3

open Idealize.ShloMosaic Idealize.ShloMosaic.ValueIdx Idealize.SL.Sem
open Cert.KernelIdeal Cert.KernelIdeal.Gen
open Cert.ReferenceIdeal.Read
open scoped BigOperators

theorem lhs_a_0 (i : S1024x384.Idx) (q : dot_S1024x128_S128x384_S1024x384_1_0_0_1_n_n.contr.Idx) :
    (dot_S1024x128_S128x384_S1024x384_1_0_0_1_n_n.lhsIdx i q 0).val = (i 0).val := by
  unfold DotDims.lhsIdx
  rw [dif_neg (show ¬(0 : Fin S1024x128.rank) ∈ dot_S1024x128_S128x384_S1024x384_1_0_0_1_n_n.lhsBatch by decide), dif_pos (show (0 : Fin S1024x128.rank) ∈ dot_S1024x128_S128x384_S1024x384_1_0_0_1_n_n.lhsNonContracting by decide)]
  rfl
theorem lhs_a_1 (i : S1024x384.Idx) (q : dot_S1024x128_S128x384_S1024x384_1_0_0_1_n_n.contr.Idx) :
    (dot_S1024x128_S128x384_S1024x384_1_0_0_1_n_n.lhsIdx i q 1).val = (q ⟨0, by decide⟩).val :=
  dot_S1024x128_S128x384_S1024x384_1_0_0_1_n_n.lhsIdx_val_of_single rfl i q
theorem rhs_a_0 (i : S1024x384.Idx) (q : dot_S1024x128_S128x384_S1024x384_1_0_0_1_n_n.contr.Idx) :
    (dot_S1024x128_S128x384_S1024x384_1_0_0_1_n_n.rhsIdx i q 0).val = (q ⟨0, by decide⟩).val :=
  dot_S1024x128_S128x384_S1024x384_1_0_0_1_n_n.rhsIdx_val_of_single rfl i q
theorem rhs_a_1 (i : S1024x384.Idx) (q : dot_S1024x128_S128x384_S1024x384_1_0_0_1_n_n.contr.Idx) :
    (dot_S1024x128_S128x384_S1024x384_1_0_0_1_n_n.rhsIdx i q 1).val = (i 1).val := by
  unfold DotDims.rhsIdx
  rw [dif_neg (show ¬(1 : Fin S128x384.rank) ∈ dot_S1024x128_S128x384_S1024x384_1_0_0_1_n_n.rhsBatch by decide), dif_pos (show (1 : Fin S128x384.rank) ∈ dot_S1024x128_S128x384_S1024x384_1_0_0_1_n_n.rhsNonContracting by decide)]
  rfl

theorem matmul_128_384_apply {φ₁ φ₂ : FTy} (l : FVec Ideal S1024x128 φ₁) (w : FVec Ideal S128x384 φ₂) (r : Fin 1024) (n : Fin 384) :
    matmul dot_S1024x128_S128x384_S1024x384_1_0_0_1_n_n none l w (constant S1024x384 .f32 0x00000000#32) (ix2 r n)
      = ∑ k : Fin 128, l (ix2 r k) * w (ix2 k n) := by
  simp only [matmul]
  rw [Ideal.matmul_constant_zero_apply, ← Equiv.sum_comp (ValueIdx.contrEquiv1 dot_S1024x128_S128x384_S1024x384_1_0_0_1_n_n 128 rfl rfl).symm]
  refine Finset.sum_congr rfl fun k _ => ?_
  have hk := ValueIdx.contrEquiv1_symm_val dot_S1024x128_S128x384_S1024x384_1_0_0_1_n_n 128 rfl rfl k
  have el : dot_S1024x128_S128x384_S1024x384_1_0_0_1_n_n.lhsIdx (ix2 r n) ((ValueIdx.contrEquiv1 dot_S1024x128_S128x384_S1024x384_1_0_0_1_n_n 128 rfl rfl).symm k) = ix2 r k := funext fun a => Fin.ext (by
    match a with
    | ⟨0, _⟩ => exact lhs_a_0 _ _
    | ⟨1, _⟩ => exact (lhs_a_1 _ _).trans hk)
  have er : dot_S1024x128_S128x384_S1024x384_1_0_0_1_n_n.rhsIdx (ix2 r n) ((ValueIdx.contrEquiv1 dot_S1024x128_S128x384_S1024x384_1_0_0_1_n_n 128 rfl rfl).symm k) = ix2 k n := funext fun a => Fin.ext (by
    match a with
    | ⟨0, _⟩ => exact (rhs_a_0 _ _).trans hk
    | ⟨1, _⟩ => exact rhs_a_1 _ _)
  rw [el, er]

theorem lhs_b_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_b_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_b_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_b_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem matmul_128_128_apply {φ₁ φ₂ : FTy} (l : FVec Ideal S1024x128 φ₁) (w : FVec Ideal S128x128 φ₂) (r : Fin 1024) (n : Fin 128) :
    matmul dot_S1024x128_S128x128_S1024x128_1_0_0_1_n_n none l w (constant S1024x128 .f32 0x00000000#32) (ix2 r n)
      = ∑ k : Fin 128, l (ix2 r k) * w (ix2 k n) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 r n) ((ValueIdx.contrEquiv1 dot_S1024x128_S128x128_S1024x128_1_0_0_1_n_n 128 rfl rfl).symm k) = ix2 r k := funext fun a => Fin.ext (by
    match a with
    | ⟨0, _⟩ => exact lhs_b_0 _ _
    | ⟨1, _⟩ => exact (lhs_b_1 _ _).trans hk)
  have er : dot_S1024x128_S128x128_S1024x128_1_0_0_1_n_n.rhsIdx (ix2 r n) ((ValueIdx.contrEquiv1 dot_S1024x128_S128x128_S1024x128_1_0_0_1_n_n 128 rfl rfl).symm k) = ix2 k n := funext fun a => Fin.ext (by
    match a with
    | ⟨0, _⟩ => exact (rhs_b_0 _ _).trans hk
    | ⟨1, _⟩ => exact rhs_b_1 _ _)
  rw [el, er]

theorem slice384_apply {α : Type} (o : Nat) (v : S1024x384.Idx → α) (h : S1024x384.Slices ![0, o] S1024x128) (r : Fin 1024) (n : Fin 128)
    (hn : o + n.val < 384) :
    extractStridedSlice S1024x128 ![0, o] v h (ix2 r n) = v (ix2 r ⟨o + n.val, hn⟩) :=
  extractStridedSlice_apply ![0, o] v h (ix2 r n) (ix2 r ⟨o + n.val, hn⟩) (fun a => match a with
    | ⟨0, _⟩ => by show r.val = 0 + r.val; omega
    | ⟨1, _⟩ => by show o + n.val = o + n.val; rfl)

theorem slice1376_apply {α : Type} (v : S1024x1376.Idx → α) (h : S1024x1376.Slices ![0, 864] S1024x384) (r : Fin 1024) (n : Fin 384)
    (hn : 864 + n.val < 1376) :
    extractStridedSlice S1024x384 ![0, 864] v h (ix2 r n) = v (ix2 r ⟨864 + n.val, hn⟩) :=
  extractStridedSlice_apply ![0, 864] v h (ix2 r n) (ix2 r ⟨864 + n.val, hn⟩) (fun a => match a with
    | ⟨0, _⟩ => by show r.val = 0 + r.val; omega
    | ⟨1, _⟩ => by show 864 + n.val = 864 + n.val; rfl)

theorem slice4_apply {α : Type} (v : S1024x4.Idx → α) (h : S1024x4.Slices ![0, 2] S1024x1) (r : Fin 1024) (c : Fin 1) :
    extractStridedSlice S1024x1 ![0, 2] v h (ix2 r c) = v (ix2 r (2 : Fin 4)) :=
  extractStridedSlice_apply ![0, 2] v h (ix2 r c) (ix2 r (2 : Fin 4)) (fun a => match a with
    | ⟨0, _⟩ => by show r.val = 0 + r.val; omega
    | ⟨1, _⟩ => by show 2 = 2 + c.val; omega)

theorem bcast384_apply {α : Type} (v : S1024x1.Idx → α) (h : S1024x1.Broadcasts S1024x384) (r : Fin 1024) (n : Fin 384) :
    broadcastTo S1024x384 v h (ix2 r n) = v (ix2 r (0 : Fin 1)) :=
  broadcastTo_apply v h (ix2 r n) (ix2 r (0 : Fin 1)) (fun a => match a with
    | ⟨0, _⟩ => by show r.val = if (1024 : Nat) = 1 then 0 else r.val; rw [if_neg (by decide)]
    | ⟨1, _⟩ => by show 0 = if (1 : Nat) = 1 then 0 else n.val; rw [if_pos rfl])

theorem tanh_apply {s : Shape} {φ : FTy} (a : FVec Ideal s φ) (i : s.Idx) : tanh a i = Ideal.tanh (a i) := rfl

section Stage

variable {t : Fin 64}
variable {x0 : (⟨Cert.ReferenceIdeal.S65536x80, .f32⟩ : BufTy).Contents (Elt Ideal)}
  {x2 : (⟨Cert.ReferenceIdeal.S65536x256, .f32⟩ : BufTy).Contents (Elt Ideal)}
  {x3 : (⟨Cert.ReferenceIdeal.S65536x160, .f32⟩ : BufTy).Contents (Elt Ideal)}
  {x4 x5 : (⟨Cert.ReferenceIdeal.S65536x128, .f32⟩ : BufTy).Contents (Elt Ideal)}
  {x6 : (⟨Cert.ReferenceIdeal.S65536x164, .f32⟩ : BufTy).Contents (Elt Ideal)}
  {x7 : (⟨Cert.ReferenceIdeal.S65536, .i32⟩ : BufTy).Contents (Elt Ideal)}
  {x8 : (⟨Cert.ReferenceIdeal.S1x80, .f32⟩ : BufTy).Contents (Elt Ideal)}
  {x9 : (⟨Cert.ReferenceIdeal.S1, .f32⟩ : BufTy).Contents (Elt Ideal)}
  {x10 : (⟨Cert.ReferenceIdeal.S192x328, .f32⟩ : BufTy).Contents (Elt Ideal)}
  {x11 : (⟨Cert.ReferenceIdeal.S192x192, .f32⟩ : BufTy).Contents (Elt Ideal)}
  {x12 : (⟨Cert.ReferenceIdeal.S4x192, .f32⟩ : BufTy).Contents (Elt Ideal)}
  {x13 : (⟨Cert.ReferenceIdeal.S4, .f32⟩ : BufTy).Contents (Elt Ideal)}
  {x14 : (⟨Cert.ReferenceIdeal.S480x272, .f32⟩ : BufTy).Contents (Elt Ideal)}
  {x15 : (⟨Cert.ReferenceIdeal.S480x160, .f32⟩ : BufTy).Contents (Elt Ideal)}
  {x16 : (⟨Cert.ReferenceIdeal.S160x160, .f32⟩ : BufTy).Contents (Elt Ideal)}
  {x17 : (⟨Cert.ReferenceIdeal.S384x240, .f32⟩ : BufTy).Contents (Elt Ideal)}
  {x18 : (⟨Cert.ReferenceIdeal.S384x128, .f32⟩ : BufTy).Contents (Elt Ideal)}
  {x19 : (⟨Cert.ReferenceIdeal.S128x128, .f32⟩ : BufTy).Contents (Elt Ideal)}
  {x20 : (⟨Cert.ReferenceIdeal.S384x208, .f32⟩ : BufTy).Contents (Elt Ideal)}
  {x21 : (⟨Cert.ReferenceIdeal.S384x128, .f32⟩ : BufTy).Contents (Elt Ideal)}
  {x22 : (⟨Cert.ReferenceIdeal.S128x128, .f32⟩ : BufTy).Contents (Elt Ideal)}

local notation "R43" => val_main_v43 (F := Ideal) x0 x2 x8 x9
local notation "R45" => val_main_v45 (F := Ideal) x0 x2 x7 x8 x9
local notation "R69" => val_main_v69 (F := Ideal) x0 x2 x6 x7 x8 x9 x10 x11 x12 x13
local notation "R159" => val_main_v159 (F := Ideal) x0 x2 x3 x4 x6 x7 x8 x9 x10 x11 x12 x13 x14 x15 x16 x17 x18 x19
local notation "R195" => val_main_v195 (F := Ideal) x0 x2 x3 x4 x5 x6 x7 x8 x9 x10 x11 x12 x13 x14 x15 x16 x17 x18 x19 x20 x21
local notation "R204" => val_main_v204 (F := Ideal) x0 x2 x3 x4 x5 x6 x7 x8 x9 x10 x11 x12 x13 x14 x15 x16 x17 x18 x19 x20 x21 x22

local notation "R162" => val_main_v162 (F := Ideal) x0 x2 x6 x7 x8 x9 x10 x11 x12 x13
local notation "R163" => val_main_v163 (F := Ideal) x0 x2 x3 x4 x6 x7 x8 x9 x10 x11 x12 x13 x14 x15 x16 x17 x18 x19
local notation "R165" => val_main_v165 (F := Ideal) x0 x2 x3 x4 x6 x7 x8 x9 x10 x11 x12 x13 x14 x15 x16 x17 x18 x19 x20
local notation "R167" => val_main_v167 (F := Ideal) x5 x21

theorem cat3_left (i : Fin 65536) (k : Fin 128) (j : Fin 208) (hj : j.val = k.val) :
    R163 (ix2 i j) = R159 (ix2 i k) := by
  unfold val_main_v163
  generalize R159 = y0
  generalize R162 = y1
  generalize R43 = y2
  exact concatenate_apply_piece _ _ _ (ix2 i j)
    0 (by show (0 : Nat) < 3; omega) Cert.ReferenceIdeal.S65536x128 y0 rfl rfl 0 rfl (ix2 i k)
    (fun b hb => match b, hb with
      | ⟨0, _⟩, _ => rfl
      | ⟨1, _⟩, hb => absurd rfl hb)
    (by show 0 + k.val = j.val; omega)

theorem cat3_mid (i : Fin 65536) (k : Fin 40) (j : Fin 208) (hj : j.val = 128 + k.val) :
    R163 (ix2 i j) = R162 (ix2 i k) := by
  unfold val_main_v163
  generalize R159 = y0
  generalize R162 = y1
  generalize R43 = y2
  exact concatenate_apply_piece _ _ _ (ix2 i j)
    1 (by show (1 : Nat) < 3; omega) Cert.ReferenceIdeal.S65536x40 y1 rfl rfl 128 rfl (ix2 i k)
    (fun b hb => match b, hb with
      | ⟨0, _⟩, _ => rfl
      | ⟨1, _⟩, hb => absurd rfl hb)
    (by show 128 + k.val = j.val; omega)

theorem cat3_right (i : Fin 65536) (k : Fin 40) (j : Fin 208) (hj : j.val = 168 + k.val) :
    R163 (ix2 i j) = R43 (ix2 i k) := by
  unfold val_main_v163
  generalize R159 = y0
  generalize R162 = y1
  generalize R43 = y2
  exact concatenate_apply_piece _ _ _ (ix2 i j)
    2 (by show (2 : Nat) < 3; omega) Cert.ReferenceIdeal.S65536x40 y2 rfl rfl 168 rfl (ix2 i k)
    (fun b hb => match b, hb with
      | ⟨0, _⟩, _ => rfl
      | ⟨1, _⟩, hb => absurd rfl hb)
    (by show 168 + k.val = j.val; omega)

theorem scaled_pitch_apply (i : Fin 65536) (k : Fin 40) :
    R162 (ix2 i k) = R69 (ix2 i (2 : Fin 4)) * R45 (ix2 i k) := by
  have e : idx_main_v160 (idx_main_v161 (ix2 i k)) = ix2 i (2 : Fin 4) :=
    funext fun a => Fin.ext (by match a with | ⟨0, _⟩ => rfl | ⟨1, _⟩ => rfl)
  rw [val_main_v162_apply, val_main_v161_apply, val_main_v160_apply, e]
  rfl

theorem ref_gi3_sum (i : Fin 65536) (n : Fin 384) :
    R165 (ix2 i n) = ∑ k : Fin 208, R163 (ix2 i k) * x20 (ix2 n k) := by
  rw [val_main_v165_apply]
  refine Finset.sum_congr rfl fun k _ => ?_
  have el : lidx_main_v165 (ix2 i n) k = ix2 i k :=
    funext fun a => Fin.ext (by match a with | ⟨0, _⟩ => rfl | ⟨1, _⟩ => rfl)
  have er : idx_main_v164 (ridx_main_v165 (ix2 i n) k) = ix2 n k :=
    funext fun a => Fin.ext (by match a with | ⟨0, _⟩ => rfl | ⟨1, _⟩ => rfl)
  rw [val_main_v164_apply, el, er]

theorem ref_gh3_sum (i : Fin 65536) (n : Fin 384) :
    R167 (ix2 i n) = ∑ k : Fin 128, x5 (ix2 i k) * x21 (ix2 n k) := by
  rw [val_main_v167_apply]
  refine Finset.sum_congr rfl fun k _ => ?_
  have el : lidx_main_v167 (ix2 i n) k = ix2 i k :=
    funext fun a => Fin.ext (by match a with | ⟨0, _⟩ => rfl | ⟨1, _⟩ => rfl)
  have er : idx_main_v166 (ridx_main_v167 (ix2 i n) k) = ix2 n k :=
    funext fun a => Fin.ext (by match a with | ⟨0, _⟩ => rfl | ⟨1, _⟩ => rfl)
  rw [val_main_v166_apply, el, er]

theorem ref_gi3_split (hpg : ∀ i : Fin 65536, (0 : EReal) ≤ R69 (ix2 i (2 : Fin 4)) ∧ R69 (ix2 i (2 : Fin 4)) ≠ (⊤ : EReal))
    (i : Fin 65536) (n : Fin 384) :
    R165 (ix2 i n)
      = (∑ k : Fin 128, R159 (ix2 i k) * x20 (ix2 n (⟨k.val, by have := k.isLt; omega⟩ : Fin 208)))
        + R69 (ix2 i (2 : Fin 4)) * (∑ k : Fin 40, R45 (ix2 i k) * x20 (ix2 n ⟨128 + k.val, by have := k.isLt; omega⟩))
        + ∑ k : Fin 40, R43 (ix2 i k) * x20 (ix2 n ⟨168 + k.val, by have := k.isLt; omega⟩) := by
  rw [ref_gi3_sum, LibExtReal.sum_fin_split 128 80 208 rfl, LibExtReal.sum_fin_split 40 40 80 rfl, ← add_assoc,
    LibExtReal.mul_sum_of_nonneg_ne_top _ (hpg i).1 (hpg i).2]
  refine congrArg₂ (· + ·) (congrArg₂ (· + ·) ?_ ?_) ?_
  · refine Finset.sum_congr rfl fun k _ => ?_
    rw [cat3_left i k _ rfl]
  · refine Finset.sum_congr rfl fun k _ => ?_
    rw [cat3_mid i k _ rfl, scaled_pitch_apply, mul_assoc]
  · refine Finset.sum_congr rfl fun k _ => ?_
    have e : (⟨128 + (⟨40 + k.val, by have := k.isLt; omega⟩ : Fin 80).val, by have := k.isLt; show 128 + (40 + k.val) < 208; omega⟩ : Fin 208)
        = ⟨168 + k.val, by have := k.isLt; omega⟩ := Fin.ext (by show 128 + (40 + k.val) = 168 + k.val; omega)
    rw [e, cat3_right i k _ rfl]

theorem gi3_apply (o2 : FVec Ideal S1024x128 .bf16) (v35 : FVec Ideal S128x384 .bf16) (v438 v447 : FVec Ideal S1024x384 .f32)
    (h35 : ∀ (k : Fin 128) (n : Fin 384) (j : Fin 208), j.val = k.val → v35 (ix2 k n) = x20 (ix2 n j))
    (ho2 : ∀ (r : Fin 1024) (i : Fin 65536) (k : Fin 128), i.val = 1024 * t.val + r.val → o2 (ix2 r k) = R159 (ix2 i k))
    (h438 : ∀ (r : Fin 1024) (i : Fin 65536) (n : Fin 384), i.val = 1024 * t.val + r.val →
      v438 (ix2 r n) = R69 (ix2 i (2 : Fin 4)) * ∑ k : Fin 40, R45 (ix2 i k) * x20 (ix2 n ⟨128 + k.val, by have := k.isLt; omega⟩))
    (h447 : ∀ (r : Fin 1024) (i : Fin 65536) (n : Fin 384), i.val = 1024 * t.val + r.val →
      v447 (ix2 r n) = ∑ k : Fin 40, R43 (ix2 i k) * x20 (ix2 n ⟨168 + k.val, by have := k.isLt; omega⟩))
    (hpg : ∀ i : Fin 65536, (0 : EReal) ≤ R69 (ix2 i (2 : Fin 4)) ∧ R69 (ix2 i (2 : Fin 4)) ≠ (⊤ : EReal))
    (r : Fin 1024) (i : Fin 65536) (n : Fin 384) (hi : i.val = 1024 * t.val + r.val) :
    matmul dot_S1024x128_S128x384_S1024x384_1_0_0_1_n_n none o2 v35 (constant S1024x384 .f32 0x00000000#32) (ix2 r n)
        + v438 (ix2 r n) + v447 (ix2 r n)
      = R165 (ix2 i n) := by
  rw [ref_gi3_split hpg, matmul_128_384_apply, h438 r i n hi, h447 r i n hi]
  refine congrArg₂ (· + ·) (congrArg₂ (· + ·) ?_ rfl) rfl
  refine Finset.sum_congr rfl fun k _ => ?_
  rw [ho2 r i k hi, h35 k n ⟨k.val, by have := k.isLt; omega⟩ rfl]

theorem gh3_apply (l : FVec Ideal S1024x128 .bf16) (v37 : FVec Ideal S128x384 .bf16)
    (hl : ∀ (r : Fin 1024) (i : Fin 65536) (k : Fin 128), i.val = 1024 * t.val + r.val → l (ix2 r k) = x5 (ix2 i k))
    (h37 : ∀ (k : Fin 128) (n : Fin 384), v37 (ix2 k n) = x21 (ix2 n k))
    (r : Fin 1024) (i : Fin 65536) (n : Fin 384) (hi : i.val = 1024 * t.val + r.val) :
    matmul dot_S1024x128_S128x384_S1024x384_1_0_0_1_n_n none l v37 (constant S1024x384 .f32 0x00000000#32) (ix2 r n)
      = R167 (ix2 i n) := by
  rw [ref_gh3_sum, matmul_128_384_apply]
  refine Finset.sum_congr rfl fun k _ => ?_
  rw [hl r i k hi, h37 k n]

variable (t) (x0) (x2) (x3) (x4) (x5) (x6) (x7) (x8) (x9) (x10) (x11) (x12) (x13) (x14) (x15) (x16) (x17) (x18) (x19) (x20) (x21) (x22)

theorem gi3_prev_apply (v55 : FVec Ideal S40x1376 .bf16) (v407 : FVec Ideal S1024x40 .f32)
    (h407 : ∀ (r : Fin 1024) (i : Fin 65536) (k : Fin 40), i.val = 1024 * t.val + r.val → v407 (ix2 r k) = R43 (ix2 i k))
    (h55 : ∀ (k : Fin 40) (n : Fin 384), v55 (ix2 k ⟨864 + n.val, by have := n.isLt; omega⟩) = x20 (ix2 n ⟨168 + k.val, by have := k.isLt; omega⟩)) :
    ∀ (r : Fin 1024) (i : Fin 65536) (n : Fin 384), i.val = 1024 * t.val + r.val →
      k0_pay86 v55 v407 (ix2 r n) = ∑ k : Fin 40, R43 (ix2 i k) * x20 (ix2 n ⟨168 + k.val, by have := k.isLt; omega⟩) := by
  intro r i n hi
  unfold k0_pay86
  refine (slice1376_apply _ _ r n (by have := n.isLt; omega)).trans ?_
  refine (Cert.Bridge.K40.prevAll_apply v55 v407 r _).trans ?_
  refine Finset.sum_congr rfl fun k _ => ?_
  rw [h407 r i k hi, h55 k n]

theorem gi3_pitch_apply (v424 : FVec Ideal S1024x4 .f32) (v426 : FVec Ideal S1024x1376 .f32) (w53 : Fin 40 → Fin 1376 → EReal)
    (h424 : ∀ (r : Fin 1024) (i : Fin 65536) (j : Fin 4), i.val = 1024 * t.val + r.val → v424 (ix2 r j) = R69 (ix2 i j))
    (h426 : ∀ (r : Fin 1024) (i : Fin 65536) (n : Fin 1376), i.val = 1024 * t.val + r.val →
      v426 (ix2 r n) = ∑ k : Fin 40, R45 (ix2 i k) * w53 k n)
    (h53 : ∀ (k : Fin 40) (n : Fin 384), w53 k ⟨864 + n.val, by have := n.isLt; omega⟩ = x20 (ix2 n ⟨128 + k.val, by have := k.isLt; omega⟩)) :
    ∀ (r : Fin 1024) (i : Fin 65536) (n : Fin 384), i.val = 1024 * t.val + r.val →
      k0_pay83 v424 v426 (ix2 r n)
        = R69 (ix2 i (2 : Fin 4)) * ∑ k : Fin 40, R45 (ix2 i k) * x20 (ix2 n ⟨128 + k.val, by have := k.isLt; omega⟩) := by
  intro r i n hi
  unfold k0_pay83
  refine (mulf_apply _ _ _).trans ?_
  rw [bcast384_apply, slice4_apply, slice1376_apply _ _ r n (by have := n.isLt; omega), h424 r i _ hi, h426 r i _ hi]
  refine congrArg _ (Finset.sum_congr rfl fun k _ => ?_)
  rw [h53 k n]

theorem g3_apply (v4 v5 : Vec Ideal S1024x128 .f32) (v33 : FVec Ideal S128x128 .bf16) (v35 v37 : FVec Ideal S128x384 .bf16)
    (v438 v447 v479 v481 : FVec Ideal S1024x384 .f32) (v482 : FVec Ideal S1024x128 .f32)
    (h5 : ∀ (r : Fin 1024) (i : Fin 65536) (k : Fin 128), i.val = 1024 * t.val + r.val → v5 (ix2 r k) = x5 (ix2 i k))
    (h35 : ∀ (k : Fin 128) (n : Fin 384) (j : Fin 208), j.val = k.val → v35 (ix2 k n) = x20 (ix2 n j))
    (h37 : ∀ (k : Fin 128) (n : Fin 384), v37 (ix2 k n) = x21 (ix2 n k))
    (ho2 : ∀ (r : Fin 1024) (i : Fin 65536) (k : Fin 128), i.val = 1024 * t.val + r.val →
      k0_pay94 v4 v33 v479 v481 v482 (ix2 r k) = R159 (ix2 i k))
    (h438 : ∀ (r : Fin 1024) (i : Fin 65536) (n : Fin 384), i.val = 1024 * t.val + r.val →
      v438 (ix2 r n) = R69 (ix2 i (2 : Fin 4)) * ∑ k : Fin 40, R45 (ix2 i k) * x20 (ix2 n ⟨128 + k.val, by have := k.isLt; omega⟩))
    (h447 : ∀ (r : Fin 1024) (i : Fin 65536) (n : Fin 384), i.val = 1024 * t.val + r.val →
      v447 (ix2 r n) = ∑ k : Fin 40, R43 (ix2 i k) * x20 (ix2 n ⟨168 + k.val, by have := k.isLt; omega⟩))
    (hpg : ∀ i : Fin 65536, (0 : EReal) ≤ R69 (ix2 i (2 : Fin 4)) ∧ R69 (ix2 i (2 : Fin 4)) ≠ (⊤ : EReal)) :
    ∀ (r : Fin 1024) (i : Fin 65536) (n : Fin 128), i.val = 1024 * t.val + r.val →
      k0_pay95 v4 v5 v33 v35 v37 v438 v447 v479 v481 v482 (ix2 r n) = R195 (ix2 i n) := by
  intro r i n hi
  unfold k0_pay95
  generalize k0_pay94 v4 v33 v479 v481 v482 = o2 at ho2 ⊢
  have GI : ∀ n' : Fin 384, matmul dot_S1024x128_S128x384_S1024x384_1_0_0_1_n_n none o2 v35 (constant S1024x384 .f32 0x00000000#32) (ix2 r n')
      + v438 (ix2 r n') + v447 (ix2 r n') = R165 (ix2 i n') :=
    fun n' => gi3_apply o2 v35 v438 v447 h35 ho2 h438 h447 hpg r i n' hi
  have GH : ∀ n' : Fin 384, matmul dot_S1024x128_S128x384_S1024x384_1_0_0_1_n_n none (truncf .bf16 v5 bitsLt_bf16_f32) v37 (constant S1024x384 .f32 0x00000000#32) (ix2 r n')
      = R167 (ix2 i n') :=
    fun n' => gh3_apply (truncf .bf16 v5 bitsLt_bf16_f32) v37 (fun r i k hi => (truncf_apply v5 _ (ix2 r k)).trans (h5 r i k hi)) h37 r i n' hi
  have s0 := fun (v : S1024x384.Idx → EReal) h => slice384_apply 0 v h r n (by have := n.isLt; omega)
  have s1 := fun (v : S1024x384.Idx → EReal) h => slice384_apply 128 v h r n (by have := n.isLt; omega)
  have s2 := fun (v : S1024x384.Idx → EReal) h => slice384_apply 256 v h r n (by have := n.isLt; omega)
  have e0 : idx_main_v168 (ix2 i n) = ix2 i (⟨0 + n.val, by have := n.isLt; omega⟩ : Fin 384) :=
    funext fun a => Fin.ext (by match a with | ⟨0, _⟩ => rfl | ⟨1, _⟩ => (show n.val = 0 + n.val; omega))
  have e1 : idx_main_v169 (ix2 i n) = ix2 i (⟨128 + n.val, by have := n.isLt; omega⟩ : Fin 384) :=
    funext fun a => Fin.ext (by match a with | ⟨0, _⟩ => rfl | ⟨1, _⟩ => rfl)
  have e2 : idx_main_v170 (ix2 i n) = ix2 i (⟨256 + n.val, by have := n.isLt; omega⟩ : Fin 384) :=
    funext fun a => Fin.ext (by match a with | ⟨0, _⟩ => rfl | ⟨1, _⟩ => rfl)
  have f0 : idx_main_v171 (ix2 i n) = ix2 i (⟨0 + n.val, by have := n.isLt; omega⟩ : Fin 384) :=
    funext fun a => Fin.ext (by match a with | ⟨0, _⟩ => rfl | ⟨1, _⟩ => (show n.val = 0 + n.val; omega))
  have f1 : idx_main_v172 (ix2 i n) = ix2 i (⟨128 + n.val, by have := n.isLt; omega⟩ : Fin 384) :=
    funext fun a => Fin.ext (by match a with | ⟨0, _⟩ => rfl | ⟨1, _⟩ => rfl)
  have f2 : idx_main_v173 (ix2 i n) = ix2 i (⟨256 + n.val, by have := n.isLt; omega⟩ : Fin 384) :=
    funext fun a => Fin.ext (by match a with | ⟨0, _⟩ => rfl | ⟨1, _⟩ => rfl)
  have hone : FloatOps.ofBits (F := Ideal) .f32 0x3F800000#32 = (1 : EReal) := Ideal.ofBits_one_f32
  rw [val_main_v195_apply, val_main_v193_apply, val_main_v194_apply, val_main_v192_apply, val_main_v190_apply,
    val_main_v189_apply, val_main_v188_apply, val_main_v187_apply, val_main_v185_apply, val_main_v183_apply,
    val_main_v182_apply, val_main_v181_apply, val_main_v180_apply, val_main_v178_apply, val_main_v176_apply,
    val_main_v175_apply, val_main_v174_apply, val_main_v168_apply, val_main_v169_apply, val_main_v170_apply,
    val_main_v171_apply, val_main_v172_apply, val_main_v173_apply, val_main_v191_apply, val_main_v186_apply,
    val_main_v184_apply, val_main_v179_apply, val_main_v177_apply, val_main_cst_29_apply, val_main_cst_30_apply,
    val_main_cst_31_apply, val_main_cst_32_apply, val_main_cst_33_apply, e0, e1, e2, f0, f1, f2,
    LibExtReal.host_logistic_elt _ _ _ hone hone,
    LibExtReal.host_logistic_elt _ _ _ hone hone]
  simp only [addf_apply, mulf_apply, subf_apply, broadcast_apply, LibExtReal.logistic_apply, tanh_apply, s0, s1, s2, GI, GH,
    h5 r i n hi]
  rfl

theorem glu3_apply (v4 v5 : Vec Ideal S1024x128 .f32) (v33 : FVec Ideal S128x128 .bf16) (v35 v37 : FVec Ideal S128x384 .bf16)
    (v39 : FVec Ideal S128x128 .bf16) (v438 v447 v479 v481 : FVec Ideal S1024x384 .f32) (v482 : FVec Ideal S1024x128 .f32)
    (h39 : ∀ (k : Fin 128) (n : Fin 128), v39 (ix2 k n) = x22 (ix2 n k))
    (hg3 : ∀ (r : Fin 1024) (i : Fin 65536) (n : Fin 128), i.val = 1024 * t.val + r.val →
      k0_pay95 v4 v5 v33 v35 v37 v438 v447 v479 v481 v482 (ix2 r n) = R195 (ix2 i n)) :
    ∀ (r : Fin 1024) (i : Fin 65536) (n : Fin 128), i.val = 1024 * t.val + r.val →
      k0_pay96 v4 v5 v33 v35 v37 v39 v438 v447 v479 v481 v482 (ix2 r n) = R204 (ix2 i n) := by
  intro r i n hi
  unfold k0_pay96
  generalize k0_pay95 v4 v5 v33 v35 v37 v438 v447 v479 v481 v482 = g3 at hg3 ⊢
  have hone : FloatOps.ofBits (F := Ideal) .f32 0x3F800000#32 = (1 : EReal) := Ideal.ofBits_one_f32
  rw [val_main_v204_apply, val_main_v203_apply, val_main_v202_apply, val_main_v201_apply, val_main_v200_apply,
    val_main_v199_apply, val_main_v198_apply, val_main_v197_apply, val_main_cst_34_apply, val_main_cst_35_apply,
    LibExtReal.host_logistic_elt _ _ _ hone hone]
  refine Eq.trans (truncf_apply (ψ := .bf16) _ bitsLt_bf16_f32 (ix2 r n)) ?_
  refine (mulf_apply _ _ _).trans ?_
  rw [LibExtReal.logistic_apply, matmul_128_128_apply, hg3 r i n hi]
  refine congrArg (fun z => R195 (ix2 i n) * Ideal.logistic z) (Finset.sum_congr rfl fun k _ => ?_)
  have el : lidx_main_v197 (ix2 i n) k = ix2 i k :=
    funext fun a => Fin.ext (by match a with | ⟨0, _⟩ => rfl | ⟨1, _⟩ => rfl)
  have er : idx_main_v196 (ridx_main_v197 (ix2 i n) k) = ix2 n k :=
    funext fun a => Fin.ext (by match a with | ⟨0, _⟩ => rfl | ⟨1, _⟩ => rfl)
  rw [truncf_apply, hg3 r i k hi, h39 k n, val_main_v196_apply, el, er]

end Stage

end Cert.Bridge.Gru3
-- ==== Proof.ChainGru3.lean ====
import proofs.«401269_j23398981829052_3_alg».proof.Proof.Chain0
import proofs.«401269_j23398981829052_3_alg».proof.Proof.StageGru3
import proofs.«401269_j23398981829052_3_alg».proof.Proof.StageK40

noncomputable section

namespace Cert.Bridge.Chain

open Idealize.ShloMosaic Idealize.ShloMosaic.TcCoe Idealize.ShloMosaic.ValueIdx
open Cert.KernelIdeal Cert.KernelIdeal.Gen Cert.ReferenceIdeal.Read
open scoped BigOperators

variable (t : Fin 64)
variable (x0 : (⟨Cert.ReferenceIdeal.S65536x80, .f32⟩ : BufTy).Contents (Elt Ideal))
variable (x1 : (⟨Cert.ReferenceIdeal.S65536x256, .f32⟩ : BufTy).Contents (Elt Ideal))
variable (x2 : (⟨Cert.ReferenceIdeal.S65536x256, .f32⟩ : BufTy).Contents (Elt Ideal))
variable (x3 : (⟨Cert.ReferenceIdeal.S65536x160, .f32⟩ : BufTy).Contents (Elt Ideal))
variable (x4 : (⟨Cert.ReferenceIdeal.S65536x128, .f32⟩ : BufTy).Contents (Elt Ideal))
variable (x5 : (⟨Cert.ReferenceIdeal.S65536x128, .f32⟩ : BufTy).Contents (Elt Ideal))
variable (x6 : (⟨Cert.ReferenceIdeal.S65536x164, .f32⟩ : BufTy).Contents (Elt Ideal))
variable (x7 : (⟨Cert.ReferenceIdeal.S65536, .i32⟩ : BufTy).Contents (Elt Ideal))
variable (x8 : (⟨Cert.ReferenceIdeal.S1x80, .f32⟩ : BufTy).Contents (Elt Ideal))
variable (x9 : (⟨Cert.ReferenceIdeal.S1, .f32⟩ : BufTy).Contents (Elt Ideal))
variable (x10 : (⟨Cert.ReferenceIdeal.S192x328, .f32⟩ : BufTy).Contents (Elt Ideal))
variable (x11 : (⟨Cert.ReferenceIdeal.S192x192, .f32⟩ : BufTy).Contents (Elt Ideal))
variable (x12 : (⟨Cert.ReferenceIdeal.S4x192, .f32⟩ : BufTy).Contents (Elt Ideal))
variable (x13 : (⟨Cert.ReferenceIdeal.S4, .f32⟩ : BufTy).Contents (Elt Ideal))
variable (x14 : (⟨Cert.ReferenceIdeal.S480x272, .f32⟩ : BufTy).Contents (Elt Ideal))
variable (x15 : (⟨Cert.ReferenceIdeal.S480x160, .f32⟩ : BufTy).Contents (Elt Ideal))
variable (x16 : (⟨Cert.ReferenceIdeal.S160x160, .f32⟩ : BufTy).Contents (Elt Ideal))
variable (x17 : (⟨Cert.ReferenceIdeal.S384x240, .f32⟩ : BufTy).Contents (Elt Ideal))
variable (x18 : (⟨Cert.ReferenceIdeal.S384x128, .f32⟩ : BufTy).Contents (Elt Ideal))
variable (x19 : (⟨Cert.ReferenceIdeal.S128x128, .f32⟩ : BufTy).Contents (Elt Ideal))
variable (x20 : (⟨Cert.ReferenceIdeal.S384x208, .f32⟩ : BufTy).Contents (Elt Ideal))
variable (x21 : (⟨Cert.ReferenceIdeal.S384x128, .f32⟩ : BufTy).Contents (Elt Ideal))
variable (x22 : (⟨Cert.ReferenceIdeal.S128x128, .f32⟩ : BufTy).Contents (Elt Ideal))
variable (x23 : (⟨Cert.ReferenceIdeal.S128x688, .f32⟩ : BufTy).Contents (Elt Ideal))
variable (x24 : (⟨Cert.ReferenceIdeal.S128x128, .f32⟩ : BufTy).Contents (Elt Ideal))
variable (x25 : (⟨Cert.ReferenceIdeal.S40x128, .f32⟩ : BufTy).Contents (Elt Ideal))
variable (b : Cert.KernelIdeal.Fr.Blocks Ideal)

theorem sg3 (H : Inputs t x0 x1 x2 x3 x4 x5 x6 x7 x8 x9 x10 x11 x12 x13 x14 x15 x16 x17 x18 x19 x20 x21 x22 x23 x24 x25 b)
    (hprev : SPrev t x0 x2 x8 x9 b)
    (hfp : SFp t x0 x2 x7 x8 x9 b)
    (hpg : SPg t x0 x2 x6 x7 x8 x9 x10 x11 x12 x13 b)
    (hpgr : SPgRange x0 x2 x6 x7 x8 x9 x10 x11 x12 x13)
    (ho2 : SO2 t x0 x2 x3 x4 x6 x7 x8 x9 x10 x11 x12 x13 x14 x15 x16 x17 x18 x19 b) :
    SG3 t x0 x2 x3 x4 x5 x6 x7 x8 x9 x10 x11 x12 x13 x14 x15 x16 x17 x18 x19 x20 x21 b := by
  unfold SG3 Fr.val527
  unfold SPrev at hprev
  unfold SFp Fr.val409 at hfp
  unfold SPg at hpg
  unfold SPgRange at hpgr
  unfold SO2 at ho2
  refine Cert.Bridge.Gru3.g3_apply t x0 x2 x3 x4 x5 x6 x7 x8 x9 x10 x11 x12 x13 x14 x15 x16 x17 x18 x19 x20 x21
    (Fr.val4 b) (Fr.val5 b) (Fr.val33 b) (Fr.val35 b) (Fr.val37 b) (Fr.val438 b) (Fr.val447 b) (Fr.val479 b) (Fr.val481 b)
    (Fr.val482 b) H.in5 H.in35 H.in37 ho2 ?_ ?_ (fun i => hpgr i (2 : Fin 4))
  · unfold Fr.val438
    refine Cert.Bridge.Gru3.gi3_pitch_apply t x0 x2 x6 x7 x8 x9 x10 x11 x12 x13 x20 (Fr.val424 b) (Fr.val426 b)
      (fun k n => Fr.val53 b (ix2 k n)) hpg ?_ ?_
    · intro r i n hi
      unfold Fr.val426 k0_pay80
      refine (Cert.Bridge.K40.matmul_truncf_apply _ (Fr.val53 b) r n).trans ?_
      exact Finset.sum_congr rfl fun k _ => by rw [hfp r i k hi]
    · intro k n
      exact H.in53c k ⟨864 + n.val, by have := n.isLt; omega⟩ n ⟨128 + k.val, by have := k.isLt; omega⟩
        (by show 864 ≤ 864 + n.val; omega) (by have := n.isLt; show 864 + n.val < 1248; omega)
        (by show n.val = 864 + n.val - 864; omega) rfl
  · unfold Fr.val447
    refine Cert.Bridge.Gru3.gi3_prev_apply t x0 x2 x8 x9 x20 (Fr.val55 b) (Fr.val407 b) hprev ?_
    intro k n
    exact H.in55c k ⟨864 + n.val, by have := n.isLt; omega⟩ n ⟨168 + k.val, by have := k.isLt; omega⟩
      (by show 864 ≤ 864 + n.val; omega) (by have := n.isLt; show 864 + n.val < 1248; omega)
      (by show n.val = 864 + n.val - 864; omega) rfl

theorem so3 (H : Inputs t x0 x1 x2 x3 x4 x5 x6 x7 x8 x9 x10 x11 x12 x13 x14 x15 x16 x17 x18 x19 x20 x21 x22 x23 x24 x25 b)
    (hg3 : SG3 t x0 x2 x3 x4 x5 x6 x7 x8 x9 x10 x11 x12 x13 x14 x15 x16 x17 x18 x19 x20 x21 b) :
    SO3 t x0 x2 x3 x4 x5 x6 x7 x8 x9 x10 x11 x12 x13 x14 x15 x16 x17 x18 x19 x20 x21 x22 b := by
  unfold SO3 Fr.val532
  unfold SG3 Fr.val527 at hg3
  exact Cert.Bridge.Gru3.glu3_apply t x0 x2 x3 x4 x5 x6 x7 x8 x9 x10 x11 x12 x13 x14 x15 x16 x17 x18 x19 x20 x21 x22
    (Fr.val4 b) (Fr.val5 b) (Fr.val33 b) (Fr.val35 b) (Fr.val37 b) (Fr.val39 b) (Fr.val438 b) (Fr.val447 b) (Fr.val479 b)
    (Fr.val481 b) (Fr.val482 b) H.in39 hg3

end Cert.Bridge.Chain

end
-- ==== Proof.StageOut.lean ====
import proofs.«401269_j23398981829052_3_alg».proof.Proof.Gen.KernelIdeal.Skeleton
import proofs.«401269_j23398981829052_3_alg».proof.Proof.RefRead
import proofs.«401269_j23398981829052_3_alg».proof.Proof.LibExtReal
import proofs.«401269_j23398981829052_3_alg».proof.Proof.LibLayout
import proofs.«401269_j23398981829052_3_alg».proof.Proof.StageK40
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Bridge.StageOut

open Idealize.ShloMosaic Idealize.ShloMosaic.ValueIdx Cert.KernelIdeal.Gen Cert.ReferenceIdeal.Read

variable (t : Fin 64)
  (x0 : (⟨Cert.ReferenceIdeal.S65536x80, .f32⟩ : BufTy).Contents (Elt Ideal))
  (x1 : (⟨Cert.ReferenceIdeal.S65536x256, .f32⟩ : BufTy).Contents (Elt Ideal))
  (x2 : (⟨Cert.ReferenceIdeal.S65536x256, .f32⟩ : BufTy).Contents (Elt Ideal))
  (x3 : (⟨Cert.ReferenceIdeal.S65536x160, .f32⟩ : BufTy).Contents (Elt Ideal))
  (x4 : (⟨Cert.ReferenceIdeal.S65536x128, .f32⟩ : BufTy).Contents (Elt Ideal))
  (x5 : (⟨Cert.ReferenceIdeal.S65536x128, .f32⟩ : BufTy).Contents (Elt Ideal))
  (x6 : (⟨Cert.ReferenceIdeal.S65536x164, .f32⟩ : BufTy).Contents (Elt Ideal))
  (x7 : (⟨Cert.ReferenceIdeal.S65536, .i32⟩ : BufTy).Contents (Elt Ideal))
  (x8 : (⟨Cert.ReferenceIdeal.S1x80, .f32⟩ : BufTy).Contents (Elt Ideal))
  (x9 : (⟨Cert.ReferenceIdeal.S1, .f32⟩ : BufTy).Contents (Elt Ideal))
  (x10 : (⟨Cert.ReferenceIdeal.S192x328, .f32⟩ : BufTy).Contents (Elt Ideal))
  (x11 : (⟨Cert.ReferenceIdeal.S192x192, .f32⟩ : BufTy).Contents (Elt Ideal))
  (x12 : (⟨Cert.ReferenceIdeal.S4x192, .f32⟩ : BufTy).Contents (Elt Ideal))
  (x13 : (⟨Cert.ReferenceIdeal.S4, .f32⟩ : BufTy).Contents (Elt Ideal))
  (x14 : (⟨Cert.ReferenceIdeal.S480x272, .f32⟩ : BufTy).Contents (Elt Ideal))
  (x15 : (⟨Cert.ReferenceIdeal.S480x160, .f32⟩ : BufTy).Contents (Elt Ideal))
  (x16 : (⟨Cert.ReferenceIdeal.S160x160, .f32⟩ : BufTy).Contents (Elt Ideal))
  (x17 : (⟨Cert.ReferenceIdeal.S384x240, .f32⟩ : BufTy).Contents (Elt Ideal))
  (x18 : (⟨Cert.ReferenceIdeal.S384x128, .f32⟩ : BufTy).Contents (Elt Ideal))
  (x19 : (⟨Cert.ReferenceIdeal.S128x128, .f32⟩ : BufTy).Contents (Elt Ideal))
  (x20 : (⟨Cert.ReferenceIdeal.S384x208, .f32⟩ : BufTy).Contents (Elt Ideal))
  (x21 : (⟨Cert.ReferenceIdeal.S384x128, .f32⟩ : BufTy).Contents (Elt Ideal))
  (x22 : (⟨Cert.ReferenceIdeal.S128x128, .f32⟩ : BufTy).Contents (Elt Ideal))
  (x23 : (⟨Cert.ReferenceIdeal.S128x688, .f32⟩ : BufTy).Contents (Elt Ideal))
  (x24 : (⟨Cert.ReferenceIdeal.S128x128, .f32⟩ : BufTy).Contents (Elt Ideal))
  (x25 : (⟨Cert.ReferenceIdeal.S40x128, .f32⟩ : BufTy).Contents (Elt Ideal))
  (v1 : Vec Ideal Cert.KernelIdeal.S1024x256 .f32)
  (v2 : Vec Ideal Cert.KernelIdeal.S1024x256 .f32)
  (v4 : Vec Ideal Cert.KernelIdeal.S1024x128 .f32)
  (v33 : FVec Ideal Cert.KernelIdeal.S128x128 .bf16)
  (v41 : FVec Ideal Cert.KernelIdeal.S160x128 .bf16)
  (v43 : FVec Ideal Cert.KernelIdeal.S128x128 .bf16)
  (v45 : FVec Ideal Cert.KernelIdeal.S128x128 .bf16)
  (v47 : FVec Ideal Cert.KernelIdeal.S192x128 .bf16)
  (v49 : FVec Ideal Cert.KernelIdeal.S128x128 .bf16)
  (v51 : FVec Ideal Cert.KernelIdeal.S128x40 .bf16)
  (v55 : FVec Ideal Cert.KernelIdeal.S40x1376 .bf16)
  (v70 : FVec Ideal Cert.KernelIdeal.S1024x1 .f32)
  (v407 : FVec Ideal Cert.KernelIdeal.S1024x40 .f32)
  (v409 : FVec Ideal Cert.KernelIdeal.S1024x40 .f32)
  (v420 : FVec Ideal Cert.KernelIdeal.S1024x192 .bf16)
  (v424 : FVec Ideal Cert.KernelIdeal.S1024x4 .f32)
  (v426 : FVec Ideal Cert.KernelIdeal.S1024x1376 .f32)
  (v442 : FVec Ideal Cert.KernelIdeal.S1024x128 .f32)
  (v448 : FVec Ideal Cert.KernelIdeal.S1024x128 .f32)
  (v476 : FVec Ideal Cert.KernelIdeal.S1024x160 .bf16)
  (v479 : FVec Ideal Cert.KernelIdeal.S1024x384 .f32)
  (v481 : FVec Ideal Cert.KernelIdeal.S1024x384 .f32)
  (v482 : FVec Ideal Cert.KernelIdeal.S1024x128 .f32)
  (v532 : FVec Ideal Cert.KernelIdeal.S1024x128 .bf16)
  (v533 : FVec Ideal Cert.KernelIdeal.S1024x128 .f32)
  (v534 : FVec Ideal Cert.KernelIdeal.S1024x128 .f32)

theorem plain_matmul_apply {M K N : Nat}
    (w : DotDims.WF ⟨2, ![M, K]⟩ ⟨2, ![K, N]⟩ ⟨2, ![M, N]⟩ [1] [0] [0] [1] [] [])
    {φ₁ φ₂ : FTy} (a : FVec Ideal ⟨2, ![M, K]⟩ φ₁) (b : FVec Ideal ⟨2, ![K, N]⟩ φ₂) (r : Fin M) (n : Fin N) :
    matmul (⟨[1], [0], [0], [1], [], [], w⟩ : DotDims ⟨2, ![M, K]⟩ ⟨2, ![K, N]⟩ ⟨2, ![M, N]⟩) none a b
        (constant (F := Ideal) ⟨2, ![M, N]⟩ .f32 0x00000000#32) (ix2 r n)
      = ∑ k : Fin K, a (ix2 r k) * b (ix2 k n) := by
  refine (Ideal.matmul_constant_zero_apply _ none a b (ix2 r n)).trans ?_
  rw [← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 r n)
      ((contrEquiv1 _ K rfl rfl).symm c) = ix2 r c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 r n)
      ((contrEquiv1 _ K rfl rfl).symm c) = ix2 c n := by
    funext ax; apply Fin.ext
    match ax with
    | ⟨0, _⟩ => simp [DotDims.rhsIdx]; exact c2
    | ⟨1, _⟩ => simp [DotDims.rhsIdx]; rfl
  rw [l2, r2]

theorem idx2_ext {n0 n1 : Nat} (f g : (⟨2, ![n0, n1]⟩ : Shape).Idx) (h0 : (f 0).val = (g 0).val)
    (h1 : (f 1).val = (g 1).val) : f = g := by
  funext a
  match a with
  | ⟨0, _⟩ => exact Fin.ext h0
  | ⟨1, _⟩ => exact Fin.ext h1

theorem sum688_split {M : Type*} [AddCommMonoid M] (f : Fin 688 → M) :
    ∑ k : Fin 688, f k
      = ((((∑ k : Fin 160, f ⟨k.val, by have := k.isLt; omega⟩
          + ∑ k : Fin 128, f ⟨160 + k.val, by have := k.isLt; omega⟩)
          + ∑ k : Fin 128, f ⟨288 + k.val, by have := k.isLt; omega⟩)
          + ∑ k : Fin 192, f ⟨416 + k.val, by have := k.isLt; omega⟩)
          + ∑ k : Fin 40, f ⟨608 + k.val, by have := k.isLt; omega⟩)
          + ∑ k : Fin 40, f ⟨648 + k.val, by have := k.isLt; omega⟩ := by
  rw [LibExtReal.sum_fin_split 648 40 688 rfl f,
    LibExtReal.sum_fin_split 608 40 648 rfl (fun k : Fin 648 => f ⟨k.val, by have := k.isLt; omega⟩),
    LibExtReal.sum_fin_split 416 192 608 rfl (fun k : Fin 608 => f ⟨k.val, by have := k.isLt; omega⟩),
    LibExtReal.sum_fin_split 288 128 416 rfl (fun k : Fin 416 => f ⟨k.val, by have := k.isLt; omega⟩),
    LibExtReal.sum_fin_split 160 128 288 rfl (fun k : Fin 288 => f ⟨k.val, by have := k.isLt; omega⟩)]

theorem lidx210 (i : Fin 65536) (m : Fin 128) (k : Fin 688) : lidx_main_v210 (ix2 i m) k = ix2 i k := idx2_ext _ _ rfl rfl
theorem ridx210 (i : Fin 65536) (m : Fin 128) (k : Fin 688) : ridx_main_v210 (ix2 i m) k = ix2 k m := idx2_ext _ _ rfl rfl
theorem idx209 (k : Fin 688) (m : Fin 128) : idx_main_v209 (ix2 k m) = ix2 m k := idx2_ext _ _ rfl rfl
theorem lidx213 (i : Fin 65536) (m : Fin 128) (k : Fin 128) : lidx_main_v213 (ix2 i m) k = ix2 i k := idx2_ext _ _ rfl rfl
theorem ridx213 (i : Fin 65536) (m : Fin 128) (k : Fin 128) : ridx_main_v213 (ix2 i m) k = ix2 k m := idx2_ext _ _ rfl rfl
theorem idx212 (k : Fin 128) (m : Fin 128) : idx_main_v212 (ix2 k m) = ix2 m k := idx2_ext _ _ rfl rfl
theorem lidx222 (i : Fin 65536) (n : Fin 40) (k : Fin 128) : lidx_main_v222 (ix2 i n) k = ix2 i k := idx2_ext _ _ rfl rfl
theorem ridx222 (i : Fin 65536) (n : Fin 40) (k : Fin 128) : ridx_main_v222 (ix2 i n) k = ix2 k n := idx2_ext _ _ rfl rfl
theorem idx221 (k : Fin 128) (n : Fin 40) : idx_main_v221 (ix2 k n) = ix2 n k := idx2_ext _ _ rfl rfl
theorem idx224 (i : Fin 65536) (n : Fin 40) : idx_main_v224 (ix2 i n) = ix2 i (0 : Fin 1) := idx2_ext _ _ rfl rfl
theorem idx226 (i : Fin 65536) (n : Fin 216) : idx_main_v226 (ix2 i n) = ix2 i ⟨40 + n.val, by have := n.isLt; omega⟩ := idx2_ext _ _ rfl rfl
theorem idx228 (i : Fin 65536) (n : Fin 216) : idx_main_v228 (ix2 i n) = ix2 i ⟨40 + n.val, by have := n.isLt; omega⟩ := idx2_ext _ _ rfl rfl

theorem v208_piece0 (i : Fin 65536) (k : Fin 160) (h : k.val < 688) :
    val_main_v208 (F := Ideal) x0 x2 x3 x4 x5 x6 x7 x8 x9 x10 x11 x12 x13 x14 x15 x16 x17 x18 x19 x20 x21 x22 (ix2 i ⟨k.val, h⟩) = val_main_v114 (F := Ideal) x0 x2 x3 x6 x7 x8 x9 x10 x11 x12 x13 x14 x15 x16 (ix2 i k) := by
  unfold val_main_v208
  exact concatenate_apply_piece 1 _ _ (ix2 i ⟨k.val, h⟩) 0 (by show (0 : Nat) < 6; decide) Cert.ReferenceIdeal.S65536x160 (val_main_v114 (F := Ideal) x0 x2 x3 x6 x7 x8 x9 x10 x11 x12 x13 x14 x15 x16) rfl rfl 0 rfl (ix2 i k)
    (fun b hb => match b, hb with
      | ⟨0, _⟩, _ => rfl
      | ⟨1, _⟩, hb => absurd rfl hb) (Nat.zero_add _)

theorem v208_piece1 (i : Fin 65536) (k : Fin 128) (h : 160 + k.val < 688) :
    val_main_v208 (F := Ideal) x0 x2 x3 x4 x5 x6 x7 x8 x9 x10 x11 x12 x13 x14 x15 x16 x17 x18 x19 x20 x21 x22 (ix2 i ⟨160 + k.val, h⟩) = val_main_v159 (F := Ideal) x0 x2 x3 x4 x6 x7 x8 x9 x10 x11 x12 x13 x14 x15 x16 x17 x18 x19 (ix2 i k) := by
  unfold val_main_v208
  exact concatenate_apply_piece 1 _ _ (ix2 i ⟨160 + k.val, h⟩) 1 (by show (1 : Nat) < 6; decide) Cert.ReferenceIdeal.S65536x128 (val_main_v159 (F := Ideal) x0 x2 x3 x4 x6 x7 x8 x9 x10 x11 x12 x13 x14 x15 x16 x17 x18 x19) rfl rfl 160 rfl (ix2 i k)
    (fun b hb => match b, hb with
      | ⟨0, _⟩, _ => rfl
      | ⟨1, _⟩, hb => absurd rfl hb) rfl

theorem v208_piece2 (i : Fin 65536) (k : Fin 128) (h : 288 + k.val < 688) :
    val_main_v208 (F := Ideal) x0 x2 x3 x4 x5 x6 x7 x8 x9 x10 x11 x12 x13 x14 x15 x16 x17 x18 x19 x20 x21 x22 (ix2 i ⟨288 + k.val, h⟩) = val_main_v204 (F := Ideal) x0 x2 x3 x4 x5 x6 x7 x8 x9 x10 x11 x12 x13 x14 x15 x16 x17 x18 x19 x20 x21 x22 (ix2 i k) := by
  unfold val_main_v208
  exact concatenate_apply_piece 1 _ _ (ix2 i ⟨288 + k.val, h⟩) 2 (by show (2 : Nat) < 6; decide) Cert.ReferenceIdeal.S65536x128 (val_main_v204 (F := Ideal) x0 x2 x3 x4 x5 x6 x7 x8 x9 x10 x11 x12 x13 x14 x15 x16 x17 x18 x19 x20 x21 x22) rfl rfl 288 rfl (ix2 i k)
    (fun b hb => match b, hb with
      | ⟨0, _⟩, _ => rfl
      | ⟨1, _⟩, hb => absurd rfl hb) rfl

theorem v208_piece3 (i : Fin 65536) (k : Fin 192) (h : 416 + k.val < 688) :
    val_main_v208 (F := Ideal) x0 x2 x3 x4 x5 x6 x7 x8 x9 x10 x11 x12 x13 x14 x15 x16 x17 x18 x19 x20 x21 x22 (ix2 i ⟨416 + k.val, h⟩) = val_main_v58 (F := Ideal) x0 x2 x6 x7 x8 x9 x10 x11 (ix2 i k) := by
  unfold val_main_v208
  exact concatenate_apply_piece 1 _ _ (ix2 i ⟨416 + k.val, h⟩) 3 (by show (3 : Nat) < 6; decide) Cert.ReferenceIdeal.S65536x192 (val_main_v58 (F := Ideal) x0 x2 x6 x7 x8 x9 x10 x11) rfl rfl 416 rfl (ix2 i k)
    (fun b hb => match b, hb with
      | ⟨0, _⟩, _ => rfl
      | ⟨1, _⟩, hb => absurd rfl hb) rfl

theorem v208_piece4 (i : Fin 65536) (k : Fin 40) (h : 608 + k.val < 688) :
    val_main_v208 (F := Ideal) x0 x2 x3 x4 x5 x6 x7 x8 x9 x10 x11 x12 x13 x14 x15 x16 x17 x18 x19 x20 x21 x22 (ix2 i ⟨608 + k.val, h⟩) = val_main_v207 (F := Ideal) x0 x2 x6 x7 x8 x9 x10 x11 x12 x13 (ix2 i k) := by
  unfold val_main_v208
  exact concatenate_apply_piece 1 _ _ (ix2 i ⟨608 + k.val, h⟩) 4 (by show (4 : Nat) < 6; decide) Cert.ReferenceIdeal.S65536x40 (val_main_v207 (F := Ideal) x0 x2 x6 x7 x8 x9 x10 x11 x12 x13) rfl rfl 608 rfl (ix2 i k)
    (fun b hb => match b, hb with
      | ⟨0, _⟩, _ => rfl
      | ⟨1, _⟩, hb => absurd rfl hb) rfl

theorem v208_piece5 (i : Fin 65536) (k : Fin 40) (h : 648 + k.val < 688) :
    val_main_v208 (F := Ideal) x0 x2 x3 x4 x5 x6 x7 x8 x9 x10 x11 x12 x13 x14 x15 x16 x17 x18 x19 x20 x21 x22 (ix2 i ⟨648 + k.val, h⟩) = val_main_v43 (F := Ideal) x0 x2 x8 x9 (ix2 i k) := by
  unfold val_main_v208
  exact concatenate_apply_piece 1 _ _ (ix2 i ⟨648 + k.val, h⟩) 5 (by show (5 : Nat) < 6; decide) Cert.ReferenceIdeal.S65536x40 (val_main_v43 (F := Ideal) x0 x2 x8 x9) rfl rfl 648 rfl (ix2 i k)
    (fun b hb => match b, hb with
      | ⟨0, _⟩, _ => rfl
      | ⟨1, _⟩, hb => absurd rfl hb) rfl

theorem mm160 {φ₁ φ₂ : FTy} (a : FVec Ideal Cert.KernelIdeal.S1024x160 φ₁) (b : FVec Ideal Cert.KernelIdeal.S160x128 φ₂) (r : Fin 1024) (n : Fin 128) :
    matmul Cert.KernelIdeal.dot_S1024x160_S160x128_S1024x128_1_0_0_1_n_n none a b (constant (F := Ideal) Cert.KernelIdeal.S1024x128 .f32 0x00000000#32) (ix2 r n) = ∑ k : Fin 160, a (ix2 r k) * b (ix2 k n) :=
  plain_matmul_apply Cert.KernelIdeal.dot_S1024x160_S160x128_S1024x128_1_0_0_1_n_n.wf a b r n

theorem mm128 {φ₁ φ₂ : FTy} (a : FVec Ideal Cert.KernelIdeal.S1024x128 φ₁) (b : FVec Ideal Cert.KernelIdeal.S128x128 φ₂) (r : Fin 1024) (n : Fin 128) :
    matmul Cert.KernelIdeal.dot_S1024x128_S128x128_S1024x128_1_0_0_1_n_n none a b (constant (F := Ideal) Cert.KernelIdeal.S1024x128 .f32 0x00000000#32) (ix2 r n) = ∑ k : Fin 128, a (ix2 r k) * b (ix2 k n) :=
  plain_matmul_apply Cert.KernelIdeal.dot_S1024x128_S128x128_S1024x128_1_0_0_1_n_n.wf a b r n

theorem mm192 {φ₁ φ₂ : FTy} (a : FVec Ideal Cert.KernelIdeal.S1024x192 φ₁) (b : FVec Ideal Cert.KernelIdeal.S192x128 φ₂) (r : Fin 1024) (n : Fin 128) :
    matmul Cert.KernelIdeal.dot_S1024x192_S192x128_S1024x128_1_0_0_1_n_n none a b (constant (F := Ideal) Cert.KernelIdeal.S1024x128 .f32 0x00000000#32) (ix2 r n) = ∑ k : Fin 192, a (ix2 r k) * b (ix2 k n) :=
  plain_matmul_apply Cert.KernelIdeal.dot_S1024x192_S192x128_S1024x128_1_0_0_1_n_n.wf a b r n

theorem mm128x40 {φ₁ φ₂ : FTy} (a : FVec Ideal Cert.KernelIdeal.S1024x128 φ₁) (b : FVec Ideal Cert.KernelIdeal.S128x40 φ₂) (r : Fin 1024) (n : Fin 40) :
    matmul Cert.KernelIdeal.dot_S1024x128_S128x40_S1024x40_1_0_0_1_n_n none a b (constant (F := Ideal) Cert.KernelIdeal.S1024x40 .f32 0x00000000#32) (ix2 r n) = ∑ k : Fin 128, a (ix2 r k) * b (ix2 k n) :=
  plain_matmul_apply Cert.KernelIdeal.dot_S1024x128_S128x40_S1024x40_1_0_0_1_n_n.wf a b r n

theorem pay97_read
    (h41 : ∀ (k : Fin 160) (n : Fin 128) (j : Fin 688), j.val = k.val → v41 (ix2 k n) = x23 (ix2 n j))
    (h476 : ∀ (r : Fin 1024) (i : Fin 65536) (k : Fin 160), i.val = 1024 * t.val + r.val → v476 (ix2 r k) = val_main_v114 (F := Ideal) x0 x2 x3 x6 x7 x8 x9 x10 x11 x12 x13 x14 x15 x16 (ix2 i k)) :
    ∀ (r : Fin 1024) (i : Fin 65536) (n : Fin 128), i.val = 1024 * t.val + r.val →
      k0_pay97 v41 v476 (ix2 r n) = ∑ k : Fin 160, val_main_v114 (F := Ideal) x0 x2 x3 x6 x7 x8 x9 x10 x11 x12 x13 x14 x15 x16 (ix2 i k) * x23 (ix2 n ⟨k.val, by have := k.isLt; omega⟩) := by
  intro r i n hi
  unfold k0_pay97
  refine (mm160 v476 v41 r n).trans ?_
  refine Finset.sum_congr rfl fun k _ => ?_
  rw [h476 r i k hi, h41 k n ⟨k.val, by have := k.isLt; omega⟩ rfl]

theorem pay98_read
    (h43 : ∀ (k : Fin 128) (n : Fin 128) (j : Fin 688), j.val = 160 + k.val → v43 (ix2 k n) = x23 (ix2 n j))
    (ho2 : ∀ (r : Fin 1024) (i : Fin 65536) (k : Fin 128), i.val = 1024 * t.val + r.val →
      k0_pay94 v4 v33 v479 v481 v482 (ix2 r k) = val_main_v159 (F := Ideal) x0 x2 x3 x4 x6 x7 x8 x9 x10 x11 x12 x13 x14 x15 x16 x17 x18 x19 (ix2 i k)) :
    ∀ (r : Fin 1024) (i : Fin 65536) (n : Fin 128), i.val = 1024 * t.val + r.val →
      k0_pay98 v4 v33 v43 v479 v481 v482 (ix2 r n) = ∑ k : Fin 128, val_main_v159 (F := Ideal) x0 x2 x3 x4 x6 x7 x8 x9 x10 x11 x12 x13 x14 x15 x16 x17 x18 x19 (ix2 i k) * x23 (ix2 n ⟨160 + k.val, by have := k.isLt; omega⟩) := by
  intro r i n hi
  unfold k0_pay98
  refine (mm128 (k0_pay94 v4 v33 v479 v481 v482) v43 r n).trans ?_
  refine Finset.sum_congr rfl fun k _ => ?_
  rw [ho2 r i k hi, h43 k n ⟨160 + k.val, by have := k.isLt; omega⟩ rfl]

theorem pay84_read
    (h424 : ∀ (r : Fin 1024) (i : Fin 65536) (q : Fin 4), i.val = 1024 * t.val + r.val → v424 (ix2 r q) = val_main_v69 (F := Ideal) x0 x2 x6 x7 x8 x9 x10 x11 x12 x13 (ix2 i q))
    (h426 : ∀ (r : Fin 1024) (i : Fin 65536) (n : Fin 128) (c : Fin 1376), i.val = 1024 * t.val + r.val → c.val = 1248 + n.val →
      v426 (ix2 r c) = ∑ k : Fin 40, val_main_v45 (F := Ideal) x0 x2 x7 x8 x9 (ix2 i k) * x23 (ix2 n ⟨608 + k.val, by have := k.isLt; omega⟩)) :
    ∀ (r : Fin 1024) (i : Fin 65536) (n : Fin 128), i.val = 1024 * t.val + r.val →
      k0_pay84 v424 v426 (ix2 r n) = val_main_v69 (F := Ideal) x0 x2 x6 x7 x8 x9 x10 x11 x12 x13 (ix2 i (3 : Fin 4)) * ∑ k : Fin 40, val_main_v45 (F := Ideal) x0 x2 x7 x8 x9 (ix2 i k) * x23 (ix2 n ⟨608 + k.val, by have := k.isLt; omega⟩) := by
  intro r i n hi
  have e1 : broadcastTo Cert.KernelIdeal.S1024x128 (extractStridedSlice Cert.KernelIdeal.S1024x1 ![0, 3] v424 slices_S1024x4_o0_3_S1024x1)
      broadcasts_S1024x1_S1024x128 (ix2 r n) = val_main_v69 (F := Ideal) x0 x2 x6 x7 x8 x9 x10 x11 x12 x13 (ix2 i (3 : Fin 4)) := by
    rw [LibLayout.broadcastTo_col_apply, slice2_axis1_apply 3 v424 _ r (0 : Fin 1) (3 : Fin 4) rfl, h424 r i 3 hi]
  have e2 : extractStridedSlice Cert.KernelIdeal.S1024x128 ![0, 1248] v426 slices_S1024x1376_o0_1248_S1024x128 (ix2 r n)
      = ∑ k : Fin 40, val_main_v45 (F := Ideal) x0 x2 x7 x8 x9 (ix2 i k) * x23 (ix2 n ⟨608 + k.val, by have := k.isLt; omega⟩) := by
    rw [slice2_axis1_apply 1248 v426 _ r n ⟨1248 + n.val, by have := n.isLt; omega⟩ rfl]
    exact h426 r i n _ hi rfl
  show broadcastTo Cert.KernelIdeal.S1024x128 (extractStridedSlice Cert.KernelIdeal.S1024x1 ![0, 3] v424 slices_S1024x4_o0_3_S1024x1)
      broadcasts_S1024x1_S1024x128 (ix2 r n)
    * extractStridedSlice Cert.KernelIdeal.S1024x128 ![0, 1248] v426 slices_S1024x1376_o0_1248_S1024x128 (ix2 r n) = _
  rw [e1, e2]

theorem pay87_read
    (h55 : ∀ (k : Fin 40) (n : Fin 128) (c : Fin 1376) (j : Fin 688), c.val = 1248 + n.val → j.val = 648 + k.val →
      v55 (ix2 k c) = x23 (ix2 n j))
    (h407 : ∀ (r : Fin 1024) (i : Fin 65536) (k : Fin 40), i.val = 1024 * t.val + r.val → v407 (ix2 r k) = val_main_v43 (F := Ideal) x0 x2 x8 x9 (ix2 i k)) :
    ∀ (r : Fin 1024) (i : Fin 65536) (n : Fin 128), i.val = 1024 * t.val + r.val →
      k0_pay87 v55 v407 (ix2 r n) = ∑ k : Fin 40, val_main_v43 (F := Ideal) x0 x2 x8 x9 (ix2 i k) * x23 (ix2 n ⟨648 + k.val, by have := k.isLt; omega⟩) := by
  intro r i n hi
  unfold k0_pay87
  refine (slice2_axis1_apply 1248 (k0_pay85 v55 v407) _ r n ⟨1248 + n.val, by have := n.isLt; omega⟩ rfl).trans ?_
  rw [Cert.Bridge.K40.prevAll_apply]
  refine Finset.sum_congr rfl fun k _ => ?_
  rw [h407 r i k hi, h55 k n ⟨1248 + n.val, by have := n.isLt; omega⟩ ⟨648 + k.val, by have := k.isLt; omega⟩ rfl rfl]

theorem skip_tanh_read
    (h45 : ∀ (k : Fin 128) (n : Fin 128) (j : Fin 688), j.val = 288 + k.val → v45 (ix2 k n) = x23 (ix2 n j))
    (h47 : ∀ (k : Fin 192) (n : Fin 128) (j : Fin 688), j.val = 416 + k.val → v47 (ix2 k n) = x23 (ix2 n j))
    (h420 : ∀ (r : Fin 1024) (i : Fin 65536) (k : Fin 192), i.val = 1024 * t.val + r.val → v420 (ix2 r k) = val_main_v58 (F := Ideal) x0 x2 x6 x7 x8 x9 x10 x11 (ix2 i k))
    (h532 : ∀ (r : Fin 1024) (i : Fin 65536) (k : Fin 128), i.val = 1024 * t.val + r.val → v532 (ix2 r k) = val_main_v204 (F := Ideal) x0 x2 x3 x4 x5 x6 x7 x8 x9 x10 x11 x12 x13 x14 x15 x16 x17 x18 x19 x20 x21 x22 (ix2 i k))
    (h533 : ∀ (r : Fin 1024) (i : Fin 65536) (n : Fin 128), i.val = 1024 * t.val + r.val →
      v533 (ix2 r n) = ∑ k : Fin 160, val_main_v114 (F := Ideal) x0 x2 x3 x6 x7 x8 x9 x10 x11 x12 x13 x14 x15 x16 (ix2 i k) * x23 (ix2 n ⟨k.val, by have := k.isLt; omega⟩))
    (h534 : ∀ (r : Fin 1024) (i : Fin 65536) (n : Fin 128), i.val = 1024 * t.val + r.val →
      v534 (ix2 r n) = ∑ k : Fin 128, val_main_v159 (F := Ideal) x0 x2 x3 x4 x6 x7 x8 x9 x10 x11 x12 x13 x14 x15 x16 x17 x18 x19 (ix2 i k) * x23 (ix2 n ⟨160 + k.val, by have := k.isLt; omega⟩))
    (h442 : ∀ (r : Fin 1024) (i : Fin 65536) (n : Fin 128), i.val = 1024 * t.val + r.val →
      v442 (ix2 r n) = val_main_v69 (F := Ideal) x0 x2 x6 x7 x8 x9 x10 x11 x12 x13 (ix2 i (3 : Fin 4)) * ∑ k : Fin 40, val_main_v45 (F := Ideal) x0 x2 x7 x8 x9 (ix2 i k) * x23 (ix2 n ⟨608 + k.val, by have := k.isLt; omega⟩))
    (h448 : ∀ (r : Fin 1024) (i : Fin 65536) (n : Fin 128), i.val = 1024 * t.val + r.val →
      v448 (ix2 r n) = ∑ k : Fin 40, val_main_v43 (F := Ideal) x0 x2 x8 x9 (ix2 i k) * x23 (ix2 n ⟨648 + k.val, by have := k.isLt; omega⟩))
    (hpg : ∀ (i : Fin 65536), (0 : EReal) ≤ val_main_v69 (F := Ideal) x0 x2 x6 x7 x8 x9 x10 x11 x12 x13 (ix2 i (3 : Fin 4)) ∧ val_main_v69 (F := Ideal) x0 x2 x6 x7 x8 x9 x10 x11 x12 x13 (ix2 i (3 : Fin 4)) ≠ (⊤ : EReal)) :
    ∀ (r : Fin 1024) (i : Fin 65536) (n : Fin 128), i.val = 1024 * t.val + r.val →
      tanh (addf (addf (addf (addf (addf v533 v534)
        (matmul Cert.KernelIdeal.dot_S1024x128_S128x128_S1024x128_1_0_0_1_n_n none v532 v45 (constant (F := Ideal) Cert.KernelIdeal.S1024x128 .f32 0x00000000#32)))
        (matmul Cert.KernelIdeal.dot_S1024x192_S192x128_S1024x128_1_0_0_1_n_n none v420 v47 (constant (F := Ideal) Cert.KernelIdeal.S1024x128 .f32 0x00000000#32))) v442) v448) (ix2 r n)
      = val_main_v211 (F := Ideal) x0 x2 x3 x4 x5 x6 x7 x8 x9 x10 x11 x12 x13 x14 x15 x16 x17 x18 x19 x20 x21 x22 x23 (ix2 i n) := by
  intro r i n hi
  rw [val_main_v211_apply, val_main_v210_apply, sum688_split]
  show Ideal.tanh (((((v533 (ix2 r n) + v534 (ix2 r n))
      + matmul Cert.KernelIdeal.dot_S1024x128_S128x128_S1024x128_1_0_0_1_n_n none v532 v45 (constant (F := Ideal) Cert.KernelIdeal.S1024x128 .f32 0x00000000#32) (ix2 r n))
      + matmul Cert.KernelIdeal.dot_S1024x192_S192x128_S1024x128_1_0_0_1_n_n none v420 v47 (constant (F := Ideal) Cert.KernelIdeal.S1024x128 .f32 0x00000000#32) (ix2 r n)) + v442 (ix2 r n)) + v448 (ix2 r n)) = Ideal.tanh _
  rw [h533 r i n hi, h534 r i n hi, h442 r i n hi, h448 r i n hi, mm128, mm192]
  refine congrArg Ideal.tanh ?_
  refine congrArg₂ (fun x y : EReal => x + y) ?_ ?_
  · refine congrArg₂ (fun x y : EReal => x + y) ?_ ?_
    · refine congrArg₂ (fun x y : EReal => x + y) ?_ ?_
      · refine congrArg₂ (fun x y : EReal => x + y) ?_ ?_
        · refine congrArg₂ (fun x y : EReal => x + y) ?_ ?_
          · refine Finset.sum_congr rfl fun k _ => ?_
            rw [lidx210, ridx210, val_main_v209_apply, idx209, v208_piece0]
          · refine Finset.sum_congr rfl fun k _ => ?_
            rw [lidx210, ridx210, val_main_v209_apply, idx209, v208_piece1]
        · refine Finset.sum_congr rfl fun k _ => ?_
          rw [lidx210, ridx210, val_main_v209_apply, idx209, v208_piece2, h532 r i k hi,
            h45 k n ⟨288 + k.val, by have := k.isLt; omega⟩ rfl]
      · refine Finset.sum_congr rfl fun k _ => ?_
        rw [lidx210, ridx210, val_main_v209_apply, idx209, v208_piece3, h420 r i k hi,
          h47 k n ⟨416 + k.val, by have := k.isLt; omega⟩ rfl]
    · rw [LibExtReal.mul_sum_of_nonneg_ne_top _ (hpg i).1 (hpg i).2]
      refine Finset.sum_congr rfl fun k _ => ?_
      rw [lidx210, ridx210, val_main_v209_apply, idx209, v208_piece4, val_main_v207_apply, val_main_v206_apply,
        val_main_v205_apply,
        show idx_main_v205 (idx_main_v206 (ix2 i k)) = ix2 i (3 : Fin 4) from idx2_ext _ _ rfl rfl]
      exact (mul_assoc _ _ _).symm
  · refine Finset.sum_congr rfl fun k _ => ?_
    rw [lidx210, ridx210, val_main_v209_apply, idx209, v208_piece5]

theorem v219_read (i : Fin 65536) (k : Fin 128) :
    val_main_v219 (F := Ideal) x0 x2 x3 x4 x5 x6 x7 x8 x9 x10 x11 x12 x13 x14 x15 x16 x17 x18 x19 x20 x21 x22 x23 x24 (ix2 i k)
      = Ideal.logistic (val_main_v213 (F := Ideal) x0 x2 x3 x4 x5 x6 x7 x8 x9 x10 x11 x12 x13 x14 x15 x16 x17 x18 x19 x20 x21 x22 x23 x24 (ix2 i k)) :=
  LibExtReal.host_logistic_apply (val_main_v218 (F := Ideal)) (val_main_v216 (F := Ideal))
    (val_main_v213 (F := Ideal) x0 x2 x3 x4 x5 x6 x7 x8 x9 x10 x11 x12 x13 x14 x15 x16 x17 x18 x19 x20 x21 x22 x23 x24) (ix2 i k)
    (by rw [val_main_v218_apply, val_main_cst_37_apply]; exact Ideal.ofBits_one_f32)
    (by rw [val_main_v216_apply, val_main_cst_36_apply]; exact Ideal.ofBits_one_f32)

theorem glu_read (p : FVec Ideal Cert.KernelIdeal.S1024x128 .f32)
    (h49 : ∀ (k : Fin 128) (n : Fin 128), v49 (ix2 k n) = x24 (ix2 n k))
    (hp : ∀ (r : Fin 1024) (i : Fin 65536) (n : Fin 128), i.val = 1024 * t.val + r.val → p (ix2 r n) = val_main_v211 (F := Ideal) x0 x2 x3 x4 x5 x6 x7 x8 x9 x10 x11 x12 x13 x14 x15 x16 x17 x18 x19 x20 x21 x22 x23 (ix2 i n)) :
    ∀ (r : Fin 1024) (i : Fin 65536) (n : Fin 128), i.val = 1024 * t.val + r.val →
      mulf p (logistic (matmul Cert.KernelIdeal.dot_S1024x128_S128x128_S1024x128_1_0_0_1_n_n none (truncf .bf16 p bitsLt_bf16_f32) v49 (constant (F := Ideal) Cert.KernelIdeal.S1024x128 .f32 0x00000000#32))) (ix2 r n)
      = val_main_v220 (F := Ideal) x0 x2 x3 x4 x5 x6 x7 x8 x9 x10 x11 x12 x13 x14 x15 x16 x17 x18 x19 x20 x21 x22 x23 x24 (ix2 i n) := by
  intro r i n hi
  rw [val_main_v220_apply, v219_read, val_main_v213_apply]
  show p (ix2 r n) * Ideal.logistic (matmul Cert.KernelIdeal.dot_S1024x128_S128x128_S1024x128_1_0_0_1_n_n none (truncf .bf16 p bitsLt_bf16_f32) v49 (constant (F := Ideal) Cert.KernelIdeal.S1024x128 .f32 0x00000000#32) (ix2 r n))
    = val_main_v211 (F := Ideal) x0 x2 x3 x4 x5 x6 x7 x8 x9 x10 x11 x12 x13 x14 x15 x16 x17 x18 x19 x20 x21 x22 x23 (ix2 i n) * Ideal.logistic _
  rw [hp r i n hi, mm128]
  refine congrArg (fun z : EReal => val_main_v211 (F := Ideal) x0 x2 x3 x4 x5 x6 x7 x8 x9 x10 x11 x12 x13 x14 x15 x16 x17 x18 x19 x20 x21 x22 x23 (ix2 i n) * Ideal.logistic z) ?_
  refine Finset.sum_congr rfl fun k _ => ?_
  rw [truncf_apply, hp r i k hi, h49 k n, lidx213, ridx213, val_main_v212_apply, idx212]

theorem out_read (g : FVec Ideal Cert.KernelIdeal.S1024x128 .f32)
    (h51 : ∀ (k : Fin 128) (n : Fin 40), v51 (ix2 k n) = x25 (ix2 n k))
    (h70 : ∀ (r : Fin 1024) (i : Fin 65536) (n : Fin 1), i.val = 1024 * t.val + r.val → v70 (ix2 r n) = val_main_v15 (F := Ideal) x0 x8 x9 (ix2 i n))
    (hg : ∀ (r : Fin 1024) (i : Fin 65536) (n : Fin 128), i.val = 1024 * t.val + r.val → g (ix2 r n) = val_main_v220 (F := Ideal) x0 x2 x3 x4 x5 x6 x7 x8 x9 x10 x11 x12 x13 x14 x15 x16 x17 x18 x19 x20 x21 x22 x23 x24 (ix2 i n)) :
    ∀ (r : Fin 1024) (i : Fin 65536) (n : Fin 40), i.val = 1024 * t.val + r.val →
      mulf (tanh (matmul Cert.KernelIdeal.dot_S1024x128_S128x40_S1024x40_1_0_0_1_n_n none (truncf .bf16 g bitsLt_bf16_f32) v51 (constant (F := Ideal) Cert.KernelIdeal.S1024x40 .f32 0x00000000#32)))
        (broadcastTo Cert.KernelIdeal.S1024x40 v70 broadcasts_S1024x1_S1024x40) (ix2 r n)
      = val_main_v225 (F := Ideal) x0 x2 x3 x4 x5 x6 x7 x8 x9 x10 x11 x12 x13 x14 x15 x16 x17 x18 x19 x20 x21 x22 x23 x24 x25 (ix2 i n) := by
  intro r i n hi
  rw [val_main_v225_apply, val_main_v223_apply, val_main_v224_apply, idx224, val_main_v222_apply]
  show Ideal.tanh (matmul Cert.KernelIdeal.dot_S1024x128_S128x40_S1024x40_1_0_0_1_n_n none (truncf .bf16 g bitsLt_bf16_f32) v51 (constant (F := Ideal) Cert.KernelIdeal.S1024x40 .f32 0x00000000#32) (ix2 r n))
      * broadcastTo Cert.KernelIdeal.S1024x40 v70 broadcasts_S1024x1_S1024x40 (ix2 r n)
    = Ideal.tanh _ * val_main_v15 (F := Ideal) x0 x8 x9 (ix2 i (0 : Fin 1))
  rw [LibLayout.broadcastTo_col_apply, h70 r i 0 hi, mm128x40]
  refine congrArg (fun z : EReal => Ideal.tanh z * val_main_v15 (F := Ideal) x0 x8 x9 (ix2 i (0 : Fin 1))) ?_
  refine Finset.sum_congr rfl fun k _ => ?_
  rw [truncf_apply, hg r i k hi, h51 k n, lidx222, ridx222, val_main_v221_apply, idx221]

theorem sig_out_stage
    (h45 : ∀ (k : Fin 128) (n : Fin 128) (j : Fin 688), j.val = 288 + k.val → v45 (ix2 k n) = x23 (ix2 n j))
    (h47 : ∀ (k : Fin 192) (n : Fin 128) (j : Fin 688), j.val = 416 + k.val → v47 (ix2 k n) = x23 (ix2 n j))
    (h49 : ∀ (k : Fin 128) (n : Fin 128), v49 (ix2 k n) = x24 (ix2 n k))
    (h51 : ∀ (k : Fin 128) (n : Fin 40), v51 (ix2 k n) = x25 (ix2 n k))
    (h70 : ∀ (r : Fin 1024) (i : Fin 65536) (n : Fin 1), i.val = 1024 * t.val + r.val → v70 (ix2 r n) = val_main_v15 (F := Ideal) x0 x8 x9 (ix2 i n))
    (h420 : ∀ (r : Fin 1024) (i : Fin 65536) (k : Fin 192), i.val = 1024 * t.val + r.val → v420 (ix2 r k) = val_main_v58 (F := Ideal) x0 x2 x6 x7 x8 x9 x10 x11 (ix2 i k))
    (h532 : ∀ (r : Fin 1024) (i : Fin 65536) (k : Fin 128), i.val = 1024 * t.val + r.val → v532 (ix2 r k) = val_main_v204 (F := Ideal) x0 x2 x3 x4 x5 x6 x7 x8 x9 x10 x11 x12 x13 x14 x15 x16 x17 x18 x19 x20 x21 x22 (ix2 i k))
    (h533 : ∀ (r : Fin 1024) (i : Fin 65536) (n : Fin 128), i.val = 1024 * t.val + r.val →
      v533 (ix2 r n) = ∑ k : Fin 160, val_main_v114 (F := Ideal) x0 x2 x3 x6 x7 x8 x9 x10 x11 x12 x13 x14 x15 x16 (ix2 i k) * x23 (ix2 n ⟨k.val, by have := k.isLt; omega⟩))
    (h534 : ∀ (r : Fin 1024) (i : Fin 65536) (n : Fin 128), i.val = 1024 * t.val + r.val →
      v534 (ix2 r n) = ∑ k : Fin 128, val_main_v159 (F := Ideal) x0 x2 x3 x4 x6 x7 x8 x9 x10 x11 x12 x13 x14 x15 x16 x17 x18 x19 (ix2 i k) * x23 (ix2 n ⟨160 + k.val, by have := k.isLt; omega⟩))
    (h442 : ∀ (r : Fin 1024) (i : Fin 65536) (n : Fin 128), i.val = 1024 * t.val + r.val →
      v442 (ix2 r n) = val_main_v69 (F := Ideal) x0 x2 x6 x7 x8 x9 x10 x11 x12 x13 (ix2 i (3 : Fin 4)) * ∑ k : Fin 40, val_main_v45 (F := Ideal) x0 x2 x7 x8 x9 (ix2 i k) * x23 (ix2 n ⟨608 + k.val, by have := k.isLt; omega⟩))
    (h448 : ∀ (r : Fin 1024) (i : Fin 65536) (n : Fin 128), i.val = 1024 * t.val + r.val →
      v448 (ix2 r n) = ∑ k : Fin 40, val_main_v43 (F := Ideal) x0 x2 x8 x9 (ix2 i k) * x23 (ix2 n ⟨648 + k.val, by have := k.isLt; omega⟩))
    (hpg : ∀ (i : Fin 65536), (0 : EReal) ≤ val_main_v69 (F := Ideal) x0 x2 x6 x7 x8 x9 x10 x11 x12 x13 (ix2 i (3 : Fin 4)) ∧ val_main_v69 (F := Ideal) x0 x2 x6 x7 x8 x9 x10 x11 x12 x13 (ix2 i (3 : Fin 4)) ≠ (⊤ : EReal)) :
    ∀ (r : Fin 1024) (i : Fin 65536) (n : Fin 40), i.val = 1024 * t.val + r.val →
      k0_pay99 v45 v47 v49 v51 v70 v420 v442 v448 v532 v533 v534 (ix2 r n) = val_main_v225 (F := Ideal) x0 x2 x3 x4 x5 x6 x7 x8 x9 x10 x11 x12 x13 x14 x15 x16 x17 x18 x19 x20 x21 x22 x23 x24 x25 (ix2 i n) := by
  intro r i n hi
  unfold k0_pay99
  have hs := skip_tanh_read t x0 x2 x3 x4 x5 x6 x7 x8 x9 x10 x11 x12 x13 x14 x15 x16 x17 x18 x19 x20 x21 x22 x23 v45 v47 v420 v442 v448 v532 v533 v534 h45 h47 h420 h532 h533 h534 h442 h448 hpg
  have hgl := glu_read t x0 x2 x3 x4 x5 x6 x7 x8 x9 x10 x11 x12 x13 x14 x15 x16 x17 x18 x19 x20 x21 x22 x23 x24 v49 _ h49 hs
  exact out_read t x0 x2 x3 x4 x5 x6 x7 x8 x9 x10 x11 x12 x13 x14 x15 x16 x17 x18 x19 x20 x21 x22 x23 x24 x25 v51 v70 _ h51 h70 hgl r i n hi

theorem concat_216_40_left {α : Type} {R : Nat} (p : (⟨2, ![R, 216]⟩ : Shape).Idx → α) (q : (⟨2, ![R, 40]⟩ : Shape).Idx → α)
    (h : Shape.Concatenates [(⟨2, ![R, 216]⟩ : Shape), ⟨2, ![R, 40]⟩] ⟨2, ![R, 256]⟩ 1) (r : Fin R) (n : Fin 256)
    (hn : n.val < 216) :
    concatenate ⟨2, ![R, 256]⟩ 1 [⟨_, p⟩, ⟨_, q⟩] h (ix2 r n) = p (ix2 r ⟨n.val, hn⟩) :=
  concatenate_pair_apply_left 1 p q h (ix2 r n) rfl (ix2 r ⟨n.val, hn⟩) (fun b => match b with
    | ⟨0, _⟩ => rfl
    | ⟨1, _⟩ => rfl)

theorem concat_216_40_right {α : Type} {R : Nat} (p : (⟨2, ![R, 216]⟩ : Shape).Idx → α) (q : (⟨2, ![R, 40]⟩ : Shape).Idx → α)
    (h : Shape.Concatenates [(⟨2, ![R, 216]⟩ : Shape), ⟨2, ![R, 40]⟩] ⟨2, ![R, 256]⟩ 1) (r : Fin R) (n : Fin 256)
    (hn : 216 ≤ n.val) :
    concatenate ⟨2, ![R, 256]⟩ 1 [⟨_, p⟩, ⟨_, q⟩] h (ix2 r n) = q (ix2 r ⟨n.val - 216, by have := n.isLt; omega⟩) :=
  concatenate_pair_apply_right 1 p q h (ix2 r n) rfl rfl (ix2 r ⟨n.val - 216, by have := n.isLt; omega⟩)
    (fun b hb => match b, hb with
      | ⟨0, _⟩, _ => rfl
      | ⟨1, _⟩, hb => absurd rfl hb)
    (by show n.val - 216 + 216 = n.val; omega)

theorem exc_stage
    (h2 : ∀ (r : Fin 1024) (i : Fin 65536) (k : Fin 256), i.val = 1024 * t.val + r.val → v2 (ix2 r k) = x2 (ix2 i k))
    (hsig : ∀ (r : Fin 1024) (i : Fin 65536) (n : Fin 40), i.val = 1024 * t.val + r.val →
      k0_pay99 v45 v47 v49 v51 v70 v420 v442 v448 v532 v533 v534 (ix2 r n) = val_main_v225 (F := Ideal) x0 x2 x3 x4 x5 x6 x7 x8 x9 x10 x11 x12 x13 x14 x15 x16 x17 x18 x19 x20 x21 x22 x23 x24 x25 (ix2 i n)) :
    ∀ (r : Fin 1024) (i : Fin 65536) (n : Fin 256), i.val = 1024 * t.val + r.val →
      k0_pay100 v2 v45 v47 v49 v51 v70 v420 v442 v448 v532 v533 v534 (ix2 r n) = val_main_v227 (F := Ideal) x0 x2 x3 x4 x5 x6 x7 x8 x9 x10 x11 x12 x13 x14 x15 x16 x17 x18 x19 x20 x21 x22 x23 x24 x25 (ix2 i n) := by
  intro r i n hi
  have hk : k0_pay100 v2 v45 v47 v49 v51 v70 v420 v442 v448 v532 v533 v534 (ix2 r n)
      = concatenate Cert.KernelIdeal.S1024x256 1 [⟨Cert.KernelIdeal.S1024x216, extractStridedSlice Cert.KernelIdeal.S1024x216 ![0, 40] v2 slices_S1024x256_o0_40_S1024x216⟩,
          ⟨Cert.KernelIdeal.S1024x40, k0_pay99 v45 v47 v49 v51 v70 v420 v442 v448 v532 v533 v534⟩] concatenates_S1024x216_S1024x40_S1024x256_d1 (ix2 r n) := rfl
  rw [hk]
  unfold val_main_v227
  by_cases hn : n.val < 216
  · rw [concat_216_40_left _ _ _ r n hn, concat_216_40_left _ _ _ i n hn,
      slice2_axis1_apply 40 v2 _ r ⟨n.val, hn⟩ ⟨40 + n.val, by omega⟩ rfl, val_main_v226_apply, idx226]
    exact h2 r i _ hi
  · have hn' : 216 ≤ n.val := Nat.le_of_not_lt hn
    rw [concat_216_40_right _ _ _ r n hn', concat_216_40_right _ _ _ i n hn']
    exact hsig r i _ hi

theorem pp_stage
    (h1 : ∀ (r : Fin 1024) (i : Fin 65536) (k : Fin 256), i.val = 1024 * t.val + r.val → v1 (ix2 r k) = x1 (ix2 i k))
    (h409 : ∀ (r : Fin 1024) (i : Fin 65536) (k : Fin 40), i.val = 1024 * t.val + r.val → v409 (ix2 r k) = val_main_v45 (F := Ideal) x0 x2 x7 x8 x9 (ix2 i k)) :
    ∀ (r : Fin 1024) (i : Fin 65536) (n : Fin 256), i.val = 1024 * t.val + r.val →
      k0_pay101 v1 v409 (ix2 r n) = val_main_v229 (F := Ideal) x0 x1 x2 x7 x8 x9 (ix2 i n) := by
  intro r i n hi
  have hk : k0_pay101 v1 v409 (ix2 r n)
      = concatenate Cert.KernelIdeal.S1024x256 1 [⟨Cert.KernelIdeal.S1024x216, extractStridedSlice Cert.KernelIdeal.S1024x216 ![0, 40] v1 slices_S1024x256_o0_40_S1024x216⟩,
          ⟨Cert.KernelIdeal.S1024x40, v409⟩] concatenates_S1024x216_S1024x40_S1024x256_d1 (ix2 r n) := rfl
  rw [hk]
  unfold val_main_v229
  by_cases hn : n.val < 216
  · rw [concat_216_40_left _ _ _ r n hn, concat_216_40_left _ _ _ i n hn,
      slice2_axis1_apply 40 v1 _ r ⟨n.val, hn⟩ ⟨40 + n.val, by omega⟩ rfl, val_main_v228_apply, idx228]
    exact h1 r i _ hi
  · have hn' : 216 ≤ n.val := Nat.le_of_not_lt hn
    rw [concat_216_40_right _ _ _ r n hn', concat_216_40_right _ _ _ i n hn']
    exact h409 r i _ hi

end Cert.Bridge.StageOut
-- ==== Proof.ChainOut.lean ====
import proofs.«401269_j23398981829052_3_alg».proof.Proof.Chain0
import proofs.«401269_j23398981829052_3_alg».proof.Proof.StageOut
import proofs.«401269_j23398981829052_3_alg».proof.Proof.StageK40

noncomputable section

open scoped BigOperators

namespace Cert.Bridge.Chain

open Idealize.ShloMosaic Idealize.ShloMosaic.TcCoe Idealize.ShloMosaic.ValueIdx
open Cert.KernelIdeal Cert.KernelIdeal.Gen Cert.ReferenceIdeal.Read

variable (t : Fin 64)
variable (x0 : (⟨Cert.ReferenceIdeal.S65536x80, .f32⟩ : BufTy).Contents (Elt Ideal))
variable (x1 : (⟨Cert.ReferenceIdeal.S65536x256, .f32⟩ : BufTy).Contents (Elt Ideal))
variable (x2 : (⟨Cert.ReferenceIdeal.S65536x256, .f32⟩ : BufTy).Contents (Elt Ideal))
variable (x3 : (⟨Cert.ReferenceIdeal.S65536x160, .f32⟩ : BufTy).Contents (Elt Ideal))
variable (x4 : (⟨Cert.ReferenceIdeal.S65536x128, .f32⟩ : BufTy).Contents (Elt Ideal))
variable (x5 : (⟨Cert.ReferenceIdeal.S65536x128, .f32⟩ : BufTy).Contents (Elt Ideal))
variable (x6 : (⟨Cert.ReferenceIdeal.S65536x164, .f32⟩ : BufTy).Contents (Elt Ideal))
variable (x7 : (⟨Cert.ReferenceIdeal.S65536, .i32⟩ : BufTy).Contents (Elt Ideal))
variable (x8 : (⟨Cert.ReferenceIdeal.S1x80, .f32⟩ : BufTy).Contents (Elt Ideal))
variable (x9 : (⟨Cert.ReferenceIdeal.S1, .f32⟩ : BufTy).Contents (Elt Ideal))
variable (x10 : (⟨Cert.ReferenceIdeal.S192x328, .f32⟩ : BufTy).Contents (Elt Ideal))
variable (x11 : (⟨Cert.ReferenceIdeal.S192x192, .f32⟩ : BufTy).Contents (Elt Ideal))
variable (x12 : (⟨Cert.ReferenceIdeal.S4x192, .f32⟩ : BufTy).Contents (Elt Ideal))
variable (x13 : (⟨Cert.ReferenceIdeal.S4, .f32⟩ : BufTy).Contents (Elt Ideal))
variable (x14 : (⟨Cert.ReferenceIdeal.S480x272, .f32⟩ : BufTy).Contents (Elt Ideal))
variable (x15 : (⟨Cert.ReferenceIdeal.S480x160, .f32⟩ : BufTy).Contents (Elt Ideal))
variable (x16 : (⟨Cert.ReferenceIdeal.S160x160, .f32⟩ : BufTy).Contents (Elt Ideal))
variable (x17 : (⟨Cert.ReferenceIdeal.S384x240, .f32⟩ : BufTy).Contents (Elt Ideal))
variable (x18 : (⟨Cert.ReferenceIdeal.S384x128, .f32⟩ : BufTy).Contents (Elt Ideal))
variable (x19 : (⟨Cert.ReferenceIdeal.S128x128, .f32⟩ : BufTy).Contents (Elt Ideal))
variable (x20 : (⟨Cert.ReferenceIdeal.S384x208, .f32⟩ : BufTy).Contents (Elt Ideal))
variable (x21 : (⟨Cert.ReferenceIdeal.S384x128, .f32⟩ : BufTy).Contents (Elt Ideal))
variable (x22 : (⟨Cert.ReferenceIdeal.S128x128, .f32⟩ : BufTy).Contents (Elt Ideal))
variable (x23 : (⟨Cert.ReferenceIdeal.S128x688, .f32⟩ : BufTy).Contents (Elt Ideal))
variable (x24 : (⟨Cert.ReferenceIdeal.S128x128, .f32⟩ : BufTy).Contents (Elt Ideal))
variable (x25 : (⟨Cert.ReferenceIdeal.S40x128, .f32⟩ : BufTy).Contents (Elt Ideal))
variable (b : Cert.KernelIdeal.Fr.Blocks Ideal)

theorem fpitch_skip_cols (H : Inputs t x0 x1 x2 x3 x4 x5 x6 x7 x8 x9 x10 x11 x12 x13 x14 x15 x16 x17 x18 x19 x20 x21 x22 x23 x24 x25 b) (hfp : SFp t x0 x2 x7 x8 x9 b) :
    ∀ (r : Fin 1024) (i : Fin 65536) (n : Fin 128) (c : Fin 1376), i.val = 1024 * t.val + r.val → c.val = 1248 + n.val →
      Fr.val426 b (ix2 r c) = ∑ k : Fin 40, val_main_v45 (F := Ideal) x0 x2 x7 x8 x9 (ix2 i k) * x23 (ix2 n ⟨608 + k.val, by have := k.isLt; omega⟩) := by
  intro r i n c hi hc
  refine (show Fr.val426 b (ix2 r c) = ∑ k : Fin 40, Fr.val409 b (ix2 r k) * Fr.val53 b (ix2 k c) from
    Cert.Bridge.K40.matmul_truncf_apply (Fr.val409 b) (Fr.val53 b) r c).trans ?_
  refine Finset.sum_congr rfl fun k _ => ?_
  rw [hfp r i k hi, H.in53d k c n ⟨608 + k.val, by have := k.isLt; omega⟩ (by omega) c.isLt (by omega) rfl]

theorem ssig (H : Inputs t x0 x1 x2 x3 x4 x5 x6 x7 x8 x9 x10 x11 x12 x13 x14 x15 x16 x17 x18 x19 x20 x21 x22 x23 x24 x25 b) (hgain : SGain t x0 x8 x9 b) (hprev : SPrev t x0 x2 x8 x9 b)
    (hfp : SFp t x0 x2 x7 x8 x9 b) (hfwc : SFwc t x0 x2 x6 x7 x8 x9 x10 x11 b) (hpg : SPg t x0 x2 x6 x7 x8 x9 x10 x11 x12 x13 b)
    (hpgr : SPgRange x0 x2 x6 x7 x8 x9 x10 x11 x12 x13) (ho1 : SO1 t x0 x2 x3 x6 x7 x8 x9 x10 x11 x12 x13 x14 x15 x16 b) (ho2 : SO2 t x0 x2 x3 x4 x6 x7 x8 x9 x10 x11 x12 x13 x14 x15 x16 x17 x18 x19 b)
    (ho3 : SO3 t x0 x2 x3 x4 x5 x6 x7 x8 x9 x10 x11 x12 x13 x14 x15 x16 x17 x18 x19 x20 x21 x22 b) : SSig t x0 x2 x3 x4 x5 x6 x7 x8 x9 x10 x11 x12 x13 x14 x15 x16 x17 x18 x19 x20 x21 x22 x23 x24 x25 b := by
  unfold SSig
  exact Cert.Bridge.StageOut.sig_out_stage t x0 x2 x3 x4 x5 x6 x7 x8 x9 x10 x11 x12 x13 x14 x15 x16 x17 x18 x19 x20 x21 x22 x23 x24 x25
    (Fr.val45 b) (Fr.val47 b) (Fr.val49 b) (Fr.val51 b) (Fr.val70 b) (Fr.val420 b) (Fr.val442 b) (Fr.val448 b) (Fr.val532 b)
    (Fr.val533 b) (Fr.val534 b) H.in45 H.in47 H.in49 H.in51 hgain hfwc ho3
    (Cert.Bridge.StageOut.pay97_read t x0 x2 x3 x6 x7 x8 x9 x10 x11 x12 x13 x14 x15 x16 x23 (Fr.val41 b) (Fr.val476 b) H.in41 ho1)
    (Cert.Bridge.StageOut.pay98_read t x0 x2 x3 x4 x6 x7 x8 x9 x10 x11 x12 x13 x14 x15 x16 x17 x18 x19 x23 (Fr.val4 b) (Fr.val33 b) (Fr.val43 b) (Fr.val479 b) (Fr.val481 b) (Fr.val482 b) H.in43 ho2)
    (Cert.Bridge.StageOut.pay84_read t x0 x2 x6 x7 x8 x9 x10 x11 x12 x13 x23 (Fr.val424 b) (Fr.val426 b) hpg (fpitch_skip_cols t x0 x1 x2 x3 x4 x5 x6 x7 x8 x9 x10 x11 x12 x13 x14 x15 x16 x17 x18 x19 x20 x21 x22 x23 x24 x25 b H hfp))
    (Cert.Bridge.StageOut.pay87_read t x0 x2 x8 x9 x23 (Fr.val55 b) (Fr.val407 b)
      (fun k n c j hc hj => H.in55d k c n j (by omega) c.isLt (by omega) hj) hprev)
    (fun i => hpgr i 3)

theorem sexc (H : Inputs t x0 x1 x2 x3 x4 x5 x6 x7 x8 x9 x10 x11 x12 x13 x14 x15 x16 x17 x18 x19 x20 x21 x22 x23 x24 x25 b) (hsig : SSig t x0 x2 x3 x4 x5 x6 x7 x8 x9 x10 x11 x12 x13 x14 x15 x16 x17 x18 x19 x20 x21 x22 x23 x24 x25 b) : SExc t x0 x2 x3 x4 x5 x6 x7 x8 x9 x10 x11 x12 x13 x14 x15 x16 x17 x18 x19 x20 x21 x22 x23 x24 x25 b := by
  unfold SExc
  exact Cert.Bridge.StageOut.exc_stage t x0 x2 x3 x4 x5 x6 x7 x8 x9 x10 x11 x12 x13 x14 x15 x16 x17 x18 x19 x20 x21 x22 x23 x24 x25 (Fr.val2 b)
    (Fr.val45 b) (Fr.val47 b) (Fr.val49 b) (Fr.val51 b) (Fr.val70 b) (Fr.val420 b) (Fr.val442 b) (Fr.val448 b) (Fr.val532 b)
    (Fr.val533 b) (Fr.val534 b) H.in2 hsig

theorem spp (H : Inputs t x0 x1 x2 x3 x4 x5 x6 x7 x8 x9 x10 x11 x12 x13 x14 x15 x16 x17 x18 x19 x20 x21 x22 x23 x24 x25 b) (hfp : SFp t x0 x2 x7 x8 x9 b) : SPp t x0 x1 x2 x7 x8 x9 b := by
  unfold SPp
  exact Cert.Bridge.StageOut.pp_stage t x0 x1 x2 x7 x8 x9 (Fr.val1 b) (Fr.val409 b) H.in1 hfp

end Cert.Bridge.Chain

end
-- ==== Proof.Chain.lean ====
import proofs.«401269_j23398981829052_3_alg».proof.Proof.Chain0
import proofs.«401269_j23398981829052_3_alg».proof.Proof.ChainGain
import proofs.«401269_j23398981829052_3_alg».proof.Proof.ChainGather
import proofs.«401269_j23398981829052_3_alg».proof.Proof.ChainFwc
import proofs.«401269_j23398981829052_3_alg».proof.Proof.ChainGru1
import proofs.«401269_j23398981829052_3_alg».proof.Proof.ChainGru2
import proofs.«401269_j23398981829052_3_alg».proof.Proof.ChainGru3
import proofs.«401269_j23398981829052_3_alg».proof.Proof.ChainOut

noncomputable section

namespace Cert.Bridge.Chain

open Idealize.ShloMosaic Idealize.ShloMosaic.TcCoe Idealize.ShloMosaic.ValueIdx
open Cert.KernelIdeal Cert.KernelIdeal.Gen Cert.ReferenceIdeal.Read

variable (t : Fin 64)
variable (x0 : (⟨Cert.ReferenceIdeal.S65536x80, .f32⟩ : BufTy).Contents (Elt Ideal))
variable (x1 : (⟨Cert.ReferenceIdeal.S65536x256, .f32⟩ : BufTy).Contents (Elt Ideal))
variable (x2 : (⟨Cert.ReferenceIdeal.S65536x256, .f32⟩ : BufTy).Contents (Elt Ideal))
variable (x3 : (⟨Cert.ReferenceIdeal.S65536x160, .f32⟩ : BufTy).Contents (Elt Ideal))
variable (x4 : (⟨Cert.ReferenceIdeal.S65536x128, .f32⟩ : BufTy).Contents (Elt Ideal))
variable (x5 : (⟨Cert.ReferenceIdeal.S65536x128, .f32⟩ : BufTy).Contents (Elt Ideal))
variable (x6 : (⟨Cert.ReferenceIdeal.S65536x164, .f32⟩ : BufTy).Contents (Elt Ideal))
variable (x7 : (⟨Cert.ReferenceIdeal.S65536, .i32⟩ : BufTy).Contents (Elt Ideal))
variable (x8 : (⟨Cert.ReferenceIdeal.S1x80, .f32⟩ : BufTy).Contents (Elt Ideal))
variable (x9 : (⟨Cert.ReferenceIdeal.S1, .f32⟩ : BufTy).Contents (Elt Ideal))
variable (x10 : (⟨Cert.ReferenceIdeal.S192x328, .f32⟩ : BufTy).Contents (Elt Ideal))
variable (x11 : (⟨Cert.ReferenceIdeal.S192x192, .f32⟩ : BufTy).Contents (Elt Ideal))
variable (x12 : (⟨Cert.ReferenceIdeal.S4x192, .f32⟩ : BufTy).Contents (Elt Ideal))
variable (x13 : (⟨Cert.ReferenceIdeal.S4, .f32⟩ : BufTy).Contents (Elt Ideal))
variable (x14 : (⟨Cert.ReferenceIdeal.S480x272, .f32⟩ : BufTy).Contents (Elt Ideal))
variable (x15 : (⟨Cert.ReferenceIdeal.S480x160, .f32⟩ : BufTy).Contents (Elt Ideal))
variable (x16 : (⟨Cert.ReferenceIdeal.S160x160, .f32⟩ : BufTy).Contents (Elt Ideal))
variable (x17 : (⟨Cert.ReferenceIdeal.S384x240, .f32⟩ : BufTy).Contents (Elt Ideal))
variable (x18 : (⟨Cert.ReferenceIdeal.S384x128, .f32⟩ : BufTy).Contents (Elt Ideal))
variable (x19 : (⟨Cert.ReferenceIdeal.S128x128, .f32⟩ : BufTy).Contents (Elt Ideal))
variable (x20 : (⟨Cert.ReferenceIdeal.S384x208, .f32⟩ : BufTy).Contents (Elt Ideal))
variable (x21 : (⟨Cert.ReferenceIdeal.S384x128, .f32⟩ : BufTy).Contents (Elt Ideal))
variable (x22 : (⟨Cert.ReferenceIdeal.S128x128, .f32⟩ : BufTy).Contents (Elt Ideal))
variable (x23 : (⟨Cert.ReferenceIdeal.S128x688, .f32⟩ : BufTy).Contents (Elt Ideal))
variable (x24 : (⟨Cert.ReferenceIdeal.S128x128, .f32⟩ : BufTy).Contents (Elt Ideal))
variable (x25 : (⟨Cert.ReferenceIdeal.S40x128, .f32⟩ : BufTy).Contents (Elt Ideal))
variable (b : Cert.KernelIdeal.Fr.Blocks Ideal)

structure Outputs : Prop where
  ssig : SSig t x0 x2 x3 x4 x5 x6 x7 x8 x9 x10 x11 x12 x13 x14 x15 x16 x17 x18 x19 x20 x21 x22 x23 x24 x25 b
  sexc : SExc t x0 x2 x3 x4 x5 x6 x7 x8 x9 x10 x11 x12 x13 x14 x15 x16 x17 x18 x19 x20 x21 x22 x23 x24 x25 b
  spp : SPp t x0 x1 x2 x7 x8 x9 b
  sg1 : SG1 t x0 x2 x3 x6 x7 x8 x9 x10 x11 x12 x13 x14 x15 b
  sg2 : SG2 t x0 x2 x3 x4 x6 x7 x8 x9 x10 x11 x12 x13 x14 x15 x16 x17 x18 b
  sg3 : SG3 t x0 x2 x3 x4 x5 x6 x7 x8 x9 x10 x11 x12 x13 x14 x15 x16 x17 x18 x19 x20 x21 b
  stmp : STmp t x0 x2 x7 x8 x9 b

theorem outputs (H : Inputs t x0 x1 x2 x3 x4 x5 x6 x7 x8 x9 x10 x11 x12 x13 x14 x15 x16 x17 x18 x19 x20 x21 x22 x23 x24 x25 b) :
    Outputs t x0 x1 x2 x3 x4 x5 x6 x7 x8 x9 x10 x11 x12 x13 x14 x15 x16 x17 x18 x19 x20 x21 x22 x23 x24 x25 b := by
  have hgain : SGain t x0 x8 x9 b := sgain t x0 x1 x2 x3 x4 x5 x6 x7 x8 x9 x10 x11 x12 x13 x14 x15 x16 x17 x18 x19 x20 x21 x22 x23 x24 x25 b H
  have hidx : SIdx t x7 b := sidx t x0 x1 x2 x3 x4 x5 x6 x7 x8 x9 x10 x11 x12 x13 x14 x15 x16 x17 x18 x19 x20 x21 x22 x23 x24 x25 b H
  have hpgr : SPgRange x0 x2 x6 x7 x8 x9 x10 x11 x12 x13 := spgrange x0 x2 x6 x7 x8 x9 x10 x11 x12 x13
  have hprev : SPrev t x0 x2 x8 x9 b := sprev t x0 x1 x2 x3 x4 x5 x6 x7 x8 x9 x10 x11 x12 x13 x14 x15 x16 x17 x18 x19 x20 x21 x22 x23 x24 x25 b H hgain
  have htmp : STmp t x0 x2 x7 x8 x9 b := stmp t x0 x1 x2 x3 x4 x5 x6 x7 x8 x9 x10 x11 x12 x13 x14 x15 x16 x17 x18 x19 x20 x21 x22 x23 x24 x25 b H hgain hidx
  have hfp : SFp t x0 x2 x7 x8 x9 b := sfp t x0 x1 x2 x3 x4 x5 x6 x7 x8 x9 x10 x11 x12 x13 x14 x15 x16 x17 x18 x19 x20 x21 x22 x23 x24 x25 b H hgain hidx
  have hfwc : SFwc t x0 x2 x6 x7 x8 x9 x10 x11 b := sfwc t x0 x1 x2 x3 x4 x5 x6 x7 x8 x9 x10 x11 x12 x13 x14 x15 x16 x17 x18 x19 x20 x21 x22 x23 x24 x25 b H htmp
  have hpg : SPg t x0 x2 x6 x7 x8 x9 x10 x11 x12 x13 b := spg t x0 x1 x2 x3 x4 x5 x6 x7 x8 x9 x10 x11 x12 x13 x14 x15 x16 x17 x18 x19 x20 x21 x22 x23 x24 x25 b H hfwc
  have hg1 : SG1 t x0 x2 x3 x6 x7 x8 x9 x10 x11 x12 x13 x14 x15 b := sg1 t x0 x1 x2 x3 x4 x5 x6 x7 x8 x9 x10 x11 x12 x13 x14 x15 x16 x17 x18 x19 x20 x21 x22 x23 x24 x25 b H hprev hfwc hfp hpg hpgr
  have ho1 : SO1 t x0 x2 x3 x6 x7 x8 x9 x10 x11 x12 x13 x14 x15 x16 b := so1 t x0 x1 x2 x3 x4 x5 x6 x7 x8 x9 x10 x11 x12 x13 x14 x15 x16 x17 x18 x19 x20 x21 x22 x23 x24 x25 b H hg1
  have hgi2 : SGi2 t x0 x2 x3 x6 x7 x8 x9 x10 x11 x12 x13 x14 x15 x16 x17 b := sgi2 t x0 x1 x2 x3 x4 x5 x6 x7 x8 x9 x10 x11 x12 x13 x14 x15 x16 x17 x18 x19 x20 x21 x22 x23 x24 x25 b H ho1 hpg hpgr hfp hprev
  have hgh2 : SGh2 t x4 x18 b := sgh2 t x0 x1 x2 x3 x4 x5 x6 x7 x8 x9 x10 x11 x12 x13 x14 x15 x16 x17 x18 x19 x20 x21 x22 x23 x24 x25 b H
  have hgi2r : SGi2Reset t x0 x2 x3 x6 x7 x8 x9 x10 x11 x12 x13 x14 x15 x16 x17 b := sgi2reset t x0 x2 x3 x6 x7 x8 x9 x10 x11 x12 x13 x14 x15 x16 x17 b hgi2
  have hg2 : SG2 t x0 x2 x3 x4 x6 x7 x8 x9 x10 x11 x12 x13 x14 x15 x16 x17 x18 b := sg2 t x0 x1 x2 x3 x4 x5 x6 x7 x8 x9 x10 x11 x12 x13 x14 x15 x16 x17 x18 x19 x20 x21 x22 x23 x24 x25 b H hgi2 hgh2 hgi2r
  have ho2 : SO2 t x0 x2 x3 x4 x6 x7 x8 x9 x10 x11 x12 x13 x14 x15 x16 x17 x18 x19 b := so2 t x0 x1 x2 x3 x4 x5 x6 x7 x8 x9 x10 x11 x12 x13 x14 x15 x16 x17 x18 x19 x20 x21 x22 x23 x24 x25 b H hg2
  have hg3 : SG3 t x0 x2 x3 x4 x5 x6 x7 x8 x9 x10 x11 x12 x13 x14 x15 x16 x17 x18 x19 x20 x21 b := sg3 t x0 x1 x2 x3 x4 x5 x6 x7 x8 x9 x10 x11 x12 x13 x14 x15 x16 x17 x18 x19 x20 x21 x22 x23 x24 x25 b H hprev hfp hpg hpgr ho2
  have ho3 : SO3 t x0 x2 x3 x4 x5 x6 x7 x8 x9 x10 x11 x12 x13 x14 x15 x16 x17 x18 x19 x20 x21 x22 b := so3 t x0 x1 x2 x3 x4 x5 x6 x7 x8 x9 x10 x11 x12 x13 x14 x15 x16 x17 x18 x19 x20 x21 x22 x23 x24 x25 b H hg3
  have hsig : SSig t x0 x2 x3 x4 x5 x6 x7 x8 x9 x10 x11 x12 x13 x14 x15 x16 x17 x18 x19 x20 x21 x22 x23 x24 x25 b := ssig t x0 x1 x2 x3 x4 x5 x6 x7 x8 x9 x10 x11 x12 x13 x14 x15 x16 x17 x18 x19 x20 x21 x22 x23 x24 x25 b H hgain hprev hfp hfwc hpg hpgr ho1 ho2 ho3
  have hexc : SExc t x0 x2 x3 x4 x5 x6 x7 x8 x9 x10 x11 x12 x13 x14 x15 x16 x17 x18 x19 x20 x21 x22 x23 x24 x25 b := sexc t x0 x1 x2 x3 x4 x5 x6 x7 x8 x9 x10 x11 x12 x13 x14 x15 x16 x17 x18 x19 x20 x21 x22 x23 x24 x25 b H hsig
  have hpp : SPp t x0 x1 x2 x7 x8 x9 b := spp t x0 x1 x2 x3 x4 x5 x6 x7 x8 x9 x10 x11 x12 x13 x14 x15 x16 x17 x18 x19 x20 x21 x22 x23 x24 x25 b H hfp
  exact ⟨hsig, hexc, hpp, hg1, hg2, hg3, htmp⟩

end Cert.Bridge.Chain

end
-- ==== Proof.KValue.lean ====
import proofs.«401269_j23398981829052_3_alg».proof.Proof.FrameIdeal
import proofs.«401269_j23398981829052_3_alg».proof.Proof.KInputs
import proofs.«401269_j23398981829052_3_alg».proof.Proof.Chain
import proofs.«401269_j23398981829052_3_alg».proof.Proof.WindowReads
import Idealize.ShloMosaic.Lib.Pipeline.Value

set_option maxRecDepth 16384

noncomputable section

namespace Cert.KernelIdeal.KV

open Cert.KernelIdeal Cert.KernelIdeal.Gen Cert.KernelIdeal.GenL Cert.KernelIdeal.Fr
open Idealize.ShloMosaic Idealize.ShloMosaic.TcCoe Idealize.ShloMosaic.ValueIdx Idealize.SL.Sem
open Idealize.ShloMosaic.Pipeline (Dat)
open Cert.ReferenceIdeal.Read Cert.Bridge Cert.Bridge.Chain

variable (m : (ℓ : Loc nD τ sig) → Buf (Elt Ideal) ℓ) (ρ : Dev nD → PrngReg)

abbrev a (c : Dev nD) (b : Ref sig .tc) : Buf (Elt Ideal) ((c.tc : Thread nD τ).loc b) := m ((c.tc : Thread nD τ).loc b)

abbrev R0 (c : Dev nD) := val_main_v225 (F := Ideal) (a m c main_arg0) (a m c main_arg2) (a m c main_arg3) (a m c main_arg4) (a m c main_arg5) (a m c main_arg6) (a m c main_arg7) (a m c main_arg8) (a m c main_arg9) (a m c main_arg10) (a m c main_arg11) (a m c main_arg12) (a m c main_arg13) (a m c main_arg14) (a m c main_arg15) (a m c main_arg16) (a m c main_arg17) (a m c main_arg18) (a m c main_arg19) (a m c main_arg20) (a m c main_arg21) (a m c main_arg22) (a m c main_arg23) (a m c main_arg24) (a m c main_arg25)
abbrev R1 (c : Dev nD) := val_main_v227 (F := Ideal) (a m c main_arg0) (a m c main_arg2) (a m c main_arg3) (a m c main_arg4) (a m c main_arg5) (a m c main_arg6) (a m c main_arg7) (a m c main_arg8) (a m c main_arg9) (a m c main_arg10) (a m c main_arg11) (a m c main_arg12) (a m c main_arg13) (a m c main_arg14) (a m c main_arg15) (a m c main_arg16) (a m c main_arg17) (a m c main_arg18) (a m c main_arg19) (a m c main_arg20) (a m c main_arg21) (a m c main_arg22) (a m c main_arg23) (a m c main_arg24) (a m c main_arg25)
abbrev R2 (c : Dev nD) := val_main_v229 (F := Ideal) (a m c main_arg0) (a m c main_arg1) (a m c main_arg2) (a m c main_arg7) (a m c main_arg8) (a m c main_arg9)
abbrev R3 (c : Dev nD) := val_main_v105 (F := Ideal) (a m c main_arg0) (a m c main_arg2) (a m c main_arg3) (a m c main_arg6) (a m c main_arg7) (a m c main_arg8) (a m c main_arg9) (a m c main_arg10) (a m c main_arg11) (a m c main_arg12) (a m c main_arg13) (a m c main_arg14) (a m c main_arg15)
abbrev R4 (c : Dev nD) := val_main_v150 (F := Ideal) (a m c main_arg0) (a m c main_arg2) (a m c main_arg3) (a m c main_arg4) (a m c main_arg6) (a m c main_arg7) (a m c main_arg8) (a m c main_arg9) (a m c main_arg10) (a m c main_arg11) (a m c main_arg12) (a m c main_arg13) (a m c main_arg14) (a m c main_arg15) (a m c main_arg16) (a m c main_arg17) (a m c main_arg18)
abbrev R5 (c : Dev nD) := val_main_v195 (F := Ideal) (a m c main_arg0) (a m c main_arg2) (a m c main_arg3) (a m c main_arg4) (a m c main_arg5) (a m c main_arg6) (a m c main_arg7) (a m c main_arg8) (a m c main_arg9) (a m c main_arg10) (a m c main_arg11) (a m c main_arg12) (a m c main_arg13) (a m c main_arg14) (a m c main_arg15) (a m c main_arg16) (a m c main_arg17) (a m c main_arg18) (a m c main_arg19) (a m c main_arg20) (a m c main_arg21)
abbrev R6 (c : Dev nD) := val_main_v44 (F := Ideal) (a m c main_arg0) (a m c main_arg2) (a m c main_arg7) (a m c main_arg8) (a m c main_arg9)

theorem hz : (![0, 0] : Fin 2 → Nat) = fun _ => 0 := funext fun i => by fin_cases i <;> rfl

abbrev pt (t : Fin cfg0.N) : Fin 64 := ⟨t.val, by have ht : t.val < grid0.N := t.isLt; have hN : grid0.N = 64 := N_0; omega⟩

theorem stages (c : Dev nD) (t : Fin cfg0.N) :
    Chain.Outputs (pt t) (a m c main_arg0) (a m c main_arg1) (a m c main_arg2) (a m c main_arg3) (a m c main_arg4) (a m c main_arg5) (a m c main_arg6) (a m c main_arg7) (a m c main_arg8) (a m c main_arg9) (a m c main_arg10) (a m c main_arg11) (a m c main_arg12) (a m c main_arg13) (a m c main_arg14) (a m c main_arg15) (a m c main_arg16) (a m c main_arg17) (a m c main_arg18) (a m c main_arg19) (a m c main_arg20) (a m c main_arg21) (a m c main_arg22) (a m c main_arg23) (a m c main_arg24) (a m c main_arg25) (blocksAt m c t) :=
  Chain.outputs (pt t) (a m c main_arg0) (a m c main_arg1) (a m c main_arg2) (a m c main_arg3) (a m c main_arg4) (a m c main_arg5) (a m c main_arg6) (a m c main_arg7) (a m c main_arg8) (a m c main_arg9) (a m c main_arg10) (a m c main_arg11) (a m c main_arg12) (a m c main_arg13) (a m c main_arg14) (a m c main_arg15) (a m c main_arg16) (a m c main_arg17) (a m c main_arg18) (a m c main_arg19) (a m c main_arg20) (a m c main_arg21) (a m c main_arg22) (a m c main_arg23) (a m c main_arg24) (a m c main_arg25) (blocksAt m c t) (KInputs.inputs m c t)

theorem flushed32_eq (c : Dev nD) (t : Fin cfg0.N) :
    (dats m 0 c).flushed 32 t = ((cfg0.win 32).blk t).view.read (Elt Ideal) (R0 m c) := by
  show (cfg0.win 32).cut (grid0.coords t) ((dats m 0 c).after 32 t) = _
  rw [after0_32]; unfold out0_32; rw [View.canon_unit_zero hz]
  funext y
  obtain ⟨r, n, rfl⟩ : ∃ (r : Fin 1024) (n : Fin 40), y = ix2 r n := ⟨y 0, y 1, eq_ix2 y⟩
  rw [WindowReads.read32_at]
  exact (stages m c t).ssig r _ n rfl

theorem final32 (c : Dev nD) : (dats m 0 c).arrAt 32 cfg0.N = R0 m c :=
  (dats m 0 c).arrAt_eq_of_cover 32 _ (fun t _ => flushed32_eq m c t) (fun i => WindowReads.cover32 i)

theorem flushed33_eq (c : Dev nD) (t : Fin cfg0.N) :
    (dats m 0 c).flushed 33 t = ((cfg0.win 33).blk t).view.read (Elt Ideal) (R1 m c) := by
  show (cfg0.win 33).cut (grid0.coords t) ((dats m 0 c).after 33 t) = _
  rw [after0_33]; unfold out0_33; rw [View.canon_unit_zero hz]
  funext y
  obtain ⟨r, n, rfl⟩ : ∃ (r : Fin 1024) (n : Fin 256), y = ix2 r n := ⟨y 0, y 1, eq_ix2 y⟩
  rw [WindowReads.read33_at]
  exact (stages m c t).sexc r _ n rfl

theorem final33 (c : Dev nD) : (dats m 0 c).arrAt 33 cfg0.N = R1 m c :=
  (dats m 0 c).arrAt_eq_of_cover 33 _ (fun t _ => flushed33_eq m c t) (fun i => WindowReads.cover33 i)

theorem flushed34_eq (c : Dev nD) (t : Fin cfg0.N) :
    (dats m 0 c).flushed 34 t = ((cfg0.win 34).blk t).view.read (Elt Ideal) (R2 m c) := by
  show (cfg0.win 34).cut (grid0.coords t) ((dats m 0 c).after 34 t) = _
  rw [after0_34]; unfold out0_34; rw [View.canon_unit_zero hz]
  funext y
  obtain ⟨r, n, rfl⟩ : ∃ (r : Fin 1024) (n : Fin 256), y = ix2 r n := ⟨y 0, y 1, eq_ix2 y⟩
  rw [WindowReads.read34_at]
  exact (stages m c t).spp r _ n rfl

theorem final34 (c : Dev nD) : (dats m 0 c).arrAt 34 cfg0.N = R2 m c :=
  (dats m 0 c).arrAt_eq_of_cover 34 _ (fun t _ => flushed34_eq m c t) (fun i => WindowReads.cover34 i)

theorem flushed35_eq (c : Dev nD) (t : Fin cfg0.N) :
    (dats m 0 c).flushed 35 t = ((cfg0.win 35).blk t).view.read (Elt Ideal) (R3 m c) := by
  show (cfg0.win 35).cut (grid0.coords t) ((dats m 0 c).after 35 t) = _
  rw [after0_35]; unfold out0_35; rw [View.canon_unit_zero hz]
  funext y
  obtain ⟨r, n, rfl⟩ : ∃ (r : Fin 1024) (n : Fin 160), y = ix2 r n := ⟨y 0, y 1, eq_ix2 y⟩
  rw [WindowReads.read35_at]
  exact (stages m c t).sg1 r _ n rfl

theorem final35 (c : Dev nD) : (dats m 0 c).arrAt 35 cfg0.N = R3 m c :=
  (dats m 0 c).arrAt_eq_of_cover 35 _ (fun t _ => flushed35_eq m c t) (fun i => WindowReads.cover35 i)

theorem flushed36_eq (c : Dev nD) (t : Fin cfg0.N) :
    (dats m 0 c).flushed 36 t = ((cfg0.win 36).blk t).view.read (Elt Ideal) (R4 m c) := by
  show (cfg0.win 36).cut (grid0.coords t) ((dats m 0 c).after 36 t) = _
  rw [after0_36]; unfold out0_36; rw [View.canon_unit_zero hz]
  funext y
  obtain ⟨r, n, rfl⟩ : ∃ (r : Fin 1024) (n : Fin 128), y = ix2 r n := ⟨y 0, y 1, eq_ix2 y⟩
  rw [WindowReads.read36_at]
  exact (stages m c t).sg2 r _ n rfl

theorem final36 (c : Dev nD) : (dats m 0 c).arrAt 36 cfg0.N = R4 m c :=
  (dats m 0 c).arrAt_eq_of_cover 36 _ (fun t _ => flushed36_eq m c t) (fun i => WindowReads.cover36 i)

theorem flushed37_eq (c : Dev nD) (t : Fin cfg0.N) :
    (dats m 0 c).flushed 37 t = ((cfg0.win 37).blk t).view.read (Elt Ideal) (R5 m c) := by
  show (cfg0.win 37).cut (grid0.coords t) ((dats m 0 c).after 37 t) = _
  rw [after0_37]; unfold out0_37; rw [View.canon_unit_zero hz]
  funext y
  obtain ⟨r, n, rfl⟩ : ∃ (r : Fin 1024) (n : Fin 128), y = ix2 r n := ⟨y 0, y 1, eq_ix2 y⟩
  rw [WindowReads.read37_at]
  exact (stages m c t).sg3 r _ n rfl

theorem final37 (c : Dev nD) : (dats m 0 c).arrAt 37 cfg0.N = R5 m c :=
  (dats m 0 c).arrAt_eq_of_cover 37 _ (fun t _ => flushed37_eq m c t) (fun i => WindowReads.cover37 i)

theorem flushed38_eq (c : Dev nD) (t : Fin cfg0.N) :
    (dats m 0 c).flushed 38 t = ((cfg0.win 38).blk t).view.read (Elt Ideal) (R6 m c) := by
  show (cfg0.win 38).cut (grid0.coords t) ((dats m 0 c).after 38 t) = _
  rw [after0_38]; unfold out0_38; rw [View.canon_unit_zero hz]
  funext y
  obtain ⟨r, n, rfl⟩ : ∃ (r : Fin 1024) (n : Fin 164), y = ix2 r n := ⟨y 0, y 1, eq_ix2 y⟩
  rw [WindowReads.read38_at]
  exact (stages m c t).stmp r _ n rfl

theorem final38 (c : Dev nD) : (dats m 0 c).arrAt 38 cfg0.N = R6 m c :=
  (dats m 0 c).arrAt_eq_of_cover 38 _ (fun t _ => flushed38_eq m c t) (fun i => WindowReads.cover38 i)

theorem run : θ_run defs (onTc (τ := τ) (main (F := Ideal))) ⟨m, fun _ => 0, ρ⟩ fun r => ∀ c : Dev nD,
      r.2.mem ((c.tc : Thread nD τ).loc main_v64_0) = R0 m c
      ∧ r.2.mem ((c.tc : Thread nD τ).loc main_v64_1) = R1 m c
      ∧ r.2.mem ((c.tc : Thread nD τ).loc main_v64_2) = R2 m c
      ∧ r.2.mem ((c.tc : Thread nD τ).loc main_v64_3) = R3 m c
      ∧ r.2.mem ((c.tc : Thread nD τ).loc main_v64_4) = R4 m c
      ∧ r.2.mem ((c.tc : Thread nD τ).loc main_v64_5) = R5 m c
      ∧ r.2.mem ((c.tc : Thread nD τ).loc main_v64_6) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun r h c => ⟨(post32 m r h c).trans (final32 m c), (post33 m r h c).trans (final33 m c),
      (post34 m r h c).trans (final34 m c), (post35 m r h c).trans (final35 m c), (post36 m r h c).trans (final36 m c),
      (post37 m r h c).trans (final37 m c), (post38 m r h c).trans (final38 m c),
      kept_main_arg0 m r h c, kept_main_arg1 m r h c, kept_main_arg2 m r h c, kept_main_arg3 m r h c, kept_main_arg4 m r h c,
      kept_main_arg5 m r h c, kept_main_arg6 m r h c, kept_main_arg7 m r h c, kept_main_arg8 m r h c, kept_main_arg9 m r h c,
      kept_main_arg10 m r h c, kept_main_arg11 m r h c, kept_main_arg12 m r h c, kept_main_arg13 m r h c, kept_main_arg14 m r h c,
      kept_main_arg15 m r h c, kept_main_arg16 m r h c, kept_main_arg17 m r h c, kept_main_arg18 m r h c, kept_main_arg19 m r h c,
      kept_main_arg20 m r h c, kept_main_arg21 m r h c, kept_main_arg22 m r h c, kept_main_arg23 m r h c, kept_main_arg24 m r h c,
      kept_main_arg25 m r h c⟩)
    (run_main m ρ)

end Cert.KernelIdeal.KV

end
-- ==== Proof.RefRunInv.lean ====
import proofs.«401269_j23398981829052_3_alg».proof.Proof.RefRead
import Idealize.ShloMosaic.Lib.StableHlo.Run

noncomputable section

namespace Cert.ReferenceIdeal.HandRun

open Cert.ReferenceIdeal Cert.ReferenceIdeal.Gen Cert.ReferenceIdeal.Ops Cert.ReferenceIdeal.Read Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem writes_sub_of_mem {L : List (Ref sig .tc)} {op : HloOp τ sig (Elt F)} {y : Ref sig .tc}
    (hw : op.writes = {Proc.devRef .tc y}) (hy : y ∈ L) :
    op.writes ⊆ (L.map (Proc.devRef (τ := τ) .tc)).toFinset := by
  rw [hw, Finset.singleton_subset_iff, List.mem_toFinset]
  exact List.mem_map.mpr ⟨y, hy, rfl⟩

/-- The contents of the 26 argument arrays. -/
structure Args (F : FTy → Type) where
  x0 : (⟨S65536x80, .f32⟩ : BufTy).Contents (Elt F)
  x1 : (⟨S65536x256, .f32⟩ : BufTy).Contents (Elt F)
  x2 : (⟨S65536x256, .f32⟩ : BufTy).Contents (Elt F)
  x3 : (⟨S65536x160, .f32⟩ : BufTy).Contents (Elt F)
  x4 : (⟨S65536x128, .f32⟩ : BufTy).Contents (Elt F)
  x5 : (⟨S65536x128, .f32⟩ : BufTy).Contents (Elt F)
  x6 : (⟨S65536x164, .f32⟩ : BufTy).Contents (Elt F)
  x7 : (⟨S65536, .i32⟩ : BufTy).Contents (Elt F)
  x8 : (⟨S1x80, .f32⟩ : BufTy).Contents (Elt F)
  x9 : (⟨S1, .f32⟩ : BufTy).Contents (Elt F)
  x10 : (⟨S192x328, .f32⟩ : BufTy).Contents (Elt F)
  x11 : (⟨S192x192, .f32⟩ : BufTy).Contents (Elt F)
  x12 : (⟨S4x192, .f32⟩ : BufTy).Contents (Elt F)
  x13 : (⟨S4, .f32⟩ : BufTy).Contents (Elt F)
  x14 : (⟨S480x272, .f32⟩ : BufTy).Contents (Elt F)
  x15 : (⟨S480x160, .f32⟩ : BufTy).Contents (Elt F)
  x16 : (⟨S160x160, .f32⟩ : BufTy).Contents (Elt F)
  x17 : (⟨S384x240, .f32⟩ : BufTy).Contents (Elt F)
  x18 : (⟨S384x128, .f32⟩ : BufTy).Contents (Elt F)
  x19 : (⟨S128x128, .f32⟩ : BufTy).Contents (Elt F)
  x20 : (⟨S384x208, .f32⟩ : BufTy).Contents (Elt F)
  x21 : (⟨S384x128, .f32⟩ : BufTy).Contents (Elt F)
  x22 : (⟨S128x128, .f32⟩ : BufTy).Contents (Elt F)
  x23 : (⟨S128x688, .f32⟩ : BufTy).Contents (Elt F)
  x24 : (⟨S128x128, .f32⟩ : BufTy).Contents (Elt F)
  x25 : (⟨S40x128, .f32⟩ : BufTy).Contents (Elt F)

/-- Every argument array, as `W` holds it, is `a`'s. -/
structure ArgsAt (W : Valuation τ sig (Elt F)) (a : Args F) : Prop where
  arg0 : W (Proc.devRef .tc main_arg0) = a.x0
  arg1 : W (Proc.devRef .tc main_arg1) = a.x1
  arg2 : W (Proc.devRef .tc main_arg2) = a.x2
  arg3 : W (Proc.devRef .tc main_arg3) = a.x3
  arg4 : W (Proc.devRef .tc main_arg4) = a.x4
  arg5 : W (Proc.devRef .tc main_arg5) = a.x5
  arg6 : W (Proc.devRef .tc main_arg6) = a.x6
  arg7 : W (Proc.devRef .tc main_arg7) = a.x7
  arg8 : W (Proc.devRef .tc main_arg8) = a.x8
  arg9 : W (Proc.devRef .tc main_arg9) = a.x9
  arg10 : W (Proc.devRef .tc main_arg10) = a.x10
  arg11 : W (Proc.devRef .tc main_arg11) = a.x11
  arg12 : W (Proc.devRef .tc main_arg12) = a.x12
  arg13 : W (Proc.devRef .tc main_arg13) = a.x13
  arg14 : W (Proc.devRef .tc main_arg14) = a.x14
  arg15 : W (Proc.devRef .tc main_arg15) = a.x15
  arg16 : W (Proc.devRef .tc main_arg16) = a.x16
  arg17 : W (Proc.devRef .tc main_arg17) = a.x17
  arg18 : W (Proc.devRef .tc main_arg18) = a.x18
  arg19 : W (Proc.devRef .tc main_arg19) = a.x19
  arg20 : W (Proc.devRef .tc main_arg20) = a.x20
  arg21 : W (Proc.devRef .tc main_arg21) = a.x21
  arg22 : W (Proc.devRef .tc main_arg22) = a.x22
  arg23 : W (Proc.devRef .tc main_arg23) = a.x23
  arg24 : W (Proc.devRef .tc main_arg24) = a.x24
  arg25 : W (Proc.devRef .tc main_arg25) = a.x25

/-- Operations that write no argument array leave every argument array as it was. -/
theorem ArgsAt.keep {W : Valuation τ sig (Elt F)} {a : Args F} (h : ArgsAt W a) {l : List (HloOp τ sig (Elt F))}
    {wr : List (Ref sig .tc)} (hw : l.Forall fun op => op.writes ⊆ (wr.map (Proc.devRef (τ := τ) .tc)).toFinset)
    (hd : wr.Forall fun y => 26 ≤ y.idx.val := by and_intros <;> decide) : ArgsAt (after l W) a :=
  have k {r : Ref sig .tc} (hr : r.idx.val < 26) {v : (Proc.devRef (τ := τ) .tc r).ty.Contents (Elt F)}
      (e : W (Proc.devRef .tc r) = v) : after l W (Proc.devRef .tc r) = v :=
    (after_of_writes_sub l W hw fun hm => absurd (List.forall_iff_forall_mem.mp hd r hm) (Nat.not_le.2 hr)).trans e
  ⟨k (by decide) h.arg0,
   k (by decide) h.arg1,
   k (by decide) h.arg2,
   k (by decide) h.arg3,
   k (by decide) h.arg4,
   k (by decide) h.arg5,
   k (by decide) h.arg6,
   k (by decide) h.arg7,
   k (by decide) h.arg8,
   k (by decide) h.arg9,
   k (by decide) h.arg10,
   k (by decide) h.arg11,
   k (by decide) h.arg12,
   k (by decide) h.arg13,
   k (by decide) h.arg14,
   k (by decide) h.arg15,
   k (by decide) h.arg16,
   k (by decide) h.arg17,
   k (by decide) h.arg18,
   k (by decide) h.arg19,
   k (by decide) h.arg20,
   k (by decide) h.arg21,
   k (by decide) h.arg22,
   k (by decide) h.arg23,
   k (by decide) h.arg24,
   k (by decide) h.arg25⟩

/-! The stage of each buffer that a later stretch reads, as a function of the argument arrays. -/

abbrev st_main_v8 (a : Args F) := val_main_v8 (F := F) a.x0 a.x8 a.x9
abbrev st_main_v14 (a : Args F) := val_main_v14 (F := F) a.x0 a.x8 a.x9
abbrev st_main_v15 (a : Args F) := val_main_v15 (F := F) a.x0 a.x8 a.x9
abbrev st_main_v23 (a : Args F) := val_main_v23 (F := F) a.x7
abbrev st_main_v32 (a : Args F) := val_main_v32 (F := F) a.x7
abbrev st_main_v33 (a : Args F) := val_main_v33 (F := F) a.x7
abbrev st_main_call2_v5 (a : Args F) := val_main_call2_v5 (F := F) a.x7
abbrev st_main_call2_v12 (a : Args F) := val_main_call2_v12 (F := F) a.x7
abbrev st_main_v38 (a : Args F) := val_main_v38 (F := F) a.x0 a.x2 a.x7 a.x8 a.x9
abbrev st_main_v43 (a : Args F) := val_main_v43 (F := F) a.x0 a.x2 a.x8 a.x9
abbrev st_main_v44 (a : Args F) := val_main_v44 (F := F) a.x0 a.x2 a.x7 a.x8 a.x9
abbrev st_main_v45 (a : Args F) := val_main_v45 (F := F) a.x0 a.x2 a.x7 a.x8 a.x9
abbrev st_main_v49 (a : Args F) := val_main_v49 (F := F) a.x0 a.x2 a.x6 a.x7 a.x8 a.x9 a.x10
abbrev st_main_v53 (a : Args F) := val_main_v53 (F := F) a.x0 a.x2 a.x6 a.x7 a.x8 a.x9 a.x10 a.x11
abbrev st_main_v58 (a : Args F) := val_main_v58 (F := F) a.x0 a.x2 a.x6 a.x7 a.x8 a.x9 a.x10 a.x11
abbrev st_main_v60 (a : Args F) := val_main_v60 (F := F) a.x0 a.x2 a.x6 a.x7 a.x8 a.x9 a.x10 a.x11 a.x12
abbrev st_main_v67 (a : Args F) := val_main_v67 (F := F) a.x0 a.x2 a.x6 a.x7 a.x8 a.x9 a.x10 a.x11 a.x12 a.x13
abbrev st_main_v69 (a : Args F) := val_main_v69 (F := F) a.x0 a.x2 a.x6 a.x7 a.x8 a.x9 a.x10 a.x11 a.x12 a.x13
abbrev st_main_v72 (a : Args F) := val_main_v72 (F := F) a.x0 a.x2 a.x6 a.x7 a.x8 a.x9 a.x10 a.x11 a.x12 a.x13
abbrev st_main_v73 (a : Args F) := val_main_v73 (F := F) a.x0 a.x2 a.x6 a.x7 a.x8 a.x9 a.x10 a.x11 a.x12 a.x13
abbrev st_main_v78 (a : Args F) := val_main_v78 (F := F) a.x0 a.x2 a.x6 a.x7 a.x8 a.x9 a.x10 a.x11 a.x12 a.x13 a.x14
abbrev st_main_v79 (a : Args F) := val_main_v79 (F := F) a.x0 a.x2 a.x6 a.x7 a.x8 a.x9 a.x10 a.x11 a.x12 a.x13 a.x14
abbrev st_main_v80 (a : Args F) := val_main_v80 (F := F) a.x0 a.x2 a.x6 a.x7 a.x8 a.x9 a.x10 a.x11 a.x12 a.x13 a.x14
abbrev st_main_v81 (a : Args F) := val_main_v81 (F := F) a.x3 a.x15
abbrev st_main_v82 (a : Args F) := val_main_v82 (F := F) a.x3 a.x15
abbrev st_main_v83 (a : Args F) := val_main_v83 (F := F) a.x3 a.x15
abbrev st_main_v90 (a : Args F) := val_main_v90 (F := F) a.x0 a.x2 a.x3 a.x6 a.x7 a.x8 a.x9 a.x10 a.x11 a.x12 a.x13 a.x14 a.x15
abbrev st_main_v97 (a : Args F) := val_main_v97 (F := F) a.x0 a.x2 a.x3 a.x6 a.x7 a.x8 a.x9 a.x10 a.x11 a.x12 a.x13 a.x14 a.x15
abbrev st_main_v105 (a : Args F) := val_main_v105 (F := F) a.x0 a.x2 a.x3 a.x6 a.x7 a.x8 a.x9 a.x10 a.x11 a.x12 a.x13 a.x14 a.x15
abbrev st_main_v114 (a : Args F) := val_main_v114 (F := F) a.x0 a.x2 a.x3 a.x6 a.x7 a.x8 a.x9 a.x10 a.x11 a.x12 a.x13 a.x14 a.x15 a.x16
abbrev st_main_v117 (a : Args F) := val_main_v117 (F := F) a.x0 a.x2 a.x6 a.x7 a.x8 a.x9 a.x10 a.x11 a.x12 a.x13
abbrev st_main_v118 (a : Args F) := val_main_v118 (F := F) a.x0 a.x2 a.x3 a.x6 a.x7 a.x8 a.x9 a.x10 a.x11 a.x12 a.x13 a.x14 a.x15 a.x16
abbrev st_main_v123 (a : Args F) := val_main_v123 (F := F) a.x0 a.x2 a.x3 a.x6 a.x7 a.x8 a.x9 a.x10 a.x11 a.x12 a.x13 a.x14 a.x15 a.x16 a.x17
abbrev st_main_v124 (a : Args F) := val_main_v124 (F := F) a.x0 a.x2 a.x3 a.x6 a.x7 a.x8 a.x9 a.x10 a.x11 a.x12 a.x13 a.x14 a.x15 a.x16 a.x17
abbrev st_main_v125 (a : Args F) := val_main_v125 (F := F) a.x0 a.x2 a.x3 a.x6 a.x7 a.x8 a.x9 a.x10 a.x11 a.x12 a.x13 a.x14 a.x15 a.x16 a.x17
abbrev st_main_v126 (a : Args F) := val_main_v126 (F := F) a.x4 a.x18
abbrev st_main_v127 (a : Args F) := val_main_v127 (F := F) a.x4 a.x18
abbrev st_main_v128 (a : Args F) := val_main_v128 (F := F) a.x4 a.x18
abbrev st_main_v135 (a : Args F) := val_main_v135 (F := F) a.x0 a.x2 a.x3 a.x4 a.x6 a.x7 a.x8 a.x9 a.x10 a.x11 a.x12 a.x13 a.x14 a.x15 a.x16 a.x17 a.x18
abbrev st_main_v142 (a : Args F) := val_main_v142 (F := F) a.x0 a.x2 a.x3 a.x4 a.x6 a.x7 a.x8 a.x9 a.x10 a.x11 a.x12 a.x13 a.x14 a.x15 a.x16 a.x17 a.x18
abbrev st_main_v150 (a : Args F) := val_main_v150 (F := F) a.x0 a.x2 a.x3 a.x4 a.x6 a.x7 a.x8 a.x9 a.x10 a.x11 a.x12 a.x13 a.x14 a.x15 a.x16 a.x17 a.x18
abbrev st_main_v159 (a : Args F) := val_main_v159 (F := F) a.x0 a.x2 a.x3 a.x4 a.x6 a.x7 a.x8 a.x9 a.x10 a.x11 a.x12 a.x13 a.x14 a.x15 a.x16 a.x17 a.x18 a.x19
abbrev st_main_v162 (a : Args F) := val_main_v162 (F := F) a.x0 a.x2 a.x6 a.x7 a.x8 a.x9 a.x10 a.x11 a.x12 a.x13
abbrev st_main_v163 (a : Args F) := val_main_v163 (F := F) a.x0 a.x2 a.x3 a.x4 a.x6 a.x7 a.x8 a.x9 a.x10 a.x11 a.x12 a.x13 a.x14 a.x15 a.x16 a.x17 a.x18 a.x19
abbrev st_main_v168 (a : Args F) := val_main_v168 (F := F) a.x0 a.x2 a.x3 a.x4 a.x6 a.x7 a.x8 a.x9 a.x10 a.x11 a.x12 a.x13 a.x14 a.x15 a.x16 a.x17 a.x18 a.x19 a.x20
abbrev st_main_v169 (a : Args F) := val_main_v169 (F := F) a.x0 a.x2 a.x3 a.x4 a.x6 a.x7 a.x8 a.x9 a.x10 a.x11 a.x12 a.x13 a.x14 a.x15 a.x16 a.x17 a.x18 a.x19 a.x20
abbrev st_main_v170 (a : Args F) := val_main_v170 (F := F) a.x0 a.x2 a.x3 a.x4 a.x6 a.x7 a.x8 a.x9 a.x10 a.x11 a.x12 a.x13 a.x14 a.x15 a.x16 a.x17 a.x18 a.x19 a.x20
abbrev st_main_v171 (a : Args F) := val_main_v171 (F := F) a.x5 a.x21
abbrev st_main_v172 (a : Args F) := val_main_v172 (F := F) a.x5 a.x21
abbrev st_main_v173 (a : Args F) := val_main_v173 (F := F) a.x5 a.x21
abbrev st_main_v180 (a : Args F) := val_main_v180 (F := F) a.x0 a.x2 a.x3 a.x4 a.x5 a.x6 a.x7 a.x8 a.x9 a.x10 a.x11 a.x12 a.x13 a.x14 a.x15 a.x16 a.x17 a.x18 a.x19 a.x20 a.x21
abbrev st_main_v187 (a : Args F) := val_main_v187 (F := F) a.x0 a.x2 a.x3 a.x4 a.x5 a.x6 a.x7 a.x8 a.x9 a.x10 a.x11 a.x12 a.x13 a.x14 a.x15 a.x16 a.x17 a.x18 a.x19 a.x20 a.x21
abbrev st_main_v195 (a : Args F) := val_main_v195 (F := F) a.x0 a.x2 a.x3 a.x4 a.x5 a.x6 a.x7 a.x8 a.x9 a.x10 a.x11 a.x12 a.x13 a.x14 a.x15 a.x16 a.x17 a.x18 a.x19 a.x20 a.x21
abbrev st_main_v204 (a : Args F) := val_main_v204 (F := F) a.x0 a.x2 a.x3 a.x4 a.x5 a.x6 a.x7 a.x8 a.x9 a.x10 a.x11 a.x12 a.x13 a.x14 a.x15 a.x16 a.x17 a.x18 a.x19 a.x20 a.x21 a.x22
abbrev st_main_v207 (a : Args F) := val_main_v207 (F := F) a.x0 a.x2 a.x6 a.x7 a.x8 a.x9 a.x10 a.x11 a.x12 a.x13
abbrev st_main_v208 (a : Args F) := val_main_v208 (F := F) a.x0 a.x2 a.x3 a.x4 a.x5 a.x6 a.x7 a.x8 a.x9 a.x10 a.x11 a.x12 a.x13 a.x14 a.x15 a.x16 a.x17 a.x18 a.x19 a.x20 a.x21 a.x22
abbrev st_main_v211 (a : Args F) := val_main_v211 (F := F) a.x0 a.x2 a.x3 a.x4 a.x5 a.x6 a.x7 a.x8 a.x9 a.x10 a.x11 a.x12 a.x13 a.x14 a.x15 a.x16 a.x17 a.x18 a.x19 a.x20 a.x21 a.x22 a.x23
abbrev st_main_v215 (a : Args F) := val_main_v215 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24
abbrev st_main_v222 (a : Args F) := val_main_v222 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25
abbrev st_main_v225 (a : Args F) := val_main_v225 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25
abbrev st_main_v227 (a : Args F) := val_main_v227 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25
abbrev st_main_v229 (a : Args F) := val_main_v229 (F := F) a.x0 a.x1 a.x2 a.x7 a.x8 a.x9

def Inv_init (W : Valuation τ sig (Elt F)) (a : Args F) : Prop :=
  ArgsAt W a

def Inv_00 (W : Valuation τ sig (Elt F)) (a : Args F) : Prop :=
  ArgsAt W a
  ∧ W (Proc.devRef .tc main_v8) = st_main_v8 a

def Inv_01 (W : Valuation τ sig (Elt F)) (a : Args F) : Prop :=
  ArgsAt W a
  ∧ W (Proc.devRef .tc main_v14) = st_main_v14 a

def Inv_02 (W : Valuation τ sig (Elt F)) (a : Args F) : Prop :=
  ArgsAt W a
  ∧ W (Proc.devRef .tc main_v15) = st_main_v15 a

def Inv_03 (W : Valuation τ sig (Elt F)) (a : Args F) : Prop :=
  ArgsAt W a
  ∧ W (Proc.devRef .tc main_v15) = st_main_v15 a
  ∧ W (Proc.devRef .tc main_v23) = st_main_v23 a

def Inv_04 (W : Valuation τ sig (Elt F)) (a : Args F) : Prop :=
  ArgsAt W a
  ∧ W (Proc.devRef .tc main_v15) = st_main_v15 a
  ∧ W (Proc.devRef .tc main_v32) = st_main_v32 a

def Inv_05 (W : Valuation τ sig (Elt F)) (a : Args F) : Prop :=
  ArgsAt W a
  ∧ W (Proc.devRef .tc main_v15) = st_main_v15 a
  ∧ W (Proc.devRef .tc main_v33) = st_main_v33 a

def Inv_06 (W : Valuation τ sig (Elt F)) (a : Args F) : Prop :=
  ArgsAt W a
  ∧ W (Proc.devRef .tc main_v15) = st_main_v15 a
  ∧ W (Proc.devRef .tc main_call2_v5) = st_main_call2_v5 a

def Inv_07 (W : Valuation τ sig (Elt F)) (a : Args F) : Prop :=
  ArgsAt W a
  ∧ W (Proc.devRef .tc main_v15) = st_main_v15 a
  ∧ W (Proc.devRef .tc main_call2_v5) = st_main_call2_v5 a
  ∧ W (Proc.devRef .tc main_call2_v12) = st_main_call2_v12 a

def Inv_08 (W : Valuation τ sig (Elt F)) (a : Args F) : Prop :=
  ArgsAt W a
  ∧ W (Proc.devRef .tc main_v15) = st_main_v15 a
  ∧ W (Proc.devRef .tc main_v38) = st_main_v38 a

def Inv_09 (W : Valuation τ sig (Elt F)) (a : Args F) : Prop :=
  ArgsAt W a
  ∧ W (Proc.devRef .tc main_v15) = st_main_v15 a
  ∧ W (Proc.devRef .tc main_v38) = st_main_v38 a
  ∧ W (Proc.devRef .tc main_v43) = st_main_v43 a

def Inv_10 (W : Valuation τ sig (Elt F)) (a : Args F) : Prop :=
  ArgsAt W a
  ∧ W (Proc.devRef .tc main_v15) = st_main_v15 a
  ∧ W (Proc.devRef .tc main_v38) = st_main_v38 a
  ∧ W (Proc.devRef .tc main_v43) = st_main_v43 a
  ∧ W (Proc.devRef .tc main_v44) = st_main_v44 a

def Inv_11 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v49) = st_main_v49 a
  ∧ W (Proc.devRef .tc main_v53) = st_main_v53 a

def Inv_12 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v60) = st_main_v60 a

def Inv_13 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v67) = st_main_v67 a

def Inv_14 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v72) = st_main_v72 a

def Inv_15 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v73) = st_main_v73 a

def Inv_16 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v78) = st_main_v78 a
  ∧ W (Proc.devRef .tc main_v79) = st_main_v79 a
  ∧ W (Proc.devRef .tc main_v80) = st_main_v80 a
  ∧ W (Proc.devRef .tc main_v81) = st_main_v81 a
  ∧ W (Proc.devRef .tc main_v82) = st_main_v82 a
  ∧ W (Proc.devRef .tc main_v83) = st_main_v83 a

def Inv_17 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v79) = st_main_v79 a
  ∧ W (Proc.devRef .tc main_v80) = st_main_v80 a
  ∧ W (Proc.devRef .tc main_v82) = st_main_v82 a
  ∧ W (Proc.devRef .tc main_v83) = st_main_v83 a
  ∧ W (Proc.devRef .tc main_v90) = st_main_v90 a

def Inv_18 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v80) = st_main_v80 a
  ∧ W (Proc.devRef .tc main_v83) = st_main_v83 a
  ∧ W (Proc.devRef .tc main_v90) = st_main_v90 a
  ∧ W (Proc.devRef .tc main_v97) = st_main_v97 a

def Inv_19 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a

def Inv_20 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a

def Inv_21 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v117) = st_main_v117 a

def Inv_22 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v118) = st_main_v118 a

def Inv_23 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v123) = st_main_v123 a
  ∧ W (Proc.devRef .tc main_v124) = st_main_v124 a
  ∧ W (Proc.devRef .tc main_v125) = st_main_v125 a
  ∧ W (Proc.devRef .tc main_v126) = st_main_v126 a
  ∧ W (Proc.devRef .tc main_v127) = st_main_v127 a
  ∧ W (Proc.devRef .tc main_v128) = st_main_v128 a

def Inv_24 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v124) = st_main_v124 a
  ∧ W (Proc.devRef .tc main_v125) = st_main_v125 a
  ∧ W (Proc.devRef .tc main_v127) = st_main_v127 a
  ∧ W (Proc.devRef .tc main_v128) = st_main_v128 a
  ∧ W (Proc.devRef .tc main_v135) = st_main_v135 a

def Inv_25 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v125) = st_main_v125 a
  ∧ W (Proc.devRef .tc main_v128) = st_main_v128 a
  ∧ W (Proc.devRef .tc main_v135) = st_main_v135 a
  ∧ W (Proc.devRef .tc main_v142) = st_main_v142 a

def Inv_26 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v150) = st_main_v150 a

def Inv_27 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v150) = st_main_v150 a
  ∧ W (Proc.devRef .tc main_v159) = st_main_v159 a

def Inv_28 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v150) = st_main_v150 a
  ∧ W (Proc.devRef .tc main_v159) = st_main_v159 a
  ∧ W (Proc.devRef .tc main_v162) = st_main_v162 a

def Inv_29 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v150) = st_main_v150 a
  ∧ W (Proc.devRef .tc main_v159) = st_main_v159 a
  ∧ W (Proc.devRef .tc main_v163) = st_main_v163 a

def Inv_30 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v150) = st_main_v150 a
  ∧ W (Proc.devRef .tc main_v159) = st_main_v159 a
  ∧ W (Proc.devRef .tc main_v168) = st_main_v168 a
  ∧ W (Proc.devRef .tc main_v169) = st_main_v169 a
  ∧ W (Proc.devRef .tc main_v170) = st_main_v170 a
  ∧ W (Proc.devRef .tc main_v171) = st_main_v171 a
  ∧ W (Proc.devRef .tc main_v172) = st_main_v172 a
  ∧ W (Proc.devRef .tc main_v173) = st_main_v173 a

def Inv_31 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v150) = st_main_v150 a
  ∧ W (Proc.devRef .tc main_v159) = st_main_v159 a
  ∧ W (Proc.devRef .tc main_v169) = st_main_v169 a
  ∧ W (Proc.devRef .tc main_v170) = st_main_v170 a
  ∧ W (Proc.devRef .tc main_v172) = st_main_v172 a
  ∧ W (Proc.devRef .tc main_v173) = st_main_v173 a
  ∧ W (Proc.devRef .tc main_v180) = st_main_v180 a

def Inv_32 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v150) = st_main_v150 a
  ∧ W (Proc.devRef .tc main_v159) = st_main_v159 a
  ∧ W (Proc.devRef .tc main_v170) = st_main_v170 a
  ∧ W (Proc.devRef .tc main_v173) = st_main_v173 a
  ∧ W (Proc.devRef .tc main_v180) = st_main_v180 a
  ∧ W (Proc.devRef .tc main_v187) = st_main_v187 a

def Inv_33 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v150) = st_main_v150 a
  ∧ W (Proc.devRef .tc main_v159) = st_main_v159 a
  ∧ W (Proc.devRef .tc main_v195) = st_main_v195 a

def Inv_34 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v69) = st_main_v69 a
  ∧ W (Proc.devRef .tc main_v105) = st_main_v105 a
  ∧ W (Proc.devRef .tc main_v114) = st_main_v114 a
  ∧ W (Proc.devRef .tc main_v150) = st_main_v150 a
  ∧ W (Proc.devRef .tc main_v159) = st_main_v159 a
  ∧ W (Proc.devRef .tc main_v195) = st_main_v195 a
  ∧ W (Proc.devRef .tc main_v204) = st_main_v204 a

def Inv_35 (W : Valuation τ sig (Elt F)) (a : Args F) : Prop :=
  ArgsAt W a
  ∧ W (Proc.devRef .tc main_v15) = st_main_v15 a
  ∧ W (Proc.devRef .tc main_v43) = st_main_v43 a
  ∧ W (Proc.devRef .tc main_v44) = st_main_v44 a
  ∧ W (Proc.devRef .tc main_v45) = st_main_v45 a
  ∧ W (Proc.devRef .tc main_v58) = st_main_v58 a
  ∧ W (Proc.devRef .tc main_v105) = st_main_v105 a
  ∧ W (Proc.devRef .tc main_v114) = st_main_v114 a
  ∧ W (Proc.devRef .tc main_v150) = st_main_v150 a
  ∧ W (Proc.devRef .tc main_v159) = st_main_v159 a
  ∧ W (Proc.devRef .tc main_v195) = st_main_v195 a
  ∧ W (Proc.devRef .tc main_v204) = st_main_v204 a
  ∧ W (Proc.devRef .tc main_v207) = st_main_v207 a

def Inv_36 (W : Valuation τ sig (Elt F)) (a : Args F) : Prop :=
  ArgsAt W a
  ∧ W (Proc.devRef .tc main_v15) = st_main_v15 a
  ∧ W (Proc.devRef .tc main_v44) = st_main_v44 a
  ∧ W (Proc.devRef .tc main_v45) = st_main_v45 a
  ∧ W (Proc.devRef .tc main_v105) = st_main_v105 a
  ∧ W (Proc.devRef .tc main_v150) = st_main_v150 a
  ∧ W (Proc.devRef .tc main_v195) = st_main_v195 a
  ∧ W (Proc.devRef .tc main_v208) = st_main_v208 a

def Inv_37 (W : Valuation τ sig (Elt F)) (a : Args F) : Prop :=
  ArgsAt W a
  ∧ W (Proc.devRef .tc main_v15) = st_main_v15 a
  ∧ W (Proc.devRef .tc main_v44) = st_main_v44 a
  ∧ W (Proc.devRef .tc main_v45) = st_main_v45 a
  ∧ W (Proc.devRef .tc main_v105) = st_main_v105 a
  ∧ W (Proc.devRef .tc main_v150) = st_main_v150 a
  ∧ W (Proc.devRef .tc main_v195) = st_main_v195 a
  ∧ W (Proc.devRef .tc main_v211) = st_main_v211 a
  ∧ W (Proc.devRef .tc main_v215) = st_main_v215 a

def Inv_38 (W : Valuation τ sig (Elt F)) (a : Args F) : Prop :=
  ArgsAt W a
  ∧ W (Proc.devRef .tc main_v15) = st_main_v15 a
  ∧ W (Proc.devRef .tc main_v44) = st_main_v44 a
  ∧ W (Proc.devRef .tc main_v45) = st_main_v45 a
  ∧ W (Proc.devRef .tc main_v105) = st_main_v105 a
  ∧ W (Proc.devRef .tc main_v150) = st_main_v150 a
  ∧ W (Proc.devRef .tc main_v195) = st_main_v195 a
  ∧ W (Proc.devRef .tc main_v222) = st_main_v222 a

def Inv_39 (W : Valuation τ sig (Elt F)) (a : Args F) : Prop :=
  ArgsAt W a
  ∧ W (Proc.devRef .tc main_v44) = st_main_v44 a
  ∧ W (Proc.devRef .tc main_v105) = st_main_v105 a
  ∧ W (Proc.devRef .tc main_v150) = st_main_v150 a
  ∧ W (Proc.devRef .tc main_v195) = st_main_v195 a
  ∧ W (Proc.devRef .tc main_v225) = st_main_v225 a
  ∧ W (Proc.devRef .tc main_v227) = st_main_v227 a
  ∧ W (Proc.devRef .tc main_v229) = st_main_v229 a

end Cert.ReferenceIdeal.HandRun

end
-- ==== Proof.RefRunA.lean ====
import proofs.«401269_j23398981829052_3_alg».proof.Proof.RefRunInv

noncomputable section

namespace Cert.ReferenceIdeal.HandRun

open Cert.ReferenceIdeal Cert.ReferenceIdeal.Gen Cert.ReferenceIdeal.Ops Cert.ReferenceIdeal.Read Idealize.ShloMosaic Idealize.ShloMosaic.TcCoe Idealize.SL.Sem Idealize.ShloMosaic.StableHlo

variable {F : FTy → Type} [FloatOps F]

abbrev ops_00 : List (HloOp τ sig (Elt F)) :=
  [ unary main_arg8 main_v0 ((transpose S80x1 [1, 0] · transposes_S1x80_S80x1_1_0) : (⟨S1x80, .f32⟩ : BufTy).Contents (Elt F) → (⟨S80x1, .f32⟩ : BufTy).Contents (Elt F)),
    binary main_arg0 main_v0 main_v1 ((fun l r => Host.dotGeneral dot_S65536x80_S80x1_S65536x1_1_0_0_1_n_n none l r) : (⟨S65536x80, .f32⟩ : BufTy).Contents (Elt F) → (⟨S80x1, .f32⟩ : BufTy).Contents (Elt F) → (⟨S65536x1, .f32⟩ : BufTy).Contents (Elt F)),
    unary main_arg9 main_v2 (broadcastInDim S1x1 ![1] bcast_S1_S1x1_1 : (⟨S1, .f32⟩ : BufTy).Contents (Elt F) → (⟨S1x1, .f32⟩ : BufTy).Contents (Elt F)),
    unary main_v2 main_v3 (broadcastInDim S65536x1 ![0, 1] bcast_S1x1_S65536x1_0_1 : (⟨S1x1, .f32⟩ : BufTy).Contents (Elt F) → (⟨S65536x1, .f32⟩ : BufTy).Contents (Elt F)),
    binary main_v1 main_v3 main_v4 (addf : (⟨S65536x1, .f32⟩ : BufTy).Contents (Elt F) → (⟨S65536x1, .f32⟩ : BufTy).Contents (Elt F) → (⟨S65536x1, .f32⟩ : BufTy).Contents (Elt F)),
    unary main_v4 main_v5 (Host.negf : (⟨S65536x1, .f32⟩ : BufTy).Contents (Elt F) → (⟨S65536x1, .f32⟩ : BufTy).Contents (Elt F)),
    unary main_v5 main_v6 (Host.exp : (⟨S65536x1, .f32⟩ : BufTy).Contents (Elt F) → (⟨S65536x1, .f32⟩ : BufTy).Contents (Elt F)),
    nullary main_cst (constant S_ .f32 0x3F800000#32),
    unary main_cst main_v7 (broadcastInDim S65536x1 ![] bcast_S_S65536x1 : (⟨S_, .f32⟩ : BufTy).Contents (Elt F) → (⟨S65536x1, .f32⟩ : BufTy).Contents (Elt F)),
    binary main_v7 main_v6 main_v8 (addf : (⟨S65536x1, .f32⟩ : BufTy).Contents (Elt F) → (⟨S65536x1, .f32⟩ : BufTy).Contents (Elt F) → (⟨S65536x1, .f32⟩ : BufTy).Contents (Elt F)) ]

abbrev ops_01 : List (HloOp τ sig (Elt F)) :=
  [ nullary main_cst_0 (constant S_ .f32 0x3F800000#32),
    unary main_cst_0 main_v9 (broadcastInDim S65536x1 ![] bcast_S_S65536x1 : (⟨S_, .f32⟩ : BufTy).Contents (Elt F) → (⟨S65536x1, .f32⟩ : BufTy).Contents (Elt F)),
    binary main_v9 main_v8 main_v10 (Host.divf : (⟨S65536x1, .f32⟩ : BufTy).Contents (Elt F) → (⟨S65536x1, .f32⟩ : BufTy).Contents (Elt F) → (⟨S65536x1, .f32⟩ : BufTy).Contents (Elt F)),
    nullary main_cst_1 (constant S_ .f32 0x3F4CCCCD#32),
    unary main_cst_1 main_v11 (broadcastInDim S65536x1 ![] bcast_S_S65536x1 : (⟨S_, .f32⟩ : BufTy).Contents (Elt F) → (⟨S65536x1, .f32⟩ : BufTy).Contents (Elt F)),
    binary main_v11 main_v10 main_v12 (mulf : (⟨S65536x1, .f32⟩ : BufTy).Contents (Elt F) → (⟨S65536x1, .f32⟩ : BufTy).Contents (Elt F) → (⟨S65536x1, .f32⟩ : BufTy).Contents (Elt F)),
    nullary main_cst_2 (constant S_ .f32 0x3E4CCCCD#32),
    unary main_cst_2 main_v13 (broadcastInDim S65536x1 ![] bcast_S_S65536x1 : (⟨S_, .f32⟩ : BufTy).Contents (Elt F) → (⟨S65536x1, .f32⟩ : BufTy).Contents (Elt F)),
    binary main_v13 main_v12 main_v14 (addf : (⟨S65536x1, .f32⟩ : BufTy).Contents (Elt F) → (⟨S65536x1, .f32⟩ : BufTy).Contents (Elt F) → (⟨S65536x1, .f32⟩ : BufTy).Contents (Elt F)) ]

abbrev ops_02 : List (HloOp τ sig (Elt F)) :=
  [ nullary main_cst_3 (constant S_ .f32 0x3A83126F#32),
    nullary main_cst_4 (constant S_ .f32 0x41A00000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S65536x1, .f32⟩) main_call0_v1) (broadcastInDim S65536x1 ![] bcast_S_S65536x1),
    TRef.binary (TRef.of (T := ⟨S65536x1, .f32⟩) main_call0_v1) (TRef.of (T := ⟨S65536x1, .f32⟩) main_v14) (TRef.of (T := ⟨S65536x1, .f32⟩) main_call0_v2) maximumf,
    TRef.unary (TRef.of (T := ⟨S_, .f32⟩) main_cst_4) (TRef.of (T := ⟨S_, .f32⟩) main_call0_v3) id,
    TRef.unary (TRef.of (T := ⟨S_, .f32⟩) main_call0_v3) (TRef.of (T := ⟨S65536x1, .f32⟩) main_call0_v4) (broadcastInDim S65536x1 ![] bcast_S_S65536x1),
    TRef.binary (TRef.of (T := ⟨S65536x1, .f32⟩) main_call0_v4) (TRef.of (T := ⟨S65536x1, .f32⟩) main_call0_v2) (TRef.of (T := ⟨S65536x1, .f32⟩) main_v15) minimumf ]

abbrev ops_03 : List (HloOp τ sig (Elt F)) :=
  [ nullary main_v16 (iotaInDim S44 32 0),
    unary main_arg7 main_v17 (broadcastInDim S65536x1 ![0] bcast_S65536_S65536x1_0 : (⟨S65536, .i32⟩ : BufTy).Contents (Elt F) → (⟨S65536x1, .i32⟩ : BufTy).Contents (Elt F)),
    nullary main_c (constantI S_ 32 256#32),
    unary main_c main_v18 (broadcastInDim S65536x1 ![] bcast_S_S65536x1 : (⟨S_, .i32⟩ : BufTy).Contents (Elt F) → (⟨S65536x1, .i32⟩ : BufTy).Contents (Elt F)),
    binary main_v18 main_v17 main_v19 (subi : (⟨S65536x1, .i32⟩ : BufTy).Contents (Elt F) → (⟨S65536x1, .i32⟩ : BufTy).Contents (Elt F) → (⟨S65536x1, .i32⟩ : BufTy).Contents (Elt F)),
    unary main_v16 main_v20 (broadcastInDim S1x44 ![1] bcast_S44_S1x44_1 : (⟨S44, .i32⟩ : BufTy).Contents (Elt F) → (⟨S1x44, .i32⟩ : BufTy).Contents (Elt F)),
    unary main_v19 main_v21 (broadcastInDim S65536x44 ![0, 1] bcast_S65536x1_S65536x44_0_1 : (⟨S65536x1, .i32⟩ : BufTy).Contents (Elt F) → (⟨S65536x44, .i32⟩ : BufTy).Contents (Elt F)),
    unary main_v20 main_v22 (broadcastInDim S65536x44 ![0, 1] bcast_S1x44_S65536x44_0_1 : (⟨S1x44, .i32⟩ : BufTy).Contents (Elt F) → (⟨S65536x44, .i32⟩ : BufTy).Contents (Elt F)),
    binary main_v21 main_v22 main_v23 (addi : (⟨S65536x44, .i32⟩ : BufTy).Contents (Elt F) → (⟨S65536x44, .i32⟩ : BufTy).Contents (Elt F) → (⟨S65536x44, .i32⟩ : BufTy).Contents (Elt F)) ]

abbrev ops_04 : List (HloOp τ sig (Elt F)) :=
  [ nullary main_c_5 (constantI S_ 32 2#32),
    unary main_c_5 main_v24 (broadcastInDim S65536x44 ![] bcast_S_S65536x44 : (⟨S_, .i32⟩ : BufTy).Contents (Elt F) → (⟨S65536x44, .i32⟩ : BufTy).Contents (Elt F)),
    binary main_v23 main_v24 main_v25 (subi : (⟨S65536x44, .i32⟩ : BufTy).Contents (Elt F) → (⟨S65536x44, .i32⟩ : BufTy).Contents (Elt F) → (⟨S65536x44, .i32⟩ : BufTy).Contents (Elt F)),
    nullary main_c_6 (constantI S_ 32 256#32),
    unary main_c_6 main_v26 (broadcastInDim S65536x44 ![] bcast_S_S65536x44 : (⟨S_, .i32⟩ : BufTy).Contents (Elt F) → (⟨S65536x44, .i32⟩ : BufTy).Contents (Elt F)),
    binary main_v25 main_v26 main_v27 (cmpi .sge : (⟨S65536x44, .i32⟩ : BufTy).Contents (Elt F) → (⟨S65536x44, .i32⟩ : BufTy).Contents (Elt F) → (⟨S65536x44, .i1⟩ : BufTy).Contents (Elt F)),
    unary main_arg7 main_v28 (broadcastInDim S65536x1 ![0] bcast_S65536_S65536x1_0 : (⟨S65536, .i32⟩ : BufTy).Contents (Elt F) → (⟨S65536x1, .i32⟩ : BufTy).Contents (Elt F)),
    unary main_v27 main_v29 ((extui 32 · natLt_1_32) : (⟨S65536x44, .i1⟩ : BufTy).Contents (Elt F) → (⟨S65536x44, .i32⟩ : BufTy).Contents (Elt F)),
    unary main_v28 main_v30 (broadcastInDim S65536x44 ![0, 1] bcast_S65536x1_S65536x44_0_1 : (⟨S65536x1, .i32⟩ : BufTy).Contents (Elt F) → (⟨S65536x44, .i32⟩ : BufTy).Contents (Elt F)),
    binary main_v29 main_v30 main_v31 (muli : (⟨S65536x44, .i32⟩ : BufTy).Contents (Elt F) → (⟨S65536x44, .i32⟩ : BufTy).Contents (Elt F) → (⟨S65536x44, .i32⟩ : BufTy).Contents (Elt F)),
    binary main_v25 main_v31 main_v32 (subi : (⟨S65536x44, .i32⟩ : BufTy).Contents (Elt F) → (⟨S65536x44, .i32⟩ : BufTy).Contents (Elt F) → (⟨S65536x44, .i32⟩ : BufTy).Contents (Elt F)) ]

abbrev ops_05 : List (HloOp τ sig (Elt F)) :=
  [ nullary main_c_7 (constantI S_ 32 0#32),
    nullary main_c_8 (constantI S_ 32 255#32),
    TRef.unary (TRef.of (T := ⟨S_, .i32⟩) main_c_7) (TRef.of (T := ⟨S_, .i32⟩) main_call1_v0) id,
    TRef.unary (TRef.of (T := ⟨S_, .i32⟩) main_call1_v0) (TRef.of (T := ⟨S65536x44, .i32⟩) main_call1_v1) (broadcastInDim S65536x44 ![] bcast_S_S65536x44),
    TRef.binary (TRef.of (T := ⟨S65536x44, .i32⟩) main_call1_v1) (TRef.of (T := ⟨S65536x44, .i32⟩) main_v32) (TRef.of (T := ⟨S65536x44, .i32⟩) main_call1_v2) maxsi,
    TRef.unary (TRef.of (T := ⟨S_, .i32⟩) main_c_8) (TRef.of (T := ⟨S_, .i32⟩) main_call1_v3) id,
    TRef.unary (TRef.of (T := ⟨S_, .i32⟩) main_call1_v3) (TRef.of (T := ⟨S65536x44, .i32⟩) main_call1_v4) (broadcastInDim S65536x44 ![] bcast_S_S65536x44),
    TRef.binary (TRef.of (T := ⟨S65536x44, .i32⟩) main_call1_v4) (TRef.of (T := ⟨S65536x44, .i32⟩) main_call1_v2) (TRef.of (T := ⟨S65536x44, .i32⟩) main_v33) minsi ]

abbrev ops_06 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S65536x44, .i32⟩) main_call2_v0) (broadcastInDim S65536x44 ![] bcast_S_S65536x44),
    TRef.binary (TRef.of (T := ⟨S65536x44, .i32⟩) main_v33) (TRef.of (T := ⟨S65536x44, .i32⟩) main_call2_v0) (TRef.of (T := ⟨S65536x44, .i1⟩) main_call2_v1) (cmpi .slt),
    TRef.nullary (TRef.of (T := ⟨S_, .i32⟩) main_call2_c_0) (constantI S_ 32 256#32),
    TRef.unary (TRef.of (T := ⟨S_, .i32⟩) main_call2_c_0) (TRef.of (T := ⟨S65536x44, .i32⟩) main_call2_v2) (broadcastInDim S65536x44 ![] bcast_S_S65536x44),
    TRef.binary (TRef.of (T := ⟨S65536x44, .i32⟩) main_v33) (TRef.of (T := ⟨S65536x44, .i32⟩) main_call2_v2) (TRef.of (T := ⟨S65536x44, .i32⟩) main_call2_v3) addi,
    TRef.ternary (TRef.of (T := ⟨S65536x44, .i1⟩) main_call2_v1) (TRef.of (T := ⟨S65536x44, .i32⟩) main_call2_v3) (TRef.of (T := ⟨S65536x44, .i32⟩) main_v33) (TRef.of (T := ⟨S65536x44, .i32⟩) main_call2_v4) select,
    TRef.reshape (TRef.of (T := ⟨S65536x44, .i32⟩) main_call2_v4) (TRef.of (T := ⟨S65536x44x1, .i32⟩) main_call2_v5) rfl shapeCasts_S65536x44_S65536x44x1 ]

abbrev ops_07 : List (HloOp τ sig (Elt F)) :=
  [ TRef.nullary (TRef.of (T := ⟨S1, .i32⟩) main_call2_c_1) (constantI S1 32 255#32),
    TRef.nullary (TRef.of (T := ⟨S_, .i32⟩) main_call2_c_2) (constantI S_ 32 0#32),
    TRef.unary (TRef.of (T := ⟨S_, .i32⟩) main_call2_c_2) (TRef.of (T := ⟨S65536x44x1, .i32⟩) main_call2_v6) (broadcastInDim S65536x44x1 ![] bcast_S_S65536x44x1),
    TRef.binary (TRef.of (T := ⟨S65536x44x1, .i32⟩) main_call2_v5) (TRef.of (T := ⟨S65536x44x1, .i32⟩) main_call2_v6) (TRef.of (T := ⟨S65536x44x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S65536x44x1, .i32⟩) main_call2_v9) (broadcastInDim S65536x44x1 ![0, 1, 2] bcast_S1x1x1_S65536x44x1_0_1_2),
    TRef.binary (TRef.of (T := ⟨S65536x44x1, .i32⟩) main_call2_v5) (TRef.of (T := ⟨S65536x44x1, .i32⟩) main_call2_v9) (TRef.of (T := ⟨S65536x44x1, .i1⟩) main_call2_v10) (cmpi .sle),
    TRef.binary (TRef.of (T := ⟨S65536x44x1, .i1⟩) main_call2_v7) (TRef.of (T := ⟨S65536x44x1, .i1⟩) main_call2_v10) (TRef.of (T := ⟨S65536x44x1, .i1⟩) main_call2_v11) andi,
    TRef.nullary (TRef.of (T := ⟨S_, .i1⟩) main_call2_c_3) (constantI S_ 1 1#1),
    TRef.binary (TRef.of (T := ⟨S65536x44x1, .i1⟩) main_call2_v11) (TRef.of (T := ⟨S_, .i1⟩) main_call2_c_3) (TRef.of (T := ⟨S65536x44, .i1⟩) main_call2_v12) (fun x v => Host.reduce IntOp.andi x v reducesTo_S65536x44x1_S65536x44_d2 h_S_) ]

abbrev ops_08 : List (HloOp τ sig (Elt F)) :=
  [ TRef.binary (TRef.of (T := ⟨S65536x256, .f32⟩) main_arg2) (TRef.of (T := ⟨S65536x44x1, .i32⟩) main_call2_v5) (TRef.of (T := ⟨S65536x44, .f32⟩) main_call2_v13) (fun x i => Host.gather gather_S65536x256_S65536x44x1_S65536x44_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S65536x44, .f32⟩) main_call2_v14) (broadcastInDim S65536x44 ![] bcast_S_S65536x44),
    TRef.ternary (TRef.of (T := ⟨S65536x44, .i1⟩) main_call2_v12) (TRef.of (T := ⟨S65536x44, .f32⟩) main_call2_v13) (TRef.of (T := ⟨S65536x44, .f32⟩) main_call2_v14) (TRef.of (T := ⟨S65536x44, .f32⟩) main_v34) select,
    nullary main_cst_9 (constant S_ .f32 0x3727C5AC#32),
    unary main_cst_9 main_v35 (broadcastInDim S65536x1 ![] bcast_S_S65536x1 : (⟨S_, .f32⟩ : BufTy).Contents (Elt F) → (⟨S65536x1, .f32⟩ : BufTy).Contents (Elt F)),
    binary main_v35 main_v15 main_v36 (addf : (⟨S65536x1, .f32⟩ : BufTy).Contents (Elt F) → (⟨S65536x1, .f32⟩ : BufTy).Contents (Elt F) → (⟨S65536x1, .f32⟩ : BufTy).Contents (Elt F)),
    unary main_v36 main_v37 (broadcastInDim S65536x44 ![0, 1] bcast_S65536x1_S65536x44_0_1 : (⟨S65536x1, .f32⟩ : BufTy).Contents (Elt F) → (⟨S65536x44, .f32⟩ : BufTy).Contents (Elt F)),
    binary main_v34 main_v37 main_v38 (Host.divf : (⟨S65536x44, .f32⟩ : BufTy).Contents (Elt F) → (⟨S65536x44, .f32⟩ : BufTy).Contents (Elt F) → (⟨S65536x44, .f32⟩ : BufTy).Contents (Elt F)) ]

abbrev ops_09 : List (HloOp τ sig (Elt F)) :=
  [ unary main_arg2 main_v39 ((extractStridedSlice S65536x40 ![0, 216] · slices_S65536x256_S65536x40_0_216) : (⟨S65536x256, .f32⟩ : BufTy).Contents (Elt F) → (⟨S65536x40, .f32⟩ : BufTy).Contents (Elt F)),
    nullary main_cst_10 (constant S_ .f32 0x3727C5AC#32),
    unary main_cst_10 main_v40 (broadcastInDim S65536x1 ![] bcast_S_S65536x1 : (⟨S_, .f32⟩ : BufTy).Contents (Elt F) → (⟨S65536x1, .f32⟩ : BufTy).Contents (Elt F)),
    binary main_v40 main_v15 main_v41 (addf : (⟨S65536x1, .f32⟩ : BufTy).Contents (Elt F) → (⟨S65536x1, .f32⟩ : BufTy).Contents (Elt F) → (⟨S65536x1, .f32⟩ : BufTy).Contents (Elt F)),
    unary main_v41 main_v42 (broadcastInDim S65536x40 ![0, 1] bcast_S65536x1_S65536x40_0_1 : (⟨S65536x1, .f32⟩ : BufTy).Contents (Elt F) → (⟨S65536x40, .f32⟩ : BufTy).Contents (Elt F)),
    binary main_v39 main_v42 main_v43 (Host.divf : (⟨S65536x40, .f32⟩ : BufTy).Contents (Elt F) → (⟨S65536x40, .f32⟩ : BufTy).Contents (Elt F) → (⟨S65536x40, .f32⟩ : BufTy).Contents (Elt F)) ]

abbrev ops_10 : List (HloOp τ sig (Elt F)) :=
  [ nary ![main_arg0, main_v38, main_v43] main_v44 (fun u => concatenate S65536x164 1 [⟨S65536x80, u 0⟩, ⟨S65536x44, u 1⟩, ⟨S65536x40, u 2⟩] concatenates_S65536x80_S65536x44_S65536x40_S65536x164_d1) ]

abbrev ops_11 : List (HloOp τ sig (Elt F)) :=
  [ unary main_v38 main_v45 ((extractStridedSlice S65536x40 ![0, 2] · slices_S65536x44_S65536x40_0_2) : (⟨S65536x44, .f32⟩ : BufTy).Contents (Elt F) → (⟨S65536x40, .f32⟩ : BufTy).Contents (Elt F)),
    binary main_arg6 main_v44 main_v46 ((fun a b => concatenate S65536x328 1 [⟨S65536x164, a⟩, ⟨S65536x164, b⟩] concatenates_S65536x164_S65536x164_S65536x328_d1) : (⟨S65536x164, .f32⟩ : BufTy).Contents (Elt F) → (⟨S65536x164, .f32⟩ : BufTy).Contents (Elt F) → (⟨S65536x328, .f32⟩ : BufTy).Contents (Elt F)),
    unary main_arg10 main_v47 ((transpose S328x192 [1, 0] · transposes_S192x328_S328x192_1_0) : (⟨S192x328, .f32⟩ : BufTy).Contents (Elt F) → (⟨S328x192, .f32⟩ : BufTy).Contents (Elt F)),
    binary main_v46 main_v47 main_v48 ((fun l r => Host.dotGeneral dot_S65536x328_S328x192_S65536x192_1_0_0_1_n_n none l r) : (⟨S65536x328, .f32⟩ : BufTy).Contents (Elt F) → (⟨S328x192, .f32⟩ : BufTy).Contents (Elt F) → (⟨S65536x192, .f32⟩ : BufTy).Contents (Elt F)),
    unary main_v48 main_v49 (Host.tanh : (⟨S65536x192, .f32⟩ : BufTy).Contents (Elt F) → (⟨S65536x192, .f32⟩ : BufTy).Contents (Elt F)),
    unary main_arg11 main_v50 ((transpose S192x192 [1, 0] · transposes_S192x192_S192x192_1_0) : (⟨S192x192, .f32⟩ : BufTy).Contents (Elt F) → (⟨S192x192, .f32⟩ : BufTy).Contents (Elt F)),
    binary main_v49 main_v50 main_v51 ((fun l r => Host.dotGeneral dot_S65536x192_S192x192_S65536x192_1_0_0_1_n_n none l r) : (⟨S65536x192, .f32⟩ : BufTy).Contents (Elt F) → (⟨S192x192, .f32⟩ : BufTy).Contents (Elt F) → (⟨S65536x192, .f32⟩ : BufTy).Contents (Elt F)),
    unary main_v51 main_v52 (Host.negf : (⟨S65536x192, .f32⟩ : BufTy).Contents (Elt F) → (⟨S65536x192, .f32⟩ : BufTy).Contents (Elt F)),
    unary main_v52 main_v53 (Host.exp : (⟨S65536x192, .f32⟩ : BufTy).Contents (Elt F) → (⟨S65536x192, .f32⟩ : BufTy).Contents (Elt F)) ]

abbrev ops_12 : List (HloOp τ sig (Elt F)) :=
  [ nullary main_cst_11 (constant S_ .f32 0x3F800000#32),
    unary main_cst_11 main_v54 (broadcastInDim S65536x192 ![] bcast_S_S65536x192 : (⟨S_, .f32⟩ : BufTy).Contents (Elt F) → (⟨S65536x192, .f32⟩ : BufTy).Contents (Elt F)),
    binary main_v54 main_v53 main_v55 (addf : (⟨S65536x192, .f32⟩ : BufTy).Contents (Elt F) → (⟨S65536x192, .f32⟩ : BufTy).Contents (Elt F) → (⟨S65536x192, .f32⟩ : BufTy).Contents (Elt F)),
    nullary main_cst_12 (constant S_ .f32 0x3F800000#32),
    unary main_cst_12 main_v56 (broadcastInDim S65536x192 ![] bcast_S_S65536x192 : (⟨S_, .f32⟩ : BufTy).Contents (Elt F) → (⟨S65536x192, .f32⟩ : BufTy).Contents (Elt F)),
    binary main_v56 main_v55 main_v57 (Host.divf : (⟨S65536x192, .f32⟩ : BufTy).Contents (Elt F) → (⟨S65536x192, .f32⟩ : BufTy).Contents (Elt F) → (⟨S65536x192, .f32⟩ : BufTy).Contents (Elt F)),
    binary main_v49 main_v57 main_v58 (mulf : (⟨S65536x192, .f32⟩ : BufTy).Contents (Elt F) → (⟨S65536x192, .f32⟩ : BufTy).Contents (Elt F) → (⟨S65536x192, .f32⟩ : BufTy).Contents (Elt F)),
    unary main_arg12 main_v59 ((transpose S192x4 [1, 0] · transposes_S4x192_S192x4_1_0) : (⟨S4x192, .f32⟩ : BufTy).Contents (Elt F) → (⟨S192x4, .f32⟩ : BufTy).Contents (Elt F)),
    binary main_v58 main_v59 main_v60 ((fun l r => Host.dotGeneral dot_S65536x192_S192x4_S65536x4_1_0_0_1_n_n none l r) : (⟨S65536x192, .f32⟩ : BufTy).Contents (Elt F) → (⟨S192x4, .f32⟩ : BufTy).Contents (Elt F) → (⟨S65536x4, .f32⟩ : BufTy).Contents (Elt F)) ]

abbrev ops_13 : List (HloOp τ sig (Elt F)) :=
  [ unary main_arg13 main_v61 (broadcastInDim S1x4 ![1] bcast_S4_S1x4_1 : (⟨S4, .f32⟩ : BufTy).Contents (Elt F) → (⟨S1x4, .f32⟩ : BufTy).Contents (Elt F)),
    unary main_v61 main_v62 (broadcastInDim S65536x4 ![0, 1] bcast_S1x4_S65536x4_0_1 : (⟨S1x4, .f32⟩ : BufTy).Contents (Elt F) → (⟨S65536x4, .f32⟩ : BufTy).Contents (Elt F)),
    binary main_v60 main_v62 main_v63 (addf : (⟨S65536x4, .f32⟩ : BufTy).Contents (Elt F) → (⟨S65536x4, .f32⟩ : BufTy).Contents (Elt F) → (⟨S65536x4, .f32⟩ : BufTy).Contents (Elt F)),
    unary main_v63 main_v64 (Host.negf : (⟨S65536x4, .f32⟩ : BufTy).Contents (Elt F) → (⟨S65536x4, .f32⟩ : BufTy).Contents (Elt F)),
    unary main_v64 main_v65 (Host.exp : (⟨S65536x4, .f32⟩ : BufTy).Contents (Elt F) → (⟨S65536x4, .f32⟩ : BufTy).Contents (Elt F)),
    nullary main_cst_13 (constant S_ .f32 0x3F800000#32),
    unary main_cst_13 main_v66 (broadcastInDim S65536x4 ![] bcast_S_S65536x4 : (⟨S_, .f32⟩ : BufTy).Contents (Elt F) → (⟨S65536x4, .f32⟩ : BufTy).Contents (Elt F)),
    binary main_v66 main_v65 main_v67 (addf : (⟨S65536x4, .f32⟩ : BufTy).Contents (Elt F) → (⟨S65536x4, .f32⟩ : BufTy).Contents (Elt F) → (⟨S65536x4, .f32⟩ : BufTy).Contents (Elt F)) ]

abbrev ops_14 : List (HloOp τ sig (Elt F)) :=
  [ nullary main_cst_14 (constant S_ .f32 0x3F800000#32),
    unary main_cst_14 main_v68 (broadcastInDim S65536x4 ![] bcast_S_S65536x4 : (⟨S_, .f32⟩ : BufTy).Contents (Elt F) → (⟨S65536x4, .f32⟩ : BufTy).Contents (Elt F)),
    binary main_v68 main_v67 main_v69 (Host.divf : (⟨S65536x4, .f32⟩ : BufTy).Contents (Elt F) → (⟨S65536x4, .f32⟩ : BufTy).Contents (Elt F) → (⟨S65536x4, .f32⟩ : BufTy).Contents (Elt F)),
    unary main_v69 main_v70 ((extractStridedSlice S65536x1 ![0, 0] · slices_S65536x4_S65536x1_0_0) : (⟨S65536x4, .f32⟩ : BufTy).Contents (Elt F) → (⟨S65536x1, .f32⟩ : BufTy).Contents (Elt F)),
    unary main_v70 main_v71 (broadcastInDim S65536x40 ![0, 1] bcast_S65536x1_S65536x40_0_1 : (⟨S65536x1, .f32⟩ : BufTy).Contents (Elt F) → (⟨S65536x40, .f32⟩ : BufTy).Contents (Elt F)),
    binary main_v71 main_v45 main_v72 (mulf : (⟨S65536x40, .f32⟩ : BufTy).Contents (Elt F) → (⟨S65536x40, .f32⟩ : BufTy).Contents (Elt F) → (⟨S65536x40, .f32⟩ : BufTy).Contents (Elt F)) ]

abbrev ops_15 : List (HloOp τ sig (Elt F)) :=
  [ nary ![main_v58, main_v72, main_v43] main_v73 (fun u => concatenate S65536x272 1 [⟨S65536x192, u 0⟩, ⟨S65536x40, u 1⟩, ⟨S65536x40, u 2⟩] concatenates_S65536x192_S65536x40_S65536x40_S65536x272_d1) ]

abbrev ops_16 : List (HloOp τ sig (Elt F)) :=
  [ unary main_arg14 main_v74 ((transpose S272x480 [1, 0] · transposes_S480x272_S272x480_1_0) : (⟨S480x272, .f32⟩ : BufTy).Contents (Elt F) → (⟨S272x480, .f32⟩ : BufTy).Contents (Elt F)),
    binary main_v73 main_v74 main_v75 ((fun l r => Host.dotGeneral dot_S65536x272_S272x480_S65536x480_1_0_0_1_n_n none l r) : (⟨S65536x272, .f32⟩ : BufTy).Contents (Elt F) → (⟨S272x480, .f32⟩ : BufTy).Contents (Elt F) → (⟨S65536x480, .f32⟩ : BufTy).Contents (Elt F)),
    unary main_arg15 main_v76 ((transpose S160x480 [1, 0] · transposes_S480x160_S160x480_1_0) : (⟨S480x160, .f32⟩ : BufTy).Contents (Elt F) → (⟨S160x480, .f32⟩ : BufTy).Contents (Elt F)),
    binary main_arg3 main_v76 main_v77 ((fun l r => Host.dotGeneral dot_S65536x160_S160x480_S65536x480_1_0_0_1_n_n none l r) : (⟨S65536x160, .f32⟩ : BufTy).Contents (Elt F) → (⟨S160x480, .f32⟩ : BufTy).Contents (Elt F) → (⟨S65536x480, .f32⟩ : BufTy).Contents (Elt F)),
    unary main_v75 main_v78 ((extractStridedSlice S65536x160 ![0, 0] · slices_S65536x480_S65536x160_0_0) : (⟨S65536x480, .f32⟩ : BufTy).Contents (Elt F) → (⟨S65536x160, .f32⟩ : BufTy).Contents (Elt F)),
    unary main_v75 main_v79 ((extractStridedSlice S65536x160 ![0, 160] · slices_S65536x480_S65536x160_0_160) : (⟨S65536x480, .f32⟩ : BufTy).Contents (Elt F) → (⟨S65536x160, .f32⟩ : BufTy).Contents (Elt F)),
    unary main_v75 main_v80 ((extractStridedSlice S65536x160 ![0, 320] · slices_S65536x480_S65536x160_0_320) : (⟨S65536x480, .f32⟩ : BufTy).Contents (Elt F) → (⟨S65536x160, .f32⟩ : BufTy).Contents (Elt F)),
    unary main_v77 main_v81 ((extractStridedSlice S65536x160 ![0, 0] · slices_S65536x480_S65536x160_0_0) : (⟨S65536x480, .f32⟩ : BufTy).Contents (Elt F) → (⟨S65536x160, .f32⟩ : BufTy).Contents (Elt F)),
    unary main_v77 main_v82 ((extractStridedSlice S65536x160 ![0, 160] · slices_S65536x480_S65536x160_0_160) : (⟨S65536x480, .f32⟩ : BufTy).Contents (Elt F) → (⟨S65536x160, .f32⟩ : BufTy).Contents (Elt F)),
    unary main_v77 main_v83 ((extractStridedSlice S65536x160 ![0, 320] · slices_S65536x480_S65536x160_0_320) : (⟨S65536x480, .f32⟩ : BufTy).Contents (Elt F) → (⟨S65536x160, .f32⟩ : BufTy).Contents (Elt F)) ]

abbrev ops_17 : List (HloOp τ sig (Elt F)) :=
  [ binary main_v78 main_v81 main_v84 (addf : (⟨S65536x160, .f32⟩ : BufTy).Contents (Elt F) → (⟨S65536x160, .f32⟩ : BufTy).Contents (Elt F) → (⟨S65536x160, .f32⟩ : BufTy).Contents (Elt F)),
    unary main_v84 main_v85 (Host.negf : (⟨S65536x160, .f32⟩ : BufTy).Contents (Elt F) → (⟨S65536x160, .f32⟩ : BufTy).Contents (Elt F)),
    unary main_v85 main_v86 (Host.exp : (⟨S65536x160, .f32⟩ : BufTy).Contents (Elt F) → (⟨S65536x160, .f32⟩ : BufTy).Contents (Elt F)),
    nullary main_cst_15 (constant S_ .f32 0x3F800000#32),
    unary main_cst_15 main_v87 (broadcastInDim S65536x160 ![] bcast_S_S65536x160 : (⟨S_, .f32⟩ : BufTy).Contents (Elt F) → (⟨S65536x160, .f32⟩ : BufTy).Contents (Elt F)),
    binary main_v87 main_v86 main_v88 (addf : (⟨S65536x160, .f32⟩ : BufTy).Contents (Elt F) → (⟨S65536x160, .f32⟩ : BufTy).Contents (Elt F) → (⟨S65536x160, .f32⟩ : BufTy).Contents (Elt F)),
    nullary main_cst_16 (constant S_ .f32 0x3F800000#32),
    unary main_cst_16 main_v89 (broadcastInDim S65536x160 ![] bcast_S_S65536x160 : (⟨S_, .f32⟩ : BufTy).Contents (Elt F) → (⟨S65536x160, .f32⟩ : BufTy).Contents (Elt F)),
    binary main_v89 main_v88 main_v90 (Host.divf : (⟨S65536x160, .f32⟩ : BufTy).Contents (Elt F) → (⟨S65536x160, .f32⟩ : BufTy).Contents (Elt F) → (⟨S65536x160, .f32⟩ : BufTy).Contents (Elt F)) ]

abbrev ops_18 : List (HloOp τ sig (Elt F)) :=
  [ binary main_v79 main_v82 main_v91 (addf : (⟨S65536x160, .f32⟩ : BufTy).Contents (Elt F) → (⟨S65536x160, .f32⟩ : BufTy).Contents (Elt F) → (⟨S65536x160, .f32⟩ : BufTy).Contents (Elt F)),
    unary main_v91 main_v92 (Host.negf : (⟨S65536x160, .f32⟩ : BufTy).Contents (Elt F) → (⟨S65536x160, .f32⟩ : BufTy).Contents (Elt F)),
    unary main_v92 main_v93 (Host.exp : (⟨S65536x160, .f32⟩ : BufTy).Contents (Elt F) → (⟨S65536x160, .f32⟩ : BufTy).Contents (Elt F)),
    nullary main_cst_17 (constant S_ .f32 0x3F800000#32),
    unary main_cst_17 main_v94 (broadcastInDim S65536x160 ![] bcast_S_S65536x160 : (⟨S_, .f32⟩ : BufTy).Contents (Elt F) → (⟨S65536x160, .f32⟩ : BufTy).Contents (Elt F)),
    binary main_v94 main_v93 main_v95 (addf : (⟨S65536x160, .f32⟩ : BufTy).Contents (Elt F) → (⟨S65536x160, .f32⟩ : BufTy).Contents (Elt F) → (⟨S65536x160, .f32⟩ : BufTy).Contents (Elt F)),
    nullary main_cst_18 (constant S_ .f32 0x3F800000#32),
    unary main_cst_18 main_v96 (broadcastInDim S65536x160 ![] bcast_S_S65536x160 : (⟨S_, .f32⟩ : BufTy).Contents (Elt F) → (⟨S65536x160, .f32⟩ : BufTy).Contents (Elt F)),
    binary main_v96 main_v95 main_v97 (Host.divf : (⟨S65536x160, .f32⟩ : BufTy).Contents (Elt F) → (⟨S65536x160, .f32⟩ : BufTy).Contents (Elt F) → (⟨S65536x160, .f32⟩ : BufTy).Contents (Elt F)) ]

abbrev ops_19 : List (HloOp τ sig (Elt F)) :=
  [ binary main_v90 main_v83 main_v98 (mulf : (⟨S65536x160, .f32⟩ : BufTy).Contents (Elt F) → (⟨S65536x160, .f32⟩ : BufTy).Contents (Elt F) → (⟨S65536x160, .f32⟩ : BufTy).Contents (Elt F)),
    binary main_v80 main_v98 main_v99 (addf : (⟨S65536x160, .f32⟩ : BufTy).Contents (Elt F) → (⟨S65536x160, .f32⟩ : BufTy).Contents (Elt F) → (⟨S65536x160, .f32⟩ : BufTy).Contents (Elt F)),
    unary main_v99 main_v100 (Host.tanh : (⟨S65536x160, .f32⟩ : BufTy).Contents (Elt F) → (⟨S65536x160, .f32⟩ : BufTy).Contents (Elt F)),
    nullary main_cst_19 (constant S_ .f32 0x3F800000#32),
    unary main_cst_19 main_v101 (broadcastInDim S65536x160 ![] bcast_S_S65536x160 : (⟨S_, .f32⟩ : BufTy).Contents (Elt F) → (⟨S65536x160, .f32⟩ : BufTy).Contents (Elt F)),
    binary main_v101 main_v97 main_v102 (subf : (⟨S65536x160, .f32⟩ : BufTy).Contents (Elt F) → (⟨S65536x160, .f32⟩ : BufTy).Contents (Elt F) → (⟨S65536x160, .f32⟩ : BufTy).Contents (Elt F)),
    binary main_v102 main_v100 main_v103 (mulf : (⟨S65536x160, .f32⟩ : BufTy).Contents (Elt F) → (⟨S65536x160, .f32⟩ : BufTy).Contents (Elt F) → (⟨S65536x160, .f32⟩ : BufTy).Contents (Elt F)),
    binary main_v97 main_arg3 main_v104 (mulf : (⟨S65536x160, .f32⟩ : BufTy).Contents (Elt F) → (⟨S65536x160, .f32⟩ : BufTy).Contents (Elt F) → (⟨S65536x160, .f32⟩ : BufTy).Contents (Elt F)),
    binary main_v103 main_v104 main_v105 (addf : (⟨S65536x160, .f32⟩ : BufTy).Contents (Elt F) → (⟨S65536x160, .f32⟩ : BufTy).Contents (Elt F) → (⟨S65536x160, .f32⟩ : BufTy).Contents (Elt F)) ]

abbrev wr_00 : List (Ref sig .tc) := [main_v0, main_v1, main_v2, main_v3, main_v4, main_v5, main_v6, main_cst, main_v7, main_v8]
theorem writes_00 : (ops_00 (F := F)).Forall fun op => op.writes ⊆ (wr_00.map (Proc.devRef (τ := τ) .tc)).toFinset := by
  and_intros <;> exact writes_sub_of_mem rfl (by decide)

abbrev wr_01 : List (Ref sig .tc) := [main_cst_0, main_v9, main_v10, main_cst_1, main_v11, main_v12, main_cst_2, main_v13, main_v14]
theorem writes_01 : (ops_01 (F := F)).Forall fun op => op.writes ⊆ (wr_01.map (Proc.devRef (τ := τ) .tc)).toFinset := by
  and_intros <;> exact writes_sub_of_mem rfl (by decide)

abbrev wr_02 : List (Ref sig .tc) := [main_cst_3, main_cst_4, main_call0_v0, main_call0_v1, main_call0_v2, main_call0_v3, main_call0_v4, main_v15]
theorem writes_02 : (ops_02 (F := F)).Forall fun op => op.writes ⊆ (wr_02.map (Proc.devRef (τ := τ) .tc)).toFinset := by
  and_intros <;> exact writes_sub_of_mem rfl (by decide)

abbrev wr_03 : List (Ref sig .tc) := [main_v16, main_v17, main_c, main_v18, main_v19, main_v20, main_v21, main_v22, main_v23]
theorem writes_03 : (ops_03 (F := F)).Forall fun op => op.writes ⊆ (wr_03.map (Proc.devRef (τ := τ) .tc)).toFinset := by
  and_intros <;> exact writes_sub_of_mem rfl (by decide)

abbrev wr_04 : List (Ref sig .tc) := [main_c_5, main_v24, main_v25, main_c_6, main_v26, main_v27, main_v28, main_v29, main_v30, main_v31, main_v32]
theorem writes_04 : (ops_04 (F := F)).Forall fun op => op.writes ⊆ (wr_04.map (Proc.devRef (τ := τ) .tc)).toFinset := by
  and_intros <;> exact writes_sub_of_mem rfl (by decide)

abbrev wr_05 : List (Ref sig .tc) := [main_c_7, main_c_8, main_call1_v0, main_call1_v1, main_call1_v2, main_call1_v3, main_call1_v4, main_v33]
theorem writes_05 : (ops_05 (F := F)).Forall fun op => op.writes ⊆ (wr_05.map (Proc.devRef (τ := τ) .tc)).toFinset := by
  and_intros <;> exact writes_sub_of_mem rfl (by decide)

abbrev wr_06 : List (Ref sig .tc) := [main_call2_c, main_call2_v0, main_call2_v1, main_call2_c_0, main_call2_v2, main_call2_v3, main_call2_v4, main_call2_v5]
theorem writes_06 : (ops_06 (F := F)).Forall fun op => op.writes ⊆ (wr_06.map (Proc.devRef (τ := τ) .tc)).toFinset := by
  and_intros <;> exact writes_sub_of_mem rfl (by decide)

abbrev wr_07 : List (Ref sig .tc) := [main_call2_c_1, main_call2_c_2, main_call2_v6, main_call2_v7, main_call2_v8, main_call2_v9, main_call2_v10, main_call2_v11, main_call2_c_3, main_call2_v12]
theorem writes_07 : (ops_07 (F := F)).Forall fun op => op.writes ⊆ (wr_07.map (Proc.devRef (τ := τ) .tc)).toFinset := by
  and_intros <;> exact writes_sub_of_mem rfl (by decide)

abbrev wr_08 : List (Ref sig .tc) := [main_call2_v13, main_call2_cst, main_call2_v14, main_v34, main_cst_9, main_v35, main_v36, main_v37, main_v38]
theorem writes_08 : (ops_08 (F := F)).Forall fun op => op.writes ⊆ (wr_08.map (Proc.devRef (τ := τ) .tc)).toFinset := by
  and_intros <;> exact writes_sub_of_mem rfl (by decide)

abbrev wr_09 : List (Ref sig .tc) := [main_v39, main_cst_10, main_v40, main_v41, main_v42, main_v43]
theorem writes_09 : (ops_09 (F := F)).Forall fun op => op.writes ⊆ (wr_09.map (Proc.devRef (τ := τ) .tc)).toFinset := by
  and_intros <;> exact writes_sub_of_mem rfl (by decide)

abbrev wr_10 : List (Ref sig .tc) := [main_v44]
theorem writes_10 : (ops_10 (F := F)).Forall fun op => op.writes ⊆ (wr_10.map (Proc.devRef (τ := τ) .tc)).toFinset := by
  and_intros <;> exact writes_sub_of_mem rfl (by decide)

abbrev wr_11 : List (Ref sig .tc) := [main_v45, main_v46, main_v47, main_v48, main_v49, main_v50, main_v51, main_v52, main_v53]
theorem writes_11 : (ops_11 (F := F)).Forall fun op => op.writes ⊆ (wr_11.map (Proc.devRef (τ := τ) .tc)).toFinset := by
  and_intros <;> exact writes_sub_of_mem rfl (by decide)

abbrev wr_12 : List (Ref sig .tc) := [main_cst_11, main_v54, main_v55, main_cst_12, main_v56, main_v57, main_v58, main_v59, main_v60]
theorem writes_12 : (ops_12 (F := F)).Forall fun op => op.writes ⊆ (wr_12.map (Proc.devRef (τ := τ) .tc)).toFinset := by
  and_intros <;> exact writes_sub_of_mem rfl (by decide)

abbrev wr_13 : List (Ref sig .tc) := [main_v61, main_v62, main_v63, main_v64, main_v65, main_cst_13, main_v66, main_v67]
theorem writes_13 : (ops_13 (F := F)).Forall fun op => op.writes ⊆ (wr_13.map (Proc.devRef (τ := τ) .tc)).toFinset := by
  and_intros <;> exact writes_sub_of_mem rfl (by decide)

abbrev wr_14 : List (Ref sig .tc) := [main_cst_14, main_v68, main_v69, main_v70, main_v71, main_v72]
theorem writes_14 : (ops_14 (F := F)).Forall fun op => op.writes ⊆ (wr_14.map (Proc.devRef (τ := τ) .tc)).toFinset := by
  and_intros <;> exact writes_sub_of_mem rfl (by decide)

abbrev wr_15 : List (Ref sig .tc) := [main_v73]
theorem writes_15 : (ops_15 (F := F)).Forall fun op => op.writes ⊆ (wr_15.map (Proc.devRef (τ := τ) .tc)).toFinset := by
  and_intros <;> exact writes_sub_of_mem rfl (by decide)

abbrev wr_16 : List (Ref sig .tc) := [main_v74, main_v75, main_v76, main_v77, main_v78, main_v79, main_v80, main_v81, main_v82, main_v83]
theorem writes_16 : (ops_16 (F := F)).Forall fun op => op.writes ⊆ (wr_16.map (Proc.devRef (τ := τ) .tc)).toFinset := by
  and_intros <;> exact writes_sub_of_mem rfl (by decide)

abbrev wr_17 : List (Ref sig .tc) := [main_v84, main_v85, main_v86, main_cst_15, main_v87, main_v88, main_cst_16, main_v89, main_v90]
theorem writes_17 : (ops_17 (F := F)).Forall fun op => op.writes ⊆ (wr_17.map (Proc.devRef (τ := τ) .tc)).toFinset := by
  and_intros <;> exact writes_sub_of_mem rfl (by decide)

abbrev wr_18 : List (Ref sig .tc) := [main_v91, main_v92, main_v93, main_cst_17, main_v94, main_v95, main_cst_18, main_v96, main_v97]
theorem writes_18 : (ops_18 (F := F)).Forall fun op => op.writes ⊆ (wr_18.map (Proc.devRef (τ := τ) .tc)).toFinset := by
  and_intros <;> exact writes_sub_of_mem rfl (by decide)

abbrev wr_19 : List (Ref sig .tc) := [main_v98, main_v99, main_v100, main_cst_19, main_v101, main_v102, main_v103, main_v104, main_v105]
theorem writes_19 : (ops_19 (F := F)).Forall fun op => op.writes ⊆ (wr_19.map (Proc.devRef (τ := τ) .tc)).toFinset := by
  and_intros <;> exact writes_sub_of_mem rfl (by decide)

theorem step_00 {W : Valuation τ sig (Elt F)} {a : Args F} (h : Inv_init W a) : Inv_00 (after ops_00 W) a := by
  unfold Inv_init at h; unfold Inv_00
  have hA := h
  refine ⟨hA.keep writes_00, ?_⟩
  · after_results
    rw [hA.arg0, hA.arg8, hA.arg9]
    unfold st_main_v8 val_main_v8 val_main_v7 val_main_cst val_main_v6 val_main_v5 val_main_v4 val_main_v3 val_main_v2 val_main_v1 val_main_v0
    rfl

theorem step_01 {W : Valuation τ sig (Elt F)} {a : Args F} (h : Inv_00 W a) : Inv_01 (after ops_01 W) a := by
  unfold Inv_00 at h; unfold Inv_01
  obtain ⟨hA, h_main_v8⟩ := h
  refine ⟨hA.keep writes_01, ?_⟩
  · after_results
    rw [h_main_v8]
    unfold st_main_v14 val_main_v14 val_main_v13 val_main_cst_2 val_main_v12 val_main_v11 val_main_cst_1 val_main_v10 val_main_v9 val_main_cst_0
    rfl

theorem step_02 {W : Valuation τ sig (Elt F)} {a : Args F} (h : Inv_01 W a) : Inv_02 (after ops_02 W) a := by
  unfold Inv_01 at h; unfold Inv_02
  obtain ⟨hA, h_main_v14⟩ := h
  refine ⟨hA.keep writes_02, ?_⟩
  · after_results
    rw [h_main_v14]
    unfold st_main_v15 val_main_v15 val_main_call0_v4 val_main_call0_v3 val_main_call0_v2 val_main_call0_v1 val_main_call0_v0 val_main_cst_4 val_main_cst_3
    (try simp only [TRef.ofBuf, TRef.toBuf])
    repeat rw [cast_eq]
    all_goals rfl

theorem step_03 {W : Valuation τ sig (Elt F)} {a : Args F} (h : Inv_02 W a) : Inv_03 (after ops_03 W) a := by
  unfold Inv_02 at h; unfold Inv_03
  obtain ⟨hA, h_main_v15⟩ := h
  refine ⟨hA.keep writes_03, ?_, ?_⟩
  all_goals try exact (after_of_writes_sub ops_03 W writes_03 (by decide)).trans ‹_›
  · after_results
    rw [hA.arg7]
    unfold st_main_v23 val_main_v23 val_main_v22 val_main_v21 val_main_v20 val_main_v19 val_main_v18 val_main_c val_main_v17 val_main_v16
    rfl

theorem step_04 {W : Valuation τ sig (Elt F)} {a : Args F} (h : Inv_03 W a) : Inv_04 (after ops_04 W) a := by
  unfold Inv_03 at h; unfold Inv_04
  obtain ⟨hA, h_main_v15, h_main_v23⟩ := h
  refine ⟨hA.keep writes_04, ?_, ?_⟩
  all_goals try exact (after_of_writes_sub ops_04 W writes_04 (by decide)).trans ‹_›
  · after_results
    rw [h_main_v23, hA.arg7]
    unfold st_main_v32 val_main_v32 val_main_v31 val_main_v30 val_main_v29 val_main_v28 val_main_v27 val_main_v26 val_main_c_6 val_main_v25 val_main_v24 val_main_c_5
    rfl

theorem step_05 {W : Valuation τ sig (Elt F)} {a : Args F} (h : Inv_04 W a) : Inv_05 (after ops_05 W) a := by
  unfold Inv_04 at h; unfold Inv_05
  obtain ⟨hA, h_main_v15, h_main_v32⟩ := h
  refine ⟨hA.keep writes_05, ?_, ?_⟩
  all_goals try exact (after_of_writes_sub ops_05 W writes_05 (by decide)).trans ‹_›
  · after_results
    rw [h_main_v32]
    unfold st_main_v33 val_main_v33 val_main_call1_v4 val_main_call1_v3 val_main_call1_v2 val_main_call1_v1 val_main_call1_v0 val_main_c_8 val_main_c_7
    (try simp only [TRef.ofBuf, TRef.toBuf])
    repeat rw [cast_eq]
    all_goals rfl

theorem step_06 {W : Valuation τ sig (Elt F)} {a : Args F} (h : Inv_05 W a) : Inv_06 (after ops_06 W) a := by
  unfold Inv_05 at h; unfold Inv_06
  obtain ⟨hA, h_main_v15, h_main_v33⟩ := h
  refine ⟨hA.keep writes_06, ?_, ?_⟩
  all_goals try exact (after_of_writes_sub ops_06 W writes_06 (by decide)).trans ‹_›
  · after_results
    rw [h_main_v33]
    unfold st_main_call2_v5 val_main_call2_v5 val_main_call2_v4 val_main_call2_v3 val_main_call2_v2 val_main_call2_c_0 val_main_call2_v1 val_main_call2_v0 val_main_call2_c
    (try simp only [TRef.ofBuf, TRef.toBuf])
    repeat rw [cast_eq]
    all_goals rfl

theorem step_07 {W : Valuation τ sig (Elt F)} {a : Args F} (h : Inv_06 W a) : Inv_07 (after ops_07 W) a := by
  unfold Inv_06 at h; unfold Inv_07
  obtain ⟨hA, h_main_v15, h_main_call2_v5⟩ := h
  refine ⟨hA.keep writes_07, ?_, ?_, ?_⟩
  all_goals try exact (after_of_writes_sub ops_07 W writes_07 (by decide)).trans ‹_›
  · after_results
    rw [h_main_call2_v5]
    unfold st_main_call2_v12 val_main_call2_v12 val_main_call2_c_3 val_main_call2_v11 val_main_call2_v10 val_main_call2_v9 val_main_call2_v8 val_main_call2_v7 val_main_call2_v6 val_main_call2_c_2 val_main_call2_c_1
    (try simp only [TRef.ofBuf, TRef.toBuf])
    repeat rw [cast_eq]
    all_goals rfl

theorem step_08 {W : Valuation τ sig (Elt F)} {a : Args F} (h : Inv_07 W a) : Inv_08 (after ops_08 W) a := by
  unfold Inv_07 at h; unfold Inv_08
  obtain ⟨hA, h_main_v15, h_main_call2_v5, h_main_call2_v12⟩ := h
  refine ⟨hA.keep writes_08, ?_, ?_⟩
  all_goals try exact (after_of_writes_sub ops_08 W writes_08 (by decide)).trans ‹_›
  · after_results
    rw [h_main_call2_v12, hA.arg2, h_main_call2_v5, h_main_v15]
    unfold st_main_v38 val_main_v38 val_main_v37 val_main_v36 val_main_v35 val_main_cst_9 val_main_v34 val_main_call2_v14 val_main_call2_cst val_main_call2_v13
    (try simp only [TRef.ofBuf, TRef.toBuf])
    repeat rw [cast_eq]
    all_goals rfl

theorem step_09 {W : Valuation τ sig (Elt F)} {a : Args F} (h : Inv_08 W a) : Inv_09 (after ops_09 W) a := by
  unfold Inv_08 at h; unfold Inv_09
  obtain ⟨hA, h_main_v15, h_main_v38⟩ := h
  refine ⟨hA.keep writes_09, ?_, ?_, ?_⟩
  all_goals try exact (after_of_writes_sub ops_09 W writes_09 (by decide)).trans ‹_›
  · after_results
    rw [hA.arg2, h_main_v15]
    unfold st_main_v43 val_main_v43 val_main_v42 val_main_v41 val_main_v40 val_main_cst_10 val_main_v39
    rfl

theorem step_10 {W : Valuation τ sig (Elt F)} {a : Args F} (h : Inv_09 W a) : Inv_10 (after ops_10 W) a := by
  unfold Inv_09 at h; unfold Inv_10
  obtain ⟨hA, h_main_v15, h_main_v38, h_main_v43⟩ := h
  refine ⟨hA.keep writes_10, ?_, ?_, ?_, ?_⟩
  all_goals try exact (after_of_writes_sub ops_10 W writes_10 (by decide)).trans ‹_›
  · simp only [after_cons, after_nil]
    rw [nary_result]
    show concatenate S65536x164 1 [⟨S65536x80, W (Proc.devRef .tc main_arg0)⟩, ⟨S65536x44, W (Proc.devRef .tc main_v38)⟩, ⟨S65536x40, W (Proc.devRef .tc main_v43)⟩] concatenates_S65536x80_S65536x44_S65536x40_S65536x164_d1 = _
    rw [hA.arg0, h_main_v38, h_main_v43]
    unfold st_main_v44 val_main_v44
    rfl

theorem step_11 {W : Valuation τ sig (Elt F)} {a : Args F} (h : Inv_10 W a) : Inv_11 (after ops_11 W) a := by
  unfold Inv_10 at h; unfold Inv_11
  obtain ⟨hA, h_main_v15, h_main_v38, h_main_v43, h_main_v44⟩ := h
  refine ⟨hA.keep writes_11, ?_, ?_, ?_, ?_, ?_, ?_⟩
  all_goals try exact (after_of_writes_sub ops_11 W writes_11 (by decide)).trans ‹_›
  · after_results
    rw [h_main_v38]
    unfold st_main_v45 val_main_v45
    rfl
  · after_results
    rw [hA.arg6, h_main_v44, hA.arg10]
    unfold st_main_v49 val_main_v49 val_main_v48 val_main_v47 val_main_v46
    rfl
  · after_results
    rw [hA.arg6, h_main_v44, hA.arg10, hA.arg11]
    unfold st_main_v53 val_main_v53 val_main_v52 val_main_v51 val_main_v50 val_main_v49 val_main_v48 val_main_v47 val_main_v46
    rfl

theorem step_12 {W : Valuation τ sig (Elt F)} {a : Args F} (h : Inv_11 W a) : Inv_12 (after ops_12 W) a := by
  unfold Inv_11 at h; unfold Inv_12
  obtain ⟨hA, h_main_v15, h_main_v43, h_main_v44, h_main_v45, h_main_v49, h_main_v53⟩ := h
  refine ⟨hA.keep writes_12, ?_, ?_, ?_, ?_, ?_, ?_⟩
  all_goals try exact (after_of_writes_sub ops_12 W writes_12 (by decide)).trans ‹_›
  · after_results
    rw [h_main_v49, h_main_v53]
    unfold st_main_v58 val_main_v58 val_main_v57 val_main_v56 val_main_cst_12 val_main_v55 val_main_v54 val_main_cst_11
    rfl
  · after_results
    rw [h_main_v49, h_main_v53, hA.arg12]
    unfold st_main_v60 val_main_v60 val_main_v59 val_main_v58 val_main_v57 val_main_v56 val_main_cst_12 val_main_v55 val_main_v54 val_main_cst_11
    rfl

theorem step_13 {W : Valuation τ sig (Elt F)} {a : Args F} (h : Inv_12 W a) : Inv_13 (after ops_13 W) a := by
  unfold Inv_12 at h; unfold Inv_13
  obtain ⟨hA, h_main_v15, h_main_v43, h_main_v44, h_main_v45, h_main_v58, h_main_v60⟩ := h
  refine ⟨hA.keep writes_13, ?_, ?_, ?_, ?_, ?_, ?_⟩
  all_goals try exact (after_of_writes_sub ops_13 W writes_13 (by decide)).trans ‹_›
  · after_results
    rw [h_main_v60, hA.arg13]
    unfold st_main_v67 val_main_v67 val_main_v66 val_main_cst_13 val_main_v65 val_main_v64 val_main_v63 val_main_v62 val_main_v61
    rfl

theorem step_14 {W : Valuation τ sig (Elt F)} {a : Args F} (h : Inv_13 W a) : Inv_14 (after ops_14 W) a := by
  unfold Inv_13 at h; unfold Inv_14
  obtain ⟨hA, h_main_v15, h_main_v43, h_main_v44, h_main_v45, h_main_v58, h_main_v67⟩ := h
  refine ⟨hA.keep writes_14, ?_, ?_, ?_, ?_, ?_, ?_, ?_⟩
  all_goals try exact (after_of_writes_sub ops_14 W writes_14 (by decide)).trans ‹_›
  · after_results
    rw [h_main_v67]
    unfold st_main_v69 val_main_v69 val_main_v68 val_main_cst_14
    rfl
  · after_results
    rw [h_main_v67, h_main_v45]
    unfold st_main_v72 val_main_v72 val_main_v71 val_main_v70 val_main_v69 val_main_v68 val_main_cst_14
    rfl

theorem step_15 {W : Valuation τ sig (Elt F)} {a : Args F} (h : Inv_14 W a) : Inv_15 (after ops_15 W) a := by
  unfold Inv_14 at h; unfold Inv_15
  obtain ⟨hA, h_main_v15, h_main_v43, h_main_v44, h_main_v45, h_main_v58, h_main_v69, h_main_v72⟩ := h
  refine ⟨hA.keep writes_15, ?_, ?_, ?_, ?_, ?_, ?_, ?_⟩
  all_goals try exact (after_of_writes_sub ops_15 W writes_15 (by decide)).trans ‹_›
  · simp only [after_cons, after_nil]
    rw [nary_result]
    show concatenate S65536x272 1 [⟨S65536x192, W (Proc.devRef .tc main_v58)⟩, ⟨S65536x40, W (Proc.devRef .tc main_v72)⟩, ⟨S65536x40, W (Proc.devRef .tc main_v43)⟩] concatenates_S65536x192_S65536x40_S65536x40_S65536x272_d1 = _
    rw [h_main_v58, h_main_v72, h_main_v43]
    unfold st_main_v73 val_main_v73
    rfl

theorem step_16 {W : Valuation τ sig (Elt F)} {a : Args F} (h : Inv_15 W a) : Inv_16 (after ops_16 W) a := by
  unfold Inv_15 at h; unfold Inv_16
  obtain ⟨hA, h_main_v15, h_main_v43, h_main_v44, h_main_v45, h_main_v58, h_main_v69, h_main_v73⟩ := h
  refine ⟨hA.keep writes_16, ?_, ?_, ?_, ?_, ?_, ?_, ?_, ?_, ?_, ?_, ?_, ?_⟩
  all_goals try exact (after_of_writes_sub ops_16 W writes_16 (by decide)).trans ‹_›
  · after_results
    rw [h_main_v73, hA.arg14]
    unfold st_main_v78 val_main_v78 val_main_v75 val_main_v74
    rfl
  · after_results
    rw [h_main_v73, hA.arg14]
    unfold st_main_v79 val_main_v79 val_main_v75 val_main_v74
    rfl
  · after_results
    rw [h_main_v73, hA.arg14]
    unfold st_main_v80 val_main_v80 val_main_v75 val_main_v74
    rfl
  · after_results
    rw [hA.arg3, hA.arg15]
    unfold st_main_v81 val_main_v81 val_main_v77 val_main_v76
    rfl
  · after_results
    rw [hA.arg3, hA.arg15]
    unfold st_main_v82 val_main_v82 val_main_v77 val_main_v76
    rfl
  · after_results
    rw [hA.arg3, hA.arg15]
    unfold st_main_v83 val_main_v83 val_main_v77 val_main_v76
    rfl

theorem step_17 {W : Valuation τ sig (Elt F)} {a : Args F} (h : Inv_16 W a) : Inv_17 (after ops_17 W) a := by
  unfold Inv_16 at h; unfold Inv_17
  obtain ⟨hA, h_main_v15, h_main_v43, h_main_v44, h_main_v45, h_main_v58, h_main_v69, h_main_v78, h_main_v79, h_main_v80, h_main_v81, h_main_v82, h_main_v83⟩ := h
  refine ⟨hA.keep writes_17, ?_, ?_, ?_, ?_, ?_, ?_, ?_, ?_, ?_, ?_, ?_⟩
  all_goals try exact (after_of_writes_sub ops_17 W writes_17 (by decide)).trans ‹_›
  · after_results
    rw [h_main_v78, h_main_v81]
    unfold st_main_v90 val_main_v90 val_main_v89 val_main_cst_16 val_main_v88 val_main_v87 val_main_cst_15 val_main_v86 val_main_v85 val_main_v84
    rfl

theorem step_18 {W : Valuation τ sig (Elt F)} {a : Args F} (h : Inv_17 W a) : Inv_18 (after ops_18 W) a := by
  unfold Inv_17 at h; unfold Inv_18
  obtain ⟨hA, h_main_v15, h_main_v43, h_main_v44, h_main_v45, h_main_v58, h_main_v69, h_main_v79, h_main_v80, h_main_v82, h_main_v83, h_main_v90⟩ := h
  refine ⟨hA.keep writes_18, ?_, ?_, ?_, ?_, ?_, ?_, ?_, ?_, ?_, ?_⟩
  all_goals try exact (after_of_writes_sub ops_18 W writes_18 (by decide)).trans ‹_›
  · after_results
    rw [h_main_v79, h_main_v82]
    unfold st_main_v97 val_main_v97 val_main_v96 val_main_cst_18 val_main_v95 val_main_v94 val_main_cst_17 val_main_v93 val_main_v92 val_main_v91
    rfl

theorem step_19 {W : Valuation τ sig (Elt F)} {a : Args F} (h : Inv_18 W a) : Inv_19 (after ops_19 W) a := by
  unfold Inv_18 at h; unfold Inv_19
  obtain ⟨hA, h_main_v15, h_main_v43, h_main_v44, h_main_v45, h_main_v58, h_main_v69, h_main_v80, h_main_v83, h_main_v90, h_main_v97⟩ := h
  refine ⟨hA.keep writes_19, ?_, ?_, ?_, ?_, ?_, ?_, ?_⟩
  all_goals try exact (after_of_writes_sub ops_19 W writes_19 (by decide)).trans ‹_›
  · after_results
    rw [h_main_v97, h_main_v80, h_main_v90, h_main_v83, hA.arg3]
    unfold st_main_v105 val_main_v105 val_main_v104 val_main_v103 val_main_v102 val_main_v101 val_main_cst_19 val_main_v100 val_main_v99 val_main_v98
    rfl

end Cert.ReferenceIdeal.HandRun

end
-- ==== Proof.RefRunB.lean ====
import proofs.«401269_j23398981829052_3_alg».proof.Proof.RefRunInv

noncomputable section

namespace Cert.ReferenceIdeal.HandRun

open Cert.ReferenceIdeal Cert.ReferenceIdeal.Gen Cert.ReferenceIdeal.Ops Cert.ReferenceIdeal.Read Idealize.ShloMosaic Idealize.ShloMosaic.TcCoe Idealize.SL.Sem Idealize.ShloMosaic.StableHlo

variable {F : FTy → Type} [FloatOps F]

abbrev ops_20 : List (HloOp τ sig (Elt F)) :=
  [ unary main_arg16 main_v106 ((transpose S160x160 [1, 0] · transposes_S160x160_S160x160_1_0) : (⟨S160x160, .f32⟩ : BufTy).Contents (Elt F) → (⟨S160x160, .f32⟩ : BufTy).Contents (Elt F)),
    binary main_v105 main_v106 main_v107 ((fun l r => Host.dotGeneral dot_S65536x160_S160x160_S65536x160_1_0_0_1_n_n none l r) : (⟨S65536x160, .f32⟩ : BufTy).Contents (Elt F) → (⟨S160x160, .f32⟩ : BufTy).Contents (Elt F) → (⟨S65536x160, .f32⟩ : BufTy).Contents (Elt F)),
    unary main_v107 main_v108 (Host.negf : (⟨S65536x160, .f32⟩ : BufTy).Contents (Elt F) → (⟨S65536x160, .f32⟩ : BufTy).Contents (Elt F)),
    unary main_v108 main_v109 (Host.exp : (⟨S65536x160, .f32⟩ : BufTy).Contents (Elt F) → (⟨S65536x160, .f32⟩ : BufTy).Contents (Elt F)),
    nullary main_cst_20 (constant S_ .f32 0x3F800000#32),
    unary main_cst_20 main_v110 (broadcastInDim S65536x160 ![] bcast_S_S65536x160 : (⟨S_, .f32⟩ : BufTy).Contents (Elt F) → (⟨S65536x160, .f32⟩ : BufTy).Contents (Elt F)),
    binary main_v110 main_v109 main_v111 (addf : (⟨S65536x160, .f32⟩ : BufTy).Contents (Elt F) → (⟨S65536x160, .f32⟩ : BufTy).Contents (Elt F) → (⟨S65536x160, .f32⟩ : BufTy).Contents (Elt F)),
    nullary main_cst_21 (constant S_ .f32 0x3F800000#32),
    unary main_cst_21 main_v112 (broadcastInDim S65536x160 ![] bcast_S_S65536x160 : (⟨S_, .f32⟩ : BufTy).Contents (Elt F) → (⟨S65536x160, .f32⟩ : BufTy).Contents (Elt F)),
    binary main_v112 main_v111 main_v113 (Host.divf : (⟨S65536x160, .f32⟩ : BufTy).Contents (Elt F) → (⟨S65536x160, .f32⟩ : BufTy).Contents (Elt F) → (⟨S65536x160, .f32⟩ : BufTy).Contents (Elt F)),
    binary main_v105 main_v113 main_v114 (mulf : (⟨S65536x160, .f32⟩ : BufTy).Contents (Elt F) → (⟨S65536x160, .f32⟩ : BufTy).Contents (Elt F) → (⟨S65536x160, .f32⟩ : BufTy).Contents (Elt F)) ]

abbrev ops_21 : List (HloOp τ sig (Elt F)) :=
  [ unary main_v69 main_v115 ((extractStridedSlice S65536x1 ![0, 1] · slices_S65536x4_S65536x1_0_1) : (⟨S65536x4, .f32⟩ : BufTy).Contents (Elt F) → (⟨S65536x1, .f32⟩ : BufTy).Contents (Elt F)),
    unary main_v115 main_v116 (broadcastInDim S65536x40 ![0, 1] bcast_S65536x1_S65536x40_0_1 : (⟨S65536x1, .f32⟩ : BufTy).Contents (Elt F) → (⟨S65536x40, .f32⟩ : BufTy).Contents (Elt F)),
    binary main_v116 main_v45 main_v117 (mulf : (⟨S65536x40, .f32⟩ : BufTy).Contents (Elt F) → (⟨S65536x40, .f32⟩ : BufTy).Contents (Elt F) → (⟨S65536x40, .f32⟩ : BufTy).Contents (Elt F)) ]

abbrev ops_22 : List (HloOp τ sig (Elt F)) :=
  [ nary ![main_v114, main_v117, main_v43] main_v118 (fun u => concatenate S65536x240 1 [⟨S65536x160, u 0⟩, ⟨S65536x40, u 1⟩, ⟨S65536x40, u 2⟩] concatenates_S65536x160_S65536x40_S65536x40_S65536x240_d1) ]

abbrev ops_23 : List (HloOp τ sig (Elt F)) :=
  [ unary main_arg17 main_v119 ((transpose S240x384 [1, 0] · transposes_S384x240_S240x384_1_0) : (⟨S384x240, .f32⟩ : BufTy).Contents (Elt F) → (⟨S240x384, .f32⟩ : BufTy).Contents (Elt F)),
    binary main_v118 main_v119 main_v120 ((fun l r => Host.dotGeneral dot_S65536x240_S240x384_S65536x384_1_0_0_1_n_n none l r) : (⟨S65536x240, .f32⟩ : BufTy).Contents (Elt F) → (⟨S240x384, .f32⟩ : BufTy).Contents (Elt F) → (⟨S65536x384, .f32⟩ : BufTy).Contents (Elt F)),
    unary main_arg18 main_v121 ((transpose S128x384 [1, 0] · transposes_S384x128_S128x384_1_0) : (⟨S384x128, .f32⟩ : BufTy).Contents (Elt F) → (⟨S128x384, .f32⟩ : BufTy).Contents (Elt F)),
    binary main_arg4 main_v121 main_v122 ((fun l r => Host.dotGeneral dot_S65536x128_S128x384_S65536x384_1_0_0_1_n_n none l r) : (⟨S65536x128, .f32⟩ : BufTy).Contents (Elt F) → (⟨S128x384, .f32⟩ : BufTy).Contents (Elt F) → (⟨S65536x384, .f32⟩ : BufTy).Contents (Elt F)),
    unary main_v120 main_v123 ((extractStridedSlice S65536x128 ![0, 0] · slices_S65536x384_S65536x128_0_0) : (⟨S65536x384, .f32⟩ : BufTy).Contents (Elt F) → (⟨S65536x128, .f32⟩ : BufTy).Contents (Elt F)),
    unary main_v120 main_v124 ((extractStridedSlice S65536x128 ![0, 128] · slices_S65536x384_S65536x128_0_128) : (⟨S65536x384, .f32⟩ : BufTy).Contents (Elt F) → (⟨S65536x128, .f32⟩ : BufTy).Contents (Elt F)),
    unary main_v120 main_v125 ((extractStridedSlice S65536x128 ![0, 256] · slices_S65536x384_S65536x128_0_256) : (⟨S65536x384, .f32⟩ : BufTy).Contents (Elt F) → (⟨S65536x128, .f32⟩ : BufTy).Contents (Elt F)),
    unary main_v122 main_v126 ((extractStridedSlice S65536x128 ![0, 0] · slices_S65536x384_S65536x128_0_0) : (⟨S65536x384, .f32⟩ : BufTy).Contents (Elt F) → (⟨S65536x128, .f32⟩ : BufTy).Contents (Elt F)),
    unary main_v122 main_v127 ((extractStridedSlice S65536x128 ![0, 128] · slices_S65536x384_S65536x128_0_128) : (⟨S65536x384, .f32⟩ : BufTy).Contents (Elt F) → (⟨S65536x128, .f32⟩ : BufTy).Contents (Elt F)),
    unary main_v122 main_v128 ((extractStridedSlice S65536x128 ![0, 256] · slices_S65536x384_S65536x128_0_256) : (⟨S65536x384, .f32⟩ : BufTy).Contents (Elt F) → (⟨S65536x128, .f32⟩ : BufTy).Contents (Elt F)) ]

abbrev ops_24 : List (HloOp τ sig (Elt F)) :=
  [ binary main_v123 main_v126 main_v129 (addf : (⟨S65536x128, .f32⟩ : BufTy).Contents (Elt F) → (⟨S65536x128, .f32⟩ : BufTy).Contents (Elt F) → (⟨S65536x128, .f32⟩ : BufTy).Contents (Elt F)),
    unary main_v129 main_v130 (Host.negf : (⟨S65536x128, .f32⟩ : BufTy).Contents (Elt F) → (⟨S65536x128, .f32⟩ : BufTy).Contents (Elt F)),
    unary main_v130 main_v131 (Host.exp : (⟨S65536x128, .f32⟩ : BufTy).Contents (Elt F) → (⟨S65536x128, .f32⟩ : BufTy).Contents (Elt F)),
    nullary main_cst_22 (constant S_ .f32 0x3F800000#32),
    unary main_cst_22 main_v132 (broadcastInDim S65536x128 ![] bcast_S_S65536x128 : (⟨S_, .f32⟩ : BufTy).Contents (Elt F) → (⟨S65536x128, .f32⟩ : BufTy).Contents (Elt F)),
    binary main_v132 main_v131 main_v133 (addf : (⟨S65536x128, .f32⟩ : BufTy).Contents (Elt F) → (⟨S65536x128, .f32⟩ : BufTy).Contents (Elt F) → (⟨S65536x128, .f32⟩ : BufTy).Contents (Elt F)),
    nullary main_cst_23 (constant S_ .f32 0x3F800000#32),
    unary main_cst_23 main_v134 (broadcastInDim S65536x128 ![] bcast_S_S65536x128 : (⟨S_, .f32⟩ : BufTy).Contents (Elt F) → (⟨S65536x128, .f32⟩ : BufTy).Contents (Elt F)),
    binary main_v134 main_v133 main_v135 (Host.divf : (⟨S65536x128, .f32⟩ : BufTy).Contents (Elt F) → (⟨S65536x128, .f32⟩ : BufTy).Contents (Elt F) → (⟨S65536x128, .f32⟩ : BufTy).Contents (Elt F)) ]

abbrev ops_25 : List (HloOp τ sig (Elt F)) :=
  [ binary main_v124 main_v127 main_v136 (addf : (⟨S65536x128, .f32⟩ : BufTy).Contents (Elt F) → (⟨S65536x128, .f32⟩ : BufTy).Contents (Elt F) → (⟨S65536x128, .f32⟩ : BufTy).Contents (Elt F)),
    unary main_v136 main_v137 (Host.negf : (⟨S65536x128, .f32⟩ : BufTy).Contents (Elt F) → (⟨S65536x128, .f32⟩ : BufTy).Contents (Elt F)),
    unary main_v137 main_v138 (Host.exp : (⟨S65536x128, .f32⟩ : BufTy).Contents (Elt F) → (⟨S65536x128, .f32⟩ : BufTy).Contents (Elt F)),
    nullary main_cst_24 (constant S_ .f32 0x3F800000#32),
    unary main_cst_24 main_v139 (broadcastInDim S65536x128 ![] bcast_S_S65536x128 : (⟨S_, .f32⟩ : BufTy).Contents (Elt F) → (⟨S65536x128, .f32⟩ : BufTy).Contents (Elt F)),
    binary main_v139 main_v138 main_v140 (addf : (⟨S65536x128, .f32⟩ : BufTy).Contents (Elt F) → (⟨S65536x128, .f32⟩ : BufTy).Contents (Elt F) → (⟨S65536x128, .f32⟩ : BufTy).Contents (Elt F)),
    nullary main_cst_25 (constant S_ .f32 0x3F800000#32),
    unary main_cst_25 main_v141 (broadcastInDim S65536x128 ![] bcast_S_S65536x128 : (⟨S_, .f32⟩ : BufTy).Contents (Elt F) → (⟨S65536x128, .f32⟩ : BufTy).Contents (Elt F)),
    binary main_v141 main_v140 main_v142 (Host.divf : (⟨S65536x128, .f32⟩ : BufTy).Contents (Elt F) → (⟨S65536x128, .f32⟩ : BufTy).Contents (Elt F) → (⟨S65536x128, .f32⟩ : BufTy).Contents (Elt F)) ]

abbrev ops_26 : List (HloOp τ sig (Elt F)) :=
  [ binary main_v135 main_v128 main_v143 (mulf : (⟨S65536x128, .f32⟩ : BufTy).Contents (Elt F) → (⟨S65536x128, .f32⟩ : BufTy).Contents (Elt F) → (⟨S65536x128, .f32⟩ : BufTy).Contents (Elt F)),
    binary main_v125 main_v143 main_v144 (addf : (⟨S65536x128, .f32⟩ : BufTy).Contents (Elt F) → (⟨S65536x128, .f32⟩ : BufTy).Contents (Elt F) → (⟨S65536x128, .f32⟩ : BufTy).Contents (Elt F)),
    unary main_v144 main_v145 (Host.tanh : (⟨S65536x128, .f32⟩ : BufTy).Contents (Elt F) → (⟨S65536x128, .f32⟩ : BufTy).Contents (Elt F)),
    nullary main_cst_26 (constant S_ .f32 0x3F800000#32),
    unary main_cst_26 main_v146 (broadcastInDim S65536x128 ![] bcast_S_S65536x128 : (⟨S_, .f32⟩ : BufTy).Contents (Elt F) → (⟨S65536x128, .f32⟩ : BufTy).Contents (Elt F)),
    binary main_v146 main_v142 main_v147 (subf : (⟨S65536x128, .f32⟩ : BufTy).Contents (Elt F) → (⟨S65536x128, .f32⟩ : BufTy).Contents (Elt F) → (⟨S65536x128, .f32⟩ : BufTy).Contents (Elt F)),
    binary main_v147 main_v145 main_v148 (mulf : (⟨S65536x128, .f32⟩ : BufTy).Contents (Elt F) → (⟨S65536x128, .f32⟩ : BufTy).Contents (Elt F) → (⟨S65536x128, .f32⟩ : BufTy).Contents (Elt F)),
    binary main_v142 main_arg4 main_v149 (mulf : (⟨S65536x128, .f32⟩ : BufTy).Contents (Elt F) → (⟨S65536x128, .f32⟩ : BufTy).Contents (Elt F) → (⟨S65536x128, .f32⟩ : BufTy).Contents (Elt F)),
    binary main_v148 main_v149 main_v150 (addf : (⟨S65536x128, .f32⟩ : BufTy).Contents (Elt F) → (⟨S65536x128, .f32⟩ : BufTy).Contents (Elt F) → (⟨S65536x128, .f32⟩ : BufTy).Contents (Elt F)) ]

abbrev ops_27 : List (HloOp τ sig (Elt F)) :=
  [ unary main_arg19 main_v151 ((transpose S128x128 [1, 0] · transposes_S128x128_S128x128_1_0) : (⟨S128x128, .f32⟩ : BufTy).Contents (Elt F) → (⟨S128x128, .f32⟩ : BufTy).Contents (Elt F)),
    binary main_v150 main_v151 main_v152 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    unary main_v152 main_v153 (Host.negf : (⟨S65536x128, .f32⟩ : BufTy).Contents (Elt F) → (⟨S65536x128, .f32⟩ : BufTy).Contents (Elt F)),
    unary main_v153 main_v154 (Host.exp : (⟨S65536x128, .f32⟩ : BufTy).Contents (Elt F) → (⟨S65536x128, .f32⟩ : BufTy).Contents (Elt F)),
    nullary main_cst_27 (constant S_ .f32 0x3F800000#32),
    unary main_cst_27 main_v155 (broadcastInDim S65536x128 ![] bcast_S_S65536x128 : (⟨S_, .f32⟩ : BufTy).Contents (Elt F) → (⟨S65536x128, .f32⟩ : BufTy).Contents (Elt F)),
    binary main_v155 main_v154 main_v156 (addf : (⟨S65536x128, .f32⟩ : BufTy).Contents (Elt F) → (⟨S65536x128, .f32⟩ : BufTy).Contents (Elt F) → (⟨S65536x128, .f32⟩ : BufTy).Contents (Elt F)),
    nullary main_cst_28 (constant S_ .f32 0x3F800000#32),
    unary main_cst_28 main_v157 (broadcastInDim S65536x128 ![] bcast_S_S65536x128 : (⟨S_, .f32⟩ : BufTy).Contents (Elt F) → (⟨S65536x128, .f32⟩ : BufTy).Contents (Elt F)),
    binary main_v157 main_v156 main_v158 (Host.divf : (⟨S65536x128, .f32⟩ : BufTy).Contents (Elt F) → (⟨S65536x128, .f32⟩ : BufTy).Contents (Elt F) → (⟨S65536x128, .f32⟩ : BufTy).Contents (Elt F)),
    binary main_v150 main_v158 main_v159 (mulf : (⟨S65536x128, .f32⟩ : BufTy).Contents (Elt F) → (⟨S65536x128, .f32⟩ : BufTy).Contents (Elt F) → (⟨S65536x128, .f32⟩ : BufTy).Contents (Elt F)) ]

abbrev ops_28 : List (HloOp τ sig (Elt F)) :=
  [ unary main_v69 main_v160 ((extractStridedSlice S65536x1 ![0, 2] · slices_S65536x4_S65536x1_0_2) : (⟨S65536x4, .f32⟩ : BufTy).Contents (Elt F) → (⟨S65536x1, .f32⟩ : BufTy).Contents (Elt F)),
    unary main_v160 main_v161 (broadcastInDim S65536x40 ![0, 1] bcast_S65536x1_S65536x40_0_1 : (⟨S65536x1, .f32⟩ : BufTy).Contents (Elt F) → (⟨S65536x40, .f32⟩ : BufTy).Contents (Elt F)),
    binary main_v161 main_v45 main_v162 (mulf : (⟨S65536x40, .f32⟩ : BufTy).Contents (Elt F) → (⟨S65536x40, .f32⟩ : BufTy).Contents (Elt F) → (⟨S65536x40, .f32⟩ : BufTy).Contents (Elt F)) ]

abbrev ops_29 : List (HloOp τ sig (Elt F)) :=
  [ nary ![main_v159, main_v162, main_v43] main_v163 (fun u => concatenate S65536x208 1 [⟨S65536x128, u 0⟩, ⟨S65536x40, u 1⟩, ⟨S65536x40, u 2⟩] concatenates_S65536x128_S65536x40_S65536x40_S65536x208_d1) ]

abbrev ops_30 : List (HloOp τ sig (Elt F)) :=
  [ unary main_arg20 main_v164 ((transpose S208x384 [1, 0] · transposes_S384x208_S208x384_1_0) : (⟨S384x208, .f32⟩ : BufTy).Contents (Elt F) → (⟨S208x384, .f32⟩ : BufTy).Contents (Elt F)),
    binary main_v163 main_v164 main_v165 ((fun l r => Host.dotGeneral dot_S65536x208_S208x384_S65536x384_1_0_0_1_n_n none l r) : (⟨S65536x208, .f32⟩ : BufTy).Contents (Elt F) → (⟨S208x384, .f32⟩ : BufTy).Contents (Elt F) → (⟨S65536x384, .f32⟩ : BufTy).Contents (Elt F)),
    unary main_arg21 main_v166 ((transpose S128x384 [1, 0] · transposes_S384x128_S128x384_1_0) : (⟨S384x128, .f32⟩ : BufTy).Contents (Elt F) → (⟨S128x384, .f32⟩ : BufTy).Contents (Elt F)),
    binary main_arg5 main_v166 main_v167 ((fun l r => Host.dotGeneral dot_S65536x128_S128x384_S65536x384_1_0_0_1_n_n none l r) : (⟨S65536x128, .f32⟩ : BufTy).Contents (Elt F) → (⟨S128x384, .f32⟩ : BufTy).Contents (Elt F) → (⟨S65536x384, .f32⟩ : BufTy).Contents (Elt F)),
    unary main_v165 main_v168 ((extractStridedSlice S65536x128 ![0, 0] · slices_S65536x384_S65536x128_0_0) : (⟨S65536x384, .f32⟩ : BufTy).Contents (Elt F) → (⟨S65536x128, .f32⟩ : BufTy).Contents (Elt F)),
    unary main_v165 main_v169 ((extractStridedSlice S65536x128 ![0, 128] · slices_S65536x384_S65536x128_0_128) : (⟨S65536x384, .f32⟩ : BufTy).Contents (Elt F) → (⟨S65536x128, .f32⟩ : BufTy).Contents (Elt F)),
    unary main_v165 main_v170 ((extractStridedSlice S65536x128 ![0, 256] · slices_S65536x384_S65536x128_0_256) : (⟨S65536x384, .f32⟩ : BufTy).Contents (Elt F) → (⟨S65536x128, .f32⟩ : BufTy).Contents (Elt F)),
    unary main_v167 main_v171 ((extractStridedSlice S65536x128 ![0, 0] · slices_S65536x384_S65536x128_0_0) : (⟨S65536x384, .f32⟩ : BufTy).Contents (Elt F) → (⟨S65536x128, .f32⟩ : BufTy).Contents (Elt F)),
    unary main_v167 main_v172 ((extractStridedSlice S65536x128 ![0, 128] · slices_S65536x384_S65536x128_0_128) : (⟨S65536x384, .f32⟩ : BufTy).Contents (Elt F) → (⟨S65536x128, .f32⟩ : BufTy).Contents (Elt F)),
    unary main_v167 main_v173 ((extractStridedSlice S65536x128 ![0, 256] · slices_S65536x384_S65536x128_0_256) : (⟨S65536x384, .f32⟩ : BufTy).Contents (Elt F) → (⟨S65536x128, .f32⟩ : BufTy).Contents (Elt F)) ]

abbrev ops_31 : List (HloOp τ sig (Elt F)) :=
  [ binary main_v168 main_v171 main_v174 (addf : (⟨S65536x128, .f32⟩ : BufTy).Contents (Elt F) → (⟨S65536x128, .f32⟩ : BufTy).Contents (Elt F) → (⟨S65536x128, .f32⟩ : BufTy).Contents (Elt F)),
    unary main_v174 main_v175 (Host.negf : (⟨S65536x128, .f32⟩ : BufTy).Contents (Elt F) → (⟨S65536x128, .f32⟩ : BufTy).Contents (Elt F)),
    unary main_v175 main_v176 (Host.exp : (⟨S65536x128, .f32⟩ : BufTy).Contents (Elt F) → (⟨S65536x128, .f32⟩ : BufTy).Contents (Elt F)),
    nullary main_cst_29 (constant S_ .f32 0x3F800000#32),
    unary main_cst_29 main_v177 (broadcastInDim S65536x128 ![] bcast_S_S65536x128 : (⟨S_, .f32⟩ : BufTy).Contents (Elt F) → (⟨S65536x128, .f32⟩ : BufTy).Contents (Elt F)),
    binary main_v177 main_v176 main_v178 (addf : (⟨S65536x128, .f32⟩ : BufTy).Contents (Elt F) → (⟨S65536x128, .f32⟩ : BufTy).Contents (Elt F) → (⟨S65536x128, .f32⟩ : BufTy).Contents (Elt F)),
    nullary main_cst_30 (constant S_ .f32 0x3F800000#32),
    unary main_cst_30 main_v179 (broadcastInDim S65536x128 ![] bcast_S_S65536x128 : (⟨S_, .f32⟩ : BufTy).Contents (Elt F) → (⟨S65536x128, .f32⟩ : BufTy).Contents (Elt F)),
    binary main_v179 main_v178 main_v180 (Host.divf : (⟨S65536x128, .f32⟩ : BufTy).Contents (Elt F) → (⟨S65536x128, .f32⟩ : BufTy).Contents (Elt F) → (⟨S65536x128, .f32⟩ : BufTy).Contents (Elt F)) ]

abbrev ops_32 : List (HloOp τ sig (Elt F)) :=
  [ binary main_v169 main_v172 main_v181 (addf : (⟨S65536x128, .f32⟩ : BufTy).Contents (Elt F) → (⟨S65536x128, .f32⟩ : BufTy).Contents (Elt F) → (⟨S65536x128, .f32⟩ : BufTy).Contents (Elt F)),
    unary main_v181 main_v182 (Host.negf : (⟨S65536x128, .f32⟩ : BufTy).Contents (Elt F) → (⟨S65536x128, .f32⟩ : BufTy).Contents (Elt F)),
    unary main_v182 main_v183 (Host.exp : (⟨S65536x128, .f32⟩ : BufTy).Contents (Elt F) → (⟨S65536x128, .f32⟩ : BufTy).Contents (Elt F)),
    nullary main_cst_31 (constant S_ .f32 0x3F800000#32),
    unary main_cst_31 main_v184 (broadcastInDim S65536x128 ![] bcast_S_S65536x128 : (⟨S_, .f32⟩ : BufTy).Contents (Elt F) → (⟨S65536x128, .f32⟩ : BufTy).Contents (Elt F)),
    binary main_v184 main_v183 main_v185 (addf : (⟨S65536x128, .f32⟩ : BufTy).Contents (Elt F) → (⟨S65536x128, .f32⟩ : BufTy).Contents (Elt F) → (⟨S65536x128, .f32⟩ : BufTy).Contents (Elt F)),
    nullary main_cst_32 (constant S_ .f32 0x3F800000#32),
    unary main_cst_32 main_v186 (broadcastInDim S65536x128 ![] bcast_S_S65536x128 : (⟨S_, .f32⟩ : BufTy).Contents (Elt F) → (⟨S65536x128, .f32⟩ : BufTy).Contents (Elt F)),
    binary main_v186 main_v185 main_v187 (Host.divf : (⟨S65536x128, .f32⟩ : BufTy).Contents (Elt F) → (⟨S65536x128, .f32⟩ : BufTy).Contents (Elt F) → (⟨S65536x128, .f32⟩ : BufTy).Contents (Elt F)) ]

abbrev ops_33 : List (HloOp τ sig (Elt F)) :=
  [ binary main_v180 main_v173 main_v188 (mulf : (⟨S65536x128, .f32⟩ : BufTy).Contents (Elt F) → (⟨S65536x128, .f32⟩ : BufTy).Contents (Elt F) → (⟨S65536x128, .f32⟩ : BufTy).Contents (Elt F)),
    binary main_v170 main_v188 main_v189 (addf : (⟨S65536x128, .f32⟩ : BufTy).Contents (Elt F) → (⟨S65536x128, .f32⟩ : BufTy).Contents (Elt F) → (⟨S65536x128, .f32⟩ : BufTy).Contents (Elt F)),
    unary main_v189 main_v190 (Host.tanh : (⟨S65536x128, .f32⟩ : BufTy).Contents (Elt F) → (⟨S65536x128, .f32⟩ : BufTy).Contents (Elt F)),
    nullary main_cst_33 (constant S_ .f32 0x3F800000#32),
    unary main_cst_33 main_v191 (broadcastInDim S65536x128 ![] bcast_S_S65536x128 : (⟨S_, .f32⟩ : BufTy).Contents (Elt F) → (⟨S65536x128, .f32⟩ : BufTy).Contents (Elt F)),
    binary main_v191 main_v187 main_v192 (subf : (⟨S65536x128, .f32⟩ : BufTy).Contents (Elt F) → (⟨S65536x128, .f32⟩ : BufTy).Contents (Elt F) → (⟨S65536x128, .f32⟩ : BufTy).Contents (Elt F)),
    binary main_v192 main_v190 main_v193 (mulf : (⟨S65536x128, .f32⟩ : BufTy).Contents (Elt F) → (⟨S65536x128, .f32⟩ : BufTy).Contents (Elt F) → (⟨S65536x128, .f32⟩ : BufTy).Contents (Elt F)),
    binary main_v187 main_arg5 main_v194 (mulf : (⟨S65536x128, .f32⟩ : BufTy).Contents (Elt F) → (⟨S65536x128, .f32⟩ : BufTy).Contents (Elt F) → (⟨S65536x128, .f32⟩ : BufTy).Contents (Elt F)),
    binary main_v193 main_v194 main_v195 (addf : (⟨S65536x128, .f32⟩ : BufTy).Contents (Elt F) → (⟨S65536x128, .f32⟩ : BufTy).Contents (Elt F) → (⟨S65536x128, .f32⟩ : BufTy).Contents (Elt F)) ]

abbrev ops_34 : List (HloOp τ sig (Elt F)) :=
  [ unary main_arg22 main_v196 ((transpose S128x128 [1, 0] · transposes_S128x128_S128x128_1_0) : (⟨S128x128, .f32⟩ : BufTy).Contents (Elt F) → (⟨S128x128, .f32⟩ : BufTy).Contents (Elt F)),
    binary main_v195 main_v196 main_v197 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    unary main_v197 main_v198 (Host.negf : (⟨S65536x128, .f32⟩ : BufTy).Contents (Elt F) → (⟨S65536x128, .f32⟩ : BufTy).Contents (Elt F)),
    unary main_v198 main_v199 (Host.exp : (⟨S65536x128, .f32⟩ : BufTy).Contents (Elt F) → (⟨S65536x128, .f32⟩ : BufTy).Contents (Elt F)),
    nullary main_cst_34 (constant S_ .f32 0x3F800000#32),
    unary main_cst_34 main_v200 (broadcastInDim S65536x128 ![] bcast_S_S65536x128 : (⟨S_, .f32⟩ : BufTy).Contents (Elt F) → (⟨S65536x128, .f32⟩ : BufTy).Contents (Elt F)),
    binary main_v200 main_v199 main_v201 (addf : (⟨S65536x128, .f32⟩ : BufTy).Contents (Elt F) → (⟨S65536x128, .f32⟩ : BufTy).Contents (Elt F) → (⟨S65536x128, .f32⟩ : BufTy).Contents (Elt F)),
    nullary main_cst_35 (constant S_ .f32 0x3F800000#32),
    unary main_cst_35 main_v202 (broadcastInDim S65536x128 ![] bcast_S_S65536x128 : (⟨S_, .f32⟩ : BufTy).Contents (Elt F) → (⟨S65536x128, .f32⟩ : BufTy).Contents (Elt F)),
    binary main_v202 main_v201 main_v203 (Host.divf : (⟨S65536x128, .f32⟩ : BufTy).Contents (Elt F) → (⟨S65536x128, .f32⟩ : BufTy).Contents (Elt F) → (⟨S65536x128, .f32⟩ : BufTy).Contents (Elt F)),
    binary main_v195 main_v203 main_v204 (mulf : (⟨S65536x128, .f32⟩ : BufTy).Contents (Elt F) → (⟨S65536x128, .f32⟩ : BufTy).Contents (Elt F) → (⟨S65536x128, .f32⟩ : BufTy).Contents (Elt F)) ]

abbrev ops_35 : List (HloOp τ sig (Elt F)) :=
  [ unary main_v69 main_v205 ((extractStridedSlice S65536x1 ![0, 3] · slices_S65536x4_S65536x1_0_3) : (⟨S65536x4, .f32⟩ : BufTy).Contents (Elt F) → (⟨S65536x1, .f32⟩ : BufTy).Contents (Elt F)),
    unary main_v205 main_v206 (broadcastInDim S65536x40 ![0, 1] bcast_S65536x1_S65536x40_0_1 : (⟨S65536x1, .f32⟩ : BufTy).Contents (Elt F) → (⟨S65536x40, .f32⟩ : BufTy).Contents (Elt F)),
    binary main_v206 main_v45 main_v207 (mulf : (⟨S65536x40, .f32⟩ : BufTy).Contents (Elt F) → (⟨S65536x40, .f32⟩ : BufTy).Contents (Elt F) → (⟨S65536x40, .f32⟩ : BufTy).Contents (Elt F)) ]

abbrev ops_36 : List (HloOp τ sig (Elt F)) :=
  [ nary ![main_v114, main_v159, main_v204, main_v58, main_v207, main_v43] main_v208 (fun u => concatenate S65536x688 1 [⟨S65536x160, u 0⟩, ⟨S65536x128, u 1⟩, ⟨S65536x128, u 2⟩, ⟨S65536x192, u 3⟩, ⟨S65536x40, u 4⟩, ⟨S65536x40, u 5⟩] concatenates_S65536x160_S65536x128_S65536x128_S65536x192_S65536x40_S65536x40_S65536x688_d1) ]

abbrev ops_37 : List (HloOp τ sig (Elt F)) :=
  [ unary main_arg23 main_v209 ((transpose S688x128 [1, 0] · transposes_S128x688_S688x128_1_0) : (⟨S128x688, .f32⟩ : BufTy).Contents (Elt F) → (⟨S688x128, .f32⟩ : BufTy).Contents (Elt F)),
    binary main_v208 main_v209 main_v210 ((fun l r => Host.dotGeneral dot_S65536x688_S688x128_S65536x128_1_0_0_1_n_n none l r) : (⟨S65536x688, .f32⟩ : BufTy).Contents (Elt F) → (⟨S688x128, .f32⟩ : BufTy).Contents (Elt F) → (⟨S65536x128, .f32⟩ : BufTy).Contents (Elt F)),
    unary main_v210 main_v211 (Host.tanh : (⟨S65536x128, .f32⟩ : BufTy).Contents (Elt F) → (⟨S65536x128, .f32⟩ : BufTy).Contents (Elt F)),
    unary main_arg24 main_v212 ((transpose S128x128 [1, 0] · transposes_S128x128_S128x128_1_0) : (⟨S128x128, .f32⟩ : BufTy).Contents (Elt F) → (⟨S128x128, .f32⟩ : BufTy).Contents (Elt F)),
    binary main_v211 main_v212 main_v213 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    unary main_v213 main_v214 (Host.negf : (⟨S65536x128, .f32⟩ : BufTy).Contents (Elt F) → (⟨S65536x128, .f32⟩ : BufTy).Contents (Elt F)),
    unary main_v214 main_v215 (Host.exp : (⟨S65536x128, .f32⟩ : BufTy).Contents (Elt F) → (⟨S65536x128, .f32⟩ : BufTy).Contents (Elt F)) ]

abbrev ops_38 : List (HloOp τ sig (Elt F)) :=
  [ nullary main_cst_36 (constant S_ .f32 0x3F800000#32),
    unary main_cst_36 main_v216 (broadcastInDim S65536x128 ![] bcast_S_S65536x128 : (⟨S_, .f32⟩ : BufTy).Contents (Elt F) → (⟨S65536x128, .f32⟩ : BufTy).Contents (Elt F)),
    binary main_v216 main_v215 main_v217 (addf : (⟨S65536x128, .f32⟩ : BufTy).Contents (Elt F) → (⟨S65536x128, .f32⟩ : BufTy).Contents (Elt F) → (⟨S65536x128, .f32⟩ : BufTy).Contents (Elt F)),
    nullary main_cst_37 (constant S_ .f32 0x3F800000#32),
    unary main_cst_37 main_v218 (broadcastInDim S65536x128 ![] bcast_S_S65536x128 : (⟨S_, .f32⟩ : BufTy).Contents (Elt F) → (⟨S65536x128, .f32⟩ : BufTy).Contents (Elt F)),
    binary main_v218 main_v217 main_v219 (Host.divf : (⟨S65536x128, .f32⟩ : BufTy).Contents (Elt F) → (⟨S65536x128, .f32⟩ : BufTy).Contents (Elt F) → (⟨S65536x128, .f32⟩ : BufTy).Contents (Elt F)),
    binary main_v211 main_v219 main_v220 (mulf : (⟨S65536x128, .f32⟩ : BufTy).Contents (Elt F) → (⟨S65536x128, .f32⟩ : BufTy).Contents (Elt F) → (⟨S65536x128, .f32⟩ : BufTy).Contents (Elt F)),
    unary main_arg25 main_v221 ((transpose S128x40 [1, 0] · transposes_S40x128_S128x40_1_0) : (⟨S40x128, .f32⟩ : BufTy).Contents (Elt F) → (⟨S128x40, .f32⟩ : BufTy).Contents (Elt F)),
    binary main_v220 main_v221 main_v222 ((fun l r => Host.dotGeneral dot_S65536x128_S128x40_S65536x40_1_0_0_1_n_n none l r) : (⟨S65536x128, .f32⟩ : BufTy).Contents (Elt F) → (⟨S128x40, .f32⟩ : BufTy).Contents (Elt F) → (⟨S65536x40, .f32⟩ : BufTy).Contents (Elt F)) ]

abbrev ops_39 : List (HloOp τ sig (Elt F)) :=
  [ unary main_v222 main_v223 (Host.tanh : (⟨S65536x40, .f32⟩ : BufTy).Contents (Elt F) → (⟨S65536x40, .f32⟩ : BufTy).Contents (Elt F)),
    unary main_v15 main_v224 (broadcastInDim S65536x40 ![0, 1] bcast_S65536x1_S65536x40_0_1 : (⟨S65536x1, .f32⟩ : BufTy).Contents (Elt F) → (⟨S65536x40, .f32⟩ : BufTy).Contents (Elt F)),
    binary main_v223 main_v224 main_v225 (mulf : (⟨S65536x40, .f32⟩ : BufTy).Contents (Elt F) → (⟨S65536x40, .f32⟩ : BufTy).Contents (Elt F) → (⟨S65536x40, .f32⟩ : BufTy).Contents (Elt F)),
    unary main_arg2 main_v226 ((extractStridedSlice S65536x216 ![0, 40] · slices_S65536x256_S65536x216_0_40) : (⟨S65536x256, .f32⟩ : BufTy).Contents (Elt F) → (⟨S65536x216, .f32⟩ : BufTy).Contents (Elt F)),
    binary main_v226 main_v225 main_v227 ((fun a b => concatenate S65536x256 1 [⟨S65536x216, a⟩, ⟨S65536x40, b⟩] concatenates_S65536x216_S65536x40_S65536x256_d1) : (⟨S65536x216, .f32⟩ : BufTy).Contents (Elt F) → (⟨S65536x40, .f32⟩ : BufTy).Contents (Elt F) → (⟨S65536x256, .f32⟩ : BufTy).Contents (Elt F)),
    unary main_arg1 main_v228 ((extractStridedSlice S65536x216 ![0, 40] · slices_S65536x256_S65536x216_0_40) : (⟨S65536x256, .f32⟩ : BufTy).Contents (Elt F) → (⟨S65536x216, .f32⟩ : BufTy).Contents (Elt F)),
    binary main_v228 main_v45 main_v229 ((fun a b => concatenate S65536x256 1 [⟨S65536x216, a⟩, ⟨S65536x40, b⟩] concatenates_S65536x216_S65536x40_S65536x256_d1) : (⟨S65536x216, .f32⟩ : BufTy).Contents (Elt F) → (⟨S65536x40, .f32⟩ : BufTy).Contents (Elt F) → (⟨S65536x256, .f32⟩ : BufTy).Contents (Elt F)) ]

abbrev wr_20 : List (Ref sig .tc) := [main_v106, main_v107, main_v108, main_v109, main_cst_20, main_v110, main_v111, main_cst_21, main_v112, main_v113, main_v114]
theorem writes_20 : (ops_20 (F := F)).Forall fun op => op.writes ⊆ (wr_20.map (Proc.devRef (τ := τ) .tc)).toFinset := by
  and_intros <;> exact writes_sub_of_mem rfl (by decide)

abbrev wr_21 : List (Ref sig .tc) := [main_v115, main_v116, main_v117]
theorem writes_21 : (ops_21 (F := F)).Forall fun op => op.writes ⊆ (wr_21.map (Proc.devRef (τ := τ) .tc)).toFinset := by
  and_intros <;> exact writes_sub_of_mem rfl (by decide)

abbrev wr_22 : List (Ref sig .tc) := [main_v118]
theorem writes_22 : (ops_22 (F := F)).Forall fun op => op.writes ⊆ (wr_22.map (Proc.devRef (τ := τ) .tc)).toFinset := by
  and_intros <;> exact writes_sub_of_mem rfl (by decide)

abbrev wr_23 : List (Ref sig .tc) := [main_v119, main_v120, main_v121, main_v122, main_v123, main_v124, main_v125, main_v126, main_v127, main_v128]
theorem writes_23 : (ops_23 (F := F)).Forall fun op => op.writes ⊆ (wr_23.map (Proc.devRef (τ := τ) .tc)).toFinset := by
  and_intros <;> exact writes_sub_of_mem rfl (by decide)

abbrev wr_24 : List (Ref sig .tc) := [main_v129, main_v130, main_v131, main_cst_22, main_v132, main_v133, main_cst_23, main_v134, main_v135]
theorem writes_24 : (ops_24 (F := F)).Forall fun op => op.writes ⊆ (wr_24.map (Proc.devRef (τ := τ) .tc)).toFinset := by
  and_intros <;> exact writes_sub_of_mem rfl (by decide)

abbrev wr_25 : List (Ref sig .tc) := [main_v136, main_v137, main_v138, main_cst_24, main_v139, main_v140, main_cst_25, main_v141, main_v142]
theorem writes_25 : (ops_25 (F := F)).Forall fun op => op.writes ⊆ (wr_25.map (Proc.devRef (τ := τ) .tc)).toFinset := by
  and_intros <;> exact writes_sub_of_mem rfl (by decide)

abbrev wr_26 : List (Ref sig .tc) := [main_v143, main_v144, main_v145, main_cst_26, main_v146, main_v147, main_v148, main_v149, main_v150]
theorem writes_26 : (ops_26 (F := F)).Forall fun op => op.writes ⊆ (wr_26.map (Proc.devRef (τ := τ) .tc)).toFinset := by
  and_intros <;> exact writes_sub_of_mem rfl (by decide)

abbrev wr_27 : List (Ref sig .tc) := [main_v151, main_v152, main_v153, main_v154, main_cst_27, main_v155, main_v156, main_cst_28, main_v157, main_v158, main_v159]
theorem writes_27 : (ops_27 (F := F)).Forall fun op => op.writes ⊆ (wr_27.map (Proc.devRef (τ := τ) .tc)).toFinset := by
  and_intros <;> exact writes_sub_of_mem rfl (by decide)

abbrev wr_28 : List (Ref sig .tc) := [main_v160, main_v161, main_v162]
theorem writes_28 : (ops_28 (F := F)).Forall fun op => op.writes ⊆ (wr_28.map (Proc.devRef (τ := τ) .tc)).toFinset := by
  and_intros <;> exact writes_sub_of_mem rfl (by decide)

abbrev wr_29 : List (Ref sig .tc) := [main_v163]
theorem writes_29 : (ops_29 (F := F)).Forall fun op => op.writes ⊆ (wr_29.map (Proc.devRef (τ := τ) .tc)).toFinset := by
  and_intros <;> exact writes_sub_of_mem rfl (by decide)

abbrev wr_30 : List (Ref sig .tc) := [main_v164, main_v165, main_v166, main_v167, main_v168, main_v169, main_v170, main_v171, main_v172, main_v173]
theorem writes_30 : (ops_30 (F := F)).Forall fun op => op.writes ⊆ (wr_30.map (Proc.devRef (τ := τ) .tc)).toFinset := by
  and_intros <;> exact writes_sub_of_mem rfl (by decide)

abbrev wr_31 : List (Ref sig .tc) := [main_v174, main_v175, main_v176, main_cst_29, main_v177, main_v178, main_cst_30, main_v179, main_v180]
theorem writes_31 : (ops_31 (F := F)).Forall fun op => op.writes ⊆ (wr_31.map (Proc.devRef (τ := τ) .tc)).toFinset := by
  and_intros <;> exact writes_sub_of_mem rfl (by decide)

abbrev wr_32 : List (Ref sig .tc) := [main_v181, main_v182, main_v183, main_cst_31, main_v184, main_v185, main_cst_32, main_v186, main_v187]
theorem writes_32 : (ops_32 (F := F)).Forall fun op => op.writes ⊆ (wr_32.map (Proc.devRef (τ := τ) .tc)).toFinset := by
  and_intros <;> exact writes_sub_of_mem rfl (by decide)

abbrev wr_33 : List (Ref sig .tc) := [main_v188, main_v189, main_v190, main_cst_33, main_v191, main_v192, main_v193, main_v194, main_v195]
theorem writes_33 : (ops_33 (F := F)).Forall fun op => op.writes ⊆ (wr_33.map (Proc.devRef (τ := τ) .tc)).toFinset := by
  and_intros <;> exact writes_sub_of_mem rfl (by decide)

abbrev wr_34 : List (Ref sig .tc) := [main_v196, main_v197, main_v198, main_v199, main_cst_34, main_v200, main_v201, main_cst_35, main_v202, main_v203, main_v204]
theorem writes_34 : (ops_34 (F := F)).Forall fun op => op.writes ⊆ (wr_34.map (Proc.devRef (τ := τ) .tc)).toFinset := by
  and_intros <;> exact writes_sub_of_mem rfl (by decide)

abbrev wr_35 : List (Ref sig .tc) := [main_v205, main_v206, main_v207]
theorem writes_35 : (ops_35 (F := F)).Forall fun op => op.writes ⊆ (wr_35.map (Proc.devRef (τ := τ) .tc)).toFinset := by
  and_intros <;> exact writes_sub_of_mem rfl (by decide)

abbrev wr_36 : List (Ref sig .tc) := [main_v208]
theorem writes_36 : (ops_36 (F := F)).Forall fun op => op.writes ⊆ (wr_36.map (Proc.devRef (τ := τ) .tc)).toFinset := by
  and_intros <;> exact writes_sub_of_mem rfl (by decide)

abbrev wr_37 : List (Ref sig .tc) := [main_v209, main_v210, main_v211, main_v212, main_v213, main_v214, main_v215]
theorem writes_37 : (ops_37 (F := F)).Forall fun op => op.writes ⊆ (wr_37.map (Proc.devRef (τ := τ) .tc)).toFinset := by
  and_intros <;> exact writes_sub_of_mem rfl (by decide)

abbrev wr_38 : List (Ref sig .tc) := [main_cst_36, main_v216, main_v217, main_cst_37, main_v218, main_v219, main_v220, main_v221, main_v222]
theorem writes_38 : (ops_38 (F := F)).Forall fun op => op.writes ⊆ (wr_38.map (Proc.devRef (τ := τ) .tc)).toFinset := by
  and_intros <;> exact writes_sub_of_mem rfl (by decide)

abbrev wr_39 : List (Ref sig .tc) := [main_v223, main_v224, main_v225, main_v226, main_v227, main_v228, main_v229]
theorem writes_39 : (ops_39 (F := F)).Forall fun op => op.writes ⊆ (wr_39.map (Proc.devRef (τ := τ) .tc)).toFinset := by
  and_intros <;> exact writes_sub_of_mem rfl (by decide)

theorem step_20 {W : Valuation τ sig (Elt F)} {a : Args F} (h : Inv_19 W a) : Inv_20 (after ops_20 W) a := by
  unfold Inv_19 at h; unfold Inv_20
  obtain ⟨hA, h_main_v15, h_main_v43, h_main_v44, h_main_v45, h_main_v58, h_main_v69, h_main_v105⟩ := h
  refine ⟨hA.keep writes_20, ?_, ?_, ?_, ?_, ?_, ?_, ?_, ?_⟩
  all_goals try exact (after_of_writes_sub ops_20 W writes_20 (by decide)).trans ‹_›
  · after_results
    rw [h_main_v105, hA.arg16]
    unfold st_main_v114 val_main_v114 val_main_v113 val_main_v112 val_main_cst_21 val_main_v111 val_main_v110 val_main_cst_20 val_main_v109 val_main_v108 val_main_v107 val_main_v106
    rfl

theorem step_21 {W : Valuation τ sig (Elt F)} {a : Args F} (h : Inv_20 W a) : Inv_21 (after ops_21 W) a := by
  unfold Inv_20 at h; unfold Inv_21
  obtain ⟨hA, h_main_v15, h_main_v43, h_main_v44, h_main_v45, h_main_v58, h_main_v69, h_main_v105, h_main_v114⟩ := h
  refine ⟨hA.keep writes_21, ?_, ?_, ?_, ?_, ?_, ?_, ?_, ?_, ?_⟩
  all_goals try exact (after_of_writes_sub ops_21 W writes_21 (by decide)).trans ‹_›
  · after_results
    rw [h_main_v69, h_main_v45]
    unfold st_main_v117 val_main_v117 val_main_v116 val_main_v115
    rfl

theorem step_22 {W : Valuation τ sig (Elt F)} {a : Args F} (h : Inv_21 W a) : Inv_22 (after ops_22 W) a := by
  unfold Inv_21 at h; unfold Inv_22
  obtain ⟨hA, h_main_v15, h_main_v43, h_main_v44, h_main_v45, h_main_v58, h_main_v69, h_main_v105, h_main_v114, h_main_v117⟩ := h
  refine ⟨hA.keep writes_22, ?_, ?_, ?_, ?_, ?_, ?_, ?_, ?_, ?_⟩
  all_goals try exact (after_of_writes_sub ops_22 W writes_22 (by decide)).trans ‹_›
  · simp only [after_cons, after_nil]
    rw [nary_result]
    show concatenate S65536x240 1 [⟨S65536x160, W (Proc.devRef .tc main_v114)⟩, ⟨S65536x40, W (Proc.devRef .tc main_v117)⟩, ⟨S65536x40, W (Proc.devRef .tc main_v43)⟩] concatenates_S65536x160_S65536x40_S65536x40_S65536x240_d1 = _
    rw [h_main_v114, h_main_v117, h_main_v43]
    unfold st_main_v118 val_main_v118
    rfl

theorem step_23 {W : Valuation τ sig (Elt F)} {a : Args F} (h : Inv_22 W a) : Inv_23 (after ops_23 W) a := by
  unfold Inv_22 at h; unfold Inv_23
  obtain ⟨hA, h_main_v15, h_main_v43, h_main_v44, h_main_v45, h_main_v58, h_main_v69, h_main_v105, h_main_v114, h_main_v118⟩ := h
  refine ⟨hA.keep writes_23, ?_, ?_, ?_, ?_, ?_, ?_, ?_, ?_, ?_, ?_, ?_, ?_, ?_, ?_⟩
  all_goals try exact (after_of_writes_sub ops_23 W writes_23 (by decide)).trans ‹_›
  · after_results
    rw [h_main_v118, hA.arg17]
    unfold st_main_v123 val_main_v123 val_main_v120 val_main_v119
    rfl
  · after_results
    rw [h_main_v118, hA.arg17]
    unfold st_main_v124 val_main_v124 val_main_v120 val_main_v119
    rfl
  · after_results
    rw [h_main_v118, hA.arg17]
    unfold st_main_v125 val_main_v125 val_main_v120 val_main_v119
    rfl
  · after_results
    rw [hA.arg4, hA.arg18]
    unfold st_main_v126 val_main_v126 val_main_v122 val_main_v121
    rfl
  · after_results
    rw [hA.arg4, hA.arg18]
    unfold st_main_v127 val_main_v127 val_main_v122 val_main_v121
    rfl
  · after_results
    rw [hA.arg4, hA.arg18]
    unfold st_main_v128 val_main_v128 val_main_v122 val_main_v121
    rfl

theorem step_24 {W : Valuation τ sig (Elt F)} {a : Args F} (h : Inv_23 W a) : Inv_24 (after ops_24 W) a := by
  unfold Inv_23 at h; unfold Inv_24
  obtain ⟨hA, h_main_v15, h_main_v43, h_main_v44, h_main_v45, h_main_v58, h_main_v69, h_main_v105, h_main_v114, h_main_v123, h_main_v124, h_main_v125, h_main_v126, h_main_v127, h_main_v128⟩ := h
  refine ⟨hA.keep writes_24, ?_, ?_, ?_, ?_, ?_, ?_, ?_, ?_, ?_, ?_, ?_, ?_, ?_⟩
  all_goals try exact (after_of_writes_sub ops_24 W writes_24 (by decide)).trans ‹_›
  · after_results
    rw [h_main_v123, h_main_v126]
    unfold st_main_v135 val_main_v135 val_main_v134 val_main_cst_23 val_main_v133 val_main_v132 val_main_cst_22 val_main_v131 val_main_v130 val_main_v129
    rfl

theorem step_25 {W : Valuation τ sig (Elt F)} {a : Args F} (h : Inv_24 W a) : Inv_25 (after ops_25 W) a := by
  unfold Inv_24 at h; unfold Inv_25
  obtain ⟨hA, h_main_v15, h_main_v43, h_main_v44, h_main_v45, h_main_v58, h_main_v69, h_main_v105, h_main_v114, h_main_v124, h_main_v125, h_main_v127, h_main_v128, h_main_v135⟩ := h
  refine ⟨hA.keep writes_25, ?_, ?_, ?_, ?_, ?_, ?_, ?_, ?_, ?_, ?_, ?_, ?_⟩
  all_goals try exact (after_of_writes_sub ops_25 W writes_25 (by decide)).trans ‹_›
  · after_results
    rw [h_main_v124, h_main_v127]
    unfold st_main_v142 val_main_v142 val_main_v141 val_main_cst_25 val_main_v140 val_main_v139 val_main_cst_24 val_main_v138 val_main_v137 val_main_v136
    rfl

theorem step_26 {W : Valuation τ sig (Elt F)} {a : Args F} (h : Inv_25 W a) : Inv_26 (after ops_26 W) a := by
  unfold Inv_25 at h; unfold Inv_26
  obtain ⟨hA, h_main_v15, h_main_v43, h_main_v44, h_main_v45, h_main_v58, h_main_v69, h_main_v105, h_main_v114, h_main_v125, h_main_v128, h_main_v135, h_main_v142⟩ := h
  refine ⟨hA.keep writes_26, ?_, ?_, ?_, ?_, ?_, ?_, ?_, ?_, ?_⟩
  all_goals try exact (after_of_writes_sub ops_26 W writes_26 (by decide)).trans ‹_›
  · after_results
    rw [h_main_v142, h_main_v125, h_main_v135, h_main_v128, hA.arg4]
    unfold st_main_v150 val_main_v150 val_main_v149 val_main_v148 val_main_v147 val_main_v146 val_main_cst_26 val_main_v145 val_main_v144 val_main_v143
    rfl

theorem step_27 {W : Valuation τ sig (Elt F)} {a : Args F} (h : Inv_26 W a) : Inv_27 (after ops_27 W) a := by
  unfold Inv_26 at h; unfold Inv_27
  obtain ⟨hA, h_main_v15, h_main_v43, h_main_v44, h_main_v45, h_main_v58, h_main_v69, h_main_v105, h_main_v114, h_main_v150⟩ := h
  refine ⟨hA.keep writes_27, ?_, ?_, ?_, ?_, ?_, ?_, ?_, ?_, ?_, ?_⟩
  all_goals try exact (after_of_writes_sub ops_27 W writes_27 (by decide)).trans ‹_›
  · after_results
    rw [h_main_v150, hA.arg19]
    unfold st_main_v159 val_main_v159 val_main_v158 val_main_v157 val_main_cst_28 val_main_v156 val_main_v155 val_main_cst_27 val_main_v154 val_main_v153 val_main_v152 val_main_v151
    rfl

theorem step_28 {W : Valuation τ sig (Elt F)} {a : Args F} (h : Inv_27 W a) : Inv_28 (after ops_28 W) a := by
  unfold Inv_27 at h; unfold Inv_28
  obtain ⟨hA, h_main_v15, h_main_v43, h_main_v44, h_main_v45, h_main_v58, h_main_v69, h_main_v105, h_main_v114, h_main_v150, h_main_v159⟩ := h
  refine ⟨hA.keep writes_28, ?_, ?_, ?_, ?_, ?_, ?_, ?_, ?_, ?_, ?_, ?_⟩
  all_goals try exact (after_of_writes_sub ops_28 W writes_28 (by decide)).trans ‹_›
  · after_results
    rw [h_main_v69, h_main_v45]
    unfold st_main_v162 val_main_v162 val_main_v161 val_main_v160
    rfl

theorem step_29 {W : Valuation τ sig (Elt F)} {a : Args F} (h : Inv_28 W a) : Inv_29 (after ops_29 W) a := by
  unfold Inv_28 at h; unfold Inv_29
  obtain ⟨hA, h_main_v15, h_main_v43, h_main_v44, h_main_v45, h_main_v58, h_main_v69, h_main_v105, h_main_v114, h_main_v150, h_main_v159, h_main_v162⟩ := h
  refine ⟨hA.keep writes_29, ?_, ?_, ?_, ?_, ?_, ?_, ?_, ?_, ?_, ?_, ?_⟩
  all_goals try exact (after_of_writes_sub ops_29 W writes_29 (by decide)).trans ‹_›
  · simp only [after_cons, after_nil]
    rw [nary_result]
    show concatenate S65536x208 1 [⟨S65536x128, W (Proc.devRef .tc main_v159)⟩, ⟨S65536x40, W (Proc.devRef .tc main_v162)⟩, ⟨S65536x40, W (Proc.devRef .tc main_v43)⟩] concatenates_S65536x128_S65536x40_S65536x40_S65536x208_d1 = _
    rw [h_main_v159, h_main_v162, h_main_v43]
    unfold st_main_v163 val_main_v163
    rfl

theorem step_30 {W : Valuation τ sig (Elt F)} {a : Args F} (h : Inv_29 W a) : Inv_30 (after ops_30 W) a := by
  unfold Inv_29 at h; unfold Inv_30
  obtain ⟨hA, h_main_v15, h_main_v43, h_main_v44, h_main_v45, h_main_v58, h_main_v69, h_main_v105, h_main_v114, h_main_v150, h_main_v159, h_main_v163⟩ := h
  refine ⟨hA.keep writes_30, ?_, ?_, ?_, ?_, ?_, ?_, ?_, ?_, ?_, ?_, ?_, ?_, ?_, ?_, ?_, ?_⟩
  all_goals try exact (after_of_writes_sub ops_30 W writes_30 (by decide)).trans ‹_›
  · after_results
    rw [h_main_v163, hA.arg20]
    unfold st_main_v168 val_main_v168 val_main_v165 val_main_v164
    rfl
  · after_results
    rw [h_main_v163, hA.arg20]
    unfold st_main_v169 val_main_v169 val_main_v165 val_main_v164
    rfl
  · after_results
    rw [h_main_v163, hA.arg20]
    unfold st_main_v170 val_main_v170 val_main_v165 val_main_v164
    rfl
  · after_results
    rw [hA.arg5, hA.arg21]
    unfold st_main_v171 val_main_v171 val_main_v167 val_main_v166
    rfl
  · after_results
    rw [hA.arg5, hA.arg21]
    unfold st_main_v172 val_main_v172 val_main_v167 val_main_v166
    rfl
  · after_results
    rw [hA.arg5, hA.arg21]
    unfold st_main_v173 val_main_v173 val_main_v167 val_main_v166
    rfl

theorem step_31 {W : Valuation τ sig (Elt F)} {a : Args F} (h : Inv_30 W a) : Inv_31 (after ops_31 W) a := by
  unfold Inv_30 at h; unfold Inv_31
  obtain ⟨hA, h_main_v15, h_main_v43, h_main_v44, h_main_v45, h_main_v58, h_main_v69, h_main_v105, h_main_v114, h_main_v150, h_main_v159, h_main_v168, h_main_v169, h_main_v170, h_main_v171, h_main_v172, h_main_v173⟩ := h
  refine ⟨hA.keep writes_31, ?_, ?_, ?_, ?_, ?_, ?_, ?_, ?_, ?_, ?_, ?_, ?_, ?_, ?_, ?_⟩
  all_goals try exact (after_of_writes_sub ops_31 W writes_31 (by decide)).trans ‹_›
  · after_results
    rw [h_main_v168, h_main_v171]
    unfold st_main_v180 val_main_v180 val_main_v179 val_main_cst_30 val_main_v178 val_main_v177 val_main_cst_29 val_main_v176 val_main_v175 val_main_v174
    rfl

theorem step_32 {W : Valuation τ sig (Elt F)} {a : Args F} (h : Inv_31 W a) : Inv_32 (after ops_32 W) a := by
  unfold Inv_31 at h; unfold Inv_32
  obtain ⟨hA, h_main_v15, h_main_v43, h_main_v44, h_main_v45, h_main_v58, h_main_v69, h_main_v105, h_main_v114, h_main_v150, h_main_v159, h_main_v169, h_main_v170, h_main_v172, h_main_v173, h_main_v180⟩ := h
  refine ⟨hA.keep writes_32, ?_, ?_, ?_, ?_, ?_, ?_, ?_, ?_, ?_, ?_, ?_, ?_, ?_, ?_⟩
  all_goals try exact (after_of_writes_sub ops_32 W writes_32 (by decide)).trans ‹_›
  · after_results
    rw [h_main_v169, h_main_v172]
    unfold st_main_v187 val_main_v187 val_main_v186 val_main_cst_32 val_main_v185 val_main_v184 val_main_cst_31 val_main_v183 val_main_v182 val_main_v181
    rfl

theorem step_33 {W : Valuation τ sig (Elt F)} {a : Args F} (h : Inv_32 W a) : Inv_33 (after ops_33 W) a := by
  unfold Inv_32 at h; unfold Inv_33
  obtain ⟨hA, h_main_v15, h_main_v43, h_main_v44, h_main_v45, h_main_v58, h_main_v69, h_main_v105, h_main_v114, h_main_v150, h_main_v159, h_main_v170, h_main_v173, h_main_v180, h_main_v187⟩ := h
  refine ⟨hA.keep writes_33, ?_, ?_, ?_, ?_, ?_, ?_, ?_, ?_, ?_, ?_, ?_⟩
  all_goals try exact (after_of_writes_sub ops_33 W writes_33 (by decide)).trans ‹_›
  · after_results
    rw [h_main_v187, h_main_v170, h_main_v180, h_main_v173, hA.arg5]
    unfold st_main_v195 val_main_v195 val_main_v194 val_main_v193 val_main_v192 val_main_v191 val_main_cst_33 val_main_v190 val_main_v189 val_main_v188
    rfl

theorem step_34 {W : Valuation τ sig (Elt F)} {a : Args F} (h : Inv_33 W a) : Inv_34 (after ops_34 W) a := by
  unfold Inv_33 at h; unfold Inv_34
  obtain ⟨hA, h_main_v15, h_main_v43, h_main_v44, h_main_v45, h_main_v58, h_main_v69, h_main_v105, h_main_v114, h_main_v150, h_main_v159, h_main_v195⟩ := h
  refine ⟨hA.keep writes_34, ?_, ?_, ?_, ?_, ?_, ?_, ?_, ?_, ?_, ?_, ?_, ?_⟩
  all_goals try exact (after_of_writes_sub ops_34 W writes_34 (by decide)).trans ‹_›
  · after_results
    rw [h_main_v195, hA.arg22]
    unfold st_main_v204 val_main_v204 val_main_v203 val_main_v202 val_main_cst_35 val_main_v201 val_main_v200 val_main_cst_34 val_main_v199 val_main_v198 val_main_v197 val_main_v196
    rfl

theorem step_35 {W : Valuation τ sig (Elt F)} {a : Args F} (h : Inv_34 W a) : Inv_35 (after ops_35 W) a := by
  unfold Inv_34 at h; unfold Inv_35
  obtain ⟨hA, h_main_v15, h_main_v43, h_main_v44, h_main_v45, h_main_v58, h_main_v69, h_main_v105, h_main_v114, h_main_v150, h_main_v159, h_main_v195, h_main_v204⟩ := h
  refine ⟨hA.keep writes_35, ?_, ?_, ?_, ?_, ?_, ?_, ?_, ?_, ?_, ?_, ?_, ?_⟩
  all_goals try exact (after_of_writes_sub ops_35 W writes_35 (by decide)).trans ‹_›
  · after_results
    rw [h_main_v69, h_main_v45]
    unfold st_main_v207 val_main_v207 val_main_v206 val_main_v205
    rfl

theorem step_36 {W : Valuation τ sig (Elt F)} {a : Args F} (h : Inv_35 W a) : Inv_36 (after ops_36 W) a := by
  unfold Inv_35 at h; unfold Inv_36
  obtain ⟨hA, h_main_v15, h_main_v43, h_main_v44, h_main_v45, h_main_v58, h_main_v105, h_main_v114, h_main_v150, h_main_v159, h_main_v195, h_main_v204, h_main_v207⟩ := h
  refine ⟨hA.keep writes_36, ?_, ?_, ?_, ?_, ?_, ?_, ?_⟩
  all_goals try exact (after_of_writes_sub ops_36 W writes_36 (by decide)).trans ‹_›
  · simp only [after_cons, after_nil]
    rw [nary_result]
    show concatenate S65536x688 1 [⟨S65536x160, W (Proc.devRef .tc main_v114)⟩, ⟨S65536x128, W (Proc.devRef .tc main_v159)⟩, ⟨S65536x128, W (Proc.devRef .tc main_v204)⟩, ⟨S65536x192, W (Proc.devRef .tc main_v58)⟩, ⟨S65536x40, W (Proc.devRef .tc main_v207)⟩, ⟨S65536x40, W (Proc.devRef .tc main_v43)⟩] concatenates_S65536x160_S65536x128_S65536x128_S65536x192_S65536x40_S65536x40_S65536x688_d1 = _
    rw [h_main_v114, h_main_v159, h_main_v204, h_main_v58, h_main_v207, h_main_v43]
    unfold st_main_v208 val_main_v208
    rfl

theorem step_37 {W : Valuation τ sig (Elt F)} {a : Args F} (h : Inv_36 W a) : Inv_37 (after ops_37 W) a := by
  unfold Inv_36 at h; unfold Inv_37
  obtain ⟨hA, h_main_v15, h_main_v44, h_main_v45, h_main_v105, h_main_v150, h_main_v195, h_main_v208⟩ := h
  refine ⟨hA.keep writes_37, ?_, ?_, ?_, ?_, ?_, ?_, ?_, ?_⟩
  all_goals try exact (after_of_writes_sub ops_37 W writes_37 (by decide)).trans ‹_›
  · after_results
    rw [h_main_v208, hA.arg23]
    unfold st_main_v211 val_main_v211 val_main_v210 val_main_v209
    rfl
  · after_results
    rw [h_main_v208, hA.arg23, hA.arg24]
    unfold st_main_v215 val_main_v215 val_main_v214 val_main_v213 val_main_v212 val_main_v211 val_main_v210 val_main_v209
    rfl

theorem step_38 {W : Valuation τ sig (Elt F)} {a : Args F} (h : Inv_37 W a) : Inv_38 (after ops_38 W) a := by
  unfold Inv_37 at h; unfold Inv_38
  obtain ⟨hA, h_main_v15, h_main_v44, h_main_v45, h_main_v105, h_main_v150, h_main_v195, h_main_v211, h_main_v215⟩ := h
  refine ⟨hA.keep writes_38, ?_, ?_, ?_, ?_, ?_, ?_, ?_⟩
  all_goals try exact (after_of_writes_sub ops_38 W writes_38 (by decide)).trans ‹_›
  · after_results
    rw [h_main_v211, h_main_v215, hA.arg25]
    unfold st_main_v222 val_main_v222 val_main_v221 val_main_v220 val_main_v219 val_main_v218 val_main_cst_37 val_main_v217 val_main_v216 val_main_cst_36
    rfl

theorem step_39 {W : Valuation τ sig (Elt F)} {a : Args F} (h : Inv_38 W a) : Inv_39 (after ops_39 W) a := by
  unfold Inv_38 at h; unfold Inv_39
  obtain ⟨hA, h_main_v15, h_main_v44, h_main_v45, h_main_v105, h_main_v150, h_main_v195, h_main_v222⟩ := h
  refine ⟨hA.keep writes_39, ?_, ?_, ?_, ?_, ?_, ?_, ?_⟩
  all_goals try exact (after_of_writes_sub ops_39 W writes_39 (by decide)).trans ‹_›
  · after_results
    rw [h_main_v222, h_main_v15]
    unfold st_main_v225 val_main_v225 val_main_v224 val_main_v223
    rfl
  · after_results
    rw [hA.arg2, h_main_v222, h_main_v15]
    unfold st_main_v227 val_main_v227 val_main_v226 val_main_v225 val_main_v224 val_main_v223
    rfl
  · after_results
    rw [hA.arg1, h_main_v45]
    unfold st_main_v229 val_main_v229 val_main_v228
    rfl

end Cert.ReferenceIdeal.HandRun

end
-- ==== Proof.RefRun.lean ====
import proofs.«401269_j23398981829052_3_alg».proof.Proof.RefRunA
import proofs.«401269_j23398981829052_3_alg».proof.Proof.RefRunB

noncomputable section

namespace Cert.ReferenceIdeal.HandRun

open Cert.ReferenceIdeal Cert.ReferenceIdeal.Gen Cert.ReferenceIdeal.Ops Cert.ReferenceIdeal.Read Idealize.ShloMosaic Idealize.ShloMosaic.TcCoe Idealize.SL.Sem Idealize.ShloMosaic.StableHlo

variable {F : FTy → Type} [FloatOps F]

set_option maxHeartbeats 0 in
theorem ops_eq : (ops : List (HloOp τ sig (Elt F))) = ops_00 ++ (ops_01 ++ (ops_02 ++ (ops_03 ++ (ops_04 ++ (ops_05 ++ (ops_06 ++ (ops_07 ++ (ops_08 ++ (ops_09 ++ (ops_10 ++ (ops_11 ++ (ops_12 ++ (ops_13 ++ (ops_14 ++ (ops_15 ++ (ops_16 ++ (ops_17 ++ (ops_18 ++ (ops_19 ++ (ops_20 ++ (ops_21 ++ (ops_22 ++ (ops_23 ++ (ops_24 ++ (ops_25 ++ (ops_26 ++ (ops_27 ++ (ops_28 ++ (ops_29 ++ (ops_30 ++ (ops_31 ++ (ops_32 ++ (ops_33 ++ (ops_34 ++ (ops_35 ++ (ops_36 ++ (ops_37 ++ (ops_38 ++ (ops_39))))))))))))))))))))))))))))))))))))))) := rfl

theorem ops_fresh : (ops : List (HloOp τ sig (Elt F))).Forall fun op => op.fresh = ∅ := by
  and_intros <;> rfl

theorem after_ops {W : Valuation τ sig (Elt F)} {a : Args F} (h : Inv_init W a) : Inv_39 (after ops W) a := by
  rw [ops_eq]
  simp only [after_app]
  exact step_39 (step_38 (step_37 (step_36 (step_35 (step_34 (step_33 (step_32 (step_31 (step_30 (step_29 (step_28 (step_27 (step_26 (step_25 (step_24 (step_23 (step_22 (step_21 (step_20 (step_19 (step_18 (step_17 (step_16 (step_15 (step_14 (step_13 (step_12 (step_11 (step_10 (step_09 (step_08 (step_07 (step_06 (step_05 (step_04 (step_03 (step_02 (step_01 (step_00 (h))))))))))))))))))))))))))))))))))))))))

/-- The argument arrays as a memory holds them on device `c`. -/
def argsOf (m : (ℓ : Loc nD τ sig) → Buf (Elt F) ℓ) (c : Dev nD) : Args F :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19),
   m ((c.tc : Thread nD τ).loc main_arg20),
   m ((c.tc : Thread nD τ).loc main_arg21),
   m ((c.tc : Thread nD τ).loc main_arg22),
   m ((c.tc : Thread nD τ).loc main_arg23),
   m ((c.tc : Thread nD τ).loc main_arg24),
   m ((c.tc : Thread nD τ).loc main_arg25)⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v225) = val_main_v225 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v227) = val_main_v227 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v229) = val_main_v229 (F := F) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))
      ∧ r.2.mem ((c.tc : Thread nD τ).loc main_v105) = val_main_v105 (F := F) (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v150) = val_main_v150 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v195) = val_main_v195 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_v44) = val_main_v44 (F := F) (m ((c.tc : Thread nD τ).loc main_arg0)) (m ((c.tc : Thread nD τ).loc main_arg2)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => by
      have H := after_ops (W := launchContents m c) (a := argsOf m c)
        ⟨rfl, rfl, rfl, rfl, rfl, rfl, rfl, rfl, rfl, rfl, rfl, rfl, rfl, rfl, rfl, rfl, rfl, rfl, rfl, rfl, rfl, rfl, rfl, rfl, rfl, rfl⟩
      unfold Inv_39 at H
      obtain ⟨hA, r_main_v44, r_main_v105, r_main_v150, r_main_v195, r_main_v225, r_main_v227, r_main_v229⟩ := H
      exact ⟨(h c main_v225).trans r_main_v225,
        (h c main_v227).trans r_main_v227,
        (h c main_v229).trans r_main_v229,
        (h c main_v105).trans r_main_v105,
        (h c main_v150).trans r_main_v150,
        (h c main_v195).trans r_main_v195,
        (h c main_v44).trans r_main_v44,
        (h c main_arg0).trans hA.arg0,
        (h c main_arg1).trans hA.arg1,
        (h c main_arg2).trans hA.arg2,
        (h c main_arg3).trans hA.arg3,
        (h c main_arg4).trans hA.arg4,
        (h c main_arg5).trans hA.arg5,
        (h c main_arg6).trans hA.arg6,
        (h c main_arg7).trans hA.arg7,
        (h c main_arg8).trans hA.arg8,
        (h c main_arg9).trans hA.arg9,
        (h c main_arg10).trans hA.arg10,
        (h c main_arg11).trans hA.arg11,
        (h c main_arg12).trans hA.arg12,
        (h c main_arg13).trans hA.arg13,
        (h c main_arg14).trans hA.arg14,
        (h c main_arg15).trans hA.arg15,
        (h c main_arg16).trans hA.arg16,
        (h c main_arg17).trans hA.arg17,
        (h c main_arg18).trans hA.arg18,
        (h c main_arg19).trans hA.arg19,
        (h c main_arg20).trans hA.arg20,
        (h c main_arg21).trans hA.arg21,
        (h c main_arg22).trans hA.arg22,
        (h c main_arg23).trans hA.arg23,
        (h c main_arg24).trans hA.arg24,
        (h c main_arg25).trans hA.arg25⟩)
    (run_seq scopedRefs_eq scopedSems_eq defs main (fun _ => ops) main_eq (fun _ => ops_sub) m ρ
      fun _ => List.forall_iff_forall_mem.mp ops_fresh)

end Cert.ReferenceIdeal.HandRun

end
-- ==== Proof.lean ====
/- Row by row both programs compute one vocoder sub-frame step. They differ in how sums are split over the pieces of a
   concatenated input and in where a row's pitch gain, a nonnegative finite scalar, is taken out of a sum: over the
   extended reals neither changes a value. -/
import proofs.«401269_j23398981829052_3_alg».proof.Defs
import proofs.«401269_j23398981829052_3_alg».proof.Proof.Gen.Kernel
import proofs.«401269_j23398981829052_3_alg».proof.Proof.Gen.KernelIdeal
import proofs.«401269_j23398981829052_3_alg».proof.Proof.Gen.ReferenceIdeal
import proofs.«401269_j23398981829052_3_alg».proof.Proof.Gen.Pre_finite_inputs
import proofs.«401269_j23398981829052_3_alg».proof.Proof.FrameBits
import proofs.«401269_j23398981829052_3_alg».proof.Proof.KValue
import proofs.«401269_j23398981829052_3_alg».proof.Proof.RefRun
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Fr.frame m ρ

theorem frame_kernelIdeal [Cert.KernelIdeal.Facts] [Cert.Pre_finite_inputs.Facts] : Cert.frame_KernelIdeal :=
  fun m ρ _ => Cert.KernelIdeal.Fr.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2.2.2.2.2.2.2)
    (Cert.ReferenceIdeal.HandRun.run (F := Ideal) m ρ)

theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, _, _, _, _, _, Cert.KernelIdeal.KV.run m ρ, ?_⟩
  refine (θ_run Cert.ReferenceIdeal.defs _ _).mono (fun r h c => ?_) (Cert.ReferenceIdeal.HandRun.run (F := Ideal) m' ρ')
  have hc := h c
  simp only [hagree c] at hc ⊢
  exact hc

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
